-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1x10000x128 : Shape := ⟨3, ![1, 10000, 128]⟩
abbrev S1x1x128 : Shape := ⟨3, ![1, 1, 128]⟩
abbrev S320000 : Shape := ⟨1, ![320000]⟩
abbrev S1x320000x1 : Shape := ⟨3, ![1, 320000, 1]⟩
abbrev S256x128 : Shape := ⟨2, ![256, 128]⟩
abbrev S256 : Shape := ⟨1, ![256]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x1x128 : S_.BroadcastsInDim S1x1x128 (![] : Fin 0 → Fin S1x1x128.rank)
  reducesTo_S1x1x128_S_d0_1_2 : S1x1x128.ReducesTo [0, 1, 2] S_
  bcast_S_S1x320000x1 : S_.BroadcastsInDim S1x320000x1 (![] : Fin 0 → Fin S1x320000x1.rank)
  reducesTo_S1x320000x1_S_d0_1_2 : S1x320000x1.ReducesTo [0, 1, 2] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S320000 : S_.BroadcastsInDim S320000 (![] : Fin 0 → Fin S320000.rank)
  reducesTo_S320000_S_d0 : S320000.ReducesTo [0] S_
  reducesTo_S256x128_S256_d1 : S256x128.ReducesTo [1] S256

variable [Facts]

def fn_part3 {F : FTy → Type} [FloatOps F] (main_arg5 : FVec F S256x128 .f32) (main_v50 : IVec S_ 1) : IVec S_ 1 :=
  let main_cst_19 : FVec F S_ .f32 := constant S_ .f32 0x00000000#32
  let main_v51 : FVec F S256x128 .f32 := broadcastInDim S256x128 ![] bcast_S_S256x128 main_cst_19
  let main_v52 : IVec S256x128 1 := cmpf .une main_arg5 main_v51
  let main_c_20 : IVec S_ 1 := constantI S_ 1 0#1
  let main_v53 : IVec S256 1 := (fun x v => Host.reduce IntOp.ori x v reducesTo_S256x128_S256_d1 h_S_) main_v52 main_c_20
  let main_c_21 : IVec S_ 1 := constantI S_ 1 1#1
  let main_v54 : IVec S_ 1 := (fun x v => Host.reduce IntOp.andi x v reducesTo_S256_S_d0 h_S_) main_v53 main_c_21
  let main_v55 : IVec S_ 1 := andi main_v50 main_v54
  main_v55

def fn_part2 {F : FTy → Type} [FloatOps F] (main_arg2 : IVec S320000 32) (main_arg5 : FVec F S256x128 .f32) (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S320000 32 := broadcastInDim S320000 ![] bcast_S_S320000 main_c_16
  let main_v45 : IVec S320000 1 := cmpi .sge main_arg2 main_v44
  let main_c_17 : IVec S_ 32 := constantI S_ 32 9999#32
  let main_v46 : IVec S320000 32 := broadcastInDim S320000 ![] bcast_S_S320000 main_c_17
  let main_v47 : IVec S320000 1 := cmpi .sle main_arg2 main_v46
  let main_v48 : IVec S320000 1 := andi main_v45 main_v47
  let main_c_18 : IVec S_ 1 := constantI S_ 1 1#1
  let main_v49 : IVec S_ 1 := (fun x v => Host.reduce IntOp.andi x v reducesTo_S320000_S_d0 h_S_) main_v48 main_c_18
  let main_v50 : IVec S_ 1 := andi main_v43 main_v49
  fn_part3 (F := F) main_arg5 main_v50

def fn_part1 {F : FTy → Type} [FloatOps F] (main_arg2 : IVec S320000 32) (main_arg5 : FVec F S256x128 .f32) (main_arg6 : FVec F S256 .f32) (main_arg7 : FVec F S256 .f32) (main_arg8 : FVec F S128x128 .f32) (main_arg9 : FVec F S128 .f32) (main_v13 : IVec S_ 1) (main_v16 : IVec S1x320000x1 1) : IVec S_ 1 :=
  let main_c_5 : IVec S_ 1 := constantI S_ 1 1#1
  let main_v17 : IVec S_ 1 := (fun x v => Host.reduce IntOp.andi x v reducesTo_S1x320000x1_S_d0_1_2 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_arg5 main_arg8 main_arg9 main_v33

def fn {F : FTy → Type} [FloatOps F] (main_arg0 : FVec F S1x10000x128 .f32) (main_arg1 : FVec F S1x1x128 .f32) (main_arg2 : IVec S320000 32) (main_arg3 : FVec F S1x320000x1 .f32) (main_arg4 : FVec F S1x320000x1 .f32) (main_arg5 : FVec F S256x128 .f32) (main_arg6 : FVec F S256 .f32) (main_arg7 : FVec F S256 .f32) (main_arg8 : FVec F S128x128 .f32) (main_arg9 : FVec F S128 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x1x128 .f32 := Host.absf main_arg1
  let main_cst_0 : FVec F S_ .f32 := constant S_ .f32 0x7F800000#32
  let main_v5 : FVec F S1x1x128 .f32 := broadcastInDim S1x1x128 ![] bcast_S_S1x1x128 main_cst_0
  let main_v6 : IVec S1x1x128 1 := cmpf .olt main_v4 main_v5
  let main_c_1 : IVec S_ 1 := constantI S_ 1 1#1
  let main_v7 : IVec S_ 1 := (fun x v => Host.reduce IntOp.andi x v reducesTo_S1x1x128_S_d0_1_2 h_S_) main_v6 main_c_1
  let main_v8 : IVec S_ 1 := andi main_v3 main_v7
  let main_v9 : FVec F S1x320000x1 .f32 := Host.absf main_arg3
  let main_cst_2 : FVec F S_ .f32 := constant S_ .f32 0x7F800000#32
  let main_v10 : FVec F S1x320000x1 .f32 := broadcastInDim S1x320000x1 ![] bcast_S_S1x320000x1 main_cst_2
  let main_v11 : IVec S1x320000x1 1 := cmpf .olt main_v9 main_v10
  let main_c_3 : IVec S_ 1 := constantI S_ 1 1#1
  let main_v12 : IVec S_ 1 := (fun x v => Host.reduce IntOp.andi x v reducesTo_S1x320000x1_S_d0_1_2 h_S_) main_v11 main_c_3
  let main_v13 : IVec S_ 1 := andi main_v8 main_v12
  let main_v14 : FVec F S1x320000x1 .f32 := Host.absf main_arg4
  let main_cst_4 : FVec F S_ .f32 := constant S_ .f32 0x7F800000#32
  let main_v15 : FVec F S1x320000x1 .f32 := broadcastInDim S1x320000x1 ![] bcast_S_S1x320000x1 main_cst_4
  let main_v16 : IVec S1x320000x1 1 := cmpf .olt main_v14 main_v15
  fn_part1 (F := F) main_arg2 main_arg5 main_arg6 main_arg7 main_arg8 main_arg9 main_v13 main_v16
-- ==== Kernel.lean ====
abbrev S1x10000x128 : Shape := ⟨3, ![1, 10000, 128]⟩
abbrev S1x1x128 : Shape := ⟨3, ![1, 1, 128]⟩
abbrev S320000 : Shape := ⟨1, ![320000]⟩
abbrev S1x320000x1 : Shape := ⟨3, ![1, 320000, 1]⟩
abbrev S256x128 : Shape := ⟨2, ![256, 128]⟩
abbrev S256 : Shape := ⟨1, ![256]⟩
abbrev S128x128 : Shape := ⟨2, ![128, 128]⟩
abbrev S128 : Shape := ⟨1, ![128]⟩
abbrev S10000x128 : Shape := ⟨2, ![10000, 128]⟩
abbrev S1x128 : Shape := ⟨2, ![1, 128]⟩
abbrev S256x1 : Shape := ⟨2, ![256, 1]⟩
abbrev S1x256 : Shape := ⟨2, ![1, 256]⟩
abbrev S2500x128 : Shape := ⟨2, ![2500, 128]⟩
abbrev S10240x128 : Shape := ⟨2, ![10240, 128]⟩
abbrev S2560x128 : Shape := ⟨2, ![2560, 128]⟩
abbrev S2000x128 : Shape := ⟨2, ![2000, 128]⟩
abbrev S2000 : Shape := ⟨1, ![2000]⟩
abbrev S2000x1 : Shape := ⟨2, ![2000, 1]⟩
abbrev S_ : Shape := ⟨0, ![]⟩
abbrev S327680 : Shape := ⟨1, ![327680]⟩
abbrev S80x128 : Shape := ⟨2, ![80, 128]⟩
abbrev S64x128 : Shape := ⟨2, ![64, 128]⟩
abbrev S2x128 : Shape := ⟨2, ![2, 128]⟩
abbrev S640x128 : Shape := ⟨2, ![640, 128]⟩
abbrev S1x64 : Shape := ⟨2, ![1, 64]⟩
abbrev S64 : Shape := ⟨1, ![64]⟩
abbrev S1x16 : Shape := ⟨2, ![1, 16]⟩
abbrev S16 : Shape := ⟨1, ![16]⟩
abbrev S1 : Shape := ⟨1, ![1]⟩

abbrev nBuf : Table → Nat
  | .hbm => 26
  | .local .tc .vmem => 14
  | .shared => 1
  | .local .scVector .vmem => 8
  | _ => 0

abbrev bufTy : (tb : Table) → Fin (nBuf tb) → BufTy
  | .hbm, ⟨0, _⟩ => ⟨S1x10000x128, .f32⟩
  | .hbm, ⟨1, _⟩ => ⟨S1x1x128, .f32⟩
  | .hbm, ⟨2, _⟩ => ⟨S320000, .i32⟩
  | .hbm, ⟨3, _⟩ => ⟨S1x320000x1, .f32⟩
  | .hbm, ⟨4, _⟩ => ⟨S1x320000x1, .f32⟩
  | .hbm, ⟨5, _⟩ => ⟨S256x128, .f32⟩
  | .hbm, ⟨6, _⟩ => ⟨S256, .f32⟩
  | .hbm, ⟨7, _⟩ => ⟨S256, .f32⟩
  | .hbm, ⟨8, _⟩ => ⟨S128x128, .f32⟩
  | .hbm, ⟨9, _⟩ => ⟨S128, .f32⟩
  | .hbm, ⟨10, _⟩ => ⟨S10000x128, .f32⟩
  | .hbm, ⟨11, _⟩ => ⟨S1x128, .f32⟩
  | .hbm, ⟨12, _⟩ => ⟨S256x1, .f32⟩
  | .hbm, ⟨13, _⟩ => ⟨S1x256, .f32⟩
  | .hbm, ⟨14, _⟩ => ⟨S1x128, .f32⟩
  | .hbm, ⟨15, _⟩ => ⟨S2500x128, .f32⟩
  | .hbm, ⟨16, _⟩ => ⟨S2500x128, .f32⟩
  | .hbm, ⟨17, _⟩ => ⟨S10240x128, .f32⟩
  | .hbm, ⟨18, _⟩ => ⟨S2560x128, .f32⟩
  | .hbm, ⟨19, _⟩ => ⟨S_, .i32⟩
  | .hbm, ⟨20, _⟩ => ⟨S_, .i32⟩
  | .hbm, ⟨21, _⟩ => ⟨S327680, .i32⟩
  | .hbm, ⟨22, _⟩ => ⟨S2560x128, .i32⟩
  | .hbm, ⟨23, _⟩ => ⟨S10240x128, .f32⟩
  | .hbm, ⟨24, _⟩ => ⟨S10000x128, .f32⟩
  | .hbm, ⟨25, _⟩ => ⟨S1x10000x128, .f32⟩
  | .local .tc .vmem, ⟨0, _⟩ => ⟨S1x128, .f32⟩
  | .local .tc .vmem, ⟨1, _⟩ => ⟨S256x128, .f32⟩
  | .local .tc .vmem, ⟨2, _⟩ => ⟨S256x1, .f32⟩
  | .local .tc .vmem, ⟨3, _⟩ => ⟨S1x256, .f32⟩
  | .local .tc .vmem, ⟨4, _⟩ => ⟨S2000x128, .f32⟩
  | .local .tc .vmem, ⟨5, _⟩ => ⟨S2000x128, .f32⟩
  | .local .tc .vmem, ⟨6, _⟩ => ⟨S128x128, .f32⟩
  | .local .tc .vmem, ⟨7, _⟩ => ⟨S1x128, .f32⟩
  | .local .tc .vmem, ⟨8, _⟩ => ⟨S2500x128, .f32⟩
  | .local .tc .vmem, ⟨9, _⟩ => ⟨S2500x128, .f32⟩
  | .local .tc .vmem, ⟨10, _⟩ => ⟨S2000x128, .f32⟩
  | .local .tc .vmem, ⟨11, _⟩ => ⟨S2000x128, .f32⟩
  | .local .tc .vmem, ⟨12, _⟩ => ⟨S2560x128, .f32⟩
  | .local .tc .vmem, ⟨13, _⟩ => ⟨S1x256, .f32⟩
  | .shared, ⟨0, _⟩ => ⟨S10240x128, .f32⟩
  | .local .scVector .vmem, ⟨0, _⟩ => ⟨S80x128, .i32⟩
  | .local .scVector .vmem, ⟨1, _⟩ => ⟨S80x128, .f32⟩
  | .local .scVector .vmem, ⟨2, _⟩ => ⟨S64x128, .f32⟩
  | .local .scVector .vmem, ⟨3, _⟩ => ⟨S64x128, .f32⟩
  | .local .scVector .vmem, ⟨4, _⟩ => ⟨S2x128, .f32⟩
  | .local .scVector .vmem, ⟨5, _⟩ => ⟨S2x128, .f32⟩
  | .local .scVector .vmem, ⟨6, _⟩ => ⟨S2x128, .f32⟩
  | .local .scVector .vmem, ⟨7, _⟩ => ⟨S2x128, .f32⟩
  | _, _ => ⟨S1x10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | _ => false

abbrev sig : RefSig :=
  ofTables nBuf rfl bufTy 5 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_c : Ref sig .tc := ⟨.hbm, 19, rfl⟩
abbrev main_call0_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v7_0_scv : Ref sig .scVector := ⟨.hbm, 17, rfl⟩
abbrev main_v9_scv : Ref sig .scVector := ⟨.hbm, 22, rfl⟩
abbrev main_v7_1_scv : Ref sig .scVector := ⟨.hbm, 18, rfl⟩
abbrev main_v10_scv : Ref sig .scVector := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_scratch0 : Ref sig .tc := ⟨.vmem, 13, rfl⟩
abbrev cc1_scratch8 : Ref sig .scVector := ⟨.shared, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2500x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2500x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2560x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨2, ![2, 16], ![false, false]⟩

def k1_off1 (i : grid1.Coords) : Fin 2 → Nat :=
  let arg1 : BitVec 32 := BitVec.ofNat 32 (i 1).val
  let c640_i32_0 : BitVec 32 := 640#32
  let v4 : BitVec 32 := Scalar.muli arg1 c640_i32_0
  let c0_i32_20_r0 : BitVec 32 := 0#32
  ![v4.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32 : BitVec 32 := 80#32
  let v5 : BitVec 32 := Scalar.muli v1 c80_i32
  let c0_i32_20_r1 : BitVec 32 := 0#32
  ![v5.toNat, 0]
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c0_i32_5 : BitVec 32 := 0#32
  let v10 : BitVec 32 := Scalar.addi v2 c0_i32_5
  let c0_i32_6 : BitVec 32 := 0#32
  ![v10.toNat, 0]
@[reducible] def k1_t1_loop : Scf.Loop 32 :=
  let c0_i32_9 : BitVec 32 := 0#32
  let c80_i32_10 : BitVec 32 := 80#32
  let v13 : BitVec 32 := Scalar.addi c0_i32_9 c80_i32_10
  let c1_i32 : BitVec 32 := 1#32
  ⟨c0_i32_9, v13, c1_i32⟩
def k1_off4 (k1_t1 : Fin k1_t1_loop.trips) : Fin 2 → Nat :=
  let c2_i32_20 : BitVec 32 := 2#32
  let c0_i32_9 : BitVec 32 := 0#32
  let c1_i32 : BitVec 32 := 1#32
  let arg21 : BitVec 32 := Scf.iv c0_i32_9 c1_i32 k1_t1
  let v18 : BitVec 32 := Scalar.muli c2_i32_20 arg21
  let c1_i32_21 : BitVec 32 := 1#32
  let v19 : BitVec 32 := Scalar.addi v18 c1_i32_21
  let c0_i32_23 : BitVec 32 := 0#32
  let v21 : BitVec 1 := Scalar.cmpi .sgt v19 c0_i32_23
  let v22 : BitVec 32 := Scalar.extui v21
  let c0_i32_24 : BitVec 32 := 0#32
  let v23 : BitVec 1 := Scalar.cmpi .slt v19 c0_i32_24
  let v24 : BitVec 32 := Scalar.extui v23
  let v25 : BitVec 32 := Scalar.subi v22 v24
  let c2_i32_22 : BitVec 32 := 2#32
  let c0_i32_25 : BitVec 32 := 0#32
  let v26 : BitVec 1 := Scalar.cmpi .sgt c2_i32_22 c0_i32_25
  let v27 : BitVec 32 := Scalar.extui v26
  let c0_i32_26 : BitVec 32 := 0#32
  let v28 : BitVec 1 := Scalar.cmpi .slt c2_i32_22 c0_i32_26
  let v29 : BitVec 32 := Scalar.extui v28
  let v30 : BitVec 32 := Scalar.subi v27 v29
  let v31 : BitVec 1 := Scalar.cmpi .ne v25 v30
  let v32 : BitVec 32 := Scalar.remsi v19 c2_i32_22
  let c0_i32_27 : BitVec 32 := 0#32
  let v33 : BitVec 1 := Scalar.cmpi .ne v32 c0_i32_27
  let v34 : BitVec 1 := Scalar.andi v31 v33
  let v20 : BitVec 32 := Scalar.divsi v19 c2_i32_22
  let c1_i32_28 : BitVec 32 := 1#32
  let v35 : BitVec 32 := Scalar.subi v20 c1_i32_28
  let v36 : BitVec 32 := Scalar.select v34 v35 v20
  let c2_i32_29 : BitVec 32 := 2#32
  let c0_i32_30 : BitVec 32 := 0#32
  let v37 : BitVec 1 := Scalar.cmpi .eq c2_i32_29 c0_i32_30
  let c1_i32_31 : BitVec 32 := 1#32
  let v38 : BitVec 32 := Scalar.select v37 c1_i32_31 c2_i32_29
  let v39 : BitVec 32 := Scalar.remsi v19 v38
  let c0_i32_33 : BitVec 32 := 0#32
  let v41 : BitVec 1 := Scalar.cmpi .slt v39 c0_i32_33
  let c0_i32_34 : BitVec 32 := 0#32
  let v42 : BitVec 1 := Scalar.cmpi .slt v38 c0_i32_34
  let v43 : BitVec 1 := Scalar.xori v41 v42
  let c0_i32_32 : BitVec 32 := 0#32
  let v40 : BitVec 1 := Scalar.cmpi .ne v39 c0_i32_32
  let v44 : BitVec 1 := Scalar.andi v43 v40
  let v45 : BitVec 32 := Scalar.addi v39 v38
  let v46 : BitVec 32 := Scalar.select v44 v45 v39
  let c64_i32 : BitVec 32 := 64#32
  let v47 : BitVec 32 := Scalar.muli v46 c64_i32
  ![v36.toNat, v47.toNat]
def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c2_i32_20 : BitVec 32 := 2#32
  let c0_i32_9 : BitVec 32 := 0#32
  let c1_i32 : BitVec 32 := 1#32
  let arg21 : BitVec 32 := Scf.iv c0_i32_9 c1_i32 k1_t1
  let v18 : BitVec 32 := Scalar.muli c2_i32_20 arg21
  let c1_i32_21 : BitVec 32 := 1#32
  let v19 : BitVec 32 := Scalar.addi v18 c1_i32_21
  let c2_i32_37 : BitVec 32 := 2#32
  let v51 : BitVec 32 := Scalar.muli v19 c2_i32_37
  let v52 : BitVec 32 := Scalar.addi v2 v51
  let c0_i32_38 : BitVec 32 := 0#32
  ![v52.toNat, 0]
def k1_off6 (k1_t1 : Fin k1_t1_loop.trips) (c0_i32_66 : BitVec 32) (c0_i32_67 : BitVec 32) : Fin 2 → Nat :=
  let c2_i32_20 : BitVec 32 := 2#32
  let c0_i32_9 : BitVec 32 := 0#32
  let c1_i32 : BitVec 32 := 1#32
  let arg21 : BitVec 32 := Scf.iv c0_i32_9 c1_i32 k1_t1
  let v18 : BitVec 32 := Scalar.muli c2_i32_20 arg21
  let c0_i32_69 : BitVec 32 := 0#32
  let v101 : BitVec 1 := Scalar.cmpi .sgt v18 c0_i32_69
  let v102 : BitVec 32 := Scalar.extui v101
  let c0_i32_70 : BitVec 32 := 0#32
  let v103 : BitVec 1 := Scalar.cmpi .slt v18 c0_i32_70
  let v104 : BitVec 32 := Scalar.extui v103
  let v105 : BitVec 32 := Scalar.subi v102 v104
  let c2_i32_68 : BitVec 32 := 2#32
  let c0_i32_71 : BitVec 32 := 0#32
  let v106 : BitVec 1 := Scalar.cmpi .sgt c2_i32_68 c0_i32_71
  let v107 : BitVec 32 := Scalar.extui v106
  let c0_i32_72 : BitVec 32 := 0#32
  let v108 : BitVec 1 := Scalar.cmpi .slt c2_i32_68 c0_i32_72
  let v109 : BitVec 32 := Scalar.extui v108
  let v110 : BitVec 32 := Scalar.subi v107 v109
  let v111 : BitVec 1 := Scalar.cmpi .ne v105 v110
  let v112 : BitVec 32 := Scalar.remsi v18 c2_i32_68
  let c0_i32_73 : BitVec 32 := 0#32
  let v113 : BitVec 1 := Scalar.cmpi .ne v112 c0_i32_73
  let v114 : BitVec 1 := Scalar.andi v111 v113
  let v100 : BitVec 32 := Scalar.divsi v18 c2_i32_68
  let c1_i32_74 : BitVec 32 := 1#32
  let v115 : BitVec 32 := Scalar.subi v100 c1_i32_74
  let v116 : BitVec 32 := Scalar.select v114 v115 v100
  let v117 : Index := Scalar.indexCast v116
  let c2_i32_59 : BitVec 32 := 2#32
  let c0_i32_60 : BitVec 32 := 0#32
  let v87 : BitVec 1 := Scalar.cmpi .eq c2_i32_59 c0_i32_60
  let c1_i32_61 : BitVec 32 := 1#32
  let v88 : BitVec 32 := Scalar.select v87 c1_i32_61 c2_i32_59
  let v89 : BitVec 32 := Scalar.remsi v18 v88
  let c0_i32_63 : BitVec 32 := 0#32
  let v91 : BitVec 1 := Scalar.cmpi .slt v89 c0_i32_63
  let c0_i32_64 : BitVec 32 := 0#32
  let v92 : BitVec 1 := Scalar.cmpi .slt v88 c0_i32_64
  let v93 : BitVec 1 := Scalar.xori v91 v92
  let c0_i32_62 : BitVec 32 := 0#32
  let v90 : BitVec 1 := Scalar.cmpi .ne v89 c0_i32_62
  let v94 : BitVec 1 := Scalar.andi v93 v90
  let v95 : BitVec 32 := Scalar.addi v89 v88
  let v96 : BitVec 32 := Scalar.select v94 v95 v89
  let c64_i32_65 : BitVec 32 := 64#32
  let v97 : BitVec 32 := Scalar.muli v96 c64_i32_65
  let v98 : BitVec 32 := Scalar.addi v97 c0_i32_66
  let v99 : BitVec 32 := Scalar.addi v98 c0_i32_67
  let v118 : Index := Scalar.indexCast v99
  ![v117.toNat, v118.toNat]
def k1_off7 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c2_i32_20 : BitVec 32 := 2#32
  let c0_i32_9 : BitVec 32 := 0#32
  let c1_i32 : BitVec 32 := 1#32
  let arg21 : BitVec 32 := Scf.iv c0_i32_9 c1_i32 k1_t1
  let v18 : BitVec 32 := Scalar.muli c2_i32_20 arg21
  let c2_i32_1149 : BitVec 32 := 2#32
  let v3095 : BitVec 32 := Scalar.muli v18 c2_i32_1149
  let v3096 : BitVec 32 := Scalar.addi v2 v3095
  let c0_i32_1150 : BitVec 32 := 0#32
  ![v3096.toNat, 0]
def k1_cond2 (k1_t1 : Fin k1_t1_loop.trips) : BitVec 1 :=
  let c2_i32_20 : BitVec 32 := 2#32
  let c0_i32_9 : BitVec 32 := 0#32
  let c1_i32 : BitVec 32 := 1#32
  let arg21 : BitVec 32 := Scf.iv c0_i32_9 c1_i32 k1_t1
  let v18 : BitVec 32 := Scalar.muli c2_i32_20 arg21
  let c2_i32_1152 : BitVec 32 := 2#32
  let v3099 : BitVec 32 := Scalar.addi v18 c2_i32_1152
  let c160_i32 : BitVec 32 := 160#32
  let v3100 : BitVec 1 := Scalar.cmpi .slt v3099 c160_i32
  let v3101 : BitVec 32 := Scalar.extui v3100
  let c0_i32_1153 : BitVec 32 := 0#32
  let v3102 : BitVec 1 := Scalar.cmpi .ne v3101 c0_i32_1153
  v3102

def k1_off8 (k1_t1 : Fin k1_t1_loop.trips) : Fin 2 → Nat :=
  let c2_i32_20 : BitVec 32 := 2#32
  let c0_i32_9 : BitVec 32 := 0#32
  let c1_i32 : BitVec 32 := 1#32
  let arg21 : BitVec 32 := Scf.iv c0_i32_9 c1_i32 k1_t1
  let v18 : BitVec 32 := Scalar.muli c2_i32_20 arg21
  let c2_i32_2335 : BitVec 32 := 2#32
  let v6147 : BitVec 32 := Scalar.addi v18 c2_i32_2335
  let c0_i32_2337 : BitVec 32 := 0#32
  let v6149 : BitVec 1 := Scalar.cmpi .sgt v6147 c0_i32_2337
  let v6150 : BitVec 32 := Scalar.extui v6149
  let c0_i32_2338 : BitVec 32 := 0#32
  let v6151 : BitVec 1 := Scalar.cmpi .slt v6147 c0_i32_2338
  let v6152 : BitVec 32 := Scalar.extui v6151
  let v6153 : BitVec 32 := Scalar.subi v6150 v6152
  let c2_i32_2336 : BitVec 32 := 2#32
  let c0_i32_2339 : BitVec 32 := 0#32
  let v6154 : BitVec 1 := Scalar.cmpi .sgt c2_i32_2336 c0_i32_2339
  let v6155 : BitVec 32 := Scalar.extui v6154
  let c0_i32_2340 : BitVec 32 := 0#32
  let v6156 : BitVec 1 := Scalar.cmpi .slt c2_i32_2336 c0_i32_2340
  let v6157 : BitVec 32 := Scalar.extui v6156
  let v6158 : BitVec 32 := Scalar.subi v6155 v6157
  let v6159 : BitVec 1 := Scalar.cmpi .ne v6153 v6158
  let v6160 : BitVec 32 := Scalar.remsi v6147 c2_i32_2336
  let c0_i32_2341 : BitVec 32 := 0#32
  let v6161 : BitVec 1 := Scalar.cmpi .ne v6160 c0_i32_2341
  let v6162 : BitVec 1 := Scalar.andi v6159 v6161
  let v6148 : BitVec 32 := Scalar.divsi v6147 c2_i32_2336
  let c1_i32_2342 : BitVec 32 := 1#32
  let v6163 : BitVec 32 := Scalar.subi v6148 c1_i32_2342
  let v6164 : BitVec 32 := Scalar.select v6162 v6163 v6148
  let c2_i32_2343 : BitVec 32 := 2#32
  let c0_i32_2344 : BitVec 32 := 0#32
  let v6165 : BitVec 1 := Scalar.cmpi .eq c2_i32_2343 c0_i32_2344
  let c1_i32_2345 : BitVec 32 := 1#32
  let v6166 : BitVec 32 := Scalar.select v6165 c1_i32_2345 c2_i32_2343
  let v6167 : BitVec 32 := Scalar.remsi v6147 v6166
  let c0_i32_2347 : BitVec 32 := 0#32
  let v6169 : BitVec 1 := Scalar.cmpi .slt v6167 c0_i32_2347
  let c0_i32_2348 : BitVec 32 := 0#32
  let v6170 : BitVec 1 := Scalar.cmpi .slt v6166 c0_i32_2348
  let v6171 : BitVec 1 := Scalar.xori v6169 v6170
  let c0_i32_2346 : BitVec 32 := 0#32
  let v6168 : BitVec 1 := Scalar.cmpi .ne v6167 c0_i32_2346
  let v6172 : BitVec 1 := Scalar.andi v6171 v6168
  let v6173 : BitVec 32 := Scalar.addi v6167 v6166
  let v6174 : BitVec 32 := Scalar.select v6172 v6173 v6167
  let c64_i32_2349 : BitVec 32 := 64#32
  let v6175 : BitVec 32 := Scalar.muli v6174 c64_i32_2349
  ![v6164.toNat, v6175.toNat]
def k1_off9 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let c2_i32_20 : BitVec 32 := 2#32
  let c0_i32_9 : BitVec 32 := 0#32
  let c1_i32 : BitVec 32 := 1#32
  let arg21 : BitVec 32 := Scf.iv c0_i32_9 c1_i32 k1_t1
  let v18 : BitVec 32 := Scalar.muli c2_i32_20 arg21
  let c2_i32_2352 : BitVec 32 := 2#32
  let v6179 : BitVec 32 := Scalar.addi v18 c2_i32_2352
  let c2_i32_2353 : BitVec 32 := 2#32
  let v6180 : BitVec 32 := Scalar.muli v6179 c2_i32_2353
  let v6181 : BitVec 32 := Scalar.addi v2 v6180
  let c0_i32_2354 : BitVec 32 := 0#32
  ![v6181.toNat, 0]
def k1_off10 (k1_t1 : Fin k1_t1_loop.trips) (c0_i32_1187 : BitVec 32) (c0_i32_1188 : BitVec 32) : Fin 2 → Nat :=
  let c2_i32_20 : BitVec 32 := 2#32
  let c0_i32_9 : BitVec 32 := 0#32
  let c1_i32 : BitVec 32 := 1#32
  let arg21 : BitVec 32 := Scf.iv c0_i32_9 c1_i32 k1_t1
  let v18 : BitVec 32 := Scalar.muli c2_i32_20 arg21
  let c1_i32_21 : BitVec 32 := 1#32
  let v19 : BitVec 32 := Scalar.addi v18 c1_i32_21
  let c0_i32_1190 : BitVec 32 := 0#32
  let v3149 : BitVec 1 := Scalar.cmpi .sgt v19 c0_i32_1190
  let v3150 : BitVec 32 := Scalar.extui v3149
  let c0_i32_1191 : BitVec 32 := 0#32
  let v3151 : BitVec 1 := Scalar.cmpi .slt v19 c0_i32_1191
  let v3152 : BitVec 32 := Scalar.extui v3151
  let v3153 : BitVec 32 := Scalar.subi v3150 v3152
  let c2_i32_1189 : BitVec 32 := 2#32
  let c0_i32_1192 : BitVec 32 := 0#32
  let v3154 : BitVec 1 := Scalar.cmpi .sgt c2_i32_1189 c0_i32_1192
  let v3155 : BitVec 32 := Scalar.extui v3154
  let c0_i32_1193 : BitVec 32 := 0#32
  let v3156 : BitVec 1 := Scalar.cmpi .slt c2_i32_1189 c0_i32_1193
  let v3157 : BitVec 32 := Scalar.extui v3156
  let v3158 : BitVec 32 := Scalar.subi v3155 v3157
  let v3159 : BitVec 1 := Scalar.cmpi .ne v3153 v3158
  let v3160 : BitVec 32 := Scalar.remsi v19 c2_i32_1189
  let c0_i32_1194 : BitVec 32 := 0#32
  let v3161 : BitVec 1 := Scalar.cmpi .ne v3160 c0_i32_1194
  let v3162 : BitVec 1 := Scalar.andi v3159 v3161
  let v3148 : BitVec 32 := Scalar.divsi v19 c2_i32_1189
  let c1_i32_1195 : BitVec 32 := 1#32
  let v3163 : BitVec 32 := Scalar.subi v3148 c1_i32_1195
  let v3164 : BitVec 32 := Scalar.select v3162 v3163 v3148
  let v3165 : Index := Scalar.indexCast v3164
  let c2_i32_1180 : BitVec 32 := 2#32
  let c0_i32_1181 : BitVec 32 := 0#32
  let v3135 : BitVec 1 := Scalar.cmpi .eq c2_i32_1180 c0_i32_1181
  let c1_i32_1182 : BitVec 32 := 1#32
  let v3136 : BitVec 32 := Scalar.select v3135 c1_i32_1182 c2_i32_1180
  let v3137 : BitVec 32 := Scalar.remsi v19 v3136
  let c0_i32_1184 : BitVec 32 := 0#32
  let v3139 : BitVec 1 := Scalar.cmpi .slt v3137 c0_i32_1184
  let c0_i32_1185 : BitVec 32 := 0#32
  let v3140 : BitVec 1 := Scalar.cmpi .slt v3136 c0_i32_1185
  let v3141 : BitVec 1 := Scalar.xori v3139 v3140
  let c0_i32_1183 : BitVec 32 := 0#32
  let v3138 : BitVec 1 := Scalar.cmpi .ne v3137 c0_i32_1183
  let v3142 : BitVec 1 := Scalar.andi v3141 v3138
  let v3143 : BitVec 32 := Scalar.addi v3137 v3136
  let v3144 : BitVec 32 := Scalar.select v3142 v3143 v3137
  let c64_i32_1186 : BitVec 32 := 64#32
  let v3145 : BitVec 32 := Scalar.muli v3144 c64_i32_1186
  let v3146 : BitVec 32 := Scalar.addi v3145 c0_i32_1187
  let v3147 : BitVec 32 := Scalar.addi v3146 c0_i32_1188
  let v3166 : Index := Scalar.indexCast v3147
  ![v3165.toNat, v3166.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x10000x128_S10000x128 : S1x10000x128.ShapeCasts S10000x128
  shapeCasts_S1x1x128_S1x128 : S1x1x128.ShapeCasts S1x128
  shapeCasts_S256_S256x1 : S256.ShapeCasts S256x1
  shapeCasts_S256_S1x256 : S256.ShapeCasts S1x256
  shapeCasts_S128_S1x128 : S128.ShapeCasts S1x128
  shapeCasts_S1x320000x1_S2500x128 : S1x320000x1.ShapeCasts S2500x128
  inb_S256x128_S256x128_0_0 : ∀ a, (![0, 0] : Fin 2 → Nat) a + S256x128.size a ≤ S256x128.size a
  h_S256x128 : 0 < S256x128.numel
  reduces_S256x128_S256 : S256x128.Reduces [1] S256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2500x128_S2500x128_0_0 : ∀ a, (![0, 0] : Fin 2 → Nat) a + S2500x128.size a ≤ S2500x128.size a
  h_S2500x128 : 0 < S2500x128.numel
  shapeCasts_S2500x128_S2500x128 : S2500x128.ShapeCasts S2500x128
  inb_S2560x128_S2500x128_0_0 : ∀ a, (![0, 0] : Fin 2 → Nat) a + S2500x128.size a ≤ S2560x128.size a
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S1x256_S1x128_0_0 : ∀ a, (![0, 0] : Fin 2 → Nat) a + S1x128.size a ≤ S1x256.size a
  inb_S1x256_S1x128_0_128 : ∀ a, (![0, 128] : Fin 2 → Nat) a + S1x128.size a ≤ S1x256.size a
  pads_S320000_S327680_076800 : S320000.Pads (![0] : Fin 1 → Nat) ![7680] ![0] S327680
  h_S_ : 0 < S_.numel
  shapeCasts_S327680_S2560x128 : S327680.ShapeCasts S2560x128
  inb_S80x128_S1x64_0_0 : ∀ a, (![0, 0] : Fin 2 → Nat) a + S1x64.size a ≤ S80x128.size a
  squeezes_S1x64_S64 : S1x64.Squeezes S64
  inb_S10240x128_S10240x128_0_0 : ∀ a, (![0, 0] : Fin 2 → Nat) a + S10240x128.size a ≤ S10240x128.size a
  gathers_S10240x128_S64x128 : S10240x128.Gathers 0 S64x128
  inb_S10240x128_S2x128_0_0 : ∀ a, (![0, 0] : Fin 2 → Nat) a + S2x128.size a ≤ S10240x128.size a
  inb_S2x128_S1x16_0_0 : ∀ a, (![0, 0] : Fin 2 → Nat) a + S1x16.size a ≤ S2x128.size a
  h_S1x16 : 0 < S1x16.numel
  shapeCasts_S1x16_S16 : S1x16.ShapeCasts S16
  inb_S2x128_S1x16_0_16 : ∀ a, (![0, 16] : Fin 2 → Nat) a + S1x16.size a ≤ S2x128.size a
  inb_S2x128_S1x16_0_32 : ∀ a, (![0, 32] : Fin 2 → Nat) a + S1x16.size a ≤ S2x128.size a
  inb_S2x128_S1x16_0_48 : ∀ a, (![0, 48] : Fin 2 → Nat) a + S1x16.size a ≤ S2x128.size a
  inb_S2x128_S1x16_0_64 : ∀ a, (![0, 64] : Fin 2 → Nat) a + S1x16.size a ≤ S2x128.size a
  inb_S2x128_S1x16_0_80 : ∀ a, (![0, 80] : Fin 2 → Nat) a + S1x16.size a ≤ S2x128.size a
  inb_S2x128_S1x16_0_96 : ∀ a, (![0, 96] : Fin 2 → Nat) a + S1x16.size a ≤ S2x128.size a
  inb_S2x128_S1x16_0_112 : ∀ a, (![0, 112] : Fin 2 → Nat) a + S1x16.size a ≤ S2x128.size a
  slices_S16_o0_S1 : S16.Slices ![0] S1
  inpos_S1_p0 : ∀ a, (![0] : Fin 1 → Nat) a < S1.size a
  inb_S64x128_S1x16_0_0 : ∀ a, (![0, 0] : Fin 2 → Nat) a + S1x16.size a ≤ S64x128.size a
  inb_S64x128_S1x16_0_16 : ∀ a, (![0, 16] : Fin 2 → Nat) a + S1x16.size a ≤ S64x128.size a
  inb_S64x128_S1x16_0_32 : ∀ a, (![0, 32] : Fin 2 → Nat) a + S1x16.size a ≤ S64x128.size a
  inb_S64x128_S1x16_0_48 : ∀ a, (![0, 48] : Fin 2 → Nat) a + S1x16.size a ≤ S64x128.size a
  inb_S64x128_S1x16_0_64 : ∀ a, (![0, 64] : Fin 2 → Nat) a + S1x16.size a ≤ S64x128.size a
  inb_S64x128_S1x16_0_80 : ∀ a, (![0, 80] : Fin 2 → Nat) a + S1x16.size a ≤ S64x128.size a
  inb_S64x128_S1x16_0_96 : ∀ a, (![0, 96] : Fin 2 → Nat) a + S1x16.size a ≤ S64x128.size a
  inb_S64x128_S1x16_0_112 : ∀ a, (![0, 112] : Fin 2 → Nat) a + S1x16.size a ≤ S64x128.size a
  slices_S16_o1_S1 : S16.Slices ![1] S1
  inb_S64x128_S1x16_1_0 : ∀ a, (![1, 0] : Fin 2 → Nat) a + S1x16.size a ≤ S64x128.size a
  inb_S64x128_S1x16_1_16 : ∀ a, (![1, 16] : Fin 2 → Nat) a + S1x16.size a ≤ S64x128.size a
  inb_S64x128_S1x16_1_32 : ∀ a, (![1, 32] : Fin 2 → Nat) a + S1x16.size a ≤ S64x128.size a
  inb_S64x128_S1x16_1_48 : ∀ a, (![1, 48] : Fin 2 → Nat) a + S1x16.size a ≤ S64x128.size a
  inb_S64x128_S1x16_1_64 : ∀ a, (![1, 64] : Fin 2 → Nat) a + S1x16.size a ≤ S64x128.size a
  inb_S64x128_S1x16_1_80 : ∀ a, (![1, 80] : Fin 2 → Nat) a + S1x16.size a ≤ S64x128.size a
  inb_S64x128_S1x16_1_96 : ∀ a, (![1, 96] : Fin 2 → Nat) a + S1x16.size a ≤ S64x128.size a
  inb_S64x128_S1x16_1_112 : ∀ a, (![1, 112] : Fin 2 → Nat) a + S1x16.size a ≤ S64x128.size a
  slices_S16_o2_S1 : S16.Slices ![2] S1
  inb_S64x128_S1x16_2_0 : ∀ a, (![2, 0] : Fin 2 → Nat) a + S1x16.size a ≤ S64x128.size a
  inb_S64x128_S1x16_2_16 : ∀ a, (![2, 16] : Fin 2 → Nat) a + S1x16.size a ≤ S64x128.size a
  inb_S64x128_S1x16_2_32 : ∀ a, (![2, 32] : Fin 2 → Nat) a + S1x16.size a ≤ S64x128.size a
  inb_S64x128_S1x16_2_48 : ∀ a, (![2, 48] : Fin 2 → Nat) a + S1x16.size a ≤ S64x128.size a
  inb_S64x128_S1x16_2_64 : ∀ a, (![2, 64] : Fin 2 → Nat) a + S1x16.size a ≤ S64x128.size a
  inb_S64x128_S1x16_2_80 : ∀ a, (![2, 80] : Fin 2 → Nat) a + S1x16.size a ≤ S64x128.size a
  inb_S64x128_S1x16_2_96 : ∀ a, (![2, 96] : Fin 2 → Nat) a + S1x16.size a ≤ S64x128.size a
  inb_S64x128_S1x16_2_112 : ∀ a, (![2, 112] : Fin 2 → Nat) a + S1x16.size a ≤ S64x128.size a
  slices_S16_o3_S1 : S16.Slices ![3] S1
  inb_S64x128_S1x16_3_0 : ∀ a, (![3, 0] : Fin 2 → Nat) a + S1x16.size a ≤ S64x128.size a
  inb_S64x128_S1x16_3_16 : ∀ a, (![3, 16] : Fin 2 → Nat) a + S1x16.size a ≤ S64x128.size a
  inb_S64x128_S1x16_3_32 : ∀ a, (![3, 32] : Fin 2 → Nat) a + S1x16.size a ≤ S64x128.size a
  inb_S64x128_S1x16_3_48 : ∀ a, (![3, 48] : Fin 2 → Nat) a + S1x16.size a ≤ S64x128.size a
  inb_S64x128_S1x16_3_64 : ∀ a, (![3, 64] : Fin 2 → Nat) a + S1x16.size a ≤ S64x128.size a
  inb_S64x128_S1x16_3_80 : ∀ a, (![3, 80] : Fin 2 → Nat) a + S1x16.size a ≤ S64x128.size a
  inb_S64x128_S1x16_3_96 : ∀ a, (![3, 96] : Fin 2 → Nat) a + S1x16.size a ≤ S64x128.size a
  inb_S64x128_S1x16_3_112 : ∀ a, (![3, 112] : Fin 2 → Nat) a + S1x16.size a ≤ S64x128.size a
  slices_S16_o4_S1 : S16.Slices ![4] S1
  inb_S64x128_S1x16_4_0 : ∀ a, (![4, 0] : Fin 2 → Nat) a + S1x16.size a ≤ S64x128.size a
  inb_S64x128_S1x16_4_16 : ∀ a, (![4, 16] : Fin 2 → Nat) a + S1x16.size a ≤ S64x128.size a
  inb_S64x128_S1x16_4_32 : ∀ a, (![4, 32] : Fin 2 → Nat) a + S1x16.size a ≤ S64x128.size a
  inb_S64x128_S1x16_4_48 : ∀ a, (![4, 48] : Fin 2 → Nat) a + S1x16.size a ≤ S64x128.size a
  inb_S64x128_S1x16_4_64 : ∀ a, (![4, 64] : Fin 2 → Nat) a + S1x16.size a ≤ S64x128.size a
  inb_S64x128_S1x16_4_80 : ∀ a, (![4, 80] : Fin 2 → Nat) a + S1x16.size a ≤ S64x128.size a
  inb_S64x128_S1x16_4_96 : ∀ a, (![4, 96] : Fin 2 → Nat) a + S1x16.size a ≤ S64x128.size a
  inb_S64x128_S1x16_4_112 : ∀ a, (![4, 112] : Fin 2 → Nat) a + S1x16.size a ≤ S64x128.size a
  slices_S16_o5_S1 : S16.Slices ![5] S1
  inb_S64x128_S1x16_5_0 : ∀ a, (![5, 0] : Fin 2 → Nat) a + S1x16.size a ≤ S64x128.size a
  inb_S64x128_S1x16_5_16 : ∀ a, (![5, 16] : Fin 2 → Nat) a + S1x16.size a ≤ S64x128.size a
  inb_S64x128_S1x16_5_32 : ∀ a, (![5, 32] : Fin 2 → Nat) a + S1x16.size a ≤ S64x128.size a
  inb_S64x128_S1x16_5_48 : ∀ a, (![5, 48] : Fin 2 → Nat) a + S1x16.size a ≤ S64x128.size a
  inb_S64x128_S1x16_5_64 : ∀ a, (![5, 64] : Fin 2 → Nat) a + S1x16.size a ≤ S64x128.size a
  inb_S64x128_S1x16_5_80 : ∀ a, (![5, 80] : Fin 2 → Nat) a + S1x16.size a ≤ S64x128.size a
  inb_S64x128_S1x16_5_96 : ∀ a, (![5, 96] : Fin 2 → Nat) a + S1x16.size a ≤ S64x128.size a
  inb_S64x128_S1x16_5_112 : ∀ a, (![5, 112] : Fin 2 → Nat) a + S1x16.size a ≤ S64x128.size a
  slices_S16_o6_S1 : S16.Slices ![6] S1
  inb_S64x128_S1x16_6_0 : ∀ a, (![6, 0] : Fin 2 → Nat) a + S1x16.size a ≤ S64x128.size a
  inb_S64x128_S1x16_6_16 : ∀ a, (![6, 16] : Fin 2 → Nat) a + S1x16.size a ≤ S64x128.size a
  inb_S64x128_S1x16_6_32 : ∀ a, (![6, 32] : Fin 2 → Nat) a + S1x16.size a ≤ S64x128.size a
  inb_S64x128_S1x16_6_48 : ∀ a, (![6, 48] : Fin 2 → Nat) a + S1x16.size a ≤ S64x128.size a
  inb_S64x128_S1x16_6_64 : ∀ a, (![6, 64] : Fin 2 → Nat) a + S1x16.size a ≤ S64x128.size a
  inb_S64x128_S1x16_6_80 : ∀ a, (![6, 80] : Fin 2 → Nat) a + S1x16.size a ≤ S64x128.size a
  inb_S64x128_S1x16_6_96 : ∀ a, (![6, 96] : Fin 2 → Nat) a + S1x16.size a ≤ S64x128.size a
  inb_S64x128_S1x16_6_112 : ∀ a, (![6, 112] : Fin 2 → Nat) a + S1x16.size a ≤ S64x128.size a
  slices_S16_o7_S1 : S16.Slices ![7] S1
  inb_S64x128_S1x16_7_0 : ∀ a, (![7, 0] : Fin 2 → Nat) a + S1x16.size a ≤ S64x128.size a
  inb_S64x128_S1x16_7_16 : ∀ a, (![7, 16] : Fin 2 → Nat) a + S1x16.size a ≤ S64x128.size a
  inb_S64x128_S1x16_7_32 : ∀ a, (![7, 32] : Fin 2 → Nat) a + S1x16.size a ≤ S64x128.size a
  inb_S64x128_S1x16_7_48 : ∀ a, (![7, 48] : Fin 2 → Nat) a + S1x16.size a ≤ S64x128.size a
  inb_S64x128_S1x16_7_64 : ∀ a, (![7, 64] : Fin 2 → Nat) a + S1x16.size a ≤ S64x128.size a
  inb_S64x128_S1x16_7_80 : ∀ a, (![7, 80] : Fin 2 → Nat) a + S1x16.size a ≤ S64x128.size a
  inb_S64x128_S1x16_7_96 : ∀ a, (![7, 96] : Fin 2 → Nat) a + S1x16.size a ≤ S64x128.size a
  inb_S64x128_S1x16_7_112 : ∀ a, (![7, 112] : Fin 2 → Nat) a + S1x16.size a ≤ S64x128.size a
  slices_S16_o8_S1 : S16.Slices ![8] S1
  inb_S64x128_S1x16_8_0 : ∀ a, (![8, 0] : Fin 2 → Nat) a + S1x16.size a ≤ S64x128.size a
  inb_S64x128_S1x16_8_16 : ∀ a, (![8, 16] : Fin 2 → Nat) a + S1x16.size a ≤ S64x128.size a
  inb_S64x128_S1x16_8_32 : ∀ a, (![8, 32] : Fin 2 → Nat) a + S1x16.size a ≤ S64x128.size a
  inb_S64x128_S1x16_8_48 : ∀ a, (![8, 48] : Fin 2 → Nat) a + S1x16.size a ≤ S64x128.size a
  inb_S64x128_S1x16_8_64 : ∀ a, (![8, 64] : Fin 2 → Nat) a + S1x16.size a ≤ S64x128.size a
  inb_S64x128_S1x16_8_80 : ∀ a, (![8, 80] : Fin 2 → Nat) a + S1x16.size a ≤ S64x128.size a
  inb_S64x128_S1x16_8_96 : ∀ a, (![8, 96] : Fin 2 → Nat) a + S1x16.size a ≤ S64x128.size a
  inb_S64x128_S1x16_8_112 : ∀ a, (![8, 112] : Fin 2 → Nat) a + S1x16.size a ≤ S64x128.size a
  slices_S16_o9_S1 : S16.Slices ![9] S1
  inb_S64x128_S1x16_9_0 : ∀ a, (![9, 0] : Fin 2 → Nat) a + S1x16.size a ≤ S64x128.size a
  inb_S64x128_S1x16_9_16 : ∀ a, (![9, 16] : Fin 2 → Nat) a + S1x16.size a ≤ S64x128.size a
  inb_S64x128_S1x16_9_32 : ∀ a, (![9, 32] : Fin 2 → Nat) a + S1x16.size a ≤ S64x128.size a
  inb_S64x128_S1x16_9_48 : ∀ a, (![9, 48] : Fin 2 → Nat) a + S1x16.size a ≤ S64x128.size a
  inb_S64x128_S1x16_9_64 : ∀ a, (![9, 64] : Fin 2 → Nat) a + S1x16.size a ≤ S64x128.size a
  inb_S64x128_S1x16_9_80 : ∀ a, (![9, 80] : Fin 2 → Nat) a + S1x16.size a ≤ S64x128.size a
  inb_S64x128_S1x16_9_96 : ∀ a, (![9, 96] : Fin 2 → Nat) a + S1x16.size a ≤ S64x128.size a
  inb_S64x128_S1x16_9_112 : ∀ a, (![9, 112] : Fin 2 → Nat) a + S1x16.size a ≤ S64x128.size a
  slices_S16_o10_S1 : S16.Slices ![10] S1
  inb_S64x128_S1x16_10_0 : ∀ a, (![10, 0] : Fin 2 → Nat) a + S1x16.size a ≤ S64x128.size a
  inb_S64x128_S1x16_10_16 : ∀ a, (![10, 16] : Fin 2 → Nat) a + S1x16.size a ≤ S64x128.size a
  inb_S64x128_S1x16_10_32 : ∀ a, (![10, 32] : Fin 2 → Nat) a + S1x16.size a ≤ S64x128.size a
  inb_S64x128_S1x16_10_48 : ∀ a, (![10, 48] : Fin 2 → Nat) a + S1x16.size a ≤ S64x128.size a
  inb_S64x128_S1x16_10_64 : ∀ a, (![10, 64] : Fin 2 → Nat) a + S1x16.size a ≤ S64x128.size a
  inb_S64x128_S1x16_10_80 : ∀ a, (![10, 80] : Fin 2 → Nat) a + S1x16.size a ≤ S64x128.size a
  inb_S64x128_S1x16_10_96 : ∀ a, (![10, 96] : Fin 2 → Nat) a + S1x16.size a ≤ S64x128.size a
  inb_S64x128_S1x16_10_112 : ∀ a, (![10, 112] : Fin 2 → Nat) a + S1x16.size a ≤ S64x128.size a
  slices_S16_o11_S1 : S16.Slices ![11] S1
  inb_S64x128_S1x16_11_0 : ∀ a, (![11, 0] : Fin 2 → Nat) a + S1x16.size a ≤ S64x128.size a
  inb_S64x128_S1x16_11_16 : ∀ a, (![11, 16] : Fin 2 → Nat) a + S1x16.size a ≤ S64x128.size a
  inb_S64x128_S1x16_11_32 : ∀ a, (![11, 32] : Fin 2 → Nat) a + S1x16.size a ≤ S64x128.size a
  inb_S64x128_S1x16_11_48 : ∀ a, (![11, 48] : Fin 2 → Nat) a + S1x16.size a ≤ S64x128.size a
  inb_S64x128_S1x16_11_64 : ∀ a, (![11, 64] : Fin 2 → Nat) a + S1x16.size a ≤ S64x128.size a
  inb_S64x128_S1x16_11_80 : ∀ a, (![11, 80] : Fin 2 → Nat) a + S1x16.size a ≤ S64x128.size a
  inb_S64x128_S1x16_11_96 : ∀ a, (![11, 96] : Fin 2 → Nat) a + S1x16.size a ≤ S64x128.size a
  inb_S64x128_S1x16_11_112 : ∀ a, (![11, 112] : Fin 2 → Nat) a + S1x16.size a ≤ S64x128.size a
  slices_S16_o12_S1 : S16.Slices ![12] S1
  inb_S64x128_S1x16_12_0 : ∀ a, (![12, 0] : Fin 2 → Nat) a + S1x16.size a ≤ S64x128.size a
  inb_S64x128_S1x16_12_16 : ∀ a, (![12, 16] : Fin 2 → Nat) a + S1x16.size a ≤ S64x128.size a
  inb_S64x128_S1x16_12_32 : ∀ a, (![12, 32] : Fin 2 → Nat) a + S1x16.size a ≤ S64x128.size a
  inb_S64x128_S1x16_12_48 : ∀ a, (![12, 48] : Fin 2 → Nat) a + S1x16.size a ≤ S64x128.size a
  inb_S64x128_S1x16_12_64 : ∀ a, (![12, 64] : Fin 2 → Nat) a + S1x16.size a ≤ S64x128.size a
  inb_S64x128_S1x16_12_80 : ∀ a, (![12, 80] : Fin 2 → Nat) a + S1x16.size a ≤ S64x128.size a
  inb_S64x128_S1x16_12_96 : ∀ a, (![12, 96] : Fin 2 → Nat) a + S1x16.size a ≤ S64x128.size a
  inb_S64x128_S1x16_12_112 : ∀ a, (![12, 112] : Fin 2 → Nat) a + S1x16.size a ≤ S64x128.size a
  slices_S16_o13_S1 : S16.Slices ![13] S1
  inb_S64x128_S1x16_13_0 : ∀ a, (![13, 0] : Fin 2 → Nat) a + S1x16.size a ≤ S64x128.size a
  inb_S64x128_S1x16_13_16 : ∀ a, (![13, 16] : Fin 2 → Nat) a + S1x16.size a ≤ S64x128.size a
  inb_S64x128_S1x16_13_32 : ∀ a, (![13, 32] : Fin 2 → Nat) a + S1x16.size a ≤ S64x128.size a
  inb_S64x128_S1x16_13_48 : ∀ a, (![13, 48] : Fin 2 → Nat) a + S1x16.size a ≤ S64x128.size a
  inb_S64x128_S1x16_13_64 : ∀ a, (![13, 64] : Fin 2 → Nat) a + S1x16.size a ≤ S64x128.size a
  inb_S64x128_S1x16_13_80 : ∀ a, (![13, 80] : Fin 2 → Nat) a + S1x16.size a ≤ S64x128.size a
  inb_S64x128_S1x16_13_96 : ∀ a, (![13, 96] : Fin 2 → Nat) a + S1x16.size a ≤ S64x128.size a
  inb_S64x128_S1x16_13_112 : ∀ a, (![13, 112] : Fin 2 → Nat) a + S1x16.size a ≤ S64x128.size a
  slices_S16_o14_S1 : S16.Slices ![14] S1
  inb_S64x128_S1x16_14_0 : ∀ a, (![14, 0] : Fin 2 → Nat) a + S1x16.size a ≤ S64x128.size a
  inb_S64x128_S1x16_14_16 : ∀ a, (![14, 16] : Fin 2 → Nat) a + S1x16.size a ≤ S64x128.size a
  inb_S64x128_S1x16_14_32 : ∀ a, (![14, 32] : Fin 2 → Nat) a + S1x16.size a ≤ S64x128.size a
  inb_S64x128_S1x16_14_48 : ∀ a, (![14, 48] : Fin 2 → Nat) a + S1x16.size a ≤ S64x128.size a
  inb_S64x128_S1x16_14_64 : ∀ a, (![14, 64] : Fin 2 → Nat) a + S1x16.size a ≤ S64x128.size a
  inb_S64x128_S1x16_14_80 : ∀ a, (![14, 80] : Fin 2 → Nat) a + S1x16.size a ≤ S64x128.size a
  inb_S64x128_S1x16_14_96 : ∀ a, (![14, 96] : Fin 2 → Nat) a + S1x16.size a ≤ S64x128.size a
  inb_S64x128_S1x16_14_112 : ∀ a, (![14, 112] : Fin 2 → Nat) a + S1x16.size a ≤ S64x128.size a
  slices_S16_o15_S1 : S16.Slices ![15] S1
  inb_S64x128_S1x16_15_0 : ∀ a, (![15, 0] : Fin 2 → Nat) a + S1x16.size a ≤ S64x128.size a
  inb_S64x128_S1x16_15_16 : ∀ a, (![15, 16] : Fin 2 → Nat) a + S1x16.size a ≤ S64x128.size a
  inb_S64x128_S1x16_15_32 : ∀ a, (![15, 32] : Fin 2 → Nat) a + S1x16.size a ≤ S64x128.size a
  inb_S64x128_S1x16_15_48 : ∀ a, (![15, 48] : Fin 2 → Nat) a + S1x16.size a ≤ S64x128.size a
  inb_S64x128_S1x16_15_64 : ∀ a, (![15, 64] : Fin 2 → Nat) a + S1x16.size a ≤ S64x128.size a
  inb_S64x128_S1x16_15_80 : ∀ a, (![15, 80] : Fin 2 → Nat) a + S1x16.size a ≤ S64x128.size a
  inb_S64x128_S1x16_15_96 : ∀ a, (![15, 96] : Fin 2 → Nat) a + S1x16.size a ≤ S64x128.size a
  inb_S64x128_S1x16_15_112 : ∀ a, (![15, 112] : Fin 2 → Nat) a + S1x16.size a ≤ S64x128.size a
  inb_S64x128_S1x16_16_0 : ∀ a, (![16, 0] : Fin 2 → Nat) a + S1x16.size a ≤ S64x128.size a
  inb_S64x128_S1x16_16_16 : ∀ a, (![16, 16] : Fin 2 → Nat) a + S1x16.size a ≤ S64x128.size a
  inb_S64x128_S1x16_16_32 : ∀ a, (![16, 32] : Fin 2 → Nat) a + S1x16.size a ≤ S64x128.size a
  inb_S64x128_S1x16_16_48 : ∀ a, (![16, 48] : Fin 2 → Nat) a + S1x16.size a ≤ S64x128.size a
  inb_S64x128_S1x16_16_64 : ∀ a, (![16, 64] : Fin 2 → Nat) a + S1x16.size a ≤ S64x128.size a
  inb_S64x128_S1x16_16_80 : ∀ a, (![16, 80] : Fin 2 → Nat) a + S1x16.size a ≤ S64x128.size a
  inb_S64x128_S1x16_16_96 : ∀ a, (![16, 96] : Fin 2 → Nat) a + S1x16.size a ≤ S64x128.size a
  inb_S64x128_S1x16_16_112 : ∀ a, (![16, 112] : Fin 2 → Nat) a + S1x16.size a ≤ S64x128.size a
  inb_S64x128_S1x16_17_0 : ∀ a, (![17, 0] : Fin 2 → Nat) a + S1x16.size a ≤ S64x128.size a
  inb_S64x128_S1x16_17_16 : ∀ a, (![17, 16] : Fin 2 → Nat) a + S1x16.size a ≤ S64x128.size a
  inb_S64x128_S1x16_17_32 : ∀ a, (![17, 32] : Fin 2 → Nat) a + S1x16.size a ≤ S64x128.size a
  inb_S64x128_S1x16_17_48 : ∀ a, (![17, 48] : Fin 2 → Nat) a + S1x16.size a ≤ S64x128.size a
  inb_S64x128_S1x16_17_64 : ∀ a, (![17, 64] : Fin 2 → Nat) a + S1x16.size a ≤ S64x128.size a
  inb_S64x128_S1x16_17_80 : ∀ a, (![17, 80] : Fin 2 → Nat) a + S1x16.size a ≤ S64x128.size a
  inb_S64x128_S1x16_17_96 : ∀ a, (![17, 96] : Fin 2 → Nat) a + S1x16.size a ≤ S64x128.size a
  inb_S64x128_S1x16_17_112 : ∀ a, (![17, 112] : Fin 2 → Nat) a + S1x16.size a ≤ S64x128.size a
  inb_S64x128_S1x16_18_0 : ∀ a, (![18, 0] : Fin 2 → Nat) a + S1x16.size a ≤ S64x128.size a
  inb_S64x128_S1x16_18_16 : ∀ a, (![18, 16] : Fin 2 → Nat) a + S1x16.size a ≤ S64x128.size a
  inb_S64x128_S1x16_18_32 : ∀ a, (![18, 32] : Fin 2 → Nat) a + S1x16.size a ≤ S64x128.size a
  inb_S64x128_S1x16_18_48 : ∀ a, (![18, 48] : Fin 2 → Nat) a + S1x16.size a ≤ S64x128.size a
  inb_S64x128_S1x16_18_64 : ∀ a, (![18, 64] : Fin 2 → Nat) a + S1x16.size a ≤ S64x128.size a
  inb_S64x128_S1x16_18_80 : ∀ a, (![18, 80] : Fin 2 → Nat) a + S1x16.size a ≤ S64x128.size a
  inb_S64x128_S1x16_18_96 : ∀ a, (![18, 96] : Fin 2 → Nat) a + S1x16.size a ≤ S64x128.size a
  inb_S64x128_S1x16_18_112 : ∀ a, (![18, 112] : Fin 2 → Nat) a + S1x16.size a ≤ S64x128.size a
  inb_S64x128_S1x16_19_0 : ∀ a, (![19, 0] : Fin 2 → Nat) a + S1x16.size a ≤ S64x128.size a
  inb_S64x128_S1x16_19_16 : ∀ a, (![19, 16] : Fin 2 → Nat) a + S1x16.size a ≤ S64x128.size a
  inb_S64x128_S1x16_19_32 : ∀ a, (![19, 32] : Fin 2 → Nat) a + S1x16.size a ≤ S64x128.size a
  inb_S64x128_S1x16_19_48 : ∀ a, (![19, 48] : Fin 2 → Nat) a + S1x16.size a ≤ S64x128.size a
  inb_S64x128_S1x16_19_64 : ∀ a, (![19, 64] : Fin 2 → Nat) a + S1x16.size a ≤ S64x128.size a
  inb_S64x128_S1x16_19_80 : ∀ a, (![19, 80] : Fin 2 → Nat) a + S1x16.size a ≤ S64x128.size a
  inb_S64x128_S1x16_19_96 : ∀ a, (![19, 96] : Fin 2 → Nat) a + S1x16.size a ≤ S64x128.size a
  inb_S64x128_S1x16_19_112 : ∀ a, (![19, 112] : Fin 2 → Nat) a + S1x16.size a ≤ S64x128.size a
  inb_S64x128_S1x16_20_0 : ∀ a, (![20, 0] : Fin 2 → Nat) a + S1x16.size a ≤ S64x128.size a
  inb_S64x128_S1x16_20_16 : ∀ a, (![20, 16] : Fin 2 → Nat) a + S1x16.size a ≤ S64x128.size a
  inb_S64x128_S1x16_20_32 : ∀ a, (![20, 32] : Fin 2 → Nat) a + S1x16.size a ≤ S64x128.size a
  inb_S64x128_S1x16_20_48 : ∀ a, (![20, 48] : Fin 2 → Nat) a + S1x16.size a ≤ S64x128.size a
  inb_S64x128_S1x16_20_64 : ∀ a, (![20, 64] : Fin 2 → Nat) a + S1x16.size a ≤ S64x128.size a
  inb_S64x128_S1x16_20_80 : ∀ a, (![20, 80] : Fin 2 → Nat) a + S1x16.size a ≤ S64x128.size a
  inb_S64x128_S1x16_20_96 : ∀ a, (![20, 96] : Fin 2 → Nat) a + S1x16.size a ≤ S64x128.size a
  inb_S64x128_S1x16_20_112 : ∀ a, (![20, 112] : Fin 2 → Nat) a + S1x16.size a ≤ S64x128.size a
  inb_S64x128_S1x16_21_0 : ∀ a, (![21, 0] : Fin 2 → Nat) a + S1x16.size a ≤ S64x128.size a
  inb_S64x128_S1x16_21_16 : ∀ a, (![21, 16] : Fin 2 → Nat) a + S1x16.size a ≤ S64x128.size a
  inb_S64x128_S1x16_21_32 : ∀ a, (![21, 32] : Fin 2 → Nat) a + S1x16.size a ≤ S64x128.size a
  inb_S64x128_S1x16_21_48 : ∀ a, (![21, 48] : Fin 2 → Nat) a + S1x16.size a ≤ S64x128.size a
  inb_S64x128_S1x16_21_64 : ∀ a, (![21, 64] : Fin 2 → Nat) a + S1x16.size a ≤ S64x128.size a
  inb_S64x128_S1x16_21_80 : ∀ a, (![21, 80] : Fin 2 → Nat) a + S1x16.size a ≤ S64x128.size a
  inb_S64x128_S1x16_21_96 : ∀ a, (![21, 96] : Fin 2 → Nat) a + S1x16.size a ≤ S64x128.size a
  inb_S64x128_S1x16_21_112 : ∀ a, (![21, 112] : Fin 2 → Nat) a + S1x16.size a ≤ S64x128.size a
  inb_S64x128_S1x16_22_0 : ∀ a, (![22, 0] : Fin 2 → Nat) a + S1x16.size a ≤ S64x128.size a
  inb_S64x128_S1x16_22_16 : ∀ a, (![22, 16] : Fin 2 → Nat) a + S1x16.size a ≤ S64x128.size a
  inb_S64x128_S1x16_22_32 : ∀ a, (![22, 32] : Fin 2 → Nat) a + S1x16.size a ≤ S64x128.size a
  inb_S64x128_S1x16_22_48 : ∀ a, (![22, 48] : Fin 2 → Nat) a + S1x16.size a ≤ S64x128.size a
  inb_S64x128_S1x16_22_64 : ∀ a, (![22, 64] : Fin 2 → Nat) a + S1x16.size a ≤ S64x128.size a
  inb_S64x128_S1x16_22_80 : ∀ a, (![22, 80] : Fin 2 → Nat) a + S1x16.size a ≤ S64x128.size a
  inb_S64x128_S1x16_22_96 : ∀ a, (![22, 96] : Fin 2 → Nat) a + S1x16.size a ≤ S64x128.size a
  inb_S64x128_S1x16_22_112 : ∀ a, (![22, 112] : Fin 2 → Nat) a + S1x16.size a ≤ S64x128.size a
  inb_S64x128_S1x16_23_0 : ∀ a, (![23, 0] : Fin 2 → Nat) a + S1x16.size a ≤ S64x128.size a
  inb_S64x128_S1x16_23_16 : ∀ a, (![23, 16] : Fin 2 → Nat) a + S1x16.size a ≤ S64x128.size a
  inb_S64x128_S1x16_23_32 : ∀ a, (![23, 32] : Fin 2 → Nat) a + S1x16.size a ≤ S64x128.size a
  inb_S64x128_S1x16_23_48 : ∀ a, (![23, 48] : Fin 2 → Nat) a + S1x16.size a ≤ S64x128.size a
  inb_S64x128_S1x16_23_64 : ∀ a, (![23, 64] : Fin 2 → Nat) a + S1x16.size a ≤ S64x128.size a
  inb_S64x128_S1x16_23_80 : ∀ a, (![23, 80] : Fin 2 → Nat) a + S1x16.size a ≤ S64x128.size a
  inb_S64x128_S1x16_23_96 : ∀ a, (![23, 96] : Fin 2 → Nat) a + S1x16.size a ≤ S64x128.size a
  inb_S64x128_S1x16_23_112 : ∀ a, (![23, 112] : Fin 2 → Nat) a + S1x16.size a ≤ S64x128.size a
  inb_S64x128_S1x16_24_0 : ∀ a, (![24, 0] : Fin 2 → Nat) a + S1x16.size a ≤ S64x128.size a
  inb_S64x128_S1x16_24_16 : ∀ a, (![24, 16] : Fin 2 → Nat) a + S1x16.size a ≤ S64x128.size a
  inb_S64x128_S1x16_24_32 : ∀ a, (![24, 32] : Fin 2 → Nat) a + S1x16.size a ≤ S64x128.size a
  inb_S64x128_S1x16_24_48 : ∀ a, (![24, 48] : Fin 2 → Nat) a + S1x16.size a ≤ S64x128.size a
  inb_S64x128_S1x16_24_64 : ∀ a, (![24, 64] : Fin 2 → Nat) a + S1x16.size a ≤ S64x128.size a
  inb_S64x128_S1x16_24_80 : ∀ a, (![24, 80] : Fin 2 → Nat) a + S1x16.size a ≤ S64x128.size a
  inb_S64x128_S1x16_24_96 : ∀ a, (![24, 96] : Fin 2 → Nat) a + S1x16.size a ≤ S64x128.size a
  inb_S64x128_S1x16_24_112 : ∀ a, (![24, 112] : Fin 2 → Nat) a + S1x16.size a ≤ S64x128.size a
  inb_S64x128_S1x16_25_0 : ∀ a, (![25, 0] : Fin 2 → Nat) a + S1x16.size a ≤ S64x128.size a
  inb_S64x128_S1x16_25_16 : ∀ a, (![25, 16] : Fin 2 → Nat) a + S1x16.size a ≤ S64x128.size a
  inb_S64x128_S1x16_25_32 : ∀ a, (![25, 32] : Fin 2 → Nat) a + S1x16.size a ≤ S64x128.size a
  inb_S64x128_S1x16_25_48 : ∀ a, (![25, 48] : Fin 2 → Nat) a + S1x16.size a ≤ S64x128.size a
  inb_S64x128_S1x16_25_64 : ∀ a, (![25, 64] : Fin 2 → Nat) a + S1x16.size a ≤ S64x128.size a
  inb_S64x128_S1x16_25_80 : ∀ a, (![25, 80] : Fin 2 → Nat) a + S1x16.size a ≤ S64x128.size a
  inb_S64x128_S1x16_25_96 : ∀ a, (![25, 96] : Fin 2 → Nat) a + S1x16.size a ≤ S64x128.size a
  inb_S64x128_S1x16_25_112 : ∀ a, (![25, 112] : Fin 2 → Nat) a + S1x16.size a ≤ S64x128.size a
  inb_S64x128_S1x16_26_0 : ∀ a, (![26, 0] : Fin 2 → Nat) a + S1x16.size a ≤ S64x128.size a
  inb_S64x128_S1x16_26_16 : ∀ a, (![26, 16] : Fin 2 → Nat) a + S1x16.size a ≤ S64x128.size a
  inb_S64x128_S1x16_26_32 : ∀ a, (![26, 32] : Fin 2 → Nat) a + S1x16.size a ≤ S64x128.size a
  inb_S64x128_S1x16_26_48 : ∀ a, (![26, 48] : Fin 2 → Nat) a + S1x16.size a ≤ S64x128.size a
  inb_S64x128_S1x16_26_64 : ∀ a, (![26, 64] : Fin 2 → Nat) a + S1x16.size a ≤ S64x128.size a
  inb_S64x128_S1x16_26_80 : ∀ a, (![26, 80] : Fin 2 → Nat) a + S1x16.size a ≤ S64x128.size a
  inb_S64x128_S1x16_26_96 : ∀ a, (![26, 96] : Fin 2 → Nat) a + S1x16.size a ≤ S64x128.size a
  inb_S64x128_S1x16_26_112 : ∀ a, (![26, 112] : Fin 2 → Nat) a + S1x16.size a ≤ S64x128.size a
  inb_S64x128_S1x16_27_0 : ∀ a, (![27, 0] : Fin 2 → Nat) a + S1x16.size a ≤ S64x128.size a
  inb_S64x128_S1x16_27_16 : ∀ a, (![27, 16] : Fin 2 → Nat) a + S1x16.size a ≤ S64x128.size a
  inb_S64x128_S1x16_27_32 : ∀ a, (![27, 32] : Fin 2 → Nat) a + S1x16.size a ≤ S64x128.size a
  inb_S64x128_S1x16_27_48 : ∀ a, (![27, 48] : Fin 2 → Nat) a + S1x16.size a ≤ S64x128.size a
  inb_S64x128_S1x16_27_64 : ∀ a, (![27, 64] : Fin 2 → Nat) a + S1x16.size a ≤ S64x128.size a
  inb_S64x128_S1x16_27_80 : ∀ a, (![27, 80] : Fin 2 → Nat) a + S1x16.size a ≤ S64x128.size a
  inb_S64x128_S1x16_27_96 : ∀ a, (![27, 96] : Fin 2 → Nat) a + S1x16.size a ≤ S64x128.size a
  inb_S64x128_S1x16_27_112 : ∀ a, (![27, 112] : Fin 2 → Nat) a + S1x16.size a ≤ S64x128.size a
  inb_S64x128_S1x16_28_0 : ∀ a, (![28, 0] : Fin 2 → Nat) a + S1x16.size a ≤ S64x128.size a
  inb_S64x128_S1x16_28_16 : ∀ a, (![28, 16] : Fin 2 → Nat) a + S1x16.size a ≤ S64x128.size a
  inb_S64x128_S1x16_28_32 : ∀ a, (![28, 32] : Fin 2 → Nat) a + S1x16.size a ≤ S64x128.size a
  inb_S64x128_S1x16_28_48 : ∀ a, (![28, 48] : Fin 2 → Nat) a + S1x16.size a ≤ S64x128.size a
  inb_S64x128_S1x16_28_64 : ∀ a, (![28, 64] : Fin 2 → Nat) a + S1x16.size a ≤ S64x128.size a
  inb_S64x128_S1x16_28_80 : ∀ a, (![28, 80] : Fin 2 → Nat) a + S1x16.size a ≤ S64x128.size a
  inb_S64x128_S1x16_28_96 : ∀ a, (![28, 96] : Fin 2 → Nat) a + S1x16.size a ≤ S64x128.size a
  inb_S64x128_S1x16_28_112 : ∀ a, (![28, 112] : Fin 2 → Nat) a + S1x16.size a ≤ S64x128.size a
  inb_S64x128_S1x16_29_0 : ∀ a, (![29, 0] : Fin 2 → Nat) a + S1x16.size a ≤ S64x128.size a
  inb_S64x128_S1x16_29_16 : ∀ a, (![29, 16] : Fin 2 → Nat) a + S1x16.size a ≤ S64x128.size a
  inb_S64x128_S1x16_29_32 : ∀ a, (![29, 32] : Fin 2 → Nat) a + S1x16.size a ≤ S64x128.size a
  inb_S64x128_S1x16_29_48 : ∀ a, (![29, 48] : Fin 2 → Nat) a + S1x16.size a ≤ S64x128.size a
  inb_S64x128_S1x16_29_64 : ∀ a, (![29, 64] : Fin 2 → Nat) a + S1x16.size a ≤ S64x128.size a
  inb_S64x128_S1x16_29_80 : ∀ a, (![29, 80] : Fin 2 → Nat) a + S1x16.size a ≤ S64x128.size a
  inb_S64x128_S1x16_29_96 : ∀ a, (![29, 96] : Fin 2 → Nat) a + S1x16.size a ≤ S64x128.size a
  inb_S64x128_S1x16_29_112 : ∀ a, (![29, 112] : Fin 2 → Nat) a + S1x16.size a ≤ S64x128.size a
  inb_S64x128_S1x16_30_0 : ∀ a, (![30, 0] : Fin 2 → Nat) a + S1x16.size a ≤ S64x128.size a
  inb_S64x128_S1x16_30_16 : ∀ a, (![30, 16] : Fin 2 → Nat) a + S1x16.size a ≤ S64x128.size a
  inb_S64x128_S1x16_30_32 : ∀ a, (![30, 32] : Fin 2 → Nat) a + S1x16.size a ≤ S64x128.size a
  inb_S64x128_S1x16_30_48 : ∀ a, (![30, 48] : Fin 2 → Nat) a + S1x16.size a ≤ S64x128.size a
  inb_S64x128_S1x16_30_64 : ∀ a, (![30, 64] : Fin 2 → Nat) a + S1x16.size a ≤ S64x128.size a
  inb_S64x128_S1x16_30_80 : ∀ a, (![30, 80] : Fin 2 → Nat) a + S1x16.size a ≤ S64x128.size a
  inb_S64x128_S1x16_30_96 : ∀ a, (![30, 96] : Fin 2 → Nat) a + S1x16.size a ≤ S64x128.size a
  inb_S64x128_S1x16_30_112 : ∀ a, (![30, 112] : Fin 2 → Nat) a + S1x16.size a ≤ S64x128.size a
  inb_S64x128_S1x16_31_0 : ∀ a, (![31, 0] : Fin 2 → Nat) a + S1x16.size a ≤ S64x128.size a
  inb_S64x128_S1x16_31_16 : ∀ a, (![31, 16] : Fin 2 → Nat) a + S1x16.size a ≤ S64x128.size a
  inb_S64x128_S1x16_31_32 : ∀ a, (![31, 32] : Fin 2 → Nat) a + S1x16.size a ≤ S64x128.size a
  inb_S64x128_S1x16_31_48 : ∀ a, (![31, 48] : Fin 2 → Nat) a + S1x16.size a ≤ S64x128.size a
  inb_S64x128_S1x16_31_64 : ∀ a, (![31, 64] : Fin 2 → Nat) a + S1x16.size a ≤ S64x128.size a
  inb_S64x128_S1x16_31_80 : ∀ a, (![31, 80] : Fin 2 → Nat) a + S1x16.size a ≤ S64x128.size a
  inb_S64x128_S1x16_31_96 : ∀ a, (![31, 96] : Fin 2 → Nat) a + S1x16.size a ≤ S64x128.size a
  inb_S64x128_S1x16_31_112 : ∀ a, (![31, 112] : Fin 2 → Nat) a + S1x16.size a ≤ S64x128.size a
  shapeCasts_S16_S1x16 : S16.ShapeCasts S1x16
  inb_S2x128_S1x16_1_0 : ∀ a, (![1, 0] : Fin 2 → Nat) a + S1x16.size a ≤ S2x128.size a
  inb_S2x128_S1x16_1_16 : ∀ a, (![1, 16] : Fin 2 → Nat) a + S1x16.size a ≤ S2x128.size a
  inb_S2x128_S1x16_1_32 : ∀ a, (![1, 32] : Fin 2 → Nat) a + S1x16.size a ≤ S2x128.size a
  inb_S2x128_S1x16_1_48 : ∀ a, (![1, 48] : Fin 2 → Nat) a + S1x16.size a ≤ S2x128.size a
  inb_S2x128_S1x16_1_64 : ∀ a, (![1, 64] : Fin 2 → Nat) a + S1x16.size a ≤ S2x128.size a
  inb_S2x128_S1x16_1_80 : ∀ a, (![1, 80] : Fin 2 → Nat) a + S1x16.size a ≤ S2x128.size a
  inb_S2x128_S1x16_1_96 : ∀ a, (![1, 96] : Fin 2 → Nat) a + S1x16.size a ≤ S2x128.size a
  inb_S2x128_S1x16_1_112 : ∀ a, (![1, 112] : Fin 2 → Nat) a + S1x16.size a ≤ S2x128.size a
  inb_S64x128_S1x16_32_0 : ∀ a, (![32, 0] : Fin 2 → Nat) a + S1x16.size a ≤ S64x128.size a
  inb_S64x128_S1x16_32_16 : ∀ a, (![32, 16] : Fin 2 → Nat) a + S1x16.size a ≤ S64x128.size a
  inb_S64x128_S1x16_32_32 : ∀ a, (![32, 32] : Fin 2 → Nat) a + S1x16.size a ≤ S64x128.size a
  inb_S64x128_S1x16_32_48 : ∀ a, (![32, 48] : Fin 2 → Nat) a + S1x16.size a ≤ S64x128.size a
  inb_S64x128_S1x16_32_64 : ∀ a, (![32, 64] : Fin 2 → Nat) a + S1x16.size a ≤ S64x128.size a
  inb_S64x128_S1x16_32_80 : ∀ a, (![32, 80] : Fin 2 → Nat) a + S1x16.size a ≤ S64x128.size a
  inb_S64x128_S1x16_32_96 : ∀ a, (![32, 96] : Fin 2 → Nat) a + S1x16.size a ≤ S64x128.size a
  inb_S64x128_S1x16_32_112 : ∀ a, (![32, 112] : Fin 2 → Nat) a + S1x16.size a ≤ S64x128.size a
  inb_S64x128_S1x16_33_0 : ∀ a, (![33, 0] : Fin 2 → Nat) a + S1x16.size a ≤ S64x128.size a
  inb_S64x128_S1x16_33_16 : ∀ a, (![33, 16] : Fin 2 → Nat) a + S1x16.size a ≤ S64x128.size a
  inb_S64x128_S1x16_33_32 : ∀ a, (![33, 32] : Fin 2 → Nat) a + S1x16.size a ≤ S64x128.size a
  inb_S64x128_S1x16_33_48 : ∀ a, (![33, 48] : Fin 2 → Nat) a + S1x16.size a ≤ S64x128.size a
  inb_S64x128_S1x16_33_64 : ∀ a, (![33, 64] : Fin 2 → Nat) a + S1x16.size a ≤ S64x128.size a
  inb_S64x128_S1x16_33_80 : ∀ a, (![33, 80] : Fin 2 → Nat) a + S1x16.size a ≤ S64x128.size a
  inb_S64x128_S1x16_33_96 : ∀ a, (![33, 96] : Fin 2 → Nat) a + S1x16.size a ≤ S64x128.size a
  inb_S64x128_S1x16_33_112 : ∀ a, (![33, 112] : Fin 2 → Nat) a + S1x16.size a ≤ S64x128.size a
  inb_S64x128_S1x16_34_0 : ∀ a, (![34, 0] : Fin 2 → Nat) a + S1x16.size a ≤ S64x128.size a
  inb_S64x128_S1x16_34_16 : ∀ a, (![34, 16] : Fin 2 → Nat) a + S1x16.size a ≤ S64x128.size a
  inb_S64x128_S1x16_34_32 : ∀ a, (![34, 32] : Fin 2 → Nat) a + S1x16.size a ≤ S64x128.size a
  inb_S64x128_S1x16_34_48 : ∀ a, (![34, 48] : Fin 2 → Nat) a + S1x16.size a ≤ S64x128.size a
  inb_S64x128_S1x16_34_64 : ∀ a, (![34, 64] : Fin 2 → Nat) a + S1x16.size a ≤ S64x128.size a
  inb_S64x128_S1x16_34_80 : ∀ a, (![34, 80] : Fin 2 → Nat) a + S1x16.size a ≤ S64x128.size a
  inb_S64x128_S1x16_34_96 : ∀ a, (![34, 96] : Fin 2 → Nat) a + S1x16.size a ≤ S64x128.size a
  inb_S64x128_S1x16_34_112 : ∀ a, (![34, 112] : Fin 2 → Nat) a + S1x16.size a ≤ S64x128.size a
  inb_S64x128_S1x16_35_0 : ∀ a, (![35, 0] : Fin 2 → Nat) a + S1x16.size a ≤ S64x128.size a
  inb_S64x128_S1x16_35_16 : ∀ a, (![35, 16] : Fin 2 → Nat) a + S1x16.size a ≤ S64x128.size a
  inb_S64x128_S1x16_35_32 : ∀ a, (![35, 32] : Fin 2 → Nat) a + S1x16.size a ≤ S64x128.size a
  inb_S64x128_S1x16_35_48 : ∀ a, (![35, 48] : Fin 2 → Nat) a + S1x16.size a ≤ S64x128.size a
  inb_S64x128_S1x16_35_64 : ∀ a, (![35, 64] : Fin 2 → Nat) a + S1x16.size a ≤ S64x128.size a
  inb_S64x128_S1x16_35_80 : ∀ a, (![35, 80] : Fin 2 → Nat) a + S1x16.size a ≤ S64x128.size a
  inb_S64x128_S1x16_35_96 : ∀ a, (![35, 96] : Fin 2 → Nat) a + S1x16.size a ≤ S64x128.size a
  inb_S64x128_S1x16_35_112 : ∀ a, (![35, 112] : Fin 2 → Nat) a + S1x16.size a ≤ S64x128.size a
  inb_S64x128_S1x16_36_0 : ∀ a, (![36, 0] : Fin 2 → Nat) a + S1x16.size a ≤ S64x128.size a
  inb_S64x128_S1x16_36_16 : ∀ a, (![36, 16] : Fin 2 → Nat) a + S1x16.size a ≤ S64x128.size a
  inb_S64x128_S1x16_36_32 : ∀ a, (![36, 32] : Fin 2 → Nat) a + S1x16.size a ≤ S64x128.size a
  inb_S64x128_S1x16_36_48 : ∀ a, (![36, 48] : Fin 2 → Nat) a + S1x16.size a ≤ S64x128.size a
  inb_S64x128_S1x16_36_64 : ∀ a, (![36, 64] : Fin 2 → Nat) a + S1x16.size a ≤ S64x128.size a
  inb_S64x128_S1x16_36_80 : ∀ a, (![36, 80] : Fin 2 → Nat) a + S1x16.size a ≤ S64x128.size a
  inb_S64x128_S1x16_36_96 : ∀ a, (![36, 96] : Fin 2 → Nat) a + S1x16.size a ≤ S64x128.size a
  inb_S64x128_S1x16_36_112 : ∀ a, (![36, 112] : Fin 2 → Nat) a + S1x16.size a ≤ S64x128.size a
  inb_S64x128_S1x16_37_0 : ∀ a, (![37, 0] : Fin 2 → Nat) a + S1x16.size a ≤ S64x128.size a
  inb_S64x128_S1x16_37_16 : ∀ a, (![37, 16] : Fin 2 → Nat) a + S1x16.size a ≤ S64x128.size a
  inb_S64x128_S1x16_37_32 : ∀ a, (![37, 32] : Fin 2 → Nat) a + S1x16.size a ≤ S64x128.size a
  inb_S64x128_S1x16_37_48 : ∀ a, (![37, 48] : Fin 2 → Nat) a + S1x16.size a ≤ S64x128.size a
  inb_S64x128_S1x16_37_64 : ∀ a, (![37, 64] : Fin 2 → Nat) a + S1x16.size a ≤ S64x128.size a
  inb_S64x128_S1x16_37_80 : ∀ a, (![37, 80] : Fin 2 → Nat) a + S1x16.size a ≤ S64x128.size a
  inb_S64x128_S1x16_37_96 : ∀ a, (![37, 96] : Fin 2 → Nat) a + S1x16.size a ≤ S64x128.size a
  inb_S64x128_S1x16_37_112 : ∀ a, (![37, 112] : Fin 2 → Nat) a + S1x16.size a ≤ S64x128.size a
  inb_S64x128_S1x16_38_0 : ∀ a, (![38, 0] : Fin 2 → Nat) a + S1x16.size a ≤ S64x128.size a
  inb_S64x128_S1x16_38_16 : ∀ a, (![38, 16] : Fin 2 → Nat) a + S1x16.size a ≤ S64x128.size a
  inb_S64x128_S1x16_38_32 : ∀ a, (![38, 32] : Fin 2 → Nat) a + S1x16.size a ≤ S64x128.size a
  inb_S64x128_S1x16_38_48 : ∀ a, (![38, 48] : Fin 2 → Nat) a + S1x16.size a ≤ S64x128.size a
  inb_S64x128_S1x16_38_64 : ∀ a, (![38, 64] : Fin 2 → Nat) a + S1x16.size a ≤ S64x128.size a
  inb_S64x128_S1x16_38_80 : ∀ a, (![38, 80] : Fin 2 → Nat) a + S1x16.size a ≤ S64x128.size a
  inb_S64x128_S1x16_38_96 : ∀ a, (![38, 96] : Fin 2 → Nat) a + S1x16.size a ≤ S64x128.size a
  inb_S64x128_S1x16_38_112 : ∀ a, (![38, 112] : Fin 2 → Nat) a + S1x16.size a ≤ S64x128.size a
  inb_S64x128_S1x16_39_0 : ∀ a, (![39, 0] : Fin 2 → Nat) a + S1x16.size a ≤ S64x128.size a
  inb_S64x128_S1x16_39_16 : ∀ a, (![39, 16] : Fin 2 → Nat) a + S1x16.size a ≤ S64x128.size a
  inb_S64x128_S1x16_39_32 : ∀ a, (![39, 32] : Fin 2 → Nat) a + S1x16.size a ≤ S64x128.size a
  inb_S64x128_S1x16_39_48 : ∀ a, (![39, 48] : Fin 2 → Nat) a + S1x16.size a ≤ S64x128.size a
  inb_S64x128_S1x16_39_64 : ∀ a, (![39, 64] : Fin 2 → Nat) a + S1x16.size a ≤ S64x128.size a
  inb_S64x128_S1x16_39_80 : ∀ a, (![39, 80] : Fin 2 → Nat) a + S1x16.size a ≤ S64x128.size a
  inb_S64x128_S1x16_39_96 : ∀ a, (![39, 96] : Fin 2 → Nat) a + S1x16.size a ≤ S64x128.size a
  inb_S64x128_S1x16_39_112 : ∀ a, (![39, 112] : Fin 2 → Nat) a + S1x16.size a ≤ S64x128.size a
  inb_S64x128_S1x16_40_0 : ∀ a, (![40, 0] : Fin 2 → Nat) a + S1x16.size a ≤ S64x128.size a
  inb_S64x128_S1x16_40_16 : ∀ a, (![40, 16] : Fin 2 → Nat) a + S1x16.size a ≤ S64x128.size a
  inb_S64x128_S1x16_40_32 : ∀ a, (![40, 32] : Fin 2 → Nat) a + S1x16.size a ≤ S64x128.size a
  inb_S64x128_S1x16_40_48 : ∀ a, (![40, 48] : Fin 2 → Nat) a + S1x16.size a ≤ S64x128.size a
  inb_S64x128_S1x16_40_64 : ∀ a, (![40, 64] : Fin 2 → Nat) a + S1x16.size a ≤ S64x128.size a
  inb_S64x128_S1x16_40_80 : ∀ a, (![40, 80] : Fin 2 → Nat) a + S1x16.size a ≤ S64x128.size a
  inb_S64x128_S1x16_40_96 : ∀ a, (![40, 96] : Fin 2 → Nat) a + S1x16.size a ≤ S64x128.size a
  inb_S64x128_S1x16_40_112 : ∀ a, (![40, 112] : Fin 2 → Nat) a + S1x16.size a ≤ S64x128.size a
  inb_S64x128_S1x16_41_0 : ∀ a, (![41, 0] : Fin 2 → Nat) a + S1x16.size a ≤ S64x128.size a
  inb_S64x128_S1x16_41_16 : ∀ a, (![41, 16] : Fin 2 → Nat) a + S1x16.size a ≤ S64x128.size a
  inb_S64x128_S1x16_41_32 : ∀ a, (![41, 32] : Fin 2 → Nat) a + S1x16.size a ≤ S64x128.size a
  inb_S64x128_S1x16_41_48 : ∀ a, (![41, 48] : Fin 2 → Nat) a + S1x16.size a ≤ S64x128.size a
  inb_S64x128_S1x16_41_64 : ∀ a, (![41, 64] : Fin 2 → Nat) a + S1x16.size a ≤ S64x128.size a
  inb_S64x128_S1x16_41_80 : ∀ a, (![41, 80] : Fin 2 → Nat) a + S1x16.size a ≤ S64x128.size a
  inb_S64x128_S1x16_41_96 : ∀ a, (![41, 96] : Fin 2 → Nat) a + S1x16.size a ≤ S64x128.size a
  inb_S64x128_S1x16_41_112 : ∀ a, (![41, 112] : Fin 2 → Nat) a + S1x16.size a ≤ S64x128.size a
  inb_S64x128_S1x16_42_0 : ∀ a, (![42, 0] : Fin 2 → Nat) a + S1x16.size a ≤ S64x128.size a
  inb_S64x128_S1x16_42_16 : ∀ a, (![42, 16] : Fin 2 → Nat) a + S1x16.size a ≤ S64x128.size a
  inb_S64x128_S1x16_42_32 : ∀ a, (![42, 32] : Fin 2 → Nat) a + S1x16.size a ≤ S64x128.size a
  inb_S64x128_S1x16_42_48 : ∀ a, (![42, 48] : Fin 2 → Nat) a + S1x16.size a ≤ S64x128.size a
  inb_S64x128_S1x16_42_64 : ∀ a, (![42, 64] : Fin 2 → Nat) a + S1x16.size a ≤ S64x128.size a
  inb_S64x128_S1x16_42_80 : ∀ a, (![42, 80] : Fin 2 → Nat) a + S1x16.size a ≤ S64x128.size a
  inb_S64x128_S1x16_42_96 : ∀ a, (![42, 96] : Fin 2 → Nat) a + S1x16.size a ≤ S64x128.size a
  inb_S64x128_S1x16_42_112 : ∀ a, (![42, 112] : Fin 2 → Nat) a + S1x16.size a ≤ S64x128.size a
  inb_S64x128_S1x16_43_0 : ∀ a, (![43, 0] : Fin 2 → Nat) a + S1x16.size a ≤ S64x128.size a
  inb_S64x128_S1x16_43_16 : ∀ a, (![43, 16] : Fin 2 → Nat) a + S1x16.size a ≤ S64x128.size a
  inb_S64x128_S1x16_43_32 : ∀ a, (![43, 32] : Fin 2 → Nat) a + S1x16.size a ≤ S64x128.size a
  inb_S64x128_S1x16_43_48 : ∀ a, (![43, 48] : Fin 2 → Nat) a + S1x16.size a ≤ S64x128.size a
  inb_S64x128_S1x16_43_64 : ∀ a, (![43, 64] : Fin 2 → Nat) a + S1x16.size a ≤ S64x128.size a
  inb_S64x128_S1x16_43_80 : ∀ a, (![43, 80] : Fin 2 → Nat) a + S1x16.size a ≤ S64x128.size a
  inb_S64x128_S1x16_43_96 : ∀ a, (![43, 96] : Fin 2 → Nat) a + S1x16.size a ≤ S64x128.size a
  inb_S64x128_S1x16_43_112 : ∀ a, (![43, 112] : Fin 2 → Nat) a + S1x16.size a ≤ S64x128.size a
  inb_S64x128_S1x16_44_0 : ∀ a, (![44, 0] : Fin 2 → Nat) a + S1x16.size a ≤ S64x128.size a
  inb_S64x128_S1x16_44_16 : ∀ a, (![44, 16] : Fin 2 → Nat) a + S1x16.size a ≤ S64x128.size a
  inb_S64x128_S1x16_44_32 : ∀ a, (![44, 32] : Fin 2 → Nat) a + S1x16.size a ≤ S64x128.size a
  inb_S64x128_S1x16_44_48 : ∀ a, (![44, 48] : Fin 2 → Nat) a + S1x16.size a ≤ S64x128.size a
  inb_S64x128_S1x16_44_64 : ∀ a, (![44, 64] : Fin 2 → Nat) a + S1x16.size a ≤ S64x128.size a
  inb_S64x128_S1x16_44_80 : ∀ a, (![44, 80] : Fin 2 → Nat) a + S1x16.size a ≤ S64x128.size a
  inb_S64x128_S1x16_44_96 : ∀ a, (![44, 96] : Fin 2 → Nat) a + S1x16.size a ≤ S64x128.size a
  inb_S64x128_S1x16_44_112 : ∀ a, (![44, 112] : Fin 2 → Nat) a + S1x16.size a ≤ S64x128.size a
  inb_S64x128_S1x16_45_0 : ∀ a, (![45, 0] : Fin 2 → Nat) a + S1x16.size a ≤ S64x128.size a
  inb_S64x128_S1x16_45_16 : ∀ a, (![45, 16] : Fin 2 → Nat) a + S1x16.size a ≤ S64x128.size a
  inb_S64x128_S1x16_45_32 : ∀ a, (![45, 32] : Fin 2 → Nat) a + S1x16.size a ≤ S64x128.size a
  inb_S64x128_S1x16_45_48 : ∀ a, (![45, 48] : Fin 2 → Nat) a + S1x16.size a ≤ S64x128.size a
  inb_S64x128_S1x16_45_64 : ∀ a, (![45, 64] : Fin 2 → Nat) a + S1x16.size a ≤ S64x128.size a
  inb_S64x128_S1x16_45_80 : ∀ a, (![45, 80] : Fin 2 → Nat) a + S1x16.size a ≤ S64x128.size a
  inb_S64x128_S1x16_45_96 : ∀ a, (![45, 96] : Fin 2 → Nat) a + S1x16.size a ≤ S64x128.size a
  inb_S64x128_S1x16_45_112 : ∀ a, (![45, 112] : Fin 2 → Nat) a + S1x16.size a ≤ S64x128.size a
  inb_S64x128_S1x16_46_0 : ∀ a, (![46, 0] : Fin 2 → Nat) a + S1x16.size a ≤ S64x128.size a
  inb_S64x128_S1x16_46_16 : ∀ a, (![46, 16] : Fin 2 → Nat) a + S1x16.size a ≤ S64x128.size a
  inb_S64x128_S1x16_46_32 : ∀ a, (![46, 32] : Fin 2 → Nat) a + S1x16.size a ≤ S64x128.size a
  inb_S64x128_S1x16_46_48 : ∀ a, (![46, 48] : Fin 2 → Nat) a + S1x16.size a ≤ S64x128.size a
  inb_S64x128_S1x16_46_64 : ∀ a, (![46, 64] : Fin 2 → Nat) a + S1x16.size a ≤ S64x128.size a
  inb_S64x128_S1x16_46_80 : ∀ a, (![46, 80] : Fin 2 → Nat) a + S1x16.size a ≤ S64x128.size a
  inb_S64x128_S1x16_46_96 : ∀ a, (![46, 96] : Fin 2 → Nat) a + S1x16.size a ≤ S64x128.size a
  inb_S64x128_S1x16_46_112 : ∀ a, (![46, 112] : Fin 2 → Nat) a + S1x16.size a ≤ S64x128.size a
  inb_S64x128_S1x16_47_0 : ∀ a, (![47, 0] : Fin 2 → Nat) a + S1x16.size a ≤ S64x128.size a
  inb_S64x128_S1x16_47_16 : ∀ a, (![47, 16] : Fin 2 → Nat) a + S1x16.size a ≤ S64x128.size a
  inb_S64x128_S1x16_47_32 : ∀ a, (![47, 32] : Fin 2 → Nat) a + S1x16.size a ≤ S64x128.size a
  inb_S64x128_S1x16_47_48 : ∀ a, (![47, 48] : Fin 2 → Nat) a + S1x16.size a ≤ S64x128.size a
  inb_S64x128_S1x16_47_64 : ∀ a, (![47, 64] : Fin 2 → Nat) a + S1x16.size a ≤ S64x128.size a
  inb_S64x128_S1x16_47_80 : ∀ a, (![47, 80] : Fin 2 → Nat) a + S1x16.size a ≤ S64x128.size a
  inb_S64x128_S1x16_47_96 : ∀ a, (![47, 96] : Fin 2 → Nat) a + S1x16.size a ≤ S64x128.size a
  inb_S64x128_S1x16_47_112 : ∀ a, (![47, 112] : Fin 2 → Nat) a + S1x16.size a ≤ S64x128.size a
  inb_S64x128_S1x16_48_0 : ∀ a, (![48, 0] : Fin 2 → Nat) a + S1x16.size a ≤ S64x128.size a
  inb_S64x128_S1x16_48_16 : ∀ a, (![48, 16] : Fin 2 → Nat) a + S1x16.size a ≤ S64x128.size a
  inb_S64x128_S1x16_48_32 : ∀ a, (![48, 32] : Fin 2 → Nat) a + S1x16.size a ≤ S64x128.size a
  inb_S64x128_S1x16_48_48 : ∀ a, (![48, 48] : Fin 2 → Nat) a + S1x16.size a ≤ S64x128.size a
  inb_S64x128_S1x16_48_64 : ∀ a, (![48, 64] : Fin 2 → Nat) a + S1x16.size a ≤ S64x128.size a
  inb_S64x128_S1x16_48_80 : ∀ a, (![48, 80] : Fin 2 → Nat) a + S1x16.size a ≤ S64x128.size a
  inb_S64x128_S1x16_48_96 : ∀ a, (![48, 96] : Fin 2 → Nat) a + S1x16.size a ≤ S64x128.size a
  inb_S64x128_S1x16_48_112 : ∀ a, (![48, 112] : Fin 2 → Nat) a + S1x16.size a ≤ S64x128.size a
  inb_S64x128_S1x16_49_0 : ∀ a, (![49, 0] : Fin 2 → Nat) a + S1x16.size a ≤ S64x128.size a
  inb_S64x128_S1x16_49_16 : ∀ a, (![49, 16] : Fin 2 → Nat) a + S1x16.size a ≤ S64x128.size a
  inb_S64x128_S1x16_49_32 : ∀ a, (![49, 32] : Fin 2 → Nat) a + S1x16.size a ≤ S64x128.size a
  inb_S64x128_S1x16_49_48 : ∀ a, (![49, 48] : Fin 2 → Nat) a + S1x16.size a ≤ S64x128.size a
  inb_S64x128_S1x16_49_64 : ∀ a, (![49, 64] : Fin 2 → Nat) a + S1x16.size a ≤ S64x128.size a
  inb_S64x128_S1x16_49_80 : ∀ a, (![49, 80] : Fin 2 → Nat) a + S1x16.size a ≤ S64x128.size a
  inb_S64x128_S1x16_49_96 : ∀ a, (![49, 96] : Fin 2 → Nat) a + S1x16.size a ≤ S64x128.size a
  inb_S64x128_S1x16_49_112 : ∀ a, (![49, 112] : Fin 2 → Nat) a + S1x16.size a ≤ S64x128.size a
  inb_S64x128_S1x16_50_0 : ∀ a, (![50, 0] : Fin 2 → Nat) a + S1x16.size a ≤ S64x128.size a
  inb_S64x128_S1x16_50_16 : ∀ a, (![50, 16] : Fin 2 → Nat) a + S1x16.size a ≤ S64x128.size a
  inb_S64x128_S1x16_50_32 : ∀ a, (![50, 32] : Fin 2 → Nat) a + S1x16.size a ≤ S64x128.size a
  inb_S64x128_S1x16_50_48 : ∀ a, (![50, 48] : Fin 2 → Nat) a + S1x16.size a ≤ S64x128.size a
  inb_S64x128_S1x16_50_64 : ∀ a, (![50, 64] : Fin 2 → Nat) a + S1x16.size a ≤ S64x128.size a
  inb_S64x128_S1x16_50_80 : ∀ a, (![50, 80] : Fin 2 → Nat) a + S1x16.size a ≤ S64x128.size a
  inb_S64x128_S1x16_50_96 : ∀ a, (![50, 96] : Fin 2 → Nat) a + S1x16.size a ≤ S64x128.size a
  inb_S64x128_S1x16_50_112 : ∀ a, (![50, 112] : Fin 2 → Nat) a + S1x16.size a ≤ S64x128.size a
  inb_S64x128_S1x16_51_0 : ∀ a, (![51, 0] : Fin 2 → Nat) a + S1x16.size a ≤ S64x128.size a
  inb_S64x128_S1x16_51_16 : ∀ a, (![51, 16] : Fin 2 → Nat) a + S1x16.size a ≤ S64x128.size a
  inb_S64x128_S1x16_51_32 : ∀ a, (![51, 32] : Fin 2 → Nat) a + S1x16.size a ≤ S64x128.size a
  inb_S64x128_S1x16_51_48 : ∀ a, (![51, 48] : Fin 2 → Nat) a + S1x16.size a ≤ S64x128.size a
  inb_S64x128_S1x16_51_64 : ∀ a, (![51, 64] : Fin 2 → Nat) a + S1x16.size a ≤ S64x128.size a
  inb_S64x128_S1x16_51_80 : ∀ a, (![51, 80] : Fin 2 → Nat) a + S1x16.size a ≤ S64x128.size a
  inb_S64x128_S1x16_51_96 : ∀ a, (![51, 96] : Fin 2 → Nat) a + S1x16.size a ≤ S64x128.size a
  inb_S64x128_S1x16_51_112 : ∀ a, (![51, 112] : Fin 2 → Nat) a + S1x16.size a ≤ S64x128.size a
  inb_S64x128_S1x16_52_0 : ∀ a, (![52, 0] : Fin 2 → Nat) a + S1x16.size a ≤ S64x128.size a
  inb_S64x128_S1x16_52_16 : ∀ a, (![52, 16] : Fin 2 → Nat) a + S1x16.size a ≤ S64x128.size a
  inb_S64x128_S1x16_52_32 : ∀ a, (![52, 32] : Fin 2 → Nat) a + S1x16.size a ≤ S64x128.size a
  inb_S64x128_S1x16_52_48 : ∀ a, (![52, 48] : Fin 2 → Nat) a + S1x16.size a ≤ S64x128.size a
  inb_S64x128_S1x16_52_64 : ∀ a, (![52, 64] : Fin 2 → Nat) a + S1x16.size a ≤ S64x128.size a
  inb_S64x128_S1x16_52_80 : ∀ a, (![52, 80] : Fin 2 → Nat) a + S1x16.size a ≤ S64x128.size a
  inb_S64x128_S1x16_52_96 : ∀ a, (![52, 96] : Fin 2 → Nat) a + S1x16.size a ≤ S64x128.size a
  inb_S64x128_S1x16_52_112 : ∀ a, (![52, 112] : Fin 2 → Nat) a + S1x16.size a ≤ S64x128.size a
  inb_S64x128_S1x16_53_0 : ∀ a, (![53, 0] : Fin 2 → Nat) a + S1x16.size a ≤ S64x128.size a
  inb_S64x128_S1x16_53_16 : ∀ a, (![53, 16] : Fin 2 → Nat) a + S1x16.size a ≤ S64x128.size a
  inb_S64x128_S1x16_53_32 : ∀ a, (![53, 32] : Fin 2 → Nat) a + S1x16.size a ≤ S64x128.size a
  inb_S64x128_S1x16_53_48 : ∀ a, (![53, 48] : Fin 2 → Nat) a + S1x16.size a ≤ S64x128.size a
  inb_S64x128_S1x16_53_64 : ∀ a, (![53, 64] : Fin 2 → Nat) a + S1x16.size a ≤ S64x128.size a
  inb_S64x128_S1x16_53_80 : ∀ a, (![53, 80] : Fin 2 → Nat) a + S1x16.size a ≤ S64x128.size a
  inb_S64x128_S1x16_53_96 : ∀ a, (![53, 96] : Fin 2 → Nat) a + S1x16.size a ≤ S64x128.size a
  inb_S64x128_S1x16_53_112 : ∀ a, (![53, 112] : Fin 2 → Nat) a + S1x16.size a ≤ S64x128.size a
  inb_S64x128_S1x16_54_0 : ∀ a, (![54, 0] : Fin 2 → Nat) a + S1x16.size a ≤ S64x128.size a
  inb_S64x128_S1x16_54_16 : ∀ a, (![54, 16] : Fin 2 → Nat) a + S1x16.size a ≤ S64x128.size a
  inb_S64x128_S1x16_54_32 : ∀ a, (![54, 32] : Fin 2 → Nat) a + S1x16.size a ≤ S64x128.size a
  inb_S64x128_S1x16_54_48 : ∀ a, (![54, 48] : Fin 2 → Nat) a + S1x16.size a ≤ S64x128.size a
  inb_S64x128_S1x16_54_64 : ∀ a, (![54, 64] : Fin 2 → Nat) a + S1x16.size a ≤ S64x128.size a
  inb_S64x128_S1x16_54_80 : ∀ a, (![54, 80] : Fin 2 → Nat) a + S1x16.size a ≤ S64x128.size a
  inb_S64x128_S1x16_54_96 : ∀ a, (![54, 96] : Fin 2 → Nat) a + S1x16.size a ≤ S64x128.size a
  inb_S64x128_S1x16_54_112 : ∀ a, (![54, 112] : Fin 2 → Nat) a + S1x16.size a ≤ S64x128.size a
  inb_S64x128_S1x16_55_0 : ∀ a, (![55, 0] : Fin 2 → Nat) a + S1x16.size a ≤ S64x128.size a
  inb_S64x128_S1x16_55_16 : ∀ a, (![55, 16] : Fin 2 → Nat) a + S1x16.size a ≤ S64x128.size a
  inb_S64x128_S1x16_55_32 : ∀ a, (![55, 32] : Fin 2 → Nat) a + S1x16.size a ≤ S64x128.size a
  inb_S64x128_S1x16_55_48 : ∀ a, (![55, 48] : Fin 2 → Nat) a + S1x16.size a ≤ S64x128.size a
  inb_S64x128_S1x16_55_64 : ∀ a, (![55, 64] : Fin 2 → Nat) a + S1x16.size a ≤ S64x128.size a
  inb_S64x128_S1x16_55_80 : ∀ a, (![55, 80] : Fin 2 → Nat) a + S1x16.size a ≤ S64x128.size a
  inb_S64x128_S1x16_55_96 : ∀ a, (![55, 96] : Fin 2 → Nat) a + S1x16.size a ≤ S64x128.size a
  inb_S64x128_S1x16_55_112 : ∀ a, (![55, 112] : Fin 2 → Nat) a + S1x16.size a ≤ S64x128.size a
  inb_S64x128_S1x16_56_0 : ∀ a, (![56, 0] : Fin 2 → Nat) a + S1x16.size a ≤ S64x128.size a
  inb_S64x128_S1x16_56_16 : ∀ a, (![56, 16] : Fin 2 → Nat) a + S1x16.size a ≤ S64x128.size a
  inb_S64x128_S1x16_56_32 : ∀ a, (![56, 32] : Fin 2 → Nat) a + S1x16.size a ≤ S64x128.size a
  inb_S64x128_S1x16_56_48 : ∀ a, (![56, 48] : Fin 2 → Nat) a + S1x16.size a ≤ S64x128.size a
  inb_S64x128_S1x16_56_64 : ∀ a, (![56, 64] : Fin 2 → Nat) a + S1x16.size a ≤ S64x128.size a
  inb_S64x128_S1x16_56_80 : ∀ a, (![56, 80] : Fin 2 → Nat) a + S1x16.size a ≤ S64x128.size a
  inb_S64x128_S1x16_56_96 : ∀ a, (![56, 96] : Fin 2 → Nat) a + S1x16.size a ≤ S64x128.size a
  inb_S64x128_S1x16_56_112 : ∀ a, (![56, 112] : Fin 2 → Nat) a + S1x16.size a ≤ S64x128.size a
  inb_S64x128_S1x16_57_0 : ∀ a, (![57, 0] : Fin 2 → Nat) a + S1x16.size a ≤ S64x128.size a
  inb_S64x128_S1x16_57_16 : ∀ a, (![57, 16] : Fin 2 → Nat) a + S1x16.size a ≤ S64x128.size a
  inb_S64x128_S1x16_57_32 : ∀ a, (![57, 32] : Fin 2 → Nat) a + S1x16.size a ≤ S64x128.size a
  inb_S64x128_S1x16_57_48 : ∀ a, (![57, 48] : Fin 2 → Nat) a + S1x16.size a ≤ S64x128.size a
  inb_S64x128_S1x16_57_64 : ∀ a, (![57, 64] : Fin 2 → Nat) a + S1x16.size a ≤ S64x128.size a
  inb_S64x128_S1x16_57_80 : ∀ a, (![57, 80] : Fin 2 → Nat) a + S1x16.size a ≤ S64x128.size a
  inb_S64x128_S1x16_57_96 : ∀ a, (![57, 96] : Fin 2 → Nat) a + S1x16.size a ≤ S64x128.size a
  inb_S64x128_S1x16_57_112 : ∀ a, (![57, 112] : Fin 2 → Nat) a + S1x16.size a ≤ S64x128.size a
  inb_S64x128_S1x16_58_0 : ∀ a, (![58, 0] : Fin 2 → Nat) a + S1x16.size a ≤ S64x128.size a
  inb_S64x128_S1x16_58_16 : ∀ a, (![58, 16] : Fin 2 → Nat) a + S1x16.size a ≤ S64x128.size a
  inb_S64x128_S1x16_58_32 : ∀ a, (![58, 32] : Fin 2 → Nat) a + S1x16.size a ≤ S64x128.size a
  inb_S64x128_S1x16_58_48 : ∀ a, (![58, 48] : Fin 2 → Nat) a + S1x16.size a ≤ S64x128.size a
  inb_S64x128_S1x16_58_64 : ∀ a, (![58, 64] : Fin 2 → Nat) a + S1x16.size a ≤ S64x128.size a
  inb_S64x128_S1x16_58_80 : ∀ a, (![58, 80] : Fin 2 → Nat) a + S1x16.size a ≤ S64x128.size a
  inb_S64x128_S1x16_58_96 : ∀ a, (![58, 96] : Fin 2 → Nat) a + S1x16.size a ≤ S64x128.size a
  inb_S64x128_S1x16_58_112 : ∀ a, (![58, 112] : Fin 2 → Nat) a + S1x16.size a ≤ S64x128.size a
  inb_S64x128_S1x16_59_0 : ∀ a, (![59, 0] : Fin 2 → Nat) a + S1x16.size a ≤ S64x128.size a
  inb_S64x128_S1x16_59_16 : ∀ a, (![59, 16] : Fin 2 → Nat) a + S1x16.size a ≤ S64x128.size a
  inb_S64x128_S1x16_59_32 : ∀ a, (![59, 32] : Fin 2 → Nat) a + S1x16.size a ≤ S64x128.size a
  inb_S64x128_S1x16_59_48 : ∀ a, (![59, 48] : Fin 2 → Nat) a + S1x16.size a ≤ S64x128.size a
  inb_S64x128_S1x16_59_64 : ∀ a, (![59, 64] : Fin 2 → Nat) a + S1x16.size a ≤ S64x128.size a
  inb_S64x128_S1x16_59_80 : ∀ a, (![59, 80] : Fin 2 → Nat) a + S1x16.size a ≤ S64x128.size a
  inb_S64x128_S1x16_59_96 : ∀ a, (![59, 96] : Fin 2 → Nat) a + S1x16.size a ≤ S64x128.size a
  inb_S64x128_S1x16_59_112 : ∀ a, (![59, 112] : Fin 2 → Nat) a + S1x16.size a ≤ S64x128.size a
  inb_S64x128_S1x16_60_0 : ∀ a, (![60, 0] : Fin 2 → Nat) a + S1x16.size a ≤ S64x128.size a
  inb_S64x128_S1x16_60_16 : ∀ a, (![60, 16] : Fin 2 → Nat) a + S1x16.size a ≤ S64x128.size a
  inb_S64x128_S1x16_60_32 : ∀ a, (![60, 32] : Fin 2 → Nat) a + S1x16.size a ≤ S64x128.size a
  inb_S64x128_S1x16_60_48 : ∀ a, (![60, 48] : Fin 2 → Nat) a + S1x16.size a ≤ S64x128.size a
  inb_S64x128_S1x16_60_64 : ∀ a, (![60, 64] : Fin 2 → Nat) a + S1x16.size a ≤ S64x128.size a
  inb_S64x128_S1x16_60_80 : ∀ a, (![60, 80] : Fin 2 → Nat) a + S1x16.size a ≤ S64x128.size a
  inb_S64x128_S1x16_60_96 : ∀ a, (![60, 96] : Fin 2 → Nat) a + S1x16.size a ≤ S64x128.size a
  inb_S64x128_S1x16_60_112 : ∀ a, (![60, 112] : Fin 2 → Nat) a + S1x16.size a ≤ S64x128.size a
  inb_S64x128_S1x16_61_0 : ∀ a, (![61, 0] : Fin 2 → Nat) a + S1x16.size a ≤ S64x128.size a
  inb_S64x128_S1x16_61_16 : ∀ a, (![61, 16] : Fin 2 → Nat) a + S1x16.size a ≤ S64x128.size a
  inb_S64x128_S1x16_61_32 : ∀ a, (![61, 32] : Fin 2 → Nat) a + S1x16.size a ≤ S64x128.size a
  inb_S64x128_S1x16_61_48 : ∀ a, (![61, 48] : Fin 2 → Nat) a + S1x16.size a ≤ S64x128.size a
  inb_S64x128_S1x16_61_64 : ∀ a, (![61, 64] : Fin 2 → Nat) a + S1x16.size a ≤ S64x128.size a
  inb_S64x128_S1x16_61_80 : ∀ a, (![61, 80] : Fin 2 → Nat) a + S1x16.size a ≤ S64x128.size a
  inb_S64x128_S1x16_61_96 : ∀ a, (![61, 96] : Fin 2 → Nat) a + S1x16.size a ≤ S64x128.size a
  inb_S64x128_S1x16_61_112 : ∀ a, (![61, 112] : Fin 2 → Nat) a + S1x16.size a ≤ S64x128.size a
  inb_S64x128_S1x16_62_0 : ∀ a, (![62, 0] : Fin 2 → Nat) a + S1x16.size a ≤ S64x128.size a
  inb_S64x128_S1x16_62_16 : ∀ a, (![62, 16] : Fin 2 → Nat) a + S1x16.size a ≤ S64x128.size a
  inb_S64x128_S1x16_62_32 : ∀ a, (![62, 32] : Fin 2 → Nat) a + S1x16.size a ≤ S64x128.size a
  inb_S64x128_S1x16_62_48 : ∀ a, (![62, 48] : Fin 2 → Nat) a + S1x16.size a ≤ S64x128.size a
  inb_S64x128_S1x16_62_64 : ∀ a, (![62, 64] : Fin 2 → Nat) a + S1x16.size a ≤ S64x128.size a
  inb_S64x128_S1x16_62_80 : ∀ a, (![62, 80] : Fin 2 → Nat) a + S1x16.size a ≤ S64x128.size a
  inb_S64x128_S1x16_62_96 : ∀ a, (![62, 96] : Fin 2 → Nat) a + S1x16.size a ≤ S64x128.size a
  inb_S64x128_S1x16_62_112 : ∀ a, (![62, 112] : Fin 2 → Nat) a + S1x16.size a ≤ S64x128.size a
  inb_S64x128_S1x16_63_0 : ∀ a, (![63, 0] : Fin 2 → Nat) a + S1x16.size a ≤ S64x128.size a
  inb_S64x128_S1x16_63_16 : ∀ a, (![63, 16] : Fin 2 → Nat) a + S1x16.size a ≤ S64x128.size a
  inb_S64x128_S1x16_63_32 : ∀ a, (![63, 32] : Fin 2 → Nat) a + S1x16.size a ≤ S64x128.size a
  inb_S64x128_S1x16_63_48 : ∀ a, (![63, 48] : Fin 2 → Nat) a + S1x16.size a ≤ S64x128.size a
  inb_S64x128_S1x16_63_64 : ∀ a, (![63, 64] : Fin 2 → Nat) a + S1x16.size a ≤ S64x128.size a
  inb_S64x128_S1x16_63_80 : ∀ a, (![63, 80] : Fin 2 → Nat) a + S1x16.size a ≤ S64x128.size a
  inb_S64x128_S1x16_63_96 : ∀ a, (![63, 96] : Fin 2 → Nat) a + S1x16.size a ≤ S64x128.size a
  inb_S64x128_S1x16_63_112 : ∀ a, (![63, 112] : Fin 2 → Nat) a + S1x16.size a ≤ S64x128.size a
  slices_S10240x128_S10000x128_0_0 : S10240x128.Slices ![0, 0] S10000x128
  shapeCasts_S10000x128_S1x10000x128 : S10000x128.ShapeCasts S1x10000x128
  dot_S1x128_S256x128_S1x256_1_1_0_0_n_n_wf : DotDims.WF S1x128 S256x128 S1x256 [1] [1] [0] [0] [] []
  dot_S2000x128_S128x128_S2000x128_1_1_0_0_n_n_wf : DotDims.WF S2000x128 S128x128 S2000x128 [1] [1] [0] [0] [] []
  hcc1_scratch9 : 13 + S_.numel ≤ 22
  hcc1_scratch10 : 14 + S_.numel ≤ 22
  hcc1_scratch11 : 15 + S_.numel ≤ 22
  hcc1_scratch12 : 16 + S_.numel ≤ 22
  hcc1_scratch13 : 17 + S_.numel ≤ 22
  hcc1_scratch14 : 18 + S_.numel ≤ 22
  hcc1_scoped0 : 19 + S_.numel ≤ 22
  hcc1_scoped1 : 20 + S_.numel ≤ 22
  hcc1_scoped2 : 21 + S_.numel ≤ 22
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x128.size a
  hwx0_0 : ∀ i : grid0.Coords, EltTy.bits .f32 = 32 ∨ (Rect.block (s := S1x128) S1x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S10000x128.size a
  hwx0_4 : ∀ i : grid0.Coords, EltTy.bits .f32 = 32 ∨ (Rect.block (s := S10000x128) S2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2500x128.size a ≤ S2500x128.size a
  hwx0_7 : ∀ i : grid0.Coords, EltTy.bits .f32 = 32 ∨ (Rect.block (s := S2500x128) S2500x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2500x128.size a ≤ S2500x128.size a
  hwx0_8 : ∀ i : grid0.Coords, EltTy.bits .f32 = 32 ∨ (Rect.block (s := S2500x128) S2500x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S2000x128.size a < S10240x128.size a
  hwx0_9 : ∀ i : grid0.Coords, EltTy.bits .f32 = 32 ∨ (Rect.unit (s := S10240x128) (fun a => cc0_transform_9 i a * S2000x128.size a) (fun a => (Pipeline.Clip.of (cc0_transform_9 i a) (S2000x128.size a) (S10240x128.size a)).extent (S2000x128.size a)) fun a => Pipeline.Clip.inb (Pipeline.Clip.ok_of (hstart0_9 i a))).WholeWords (EltTy.packing .f32)
  hwxs0_9 : ∀ i : grid0.Coords, EltTy.bits .f32 = 32 ∨ (Rect.unit (s := S2000x128) (fun _ => 0) (fun a => (Pipeline.Clip.of (cc0_transform_9 i a) (S2000x128.size a) (S10240x128.size a)).extent (S2000x128.size a)) fun a => (Nat.zero_add _).trans_le (Pipeline.Clip.extent_le (Pipeline.Clip.ok_of (hstart0_9 i a)))).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2560x128.size a ≤ S2560x128.size a
  hwx0_10 : ∀ i : grid0.Coords, EltTy.bits .f32 = 32 ∨ (Rect.block (s := S2560x128) S2560x128.size (cc0_transform_10 i) (hinb0_10 i)).WholeWords (EltTy.packing .f32)
  hcore1 : grid1.bound 0 ≤ τ.nSC
  hsub1 : grid1.bound 1 ≤ τ.nSub
  k1_off1_inb : ∀ i : grid1.Coords, ∀ a, (k1_off1 i) a + S640x128.size a ≤ S10240x128.size a
  k1_off2_inb : ∀ i : grid1.Coords, ∀ a, (k1_off2 i) a + S80x128.size a ≤ S2560x128.size a
  k1_off3_inb : ∀ i : grid1.Coords, ∀ a, (k1_off3 i) a + S2x128.size a ≤ S10240x128.size a
  k1_t1_ok : k1_t1_loop.OK
  k1_off4_inb : ∀ k1_t1 : Fin k1_t1_loop.trips, ∀ a, (k1_off4 k1_t1) a + S1x64.size a ≤ S80x128.size a
  k1_off5_inb : ∀ (i : grid1.Coords) (k1_t1 : Fin k1_t1_loop.trips), ∀ a, (k1_off5 i k1_t1) a + S2x128.size a ≤ S10240x128.size a
  k1_off6_inb : ∀ k1_t1 : Fin k1_t1_loop.trips, ∀ (r₁ : Fin 2) (r₂ : Fin 2), ∀ a, (k1_off6 k1_t1 (BitVec.ofNat 32 (32 * r₁.val)) (BitVec.ofNat 32 (16 * r₂.val))) a + S1x16.size a ≤ S80x128.size a
  k1_off7_inb : ∀ (i : grid1.Coords) (k1_t1 : Fin k1_t1_loop.trips), ∀ a, (k1_off7 i k1_t1) a + S2x128.size a ≤ S10240x128.size a
  k1_off8_inb : ∀ k1_t1 : Fin k1_t1_loop.trips, ∀ (k1_h2 : k1_cond2 k1_t1 = 1#1), ∀ a, (k1_off8 k1_t1) a + S1x64.size a ≤ S80x128.size a
  k1_off9_inb : ∀ (i : grid1.Coords) (k1_t1 : Fin k1_t1_loop.trips), ∀ (k1_h2 : k1_cond2 k1_t1 = 1#1), ∀ a, (k1_off9 i k1_t1) a + S2x128.size a ≤ S10240x128.size a
  k1_off10_inb : ∀ k1_t1 : Fin k1_t1_loop.trips, ∀ (r₁ : Fin 2) (r₂ : Fin 2), ∀ a, (k1_off10 k1_t1 (BitVec.ofNat 32 (32 * r₁.val)) (BitVec.ofNat 32 (16 * r₂.val))) a + S1x16.size a ≤ S80x128.size a

variable [Facts₀]

abbrev cc1_scratch9 : DmaSems sig S_ := SemArray.consecutive 13 S_ hcc1_scratch9
abbrev cc1_scratch10 : DmaSems sig S_ := SemArray.consecutive 14 S_ hcc1_scratch10
abbrev cc1_scratch11 : DmaSems sig S_ := SemArray.consecutive 15 S_ hcc1_scratch11
abbrev cc1_scratch12 : DmaSems sig S_ := SemArray.consecutive 16 S_ hcc1_scratch12
abbrev cc1_scratch13 : DmaSems sig S_ := SemArray.consecutive 17 S_ hcc1_scratch13
abbrev cc1_scratch14 : DmaSems sig S_ := SemArray.consecutive 18 S_ hcc1_scratch14
abbrev cc1_scoped0 : DmaSems sig S_ := SemArray.consecutive 19 S_ hcc1_scoped0
abbrev cc1_scoped1 : DmaSems sig S_ := SemArray.consecutive 20 S_ hcc1_scoped1
abbrev cc1_scoped2 : DmaSems sig S_ := SemArray.consecutive 21 S_ hcc1_scoped2
def dot_S1x128_S256x128_S1x256_1_1_0_0_n_n : DotDims S1x128 S256x128 S1x256 where
  lhsContracting := [1]
  rhsContracting := [1]
  lhsNonContracting := [0]
  rhsNonContracting := [0]
  lhsBatch := []
  rhsBatch := []
  wf := dot_S1x128_S256x128_S1x256_1_1_0_0_n_n_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf

abbrev win0_0 : Pipeline.Window sig grid0 :=
  Pipeline.Window.ofSpec (Memref.whole main_v1) S1x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2500x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S2500x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpecClip (Memref.whole main_v7_0) S2000x128.size cc0_transform_9 reads0_9 true false 2 stage0_9 sem0_9
    hrank0 hreads0_9 hstart0_9 nbuf0_9 (Memref.isWhole_whole _) hwx0_9 hwxs0_9 hstage0_9

abbrev win0_10 : Pipeline.Window sig grid0 :=
  Pipeline.Window.ofSpec (Memref.whole main_v7_1) S2560x128.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond1 i == 1#1) | ⟨_ + 11, h⟩ => absurd h (Nat.not_lt.2 (Nat.le_add_left _ _))

class Facts : Prop extends Facts₀ where

variable [Facts]
-- ==== ReferenceIdeal.lean ====
abbrev S1x10000x128 : Shape := ⟨3, ![1, 10000, 128]⟩
abbrev S1x1x128 : Shape := ⟨3, ![1, 1, 128]⟩
abbrev S320000 : Shape := ⟨1, ![320000]⟩
abbrev S1x320000x1 : Shape := ⟨3, ![1, 320000, 1]⟩
abbrev S256x128 : Shape := ⟨2, ![256, 128]⟩
abbrev S256 : Shape := ⟨1, ![256]⟩
abbrev S128x128 : Shape := ⟨2, ![128, 128]⟩
abbrev S128 : Shape := ⟨1, ![128]⟩
abbrev S256x1 : Shape := ⟨2, ![256, 1]⟩
abbrev S_ : Shape := ⟨0, ![]⟩
abbrev S128x256 : Shape := ⟨2, ![128, 256]⟩
abbrev S1x1x256 : Shape := ⟨3, ![1, 1, 256]⟩
abbrev S1x10000 : Shape := ⟨2, ![1, 10000]⟩
abbrev S1x10000x1 : Shape := ⟨3, ![1, 10000, 1]⟩
abbrev S1x10000x32x1 : Shape := ⟨4, ![1, 10000, 32, 1]⟩
abbrev S10000x128 : Shape := ⟨2, ![10000, 128]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S1x10000x32x128 : Shape := ⟨4, ![1, 10000, 32, 128]⟩

abbrev nBuf : Space → Nat
  | .hbm => 114
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x1x128, .f32⟩
  | .hbm, ⟨2, _⟩ => ⟨S320000, .i32⟩
  | .hbm, ⟨3, _⟩ => ⟨S1x320000x1, .f32⟩
  | .hbm, ⟨4, _⟩ => ⟨S1x320000x1, .f32⟩
  | .hbm, ⟨5, _⟩ => ⟨S256x128, .f32⟩
  | .hbm, ⟨6, _⟩ => ⟨S256, .f32⟩
  | .hbm, ⟨7, _⟩ => ⟨S256, .f32⟩
  | .hbm, ⟨8, _⟩ => ⟨S128x128, .f32⟩
  | .hbm, ⟨9, _⟩ => ⟨S128, .f32⟩
  | .hbm, ⟨10, _⟩ => ⟨S256x1, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S256x1, .f32⟩
  | .hbm, ⟨18, _⟩ => ⟨S256x128, .f32⟩
  | .hbm, ⟨19, _⟩ => ⟨S256x128, .f32⟩
  | .hbm, ⟨20, _⟩ => ⟨S128x256, .f32⟩
  | .hbm, ⟨21, _⟩ => ⟨S1x1x256, .f32⟩
  | .hbm, ⟨22, _⟩ => ⟨S1x1x256, .f32⟩
  | .hbm, ⟨23, _⟩ => ⟨S1x1x256, .f32⟩
  | .hbm, ⟨24, _⟩ => ⟨S1x1x128, .f32⟩
  | .hbm, ⟨25, _⟩ => ⟨S1x1x128, .f32⟩
  | .hbm, ⟨26, _⟩ => ⟨S_, .f32⟩
  | .hbm, ⟨27, _⟩ => ⟨S1x1x128, .f32⟩
  | .hbm, ⟨28, _⟩ => ⟨S1x1x128, .f32⟩
  | .hbm, ⟨29, _⟩ => ⟨S128x128, .f32⟩
  | .hbm, ⟨30, _⟩ => ⟨S1x10000x128, .f32⟩
  | .hbm, ⟨31, _⟩ => ⟨S1x1x128, .f32⟩
  | .hbm, ⟨32, _⟩ => ⟨S1x10000x128, .f32⟩
  | .hbm, ⟨33, _⟩ => ⟨S1x10000x128, .f32⟩
  | .hbm, ⟨34, _⟩ => ⟨S_, .f32⟩
  | .hbm, ⟨35, _⟩ => ⟨S1x10000, .f32⟩
  | .hbm, ⟨36, _⟩ => ⟨S1x10000x1, .f32⟩
  | .hbm, ⟨37, _⟩ => ⟨S_, .f32⟩
  | .hbm, ⟨38, _⟩ => ⟨S1x10000x1, .f32⟩
  | .hbm, ⟨39, _⟩ => ⟨S1x10000x1, .f32⟩
  | .hbm, ⟨40, _⟩ => ⟨S_, .i32⟩
  | .hbm, ⟨41, _⟩ => ⟨S_, .f32⟩
  | .hbm, ⟨42, _⟩ => ⟨S1x10000, .f32⟩
  | .hbm, ⟨43, _⟩ => ⟨S1x10000x1, .f32⟩
  | .hbm, ⟨44, _⟩ => ⟨S_, .f32⟩
  | .hbm, ⟨45, _⟩ => ⟨S1x10000x1, .f32⟩
  | .hbm, ⟨46, _⟩ => ⟨S1x10000x1, .f32⟩
  | .hbm, ⟨47, _⟩ => ⟨S1x10000x128, .f32⟩
  | .hbm, ⟨48, _⟩ => ⟨S1x10000x128, .f32⟩
  | .hbm, ⟨49, _⟩ => ⟨S1x10000x128, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1x10000, .f32⟩
  | .hbm, ⟨55, _⟩ => ⟨S1x10000x1, .f32⟩
  | .hbm, ⟨56, _⟩ => ⟨S1x10000x1, .f32⟩
  | .hbm, ⟨57, _⟩ => ⟨S1x10000x1, .f32⟩
  | .hbm, ⟨58, _⟩ => ⟨S_, .f32⟩
  | .hbm, ⟨59, _⟩ => ⟨S_, .i1⟩
  | .hbm, ⟨60, _⟩ => ⟨S_, .f32⟩
  | .hbm, ⟨61, _⟩ => ⟨S_, .f32⟩
  | .hbm, ⟨62, _⟩ => ⟨S1x10000x1, .f32⟩
  | .hbm, ⟨63, _⟩ => ⟨S1x10000x1, .f32⟩
  | .hbm, ⟨64, _⟩ => ⟨S1x10000x128, .f32⟩
  | .hbm, ⟨65, _⟩ => ⟨S1x10000x128, .f32⟩
  | .hbm, ⟨66, _⟩ => ⟨S_, .f32⟩
  | .hbm, ⟨67, _⟩ => ⟨S1x10000x1, .f32⟩
  | .hbm, ⟨68, _⟩ => ⟨S1x10000x1, .f32⟩
  | .hbm, ⟨69, _⟩ => ⟨S1x10000x1, .f32⟩
  | .hbm, ⟨70, _⟩ => ⟨S1x10000x128, .f32⟩
  | .hbm, ⟨71, _⟩ => ⟨S1x10000x128, .f32⟩
  | .hbm, ⟨72, _⟩ => ⟨S1x10000x128, .f32⟩
  | .hbm, ⟨73, _⟩ => ⟨S1x10000x128, .f32⟩
  | .hbm, ⟨74, _⟩ => ⟨S1x10000x128, .f32⟩
  | .hbm, ⟨75, _⟩ => ⟨S1x10000x128, .f32⟩
  | .hbm, ⟨76, _⟩ => ⟨S_, .f32⟩
  | .hbm, ⟨77, _⟩ => ⟨S1x10000x128, .f32⟩
  | .hbm, ⟨78, _⟩ => ⟨S1x10000x128, .f32⟩
  | .hbm, ⟨79, _⟩ => ⟨S1x320000x1, .f32⟩
  | .hbm, ⟨80, _⟩ => ⟨S1x10000x32x1, .f32⟩
  | .hbm, ⟨81, _⟩ => ⟨S10000x128, .f32⟩
  | .hbm, ⟨82, _⟩ => ⟨S_, .i32⟩
  | .hbm, ⟨83, _⟩ => ⟨S320000, .i32⟩
  | .hbm, ⟨84, _⟩ => ⟨S320000, .i1⟩
  | .hbm, ⟨85, _⟩ => ⟨S_, .i32⟩
  | .hbm, ⟨86, _⟩ => ⟨S320000, .i32⟩
  | .hbm, ⟨87, _⟩ => ⟨S320000, .i32⟩
  | .hbm, ⟨88, _⟩ => ⟨S320000, .i32⟩
  | .hbm, ⟨89, _⟩ => ⟨S320000x1, .i32⟩
  | .hbm, ⟨90, _⟩ => ⟨S1, .i32⟩
  | .hbm, ⟨91, _⟩ => ⟨S_, .i32⟩
  | .hbm, ⟨92, _⟩ => ⟨S320000x1, .i32⟩
  | .hbm, ⟨93, _⟩ => ⟨S320000x1, .i1⟩
  | .hbm, ⟨94, _⟩ => ⟨S1x1, .i32⟩
  | .hbm, ⟨95, _⟩ => ⟨S320000x1, .i32⟩
  | .hbm, ⟨96, _⟩ => ⟨S320000x1, .i1⟩
  | .hbm, ⟨97, _⟩ => ⟨S320000x1, .i1⟩
  | .hbm, ⟨98, _⟩ => ⟨S_, .i1⟩
  | .hbm, ⟨99, _⟩ => ⟨S320000, .i1⟩
  | .hbm, ⟨100, _⟩ => ⟨S320000x128, .f32⟩
  | .hbm, ⟨101, _⟩ => ⟨S320000x128, .i1⟩
  | .hbm, ⟨102, _⟩ => ⟨S_, .f32⟩
  | .hbm, ⟨103, _⟩ => ⟨S320000x128, .f32⟩
  | .hbm, ⟨104, _⟩ => ⟨S320000x128, .f32⟩
  | .hbm, ⟨105, _⟩ => ⟨S1x10000x32x128, .f32⟩
  | .hbm, ⟨106, _⟩ => ⟨S1x10000x32x128, .f32⟩
  | .hbm, ⟨107, _⟩ => ⟨S1x10000x32x128, .f32⟩
  | .hbm, ⟨108, _⟩ => ⟨S_, .f32⟩
  | .hbm, ⟨109, _⟩ => ⟨S1x10000x128, .f32⟩
  | .hbm, ⟨110, _⟩ => ⟨S1x10000x128, .f32⟩
  | .hbm, ⟨111, _⟩ => ⟨S_, .f32⟩
  | .hbm, ⟨112, _⟩ => ⟨S1x10000x128, .f32⟩
  | .hbm, ⟨113, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_c : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_cst_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_cst_1 : Ref sig .tc := ⟨.hbm, 51, rfl⟩
abbrev main_call1_v8 : Ref sig .tc := ⟨.hbm, 52, rfl⟩
abbrev main_call1_cst_2 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_cst_3 : Ref sig .tc := ⟨.hbm, 58, rfl⟩
abbrev main_call1_v13 : Ref sig .tc := ⟨.hbm, 59, rfl⟩
abbrev main_call1_cst_4 : Ref sig .tc := ⟨.hbm, 60, rfl⟩
abbrev main_call1_call0_v0 : Ref sig .tc := ⟨.hbm, 61, rfl⟩
abbrev main_call1_call0_v1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_2 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_call2_cst : Ref sig .tc := ⟨.hbm, 76, rfl⟩
abbrev main_call2_v0 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_cst_3 : Ref sig .tc := ⟨.hbm, 108, rfl⟩
abbrev main_v43 : Ref sig .tc := ⟨.hbm, 109, rfl⟩
abbrev main_v44 : Ref sig .tc := ⟨.hbm, 110, rfl⟩
abbrev main_call4_cst : Ref sig .tc := ⟨.hbm, 111, rfl⟩
abbrev main_call4_v0 : Ref sig .tc := ⟨.hbm, 112, rfl⟩
abbrev main_v45 : Ref sig .tc := ⟨.hbm, 113, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  reducesTo_S256x128_S256_d1 : S256x128.ReducesTo [1] S256
  h_S_ : 0 < S_.numel
  transposes_S256x128_S128x256_1_0 : S256x128.Transposes [1, 0] S128x256
  bcast_S256_S1x1x256_2 : S256.BroadcastsInDim S1x1x256 (![2] : Fin 1 → Fin S1x1x256.rank)
  slices_S1x1x256_S1x1x128_0_0_0 : S1x1x256.Slices ![0, 0, 0] S1x1x128
  slices_S1x1x256_S1x1x128_0_0_128 : S1x1x256.Slices ![0, 0, 128] S1x1x128
  bcast_S_S1x1x128 : S_.BroadcastsInDim S1x1x128 (![] : Fin 0 → Fin S1x1x128.rank)
  transposes_S128x128_S128x128_1_0 : S128x128.Transposes [1, 0] S128x128
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  reducesTo_S1x10000x128_S1x10000_d2 : S1x10000x128.ReducesTo [2] S1x10000
  bcast_S1x10000_S1x10000x1_0_1 : S1x10000.BroadcastsInDim S1x10000x1 (![0, 1] : Fin 2 → Fin S1x10000x1.rank)
  bcast_S_S1x10000x1 : S_.BroadcastsInDim S1x10000x1 (![] : Fin 0 → Fin S1x10000x1.rank)
  bcast_S1x10000x1_S1x10000x128_0_1_2 : S1x10000x1.BroadcastsInDim S1x10000x128 (![0, 1, 2] : Fin 3 → Fin S1x10000x128.rank)
  bcast_S_S1x10000x128 : S_.BroadcastsInDim S1x10000x128 (![] : Fin 0 → Fin S1x10000x128.rank)
  shapeCasts_S1x320000x1_S1x10000x32x1 : S1x320000x1.ShapeCasts S1x10000x32x1
  shapeCasts_S1x10000x128_S10000x128 : S1x10000x128.ShapeCasts S10000x128
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  bcast_S320000_S320000x128_0 : S320000.BroadcastsInDim S320000x128 (![0] : Fin 1 → Fin S320000x128.rank)
  bcast_S_S320000x128 : S_.BroadcastsInDim S320000x128 (![] : Fin 0 → Fin S320000x128.rank)
  shapeCasts_S320000x128_S1x10000x32x128 : S320000x128.ShapeCasts S1x10000x32x128
  bcast_S1x10000x32x1_S1x10000x32x128_0_1_2_3 : S1x10000x32x1.BroadcastsInDim S1x10000x32x128 (![0, 1, 2, 3] : Fin 4 → Fin S1x10000x32x128.rank)
  reducesTo_S1x10000x32x128_S1x10000x128_d2 : S1x10000x32x128.ReducesTo [2] S1x10000x128
  dot_S1x1x128_S128x256_S1x1x256_2_0_01_1_n_n_wf : DotDims.WF S1x1x128 S128x256 S1x1x256 [2] [0] [0, 1] [1] [] []
  dot_S1x10000x128_S128x128_S1x10000x128_2_0_01_1_n_n_wf : DotDims.WF S1x10000x128 S128x128 S1x10000x128 [2] [0] [0, 1] [1] [] []
  gather_S10000x128_S320000x1_S320000x128_1_0_n_n_0_1_1128_wf : GatherDims.WF S10000x128 S320000x1 S320000x128 [1] [0] [] [0] [] 1 ![1, 128]

variable [Facts₀]

def dot_S1x1x128_S128x256_S1x1x256_2_0_01_1_n_n : DotDims S1x1x128 S128x256 S1x1x256 where
  lhsContracting := [2]
  rhsContracting := [0]
  lhsNonContracting := [0, 1]
  rhsNonContracting := [1]
  lhsBatch := []
  rhsBatch := []
  wf := dot_S1x1x128_S128x256_S1x1x256_2_0_01_1_n_n_wf
def dot_S1x10000x128_S128x128_S1x10000x128_2_0_01_1_n_n : DotDims S1x10000x128 S128x128 S1x10000x128 where
  lhsContracting := [2]
  rhsContracting := [0]
  lhsNonContracting := [0, 1]
  rhsNonContracting := [1]
  lhsBatch := []
  rhsBatch := []
  wf := dot_S1x10000x128_S128x128_S1x10000x128_2_0_01_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf

class Facts : Prop extends Facts₀ where

variable [Facts]
-- ==== Proof.RefRun.lean ====
import proofs.«204698_g79517024518204_fold_wed_m_581_46_alg».proof.ReferenceIdeal
import Idealize.ShloMosaic.Lib.StableHlo.Run
import Idealize.ShloMosaic.PureOps.Ideal

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Cert.ReferenceIdeal.Facts]

abbrev Arr (F : FTy → Type) (s : Shape) (e : EltTy) : Type := (⟨s, e⟩ : BufTy).Contents (Elt F)

def zero : Arr F S_ .f32 := constant S_ .f32 0x00000000#32

def rowNorm (a5 : Arr F S256x128 .f32) : Arr F S256x1 .f32 :=
  Host.sqrt (broadcastInDim S256x1 ![0] bcast_S256_S256x1_0
    (Host.reduceAdd (mulf a5 a5) (constant S_ .f32 0x00000000#32) reducesTo_S256x128_S256_d1 h_S_))

def wnorm (a5 : Arr F S256x128 .f32) (a6 : Arr F S256 .f32) : Arr F S256x128 .f32 :=
  Host.divf (mulf (broadcastInDim S256x128 ![0, 1] bcast_S256x1_S256x128_0_1 (broadcastInDim S256x1 ![0] bcast_S256_S256x1_0 a6)) a5)
    (broadcastInDim S256x128 ![0, 1] bcast_S256x1_S256x128_0_1 (rowNorm a5))

def gb (a1 : Arr F S1x1x128 .f32) (a5 : Arr F S256x128 .f32) (a6 a7 : Arr F S256 .f32) : Arr F S1x1x256 .f32 :=
  addf (Host.dotGeneral dot_S1x1x128_S128x256_S1x1x256_2_0_01_1_n_n none a1
      (transpose S128x256 [1, 0] (wnorm a5 a6) transposes_S256x128_S128x256_1_0))
    (broadcastInDim S1x1x256 ![2] bcast_S256_S1x1x256_2 a7)

def gamma (a1 : Arr F S1x1x128 .f32) (a5 : Arr F S256x128 .f32) (a6 a7 : Arr F S256 .f32) : Arr F S1x1x128 .f32 :=
  addf (extractStridedSlice S1x1x128 ![0, 0, 0] (gb a1 a5 a6 a7) slices_S1x1x256_S1x1x128_0_0_0)
    (broadcastInDim S1x1x128 ![] bcast_S_S1x1x128 (constant S_ .f32 0x3F800000#32))

def beta (a1 : Arr F S1x1x128 .f32) (a5 : Arr F S256x128 .f32) (a6 a7 : Arr F S256 .f32) : Arr F S1x1x128 .f32 :=
  extractStridedSlice S1x1x128 ![0, 0, 128] (gb a1 a5 a6 a7) slices_S1x1x256_S1x1x128_0_0_128

def lin (a0 : Arr F S1x10000x128 .f32) (a8 : Arr F S128x128 .f32) (a9 : Arr F S128 .f32) : Arr F S1x10000x128 .f32 :=
  addf (Host.dotGeneral dot_S1x10000x128_S128x128_S1x10000x128_2_0_01_1_n_n none a0
      (transpose S128x128 [1, 0] a8 transposes_S128x128_S128x128_1_0))
    (broadcastInDim S1x10000x128 ![0, 1, 2] bcast_S1x1x128_S1x10000x128_0_1_2 (broadcastInDim S1x1x128 ![2] bcast_S128_S1x1x128_2 a9))

def mean (h : Arr F S1x10000x128 .f32) : Arr F S1x10000x1 .f32 :=
  Host.divf (broadcastInDim S1x10000x1 ![0, 1] bcast_S1x10000_S1x10000x1_0_1
      (Host.reduceAdd h (constant S_ .f32 0x00000000#32) reducesTo_S1x10000x128_S1x10000_d2 h_S_))
    (broadcastInDim S1x10000x1 ![] bcast_S_S1x10000x1 (constant S_ .f32 0x43000000#32))

def centered (h : Arr F S1x10000x128 .f32) : Arr F S1x10000x128 .f32 :=
  subf h (broadcastInDim S1x10000x128 ![0, 1, 2] bcast_S1x10000x1_S1x10000x128_0_1_2 (mean h))

def count : Arr F S_ .f32 := subf (constant S_ .f32 0x43000000#32) (sitofp .f32 (constantI S_ 32 0#32))

def variance (h : Arr F S1x10000x128 .f32) : Arr F S1x10000x1 .f32 :=
  select (broadcastInDim S1x10000x1 ![] bcast_S_S1x10000x1 (cmpf .ogt (count (F := F)) (constant S_ .f32 0x00000000#32)))
    (Host.divf (broadcastInDim S1x10000x1 ![0, 1] bcast_S1x10000_S1x10000x1_0_1
        (Host.reduceAdd (mulf (centered h) (centered h)) (constant S_ .f32 0x00000000#32) reducesTo_S1x10000x128_S1x10000_d2 h_S_))
      (broadcastInDim S1x10000x1 ![] bcast_S_S1x10000x1 (count (F := F))))
    (broadcastInDim S1x10000x1 ![] bcast_S_S1x10000x1 (constant S_ .f32 0x7FC00000#32))

def normed (h : Arr F S1x10000x128 .f32) : Arr F S1x10000x128 .f32 :=
  Host.divf (centered h)
    (broadcastInDim S1x10000x128 ![0, 1, 2] bcast_S1x10000x1_S1x10000x128_0_1_2
      (Host.sqrt (addf (variance h) (broadcastInDim S1x10000x1 ![] bcast_S_S1x10000x1 (constant S_ .f32 0x3727C5AC#32)))))

def film (a0 : Arr F S1x10000x128 .f32) (a1 : Arr F S1x1x128 .f32) (a5 : Arr F S256x128 .f32) (a6 a7 : Arr F S256 .f32)
    (a8 : Arr F S128x128 .f32) (a9 : Arr F S128 .f32) : Arr F S1x10000x128 .f32 :=
  maximumf (addf (mulf (normed (lin a0 a8 a9))
        (broadcastInDim S1x10000x128 ![0, 1, 2] bcast_S1x1x128_S1x10000x128_0_1_2 (gamma a1 a5 a6 a7)))
      (broadcastInDim S1x10000x128 ![0, 1, 2] bcast_S1x1x128_S1x10000x128_0_1_2 (beta a1 a5 a6 a7)))
    (broadcastInDim S1x10000x128 ![] bcast_S_S1x10000x128 (constant S_ .f32 0x00000000#32))

def wrapIdx (a2 : Arr F S320000 .i32) : Arr F S320000x1 .i32 :=
  broadcastInDim S320000x1 ![0] bcast_S320000_S320000x1_0
    (select (cmpi .slt a2 (broadcastInDim S320000 ![] bcast_S_S320000 (constantI S_ 32 0#32)))
      (addi a2 (broadcastInDim S320000 ![] bcast_S_S320000 (constantI S_ 32 10000#32))) a2)

def inRange (a2 : Arr F S320000 .i32) : Arr F S320000 .i1 :=
  Host.reduce IntOp.andi
    (andi (cmpi .sge (wrapIdx a2) (broadcastInDim S320000x1 ![] bcast_S_S320000x1 (constantI S_ 32 0#32)))
      (cmpi .sle (wrapIdx a2) (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

def taken (a2 : Arr F S320000 .i32) (f : Arr F S1x10000x128 .f32) : Arr F S320000x128 .f32 :=
  select (broadcastInDim S320000x128 ![0] bcast_S320000_S320000x128_0 (inRange a2))
    (Host.gather gather_S10000x128_S320000x1_S320000x128_1_0_n_n_0_1_1128
      (shapeCast S10000x128 f shapeCasts_S1x10000x128_S10000x128) (wrapIdx a2))
    (broadcastInDim S320000x128 ![] bcast_S_S320000x128 (constant S_ .f32 0x7FC00000#32))

def nbrSum (a2 : Arr F S320000 .i32) (a3 a4 : Arr F S1x320000x1 .f32) (f : Arr F S1x10000x128 .f32) : Arr F S1x10000x128 .f32 :=
  Host.reduceAdd
    (mulf (broadcastInDim S1x10000x32x128 ![0, 1, 2, 3] bcast_S1x10000x32x1_S1x10000x32x128_0_1_2_3
        (shapeCast S1x10000x32x1 (mulf a3 a4) shapeCasts_S1x320000x1_S1x10000x32x1))
      (shapeCast S1x10000x32x128 (taken a2 f) shapeCasts_S320000x128_S1x10000x32x128))
    (constant S_ .f32 0x00000000#32) reducesTo_S1x10000x32x128_S1x10000x128_d2 h_S_

def out (a0 : Arr F S1x10000x128 .f32) (a1 : Arr F S1x1x128 .f32) (a2 : Arr F S320000 .i32) (a3 a4 : Arr F S1x320000x1 .f32)
    (a5 : Arr F S256x128 .f32) (a6 a7 : Arr F S256 .f32) (a8 : Arr F S128x128 .f32) (a9 : Arr F S128 .f32) : Arr F S1x10000x128 .f32 :=
  maximumf (addf (film a0 a1 a5 a6 a7 a8 a9) (nbrSum a2 a3 a4 (film a0 a1 a5 a6 a7 a8 a9)))
    (broadcastInDim S1x10000x128 ![] bcast_S_S1x10000x128 (constant S_ .f32 0x00000000#32))

def refVal (m : (ℓ : Loc nD τ sig) → Buf (Elt Ideal) ℓ) (c : Dev nD) : Arr Ideal S1x10000x128 .f32 :=
  out (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

abbrev ops : List (HloOp τ sig (Elt F)) :=
  [
    unary main_arg6 main_v0 (broadcastInDim S256x1 ![0] bcast_S256_S256x1_0 : (⟨S256, .f32⟩ : BufTy).Contents (Elt F) → (⟨S256x1, .f32⟩ : BufTy).Contents (Elt F)),
    unary main_v0 main_v1 (broadcastInDim S256x128 ![0, 1] bcast_S256x1_S256x128_0_1 : (⟨S256x1, .f32⟩ : BufTy).Contents (Elt F) → (⟨S256x128, .f32⟩ : BufTy).Contents (Elt F)),
    binary main_v1 main_arg5 main_v2 (mulf : (⟨S256x128, .f32⟩ : BufTy).Contents (Elt F) → (⟨S256x128, .f32⟩ : BufTy).Contents (Elt F) → (⟨S256x128, .f32⟩ : BufTy).Contents (Elt F)),
    TRef.binary (.of main_arg5) (.of main_arg5) main_call0.v0 mulf,
    TRef.nullary main_call0.cst (constant S_ .f32 0x00000000#32),
    TRef.binary main_call0.v0 main_call0.cst main_call0.v1 (fun x v => Host.reduceAdd x v reducesTo_S256x128_S256_d1 h_S_),
    TRef.unary main_call0.v1 main_call0.v2 (broadcastInDim S256x1 ![0] bcast_S256_S256x1_0),
    TRef.unary main_call0.v2 main_call0.v3 Host.sqrt,
    unary main_v3 main_v4 (broadcastInDim S256x128 ![0, 1] bcast_S256x1_S256x128_0_1 : (⟨S256x1, .f32⟩ : BufTy).Contents (Elt F) → (⟨S256x128, .f32⟩ : BufTy).Contents (Elt F)),
    binary main_v2 main_v4 main_v5 (Host.divf : (⟨S256x128, .f32⟩ : BufTy).Contents (Elt F) → (⟨S256x128, .f32⟩ : BufTy).Contents (Elt F) → (⟨S256x128, .f32⟩ : BufTy).Contents (Elt F)),
    unary main_v5 main_v6 ((transpose S128x256 [1, 0] · transposes_S256x128_S128x256_1_0) : (⟨S256x128, .f32⟩ : BufTy).Contents (Elt F) → (⟨S128x256, .f32⟩ : BufTy).Contents (Elt F)),
    binary main_arg1 main_v6 main_v7 ((fun l r => Host.dotGeneral dot_S1x1x128_S128x256_S1x1x256_2_0_01_1_n_n none l r) : (⟨S1x1x128, .f32⟩ : BufTy).Contents (Elt F) → (⟨S128x256, .f32⟩ : BufTy).Contents (Elt F) → (⟨S1x1x256, .f32⟩ : BufTy).Contents (Elt F)),
    unary main_arg7 main_v8 (broadcastInDim S1x1x256 ![2] bcast_S256_S1x1x256_2 : (⟨S256, .f32⟩ : BufTy).Contents (Elt F) → (⟨S1x1x256, .f32⟩ : BufTy).Contents (Elt F)),
    binary main_v7 main_v8 main_v9 (addf : (⟨S1x1x256, .f32⟩ : BufTy).Contents (Elt F) → (⟨S1x1x256, .f32⟩ : BufTy).Contents (Elt F) → (⟨S1x1x256, .f32⟩ : BufTy).Contents (Elt F)),
    unary main_v9 main_v10 ((extractStridedSlice S1x1x128 ![0, 0, 0] · slices_S1x1x256_S1x1x128_0_0_0) : (⟨S1x1x256, .f32⟩ : BufTy).Contents (Elt F) → (⟨S1x1x128, .f32⟩ : BufTy).Contents (Elt F)),
    unary main_v9 main_v11 ((extractStridedSlice S1x1x128 ![0, 0, 128] · slices_S1x1x256_S1x1x128_0_0_128) : (⟨S1x1x256, .f32⟩ : BufTy).Contents (Elt F) → (⟨S1x1x128, .f32⟩ : BufTy).Contents (Elt F)),
    nullary main_cst (constant S_ .f32 0x3F800000#32),
    unary main_cst main_v12 (broadcastInDim S1x1x128 ![] bcast_S_S1x1x128 : (⟨S_, .f32⟩ : BufTy).Contents (Elt F) → (⟨S1x1x128, .f32⟩ : BufTy).Contents (Elt F)),
    binary main_v10 main_v12 main_v13 (addf : (⟨S1x1x128, .f32⟩ : BufTy).Contents (Elt F) → (⟨S1x1x128, .f32⟩ : BufTy).Contents (Elt F) → (⟨S1x1x128, .f32⟩ : BufTy).Contents (Elt F)),
    unary main_arg8 main_v14 ((transpose S128x128 [1, 0] · transposes_S128x128_S128x128_1_0) : (⟨S128x128, .f32⟩ : BufTy).Contents (Elt F) → (⟨S128x128, .f32⟩ : BufTy).Contents (Elt F)),
    binary main_arg0 main_v14 main_v15 ((fun l r => Host.dotGeneral dot_S1x10000x128_S128x128_S1x10000x128_2_0_01_1_n_n none l r) : (⟨S1x10000x128, .f32⟩ : BufTy).Contents (Elt F) → (⟨S128x128, .f32⟩ : BufTy).Contents (Elt F) → (⟨S1x10000x128, .f32⟩ : BufTy).Contents (Elt F)),
    unary main_arg9 main_v16 (broadcastInDim S1x1x128 ![2] bcast_S128_S1x1x128_2 : (⟨S128, .f32⟩ : BufTy).Contents (Elt F) → (⟨S1x1x128, .f32⟩ : BufTy).Contents (Elt F)),
    unary main_v16 main_v17 (broadcastInDim S1x10000x128 ![0, 1, 2] bcast_S1x1x128_S1x10000x128_0_1_2 : (⟨S1x1x128, .f32⟩ : BufTy).Contents (Elt F) → (⟨S1x10000x128, .f32⟩ : BufTy).Contents (Elt F)),
    binary main_v15 main_v17 main_v18 (addf : (⟨S1x10000x128, .f32⟩ : BufTy).Contents (Elt F) → (⟨S1x10000x128, .f32⟩ : BufTy).Contents (Elt F) → (⟨S1x10000x128, .f32⟩ : BufTy).Contents (Elt F)),
    nullary main_cst_0 (constant S_ .f32 0x00000000#32),
    binary main_v18 main_cst_0 main_v19 ((fun x v => Host.reduceAdd x v reducesTo_S1x10000x128_S1x10000_d2 h_S_) : (⟨S1x10000x128, .f32⟩ : BufTy).Contents (Elt F) → (⟨S_, .f32⟩ : BufTy).Contents (Elt F) → (⟨S1x10000, .f32⟩ : BufTy).Contents (Elt F)),
    unary main_v19 main_v20 (broadcastInDim S1x10000x1 ![0, 1] bcast_S1x10000_S1x10000x1_0_1 : (⟨S1x10000, .f32⟩ : BufTy).Contents (Elt F) → (⟨S1x10000x1, .f32⟩ : BufTy).Contents (Elt F)),
    nullary main_cst_1 (constant S_ .f32 0x43000000#32),
    unary main_cst_1 main_v21 (broadcastInDim S1x10000x1 ![] bcast_S_S1x10000x1 : (⟨S_, .f32⟩ : BufTy).Contents (Elt F) → (⟨S1x10000x1, .f32⟩ : BufTy).Contents (Elt F)),
    binary main_v20 main_v21 main_v22 (Host.divf : (⟨S1x10000x1, .f32⟩ : BufTy).Contents (Elt F) → (⟨S1x10000x1, .f32⟩ : BufTy).Contents (Elt F) → (⟨S1x10000x1, .f32⟩ : BufTy).Contents (Elt F)),
    nullary main_c (constantI S_ 32 0#32),
    TRef.nullary main_call1.cst (constant S_ .f32 0x00000000#32),
    TRef.binary (.of main_v18) main_call1.cst main_call1.v0 (fun x v => Host.reduceAdd x v reducesTo_S1x10000x128_S1x10000_d2 h_S_),
    TRef.unary main_call1.v0 main_call1.v1 (broadcastInDim S1x10000x1 ![0, 1] bcast_S1x10000_S1x10000x1_0_1),
    TRef.nullary main_call1.cst_0 (constant S_ .f32 0x43000000#32),
    TRef.unary main_call1.cst_0 main_call1.v2 (broadcastInDim S1x10000x1 ![] bcast_S_S1x10000x1),
    TRef.binary main_call1.v1 main_call1.v2 main_call1.v3 Host.divf,
    TRef.unary main_call1.v3 main_call1.v4 (broadcastInDim S1x10000x128 ![0, 1, 2] bcast_S1x10000x1_S1x10000x128_0_1_2),
    TRef.binary (.of main_v18) main_call1.v4 main_call1.v5 subf,
    TRef.binary main_call1.v5 main_call1.v5 main_call1.v6 mulf,
    TRef.unary (.of main_c) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S1x10000x128_S1x10000_d2 h_S_),
    TRef.unary main_call1.v9 main_call1.v10 (broadcastInDim S1x10000x1 ![0, 1] bcast_S1x10000_S1x10000x1_0_1),
    TRef.unary main_call1.v8 main_call1.v11 (broadcastInDim S1x10000x1 ![] bcast_S_S1x10000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S1x10000x1 ![] bcast_S_S1x10000x1),
    TRef.ternary main_call1.v13 main_call1.v12 main_call1.call0.v1 main_call1.call0.v2 (fun p a b => select (broadcastInDim S1x10000x1 ![] bcast_S_S1x10000x1 p) a b),
    unary main_v22 main_v24 (broadcastInDim S1x10000x128 ![0, 1, 2] bcast_S1x10000x1_S1x10000x128_0_1_2 : (⟨S1x10000x1, .f32⟩ : BufTy).Contents (Elt F) → (⟨S1x10000x128, .f32⟩ : BufTy).Contents (Elt F)),
    binary main_v18 main_v24 main_v25 (subf : (⟨S1x10000x128, .f32⟩ : BufTy).Contents (Elt F) → (⟨S1x10000x128, .f32⟩ : BufTy).Contents (Elt F) → (⟨S1x10000x128, .f32⟩ : BufTy).Contents (Elt F)),
    nullary main_cst_2 (constant S_ .f32 0x3727C5AC#32),
    unary main_cst_2 main_v26 (broadcastInDim S1x10000x1 ![] bcast_S_S1x10000x1 : (⟨S_, .f32⟩ : BufTy).Contents (Elt F) → (⟨S1x10000x1, .f32⟩ : BufTy).Contents (Elt F)),
    binary main_v23 main_v26 main_v27 (addf : (⟨S1x10000x1, .f32⟩ : BufTy).Contents (Elt F) → (⟨S1x10000x1, .f32⟩ : BufTy).Contents (Elt F) → (⟨S1x10000x1, .f32⟩ : BufTy).Contents (Elt F)),
    unary main_v27 main_v28 (Host.sqrt : (⟨S1x10000x1, .f32⟩ : BufTy).Contents (Elt F) → (⟨S1x10000x1, .f32⟩ : BufTy).Contents (Elt F)),
    unary main_v28 main_v29 (broadcastInDim S1x10000x128 ![0, 1, 2] bcast_S1x10000x1_S1x10000x128_0_1_2 : (⟨S1x10000x1, .f32⟩ : BufTy).Contents (Elt F) → (⟨S1x10000x128, .f32⟩ : BufTy).Contents (Elt F)),
    binary main_v25 main_v29 main_v30 (Host.divf : (⟨S1x10000x128, .f32⟩ : BufTy).Contents (Elt F) → (⟨S1x10000x128, .f32⟩ : BufTy).Contents (Elt F) → (⟨S1x10000x128, .f32⟩ : BufTy).Contents (Elt F)),
    unary main_v13 main_v31 (broadcastInDim S1x10000x128 ![0, 1, 2] bcast_S1x1x128_S1x10000x128_0_1_2 : (⟨S1x1x128, .f32⟩ : BufTy).Contents (Elt F) → (⟨S1x10000x128, .f32⟩ : BufTy).Contents (Elt F)),
    binary main_v30 main_v31 main_v32 (mulf : (⟨S1x10000x128, .f32⟩ : BufTy).Contents (Elt F) → (⟨S1x10000x128, .f32⟩ : BufTy).Contents (Elt F) → (⟨S1x10000x128, .f32⟩ : BufTy).Contents (Elt F)),
    unary main_v11 main_v33 (broadcastInDim S1x10000x128 ![0, 1, 2] bcast_S1x1x128_S1x10000x128_0_1_2 : (⟨S1x1x128, .f32⟩ : BufTy).Contents (Elt F) → (⟨S1x10000x128, .f32⟩ : BufTy).Contents (Elt F)),
    binary main_v32 main_v33 main_v34 (addf : (⟨S1x10000x128, .f32⟩ : BufTy).Contents (Elt F) → (⟨S1x10000x128, .f32⟩ : BufTy).Contents (Elt F) → (⟨S1x10000x128, .f32⟩ : BufTy).Contents (Elt F)),
    TRef.nullary main_call2.cst (constant S_ .f32 0x00000000#32),
    TRef.unary main_call2.cst main_call2.v0 (broadcastInDim S1x10000x128 ![] bcast_S_S1x10000x128),
    TRef.binary (.of main_v34) main_call2.v0 main_call2.v1 maximumf,
    binary main_arg3 main_arg4 main_v36 (mulf : (⟨S1x320000x1, .f32⟩ : BufTy).Contents (Elt F) → (⟨S1x320000x1, .f32⟩ : BufTy).Contents (Elt F) → (⟨S1x320000x1, .f32⟩ : BufTy).Contents (Elt F)),
    reshape main_v36 main_v37 rfl shapeCasts_S1x320000x1_S1x10000x32x1,
    reshape main_v35 main_v38 rfl shapeCasts_S1x10000x128_S10000x128,
    TRef.nullary main_call3.c (constantI S_ 32 0#32),
    TRef.unary main_call3.c main_call3.v0 (broadcastInDim S320000 ![] bcast_S_S320000),
    TRef.binary (.of main_arg2) main_call3.v0 main_call3.v1 (cmpi .slt),
    TRef.nullary main_call3.c_0 (constantI S_ 32 10000#32),
    TRef.unary main_call3.c_0 main_call3.v2 (broadcastInDim S320000 ![] bcast_S_S320000),
    TRef.binary (.of main_arg2) main_call3.v2 main_call3.v3 addi,
    TRef.ternary main_call3.v1 main_call3.v3 (.of main_arg2) main_call3.call0.v0 select,
    TRef.unary main_call3.call0.v0 main_call3.v5 (broadcastInDim S320000x1 ![0] bcast_S320000_S320000x1_0),
    TRef.nullary main_call3.c_1 (constantI S1 32 9999#32),
    TRef.nullary main_call3.c_2 (constantI S_ 32 0#32),
    TRef.unary main_call3.c_2 main_call3.v6 (broadcastInDim S320000x1 ![] bcast_S_S320000x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S320000x1 ![0, 1] bcast_S1x1_S320000x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S320000x1_S320000_d1 h_S_),
    TRef.binary (.of main_v38) main_call3.v5 main_call3.v13 (fun x i => Host.gather gather_S10000x128_S320000x1_S320000x128_1_0_n_n_0_1_1128 x i),
    TRef.unary main_call3.v12 main_call3.v14 (broadcastInDim S320000x128 ![0] bcast_S320000_S320000x128_0),
    TRef.nullary main_call3.cst (constant S_ .f32 0x7FC00000#32),
    TRef.unary main_call3.cst main_call3.v15 (broadcastInDim S320000x128 ![] bcast_S_S320000x128),
    TRef.ternary main_call3.v14 main_call3.v13 main_call3.v15 main_call3.v16 select,
    reshape main_v39 main_v40 rfl shapeCasts_S320000x128_S1x10000x32x128,
    unary main_v37 main_v41 (broadcastInDim S1x10000x32x128 ![0, 1, 2, 3] bcast_S1x10000x32x1_S1x10000x32x128_0_1_2_3 : (⟨S1x10000x32x1, .f32⟩ : BufTy).Contents (Elt F) → (⟨S1x10000x32x128, .f32⟩ : BufTy).Contents (Elt F)),
    binary main_v41 main_v40 main_v42 (mulf : (⟨S1x10000x32x128, .f32⟩ : BufTy).Contents (Elt F) → (⟨S1x10000x32x128, .f32⟩ : BufTy).Contents (Elt F) → (⟨S1x10000x32x128, .f32⟩ : BufTy).Contents (Elt F)),
    nullary main_cst_3 (constant S_ .f32 0x00000000#32),
    binary main_v42 main_cst_3 main_v43 ((fun x v => Host.reduceAdd x v reducesTo_S1x10000x32x128_S1x10000x128_d2 h_S_) : (⟨S1x10000x32x128, .f32⟩ : BufTy).Contents (Elt F) → (⟨S_, .f32⟩ : BufTy).Contents (Elt F) → (⟨S1x10000x128, .f32⟩ : BufTy).Contents (Elt F)),
    binary main_v35 main_v43 main_v44 (addf : (⟨S1x10000x128, .f32⟩ : BufTy).Contents (Elt F) → (⟨S1x10000x128, .f32⟩ : BufTy).Contents (Elt F) → (⟨S1x10000x128, .f32⟩ : BufTy).Contents (Elt F)),
    TRef.nullary main_call4.cst (constant S_ .f32 0x00000000#32),
    TRef.unary main_call4.cst main_call4.v0 (broadcastInDim S1x10000x128 ![] bcast_S_S1x10000x128),
    TRef.binary (.of main_v44) main_call4.v0 main_call4.v1 maximumf ]

set_option maxRecDepth 8192 in
set_option maxHeartbeats 6400000 in

theorem main_eq (c : Dev nD) : main (F := F) c = seq ops := by
  simp only [main, fn_norm.body, fn_where.body, fn_var.body, fn_relu.body, fn_where_0.body, fn_take.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., binary_bufs_sub .., nullary_bufs_sub .., binary_bufs_sub ..,
    unary_bufs_sub .., unary_bufs_sub .., unary_bufs_sub .., binary_bufs_sub .., unary_bufs_sub .., binary_bufs_sub ..,
    unary_bufs_sub .., binary_bufs_sub .., unary_bufs_sub .., unary_bufs_sub .., nullary_bufs_sub .., unary_bufs_sub ..,
    binary_bufs_sub .., unary_bufs_sub .., binary_bufs_sub .., unary_bufs_sub .., unary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., binary_bufs_sub .., unary_bufs_sub .., binary_bufs_sub ..,
    nullary_bufs_sub .., unary_bufs_sub .., binary_bufs_sub .., binary_bufs_sub .., reshape_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..,
    unary_bufs_sub .., binary_bufs_sub .., nullary_bufs_sub .., binary_bufs_sub .., binary_bufs_sub .., nullary_bufs_sub ..,
    unary_bufs_sub .., binary_bufs_sub ..⟩

set_option maxRecDepth 200000 in
set_option maxHeartbeats 3200000 in

theorem out_eq (V : Valuation τ sig (Elt F)) :
    after ops V (main_v45 : DevRef τ sig)
      = out (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  simp only [out, film, nbrSum, taken, inRange, wrapIdx, normed, variance, count, centered, mean, lin, beta, gamma, gb, wnorm, rowNorm,
    TRef.toBuf, TRef.ofBuf, cast_eq, id_eq]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v45) = refVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v45).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.Spec.lean ====
import Idealize.ShloMosaic.PureOps.Ideal
import Mathlib.Algebra.BigOperators.Fin

noncomputable section

namespace Cert.Spec

open Idealize.ShloMosaic

structure In where
  x : Fin 10000 → Fin 128 → EReal
  cond : Fin 128 → EReal
  idx : Fin 320000 → Fin 10000
  wv : Fin 320000 → EReal
  wp : Fin 320000 → EReal
  v : Fin 256 → Fin 128 → EReal
  g : Fin 256 → EReal
  b : Fin 256 → EReal
  W : Fin 128 → Fin 128 → EReal
  bf : Fin 128 → EReal

def eps : EReal := Ideal.ofBits .f32 0x3727C5AC#32

def c128 : EReal := Ideal.ofBits .f32 0x43000000#32

def c1 : EReal := Ideal.ofBits .f32 0x3F800000#32

variable (I : In)

def edge (n : Fin 10000) (k : Fin 32) : Fin 320000 := ⟨32 * n.val + k.val, by omega⟩

def ssq (r : Fin 256) : EReal := ∑ k : Fin 128, I.v r k * I.v r k

def h (n : Fin 10000) (o : Fin 128) : EReal := (∑ k : Fin 128, I.x n k * I.W o k) + I.bf o

def mu (n : Fin 10000) : EReal := Ideal.div (∑ o : Fin 128, h I n o) c128

def var (n : Fin 10000) : EReal := Ideal.div (∑ o : Fin 128, (h I n o - mu I n) * (h I n o - mu I n)) c128

def wcR (r : Fin 256) (k : Fin 128) : EReal := Ideal.div (I.g r * I.v r k) (Ideal.sqrt (ssq I r))

def wcK (r : Fin 256) (k : Fin 128) : EReal := I.v r k * (I.g r * Ideal.rsqrt (ssq I r))

def gbR (r : Fin 256) : EReal := (∑ k : Fin 128, I.cond k * wcR I r k) + I.b r
def gbK (r : Fin 256) : EReal := (∑ k : Fin 128, I.cond k * wcK I r k) + I.b r

def hnR (n : Fin 10000) (o : Fin 128) : EReal := Ideal.div (h I n o - mu I n) (Ideal.sqrt (var I n + eps))
def hnK (n : Fin 10000) (o : Fin 128) : EReal := (h I n o - mu I n) * Ideal.rsqrt (var I n + eps)

def lo (o : Fin 128) : Fin 256 := ⟨o.val, by omega⟩
def hi (o : Fin 128) : Fin 256 := ⟨128 + o.val, by omega⟩

def filmR (n : Fin 10000) (o : Fin 128) : EReal := max (hnR I n o * (gbR I (lo o) + c1) + gbR I (hi o)) 0
def filmK (n : Fin 10000) (o : Fin 128) : EReal := max (hnK I n o * (gbK I (lo o) + c1) + gbK I (hi o)) 0

def agg (f : Fin 10000 → Fin 128 → EReal) (n : Fin 10000) (o : Fin 128) : EReal :=
  max (f n o + ∑ k : Fin 32, (I.wv (edge n k) * I.wp (edge n k)) * f (I.idx (edge n k)) o) 0

def outR (n : Fin 10000) (o : Fin 128) : EReal := agg I (filmR I) n o
def outK (n : Fin 10000) (o : Fin 128) : EReal := agg I (filmK I) n o

structure In.Real (I : In) : Prop where
  x : ∀ n k, ∃ r : ℝ, I.x n k = (r : EReal)
  cond : ∀ k, ∃ r : ℝ, I.cond k = (r : EReal)
  wv : ∀ e, ∃ r : ℝ, I.wv e = (r : EReal)
  wp : ∀ e, ∃ r : ℝ, I.wp e = (r : EReal)
  v : ∀ r k, ∃ s : ℝ, I.v r k = (s : EReal)
  g : ∀ r, ∃ s : ℝ, I.g r = (s : EReal)
  b : ∀ r, ∃ s : ℝ, I.b r = (s : EReal)
  W : ∀ o k, ∃ r : ℝ, I.W o k = (r : EReal)
  bf : ∀ o, ∃ r : ℝ, I.bf o = (r : EReal)

def In.RowsNonzero (I : In) : Prop := ∀ r : Fin 256, ∃ k : Fin 128, I.v r k ≠ 0

end Cert.Spec

end
-- ==== Proof.RefRead.lean ====
import proofs.«204698_g79517024518204_fold_wed_m_581_46_alg».proof.Proof.RefRun
import proofs.«204698_g79517024518204_fold_wed_m_581_46_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefRead

open Cert.ReferenceIdeal Cert.ReferenceIdeal.Facts₀ Cert.ReferenceIdeal.Facts Cert.ReferenceIdeal.RefRun
open Idealize.ShloMosaic Idealize.ShloMosaic.ValueIdx
open scoped BigOperators

variable [Cert.ReferenceIdeal.Facts]

def specOf (a0 : Arr Ideal S1x10000x128 .f32) (a1 : Arr Ideal S1x1x128 .f32) (a2 : Arr Ideal S320000 .i32)
    (a3 a4 : Arr Ideal S1x320000x1 .f32) (a5 : Arr Ideal S256x128 .f32) (a6 a7 : Arr Ideal S256 .f32)
    (a8 : Arr Ideal S128x128 .f32) (a9 : Arr Ideal S128 .f32) : Cert.Spec.In where
  x n k := a0 (ix3 0 n k)
  cond k := a1 (ix3 0 0 k)
  idx e := ⟨(a2 (ix1 e)).toNat % 10000, Nat.mod_lt _ (by decide)⟩
  wv e := a3 (ix3 0 e 0)
  wp e := a4 (ix3 0 e 0)
  v r k := a5 (ix2 r k)
  g r := a6 (ix1 r)
  b r := a7 (ix1 r)
  W o k := a8 (ix2 o k)
  bf o := a9 (ix1 o)

theorem c128_eq : Cert.Spec.c128 = ((128 : ℝ) : EReal) := by
  unfold Cert.Spec.c128
  simp [Ideal.ofBits, Ideal.ieee, -EReal.coe_mul]; norm_num

theorem c128_pos : (0 : EReal) < Cert.Spec.c128 := by
  rw [c128_eq]; exact EReal.coe_pos.mpr (by norm_num)

theorem count_apply (i : S_.Idx) : RefRun.count (F := Ideal) i = Cert.Spec.c128 := by
  unfold RefRun.count
  rw [subf_apply, sitofp_apply, constant_apply]
  show Ideal.ofBits .f32 0x43000000#32 - (((0#32 : BitVec 32).toInt : ℝ) : EReal) = Cert.Spec.c128
  simp [Cert.Spec.c128]

theorem hostSqrt_apply {s : Shape} (x : FVec Ideal s .f32) (i : s.Idx) : Host.sqrt x i = Ideal.sqrt (x i) := rfl

theorem lhs_lin_0 (i : S1x10000x128.Idx) (q : dot_S1x10000x128_S128x128_S1x10000x128_2_0_01_1_n_n.contr.Idx) :
    (dot_S1x10000x128_S128x128_S1x10000x128_2_0_01_1_n_n.lhsIdx i q 0).val = (i 0).val := by
  unfold DotDims.lhsIdx
  rw [dif_neg (show ¬(0 : Fin S1x10000x128.rank) ∈ dot_S1x10000x128_S128x128_S1x10000x128_2_0_01_1_n_n.lhsBatch from (List.not_mem_nil : ¬(0 : Fin 3) ∈ ([] : List (Fin 3)))),
    dif_pos (show (0 : Fin S1x10000x128.rank) ∈ dot_S1x10000x128_S128x128_S1x10000x128_2_0_01_1_n_n.lhsNonContracting from (by decide : (0 : Fin 3) ∈ ([0, 1] : List (Fin 3))))]
  rfl
theorem lhs_lin_1 (i : S1x10000x128.Idx) (q : dot_S1x10000x128_S128x128_S1x10000x128_2_0_01_1_n_n.contr.Idx) :
    (dot_S1x10000x128_S128x128_S1x10000x128_2_0_01_1_n_n.lhsIdx i q 1).val = (i 1).val := by
  unfold DotDims.lhsIdx
  rw [dif_neg (show ¬(1 : Fin S1x10000x128.rank) ∈ dot_S1x10000x128_S128x128_S1x10000x128_2_0_01_1_n_n.lhsBatch from (List.not_mem_nil : ¬(1 : Fin 3) ∈ ([] : List (Fin 3)))),
    dif_pos (show (1 : Fin S1x10000x128.rank) ∈ dot_S1x10000x128_S128x128_S1x10000x128_2_0_01_1_n_n.lhsNonContracting from (by decide : (1 : Fin 3) ∈ ([0, 1] : List (Fin 3))))]
  rfl
theorem lhs_lin_2 (i : S1x10000x128.Idx) (q : dot_S1x10000x128_S128x128_S1x10000x128_2_0_01_1_n_n.contr.Idx) :
    (dot_S1x10000x128_S128x128_S1x10000x128_2_0_01_1_n_n.lhsIdx i q 2).val = (q ⟨0, (Nat.one_pos : 0 < dot_S1x10000x128_S128x128_S1x10000x128_2_0_01_1_n_n.contr.rank)⟩).val :=
  dot_S1x10000x128_S128x128_S1x10000x128_2_0_01_1_n_n.lhsIdx_val_of_single rfl i q
theorem rhs_lin_0 (i : S1x10000x128.Idx) (q : dot_S1x10000x128_S128x128_S1x10000x128_2_0_01_1_n_n.contr.Idx) :
    (dot_S1x10000x128_S128x128_S1x10000x128_2_0_01_1_n_n.rhsIdx i q 0).val = (q ⟨0, (Nat.one_pos : 0 < dot_S1x10000x128_S128x128_S1x10000x128_2_0_01_1_n_n.contr.rank)⟩).val :=
  dot_S1x10000x128_S128x128_S1x10000x128_2_0_01_1_n_n.rhsIdx_val_of_single rfl i q
theorem rhs_lin_1 (i : S1x10000x128.Idx) (q : dot_S1x10000x128_S128x128_S1x10000x128_2_0_01_1_n_n.contr.Idx) :
    (dot_S1x10000x128_S128x128_S1x10000x128_2_0_01_1_n_n.rhsIdx i q 1).val = (i 2).val := by
  unfold DotDims.rhsIdx
  rw [dif_neg (show ¬(1 : Fin S128x128.rank) ∈ dot_S1x10000x128_S128x128_S1x10000x128_2_0_01_1_n_n.rhsBatch from (List.not_mem_nil : ¬(1 : Fin 2) ∈ ([] : List (Fin 2)))),
    dif_pos (show (1 : Fin S128x128.rank) ∈ dot_S1x10000x128_S128x128_S1x10000x128_2_0_01_1_n_n.rhsNonContracting from (by decide : (1 : Fin 2) ∈ ([1] : List (Fin 2))))]
  rfl
theorem lhs_gb_0 (i : S1x1x256.Idx) (q : dot_S1x1x128_S128x256_S1x1x256_2_0_01_1_n_n.contr.Idx) :
    (dot_S1x1x128_S128x256_S1x1x256_2_0_01_1_n_n.lhsIdx i q 0).val = (i 0).val := by
  unfold DotDims.lhsIdx
  rw [dif_neg (show ¬(0 : Fin S1x1x128.rank) ∈ dot_S1x1x128_S128x256_S1x1x256_2_0_01_1_n_n.lhsBatch from (List.not_mem_nil : ¬(0 : Fin 3) ∈ ([] : List (Fin 3)))),
    dif_pos (show (0 : Fin S1x1x128.rank) ∈ dot_S1x1x128_S128x256_S1x1x256_2_0_01_1_n_n.lhsNonContracting from (by decide : (0 : Fin 3) ∈ ([0, 1] : List (Fin 3))))]
  rfl
theorem lhs_gb_1 (i : S1x1x256.Idx) (q : dot_S1x1x128_S128x256_S1x1x256_2_0_01_1_n_n.contr.Idx) :
    (dot_S1x1x128_S128x256_S1x1x256_2_0_01_1_n_n.lhsIdx i q 1).val = (i 1).val := by
  unfold DotDims.lhsIdx
  rw [dif_neg (show ¬(1 : Fin S1x1x128.rank) ∈ dot_S1x1x128_S128x256_S1x1x256_2_0_01_1_n_n.lhsBatch from (List.not_mem_nil : ¬(1 : Fin 3) ∈ ([] : List (Fin 3)))),
    dif_pos (show (1 : Fin S1x1x128.rank) ∈ dot_S1x1x128_S128x256_S1x1x256_2_0_01_1_n_n.lhsNonContracting from (by decide : (1 : Fin 3) ∈ ([0, 1] : List (Fin 3))))]
  rfl
theorem lhs_gb_2 (i : S1x1x256.Idx) (q : dot_S1x1x128_S128x256_S1x1x256_2_0_01_1_n_n.contr.Idx) :
    (dot_S1x1x128_S128x256_S1x1x256_2_0_01_1_n_n.lhsIdx i q 2).val = (q ⟨0, (Nat.one_pos : 0 < dot_S1x1x128_S128x256_S1x1x256_2_0_01_1_n_n.contr.rank)⟩).val :=
  dot_S1x1x128_S128x256_S1x1x256_2_0_01_1_n_n.lhsIdx_val_of_single rfl i q
theorem rhs_gb_0 (i : S1x1x256.Idx) (q : dot_S1x1x128_S128x256_S1x1x256_2_0_01_1_n_n.contr.Idx) :
    (dot_S1x1x128_S128x256_S1x1x256_2_0_01_1_n_n.rhsIdx i q 0).val = (q ⟨0, (Nat.one_pos : 0 < dot_S1x1x128_S128x256_S1x1x256_2_0_01_1_n_n.contr.rank)⟩).val :=
  dot_S1x1x128_S128x256_S1x1x256_2_0_01_1_n_n.rhsIdx_val_of_single rfl i q
theorem rhs_gb_1 (i : S1x1x256.Idx) (q : dot_S1x1x128_S128x256_S1x1x256_2_0_01_1_n_n.contr.Idx) :
    (dot_S1x1x128_S128x256_S1x1x256_2_0_01_1_n_n.rhsIdx i q 1).val = (i 2).val := by
  unfold DotDims.rhsIdx
  rw [dif_neg (show ¬(1 : Fin S128x256.rank) ∈ dot_S1x1x128_S128x256_S1x1x256_2_0_01_1_n_n.rhsBatch from (List.not_mem_nil : ¬(1 : Fin 2) ∈ ([] : List (Fin 2)))),
    dif_pos (show (1 : Fin S128x256.rank) ∈ dot_S1x1x128_S128x256_S1x1x256_2_0_01_1_n_n.rhsNonContracting from (by decide : (1 : Fin 2) ∈ ([1] : List (Fin 2))))]
  rfl

theorem lin_apply (a0 : Arr Ideal S1x10000x128 .f32) (a8 : Arr Ideal S128x128 .f32) (a9 : Arr Ideal S128 .f32)
    (n : Fin 10000) (o : Fin 128) :
    lin a0 a8 a9 (ix3 0 n o) = (∑ k : Fin 128, a0 (ix3 0 n k) * a8 (ix2 o k)) + a9 (ix1 o) := by
  unfold lin
  rw [addf_apply]
  congr 1
  · simp only [Host.dotGeneral]
    rw [Ideal.dotGeneral_apply, ← Equiv.sum_comp (contrEquiv1 dot_S1x10000x128_S128x128_S1x10000x128_2_0_01_1_n_n 128 rfl rfl).symm]
    refine Finset.sum_congr rfl fun k _ => ?_
    have hk := contrEquiv1_symm_val dot_S1x10000x128_S128x128_S1x10000x128_2_0_01_1_n_n 128 rfl rfl k
    have el : dot_S1x10000x128_S128x128_S1x10000x128_2_0_01_1_n_n.lhsIdx (ix3 0 n o) ((contrEquiv1 dot_S1x10000x128_S128x128_S1x10000x128_2_0_01_1_n_n 128 rfl rfl).symm k) = ix3 0 n k :=
      funext fun a => Fin.ext (by
        match a with
        | ⟨0, _⟩ => exact lhs_lin_0 _ _
        | ⟨1, _⟩ => exact lhs_lin_1 _ _
        | ⟨2, _⟩ => exact (lhs_lin_2 _ _).trans hk)
    have er : dot_S1x10000x128_S128x128_S1x10000x128_2_0_01_1_n_n.rhsIdx (ix3 0 n o) ((contrEquiv1 dot_S1x10000x128_S128x128_S1x10000x128_2_0_01_1_n_n 128 rfl rfl).symm k) = ix2 k o :=
      funext fun a => Fin.ext (by
        match a with
        | ⟨0, _⟩ => exact (rhs_lin_0 _ _).trans hk
        | ⟨1, _⟩ => exact rhs_lin_1 _ _)
    rw [el, er]
    congr 1
    exact transpose_apply [1, 0] a8 transposes_S128x128_S128x128_1_0 (ix2 k o) (ix2 o k)
      (fun b => by match b with | ⟨0, _⟩ => rfl | ⟨1, _⟩ => rfl)
  · refine (broadcastInDim_apply _ _ _ (ix3 0 n o) (ix3 0 0 o) (fun a => by
      match a with | ⟨0, _⟩ => rfl | ⟨1, _⟩ => rfl | ⟨2, _⟩ => rfl)).trans ?_
    exact broadcastInDim_apply _ _ a9 (ix3 0 0 o) (ix1 o) (fun a => by match a with | ⟨0, _⟩ => rfl)

theorem rowSum_apply (h : Arr Ideal S1x10000x128 .f32) (n : Fin 10000) :
    Host.reduceAdd (F := Ideal) h (constant S_ .f32 0x00000000#32) reducesTo_S1x10000x128_S1x10000_d2 h_S_ (ix2 0 n)
      = ∑ o : Fin 128, h (ix3 0 n o) := by
  rw [hostReduceAdd_apply, Ideal.hostReduceAdd_single reducesTo_S1x10000x128_S1x10000_d2 (by decide), constant_apply,
    Ideal.ofBits_zero_f32, zero_add]
  refine Finset.sum_congr rfl fun k _ => ?_
  exact congrArg h (funext fun a => Fin.ext (by match a with | ⟨0, _⟩ => rfl | ⟨1, _⟩ => rfl | ⟨2, _⟩ => rfl))

theorem colDiv_apply (x : Arr Ideal S1x10000 .f32) (cst : Arr Ideal S_ .f32) (n : Fin 10000) :
    Host.divf (F := Ideal) (φ := .f32) (broadcastInDim S1x10000x1 ![0, 1] bcast_S1x10000_S1x10000x1_0_1 x)
        (broadcastInDim S1x10000x1 ![] bcast_S_S1x10000x1 cst) (ix3 0 n 0)
      = Ideal.div (x (ix2 0 n)) (cst ix0) := by
  rw [hostDivf_apply, broadcastInDim_scalar_apply]
  congr 1
  exact broadcastInDim_apply _ _ x (ix3 0 n 0) (ix2 0 n) (fun a => by match a with | ⟨0, _⟩ => rfl | ⟨1, _⟩ => rfl)

theorem mean_apply (h : Arr Ideal S1x10000x128 .f32) (n : Fin 10000) :
    mean h (ix3 0 n 0) = Ideal.div (∑ o : Fin 128, h (ix3 0 n o)) Cert.Spec.c128 := by
  unfold mean
  rw [colDiv_apply, rowSum_apply, constant_apply]
  rfl

theorem colSpread_apply (x : Arr Ideal S1x10000x1 .f32) (n : Fin 10000) (o : Fin 128) :
    broadcastInDim S1x10000x128 ![0, 1, 2] bcast_S1x10000x1_S1x10000x128_0_1_2 x (ix3 0 n o) = x (ix3 0 n 0) :=
  broadcastInDim_apply _ _ x (ix3 0 n o) (ix3 0 n 0) (fun a => by
    match a with | ⟨0, _⟩ => rfl | ⟨1, _⟩ => rfl | ⟨2, _⟩ => rfl)

theorem centered_apply (h : Arr Ideal S1x10000x128 .f32) (n : Fin 10000) (o : Fin 128) :
    centered h (ix3 0 n o) = h (ix3 0 n o) - mean h (ix3 0 n 0) := by
  unfold centered
  rw [subf_apply, colSpread_apply]

theorem variance_apply (h : Arr Ideal S1x10000x128 .f32) (n : Fin 10000) :
    variance h (ix3 0 n 0)
      = Ideal.div (∑ o : Fin 128, (h (ix3 0 n o) - mean h (ix3 0 n 0)) * (h (ix3 0 n o) - mean h (ix3 0 n 0))) Cert.Spec.c128 := by
  unfold variance
  rw [select_apply, broadcastInDim_scalar_apply, cmpf_apply, count_apply, constant_apply, Ideal.ofBits_zero_f32]
  have hc : FloatOps.cmpf (F := Ideal) (φ := .f32) .ogt Cert.Spec.c128 0 = 1#1 := by
    show Ideal.cmp .ogt Cert.Spec.c128 0 = 1#1
    simp [Ideal.cmp, c128_pos]
  rw [hc, select_one, colDiv_apply, rowSum_apply, count_apply]
  refine congrArg (fun s => Ideal.div s Cert.Spec.c128) (Finset.sum_congr rfl fun o _ => ?_)
  rw [mulf_apply, centered_apply]

theorem normed_apply (h : Arr Ideal S1x10000x128 .f32) (n : Fin 10000) (o : Fin 128) :
    normed h (ix3 0 n o)
      = Ideal.div (h (ix3 0 n o) - mean h (ix3 0 n 0)) (Ideal.sqrt (variance h (ix3 0 n 0) + Cert.Spec.eps)) := by
  unfold normed
  rw [hostDivf_apply, centered_apply, colSpread_apply, hostSqrt_apply, addf_apply, broadcastInDim_scalar_apply, constant_apply]
  rfl

theorem rowNorm_apply (a5 : Arr Ideal S256x128 .f32) (r : Fin 256) :
    rowNorm a5 (ix2 r 0) = Ideal.sqrt (∑ k : Fin 128, a5 (ix2 r k) * a5 (ix2 r k)) := by
  unfold rowNorm
  rw [hostSqrt_apply]
  congr 1
  rw [broadcastInDim_apply _ _ _ (ix2 r 0) (ix1 r) (fun a => by match a with | ⟨0, _⟩ => rfl),
    hostReduceAdd_apply, Ideal.hostReduceAdd_single reducesTo_S256x128_S256_d1 (by decide), constant_apply,
    Ideal.ofBits_zero_f32, zero_add]
  refine Finset.sum_congr rfl fun k _ => ?_
  have e : Shape.Reduces.lift (by decide : S256x128.Reduces [1] S256) (ix1 r) k = ix2 r k :=
    funext fun a => Fin.ext (by match a with | ⟨0, _⟩ => rfl | ⟨1, _⟩ => rfl)
  exact congrArg (mulf (F := Ideal) (φ := .f32) a5 a5) e

theorem wnorm_apply (a5 : Arr Ideal S256x128 .f32) (a6 : Arr Ideal S256 .f32) (r : Fin 256) (k : Fin 128) :
    wnorm a5 a6 (ix2 r k)
      = Ideal.div (a6 (ix1 r) * a5 (ix2 r k)) (Ideal.sqrt (∑ k' : Fin 128, a5 (ix2 r k') * a5 (ix2 r k'))) := by
  unfold wnorm
  have colspread : ∀ x : Arr Ideal S256x1 .f32,
      broadcastInDim S256x128 ![0, 1] bcast_S256x1_S256x128_0_1 x (ix2 r k) = x (ix2 r 0) := fun x =>
    broadcastInDim_apply _ _ x (ix2 r k) (ix2 r 0) (fun a => by match a with | ⟨0, _⟩ => rfl | ⟨1, _⟩ => rfl)
  rw [hostDivf_apply, mulf_apply, colspread, colspread, rowNorm_apply]
  congr 2
  exact broadcastInDim_apply _ _ a6 (ix2 r 0) (ix1 r) (fun a => by match a with | ⟨0, _⟩ => rfl)

theorem gb_apply (a1 : Arr Ideal S1x1x128 .f32) (a5 : Arr Ideal S256x128 .f32) (a6 a7 : Arr Ideal S256 .f32) (r : Fin 256) :
    gb a1 a5 a6 a7 (ix3 0 0 r) = (∑ k : Fin 128, a1 (ix3 0 0 k) * wnorm a5 a6 (ix2 r k)) + a7 (ix1 r) := by
  unfold gb
  rw [addf_apply]
  congr 1
  · simp only [Host.dotGeneral]
    rw [Ideal.dotGeneral_apply, ← Equiv.sum_comp (contrEquiv1 dot_S1x1x128_S128x256_S1x1x256_2_0_01_1_n_n 128 rfl rfl).symm]
    refine Finset.sum_congr rfl fun k _ => ?_
    have hk := contrEquiv1_symm_val dot_S1x1x128_S128x256_S1x1x256_2_0_01_1_n_n 128 rfl rfl k
    have el : dot_S1x1x128_S128x256_S1x1x256_2_0_01_1_n_n.lhsIdx (ix3 0 0 r) ((contrEquiv1 dot_S1x1x128_S128x256_S1x1x256_2_0_01_1_n_n 128 rfl rfl).symm k) = ix3 0 0 k :=
      funext fun a => Fin.ext (by
        match a with
        | ⟨0, _⟩ => exact lhs_gb_0 _ _
        | ⟨1, _⟩ => exact lhs_gb_1 _ _
        | ⟨2, _⟩ => exact (lhs_gb_2 _ _).trans hk)
    have er : dot_S1x1x128_S128x256_S1x1x256_2_0_01_1_n_n.rhsIdx (ix3 0 0 r) ((contrEquiv1 dot_S1x1x128_S128x256_S1x1x256_2_0_01_1_n_n 128 rfl rfl).symm k) = ix2 k r :=
      funext fun a => Fin.ext (by
        match a with
        | ⟨0, _⟩ => exact (rhs_gb_0 _ _).trans hk
        | ⟨1, _⟩ => exact rhs_gb_1 _ _)
    rw [el, er]
    congr 1
    exact transpose_apply [1, 0] (wnorm a5 a6) transposes_S256x128_S128x256_1_0 (ix2 k r) (ix2 r k)
      (fun b => by match b with | ⟨0, _⟩ => rfl | ⟨1, _⟩ => rfl)
  · exact broadcastInDim_apply _ _ a7 (ix3 0 0 r) (ix1 r) (fun a => by match a with | ⟨0, _⟩ => rfl)

theorem gamma_apply (a1 : Arr Ideal S1x1x128 .f32) (a5 : Arr Ideal S256x128 .f32) (a6 a7 : Arr Ideal S256 .f32) (o : Fin 128) :
    gamma a1 a5 a6 a7 (ix3 0 0 o) = gb a1 a5 a6 a7 (ix3 0 0 (Cert.Spec.lo o)) + Cert.Spec.c1 := by
  unfold gamma
  rw [addf_apply, broadcastInDim_scalar_apply, constant_apply]
  refine congrArg₂ (· + ·) ?_ rfl
  exact extractStridedSlice_apply _ _ _ (ix3 0 0 o) (ix3 0 0 (Cert.Spec.lo o)) (fun a => by
    match a with
    | ⟨0, _⟩ => rfl
    | ⟨1, _⟩ => rfl
    | ⟨2, _⟩ => exact (Nat.zero_add _).symm)

theorem beta_apply (a1 : Arr Ideal S1x1x128 .f32) (a5 : Arr Ideal S256x128 .f32) (a6 a7 : Arr Ideal S256 .f32) (o : Fin 128) :
    beta a1 a5 a6 a7 (ix3 0 0 o) = gb a1 a5 a6 a7 (ix3 0 0 (Cert.Spec.hi o)) := by
  unfold beta
  exact extractStridedSlice_apply _ _ _ (ix3 0 0 o) (ix3 0 0 (Cert.Spec.hi o)) (fun a => by
    match a with
    | ⟨0, _⟩ => rfl
    | ⟨1, _⟩ => rfl
    | ⟨2, _⟩ => rfl)

theorem rowSpread_apply (x : Arr Ideal S1x1x128 .f32) (n : Fin 10000) (o : Fin 128) :
    broadcastInDim S1x10000x128 ![0, 1, 2] bcast_S1x1x128_S1x10000x128_0_1_2 x (ix3 0 n o) = x (ix3 0 0 o) :=
  broadcastInDim_apply _ _ x (ix3 0 n o) (ix3 0 0 o) (fun a => by
    match a with | ⟨0, _⟩ => rfl | ⟨1, _⟩ => rfl | ⟨2, _⟩ => rfl)

theorem film_apply (a0 : Arr Ideal S1x10000x128 .f32) (a1 : Arr Ideal S1x1x128 .f32) (a5 : Arr Ideal S256x128 .f32) (a6 a7 : Arr Ideal S256 .f32)
    (a8 : Arr Ideal S128x128 .f32) (a9 : Arr Ideal S128 .f32) (n : Fin 10000) (o : Fin 128) :
    film a0 a1 a5 a6 a7 a8 a9 (ix3 0 n o)
      = max (normed (lin a0 a8 a9) (ix3 0 n o) * gamma a1 a5 a6 a7 (ix3 0 0 o) + beta a1 a5 a6 a7 (ix3 0 0 o)) 0 := by
  unfold film
  rw [maximumf_apply, addf_apply, mulf_apply, rowSpread_apply, rowSpread_apply, broadcastInDim_scalar_apply, constant_apply,
    Ideal.ofBits_zero_f32]

theorem film_eq (a0 : Arr Ideal S1x10000x128 .f32) (a1 : Arr Ideal S1x1x128 .f32) (a2 : Arr Ideal S320000 .i32)
    (a3 a4 : Arr Ideal S1x320000x1 .f32) (a5 : Arr Ideal S256x128 .f32) (a6 a7 : Arr Ideal S256 .f32)
    (a8 : Arr Ideal S128x128 .f32) (a9 : Arr Ideal S128 .f32) (n : Fin 10000) (o : Fin 128) :
    film a0 a1 a5 a6 a7 a8 a9 (ix3 0 n o) = Cert.Spec.filmR (specOf a0 a1 a2 a3 a4 a5 a6 a7 a8 a9) n o := by
  rw [film_apply, normed_apply, variance_apply, mean_apply, gamma_apply, beta_apply, gb_apply, gb_apply]
  simp only [lin_apply, wnorm_apply]
  rfl

theorem toInt_eq_toNat {w : BitVec 32} (h : 0 ≤ w.toInt) : w.toInt = (w.toNat : ℤ) := by
  have hc := BitVec.toInt_eq_toNat_cond w
  have hlt := w.isLt
  split_ifs at hc <;> omega

theorem slt_zero_eq {w : BitVec 32} (h : 0 ≤ w.toInt) : IntOp.cmpi .slt w 0#32 = 0#1 := by
  have hn : ¬ w.toInt < (0#32 : BitVec 32).toInt := by
    rw [show (0#32 : BitVec 32).toInt = 0 from by decide]; omega
  simp only [IntOp.cmpi, BitVec.slt, decide_eq_false hn]
  rfl

theorem sge_zero_eq {w : BitVec 32} (h : 0 ≤ w.toInt) : IntOp.cmpi .sge w 0#32 = 1#1 := by
  have hp : (0#32 : BitVec 32).toInt ≤ w.toInt := by
    rw [show (0#32 : BitVec 32).toInt = 0 from by decide]; exact h
  simp only [IntOp.cmpi, BitVec.sle, decide_eq_true hp]
  rfl

theorem sle_last_eq {w : BitVec 32} (h : w.toInt ≤ 9999) : IntOp.cmpi .sle w 9999#32 = 1#1 := by
  have hp : w.toInt ≤ (9999#32 : BitVec 32).toInt := by
    rw [show (9999#32 : BitVec 32).toInt = 9999 from by decide]; exact h
  simp only [IntOp.cmpi, BitVec.sle, decide_eq_true hp]
  rfl

theorem wrapIdx_apply (a2 : Arr Ideal S320000 .i32) (e : Fin 320000) (h0 : 0 ≤ (a2 (ix1 e)).toInt) :
    wrapIdx a2 (ix2 e 0) = a2 (ix1 e) := by
  unfold wrapIdx
  rw [broadcastInDim_apply _ _ _ (ix2 e 0) (ix1 e) (fun a => by match a with | ⟨0, _⟩ => rfl), select_apply]
  have hc : cmpi .slt a2 (broadcastInDim S320000 ![] bcast_S_S320000 (constantI S_ 32 0#32)) (ix1 e) = 0#1 := by
    show IntOp.cmpi .slt (a2 (ix1 e)) 0#32 = 0#1
    exact slt_zero_eq h0
  rw [hc, select_zero]

theorem foldl_andi_one {ι : Type} (l : List ι) (g : ι → BitVec 1) (hg : ∀ n ∈ l, g n = 1#1) :
    l.foldl (fun r n => IntOp.andi r (g n)) 1#1 = 1#1 := by
  induction l with
  | nil => rfl
  | cons a l ih =>
    rw [List.foldl_cons, hg a List.mem_cons_self, show IntOp.andi (1#1 : BitVec 1) 1#1 = 1#1 from by decide]
    exact ih fun n hn => hg n (List.mem_cons_of_mem _ hn)

theorem inRange_apply (a2 : Arr Ideal S320000 .i32)
    (hidx : ∀ e : Fin 320000, 0 ≤ (a2 (ix1 e)).toInt ∧ (a2 (ix1 e)).toInt ≤ 9999) (e : Fin 320000) :
    inRange a2 (ix1 e) = 1#1 := by
  unfold inRange Host.reduce
  refine foldl_andi_one _ _ fun n _ => ?_
  generalize (S320000x1.rowMajor.symm n) = i
  obtain ⟨e', z, rfl⟩ : ∃ (e' : Fin 320000) (z : Fin 1), i = ix2 e' z := ⟨i 0, i 1, eq_ix2 i⟩
  obtain rfl : z = 0 := Subsingleton.elim _ _
  show IntOp.andi (IntOp.cmpi .sge (wrapIdx a2 (ix2 e' 0)) 0#32) (IntOp.cmpi .sle (wrapIdx a2 (ix2 e' 0)) 9999#32) = 1#1
  rw [wrapIdx_apply a2 e' (hidx e').1, sge_zero_eq (hidx e').1, sle_last_eq (hidx e').2]
  decide

theorem gather_row (j : S320000x128.Idx) (idx : Arr Ideal S320000x1 .i32) :
    (gather_S10000x128_S320000x1_S320000x128_1_0_n_n_0_1_1128.operandIdx j idx 0).val = min (idx (ix2 (j 0) 0)).toInt.toNat (10000 - 1) := by
  show gather_S10000x128_S320000x1_S320000x128_1_0_n_n_0_1_1128.start j idx 0 + gather_S10000x128_S320000x1_S320000x128_1_0_n_n_0_1_1128.batchCoord j 0 + gather_S10000x128_S320000x1_S320000x128_1_0_n_n_0_1_1128.offCoord j 0 = _
  rw [gather_S10000x128_S320000x1_S320000x128_1_0_n_n_0_1_1128.batchCoord_eq_zero j 0 (List.not_mem_nil : ¬(0 : Fin 2) ∈ ([] : List (Fin 2))),
    gather_S10000x128_S320000x1_S320000x128_1_0_n_n_0_1_1128.offCoord_eq_zero j 0 (fun h => ((gather_S10000x128_S320000x1_S320000x128_1_0_n_n_0_1_1128.mem_sKept 0).mp h).1 (List.mem_singleton.mpr rfl))]
  simp only [Nat.add_zero]
  unfold GatherDims.start
  rw [dif_pos (show (0 : Fin S10000x128.rank) ∈ gather_S10000x128_S320000x1_S320000x128_1_0_n_n_0_1_1128.startIndexMap from
    (List.mem_singleton.mpr rfl : (0 : Fin 2) ∈ ([0] : List (Fin 2))))]
  have hsi : gather_S10000x128_S320000x1_S320000x128_1_0_n_n_0_1_1128.siIdx j ⟨List.idxOf (0 : Fin S10000x128.rank) gather_S10000x128_S320000x1_S320000x128_1_0_n_n_0_1_1128.startIndexMap,
      List.idxOf_lt_length_iff.2 (List.mem_singleton.mpr rfl)⟩ = ix2 (j 0) 0 :=
    funext fun b => Fin.ext (by match b with | ⟨0, _⟩ => rfl | ⟨1, _⟩ => rfl)
  rw [hsi]
  rfl

theorem gather_col (j : S320000x128.Idx) (idx : Arr Ideal S320000x1 .i32) :
    (gather_S10000x128_S320000x1_S320000x128_1_0_n_n_0_1_1128.operandIdx j idx 1).val = (j 1).val := by
  show gather_S10000x128_S320000x1_S320000x128_1_0_n_n_0_1_1128.start j idx 1 + gather_S10000x128_S320000x1_S320000x128_1_0_n_n_0_1_1128.batchCoord j 1 + gather_S10000x128_S320000x1_S320000x128_1_0_n_n_0_1_1128.offCoord j 1 = _
  rw [gather_S10000x128_S320000x1_S320000x128_1_0_n_n_0_1_1128.batchCoord_eq_zero j 1 (List.not_mem_nil : ¬(1 : Fin 2) ∈ ([] : List (Fin 2))), Nat.add_zero]
  unfold GatherDims.start
  rw [dif_neg (show ¬(1 : Fin S10000x128.rank) ∈ gather_S10000x128_S320000x1_S320000x128_1_0_n_n_0_1_1128.startIndexMap from
    (by decide : ¬(1 : Fin 2) ∈ ([0] : List (Fin 2)))), Nat.zero_add]
  unfold GatherDims.offCoord
  rw [dif_pos ((gather_S10000x128_S320000x1_S320000x128_1_0_n_n_0_1_1128.mem_sKept 1).mpr ⟨(by decide : ¬(1 : Fin 2) ∈ ([0] : List (Fin 2))),
    (List.not_mem_nil : ¬(1 : Fin 2) ∈ ([] : List (Fin 2)))⟩)]
  rfl

theorem rowGather_apply (x : Arr Ideal S10000x128 .f32) (idx : Arr Ideal S320000x1 .i32) (e : Fin 320000) (o : Fin 128)
    (r : Fin 10000) (hr : r.val = min (idx (ix2 e 0)).toInt.toNat (10000 - 1)) :
    Host.gather gather_S10000x128_S320000x1_S320000x128_1_0_n_n_0_1_1128 x idx (ix2 e o) = x (ix2 r o) := by
  unfold Host.gather
  refine congrArg x (funext fun a => Fin.ext ?_)
  match a with
  | ⟨0, _⟩ => exact (gather_row _ _).trans hr.symm
  | ⟨1, _⟩ => exact gather_col _ _

theorem taken_apply (a2 : Arr Ideal S320000 .i32) (f : Arr Ideal S1x10000x128 .f32)
    (hidx : ∀ e : Fin 320000, 0 ≤ (a2 (ix1 e)).toInt ∧ (a2 (ix1 e)).toInt ≤ 9999) (e : Fin 320000) (o : Fin 128) :
    taken a2 f (ix2 e o) = f (ix3 0 ⟨(a2 (ix1 e)).toNat % 10000, Nat.mod_lt _ (by decide)⟩ o) := by
  unfold taken
  have hm : broadcastInDim S320000x128 ![0] bcast_S320000_S320000x128_0 (inRange a2) (ix2 e o) = 1#1 := by
    rw [broadcastInDim_apply _ _ _ (ix2 e o) (ix1 e) (fun a => by match a with | ⟨0, _⟩ => rfl)]
    exact inRange_apply a2 hidx e
  have h1 := toInt_eq_toNat (hidx e).1
  have h2 := (hidx e).2
  rw [select_apply, hm, select_one,
    rowGather_apply _ _ e o ⟨(a2 (ix1 e)).toNat % 10000, Nat.mod_lt _ (by decide)⟩ (by
      rw [wrapIdx_apply a2 e (hidx e).1]
      show (a2 (ix1 e)).toNat % 10000 = min (a2 (ix1 e)).toInt.toNat (10000 - 1)
      omega)]
  refine shapeCast_apply f shapeCasts_S1x10000x128_S10000x128 _ _ ?_
  rw [Shape.rowMajor_val_three, Shape.rowMajor_val_two]
  show (0 * 10000 + (a2 (ix1 e)).toNat % 10000) * 128 + o.val = ((a2 (ix1 e)).toNat % 10000) * 128 + o.val
  omega

theorem nbrSum_apply (a2 : Arr Ideal S320000 .i32) (a3 a4 : Arr Ideal S1x320000x1 .f32) (f : Arr Ideal S1x10000x128 .f32)
    (n : Fin 10000) (o : Fin 128) :
    nbrSum a2 a3 a4 f (ix3 0 n o)
      = ∑ k : Fin 32, (a3 (ix3 0 (Cert.Spec.edge n k) 0) * a4 (ix3 0 (Cert.Spec.edge n k) 0))
          * taken a2 f (ix2 (Cert.Spec.edge n k) o) := by
  unfold nbrSum
  rw [hostReduceAdd_apply, Ideal.hostReduceAdd_single reducesTo_S1x10000x32x128_S1x10000x128_d2 (by decide), constant_apply,
    Ideal.ofBits_zero_f32, zero_add]
  refine Finset.sum_congr rfl fun k _ => ?_
  have e : Shape.Reduces.lift (by decide : S1x10000x32x128.Reduces [2] S1x10000x128) (ix3 0 n o) k = ix4 0 n k o :=
    funext fun a => Fin.ext (by match a with | ⟨0, _⟩ => rfl | ⟨1, _⟩ => rfl | ⟨2, _⟩ => rfl | ⟨3, _⟩ => rfl)
  refine (congrArg (mulf _ _) e).trans ?_
  refine congrArg₂ (· * ·) ?_ ?_
  · refine (broadcastInDim_apply _ _ _ (ix4 0 n k o) (ix4 0 n k 0) (fun a => by
      match a with | ⟨0, _⟩ => rfl | ⟨1, _⟩ => rfl | ⟨2, _⟩ => rfl | ⟨3, _⟩ => rfl)).trans ?_
    refine shapeCast_apply (mulf (F := Ideal) (φ := .f32) a3 a4) shapeCasts_S1x320000x1_S1x10000x32x1 (ix4 0 n k 0) (ix3 0 (Cert.Spec.edge n k) 0) ?_
    rw [Shape.rowMajor_val_three, Shape.rowMajor_val_four]
    show (0 * 320000 + (32 * n.val + k.val)) * 1 + 0 = (((0 * 10000 + n.val) * 32 + k.val) * 1 + 0)
    omega
  · refine shapeCast_apply (taken a2 f) shapeCasts_S320000x128_S1x10000x32x128 (ix4 0 n k o) (ix2 (Cert.Spec.edge n k) o) ?_
    rw [Shape.rowMajor_val_two, Shape.rowMajor_val_four]
    show (32 * n.val + k.val) * 128 + o.val = (((0 * 10000 + n.val) * 32 + k.val) * 128 + o.val)
    omega

theorem out_apply (a0 : Arr Ideal S1x10000x128 .f32) (a1 : Arr Ideal S1x1x128 .f32) (a2 : Arr Ideal S320000 .i32)
    (a3 a4 : Arr Ideal S1x320000x1 .f32) (a5 : Arr Ideal S256x128 .f32) (a6 a7 : Arr Ideal S256 .f32)
    (a8 : Arr Ideal S128x128 .f32) (a9 : Arr Ideal S128 .f32)
    (hidx : ∀ e : Fin 320000, 0 ≤ (a2 (ix1 e)).toInt ∧ (a2 (ix1 e)).toInt ≤ 9999) (n : Fin 10000) (o : Fin 128) :
    out a0 a1 a2 a3 a4 a5 a6 a7 a8 a9 (ix3 0 n o) = Cert.Spec.outR (specOf a0 a1 a2 a3 a4 a5 a6 a7 a8 a9) n o := by
  unfold out
  rw [maximumf_apply, addf_apply, broadcastInDim_scalar_apply, constant_apply, Ideal.ofBits_zero_f32, nbrSum_apply,
    film_eq a0 a1 a2 a3 a4 a5 a6 a7 a8 a9]
  unfold Cert.Spec.outR Cert.Spec.agg
  refine congrArg (fun s => max (Cert.Spec.filmR (specOf a0 a1 a2 a3 a4 a5 a6 a7 a8 a9) n o + s) 0)
    (Finset.sum_congr rfl fun k _ => ?_)
  rw [taken_apply a2 _ hidx, film_eq a0 a1 a2 a3 a4 a5 a6 a7 a8 a9]
  rfl

def idxArr (m : (ℓ : Loc nD τ sig) → Buf (Elt Ideal) ℓ) (c : Dev nD) : Arr Ideal S320000 .i32 :=
  m ((c.tc : Thread nD τ).loc main_arg2)

def specIn (m : (ℓ : Loc nD τ sig) → Buf (Elt Ideal) ℓ) (c : Dev nD) : Cert.Spec.In :=
  specOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

theorem refVal_apply (m : (ℓ : Loc nD τ sig) → Buf (Elt Ideal) ℓ) (c : Dev nD)
    (hidx : ∀ e : Fin 320000, 0 ≤ (idxArr m c (ix1 e)).toInt ∧ (idxArr m c (ix1 e)).toInt ≤ 9999)
    (n : Fin 10000) (o : Fin 128) :
    refVal m c (ix3 0 n o) = Cert.Spec.outR (specIn m c) n o :=
  out_apply _ _ _ _ _ _ _ _ _ _ hidx n o

end Cert.ReferenceIdeal.RefRead

end
-- ==== Proof.Bridge.lean ====
import proofs.«204698_g79517024518204_fold_wed_m_581_46_alg».proof.Proof.Spec
import Idealize.ShloMosaic.PureOps.Ideal
import Mathlib.Data.EReal.Inv
import Mathlib.Analysis.Real.Sqrt
import Mathlib.Algebra.Order.BigOperators.Group.Finset

namespace Cert.Spec

open Idealize.ShloMosaic

@[reducible] def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

theorem isReal_sum {ι : Type*} [Fintype ι] {f : ι → EReal} (h : ∀ i, IsReal (f i)) : IsReal (∑ i, f i) := by
  choose g hg using h
  exact ⟨∑ i, g i, by rw [coe_sum]; exact Finset.sum_congr rfl fun i _ => hg i⟩

theorem c128_eq : c128 = ((128 : ℝ) : EReal) := by
  simp [c128, Ideal.ofBits, Ideal.ieee, -EReal.coe_mul]; norm_num

theorem eps_pos : ∃ e : ℝ, 0 < e ∧ eps = (e : EReal) := by
  have h : eps = (((10995116 : ℝ) * (2 : ℝ) ^ (-40 : ℤ) : ℝ) : EReal) := by
    simp [eps, Ideal.ofBits, Ideal.ieee, -EReal.coe_mul] <;> norm_num
  exact ⟨_, by positivity, h⟩

theorem IsReal.div128 {x : EReal} (hx : IsReal x) : IsReal (Ideal.div x c128) := by
  rw [c128_eq, Ideal.div_coe (by norm_num)]; exact hx.mul ⟨_, rfl⟩

theorem div_sqrt_eq_mul_rsqrt (x : EReal) {t : ℝ} (ht : 0 < t) :
    Ideal.div x (Ideal.sqrt (t : EReal)) = x * Ideal.rsqrt (t : EReal) := by
  have hs : Real.sqrt t ≠ 0 := (Real.sqrt_pos.2 ht).ne'
  rw [Ideal.sqrt_coe, Ideal.rsqrt_coe, if_neg (not_lt.2 ht.le), if_neg (not_lt.2 ht.le), if_neg ht.ne',
    Ideal.div_coe hs, one_div]

variable (I : In)

theorem ssq_pos (hR : I.Real) (hv : I.RowsNonzero) (r : Fin 256) : ∃ s : ℝ, 0 < s ∧ ssq I r = (s : EReal) := by
  choose f hf using hR.v r
  obtain ⟨k0, hk0⟩ := hv r
  refine ⟨∑ k, f k * f k, ?_, ?_⟩
  · have h0 : f k0 ≠ 0 := fun h0 => hk0 (by rw [hf, h0, EReal.coe_zero])
    exact Finset.sum_pos' (fun k _ => mul_self_nonneg (f k)) ⟨k0, Finset.mem_univ k0, mul_self_pos.2 h0⟩
  · rw [coe_sum]
    exact Finset.sum_congr rfl fun k _ => by rw [hf, EReal.coe_mul]

theorem isReal_h (hR : I.Real) (n : Fin 10000) (o : Fin 128) : IsReal (h I n o) :=
  (isReal_sum fun k => IsReal.mul (hR.x n k) (hR.W o k)).add (hR.bf o)

theorem isReal_mu (hR : I.Real) (n : Fin 10000) : IsReal (mu I n) :=
  (isReal_sum fun o => isReal_h I hR n o).div128

theorem var_add_eps_pos (hR : I.Real) (n : Fin 10000) : ∃ t : ℝ, 0 < t ∧ var I n + eps = (t : EReal) := by
  choose d hd using fun o => (isReal_h I hR n o).sub (isReal_mu I hR n)
  obtain ⟨e, he, hee⟩ := eps_pos
  have hs : (∑ o : Fin 128, (h I n o - mu I n) * (h I n o - mu I n)) = ((∑ o, d o * d o : ℝ) : EReal) := by
    rw [coe_sum]
    exact Finset.sum_congr rfl fun o _ => by rw [hd o, EReal.coe_mul]
  have h0 : 0 ≤ ∑ o, d o * d o := Finset.sum_nonneg fun o _ => mul_self_nonneg (d o)
  refine ⟨(∑ o, d o * d o) * (1 / 128) + e, by positivity, ?_⟩
  rw [var, hs, c128_eq, Ideal.div_coe (by norm_num), hee, ← EReal.coe_mul, ← EReal.coe_add]

theorem wcK_eq_wcR (hR : I.Real) (hv : I.RowsNonzero) (r : Fin 256) (k : Fin 128) : wcK I r k = wcR I r k := by
  obtain ⟨s, hs, e⟩ := ssq_pos I hR hv r
  rw [wcK, wcR, e, div_sqrt_eq_mul_rsqrt _ hs, mul_comm (I.g r) (I.v r k), mul_assoc]

theorem gbK_eq_gbR (hR : I.Real) (hv : I.RowsNonzero) (r : Fin 256) : gbK I r = gbR I r := by
  rw [gbK, gbR]
  exact congrArg (· + I.b r) (Finset.sum_congr rfl fun k _ => by rw [wcK_eq_wcR I hR hv])

theorem hnK_eq_hnR (hR : I.Real) (n : Fin 10000) (o : Fin 128) : hnK I n o = hnR I n o := by
  obtain ⟨t, ht, e⟩ := var_add_eps_pos I hR n
  rw [hnK, hnR, e, div_sqrt_eq_mul_rsqrt _ ht]

theorem filmK_eq_filmR (hR : I.Real) (hv : I.RowsNonzero) : filmK I = filmR I := by
  funext n o
  rw [filmK, filmR, hnK_eq_hnR I hR, gbK_eq_gbR I hR hv, gbK_eq_gbR I hR hv]

theorem outK_eq_outR (I : In) (hR : I.Real) (hv : I.RowsNonzero) (n : Fin 10000) (o : Fin 128) :
    outK I n o = outR I n o := by
  rw [outK, outR, filmK_eq_filmR I hR hv]

end Cert.Spec
-- ==== Proof.PreFacts.lean ====
import proofs.«204698_g79517024518204_fold_wed_m_581_46_alg».proof.Pre_input_domain
import proofs.«204698_g79517024518204_fold_wed_m_581_46_alg».proof.Proof.Spec
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.ValueIdx Cert.Pre_input_domain

variable [Cert.Pre_input_domain.Facts]

instance : Subsingleton S_.Idx := ⟨fun a b => funext fun d => d.elim0⟩

theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons_self, ha⟩
    · exact Or.inr ⟨n, List.mem_cons_of_mem _ hn, hf⟩

theorem reduce_ori_exists {s t u : Shape} {axes : List (Fin s.rank)} (x : s.Idx → BitVec 1) (init : u.Idx → BitVec 1)
    (h : s.ReducesTo axes t) (hu : 0 < u.numel) (j : t.Idx) (hinit : init (Shape.Idx.first hu) = 0#1)
    (e : Host.reduce IntOp.ori x init h hu j = 1#1) : ∃ i : s.Idx, h.drop i = j ∧ x i = 1#1 := by
  rw [Host.reduce_eq_foldl] at e
  rcases foldl_ori_eq_one x _ _ e with h0 | ⟨i, hi, hx⟩
  · rw [hinit] at h0; exact absurd h0 (by decide)
  · rw [List.mem_filter] at hi
    exact ⟨i, by simpa using hi.2, hx⟩

def AbsLtInf {F : FTy → Type} [FloatOps F] {s : Shape} (a : FVec F s .f32) : Prop :=
  ∀ i, FloatOps.cmpf .olt (FloatOps.hostAbsf (a i)) (FloatOps.ofBits (F := F) .f32 0x7F800000#32) = 1#1

section Split
variable {F : FTy → Type} [FloatOps F]
variable (a0 : FVec F S1x10000x128 .f32) (a1 : FVec F S1x1x128 .f32) (a2 : IVec S320000 32) (a3 : FVec F S1x320000x1 .f32)
  (a4 : FVec F S1x320000x1 .f32) (a5 : FVec F S256x128 .f32) (a6 : FVec F S256 .f32) (a7 : FVec F S256 .f32)
  (a8 : FVec F S128x128 .f32) (a9 : FVec F S128 .f32)

theorem split (h : Cert.Pre_input_domain.fn (F := F) a0 a1 a2 a3 a4 a5 a6 a7 a8 a9 = (fun _ => 1#1)) :
    AbsLtInf a0 ∧ AbsLtInf a1 ∧ AbsLtInf a3 ∧ AbsLtInf a4 ∧ AbsLtInf a5 ∧ AbsLtInf a6 ∧ AbsLtInf a7 ∧ AbsLtInf a8 ∧ AbsLtInf a9
    ∧ (∀ e : S320000.Idx, IntOp.cmpi .sge (a2 e) 0#32 = 1#1 ∧ IntOp.cmpi .sle (a2 e) 9999#32 = 1#1)
    ∧ (∀ r : S256.Idx, ∃ i : S256x128.Idx, Facts.reducesTo_S256x128_S256_d1.drop i = r
        ∧ FloatOps.cmpf .une (a5 i) (FloatOps.ofBits (F := F) .f32 0x00000000#32) = 1#1) := by
  have e := congrFun h ix0
  dsimp only [Cert.Pre_input_domain.fn, fn_part1, fn_part2, fn_part3] at e
  simp only [andi, IntOp.andi_eq_one] at e
  obtain ⟨⟨⟨⟨⟨⟨⟨⟨⟨⟨e0, e1⟩, e3⟩, e4⟩, e5⟩, e6⟩, e7⟩, e8⟩, e9⟩, ei⟩, ea⟩ := e
  refine ⟨fun i => Host.reduce_andi_all _ _ _ _ _ e0 i, fun i => Host.reduce_andi_all _ _ _ _ _ e1 i,
    fun i => Host.reduce_andi_all _ _ _ _ _ e3 i, fun i => Host.reduce_andi_all _ _ _ _ _ e4 i,
    fun i => Host.reduce_andi_all _ _ _ _ _ e5 i, fun i => Host.reduce_andi_all _ _ _ _ _ e6 i,
    fun i => Host.reduce_andi_all _ _ _ _ _ e7 i, fun i => Host.reduce_andi_all _ _ _ _ _ e8 i,
    fun i => Host.reduce_andi_all _ _ _ _ _ e9 i, fun i => ?_, fun r => ?_⟩
  · exact IntOp.andi_eq_one.1 (Host.reduce_andi_all _ _ _ _ _ ei i)
  · exact reduce_ori_exists _ _ _ _ r rfl (Host.reduce_andi_all _ _ _ _ _ ea r)

end Split

section Index
variable {F : FTy → Type} [FloatOps F]
variable (a0 : FVec F S1x10000x128 .f32) (a1 : FVec F S1x1x128 .f32) (a2 : IVec S320000 32) (a3 : FVec F S1x320000x1 .f32)
  (a4 : FVec F S1x320000x1 .f32) (a5 : FVec F S256x128 .f32) (a6 : FVec F S256 .f32) (a7 : FVec F S256 .f32)
  (a8 : FVec F S128x128 .f32) (a9 : FVec F S128 .f32)

theorem idx_range (h : Cert.Pre_input_domain.fn (F := F) a0 a1 a2 a3 a4 a5 a6 a7 a8 a9 = (fun _ => 1#1)) :
    ∀ e : S320000.Idx, 0 ≤ (a2 e).toInt ∧ (a2 e).toInt ≤ 9999 := by
  intro e
  obtain ⟨hge, hle⟩ := (split a0 a1 a2 a3 a4 a5 a6 a7 a8 a9 h).2.2.2.2.2.2.2.2.2.1 e
  have h0 := IntOp.cmpi_sge.1 hge
  have h1 := IntOp.cmpi_sle.1 hle
  rw [show (0#32 : BitVec 32).toInt = 0 from by decide] at h0
  rw [show (9999#32 : BitVec 32).toInt = 9999 from by decide] at h1
  exact ⟨h0, h1⟩

theorem idx_toNat (h : Cert.Pre_input_domain.fn (F := F) a0 a1 a2 a3 a4 a5 a6 a7 a8 a9 = (fun _ => 1#1)) :
    ∀ e : S320000.Idx, (a2 e).toNat ≤ 9999 := by
  intro e
  obtain ⟨h0, h1⟩ := idx_range a0 a1 a2 a3 a4 a5 a6 a7 a8 a9 h e
  have hlt : 2 * (a2 e).toNat < 2 ^ 32 := BitVec.toInt_pos_iff.1 h0
  rw [BitVec.toInt_eq_toNat_of_lt hlt] at h1
  omega

end Index

theorem inf_word : Ideal.ofBits .f32 0x7F800000#32 = (⊤ : EReal) := by simp [Ideal.ofBits, Ideal.ieee]

theorem zero_word : Ideal.ofBits .f32 0x00000000#32 = (0 : EReal) := by simp [Ideal.ofBits, Ideal.ieee]

theorem real_of_abs_lt (x : EReal) (h : Ideal.cmp .olt (max x (-x)) (Ideal.ofBits .f32 0x7F800000#32) = 1#1) :
    ∃ r : ℝ, x = (r : EReal) := by
  rw [inf_word] at h
  simp only [Ideal.cmp, StableHlo.Predicate.ofBool_eq_one_iff, decide_eq_true_eq] at h
  induction x using EReal.rec with
  | bot => simp at h
  | coe r => exact ⟨r, rfl⟩
  | top => simp at h

theorem real_of_absLtInf {s : Shape} (a : FVec Ideal s .f32) (h : AbsLtInf a) : ∀ i, ∃ r : ℝ, a i = (r : EReal) :=
  fun i => real_of_abs_lt (a i) (h i)

section AtIdeal
variable (a0 : FVec Ideal S1x10000x128 .f32) (a1 : FVec Ideal S1x1x128 .f32) (a2 : IVec S320000 32) (a3 : FVec Ideal S1x320000x1 .f32)
  (a4 : FVec Ideal S1x320000x1 .f32) (a5 : FVec Ideal S256x128 .f32) (a6 : FVec Ideal S256 .f32) (a7 : FVec Ideal S256 .f32)
  (a8 : FVec Ideal S128x128 .f32) (a9 : FVec Ideal S128 .f32)

theorem reals (h : Cert.Pre_input_domain.fn (F := Ideal) a0 a1 a2 a3 a4 a5 a6 a7 a8 a9 = (fun _ => 1#1)) :
    (∀ i, ∃ r : ℝ, a0 i = (r : EReal)) ∧ (∀ i, ∃ r : ℝ, a1 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal)) ∧ (∀ i, ∃ r : ℝ, a8 i = (r : EReal)) ∧ (∀ i, ∃ r : ℝ, a9 i = (r : EReal)) := by
  obtain ⟨h0, h1, h3, h4, h5, h6, h7, h8, h9, -, -⟩ := split a0 a1 a2 a3 a4 a5 a6 a7 a8 a9 h
  exact ⟨real_of_absLtInf a0 h0, real_of_absLtInf a1 h1, real_of_absLtInf a3 h3, real_of_absLtInf a4 h4,
    real_of_absLtInf a5 h5, real_of_absLtInf a6 h6, real_of_absLtInf a7 h7, real_of_absLtInf a8 h8, real_of_absLtInf a9 h9⟩

theorem rows_nonzero (h : Cert.Pre_input_domain.fn (F := Ideal) a0 a1 a2 a3 a4 a5 a6 a7 a8 a9 = (fun _ => 1#1)) :
    ∀ r : Fin 256, ∃ k : Fin 128, a5 (ix2 r k) ≠ 0 := by
  intro r
  obtain ⟨i, hd, hne⟩ := (split a0 a1 a2 a3 a4 a5 a6 a7 a8 a9 h).2.2.2.2.2.2.2.2.2.2 (ix1 r)
  have hv : ((Facts.reducesTo_S256x128_S256_d1.drop i) 0 : Nat) = i 0 :=
    Shape.ReducesTo.drop_apply_val_of_eq Facts.reducesTo_S256x128_S256_d1 i 0 0
  rw [hd] at hv
  have hi : i = ix2 r (i 1) := by
    funext d
    match d with
    | ⟨0, _⟩ => exact Fin.ext hv.symm
    | ⟨1, _⟩ => rfl
  have hne' : Ideal.cmp .une (a5 i) (Ideal.ofBits .f32 0x00000000#32) = 1#1 := hne
  rw [zero_word] at hne'
  have hne0 : a5 i ≠ 0 := by
    simpa only [Ideal.cmp, StableHlo.Predicate.ofBool_eq_one_iff, decide_eq_true_eq] using hne'
  exact ⟨i 1, fun h0 => hne0 ((congrArg a5 hi).trans h0)⟩

end AtIdeal

end Cert.PreFacts

end
-- ==== Proof.RefSide.lean ====
import proofs.«204698_g79517024518204_fold_wed_m_581_46_alg».proof.Defs
import proofs.«204698_g79517024518204_fold_wed_m_581_46_alg».proof.Proof.RefRead
import proofs.«204698_g79517024518204_fold_wed_m_581_46_alg».proof.Proof.Bridge
import proofs.«204698_g79517024518204_fold_wed_m_581_46_alg».proof.Proof.PreFacts

noncomputable section

namespace Cert.Proof

open Idealize.ShloMosaic Idealize.SL.Sem Idealize.ShloMosaic.ValueIdx

variable [Cert.KernelIdeal.Facts] [Cert.ReferenceIdeal.Facts] [Cert.Pre_input_domain.Facts]

abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

abbrev ka (m : KMem) (c : Dev Cert.KernelIdeal.nD) (b : Ref Cert.KernelIdeal.sig .tc) :=
  m ((c.tc : Thread Cert.KernelIdeal.nD Cert.KernelIdeal.τ).loc b)

def specK (m : KMem) (c : Dev Cert.KernelIdeal.nD) : Cert.Spec.In :=
  Cert.ReferenceIdeal.RefRead.specOf (ka m c Cert.KernelIdeal.main_arg0) (ka m c Cert.KernelIdeal.main_arg1) (ka m c Cert.KernelIdeal.main_arg2)
    (ka m c Cert.KernelIdeal.main_arg3) (ka m c Cert.KernelIdeal.main_arg4) (ka m c Cert.KernelIdeal.main_arg5) (ka m c Cert.KernelIdeal.main_arg6)
    (ka m c Cert.KernelIdeal.main_arg7) (ka m c Cert.KernelIdeal.main_arg8) (ka m c Cert.KernelIdeal.main_arg9)

theorem specK_real (m : KMem) (hpre : Cert.Pre_KernelIdeal m) (c : Dev Cert.KernelIdeal.nD) : (specK m c).Real := by
  obtain ⟨h0, h1, h3, h4, h5, h6, h7, h8, h9⟩ := Cert.PreFacts.reals _ _ _ _ _ _ _ _ _ _ (hpre c)
  exact ⟨fun n k => h0 _, fun k => h1 _, fun e => h3 _, fun e => h4 _, fun r k => h5 _, fun r => h6 _, fun r => h7 _, fun o k => h8 _, fun o => h9 _⟩

theorem specK_rows (m : KMem) (hpre : Cert.Pre_KernelIdeal m) (c : Dev Cert.KernelIdeal.nD) : (specK m c).RowsNonzero :=
  Cert.PreFacts.rows_nonzero _ _ _ _ _ _ _ _ _ _ (hpre c)

theorem idx_range_K (m : KMem) (hpre : Cert.Pre_KernelIdeal m) (c : Dev Cert.KernelIdeal.nD) (e : Fin 320000) :
    0 ≤ (ka m c Cert.KernelIdeal.main_arg2 (ix1 e)).toInt ∧ (ka m c Cert.KernelIdeal.main_arg2 (ix1 e)).toInt ≤ 9999 :=
  Cert.PreFacts.idx_range (F := Ideal) _ _ _ _ _ _ _ _ _ _ (hpre c) (ix1 e)

theorem ref_value (m : KMem) (m' : RMem) (hpre : Cert.Pre_KernelIdeal m)
    (hag : ∀ c : Dev Cert.KernelIdeal.nD,
      m' ((c.tc : Thread Cert.ReferenceIdeal.nD Cert.ReferenceIdeal.τ).loc Cert.ReferenceIdeal.main_arg0) = ka m c Cert.KernelIdeal.main_arg0
      ∧ m' ((c.tc : Thread Cert.ReferenceIdeal.nD Cert.ReferenceIdeal.τ).loc Cert.ReferenceIdeal.main_arg1) = ka m c Cert.KernelIdeal.main_arg1
      ∧ m' ((c.tc : Thread Cert.ReferenceIdeal.nD Cert.ReferenceIdeal.τ).loc Cert.ReferenceIdeal.main_arg2) = ka m c Cert.KernelIdeal.main_arg2
      ∧ m' ((c.tc : Thread Cert.ReferenceIdeal.nD Cert.ReferenceIdeal.τ).loc Cert.ReferenceIdeal.main_arg3) = ka m c Cert.KernelIdeal.main_arg3
      ∧ m' ((c.tc : Thread Cert.ReferenceIdeal.nD Cert.ReferenceIdeal.τ).loc Cert.ReferenceIdeal.main_arg4) = ka m c Cert.KernelIdeal.main_arg4
      ∧ m' ((c.tc : Thread Cert.ReferenceIdeal.nD Cert.ReferenceIdeal.τ).loc Cert.ReferenceIdeal.main_arg5) = ka m c Cert.KernelIdeal.main_arg5
      ∧ m' ((c.tc : Thread Cert.ReferenceIdeal.nD Cert.ReferenceIdeal.τ).loc Cert.ReferenceIdeal.main_arg6) = ka m c Cert.KernelIdeal.main_arg6
      ∧ m' ((c.tc : Thread Cert.ReferenceIdeal.nD Cert.ReferenceIdeal.τ).loc Cert.ReferenceIdeal.main_arg7) = ka m c Cert.KernelIdeal.main_arg7
      ∧ m' ((c.tc : Thread Cert.ReferenceIdeal.nD Cert.ReferenceIdeal.τ).loc Cert.ReferenceIdeal.main_arg8) = ka m c Cert.KernelIdeal.main_arg8
      ∧ m' ((c.tc : Thread Cert.ReferenceIdeal.nD Cert.ReferenceIdeal.τ).loc Cert.ReferenceIdeal.main_arg9) = ka m c Cert.KernelIdeal.main_arg9)
    (c : Dev Cert.KernelIdeal.nD) (n : Fin 10000) (o : Fin 128) :
    Cert.ReferenceIdeal.RefRun.refVal m' c (ix3 0 n o) = Cert.Spec.outK (specK m c) n o := by
  obtain ⟨h0, h1, h2, h3, h4, h5, h6, h7, h8, h9⟩ := hag c
  have e : Cert.ReferenceIdeal.RefRead.specIn m' c = specK m c := by
    unfold Cert.ReferenceIdeal.RefRead.specIn specK
    rw [h0, h1, h2, h3, h4, h5, h6, h7, h8, h9]
  have hidx : ∀ e : Fin 320000, 0 ≤ (Cert.ReferenceIdeal.RefRead.idxArr m' c (ix1 e)).toInt ∧ (Cert.ReferenceIdeal.RefRead.idxArr m' c (ix1 e)).toInt ≤ 9999 := by
    intro e
    unfold Cert.ReferenceIdeal.RefRead.idxArr
    rw [h2]
    exact idx_range_K m hpre c e
  rw [Cert.ReferenceIdeal.RefRead.refVal_apply m' c hidx n o, e]
  exact (Cert.Spec.outK_eq_outR _ (specK_real m hpre c) (specK_rows m hpre c) n o).symm

end Cert.Proof

end
-- ==== Proof.KI.Common.lean ====
import proofs.«204698_g79517024518204_fold_wed_m_581_46_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«204698_g79517024518204_fold_wed_m_581_46_alg».proof.Proof.Gen.KernelIdeal
import proofs.«204698_g79517024518204_fold_wed_m_581_46_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

variable [FloatOps F]

theorem nCore_zero : (K (F := F)).nCore 0 = 2 := rfl
theorem nSub_zero : (K (F := F)).nSub 0 = 16 := rfl
theorem nSC_eq : τ.nSC = 2 := rfl
theorem nSub_eq : τ.nSub = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UB : Type := URounds (GSem nD τ sig) ℕ

abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
def EP : Emb UP (MT nD τ sig (HIx 1) (Elt F) ℕ UU ℕ) :=
  (((Emb.inl : Emb UP (UP × Counters)).trans (Emb.inr : Emb (UP × Counters) (UB × (UP × Counters)))).trans
      (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

abbrev featsLoc (d : Dev nD) : Loc nD τ sig := (SparseCore.T d).loc main_v7_0
abbrev idxLoc (d : Dev nD) : Loc nD τ sig := (SparseCore.T d).loc main_v9
abbrev ewLoc (d : Dev nD) : Loc nD τ sig := (SparseCore.T d).loc main_v7_1
abbrev outLoc (d : Dev nD) : Loc nD τ sig := (SparseCore.T d).loc main_v10

abbrev shRef (c : Fin τ.nSC) : DevRef τ sig := ⟨.shared, ⟨0, by decide⟩, c⟩
abbrev shLoc (d : Dev nD) (c : Fin τ.nSC) : Loc nD τ sig := (d, shRef c)

local notation "featsV" => (Memref.whole Cert.KernelIdeal.main_v7_0_scv : Memref Cert.KernelIdeal.sig Kind.scVector Space.hbm Cert.KernelIdeal.S10240x128 EltTy.f32)
local notation "idxV" => (Memref.whole Cert.KernelIdeal.main_v9_scv : Memref Cert.KernelIdeal.sig Kind.scVector Space.hbm Cert.KernelIdeal.S2560x128 EltTy.i32)
local notation "ewV" => (Memref.whole Cert.KernelIdeal.main_v7_1_scv : Memref Cert.KernelIdeal.sig Kind.scVector Space.hbm Cert.KernelIdeal.S2560x128 EltTy.f32)
local notation "outV" => (Memref.whole Cert.KernelIdeal.main_v10_scv : Memref Cert.KernelIdeal.sig Kind.scVector Space.hbm Cert.KernelIdeal.S10240x128 EltTy.f32)
local notation "shV" => (Memref.whole Cert.KernelIdeal.cc1_scratch8 : Memref Cert.KernelIdeal.sig Kind.scVector Space.shared Cert.KernelIdeal.S10240x128 EltTy.f32)

def wid (c : Fin 2) (i : Fin 16) : Fin 32 := ⟨2 * i.val + c.val, by omega⟩

theorem hdiv16 : 16 ∣ S10240x128.size 0 := ⟨640, rfl⟩
theorem hdiv32 : 32 ∣ S10240x128.size 0 := ⟨320, rfl⟩
theorem hdiv32' : 32 ∣ S2560x128.size 0 := ⟨80, rfl⟩

abbrev seg (i : Fin 16) : Rect S10240x128 := Rect.part (s := S10240x128) (a₀ := 0) hdiv16 i

abbrev orows (w : Fin 32) : Rect S10240x128 := Rect.part (s := S10240x128) (a₀ := 0) hdiv32 w

abbrev erows (w : Fin 32) : Rect S2560x128 := Rect.part (s := S2560x128) (a₀ := 0) hdiv32' w
abbrev segSet (i : Fin 16) : Finset S10240x128.Idx := ((featsV).view.slice (seg i)).set
abbrev orowSet (w : Fin 32) : Finset S10240x128.Idx := ((outV).view.slice (orows w)).set
abbrev erowSet (w : Fin 32) : Finset S2560x128.Idx := ((idxV).view.slice (erows w)).set

structure Ops (F : FTy → Type) where
  ff : (d : Dev nD) → Buf (Elt F) (featsLoc d)
  fi : (d : Dev nD) → Buf (Elt F) (idxLoc d)
  fe : (d : Dev nD) → Buf (Elt F) (ewLoc d)
  fo : (d : Dev nD) → Buf (Elt F) (outLoc d)

variable (A : Ops F)

def ffsh (d : Dev nD) (c : Fin τ.nSC) : Buf (Elt F) (shLoc d c) := fun j => A.ff d j

def wAt (d : Dev nD) (r : Fin 10240) (k : Fin 32) : F .f32 :=
  A.fe d (ValueIdx.ix2 (⟨(32 * r.val + k.val) / 128, by omega⟩ : Fin 2560) (⟨(32 * r.val + k.val) % 128, Nat.mod_lt _ (by decide)⟩ : Fin 128))

def nbAt (d : Dev nD) (r : Fin 10240) (k : Fin 32) : Fin 10240 :=
  ⟨(A.fi d (ValueIdx.ix2 (⟨(32 * r.val + k.val) / 128, by omega⟩ : Fin 2560) (⟨(32 * r.val + k.val) % 128, Nat.mod_lt _ (by decide)⟩ : Fin 128))).toNat % 10240,
    Nat.mod_lt _ (by decide)⟩

def accAt (d : Dev nD) (r : Fin 10240) (o : Fin 128) : (k : ℕ) → k ≤ 32 → F .f32
  | 0, _ => A.ff d (ValueIdx.ix2 r o)
  | k + 1, h => FloatOps.addf (accAt d r o k (by omega)) (FloatOps.mulf (wAt A d r ⟨k, by omega⟩) (A.ff d (ValueIdx.ix2 (nbAt A d r ⟨k, by omega⟩) o)))

def outVal (d : Dev nD) : Buf (Elt F) (outLoc d) := fun j =>
  FloatOps.maximumf (accAt A d (j 0) (j 1) 32 le_rfl) (FloatOps.ofBits .f32 0x00000000#32)

end Cert.Proof.KI

end
-- ==== Proof.KI.Pay.lean ====
import proofs.«204698_g79517024518204_fold_wed_m_581_46_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (A : Ops F)

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

abbrev tok (j : Fin 16) : PosShare TreeShare := Transfers.shareTok fullShare 16 j
abbrev rest16 : PosShare TreeShare := Transfers.shareDrop fullShare 16

abbrev shSegPts (d : Dev nD) (c : Fin τ.nSC) (n : Fin 16) (q : PosShare TreeShare) : sProp 𝕄 :=
  shLoc d c ↦[segSet n]{q} ffsh A d c

def bPay (g : GSem nD τ sig) (n : ℕ) : sProp 𝕄 :=
  match g with
  | ((d, .scVector c j), _) => if h : n < 16 then shSegPts A d c ⟨n, h⟩ (tok (Fin.cast nSub_eq j)) else iprop(emp)
  | _ => iprop(emp)

def bRd : Rounds.Schedule (GSem nD τ sig) ℕ 𝕄 where
  duties g r := if isBar g ∧ r = 0 then (Finset.univ : Finset (Fin τ.nSub)).image Fin.val else ∅
  amount _ _ _ := 1
  payload g _ n := bPay A g n
  amount_pos _ _ _ _ := Nat.one_pos

instance bRd_payload_storable (g : GSem nD τ sig) (r n : ℕ) : BI.Storable (upEmb : UEmb _ 𝕄) ((bRd (F := F) A).payload g r n) := by
  show BI.Storable upEmb (bPay A g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd (F := F) A).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) A).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) A).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

def bkit (d : Dev nD) (c : Fin τ.nSC) (i : Fin τ.nSub) : sProp 𝕄 :=
  iprop((∃ κ : GSem nD τ sig → ℕ, bigSep Finset.univ fun j : Fin (grid1.bound 1) =>
      cellInv EB (bRd (F := F) A) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

def hshare (c : Fin 2) : PosShare TreeShare := if c.val = 0 then (fullShare : PosShare TreeShare).left else (fullShare : PosShare TreeShare).right

def orowSetC (c : Fin 2) : Finset S10240x128.Idx := (Finset.univ : Finset (Fin 16)).biUnion fun i => orowSet (wid c i)

abbrev featsPts (d : Dev nD) (q : PosShare TreeShare) : sProp 𝕄 := featsLoc d ↦{q} A.ff d
abbrev idxPts (d : Dev nD) (q : PosShare TreeShare) : sProp 𝕄 := idxLoc d ↦{q} A.fi d

abbrev ewPts (d : Dev nD) (q : PosShare TreeShare) : sProp 𝕄 :=
  iprop(∃ fe : Buf (Elt F) (ewLoc d), ⌜∀ j : S2560x128.Idx, (j 0).val < 2500 → fe j = A.fe d j⌝ ∗ ewLoc d ↦{q} fe)
abbrev featsSegPts (d : Dev nD) (i : Fin 16) (q : PosShare TreeShare) : sProp 𝕄 := featsLoc d ↦[segSet i]{q} A.ff d
abbrev idxRowPts (d : Dev nD) (w : Fin 32) (q : PosShare TreeShare) : sProp 𝕄 := idxLoc d ↦[erowSet w]{q} A.fi d
abbrev ewRowPts (d : Dev nD) (w : Fin 32) (q : PosShare TreeShare) : sProp 𝕄 :=
  iprop(∃ fe : Buf (Elt F) (ewLoc d), ⌜∀ j ∈ erowSet w, (j 0).val < 2500 → fe j = A.fe d j⌝ ∗ ewLoc d ↦[erowSet w]{q} fe)
abbrev outRowPts (d : Dev nD) (w : Fin 32) (f : Buf (Elt F) (outLoc d)) : sProp 𝕄 := outLoc d ↦[orowSet w]{fullShare} f

abbrev outDonePts (d : Dev nD) (Sr : Finset S10240x128.Idx) : sProp 𝕄 :=
  iprop(∃ f : Buf (Elt F) (outLoc d), ⌜∀ j ∈ Sr, (j 0).val < 10000 → f j = outVal A d j⌝ ∗ outLoc d ↦[Sr]{fullShare} f)

def goRes (d : Dev nD) (c : Fin 2) (i : Fin 16) : sProp 𝕄 :=
  iprop(featsSegPts A d i (hshare c) ∗ idxRowPts A d (wid c i) (hshare c) ∗ ewRowPts A d (wid c i) (hshare c)
    ∗ outRowPts d (wid c i) (A.fo d) ∗ ∃ f, shLoc d (Fin.cast nSC_eq.symm c) ↦[segSet i]{fullShare} f)

def tdRes (d : Dev nD) (c : Fin 2) (i : Fin 16) : sProp 𝕄 :=
  iprop(featsSegPts A d i (hshare c) ∗ idxRowPts A d (wid c i) (hshare c) ∗ ewRowPts A d (wid c i) (hshare c)
    ∗ outDonePts A d (orowSet (wid c i))
    ∗ shSegPts A d (Fin.cast nSC_eq.symm c) i rest16
    ∗ bigSep Finset.univ fun n : Fin 16 => shSegPts A d (Fin.cast nSC_eq.symm c) n (tok i))

def P : (K (F := F)).Pay (nD := nD) (Val := Elt F) (Name := ℕ) (U := UU) where
  st := fun q d c => match q with
    | 0 => iprop(featsPts A d (hshare (Fin.cast nCore_zero c)) ∗ idxPts A d (hshare (Fin.cast nCore_zero c)) ∗ ewPts A d (hshare (Fin.cast nCore_zero c))
        ∗ outLoc d ↦[orowSetC (Fin.cast nCore_zero c)]{fullShare} A.fo d)
  dn := fun q d c => match q with
    | 0 => iprop(featsPts A d (hshare (Fin.cast nCore_zero c)) ∗ idxPts A d (hshare (Fin.cast nCore_zero c)) ∗ ewPts A d (hshare (Fin.cast nCore_zero c))
        ∗ outDonePts A d (orowSetC (Fin.cast nCore_zero c)))
  go := fun q d c i => match q with | 0 => goRes A d (Fin.cast nCore_zero c) (Fin.cast nSub_zero i)
  td := fun q d c i => match q with | 0 => tdRes A d (Fin.cast nCore_zero c) (Fin.cast nSub_zero i)
  x := fun _ thr => match thr with
    | (d, .scVector c i) => bkit A d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) A).IsStorable where
  st q d c := match q with | 0 => by unfold P; dsimp only; infer_instance
  dn q d c := match q with | 0 => by unfold P; dsimp only; infer_instance
  go q d c i := match q with | 0 => by unfold P goRes; dsimp only; infer_instance
  td q d c i := match q with | 0 => by unfold P tdRes; dsimp only; infer_instance

end Cert.Proof.KI

end
-- ==== Proof.KI.Ghost.lean ====
import proofs.«204698_g79517024518204_fold_wed_m_581_46_alg».proof.Proof.KI.Pay
import proofs.«204698_g79517024518204_fold_wed_m_581_46_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev DCI : Type := Dev nD × Fin τ.nSC × Fin τ.nSub

abbrev bcell₃ (x : DCI) : GSem nD τ sig := bcell x.1 x.2.1 x.2.2

def bCells : Finset (GSem nD τ sig) := Finset.univ.image bcell₃

def bToks : Finset (GSem nD τ sig × ℕ × ℕ) :=
  Finset.univ.image fun x : DCI × Fin (grid1.bound 1) => (bcell x.1.1 x.1.2.1 (x.2.castLE hsub1), 0, x.1.2.2.val)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

abbrev adm : (p : Fin 1) → (pcfgs (F := F) p).Adm := fun p => (cfgs p).toPCfg_adm

def u₀ : UU :=
  (initOf (K (F := F)).hsCells (K (F := F)).hsToks,
    (initOf bCells bToks, (initOf (Pipeline.cells cfgs Gen.cellOf_inj) (Pipeline.launchToks cfgs Gen.cellOf_inj), 1)))

def G (d : Dev nD) : sProp 𝕄 :=
  iprop(Pipeline.cellsGhost (Pipeline.pin (pcfgs (F := F)) adm) EP 0 d ∗ Pipeline.toksInit (Pipeline.pin (pcfgs (F := F)) adm) EP 0 d)

theorem G_eq (d : Dev nD) : (G (F := F) d : sProp 𝕄) = iprop(Pipeline.cellsGhost cfgs EP 0 d ∗ Pipeline.toksInit cfgs EP 0 d) := rfl

end Cert.Proof.KI

end
-- ==== Proof.KI.MainDefs.lean ====
import proofs.«204698_g79517024518204_fold_wed_m_581_46_alg».proof.Proof.KI.Ghost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after)
open Idealize.ShloMosaic.ValueIdx (ix2 ix3)

variable {F : FTy → Type} [FloatOps F]

local notation "𝕄" => MT nD τ sig (HIx 1) (Elt F) ℕ UU ℕ

variable (m : (ℓ : Loc nD τ sig) → Buf (Elt F) ℓ) (ρ : Dev nD → PrngReg)

variable (FEATS : (d : Dev nD) → Buf (Elt F) (featsLoc d))

abbrev argAt (d : Dev nD) (b : Ref sig .tc) : Buf (Elt F) ((SparseCore.T d : Thread nD τ).loc b) := m ((SparseCore.T d : Thread nD τ).loc b)

def w3Of (d : Dev nD) : S2500x128.Idx → F .f32 := shapeCast S2500x128 (argAt m d main_arg3) shapeCasts_S1x320000x1_S2500x128
def w4Of (d : Dev nD) : S2500x128.Idx → F .f32 := shapeCast S2500x128 (argAt m d main_arg4) shapeCasts_S1x320000x1_S2500x128

def fiOf (d : Dev nD) : Buf (Elt F) (idxLoc d) :=
  shapeCast S2560x128
    (pad (s := S320000) S327680 ![0] ![7680] ![0] (argAt m d main_arg2) (constantI S_ 32 0#32) pads_S320000_S327680_076800 h_S_)
    shapeCasts_S327680_S2560x128

def feOf (d : Dev nD) : Buf (Elt F) (ewLoc d) := fun j =>
  if h : (j 0).val < 2500 then
    FloatOps.mulf (w3Of m d (ix2 (⟨(j 0).val, h⟩ : Fin 2500) (j 1))) (w4Of m d (ix2 (⟨(j 0).val, h⟩ : Fin 2500) (j 1)))
  else FloatOps.ofBits .f32 0x00000000#32

def opsOf : Ops F where
  ff := FEATS
  fi := fiOf m
  fe := feOf m
  fo := fun d => m (outLoc d)

abbrev dr (b : Ref sig .tc) : DevRef τ sig := Proc.devRef .tc b

def R26 : Finset (Ref sig .tc) :=
  {main_arg0, main_arg1, main_arg2, main_arg3, main_arg4, main_arg5, main_arg6, main_arg7, main_arg8, main_arg9,
   main_v0, main_v1, main_v2, main_v3, main_v4, main_v5, main_v6, main_v7_0, main_v7_1, main_c, main_call0_v0, main_v8,
   main_v9, main_v10, main_v11, main_v12}
def S26 : Finset (DevRef τ sig) := R26.map ⟨Proc.devRef .tc, Proc.devRef_injective _⟩

def V0 (d : Dev nD) : Valuation τ sig (Elt F) := fun b => m (d, b)

def ops7 : List (HloOp τ sig (Elt F)) :=
  [StableHlo.reshape main_arg0 main_v0 rfl shapeCasts_S1x10000x128_S10000x128,
   StableHlo.reshape main_arg1 main_v1 rfl shapeCasts_S1x1x128_S1x128,
   StableHlo.reshape main_arg6 main_v2 rfl shapeCasts_S256_S256x1,
   StableHlo.reshape main_arg7 main_v3 rfl shapeCasts_S256_S1x256,
   StableHlo.reshape main_arg9 main_v4 rfl shapeCasts_S128_S1x128,
   StableHlo.reshape main_arg3 main_v5 rfl shapeCasts_S1x320000x1_S2500x128,
   StableHlo.reshape main_arg4 main_v6 rfl shapeCasts_S1x320000x1_S2500x128]

def V1 (d : Dev nD) : Valuation τ sig (Elt F) := after ops7 (V0 m d)

def VR (c : Dev nD) : (b : Ref sig .tc) → Buf (Elt F) ((c.tc : Thread nD τ).loc b) := fun b => V1 m c (dr b)

def regOps : Finset (Ref sig .tc) := {main_v1, main_arg5, main_v2, main_v3, main_v0, main_arg8, main_v4, main_v5, main_v6}
def regRefs : Finset (Ref sig .tc) := insert main_v7_0 (insert main_v7_1 regOps)

def owesPart (c : Dev nD) (O : CellTallies nD τ sig (HIx 1)) : sProp 𝕄 :=
  iprop(∃ W, ⌜(K (F := F)).WBelow (SparseCore.T c) W (8 * 0)⌝ ∗ owes (SparseCore.T c) O W)

def regPre (c : Dev nD) (Vc : (b : Ref sig .tc) → Buf (Elt F) ((c.tc : Thread nD τ).loc b)) (O : CellTallies nD τ sig (HIx 1)) : sProp 𝕄 :=
  iprop(boundary (SparseCore.T c) ∗ (bigSep regRefs fun b => ((c.tc : Thread nD τ).loc b) ↦{fullShare} Vc b) ∗ owesPart (F := F) c O ∗ G (F := F) c)

def regPost (c : Dev nD) (Vc : (b : Ref sig .tc) → Buf (Elt F) ((c.tc : Thread nD τ).loc b)) (O : CellTallies nD τ sig (HIx 1)) : sProp 𝕄 :=
  iprop(boundary (SparseCore.T c) ∗ (bigSep regOps fun b => ((c.tc : Thread nD τ).loc b) ↦{fullShare} Vc b)
    ∗ (featsLoc c ↦{fullShare} FEATS c)
    ∗ (∃ EW : Buf (Elt F) (ewLoc c), ⌜∀ (r : Fin 2500) (j : Fin 128),
          EW (ix2 (⟨r.val, by omega⟩ : Fin 2560) j) = FloatOps.mulf (Vc main_v5 (ix2 r j)) (Vc main_v6 (ix2 r j))⌝ ∗ ewLoc c ↦{fullShare} EW)
    ∗ owesPart (F := F) c O)

def argRefs : Finset (Ref sig .tc) :=
  {main_arg0, main_arg1, main_arg2, main_arg3, main_arg4, main_arg5, main_arg6, main_arg7, main_arg8, main_arg9}

def FIN (d : Dev nD) : sProp 𝕄 :=
  iprop((bigSep argRefs fun b => ((SparseCore.T d).loc b) ↦{fullShare} argAt m d b)
    ∗ ∃ f : Buf (Elt F) ((SparseCore.T d).loc main_v12),
        ⌜∀ (n : Fin 10000) (o : Fin 128), f (ix3 (0 : Fin 1) n o) = outVal (opsOf m FEATS) d (ix2 (⟨n.val, by omega⟩ : Fin 10240) o)⌝
        ∗ ((SparseCore.T d).loc main_v12) ↦{fullShare} f)

def fq (d : Dev nD) (s' : Phys nD τ sig (Elt F)) : Prop :=
  (∀ (n : Fin 10000) (o : Fin 128),
      s'.mem.mem ((SparseCore.T d).loc main_v12) (ix3 (0 : Fin 1) n o) = outVal (opsOf m FEATS) d (ix2 (⟨n.val, by omega⟩ : Fin 10240) o))
    ∧ ∀ b ∈ argRefs, s'.mem.mem ((SparseCore.T d).loc b) = argAt m d b

def QC : PUnit × MemSt nD τ sig (Elt F) → Prop := fun r => ∀ c : Dev nD,
  (∀ (n : Fin 10000) (o : Fin 128),
      r.2.mem ((c.tc : Thread nD τ).loc main_v12) (ix3 (0 : Fin 1) n o) = outVal (opsOf m FEATS) c (ix2 (⟨n.val, by omega⟩ : Fin 10240) o))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)

end Cert.Proof.KI

end
-- ==== Proof.KI.MainParts.lean ====
import proofs.«204698_g79517024518204_fold_wed_m_581_46_alg».proof.Proof.KI.MainDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

omit [FloatOps F] in
theorem orowSet_eq_part (w : Fin 32) : orowSet w = (orows w).set := by
  show ((View.whole (main_v10_scv : Ref sig .scVector)).slice (orows w)).set = _
  rw [View.set_slice]; exact Finset.map_refl

omit [FloatOps F] in

theorem orowC_disjoint : Disjoint (orowSetC 0) (orowSetC 1) := by
  unfold orowSetC
  rw [Finset.disjoint_biUnion_left]; intro i _
  rw [Finset.disjoint_biUnion_right]; intro i' _
  rw [orowSet_eq_part, orowSet_eq_part]
  refine Rect.part_disjoint hdiv32 fun e => ?_
  have := congrArg Fin.val e
  simp only [wid, Fin.val_zero, Fin.val_one] at this
  omega

omit [FloatOps F] in

theorem orowC_cover : orowSetC 0 ∪ orowSetC 1 = Finset.univ := by
  refine Finset.eq_univ_of_forall fun j => ?_
  have hj : j ∈ (Finset.univ : Finset (Fin 32)).biUnion fun w => (orows w).set := by
    rw [Rect.biUnion_part hdiv32]; exact Finset.mem_univ j
  obtain ⟨w, -, hw⟩ := Finset.mem_biUnion.mp hj
  rw [← orowSet_eq_part] at hw
  rcases Nat.mod_two_eq_zero_or_one w.val with h | h
  · have hwid : w = wid 0 ⟨w.val / 2, by omega⟩ := Fin.ext (by simp only [wid, Fin.val_zero]; omega)
    rw [hwid] at hw
    exact Finset.mem_union_left _ (Finset.mem_biUnion.mpr ⟨_, Finset.mem_univ _, hw⟩)
  · have hwid : w = wid 1 ⟨w.val / 2, by omega⟩ := Fin.ext (by simp only [wid, Fin.val_one]; omega)
    rw [hwid] at hw
    exact Finset.mem_union_right _ (Finset.mem_biUnion.mpr ⟨_, Finset.mem_univ _, hw⟩)

omit [FloatOps F] in
theorem hshare_zero : hshare 0 = (fullShare : PosShare TreeShare).left := rfl
omit [FloatOps F] in
theorem hshare_one : hshare 1 = (fullShare : PosShare TreeShare).right := rfl

omit [FloatOps F] in

theorem whole_halves {ℓ : Loc nD τ sig} (f : Buf (Elt F) ℓ) :
    (ℓ ↦{fullShare} f : sProp 𝕄) ⊣⊢ iprop((ℓ ↦{hshare 0} f) ∗ ℓ ↦{hshare 1} f) := by
  rw [hshare_zero, hshare_one]
  exact pointsTo_share (PosShare.mem_left_op_right fullShare)

theorem bigSep_cores (Φ : Fin 2 → sProp 𝕄) :
    (bigSep Finset.univ fun c : Fin ((K (F := F)).nCore 0) => Φ (Fin.cast nCore_zero c)) = iprop(Φ 0 ∗ Φ 1) := by
  have h : (bigSep Finset.univ fun c : Fin ((K (F := F)).nCore 0) => Φ (Fin.cast nCore_zero c)) = bigSep Finset.univ Φ :=
    bigSep_congr fun _ _ => congrArg Φ (Fin.ext rfl)
  rw [h, show (Finset.univ : Finset (Fin 2)) = {0, 1} from by decide, SparseCore.bigSep_insert' (by decide), bigSep_singleton]

omit [FloatOps F] in

theorem outPts_cores (d : Dev nD) (f : Buf (Elt F) (outLoc d)) :
    (outLoc d ↦{fullShare} f : sProp 𝕄) ⊣⊢ iprop((outLoc d ↦[orowSetC 0]{fullShare} f) ∗ outLoc d ↦[orowSetC 1]{fullShare} f) := by
  have h : (outLoc d ↦[orowSetC 0 ∪ orowSetC 1]{fullShare} f : sProp 𝕄)
      ⊣⊢ iprop((outLoc d ↦[orowSetC 0]{fullShare} f) ∗ outLoc d ↦[orowSetC 1]{fullShare} f) := pointsTo_union orowC_disjoint
  rw [orowC_cover] at h
  exact h

omit [FloatOps F] in

theorem out_join (d : Dev nD) (f0 f1 : Buf (Elt F) (outLoc d)) :
    iprop((outLoc d ↦[orowSetC 0]{fullShare} f0) ∗ outLoc d ↦[orowSetC 1]{fullShare} f1)
      ⊢ (outLoc d ↦{fullShare} ((orowSetC 1).piecewise f1 f0) : sProp 𝕄) := by
  have h : iprop((outLoc d ↦[orowSetC 0]{fullShare} f0) ∗ outLoc d ↦[orowSetC 1]{fullShare} f1)
      ⊢ (outLoc d ↦[orowSetC 0 ∪ orowSetC 1]{fullShare} ((orowSetC 1).piecewise f1 f0) : sProp 𝕄) := pointsTo_join orowC_disjoint
  rw [orowC_cover] at h
  exact h

variable (m : (ℓ : Loc nD τ sig) → Buf (Elt F) ℓ) (FEATS : (d : Dev nD) → Buf (Elt F) (featsLoc d))

abbrev stC (d : Dev nD) (c : Fin 2) : sProp 𝕄 :=
  iprop(featsPts (opsOf m FEATS) d (hshare c) ∗ idxPts (opsOf m FEATS) d (hshare c) ∗ ewPts (opsOf m FEATS) d (hshare c)
    ∗ outLoc d ↦[orowSetC c]{fullShare} (opsOf m FEATS).fo d)
abbrev dnC (d : Dev nD) (c : Fin 2) : sProp 𝕄 :=
  iprop(featsPts (opsOf m FEATS) d (hshare c) ∗ idxPts (opsOf m FEATS) d (hshare c) ∗ ewPts (opsOf m FEATS) d (hshare c)
    ∗ outDonePts (opsOf m FEATS) d (orowSetC c))

theorem st_cores (d : Dev nD) :
    (bigSep Finset.univ fun c : Fin ((K (F := F)).nCore 0) => (P (opsOf m FEATS)).st 0 d c : sProp 𝕄) = iprop(stC m FEATS d 0 ∗ stC m FEATS d 1) :=
  bigSep_cores (F := F) (fun c => stC m FEATS d c)
theorem dn_cores (d : Dev nD) :
    (bigSep Finset.univ fun c : Fin ((K (F := F)).nCore 0) => (P (opsOf m FEATS)).dn 0 d c : sProp 𝕄) = iprop(dnC m FEATS d 0 ∗ dnC m FEATS d 1) :=
  bigSep_cores (F := F) (fun c => dnC m FEATS d c)

theorem call_handover (d : Dev nD) (EW : Buf (Elt F) (ewLoc d)) (hEW : ∀ j : S2560x128.Idx, (j 0).val < 2500 → EW j = feOf m d j) :
    iprop((featsLoc d ↦{fullShare} FEATS d) ∗ (idxLoc d ↦{fullShare} fiOf m d) ∗ (ewLoc d ↦{fullShare} EW) ∗ (outLoc d ↦{fullShare} m (outLoc d)))
      ⊢ (bigSep Finset.univ fun c : Fin ((K (F := F)).nCore 0) => (P (opsOf m FEATS)).st 0 d c : sProp 𝕄) := by
  rw [st_cores]
  iintro ⟨Hf, Hi, He, Ho⟩
  ihave Hf' := (whole_halves (F := F) (FEATS d)).1 $$ Hf
  icases Hf' with ⟨Hf0, Hf1⟩
  ihave Hi' := (whole_halves (F := F) (fiOf m d)).1 $$ Hi
  icases Hi' with ⟨Hi0, Hi1⟩
  ihave He' := (whole_halves (F := F) EW).1 $$ He
  icases He' with ⟨He0, He1⟩
  ihave Ho' := (outPts_cores (F := F) d (m (outLoc d))).1 $$ Ho
  icases Ho' with ⟨Ho0, Ho1⟩
  isplitl [Hf0 Hi0 He0 Ho0]
  · isplitl [Hf0]; · iexact Hf0
    isplitl [Hi0]; · iexact Hi0
    isplitl [He0]
    · iexists EW; isplitr; · ipureintro; exact hEW
      iexact He0
    iexact Ho0
  · isplitl [Hf1]; · iexact Hf1
    isplitl [Hi1]; · iexact Hi1
    isplitl [He1]
    · iexists EW; isplitr; · ipureintro; exact hEW
      iexact He1
    iexact Ho1

theorem call_return (d : Dev nD) :
    (bigSep Finset.univ fun c : Fin ((K (F := F)).nCore 0) => (P (opsOf m FEATS)).dn 0 d c : sProp 𝕄)
      ⊢ iprop(∃ fo : Buf (Elt F) (outLoc d), ⌜∀ j : S10240x128.Idx, (j 0).val < 10000 → fo j = outVal (opsOf m FEATS) d j⌝ ∗ outLoc d ↦{fullShare} fo) := by
  rw [dn_cores]
  iintro ⟨⟨-, -, -, %f0, %h0, Ho0⟩, ⟨-, -, -, %f1, %h1, Ho1⟩⟩
  iexists (orowSetC 1).piecewise f1 f0
  isplitr
  · ipureintro
    intro j hj
    by_cases hm : j ∈ orowSetC 1
    · rw [Finset.piecewise_eq_of_mem _ _ _ hm]; exact h1 j hm hj
    · rw [Finset.piecewise_eq_of_notMem _ _ _ hm]
      have hu : j ∈ orowSetC 0 ∪ orowSetC 1 := by rw [orowC_cover]; exact Finset.mem_univ j
      exact h0 j ((Finset.mem_union.mp hu).resolve_right hm) hj
  · iapply (out_join (F := F) d f0 f1)
    isplitl [Ho0] <;> iassumption

end Cert.Proof.KI

end
-- ==== Proof.KI.OutChunks.lean ====
import proofs.«204698_g79517024518204_fold_wed_m_581_46_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "outV" => (Memref.whole Cert.KernelIdeal.main_v10_scv : Memref Cert.KernelIdeal.sig Kind.scVector Space.hbm Cert.KernelIdeal.S10240x128 EltTy.f32)

omit [FloatOps F] in
theorem grid_bound_zero : grid1.bound 0 = 2 := rfl
omit [FloatOps F] in
theorem grid_bound_one : grid1.bound 1 = 16 := rfl

local notation "cV[" L "]" => Fin.castLE hcore1 (L 0)
local notation "jV[" L "]" => Fin.castLE hsub1 (L 1)
local notation "wL[" L "]" => wid (Fin.cast grid_bound_zero (L 0)) (Fin.cast grid_bound_one (L 1))

omit [FloatOps F] in

theorem oc_trips_eq : k1_t1_loop.trips = 80 := by decide

abbrev outA (L : grid1.Coords) (k : Fin k1_t1_loop.trips) : Memref sig .scVector .hbm S2x128 .f32 :=
  (outV).slice (Rect.unit (s := S10240x128) (k1_off7 L k) S2x128.size (k1_off7_inb L k)) (fun _ => rfl)

abbrev outB (L : grid1.Coords) (k : Fin k1_t1_loop.trips) : Memref sig .scVector .hbm S2x128 .f32 :=
  (outV).slice (Rect.unit (s := S10240x128) (k1_off5 L k) S2x128.size (k1_off5_inb L k)) (fun _ => rfl)

variable (L : grid1.Coords)

omit [FloatOps F] in

theorem wL_val : (wL[L]).val = 2 * (L 1).val + (L 0).val := rfl

omit [FloatOps F] in

theorem mem_orowSet_iff (w : Fin 32) (j : S10240x128.Idx) :
    j ∈ orowSet w ↔ 320 * w.val ≤ (j 0).val ∧ (j 0).val < 320 * w.val + 320 := by
  rw [show orowSet w = (orows w).set from View.set_slice_whole _ _, Rect.mem_set_unit]
  constructor
  · intro h
    have h0 := h 0
    simp [Shape.partIx, Shape.partSize] at h0
    omega
  · intro h a
    match a with
    | 0 => simp [Shape.partIx, Shape.partSize]; omega
    | 1 => simp [Shape.partIx, Shape.partSize]; exact (j 1).isLt

omit [FloatOps F] in

theorem mem_outA (k : Fin k1_t1_loop.trips) (j : S10240x128.Idx) :
    j ∈ (outA L k).view.set ↔ (j 0).val = 320 * (wL[L]).val + 4 * k.val ∨ (j 0).val = 320 * (wL[L]).val + 4 * k.val + 1 := by
  show j ∈ ((outV).view.slice (Rect.unit (s := S10240x128) (k1_off7 L k) S2x128.size (k1_off7_inb L k))).set ↔ _
  rw [View.set_slice_whole, Rect.mem_set_unit, k1_off7_eq, wL_val]
  constructor
  · intro h
    have h0 := h 0
    simp at h0
    omega
  · intro h a
    match a with
    | 0 => simp; omega
    | 1 => simp; exact (j 1).isLt

omit [FloatOps F] in

theorem mem_outB (k : Fin k1_t1_loop.trips) (j : S10240x128.Idx) :
    j ∈ (outB L k).view.set ↔ (j 0).val = 320 * (wL[L]).val + 4 * k.val + 2 ∨ (j 0).val = 320 * (wL[L]).val + 4 * k.val + 3 := by
  show j ∈ ((outV).view.slice (Rect.unit (s := S10240x128) (k1_off5 L k) S2x128.size (k1_off5_inb L k))).set ↔ _
  rw [View.set_slice_whole, Rect.mem_set_unit, k1_off5_eq, wL_val]
  constructor
  · intro h
    have h0 := h 0
    simp at h0
    omega
  · intro h a
    match a with
    | 0 => simp; omega
    | 1 => simp; exact (j 1).isLt

omit [FloatOps F] in

theorem outAB_disjoint (k : Fin k1_t1_loop.trips) : Disjoint (outA L k).view.set (outB L k).view.set :=
  Finset.disjoint_left.mpr fun j hA hB => by
    rw [mem_outA] at hA; rw [mem_outB] at hB; omega

omit [FloatOps F] in

theorem outChunk_disjoint : ∀ k ∈ (Finset.univ : Finset (Fin k1_t1_loop.trips)), ∀ k' ∈ (Finset.univ : Finset (Fin k1_t1_loop.trips)), k ≠ k' →
    Disjoint ((outA L k).view.set ∪ (outB L k).view.set) ((outA L k').view.set ∪ (outB L k').view.set) :=
  fun k _ k' _ hne => Finset.disjoint_left.mpr fun j h h' => by
    rw [Finset.mem_union, mem_outA, mem_outB] at h h'
    have : k.val ≠ k'.val := fun e => hne (Fin.ext e)
    omega

omit [FloatOps F] in

theorem outChunk_cover :
    (Finset.univ : Finset (Fin k1_t1_loop.trips)).biUnion (fun k => (outA L k).view.set ∪ (outB L k).view.set) = orowSet wL[L] := by
  ext j
  rw [mem_orowSet_iff, Finset.mem_biUnion]
  constructor
  · rintro ⟨k, -, hk⟩
    have hk80 : k.val < 80 := oc_trips_eq ▸ k.isLt
    rw [Finset.mem_union, mem_outA, mem_outB] at hk
    omega
  · rintro ⟨h1, h2⟩
    refine ⟨⟨((j 0).val - 320 * (wL[L]).val) / 4, by rw [oc_trips_eq]; omega⟩, Finset.mem_univ _, ?_⟩
    rw [Finset.mem_union, mem_outA, mem_outB]
    dsimp only
    omega

theorem out_chunks (d : Dev nD) (q : PosShare TreeShare) (f : Buf (Elt F) (outLoc d)) :
    (outLoc d ↦[orowSet wL[L]]{q} f : sProp 𝕄)
      = bigSep Finset.univ fun k : Fin k1_t1_loop.trips =>
          iprop(((outA L k).view.loc (V d cV[L] jV[L]) ↦[(outA L k).view.set]{q} f)
            ∗ ((outB L k).view.loc (V d cV[L] jV[L]) ↦[(outB L k).view.set]{q} f)) := by
  rw [← outChunk_cover L, pointsTo_biUnion Finset.univ (ℓ := outLoc d) _ (outChunk_disjoint L)]
  refine bigSep_congr fun k _ => ?_
  have hu : (outLoc d ↦[(outA L k).view.set ∪ (outB L k).view.set]{q} f : sProp 𝕄)
      ⊣⊢ iprop((outLoc d ↦[(outA L k).view.set]{q} f) ∗ outLoc d ↦[(outB L k).view.set]{q} f) := pointsTo_union (outAB_disjoint L k)
  exact BI.equiv_iff.mp ⟨hu.1, hu.2⟩

section Steps
variable {M : Type _} [URA M] {n : ℕ} (Φ : Fin n → sProp M)

omit [FloatOps F] in

theorem bigSep_ge_step (t : ℕ) (h : t < n) :
    bigSep (Finset.univ.filter fun k : Fin n => t ≤ k.val) Φ
      = iprop(Φ ⟨t, h⟩ ∗ bigSep (Finset.univ.filter fun k : Fin n => t + 1 ≤ k.val) Φ) := by
  have hs : (Finset.univ.filter fun k : Fin n => t ≤ k.val) = insert ⟨t, h⟩ (Finset.univ.filter fun k : Fin n => t + 1 ≤ k.val) := by
    ext k
    simp only [Finset.mem_filter, Finset.mem_univ, true_and, Finset.mem_insert, Fin.ext_iff]
    omega
  rw [hs, bigSep_insert (by simp only [Finset.mem_filter, Finset.mem_univ, true_and]; omega)]
  rfl

omit [FloatOps F] in

theorem bigSep_lt_step (t : ℕ) (h : t < n) :
    bigSep (Finset.univ.filter fun k : Fin n => k.val < t + 1) Φ
      = iprop(Φ ⟨t, h⟩ ∗ bigSep (Finset.univ.filter fun k : Fin n => k.val < t) Φ) := by
  have hs : (Finset.univ.filter fun k : Fin n => k.val < t + 1) = insert ⟨t, h⟩ (Finset.univ.filter fun k : Fin n => k.val < t) := by
    ext k
    simp only [Finset.mem_filter, Finset.mem_univ, true_and, Finset.mem_insert, Fin.ext_iff]
    omega
  rw [hs, bigSep_insert (by simp only [Finset.mem_filter, Finset.mem_univ, true_and]; omega)]
  rfl

omit [FloatOps F] in

theorem bigSep_lt_pred (t : ℕ) (ht : 1 ≤ t) (h : t - 1 < n) :
    bigSep (Finset.univ.filter fun k : Fin n => k.val < t) Φ
      = iprop(Φ ⟨t - 1, h⟩ ∗ bigSep (Finset.univ.filter fun k : Fin n => k.val < t - 1) Φ) := by
  have e : (Finset.univ.filter fun k : Fin n => k.val < t) = Finset.univ.filter fun k : Fin n => k.val < t - 1 + 1 := by
    rw [Nat.sub_add_cancel ht]
  rw [e, bigSep_lt_step Φ (t - 1) h]

omit [FloatOps F] in

theorem bigSep_ge_zero : bigSep (Finset.univ.filter fun k : Fin n => 0 ≤ k.val) Φ = bigSep Finset.univ Φ := by
  rw [Finset.filter_true_of_mem fun k _ => Nat.zero_le k.val]

omit [FloatOps F] in

theorem bigSep_lt_zero : bigSep (Finset.univ.filter fun k : Fin n => k.val < 0) Φ = (iprop(emp) : sProp M) := by
  rw [Finset.filter_false_of_mem fun k _ => Nat.not_lt_zero k.val]; rfl

omit [FloatOps F] in

theorem bigSep_ge_end : bigSep (Finset.univ.filter fun k : Fin n => n ≤ k.val) Φ = (iprop(emp) : sProp M) := by
  rw [Finset.filter_false_of_mem fun k _ => Nat.not_le.mpr k.isLt]; rfl

omit [FloatOps F] in

theorem bigSep_lt_end : bigSep (Finset.univ.filter fun k : Fin n => k.val < n) Φ = bigSep Finset.univ Φ := by
  rw [Finset.filter_true_of_mem fun k _ => k.isLt]

end Steps

section Trips
variable {M : Type _} [URA M] (Φ : Fin k1_t1_loop.trips → sProp M)

omit [FloatOps F] in
theorem trips_ge_step (t : ℕ) (h : t < 80) :
    bigSep (Finset.univ.filter fun k : Fin k1_t1_loop.trips => t ≤ k.val) Φ
      = iprop(Φ ⟨t, h⟩ ∗ bigSep (Finset.univ.filter fun k : Fin k1_t1_loop.trips => t + 1 ≤ k.val) Φ) :=
  bigSep_ge_step Φ t h
omit [FloatOps F] in
theorem trips_lt_step (t : ℕ) (h : t < 80) :
    bigSep (Finset.univ.filter fun k : Fin k1_t1_loop.trips => k.val < t + 1) Φ
      = iprop(Φ ⟨t, h⟩ ∗ bigSep (Finset.univ.filter fun k : Fin k1_t1_loop.trips => k.val < t) Φ) :=
  bigSep_lt_step Φ t h
omit [FloatOps F] in
theorem trips_lt_pred (t : ℕ) (ht : 1 ≤ t) (h : t - 1 < 80) :
    bigSep (Finset.univ.filter fun k : Fin k1_t1_loop.trips => k.val < t) Φ
      = iprop(Φ ⟨t - 1, h⟩ ∗ bigSep (Finset.univ.filter fun k : Fin k1_t1_loop.trips => k.val < t - 1) Φ) :=
  bigSep_lt_pred Φ t ht h
omit [FloatOps F] in
theorem trips_ge_zero : bigSep (Finset.univ.filter fun k : Fin k1_t1_loop.trips => 0 ≤ k.val) Φ = bigSep Finset.univ Φ :=
  bigSep_ge_zero Φ
omit [FloatOps F] in
theorem trips_lt_zero : bigSep (Finset.univ.filter fun k : Fin k1_t1_loop.trips => k.val < 0) Φ = (iprop(emp) : sProp M) :=
  bigSep_lt_zero Φ
omit [FloatOps F] in
theorem trips_ge_end : bigSep (Finset.univ.filter fun k : Fin k1_t1_loop.trips => 80 ≤ k.val) Φ = (iprop(emp) : sProp M) :=
  bigSep_ge_end Φ
omit [FloatOps F] in
theorem trips_lt_end : bigSep (Finset.univ.filter fun k : Fin k1_t1_loop.trips => k.val < 80) Φ = bigSep Finset.univ Φ :=
  bigSep_lt_end Φ

end Trips

end Cert.Proof.KI

end
-- ==== Proof.KI.DoneJoin.lean ====
import proofs.«204698_g79517024518204_fold_wed_m_581_46_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (A : Ops F) (d : Dev nD) (L : grid1.Coords)

abbrev outM (off : Fin 2 → Nat) (h : ∀ a, off a + S2x128.size a ≤ S10240x128.size a) : Memref sig .scVector .hbm S2x128 .f32 :=
  (Memref.whole main_v10_scv : Memref sig .scVector .hbm S10240x128 .f32).slice (Rect.unit (s := S10240x128) off S2x128.size h) (fun _ => rfl)

def doneChunk (off : Fin 2 → Nat) (h : ∀ a, off a + S2x128.size a ≤ S10240x128.size a) : sProp 𝕄 :=
  iprop(∃ f : Buf (Elt F) (outLoc d), ⌜∀ j ∈ (outM off h).view.set, (j 0).val < 10000 → f j = outVal A d j⌝
    ∗ (outM off h).view.loc (V d ((L 0).castLE hcore1) ((L 1).castLE hsub1)) ↦[(outM off h).view.set]{fullShare} f)

def donePair (k : Fin k1_t1_loop.trips) : sProp 𝕄 :=
  iprop(doneChunk A d L (k1_off7 L k) (k1_off7_inb L k) ∗ doneChunk A d L (k1_off5 L k) (k1_off5_inb L k))

abbrev setA (k : Fin k1_t1_loop.trips) : Finset S10240x128.Idx := (outM (k1_off7 L k) (k1_off7_inb L k)).view.set
abbrev setB (k : Fin k1_t1_loop.trips) : Finset S10240x128.Idx := (outM (k1_off5 L k) (k1_off5_inb L k)).view.set

theorem join_done {T : Type} [DecidableEq T] {ℓ : Loc nD τ sig} {q : PosShare TreeShare} (Sx : Finset T) (Kx : T → Finset (Idx ℓ))
    (v : Buf (Elt F) ℓ) (C : Idx ℓ → Prop) (f₀ : Buf (Elt F) ℓ)
    (h : ∀ t ∈ Sx, ∀ t' ∈ Sx, t ≠ t' → Disjoint (Kx t) (Kx t')) :
    bigSep Sx (fun t => (iprop(∃ f : Buf (Elt F) ℓ, ⌜∀ j ∈ Kx t, C j → f j = v j⌝ ∗ ℓ ↦[Kx t]{q} f) : sProp 𝕄))
      ⊢ (iprop(∃ g : Buf (Elt F) ℓ, ⌜∀ j ∈ Sx.biUnion Kx, C j → g j = v j⌝ ∗ ℓ ↦[Sx.biUnion Kx]{q} g) : sProp 𝕄) := by
  classical
  induction Sx using Finset.induction_on with
  | empty =>
    iintro -
    iexists f₀
    isplitr
    · ipureintro; intro j hj; exact absurd hj (Finset.notMem_empty j)
    · rw [Finset.biUnion_empty, pointsTo_empty]; iempintro
  | insert t Sx ht ih =>
    rw [SparseCore.bigSep_insert' ht, Finset.biUnion_insert]
    have hd : Disjoint (Kx t) (Sx.biUnion Kx) :=
      (Finset.disjoint_biUnion_right _ _ _).mpr fun t' ht' =>
        h t (Finset.mem_insert_self _ _) t' (Finset.mem_insert_of_mem ht') (fun e => ht (e ▸ ht'))
    iintro ⟨⟨%f, %hf, Ht⟩, HS⟩
    ihave H := (ih fun t₁ h₁ t₂ h₂ => h t₁ (Finset.mem_insert_of_mem h₁) t₂ (Finset.mem_insert_of_mem h₂)) $$ HS
    icases H with ⟨%g, %hg, HS⟩
    iexists (Sx.biUnion Kx).piecewise g f
    isplitr
    · ipureintro
      intro j hj hC
      by_cases hm : j ∈ Sx.biUnion Kx
      · rw [Finset.piecewise_eq_of_mem _ _ _ hm]; exact hg j hm hC
      · rw [Finset.piecewise_eq_of_notMem _ _ _ hm]
        rcases Finset.mem_union.mp hj with h1 | h1
        · exact hf j h1 hC
        · exact absurd h1 hm
    · iapply (pointsTo_join hd)
      isplitl [Ht]; · iexact Ht
      iexact HS

theorem chunksA_join (hA : ∀ k k' : Fin k1_t1_loop.trips, k ≠ k' → Disjoint (setA L k) (setA L k')) :
    (bigSep Finset.univ fun k : Fin k1_t1_loop.trips => doneChunk A d L (k1_off7 L k) (k1_off7_inb L k))
      ⊢ (iprop(∃ g : Buf (Elt F) (outLoc d), ⌜∀ j ∈ Finset.univ.biUnion (setA L), (j 0).val < 10000 → g j = outVal A d j⌝
          ∗ outLoc d ↦[Finset.univ.biUnion (setA L)]{fullShare} g) : sProp 𝕄) :=
  join_done (ℓ := outLoc d) (q := fullShare) Finset.univ (setA L) (outVal A d) (fun j => (j 0).val < 10000) (A.fo d)
    fun k _ k' _ hne => hA k k' hne

theorem chunksB_join (hB : ∀ k k' : Fin k1_t1_loop.trips, k ≠ k' → Disjoint (setB L k) (setB L k')) :
    (bigSep Finset.univ fun k : Fin k1_t1_loop.trips => doneChunk A d L (k1_off5 L k) (k1_off5_inb L k))
      ⊢ (iprop(∃ g : Buf (Elt F) (outLoc d), ⌜∀ j ∈ Finset.univ.biUnion (setB L), (j 0).val < 10000 → g j = outVal A d j⌝
          ∗ outLoc d ↦[Finset.univ.biUnion (setB L)]{fullShare} g) : sProp 𝕄) :=
  join_done (ℓ := outLoc d) (q := fullShare) Finset.univ (setB L) (outVal A d) (fun j => (j 0).val < 10000) (A.fo d)
    fun k _ k' _ hne => hB k k' hne

theorem done_join_of (Sr : Finset S10240x128.Idx)
    (hA : ∀ k k' : Fin k1_t1_loop.trips, k ≠ k' → Disjoint (setA L k) (setA L k'))
    (hB : ∀ k k' : Fin k1_t1_loop.trips, k ≠ k' → Disjoint (setB L k) (setB L k'))
    (hAB : ∀ k k' : Fin k1_t1_loop.trips, Disjoint (setA L k) (setB L k'))
    (hcov : Finset.univ.biUnion (setA L) ∪ Finset.univ.biUnion (setB L) = Sr) :
    bigSep Finset.univ (donePair A d L) ⊢ outDonePts A d Sr := by
  have hd : Disjoint (Finset.univ.biUnion (setA L)) (Finset.univ.biUnion (setB L)) := by
    rw [Finset.disjoint_biUnion_left]; intro k _
    rw [Finset.disjoint_biUnion_right]; intro k' _
    exact hAB k k'
  unfold donePair
  rw [bigSep_sep']
  iintro ⟨HA, HB⟩
  ihave HA := (chunksA_join A d L hA) $$ HA
  icases HA with ⟨%gA, %hgA, HA⟩
  ihave HB := (chunksB_join A d L hB) $$ HB
  icases HB with ⟨%gB, %hgB, HB⟩
  ihave H := (pointsTo_join (ℓ := outLoc d) (q := fullShare) hd) $$ [HA HB]
  · isplitl [HA] <;> iassumption
  unfold outDonePts
  iexists (Finset.univ.biUnion (setB L)).piecewise gB gA
  isplitr
  · ipureintro
    intro j hj hC
    rw [← hcov] at hj
    by_cases hm : j ∈ Finset.univ.biUnion (setB L)
    · rw [Finset.piecewise_eq_of_mem _ _ _ hm]; exact hgB j hm hC
    · rw [Finset.piecewise_eq_of_notMem _ _ _ hm]
      rcases Finset.mem_union.mp hj with h1 | h1
      · exact hgA j h1 hC
      · exact absurd h1 hm
  · rw [← hcov]; iexact H

abbrev base (L : grid1.Coords) : ℕ := 640 * (L 1).val + 320 * (L 0).val

omit [FloatOps F] in
theorem trips80 : k1_t1_loop.trips = 80 := by decide

omit [FloatOps F] in
theorem mem_outM {off : Fin 2 → Nat} {h : ∀ a, off a + S2x128.size a ≤ S10240x128.size a} {j : S10240x128.Idx} :
    j ∈ (outM off h).view.set ↔ (off 0 ≤ (j 0).val ∧ (j 0).val < off 0 + 2) ∧ (off 1 ≤ (j 1).val ∧ (j 1).val < off 1 + 128) := by
  show j ∈ ((View.whole (main_v10_scv : Ref sig .scVector)).slice (Rect.unit (s := S10240x128) off S2x128.size h)).set ↔ _
  rw [View.set_slice_whole, Rect.mem_set_unit]
  exact ⟨fun H => ⟨H 0, H 1⟩, fun H x => match x with | ⟨0, _⟩ => H.1 | ⟨1, _⟩ => H.2⟩

omit [FloatOps F] in
theorem mem_setA (k : Fin k1_t1_loop.trips) (j : S10240x128.Idx) :
    j ∈ setA L k ↔ base L + 4 * k.val ≤ (j 0).val ∧ (j 0).val < base L + 4 * k.val + 2 := by
  have e0 : k1_off7 L k 0 = base L + 4 * k.val := by rw [k1_off7_eq]; rfl
  have e1 : k1_off7 L k 1 = 0 := by rw [k1_off7_eq]; rfl
  have h1 : (j 1).val < 128 := (j 1).isLt
  rw [mem_outM, e0, e1]
  exact ⟨fun H => H.1, fun H => ⟨H, Nat.zero_le _, by omega⟩⟩

omit [FloatOps F] in
theorem mem_setB (k : Fin k1_t1_loop.trips) (j : S10240x128.Idx) :
    j ∈ setB L k ↔ base L + 4 * k.val + 2 ≤ (j 0).val ∧ (j 0).val < base L + 4 * k.val + 4 := by
  have e0 : k1_off5 L k 0 = base L + 4 * k.val + 2 := by rw [k1_off5_eq]; rfl
  have e1 : k1_off5 L k 1 = 0 := by rw [k1_off5_eq]; rfl
  have h1 : (j 1).val < 128 := (j 1).isLt
  rw [mem_outM, e0, e1]
  exact ⟨fun H => ⟨H.1.1, by omega⟩, fun H => ⟨⟨H.1, by omega⟩, Nat.zero_le _, by omega⟩⟩

omit [FloatOps F] in
theorem mem_orowSet (w : Fin 32) (j : S10240x128.Idx) : j ∈ orowSet w ↔ 320 * w.val ≤ (j 0).val ∧ (j 0).val < 320 * w.val + 320 := by
  have h1 : (j 1).val < 128 := (j 1).isLt
  show j ∈ ((View.whole (main_v10_scv : Ref sig .scVector)).slice (orows w)).set ↔ _
  rw [View.set_slice_whole, Rect.mem_set_unit]
  constructor
  · intro H
    have h0 : w.val * 320 ≤ (j 0).val ∧ (j 0).val < w.val * 320 + 320 := H 0
    omega
  · intro H x
    match x with
    | ⟨0, _⟩ => exact (show w.val * 320 ≤ (j 0).val ∧ (j 0).val < w.val * 320 + 320 from by omega)
    | ⟨1, _⟩ => exact (show 0 * 128 ≤ (j 1).val ∧ (j 1).val < 0 * 128 + 128 from by omega)

omit [FloatOps F] in
theorem base_eq : base L = 320 * (wid (Fin.cast (rfl : grid1.bound 0 = 2) (L 0)) (Fin.cast (rfl : grid1.bound 1 = 16) (L 1))).val := by
  show 640 * (L 1).val + 320 * (L 0).val = 320 * (2 * (L 1).val + (L 0).val)
  omega

omit [FloatOps F] in
theorem setA_disjoint (k k' : Fin k1_t1_loop.trips) (hne : k ≠ k') : Disjoint (setA L k) (setA L k') := by
  rw [Finset.disjoint_left]; intro j hj hj'
  rw [mem_setA] at hj hj'
  have : k.val ≠ k'.val := fun e => hne (Fin.ext e)
  omega
omit [FloatOps F] in
theorem setB_disjoint (k k' : Fin k1_t1_loop.trips) (hne : k ≠ k') : Disjoint (setB L k) (setB L k') := by
  rw [Finset.disjoint_left]; intro j hj hj'
  rw [mem_setB] at hj hj'
  have : k.val ≠ k'.val := fun e => hne (Fin.ext e)
  omega
omit [FloatOps F] in
theorem setAB_disjoint (k k' : Fin k1_t1_loop.trips) : Disjoint (setA L k) (setB L k') := by
  rw [Finset.disjoint_left]; intro j hj hj'
  rw [mem_setA] at hj
  rw [mem_setB] at hj'
  omega

omit [FloatOps F] in

theorem sets_cover : Finset.univ.biUnion (setA L) ∪ Finset.univ.biUnion (setB L)
    = orowSet (wid (Fin.cast (rfl : grid1.bound 0 = 2) (L 0)) (Fin.cast (rfl : grid1.bound 1 = 16) (L 1))) := by
  ext j
  rw [Finset.mem_union, Finset.mem_biUnion, Finset.mem_biUnion, mem_orowSet, ← base_eq]
  constructor
  · rintro (⟨k, -, hk⟩ | ⟨k, -, hk⟩)
    · rw [mem_setA] at hk; have : k.val < 80 := lt_of_lt_of_eq k.isLt trips80; omega
    · rw [mem_setB] at hk; have : k.val < 80 := lt_of_lt_of_eq k.isLt trips80; omega
  · intro H
    have hk : ((j 0).val - base L) / 4 < k1_t1_loop.trips := by rw [trips80]; omega
    by_cases h2 : ((j 0).val - base L) % 4 < 2
    · refine Or.inl ⟨⟨_, hk⟩, Finset.mem_univ _, (mem_setA L _ j).mpr ?_⟩
      show base L + 4 * (((j 0).val - base L) / 4) ≤ (j 0).val ∧ (j 0).val < base L + 4 * (((j 0).val - base L) / 4) + 2
      omega
    · refine Or.inr ⟨⟨_, hk⟩, Finset.mem_univ _, (mem_setB L _ j).mpr ?_⟩
      show base L + 4 * (((j 0).val - base L) / 4) + 2 ≤ (j 0).val ∧ (j 0).val < base L + 4 * (((j 0).val - base L) / 4) + 4
      omega

theorem done_join :
    bigSep Finset.univ (donePair A d L)
      ⊢ outDonePts A d (orowSet (wid (Fin.cast (rfl : grid1.bound 0 = 2) (L 0)) (Fin.cast (rfl : grid1.bound 1 = 16) (L 1)))) :=
  done_join_of A d L _ (setA_disjoint L) (setB_disjoint L) (setAB_disjoint L) (sets_cover L)

theorem chunk_done (off : Fin 2 → Nat) (h : ∀ a, off a + S2x128.size a ≤ S10240x128.size a) (f : Buf (Elt F) (outLoc d))
    (hv : ∀ j ∈ (outM off h).view.set, (j 0).val < 10000 → f j = outVal A d j) :
    ((outM off h).view.loc (V d ((L 0).castLE hcore1) ((L 1).castLE hsub1)) ↦[(outM off h).view.set]{fullShare} f : sProp 𝕄)
      ⊢ doneChunk A d L off h := by
  unfold doneChunk
  iintro H
  iexists f
  isplitr
  · ipureintro; exact hv
  · iexact H

end Cert.Proof.KI

end
-- ==== Proof.KI.ChunkOK.lean ====
import proofs.«204698_g79517024518204_fold_wed_m_581_46_alg».proof.Proof.KI.Pay
import Idealize.ShloMosaic.Lib.Writes

noncomputable section

namespace Cert.Proof.KI

open Cert.KernelIdeal Cert.KernelIdeal.Gen
open Idealize.ShloMosaic

variable {F : FTy → Type} [FloatOps F]

variable (A : Ops F) (d : Dev nD)

def ChunkOK (off : Fin 2 → Nat) (h : ∀ a, off a + S2x128.size a ≤ S10240x128.size a) (w : S2x128.Idx → Elt F .f32) : Prop :=
  ∀ j ∈ ((Memref.whole main_v10_scv : Memref sig .scVector .hbm S10240x128 .f32).slice (Rect.unit (s := S10240x128) off S2x128.size h) (fun _ => rfl)).view.set, (j 0).val < 10000 →
    ((Memref.whole main_v10_scv : Memref sig .scVector .hbm S10240x128 .f32).slice (Rect.unit (s := S10240x128) off S2x128.size h) (fun _ => rfl)).view.writes (Elt F) (A.fo d) [⟨Rect.whole S2x128, w⟩] j = outVal A d j

theorem emb_pair (off : Fin 2 → Nat) (h : ∀ a, off a + S2x128.size a ≤ S10240x128.size a) (x : S2x128.Idx) :
    ((((Memref.whole main_v10_scv : Memref sig .scVector .hbm S10240x128 .f32).slice (Rect.unit (s := S10240x128) off S2x128.size h) (fun _ => rfl)).view.emb x) 0).val = off 0 + (x 0).val ∧ ((((Memref.whole main_v10_scv : Memref sig .scVector .hbm S10240x128 .f32).slice (Rect.unit (s := S10240x128) off S2x128.size h) (fun _ => rfl)).view.emb x) 1).val = off 1 + (x 1).val := by
  constructor
  · show off 0 + 1 * (x 0).val = off 0 + (x 0).val
    omega
  · show off 1 + 1 * (x 1).val = off 1 + (x 1).val
    omega

theorem chunkOK_intro (off : Fin 2 → Nat) (h : ∀ a, off a + S2x128.size a ≤ S10240x128.size a) (w : S2x128.Idx → Elt F .f32)
    (hw : ∀ x : S2x128.Idx, off 0 + (x 0).val < 10000 → w x = outVal A d (((Memref.whole main_v10_scv : Memref sig .scVector .hbm S10240x128 .f32).slice (Rect.unit (s := S10240x128) off S2x128.size h) (fun _ => rfl)).view.emb x)) :
    ChunkOK A d off h w := by
  intro j hj hlt
  obtain ⟨x, -, rfl⟩ := Finset.mem_map.mp hj
  have hx : off 0 + (x 0).val < 10000 := by rw [← (emb_pair off h x).1]; exact hlt
  have e : ((Memref.whole main_v10_scv : Memref sig .scVector .hbm S10240x128 .f32).slice (Rect.unit (s := S10240x128) off S2x128.size h) (fun _ => rfl)).view.emb x = (((Memref.whole main_v10_scv : Memref sig .scVector .hbm S10240x128 .f32).slice (Rect.unit (s := S10240x128) off S2x128.size h) (fun _ => rfl)).view.slice (Rect.whole S2x128)).emb x :=
    congrArg ((Memref.whole main_v10_scv : Memref sig .scVector .hbm S10240x128 .f32).slice (Rect.unit (s := S10240x128) off S2x128.size h) (fun _ => rfl)).view.emb (Rect.emb_whole_apply S2x128 x).symm
  rw [View.writes_singleton]
  conv_lhs => rw [e]
  rw [View.write_emb_of_mem _ _ (Finset.mem_univ x), cast_eq]
  exact hw x hx

end Cert.Proof.KI

end
-- ==== Proof.KI.UnfoldPrefix.lean ====
import Lean

open Lean Elab Tactic Meta Parser.Tactic

namespace Cert.Proof.KI

elab "unfold_prefix " pre:ident loc:(location)? : tactic => do
  let pfx := pre.getId
  let ns ← getCurrNamespace
  let rec enclosing : Name → List Name
    | .anonymous => [.anonymous]
    | n@(.str q _) => n :: enclosing q
    | n@(.num q _) => n :: enclosing q
  let cands := (enclosing ns).map (· ++ pfx)
  let p : Name → Bool := fun n => cands.any fun c => c.isPrefixOf n && n != c
  withLocation (expandOptLocation (Lean.mkOptionalNode loc))
    (atLocal := fun fv => do
      let g ← getMainGoal
      let t ← instantiateMVars (← fv.getType)
      let t' ← Meta.deltaExpand t p
      replaceMainGoal [← g.replaceLocalDeclDefEq fv t'])
    (atTarget := do
      let g ← getMainGoal
      let t ← instantiateMVars (← g.getType)
      let t' ← Meta.deltaExpand t p
      replaceMainGoal [← g.replaceTargetDefEq t'])
    (failed := fun _ => throwError "nothing to unfold")

end Cert.Proof.KI
-- ==== Proof.KI.Compute.lean ====
import proofs.«204698_g79517024518204_fold_wed_m_581_46_alg».proof.Proof.KI.Common
import Idealize.ShloMosaic.Lib.ValueLayout

noncomputable section

namespace Cert.Proof.KI

open Cert.KernelIdeal Cert.KernelIdeal.Gen
open Idealize.ShloMosaic Idealize.ShloMosaic.ValueIdx

variable {F : FTy → Type} [FloatOps F]

/-- The running sum after the first k edges: the self value, then weight times neighbour value, one edge at a time. -/
def foldAcc (s : F .f32) (w x : Fin 32 → F .f32) : (k : ℕ) → k ≤ 32 → F .f32
  | 0, _ => s
  | k + 1, h => FloatOps.addf (foldAcc s w x k (by omega)) (FloatOps.mulf (w ⟨k, by omega⟩) (x ⟨k, by omega⟩))

def foldStore (s : F .f32) (w x : Fin 32 → F .f32) : F .f32 :=
  FloatOps.maximumf (foldAcc s w x 32 le_rfl) (FloatOps.ofBits .f32 0x00000000#32)

/-- Edge k's weight is lane k mod 16 of the first (k < 16) or second weight vector. -/
def w32 (w0 w1 : Vec F S1x16 .f32) (k : Fin 32) : F .f32 :=
  if h : k.val < 16 then w0 (ix2 (0 : Fin 1) (⟨k.val, h⟩ : Fin 16)) else w1 (ix2 (0 : Fin 1) (⟨k.val - 16, by omega⟩ : Fin 16))

omit [FloatOps F] in
theorem lane_lt {k : ℕ} (h : S16.Slices ![k] S1) : k < 16 := by
  have := h.2 0
  simpa using this

theorem extract_lane (k : ℕ) (v : FVec F S16 .f32) (h : S16.Slices ![k] S1) (h' : ∀ a, (![0] : Fin S1.rank → ℕ) a < S1.size a) :
    extractAt ![0] (extractStridedSlice S1 ![k] v h) h' = v (ix1 (⟨k, lane_lt h⟩ : Fin 16)) := by
  unfold extractAt extractStridedSlice
  congr 1
  funext a
  have ha : a = 0 := Subsingleton.elim _ _
  subst ha
  rfl

omit [FloatOps F] in
theorem cast_row {α : Type} (x : S1x16.Idx → α) (h : S1x16.ShapeCasts S16) (l : Fin 16) : shapeCast S16 x h (ix1 l) = x (ix2 (0 : Fin 1) l) :=
  shapeCast_1a_a_apply x h l
omit [FloatOps F] in
theorem cast_block {α : Type} (v : S16.Idx → α) (h : S16.ShapeCasts S1x16) (l : Fin 16) : shapeCast S1x16 v h (ix2 (0 : Fin 1) l) = v (ix1 l) :=
  shapeCast_a_1a_apply v h 0 l

theorem addf_at {s : Shape} (a b : FVec F s .f32) (i : s.Idx) : addf a b i = FloatOps.addf (a i) (b i) := rfl
theorem mulf_at {s : Shape} (a b : FVec F s .f32) (i : s.Idx) : mulf a b i = FloatOps.mulf (a i) (b i) := rfl
theorem maximumf_at {s : Shape} (a b : FVec F s .f32) (i : s.Idx) : maximumf a b i = FloatOps.maximumf (a i) (b i) := rfl
theorem broadcast_at {s : Shape} {α : Type} (x : α) (i : s.Idx) : broadcast s x i = x := rfl

open Lean Elab Tactic Meta in
/-- Write a stored block out in the goal: the run's named words and the kernel's payload names replaced by their bodies. -/
elab "unfold_stores" : tactic => do
  let g ← getMainGoal
  let p : Name → Bool := fun n =>
    n.components.dropLast.any (· == `sl) || (n.isStr && n.getPrefix == `Cert.KernelIdeal.Gen && n.getString!.startsWith "k1_pay")
  let mut t ← instantiateMVars (← g.getType)
  for _ in [0:6] do
    let t' ← Meta.deltaExpand t p
    if t' == t then break
    t := t'
  t ← Core.transform t (pre := fun e => match e with
    | .letE _ _ v b _ => return .visit (b.instantiate1 v)
    | _ => return .continue)
  t ← Core.betaReduce t
  replaceMainGoal [← g.replaceTargetDefEq t]

/-- Every vector operation acts lane by lane, so a stored block at a lane is the fold over the 35 blocks loaded for it. -/
theorem store_fold (s w0 w1 x0 x1 x2 x3 x4 x5 x6 x7 x8 x9 x10 x11 x12 x13 x14 x15 x16 x17 x18 x19 x20 x21 x22 x23 x24 x25 x26 x27 x28 x29 x30 x31 : Vec F S1x16 .f32) (l : Fin 16) :
    (shapeCast S1x16 (maximumf
      (addf (addf (addf (addf (addf (addf (addf (addf (addf (addf (addf (addf (addf (addf (addf (addf (addf (addf (addf (addf (addf (addf (addf (addf (addf (addf (addf (addf (addf (addf (addf (addf (shapeCast S16 s)
      (mulf (broadcast S16 (extractAt ![0] (extractStridedSlice S1 ![0] (shapeCast S16 w0)))) (shapeCast S16 x0)))
      (mulf (broadcast S16 (extractAt ![0] (extractStridedSlice S1 ![1] (shapeCast S16 w0)))) (shapeCast S16 x1)))
      (mulf (broadcast S16 (extractAt ![0] (extractStridedSlice S1 ![2] (shapeCast S16 w0)))) (shapeCast S16 x2)))
      (mulf (broadcast S16 (extractAt ![0] (extractStridedSlice S1 ![3] (shapeCast S16 w0)))) (shapeCast S16 x3)))
      (mulf (broadcast S16 (extractAt ![0] (extractStridedSlice S1 ![4] (shapeCast S16 w0)))) (shapeCast S16 x4)))
      (mulf (broadcast S16 (extractAt ![0] (extractStridedSlice S1 ![5] (shapeCast S16 w0)))) (shapeCast S16 x5)))
      (mulf (broadcast S16 (extractAt ![0] (extractStridedSlice S1 ![6] (shapeCast S16 w0)))) (shapeCast S16 x6)))
      (mulf (broadcast S16 (extractAt ![0] (extractStridedSlice S1 ![7] (shapeCast S16 w0)))) (shapeCast S16 x7)))
      (mulf (broadcast S16 (extractAt ![0] (extractStridedSlice S1 ![8] (shapeCast S16 w0)))) (shapeCast S16 x8)))
      (mulf (broadcast S16 (extractAt ![0] (extractStridedSlice S1 ![9] (shapeCast S16 w0)))) (shapeCast S16 x9)))
      (mulf (broadcast S16 (extractAt ![0] (extractStridedSlice S1 ![10] (shapeCast S16 w0)))) (shapeCast S16 x10)))
      (mulf (broadcast S16 (extractAt ![0] (extractStridedSlice S1 ![11] (shapeCast S16 w0)))) (shapeCast S16 x11)))
      (mulf (broadcast S16 (extractAt ![0] (extractStridedSlice S1 ![12] (shapeCast S16 w0)))) (shapeCast S16 x12)))
      (mulf (broadcast S16 (extractAt ![0] (extractStridedSlice S1 ![13] (shapeCast S16 w0)))) (shapeCast S16 x13)))
      (mulf (broadcast S16 (extractAt ![0] (extractStridedSlice S1 ![14] (shapeCast S16 w0)))) (shapeCast S16 x14)))
      (mulf (broadcast S16 (extractAt ![0] (extractStridedSlice S1 ![15] (shapeCast S16 w0)))) (shapeCast S16 x15)))
      (mulf (broadcast S16 (extractAt ![0] (extractStridedSlice S1 ![0] (shapeCast S16 w1)))) (shapeCast S16 x16)))
      (mulf (broadcast S16 (extractAt ![0] (extractStridedSlice S1 ![1] (shapeCast S16 w1)))) (shapeCast S16 x17)))
      (mulf (broadcast S16 (extractAt ![0] (extractStridedSlice S1 ![2] (shapeCast S16 w1)))) (shapeCast S16 x18)))
      (mulf (broadcast S16 (extractAt ![0] (extractStridedSlice S1 ![3] (shapeCast S16 w1)))) (shapeCast S16 x19)))
      (mulf (broadcast S16 (extractAt ![0] (extractStridedSlice S1 ![4] (shapeCast S16 w1)))) (shapeCast S16 x20)))
      (mulf (broadcast S16 (extractAt ![0] (extractStridedSlice S1 ![5] (shapeCast S16 w1)))) (shapeCast S16 x21)))
      (mulf (broadcast S16 (extractAt ![0] (extractStridedSlice S1 ![6] (shapeCast S16 w1)))) (shapeCast S16 x22)))
      (mulf (broadcast S16 (extractAt ![0] (extractStridedSlice S1 ![7] (shapeCast S16 w1)))) (shapeCast S16 x23)))
      (mulf (broadcast S16 (extractAt ![0] (extractStridedSlice S1 ![8] (shapeCast S16 w1)))) (shapeCast S16 x24)))
      (mulf (broadcast S16 (extractAt ![0] (extractStridedSlice S1 ![9] (shapeCast S16 w1)))) (shapeCast S16 x25)))
      (mulf (broadcast S16 (extractAt ![0] (extractStridedSlice S1 ![10] (shapeCast S16 w1)))) (shapeCast S16 x26)))
      (mulf (broadcast S16 (extractAt ![0] (extractStridedSlice S1 ![11] (shapeCast S16 w1)))) (shapeCast S16 x27)))
      (mulf (broadcast S16 (extractAt ![0] (extractStridedSlice S1 ![12] (shapeCast S16 w1)))) (shapeCast S16 x28)))
      (mulf (broadcast S16 (extractAt ![0] (extractStridedSlice S1 ![13] (shapeCast S16 w1)))) (shapeCast S16 x29)))
      (mulf (broadcast S16 (extractAt ![0] (extractStridedSlice S1 ![14] (shapeCast S16 w1)))) (shapeCast S16 x30)))
      (mulf (broadcast S16 (extractAt ![0] (extractStridedSlice S1 ![15] (shapeCast S16 w1)))) (shapeCast S16 x31)))
      (broadcast S16 (Scalar.ofBits .f32 0x00000000#32)))) (ix2 (0 : Fin 1) l)
      = foldStore (s (ix2 (0 : Fin 1) l)) (w32 w0 w1) (fun k => (![x0, x1, x2, x3, x4, x5, x6, x7, x8, x9, x10, x11, x12, x13, x14, x15, x16, x17, x18, x19, x20, x21, x22, x23, x24, x25, x26, x27, x28, x29, x30, x31] : Fin 32 → Vec F S1x16 .f32) k (ix2 (0 : Fin 1) l)) := by
  simp only [addf_at, mulf_at, maximumf_at, broadcast_at, extract_lane, cast_row, cast_block]
  rfl

end Cert.Proof.KI

end
-- ==== Proof.KI.TripValue.lean ====
import proofs.«204698_g79517024518204_fold_wed_m_581_46_alg».proof.Proof.KI.Compute

noncomputable section

namespace Cert.Proof.KI

open Cert.KernelIdeal Cert.KernelIdeal.Gen
open Idealize.ShloMosaic Idealize.ShloMosaic.ValueIdx

variable {F : FTy → Type} [FloatOps F]

def nodeRow (w : Fin 32) (c : Fin 160) (n : Fin 2) : Fin 10240 := ⟨320 * w.val + 2 * c.val + n.val, by omega⟩

def edgeRow (w : Fin 32) (c : Fin 160) : Fin 2560 := ⟨80 * w.val + c.val / 2, by omega⟩

def edgeCol (c : Fin 160) (n : Fin 2) (k : Fin 32) : Fin 128 := ⟨(c.val % 2) * 64 + 32 * n.val + k.val, by omega⟩

def laneCol (dd : Fin 8) (l : Fin 16) : Fin 128 := ⟨16 * dd.val + l.val, by omega⟩

theorem nodeRow_val (w : Fin 32) (c : Fin 160) (n : Fin 2) : (nodeRow w c n).val = 320 * w.val + 2 * c.val + n.val := rfl

theorem edge_div (w : Fin 32) (c : Fin 160) (n : Fin 2) (k : Fin 32) :
    (32 * (nodeRow w c n).val + k.val) / 128 = 80 * w.val + c.val / 2 := by
  rw [nodeRow_val]; omega

theorem edge_mod (w : Fin 32) (c : Fin 160) (n : Fin 2) (k : Fin 32) :
    (32 * (nodeRow w c n).val + k.val) % 128 = (c.val % 2) * 64 + 32 * n.val + k.val := by
  rw [nodeRow_val]; omega

theorem edgeRow_lt (w : Fin 32) (c : Fin 160) (n : Fin 2) (hr : (nodeRow w c n).val < 10000) : (edgeRow w c).val < 2500 := by
  rw [nodeRow_val] at hr
  show 80 * w.val + c.val / 2 < 2500
  omega

variable (A : Ops F)

theorem wAt_eq (d : Dev nD) (w : Fin 32) (c : Fin 160) (n : Fin 2) (k : Fin 32) :
    wAt A d (nodeRow w c n) k = A.fe d (ix2 (edgeRow w c) (edgeCol c n k)) := by
  unfold wAt
  congr 2
  · exact Fin.ext (edge_div w c n k)
  · exact Fin.ext (edge_mod w c n k)

theorem nbAt_eq (d : Dev nD) (w : Fin 32) (c : Fin 160) (n : Fin 2) (k : Fin 32) :
    (nbAt A d (nodeRow w c n) k).val = (A.fi d (ix2 (edgeRow w c) (edgeCol c n k))).toNat % 10240 := by
  unfold nbAt
  show (A.fi d (ix2 _ _)).toNat % 10240 = _
  congr 4
  · exact Fin.ext (edge_div w c n k)
  · exact Fin.ext (edge_mod w c n k)

theorem foldAcc_eq_accAt (d : Dev nD) (r : Fin 10240) (o : Fin 128) (s : F .f32) (wv x : Fin 32 → F .f32)
    (hs : s = A.ff d (ix2 r o)) (hw : ∀ k, wv k = wAt A d r k) (hx : ∀ k, x k = A.ff d (ix2 (nbAt A d r k) o)) :
    ∀ (k : ℕ) (h : k ≤ 32), foldAcc s wv x k h = accAt A d r o k h := by
  intro k
  induction k with
  | zero => intro h; exact hs
  | succ k ih =>
    intro h
    show FloatOps.addf (foldAcc s wv x k (by omega)) (FloatOps.mulf (wv ⟨k, by omega⟩) (x ⟨k, by omega⟩))
      = FloatOps.addf (accAt A d r o k (by omega)) (FloatOps.mulf (wAt A d r ⟨k, by omega⟩) (A.ff d (ix2 (nbAt A d r ⟨k, by omega⟩) o)))
    rw [ih, hw, hx]

theorem trip_store_value (d : Dev nD) (w : Fin 32) (c : Fin 160) (n : Fin 2) (dd : Fin 8) (l : Fin 16)
    (s w0 w1 : Vec F S1x16 .f32) (rows : Fin 32 → Vec F S1x16 .f32) (fe' : Buf (Elt F) (ewLoc d))
    (hs : s (ix2 (0 : Fin 1) l) = A.ff d (ix2 (nodeRow w c n) (laneCol dd l)))
    (hw0 : ∀ l' : Fin 16, w0 (ix2 (0 : Fin 1) l') = fe' (ix2 (edgeRow w c) (edgeCol c n ⟨l'.val, by omega⟩)))
    (hw1 : ∀ l' : Fin 16, w1 (ix2 (0 : Fin 1) l') = fe' (ix2 (edgeRow w c) (edgeCol c n ⟨16 + l'.val, by omega⟩)))
    (hfe : ∀ j : S2560x128.Idx, (j 0).val < 2500 → fe' j = A.fe d j) (hr : (nodeRow w c n).val < 10000)
    (hrows : ∀ k : Fin 32, rows k (ix2 (0 : Fin 1) l) = A.ff d (ix2 (nbAt A d (nodeRow w c n) k) (laneCol dd l))) :
    foldStore (s (ix2 (0 : Fin 1) l)) (w32 w0 w1) (fun k => rows k (ix2 (0 : Fin 1) l))
      = outVal A d (ix2 (nodeRow w c n) (laneCol dd l)) := by
  have hw : ∀ k : Fin 32, w32 w0 w1 k = wAt A d (nodeRow w c n) k := by
    intro k
    rw [wAt_eq, ← hfe _ (edgeRow_lt w c n hr)]
    unfold w32
    split
    · next h => rw [hw0 ⟨k.val, h⟩]
    · next h =>
      rw [hw1 ⟨k.val - 16, by omega⟩]
      congr 2
      exact Fin.ext (by show (c.val % 2) * 64 + 32 * n.val + (16 + (k.val - 16)) = (c.val % 2) * 64 + 32 * n.val + k.val; omega)
  show FloatOps.maximumf (foldAcc _ _ _ 32 le_rfl) _ = FloatOps.maximumf (accAt A d (nodeRow w c n) (laneCol dd l) 32 le_rfl) _
  rw [foldAcc_eq_accAt A d (nodeRow w c n) (laneCol dd l) _ _ _ hs hw hrows 32 le_rfl]

end Cert.Proof.KI

end
-- ==== Proof.KI.Offsets.lean ====
import proofs.«204698_g79517024518204_fold_wed_m_581_46_alg».proof.Proof.Gen.KernelIdeal

namespace Cert.Proof.KI

open Cert.KernelIdeal Cert.KernelIdeal.Gen
open Idealize.ShloMosaic

theorem trips_eq : k1_t1_loop.trips = 80 := by decide +kernel

theorem k1_off4_eq : ∀ k : Fin k1_t1_loop.trips, k1_off4 k = ![k.val, 64] := by decide +kernel

theorem k1_off8_eq : ∀ k : Fin k1_t1_loop.trips, k1_off8 k = ![k.val + 1, 0] := by decide +kernel

theorem k1_off6_eq_0_0 : ∀ k : Fin k1_t1_loop.trips, k1_off6 k 0#32 0#32 = ![k.val, 0] := by decide +kernel
theorem k1_off6_eq_0_16 : ∀ k : Fin k1_t1_loop.trips, k1_off6 k 0#32 16#32 = ![k.val, 16] := by decide +kernel
theorem k1_off6_eq_32_0 : ∀ k : Fin k1_t1_loop.trips, k1_off6 k 32#32 0#32 = ![k.val, 32] := by decide +kernel
theorem k1_off6_eq_32_16 : ∀ k : Fin k1_t1_loop.trips, k1_off6 k 32#32 16#32 = ![k.val, 48] := by decide +kernel

theorem k1_off10_eq_0_0 : ∀ k : Fin k1_t1_loop.trips, k1_off10 k 0#32 0#32 = ![k.val, 64] := by decide +kernel
theorem k1_off10_eq_0_16 : ∀ k : Fin k1_t1_loop.trips, k1_off10 k 0#32 16#32 = ![k.val, 80] := by decide +kernel
theorem k1_off10_eq_32_0 : ∀ k : Fin k1_t1_loop.trips, k1_off10 k 32#32 0#32 = ![k.val, 96] := by decide +kernel
theorem k1_off10_eq_32_16 : ∀ k : Fin k1_t1_loop.trips, k1_off10 k 32#32 16#32 = ![k.val, 112] := by decide +kernel

end Cert.Proof.KI
-- ==== Proof.KI.Loads.lean ====
import proofs.«204698_g79517024518204_fold_wed_m_581_46_alg».proof.Proof.KI.TripValue
import proofs.«204698_g79517024518204_fold_wed_m_581_46_alg».proof.Proof.KI.Offsets
import Idealize.ShloMosaic.Lib.Exec.Geometry

noncomputable section

namespace Cert.Proof.KI

open Cert.KernelIdeal Cert.KernelIdeal.Gen
open Idealize.ShloMosaic Idealize.ShloMosaic.ValueIdx

section Generic
variable {sg : RefSig} {κ : Kind} {sp : Space} {s : Shape} {e : EltTy} {Val : EltTy → Type}

theorem readAt_unit_write_univ (v : View sg κ sp s e) (f : v.ty.Contents Val) (W : s.Idx → Val e) (off size : Fin s.rank → ℕ)
    (inb : ∀ a, off a + size a ≤ s.size a) (x : (Rect.unit off size inb).shape.Idx) :
    v.readAt Val (Rect.unit off size inb).toLoadRect (v.write Val f W Finset.univ) x = W ((Rect.unit off size inb).emb x) := by
  rw [View.readAt_apply, View.read_write_univ]
  rfl

theorem readAt_unit_writes_whole (v : View sg κ sp s e) (f : v.ty.Contents Val) (G : s.Idx → Val e) (off size : Fin s.rank → ℕ)
    (inb : ∀ a, off a + size a ≤ s.size a) (x : (Rect.unit off size inb).shape.Idx) :
    v.readAt Val (Rect.unit off size inb).toLoadRect (v.writes Val f [⟨Rect.whole s, G⟩]) x = G ((Rect.unit off size inb).emb x) := by
  rw [View.readAt_apply, View.read_writes_whole]
  rfl

end Generic

variable {F : FTy → Type} [FloatOps F]

def tileW (L : grid1.Coords) : Fin 32 :=
  ⟨2 * (L 1).val + (L 0).val, by
    have h0 : (L 0).val < 2 := (L 0).isLt
    have h1 : (L 1).val < 16 := (L 1).isLt
    omega⟩

omit [FloatOps F] in
theorem tileW_val (L : grid1.Coords) : (tileW L).val = 2 * (L 1).val + (L 0).val := rfl

abbrev ewRows (L : grid1.Coords) : Memref sig .scVector .hbm S80x128 .f32 :=
  (Memref.whole main_v7_1_scv).slice (Rect.unit (s := S2560x128) (k1_off2 L) S80x128.size (k1_off2_inb L)) (fun _ => rfl)
abbrev idxRows (L : grid1.Coords) : Memref sig .scVector .hbm S80x128 .i32 :=
  (Memref.whole main_v9_scv).slice (Rect.unit (s := S2560x128) (k1_off2 L) S80x128.size (k1_off2_inb L)) (fun _ => rfl)

theorem idx2_ext {R C : ℕ} (i j : (⟨2, ![R, C]⟩ : Shape).Idx) (h0 : (i 0).val = (j 0).val) (h1 : (i 1).val = (j 1).val) : i = j := by
  funext a
  match a with
  | ⟨0, _⟩ => exact Fin.ext h0
  | ⟨1, _⟩ => exact Fin.ext h1

theorem load_weights (d : Dev nD) (L : grid1.Coords) (f1 : (Memref.whole cc1_scratch1).view.ty.Contents (Elt F)) (fe : Buf (Elt F) (ewLoc d))
    (off : Fin 2 → ℕ) (inb : ∀ a, off a + S1x16.size a ≤ S80x128.size a) (r col : ℕ) (hoff : off = ![r, col])
    (hr : r < 80) (hc : col + 16 ≤ 128) (l : Fin 16) :
    (Memref.whole cc1_scratch1).view.readAt (Elt F) (Rect.unit (s := S80x128) off S1x16.size inb).toLoadRect
        (View.write (Elt F) (Memref.whole cc1_scratch1).view f1 ((ewRows L).view.read (Elt F) fe) Finset.univ) (ix2 (0 : Fin 1) l)
      = fe (ix2 (⟨80 * (tileW L).val + r, by have := (tileW L).isLt; omega⟩ : Fin 2560) (⟨col + l.val, by omega⟩ : Fin 128)) := by
  subst hoff
  rw [readAt_unit_write_univ]
  show fe _ = fe _
  congr 1
  apply idx2_ext
  · show k1_off2 L 0 + 1 * (r + 1 * 0) = 80 * (tileW L).val + r
    rw [k1_off2_eq, tileW_val]
    show 160 * (L 1).val + 80 * (L 0).val + 1 * (r + 1 * 0) = _
    omega
  · show k1_off2 L 1 + 1 * (col + 1 * l.val) = col + l.val
    rw [k1_off2_eq]
    show 0 + 1 * (col + 1 * l.val) = _
    omega

theorem load_self {κ : Kind} {sp : Space} (v : View sig κ sp S2x128 .f32) (fS : v.ty.Contents (Elt F))
    (g : (Memref.whole cc1_scratch8).view.ty.Contents (Elt F))
    (off8 : Fin 2 → ℕ) (inb8 : ∀ a, off8 a + S2x128.size a ≤ S10240x128.size a) (hr8 : ∀ a, (Rect.unit (s := S10240x128) off8 S2x128.size inb8).stride a = 1)
    (base : ℕ) (hoff8 : off8 = ![base, 0]) (hb : base + 2 ≤ 10240)
    (off : Fin 2 → ℕ) (inb : ∀ a, off a + S1x16.size a ≤ S2x128.size a) (n col : ℕ) (hoff : off = ![n, col]) (hn : n < 2) (hc : col + 16 ≤ 128)
    (l : Fin 16) :
    v.readAt (Elt F) (Rect.unit (s := S2x128) off S1x16.size inb).toLoadRect
        (v.write (Elt F) fS (((Memref.whole cc1_scratch8).slice (Rect.unit (s := S10240x128) off8 S2x128.size inb8) hr8).view.read (Elt F) g) Finset.univ)
        (ix2 (0 : Fin 1) l)
      = g (ix2 (⟨base + n, by omega⟩ : Fin 10240) (⟨col + l.val, by omega⟩ : Fin 128)) := by
  subst hoff hoff8
  rw [readAt_unit_write_univ]
  show g _ = g _
  congr 1
  apply idx2_ext
  · show base + 1 * (n + 1 * 0) = base + n
    omega
  · show 0 + 1 * (col + 1 * l.val) = col + l.val
    omega

theorem load_row {κ : Kind} {sp : Space} (v : View sig κ sp S64x128 .f32) (f2 : v.ty.Contents (Elt F))
    (hg : S10240x128.Gathers 0 S64x128) (tab : S10240x128.Idx → Elt F .f32)
    (rws : Fin (S64x128.size hg.axis') → Fin (S10240x128.size hg.axis))
    (off : Fin 2 → ℕ) (inb : ∀ a, off a + S1x16.size a ≤ S64x128.size a) (e col : ℕ) (hoff : off = ![e, col]) (he : e < 64) (hc : col + 16 ≤ 128)
    (l : Fin 16) :
    v.readAt (Elt F) (Rect.unit (s := S64x128) off S1x16.size inb).toLoadRect
        (v.writes (Elt F) f2 [⟨Rect.whole S64x128, SparseCore.gatherPayload hg tab rws⟩]) (ix2 (0 : Fin 1) l)
      = tab (ix2 (rws ⟨e, he⟩) (⟨col + l.val, by omega⟩ : Fin 128)) := by
  subst hoff
  rw [readAt_unit_writes_whole]
  unfold SparseCore.gatherPayload
  congr 1
  apply idx2_ext
  · have h := congrArg Fin.val (Shape.Gathers.idx_axis hg rws ((Rect.unit (s := S64x128) ![e, col] S1x16.size inb).emb (ix2 (0 : Fin 1) l)))
    refine h.trans ?_
    congr 2
  · refine (Shape.Gathers.idx_of_ne hg rws _ 1 (by decide)).trans ?_
    show col + 1 * l.val = col + l.val
    omega

omit [FloatOps F] in

theorem squeeze_idx (h : S64.numel = S1x64.numel) (e : Fin 64) : Shape.reshapeEquiv h (ix1 e) = ix2 (0 : Fin 1) e :=
  Shape.reshapeEquiv_eq_of_rowMajor h (by
    rw [Shape.rowMajor_val_two, Shape.rowMajor_val_one]
    show 0 * 64 + e.val = e.val
    omega)

theorem list_word (d : Dev nD) (L : grid1.Coords) (f0 : (Memref.whole cc1_scratch0).view.ty.Contents (Elt F)) (fi : Buf (Elt F) (idxLoc d))
    (offL : Fin 2 → ℕ) (inbL : ∀ a, offL a + S1x64.size a ≤ S80x128.size a)
    (hrL : ∀ a, (Rect.unit (s := S80x128) offL S1x64.size inbL).stride a = 1)
    (r0 c0 : ℕ) (hoffL : offL = ![r0, c0]) (hr0 : r0 < 80) (hc0 : c0 + 64 ≤ 128) (e : Fin 64) :
    (((Memref.whole cc1_scratch0).slice (Rect.unit (s := S80x128) offL S1x64.size inbL) hrL).squeeze S64 squeezes_S1x64_S64).view.read (Elt F)
        (View.write (Elt F) (Memref.whole cc1_scratch0).view f0 ((idxRows L).view.read (Elt F) fi) Finset.univ) (ix1 e)
      = fi (ix2 (⟨80 * (tileW L).val + r0, by have := (tileW L).isLt; omega⟩ : Fin 2560) (⟨c0 + e.val, by omega⟩ : Fin 128)) := by
  subst hoffL
  have h1 : (((Memref.whole cc1_scratch0).slice (Rect.unit (s := S80x128) ![r0, c0] S1x64.size inbL) hrL).squeeze S64 squeezes_S1x64_S64).view.read (Elt F)
        (View.write (Elt F) (Memref.whole cc1_scratch0).view f0 ((idxRows L).view.read (Elt F) fi) Finset.univ) (ix1 e)
      = (Memref.whole cc1_scratch0).view.read (Elt F)
          (View.write (Elt F) (Memref.whole cc1_scratch0).view f0 ((idxRows L).view.read (Elt F) fi) Finset.univ)
          ((Rect.unit (s := S80x128) ![r0, c0] S1x64.size inbL).emb (Shape.reshapeEquiv squeezes_S1x64_S64.numel_eq (ix1 e))) := rfl
  rw [h1, View.read_write_univ, squeeze_idx]
  show fi _ = fi _
  congr 1
  apply idx2_ext
  · show k1_off2 L 0 + 1 * (r0 + 1 * 0) = 80 * (tileW L).val + r0
    rw [k1_off2_eq, tileW_val]
    show 160 * (L 1).val + 80 * (L 0).val + 1 * (r0 + 1 * 0) = _
    omega
  · show k1_off2 L 1 + 1 * (c0 + 1 * e.val) = c0 + e.val
    rw [k1_off2_eq]
    show 0 + 1 * (c0 + 1 * e.val) = _
    omega

theorem rows_word (idx : S64.Idx → Elt F .i32) (hn : S64.numel = 64) (h : ∀ x, (idx x).toNat < 10240) (e : Fin 64) :
    (SparseCore.rows (F := F) idx hn h e).val = (idx (ix1 e)).toNat := by
  unfold SparseCore.rows
  show (idx _).toNat = (idx _).toNat
  congr 2
  funext a
  have ha : a = 0 := Subsingleton.elim _ _
  subst ha
  apply Fin.ext
  have hv := Shape.rowMajor_val_one (S64.rowMajor.symm (e.cast hn.symm))
  rw [Equiv.apply_symm_apply] at hv
  exact hv.symm

theorem tab_read (A : Ops F) (d : Dev nD) (c : Fin τ.nSC) (inb : ∀ a, (![0, 0] : Fin 2 → ℕ) a + S10240x128.size a ≤ S10240x128.size a)
    (hr : ∀ a, (Rect.unit (s := S10240x128) ![0, 0] S10240x128.size inb).stride a = 1) (y : S10240x128.Idx) :
    ((Memref.whole cc1_scratch8).slice (Rect.unit (s := S10240x128) ![0, 0] S10240x128.size inb) hr).view.read (Elt F) (ffsh A d c) y = A.ff d y := by
  show ffsh A d c _ = A.ff d y
  unfold ffsh
  congr 1
  apply idx2_ext
  · show 0 + 1 * (y 0).val = (y 0).val; omega
  · show 0 + 1 * (y 1).val = (y 1).val; omega

end Cert.Proof.KI

end
-- ==== Proof.KI.StoreRead.lean ====
import proofs.«204698_g79517024518204_fold_wed_m_581_46_alg».proof.Proof.KI.TripValue
import Idealize.ShloMosaic.Lib.Writes

noncomputable section

namespace Cert.Proof.KI

open Cert.KernelIdeal Cert.KernelIdeal.Gen
open Idealize.ShloMosaic Idealize.ShloMosaic.ValueIdx

variable {F : FTy → Type} [FloatOps F]

omit [FloatOps F] in

theorem unit_emb_ix2 (n c : ℕ) (inb : ∀ a, (![n, c] : Fin S2x128.rank → ℕ) a + S1x16.size a ≤ S2x128.size a) (l : Fin 16)
    (hn : n < 2) (hc : c + 16 ≤ 128) :
    (Rect.unit (s := S2x128) ![n, c] S1x16.size inb).emb (ix2 (0 : Fin 1) l) = ix2 (⟨n, hn⟩ : Fin 2) (⟨c + l.val, by omega⟩ : Fin 128) := by
  funext a
  apply Fin.ext
  rw [Rect.emb_apply]
  match a with
  | ⟨0, _⟩ => show n + 1 * 0 = n; omega
  | ⟨1, _⟩ => show c + 1 * l.val = c + l.val; omega

omit [FloatOps F] in

omit [FloatOps F] in

theorem block_idx (x : S1x16.Idx) : x = ix2 (0 : Fin 1) (x 1) := by
  funext a
  match a with
  | ⟨0, _⟩ =>
    apply Fin.ext
    have h : (x ⟨0, by decide⟩).val < S1x16.size ⟨0, by decide⟩ := (x ⟨0, by decide⟩).isLt
    change _ < 1 at h
    show (x ⟨0, _⟩).val = 0
    omega
  | ⟨1, _⟩ => rfl

theorem piece_ok (n c : ℕ) (inb : ∀ a, (![n, c] : Fin S2x128.rank → ℕ) a + S1x16.size a ≤ S2x128.size a) (hn : n < 2) (hc : c + 16 ≤ 128)
    (G : S2x128.Idx → F .f32) (w : S1x16.Idx → F .f32)
    (h : ∀ l : Fin 16, w (ix2 (0 : Fin 1) l) = G (ix2 (⟨n, hn⟩ : Fin 2) (⟨c + l.val, by omega⟩ : Fin 128))) :
    ∀ x : S1x16.Idx, w x = G ((Rect.unit (s := S2x128) ![n, c] S1x16.size inb).emb x) := by
  intro x
  obtain ⟨l, rfl⟩ : ∃ l : Fin 16, x = ix2 (0 : Fin 1) l := ⟨x 1, block_idx x⟩
  rw [unit_emb_ix2 n c inb l hn hc]
  exact h l

theorem read_after_stores {κ : Kind} {sp : Space} (v : View sig κ sp S2x128 .f32) (f : v.ty.Contents (Elt F)) (G : S2x128.Idx → F .f32)
    (p00 p01 p02 p03 p04 p05 p06 p07 p10 p11 p12 p13 p14 p15 p16 p17 : S1x16.Idx → F .f32)
    (h00 : ∀ l : Fin 16, p00 (ix2 (0 : Fin 1) l) = G (ix2 (0 : Fin 2) (laneCol 0 l)))
    (h01 : ∀ l : Fin 16, p01 (ix2 (0 : Fin 1) l) = G (ix2 (0 : Fin 2) (laneCol 1 l)))
    (h02 : ∀ l : Fin 16, p02 (ix2 (0 : Fin 1) l) = G (ix2 (0 : Fin 2) (laneCol 2 l)))
    (h03 : ∀ l : Fin 16, p03 (ix2 (0 : Fin 1) l) = G (ix2 (0 : Fin 2) (laneCol 3 l)))
    (h04 : ∀ l : Fin 16, p04 (ix2 (0 : Fin 1) l) = G (ix2 (0 : Fin 2) (laneCol 4 l)))
    (h05 : ∀ l : Fin 16, p05 (ix2 (0 : Fin 1) l) = G (ix2 (0 : Fin 2) (laneCol 5 l)))
    (h06 : ∀ l : Fin 16, p06 (ix2 (0 : Fin 1) l) = G (ix2 (0 : Fin 2) (laneCol 6 l)))
    (h07 : ∀ l : Fin 16, p07 (ix2 (0 : Fin 1) l) = G (ix2 (0 : Fin 2) (laneCol 7 l)))
    (h10 : ∀ l : Fin 16, p10 (ix2 (0 : Fin 1) l) = G (ix2 (1 : Fin 2) (laneCol 0 l)))
    (h11 : ∀ l : Fin 16, p11 (ix2 (0 : Fin 1) l) = G (ix2 (1 : Fin 2) (laneCol 1 l)))
    (h12 : ∀ l : Fin 16, p12 (ix2 (0 : Fin 1) l) = G (ix2 (1 : Fin 2) (laneCol 2 l)))
    (h13 : ∀ l : Fin 16, p13 (ix2 (0 : Fin 1) l) = G (ix2 (1 : Fin 2) (laneCol 3 l)))
    (h14 : ∀ l : Fin 16, p14 (ix2 (0 : Fin 1) l) = G (ix2 (1 : Fin 2) (laneCol 4 l)))
    (h15 : ∀ l : Fin 16, p15 (ix2 (0 : Fin 1) l) = G (ix2 (1 : Fin 2) (laneCol 5 l)))
    (h16 : ∀ l : Fin 16, p16 (ix2 (0 : Fin 1) l) = G (ix2 (1 : Fin 2) (laneCol 6 l)))
    (h17 : ∀ l : Fin 16, p17 (ix2 (0 : Fin 1) l) = G (ix2 (1 : Fin 2) (laneCol 7 l))) :
    v.read (Elt F) (v.writes (Elt F) f [
      ⟨Rect.unit (s := S2x128) ![1, 112] S1x16.size inb_S2x128_S1x16_1_112, p17⟩,
      ⟨Rect.unit (s := S2x128) ![1, 96] S1x16.size inb_S2x128_S1x16_1_96, p16⟩,
      ⟨Rect.unit (s := S2x128) ![1, 80] S1x16.size inb_S2x128_S1x16_1_80, p15⟩,
      ⟨Rect.unit (s := S2x128) ![1, 64] S1x16.size inb_S2x128_S1x16_1_64, p14⟩,
      ⟨Rect.unit (s := S2x128) ![1, 48] S1x16.size inb_S2x128_S1x16_1_48, p13⟩,
      ⟨Rect.unit (s := S2x128) ![1, 32] S1x16.size inb_S2x128_S1x16_1_32, p12⟩,
      ⟨Rect.unit (s := S2x128) ![1, 16] S1x16.size inb_S2x128_S1x16_1_16, p11⟩,
      ⟨Rect.unit (s := S2x128) ![1, 0] S1x16.size inb_S2x128_S1x16_1_0, p10⟩,
      ⟨Rect.unit (s := S2x128) ![0, 112] S1x16.size inb_S2x128_S1x16_0_112, p07⟩,
      ⟨Rect.unit (s := S2x128) ![0, 96] S1x16.size inb_S2x128_S1x16_0_96, p06⟩,
      ⟨Rect.unit (s := S2x128) ![0, 80] S1x16.size inb_S2x128_S1x16_0_80, p05⟩,
      ⟨Rect.unit (s := S2x128) ![0, 64] S1x16.size inb_S2x128_S1x16_0_64, p04⟩,
      ⟨Rect.unit (s := S2x128) ![0, 48] S1x16.size inb_S2x128_S1x16_0_48, p03⟩,
      ⟨Rect.unit (s := S2x128) ![0, 32] S1x16.size inb_S2x128_S1x16_0_32, p02⟩,
      ⟨Rect.unit (s := S2x128) ![0, 16] S1x16.size inb_S2x128_S1x16_0_16, p01⟩,
      ⟨Rect.unit (s := S2x128) ![0, 0] S1x16.size inb_S2x128_S1x16_0_0, p00⟩]) = G := by
  funext y
  refine View.read_writes_apply_of_pieces v f G _ ?_ y (View.cover_of_tiled (s := S2x128) _ S1x16.size rfl y)
  intro p hp
  simp only [List.mem_cons, List.not_mem_nil, or_false] at hp
  rcases hp with rfl | rfl | rfl | rfl | rfl | rfl | rfl | rfl | rfl | rfl | rfl | rfl | rfl | rfl | rfl | rfl
  · exact piece_ok 1 112 inb_S2x128_S1x16_1_112 (by omega) (by omega) G p17 h17
  · exact piece_ok 1 96 inb_S2x128_S1x16_1_96 (by omega) (by omega) G p16 h16
  · exact piece_ok 1 80 inb_S2x128_S1x16_1_80 (by omega) (by omega) G p15 h15
  · exact piece_ok 1 64 inb_S2x128_S1x16_1_64 (by omega) (by omega) G p14 h14
  · exact piece_ok 1 48 inb_S2x128_S1x16_1_48 (by omega) (by omega) G p13 h13
  · exact piece_ok 1 32 inb_S2x128_S1x16_1_32 (by omega) (by omega) G p12 h12
  · exact piece_ok 1 16 inb_S2x128_S1x16_1_16 (by omega) (by omega) G p11 h11
  · exact piece_ok 1 0 inb_S2x128_S1x16_1_0 (by omega) (by omega) G p10 h10
  · exact piece_ok 0 112 inb_S2x128_S1x16_0_112 (by omega) (by omega) G p07 h07
  · exact piece_ok 0 96 inb_S2x128_S1x16_0_96 (by omega) (by omega) G p06 h06
  · exact piece_ok 0 80 inb_S2x128_S1x16_0_80 (by omega) (by omega) G p05 h05
  · exact piece_ok 0 64 inb_S2x128_S1x16_0_64 (by omega) (by omega) G p04 h04
  · exact piece_ok 0 48 inb_S2x128_S1x16_0_48 (by omega) (by omega) G p03 h03
  · exact piece_ok 0 32 inb_S2x128_S1x16_0_32 (by omega) (by omega) G p02 h02
  · exact piece_ok 0 16 inb_S2x128_S1x16_0_16 (by omega) (by omega) G p01 h01
  · exact piece_ok 0 0 inb_S2x128_S1x16_0_0 (by omega) (by omega) G p00 h00

end Cert.Proof.KI

end
-- ==== Proof.KI.ChunkBuffer.lean ====
import proofs.«204698_g79517024518204_fold_wed_m_581_46_alg».proof.Proof.KI.StoreRead

noncomputable section

namespace Cert.Proof.KI

open Cert.KernelIdeal Cert.KernelIdeal.Gen
open Idealize.ShloMosaic Idealize.ShloMosaic.ValueIdx

variable {F : FTy → Type} [FloatOps F]

def glue (sel : Fin 2 → Fin 8 → (S1x16.Idx → F .f32)) : S2x128.Idx → F .f32 := fun y =>
  sel (y 0) (⟨(y 1).val / 16, by have := (y 1).isLt; change _ < 128 at this; omega⟩ : Fin 8)
    (ix2 (0 : Fin 1) (⟨(y 1).val % 16, Nat.mod_lt _ (by decide)⟩ : Fin 16))

theorem glue_lane (sel : Fin 2 → Fin 8 → (S1x16.Idx → F .f32)) (n : Fin 2) (dd : Fin 8) (l : Fin 16) :
    glue sel (ix2 n (laneCol dd l)) = sel n dd (ix2 (0 : Fin 1) l) := by
  unfold glue
  have e1 : (⟨((ix2 n (laneCol dd l) : S2x128.Idx) 1).val / 16, by
      have := ((ix2 n (laneCol dd l) : S2x128.Idx) 1).isLt; change _ < 128 at this; omega⟩ : Fin 8) = dd :=
    Fin.ext (by show (16 * dd.val + l.val) / 16 = dd.val; omega)
  have e2 : (⟨((ix2 n (laneCol dd l) : S2x128.Idx) 1).val % 16, Nat.mod_lt _ (by decide)⟩ : Fin 16) = l :=
    Fin.ext (by show (16 * dd.val + l.val) % 16 = l.val; omega)
  rw [e1, e2]

theorem read_after_stores_sel {κ : Kind} {sp : Space} (v : View sig κ sp S2x128 .f32) (f : v.ty.Contents (Elt F))
    (sel : Fin 2 → Fin 8 → (S1x16.Idx → F .f32)) :
    v.read (Elt F) (v.writes (Elt F) f [
      ⟨Rect.unit (s := S2x128) ![1, 112] S1x16.size inb_S2x128_S1x16_1_112, sel 1 7⟩,
      ⟨Rect.unit (s := S2x128) ![1, 96] S1x16.size inb_S2x128_S1x16_1_96, sel 1 6⟩,
      ⟨Rect.unit (s := S2x128) ![1, 80] S1x16.size inb_S2x128_S1x16_1_80, sel 1 5⟩,
      ⟨Rect.unit (s := S2x128) ![1, 64] S1x16.size inb_S2x128_S1x16_1_64, sel 1 4⟩,
      ⟨Rect.unit (s := S2x128) ![1, 48] S1x16.size inb_S2x128_S1x16_1_48, sel 1 3⟩,
      ⟨Rect.unit (s := S2x128) ![1, 32] S1x16.size inb_S2x128_S1x16_1_32, sel 1 2⟩,
      ⟨Rect.unit (s := S2x128) ![1, 16] S1x16.size inb_S2x128_S1x16_1_16, sel 1 1⟩,
      ⟨Rect.unit (s := S2x128) ![1, 0] S1x16.size inb_S2x128_S1x16_1_0, sel 1 0⟩,
      ⟨Rect.unit (s := S2x128) ![0, 112] S1x16.size inb_S2x128_S1x16_0_112, sel 0 7⟩,
      ⟨Rect.unit (s := S2x128) ![0, 96] S1x16.size inb_S2x128_S1x16_0_96, sel 0 6⟩,
      ⟨Rect.unit (s := S2x128) ![0, 80] S1x16.size inb_S2x128_S1x16_0_80, sel 0 5⟩,
      ⟨Rect.unit (s := S2x128) ![0, 64] S1x16.size inb_S2x128_S1x16_0_64, sel 0 4⟩,
      ⟨Rect.unit (s := S2x128) ![0, 48] S1x16.size inb_S2x128_S1x16_0_48, sel 0 3⟩,
      ⟨Rect.unit (s := S2x128) ![0, 32] S1x16.size inb_S2x128_S1x16_0_32, sel 0 2⟩,
      ⟨Rect.unit (s := S2x128) ![0, 16] S1x16.size inb_S2x128_S1x16_0_16, sel 0 1⟩,
      ⟨Rect.unit (s := S2x128) ![0, 0] S1x16.size inb_S2x128_S1x16_0_0, sel 0 0⟩]) = glue sel :=
  read_after_stores v f (glue sel) (sel 0 0) (sel 0 1) (sel 0 2) (sel 0 3) (sel 0 4) (sel 0 5) (sel 0 6) (sel 0 7) (sel 1 0) (sel 1 1) (sel 1 2) (sel 1 3) (sel 1 4) (sel 1 5) (sel 1 6) (sel 1 7)
      (fun l => (glue_lane sel 0 0 l).symm)
      (fun l => (glue_lane sel 0 1 l).symm)
      (fun l => (glue_lane sel 0 2 l).symm)
      (fun l => (glue_lane sel 0 3 l).symm)
      (fun l => (glue_lane sel 0 4 l).symm)
      (fun l => (glue_lane sel 0 5 l).symm)
      (fun l => (glue_lane sel 0 6 l).symm)
      (fun l => (glue_lane sel 0 7 l).symm)
      (fun l => (glue_lane sel 1 0 l).symm)
      (fun l => (glue_lane sel 1 1 l).symm)
      (fun l => (glue_lane sel 1 2 l).symm)
      (fun l => (glue_lane sel 1 3 l).symm)
      (fun l => (glue_lane sel 1 4 l).symm)
      (fun l => (glue_lane sel 1 5 l).symm)
      (fun l => (glue_lane sel 1 6 l).symm)
      (fun l => (glue_lane sel 1 7 l).symm)

theorem chunk_buffer_value (A : Ops F) (d : Dev nD) (w : Fin 32) (c : Fin 160) {κ : Kind} {sp : Space} (v : View sig κ sp S2x128 .f32)
    (f : v.ty.Contents (Elt F)) (sel : Fin 2 → Fin 8 → (S1x16.Idx → F .f32))
    (H : ∀ (n : Fin 2) (dd : Fin 8) (l : Fin 16), (nodeRow w c n).val < 10000 →
      sel n dd (ix2 (0 : Fin 1) l) = outVal A d (ix2 (nodeRow w c n) (laneCol dd l)))
    (y : S2x128.Idx) (hy : (nodeRow w c (y 0)).val < 10000) :
    v.read (Elt F) (v.writes (Elt F) f [
      ⟨Rect.unit (s := S2x128) ![1, 112] S1x16.size inb_S2x128_S1x16_1_112, sel 1 7⟩,
      ⟨Rect.unit (s := S2x128) ![1, 96] S1x16.size inb_S2x128_S1x16_1_96, sel 1 6⟩,
      ⟨Rect.unit (s := S2x128) ![1, 80] S1x16.size inb_S2x128_S1x16_1_80, sel 1 5⟩,
      ⟨Rect.unit (s := S2x128) ![1, 64] S1x16.size inb_S2x128_S1x16_1_64, sel 1 4⟩,
      ⟨Rect.unit (s := S2x128) ![1, 48] S1x16.size inb_S2x128_S1x16_1_48, sel 1 3⟩,
      ⟨Rect.unit (s := S2x128) ![1, 32] S1x16.size inb_S2x128_S1x16_1_32, sel 1 2⟩,
      ⟨Rect.unit (s := S2x128) ![1, 16] S1x16.size inb_S2x128_S1x16_1_16, sel 1 1⟩,
      ⟨Rect.unit (s := S2x128) ![1, 0] S1x16.size inb_S2x128_S1x16_1_0, sel 1 0⟩,
      ⟨Rect.unit (s := S2x128) ![0, 112] S1x16.size inb_S2x128_S1x16_0_112, sel 0 7⟩,
      ⟨Rect.unit (s := S2x128) ![0, 96] S1x16.size inb_S2x128_S1x16_0_96, sel 0 6⟩,
      ⟨Rect.unit (s := S2x128) ![0, 80] S1x16.size inb_S2x128_S1x16_0_80, sel 0 5⟩,
      ⟨Rect.unit (s := S2x128) ![0, 64] S1x16.size inb_S2x128_S1x16_0_64, sel 0 4⟩,
      ⟨Rect.unit (s := S2x128) ![0, 48] S1x16.size inb_S2x128_S1x16_0_48, sel 0 3⟩,
      ⟨Rect.unit (s := S2x128) ![0, 32] S1x16.size inb_S2x128_S1x16_0_32, sel 0 2⟩,
      ⟨Rect.unit (s := S2x128) ![0, 16] S1x16.size inb_S2x128_S1x16_0_16, sel 0 1⟩,
      ⟨Rect.unit (s := S2x128) ![0, 0] S1x16.size inb_S2x128_S1x16_0_0, sel 0 0⟩]) y = outVal A d (ix2 (nodeRow w c (y 0)) (y 1)) := by
  rw [read_after_stores_sel]
  unfold glue
  rw [H _ _ _ hy]
  congr 2
  apply Fin.ext
  show 16 * ((y 1).val / 16) + (y 1).val % 16 = (y 1).val
  omega

end Cert.Proof.KI

end
-- ==== Proof.KI.ChunkValue.lean ====
import proofs.«204698_g79517024518204_fold_wed_m_581_46_alg».proof.Proof.KI.Loads

noncomputable section

namespace Cert.Proof.KI

open Cert.KernelIdeal Cert.KernelIdeal.Gen
open Idealize.ShloMosaic Idealize.ShloMosaic.ValueIdx

variable {F : FTy → Type} [FloatOps F]

theorem trip_store_value_nat (A : Ops F) (d : Dev nD) (w : Fin 32) (c : Fin 160) (n : Fin 2) (dd : Fin 8) (l : Fin 16)
    (s w0 w1 : Vec F S1x16 .f32) (rows : Fin 32 → Vec F S1x16 .f32) (fe' : Buf (Elt F) (ewLoc d))
    (base : ℕ) (hbase : base = 320 * w.val + 2 * c.val) (colS : ℕ) (hcolS : colS = 16 * dd.val)
    (hs : s (ix2 (0 : Fin 1) l) = A.ff d (ix2 (⟨base + n.val, by omega⟩ : Fin 10240) (⟨colS + l.val, by omega⟩ : Fin 128)))
    (r : ℕ) (hr : r = c.val / 2) (col0 : ℕ) (hcol0 : col0 = (c.val % 2) * 64 + 32 * n.val) (col1 : ℕ) (hcol1 : col1 = col0 + 16)
    (hw0 : ∀ l' : Fin 16, w0 (ix2 (0 : Fin 1) l') = fe' (ix2 (⟨80 * w.val + r, by omega⟩ : Fin 2560) (⟨col0 + l'.val, by omega⟩ : Fin 128)))
    (hw1 : ∀ l' : Fin 16, w1 (ix2 (0 : Fin 1) l') = fe' (ix2 (⟨80 * w.val + r, by omega⟩ : Fin 2560) (⟨col1 + l'.val, by omega⟩ : Fin 128)))
    (hfe : ∀ j : S2560x128.Idx, (j 0).val < 2500 → fe' j = A.fe d j) (hrow : (nodeRow w c n).val < 10000)
    (nb : Fin 32 → Fin 10240)
    (hnb : ∀ k : Fin 32, (nb k).val
      = (A.fi d (ix2 (⟨80 * w.val + r, by omega⟩ : Fin 2560) (⟨(c.val % 2) * 64 + (32 * n.val + k.val), by omega⟩ : Fin 128))).toNat)
    (hrows : ∀ k : Fin 32, rows k (ix2 (0 : Fin 1) l) = A.ff d (ix2 (nb k) (⟨colS + l.val, by omega⟩ : Fin 128))) :
    foldStore (s (ix2 (0 : Fin 1) l)) (w32 w0 w1) (fun k => rows k (ix2 (0 : Fin 1) l))
      = outVal A d (ix2 (nodeRow w c n) (laneCol dd l)) := by
  subst hbase hcolS hr hcol0 hcol1
  refine trip_store_value A d w c n dd l s w0 w1 rows fe' ?_ ?_ ?_ hfe hrow ?_
  · refine hs.trans (congrArg (A.ff d) (idx2_ext _ _ ?_ ?_))
    · show 320 * w.val + 2 * c.val + n.val = 320 * w.val + 2 * c.val + n.val; rfl
    · show 16 * dd.val + l.val = 16 * dd.val + l.val; rfl
  · intro l'
    refine (hw0 l').trans (congrArg fe' (idx2_ext _ _ ?_ ?_))
    · show 80 * w.val + c.val / 2 = 80 * w.val + c.val / 2; rfl
    · show (c.val % 2) * 64 + 32 * n.val + l'.val = (c.val % 2) * 64 + 32 * n.val + l'.val; rfl
  · intro l'
    refine (hw1 l').trans (congrArg fe' (idx2_ext _ _ ?_ ?_))
    · show 80 * w.val + c.val / 2 = 80 * w.val + c.val / 2; rfl
    · show (c.val % 2) * 64 + 32 * n.val + 16 + l'.val = (c.val % 2) * 64 + 32 * n.val + (16 + l'.val); omega
  · intro k
    refine (hrows k).trans (congrArg (A.ff d) (idx2_ext _ _ ?_ ?_))
    · show (nb k).val = (nbAt A d (nodeRow w c n) k).val
      rw [nbAt_eq, hnb k]
      have hlt : (nb k).val < 10240 := (nb k).isLt
      rw [hnb k] at hlt
      have e : (⟨(c.val % 2) * 64 + (32 * n.val + k.val), by omega⟩ : Fin 128) = edgeCol c n k :=
        Fin.ext (by show (c.val % 2) * 64 + (32 * n.val + k.val) = (c.val % 2) * 64 + 32 * n.val + k.val; omega)
      have e' : (⟨80 * w.val + c.val / 2, by omega⟩ : Fin 2560) = edgeRow w c := rfl
      rw [e, e'] at hlt ⊢
      exact (Nat.mod_eq_of_lt hlt).symm
    · show 16 * dd.val + l.val = 16 * dd.val + l.val; rfl

end Cert.Proof.KI

end
-- ==== Proof.KI.ChunkStore.lean ====
import proofs.«204698_g79517024518204_fold_wed_m_581_46_alg».proof.Proof.KI.ChunkValue

noncomputable section

namespace Cert.Proof.KI

open Cert.KernelIdeal Cert.KernelIdeal.Gen
open Idealize.ShloMosaic Idealize.ShloMosaic.ValueIdx

variable {F : FTy → Type} [FloatOps F]

omit [FloatOps F] in
theorem trip_lt (k : Fin k1_t1_loop.trips) : k.val < 80 := lt_of_lt_of_eq k.isLt trips_eq

def chunk0 (k : Fin k1_t1_loop.trips) : Fin 160 := ⟨2 * k.val, by have h := trip_lt k; omega⟩
def chunk1 (k : Fin k1_t1_loop.trips) : Fin 160 := ⟨2 * k.val + 1, by have h := trip_lt k; omega⟩

omit [FloatOps F] in
theorem chunk0_val (k : Fin k1_t1_loop.trips) : (chunk0 k).val = 2 * k.val := rfl
omit [FloatOps F] in
theorem chunk1_val (k : Fin k1_t1_loop.trips) : (chunk1 k).val = 2 * k.val + 1 := rfl

omit [FloatOps F] in
theorem vec2_congr {a a' b b' : ℕ} (ha : a = a') (hb : b = b') : (![a, b] : Fin 2 → ℕ) = ![a', b'] := by subst ha hb; rfl

section Offsets
omit [FloatOps F]
variable (L : grid1.Coords) (k : Fin k1_t1_loop.trips)

theorem off_w_c0_0_0 : k1_off6 k 0#32 0#32 = ![(chunk0 k).val / 2, ((chunk0 k).val % 2) * 64 + 32 * (0 : Fin 2).val] := by
  rw [k1_off6_eq_0_0, chunk0_val]; exact vec2_congr (by omega) (by show 0 = _; omega)
theorem off_w_c0_0_16 : k1_off6 k 0#32 16#32 = ![(chunk0 k).val / 2, ((chunk0 k).val % 2) * 64 + 32 * (0 : Fin 2).val + 16] := by
  rw [k1_off6_eq_0_16, chunk0_val]; exact vec2_congr (by omega) (by show 16 = _; omega)
theorem off_w_c0_32_0 : k1_off6 k 32#32 0#32 = ![(chunk0 k).val / 2, ((chunk0 k).val % 2) * 64 + 32 * (1 : Fin 2).val] := by
  rw [k1_off6_eq_32_0, chunk0_val]; exact vec2_congr (by omega) (by show 32 = 2 * k.val % 2 * 64 + 32 * 1; omega)
theorem off_w_c0_32_16 : k1_off6 k 32#32 16#32 = ![(chunk0 k).val / 2, ((chunk0 k).val % 2) * 64 + 32 * (1 : Fin 2).val + 16] := by
  rw [k1_off6_eq_32_16, chunk0_val]; exact vec2_congr (by omega) (by show 48 = 2 * k.val % 2 * 64 + 32 * 1 + 16; omega)

theorem off_w_c1_0_0 : k1_off10 k 0#32 0#32 = ![(chunk1 k).val / 2, ((chunk1 k).val % 2) * 64 + 32 * (0 : Fin 2).val] := by
  rw [k1_off10_eq_0_0, chunk1_val]; exact vec2_congr (by omega) (by show 64 = (2 * k.val + 1) % 2 * 64 + 32 * 0; omega)
theorem off_w_c1_0_16 : k1_off10 k 0#32 16#32 = ![(chunk1 k).val / 2, ((chunk1 k).val % 2) * 64 + 32 * (0 : Fin 2).val + 16] := by
  rw [k1_off10_eq_0_16, chunk1_val]; exact vec2_congr (by omega) (by show 80 = (2 * k.val + 1) % 2 * 64 + 32 * 0 + 16; omega)
theorem off_w_c1_32_0 : k1_off10 k 32#32 0#32 = ![(chunk1 k).val / 2, ((chunk1 k).val % 2) * 64 + 32 * (1 : Fin 2).val] := by
  rw [k1_off10_eq_32_0, chunk1_val]; exact vec2_congr (by omega) (by show 96 = (2 * k.val + 1) % 2 * 64 + 32 * 1; omega)
theorem off_w_c1_32_16 : k1_off10 k 32#32 16#32 = ![(chunk1 k).val / 2, ((chunk1 k).val % 2) * 64 + 32 * (1 : Fin 2).val + 16] := by
  rw [k1_off10_eq_32_16, chunk1_val]; exact vec2_congr (by omega) (by show 112 = (2 * k.val + 1) % 2 * 64 + 32 * 1 + 16; omega)

theorem off_list_c1 : k1_off4 k = ![(chunk1 k).val / 2, ((chunk1 k).val % 2) * 64] := by
  rw [k1_off4_eq, chunk1_val]; exact vec2_congr (by omega) (by omega)

theorem off_list_c0_next (k' : Fin k1_t1_loop.trips) (h : k'.val = k.val + 1) : k1_off8 k = ![(chunk0 k').val / 2, ((chunk0 k').val % 2) * 64] := by
  rw [k1_off8_eq, chunk0_val, h]; exact vec2_congr (by omega) (by omega)

theorem off_list_c0_zero (k' : Fin k1_t1_loop.trips) (h : k'.val = 0) : (![0, 0] : Fin 2 → ℕ) = ![(chunk0 k').val / 2, ((chunk0 k').val % 2) * 64] := by
  rw [chunk0_val, h]

theorem off_self_c1 : k1_off5 L k = ![320 * (tileW L).val + 2 * (chunk1 k).val, 0] := by
  rw [k1_off5_eq, chunk1_val, tileW_val]; exact vec2_congr (by omega) rfl

theorem off_self_c0_next (k' : Fin k1_t1_loop.trips) (h : k'.val = k.val + 1) : k1_off9 L k = ![320 * (tileW L).val + 2 * (chunk0 k').val, 0] := by
  rw [k1_off9_eq, chunk0_val, tileW_val, h]; exact vec2_congr (by omega) rfl

theorem off_self_c0_zero (k' : Fin k1_t1_loop.trips) (h : k'.val = 0) : k1_off3 L = ![320 * (tileW L).val + 2 * (chunk0 k').val, 0] := by
  rw [k1_off3_eq, chunk0_val, tileW_val, h]; exact vec2_congr (by omega) rfl

theorem off_out_c0 : k1_off7 L k = ![320 * (tileW L).val + 2 * (chunk0 k).val, 0] := by
  rw [k1_off7_eq, chunk0_val, tileW_val]; exact vec2_congr (by omega) rfl

end Offsets

omit [FloatOps F] in
theorem inb_row (n : Fin 2) (dd : Fin 8) (j : Fin 32) (a : Fin 2) :
    (![32 * n.val + j.val, 16 * dd.val] : Fin 2 → ℕ) a + S1x16.size a ≤ S64x128.size a := by
  match a with
  | ⟨0, _⟩ => show 32 * n.val + j.val + 1 ≤ 64; omega
  | ⟨1, _⟩ => show 16 * dd.val + 16 ≤ 128; omega

end Cert.Proof.KI

end
-- ==== Proof.KI.ChunkFinal.lean ====
import proofs.«204698_g79517024518204_fold_wed_m_581_46_alg».proof.Proof.KI.ChunkOK
import proofs.«204698_g79517024518204_fold_wed_m_581_46_alg».proof.Proof.KI.ChunkBuffer
import proofs.«204698_g79517024518204_fold_wed_m_581_46_alg».proof.Proof.KI.ChunkStore

noncomputable section

namespace Cert.Proof.KI

open Cert.KernelIdeal Cert.KernelIdeal.Gen
open Idealize.ShloMosaic Idealize.ShloMosaic.ValueIdx

variable {F : FTy → Type} [FloatOps F]

variable (A : Ops F) (d : Dev nD) (L : grid1.Coords)

theorem chunk_of_buffer (c : Fin 160) (off : Fin 2 → ℕ) (h : ∀ a, off a + S2x128.size a ≤ S10240x128.size a)
    (hoff : off = ![320 * (tileW L).val + 2 * c.val, 0])
    {κ : Kind} {sp : Space} (v : View sig κ sp S2x128 .f32) (f : v.ty.Contents (Elt F))
    (p00 p01 p02 p03 p04 p05 p06 p07 p10 p11 p12 p13 p14 p15 p16 p17 : S1x16.Idx → F .f32)
    (h00 : ∀ l : Fin 16, (nodeRow (tileW L) c 0).val < 10000 →
      p00 (ix2 (0 : Fin 1) l) = outVal A d (ix2 (nodeRow (tileW L) c 0) (laneCol 0 l)))
    (h01 : ∀ l : Fin 16, (nodeRow (tileW L) c 0).val < 10000 →
      p01 (ix2 (0 : Fin 1) l) = outVal A d (ix2 (nodeRow (tileW L) c 0) (laneCol 1 l)))
    (h02 : ∀ l : Fin 16, (nodeRow (tileW L) c 0).val < 10000 →
      p02 (ix2 (0 : Fin 1) l) = outVal A d (ix2 (nodeRow (tileW L) c 0) (laneCol 2 l)))
    (h03 : ∀ l : Fin 16, (nodeRow (tileW L) c 0).val < 10000 →
      p03 (ix2 (0 : Fin 1) l) = outVal A d (ix2 (nodeRow (tileW L) c 0) (laneCol 3 l)))
    (h04 : ∀ l : Fin 16, (nodeRow (tileW L) c 0).val < 10000 →
      p04 (ix2 (0 : Fin 1) l) = outVal A d (ix2 (nodeRow (tileW L) c 0) (laneCol 4 l)))
    (h05 : ∀ l : Fin 16, (nodeRow (tileW L) c 0).val < 10000 →
      p05 (ix2 (0 : Fin 1) l) = outVal A d (ix2 (nodeRow (tileW L) c 0) (laneCol 5 l)))
    (h06 : ∀ l : Fin 16, (nodeRow (tileW L) c 0).val < 10000 →
      p06 (ix2 (0 : Fin 1) l) = outVal A d (ix2 (nodeRow (tileW L) c 0) (laneCol 6 l)))
    (h07 : ∀ l : Fin 16, (nodeRow (tileW L) c 0).val < 10000 →
      p07 (ix2 (0 : Fin 1) l) = outVal A d (ix2 (nodeRow (tileW L) c 0) (laneCol 7 l)))
    (h10 : ∀ l : Fin 16, (nodeRow (tileW L) c 1).val < 10000 →
      p10 (ix2 (0 : Fin 1) l) = outVal A d (ix2 (nodeRow (tileW L) c 1) (laneCol 0 l)))
    (h11 : ∀ l : Fin 16, (nodeRow (tileW L) c 1).val < 10000 →
      p11 (ix2 (0 : Fin 1) l) = outVal A d (ix2 (nodeRow (tileW L) c 1) (laneCol 1 l)))
    (h12 : ∀ l : Fin 16, (nodeRow (tileW L) c 1).val < 10000 →
      p12 (ix2 (0 : Fin 1) l) = outVal A d (ix2 (nodeRow (tileW L) c 1) (laneCol 2 l)))
    (h13 : ∀ l : Fin 16, (nodeRow (tileW L) c 1).val < 10000 →
      p13 (ix2 (0 : Fin 1) l) = outVal A d (ix2 (nodeRow (tileW L) c 1) (laneCol 3 l)))
    (h14 : ∀ l : Fin 16, (nodeRow (tileW L) c 1).val < 10000 →
      p14 (ix2 (0 : Fin 1) l) = outVal A d (ix2 (nodeRow (tileW L) c 1) (laneCol 4 l)))
    (h15 : ∀ l : Fin 16, (nodeRow (tileW L) c 1).val < 10000 →
      p15 (ix2 (0 : Fin 1) l) = outVal A d (ix2 (nodeRow (tileW L) c 1) (laneCol 5 l)))
    (h16 : ∀ l : Fin 16, (nodeRow (tileW L) c 1).val < 10000 →
      p16 (ix2 (0 : Fin 1) l) = outVal A d (ix2 (nodeRow (tileW L) c 1) (laneCol 6 l)))
    (h17 : ∀ l : Fin 16, (nodeRow (tileW L) c 1).val < 10000 →
      p17 (ix2 (0 : Fin 1) l) = outVal A d (ix2 (nodeRow (tileW L) c 1) (laneCol 7 l))) :
    ChunkOK A d off h ((ReadAs.same : ReadAs (Elt F) S2x128 .f32 S2x128 .f32).apply (v.read (Elt F) (v.writes (Elt F) f [
      ⟨Rect.unit (s := S2x128) ![1, 112] S1x16.size inb_S2x128_S1x16_1_112, p17⟩,
      ⟨Rect.unit (s := S2x128) ![1, 96] S1x16.size inb_S2x128_S1x16_1_96, p16⟩,
      ⟨Rect.unit (s := S2x128) ![1, 80] S1x16.size inb_S2x128_S1x16_1_80, p15⟩,
      ⟨Rect.unit (s := S2x128) ![1, 64] S1x16.size inb_S2x128_S1x16_1_64, p14⟩,
      ⟨Rect.unit (s := S2x128) ![1, 48] S1x16.size inb_S2x128_S1x16_1_48, p13⟩,
      ⟨Rect.unit (s := S2x128) ![1, 32] S1x16.size inb_S2x128_S1x16_1_32, p12⟩,
      ⟨Rect.unit (s := S2x128) ![1, 16] S1x16.size inb_S2x128_S1x16_1_16, p11⟩,
      ⟨Rect.unit (s := S2x128) ![1, 0] S1x16.size inb_S2x128_S1x16_1_0, p10⟩,
      ⟨Rect.unit (s := S2x128) ![0, 112] S1x16.size inb_S2x128_S1x16_0_112, p07⟩,
      ⟨Rect.unit (s := S2x128) ![0, 96] S1x16.size inb_S2x128_S1x16_0_96, p06⟩,
      ⟨Rect.unit (s := S2x128) ![0, 80] S1x16.size inb_S2x128_S1x16_0_80, p05⟩,
      ⟨Rect.unit (s := S2x128) ![0, 64] S1x16.size inb_S2x128_S1x16_0_64, p04⟩,
      ⟨Rect.unit (s := S2x128) ![0, 48] S1x16.size inb_S2x128_S1x16_0_48, p03⟩,
      ⟨Rect.unit (s := S2x128) ![0, 32] S1x16.size inb_S2x128_S1x16_0_32, p02⟩,
      ⟨Rect.unit (s := S2x128) ![0, 16] S1x16.size inb_S2x128_S1x16_0_16, p01⟩,
      ⟨Rect.unit (s := S2x128) ![0, 0] S1x16.size inb_S2x128_S1x16_0_0, p00⟩]))) := by
  subst hoff
  refine chunkOK_intro A d _ h _ (fun x hx => ?_)
  have hy : (nodeRow (tileW L) c (x 0)).val < 10000 := hx
  have H : ∀ (n : Fin 2) (dd : Fin 8) (l : Fin 16), (nodeRow (tileW L) c n).val < 10000 →
      (fun n dd => (![![p00, p01, p02, p03, p04, p05, p06, p07], ![p10, p11, p12, p13, p14, p15, p16, p17]] : Fin 2 → Fin 8 → (S1x16.Idx → F .f32)) n dd) n dd (ix2 (0 : Fin 1) l) = outVal A d (ix2 (nodeRow (tileW L) c n) (laneCol dd l)) := by
    intro n dd l hr
    match n, dd with
    | ⟨0, _⟩, ⟨0, _⟩ => exact h00 l hr
    | ⟨0, _⟩, ⟨1, _⟩ => exact h01 l hr
    | ⟨0, _⟩, ⟨2, _⟩ => exact h02 l hr
    | ⟨0, _⟩, ⟨3, _⟩ => exact h03 l hr
    | ⟨0, _⟩, ⟨4, _⟩ => exact h04 l hr
    | ⟨0, _⟩, ⟨5, _⟩ => exact h05 l hr
    | ⟨0, _⟩, ⟨6, _⟩ => exact h06 l hr
    | ⟨0, _⟩, ⟨7, _⟩ => exact h07 l hr
    | ⟨1, _⟩, ⟨0, _⟩ => exact h10 l hr
    | ⟨1, _⟩, ⟨1, _⟩ => exact h11 l hr
    | ⟨1, _⟩, ⟨2, _⟩ => exact h12 l hr
    | ⟨1, _⟩, ⟨3, _⟩ => exact h13 l hr
    | ⟨1, _⟩, ⟨4, _⟩ => exact h14 l hr
    | ⟨1, _⟩, ⟨5, _⟩ => exact h15 l hr
    | ⟨1, _⟩, ⟨6, _⟩ => exact h16 l hr
    | ⟨1, _⟩, ⟨7, _⟩ => exact h17 l hr
  refine (chunk_buffer_value A d (tileW L) c v f (fun n dd => (![![p00, p01, p02, p03, p04, p05, p06, p07], ![p10, p11, p12, p13, p14, p15, p16, p17]] : Fin 2 → Fin 8 → (S1x16.Idx → F .f32)) n dd) H x hy).trans ?_
  refine congrArg (outVal A d) ?_
  have he := emb_pair ![320 * (tileW L).val + 2 * c.val, 0] h x
  apply idx2_ext
  · rw [he.1]; rfl
  · rw [he.2]
    show (x 1).val = 0 + (x 1).val
    omega

end Cert.Proof.KI

end
-- ==== Proof.KI.ChunkStoreOn.lean ====
import proofs.«204698_g79517024518204_fold_wed_m_581_46_alg».proof.Proof.KI.ChunkStore

noncomputable section

namespace Cert.Proof.KI

open Cert.KernelIdeal Cert.KernelIdeal.Gen
open Idealize.ShloMosaic Idealize.ShloMosaic.ValueIdx

variable {F : FTy → Type} [FloatOps F]

omit [FloatOps F] in
theorem mem_erowSet (w : Fin 32) (j : S2560x128.Idx) : j ∈ erowSet w ↔ 80 * w.val ≤ (j 0).val ∧ (j 0).val < 80 * w.val + 80 := by
  have e : erowSet w = (erows w).set := View.set_slice_whole _ _
  rw [e, Rect.mem_set_unit]
  constructor
  · intro h
    have h0 : w.val * 80 ≤ (j 0).val ∧ (j 0).val < w.val * 80 + 80 := h 0
    omega
  · intro h a
    match a with
    | ⟨0, _⟩ => show w.val * 80 ≤ (j 0).val ∧ (j 0).val < w.val * 80 + 80; omega
    | ⟨1, _⟩ => show 0 * 128 ≤ (j 1).val ∧ (j 1).val < 0 * 128 + 128; have := (j 1).isLt; change _ < 128 at this; omega

def feAll (A : Ops F) (d : Dev nD) (L : grid1.Coords) (fe : Buf (Elt F) (ewLoc d)) : Buf (Elt F) (ewLoc d) :=
  fun j => if (j : S2560x128.Idx) ∈ erowSet (tileW L) then fe j else A.fe d j

theorem feAll_known (A : Ops F) (d : Dev nD) (L : grid1.Coords) (fe : Buf (Elt F) (ewLoc d))
    (hfe : ∀ j ∈ erowSet (tileW L), (j 0).val < 2500 → fe j = A.fe d j) :
    ∀ j : S2560x128.Idx, (j 0).val < 2500 → feAll A d L fe j = A.fe d j := by
  intro j hj
  unfold feAll
  split
  · next h => exact hfe j h hj
  · rfl

theorem ewRows_read_feAll (A : Ops F) (d : Dev nD) (L : grid1.Coords) (fe : Buf (Elt F) (ewLoc d)) :
    (ewRows L).view.read (Elt F) fe = (ewRows L).view.read (Elt F) (feAll A d L fe) := by
  funext y
  show fe _ = feAll A d L fe _
  unfold feAll
  rw [if_pos]
  rw [mem_erowSet]
  have hy := (y 0).isLt
  change _ < 80 at hy
  have h0 : ((((ewRows L).view.emb y) : S2560x128.Idx) 0).val = 80 * (tileW L).val + (y 0).val := by
    show k1_off2 L 0 + 1 * (y 0).val = _
    rw [k1_off2_eq, tileW_val]
    show 160 * (L 1).val + 80 * (L 0).val + 1 * (y 0).val = _
    omega
  omega

theorem readCov_unit_congr_fn {sg : RefSig} {κ : Kind} {sp : Space} {s : Shape} {e : EltTy} {Val : EltTy → Type} [∀ e, Nonempty (Val e)]
    (v : View sg κ sp s e) (Lp : List (View.Piece Val s e)) {off off' size : Fin s.rank → ℕ} (inb : ∀ a, off a + size a ≤ s.size a)
    (inb' : ∀ a, off' a + size a ≤ s.size a) (h : off = off') :
    v.readCov Lp (Rect.unit off size inb).toLoadRect = v.readAt Val (Rect.unit off' size inb').toLoadRect (v.writes Val v.junk Lp) := by
  subst h; rfl

theorem forall_fin32 {P : Fin 32 → Prop} (h0 : P 0) (h1 : P 1) (h2 : P 2) (h3 : P 3) (h4 : P 4) (h5 : P 5) (h6 : P 6) (h7 : P 7)
    (h8 : P 8) (h9 : P 9) (h10 : P 10) (h11 : P 11) (h12 : P 12) (h13 : P 13) (h14 : P 14) (h15 : P 15)
    (h16 : P 16) (h17 : P 17) (h18 : P 18) (h19 : P 19) (h20 : P 20) (h21 : P 21) (h22 : P 22) (h23 : P 23)
    (h24 : P 24) (h25 : P 25) (h26 : P 26) (h27 : P 27) (h28 : P 28) (h29 : P 29) (h30 : P 30) (h31 : P 31) : ∀ j, P j := by
  intro j
  fin_cases j
  exacts [h0, h1, h2, h3, h4, h5, h6, h7, h8, h9, h10, h11, h12, h13, h14, h15, h16, h17, h18, h19, h20, h21, h22, h23, h24, h25, h26, h27, h28, h29, h30, h31]

end Cert.Proof.KI

end
-- ==== Proof.KI.ValueTac.lean ====
import proofs.«204698_g79517024518204_fold_wed_m_581_46_alg».proof.Proof.KI.ChunkFinal
import proofs.«204698_g79517024518204_fold_wed_m_581_46_alg».proof.Proof.KI.ChunkStoreOn

noncomputable section

namespace Cert.Proof.KI

open Cert.KernelIdeal Cert.KernelIdeal.Gen
open Idealize.ShloMosaic Idealize.ShloMosaic.ValueIdx

variable {F : FTy → Type} [FloatOps F]

theorem vec32_eq {α : Type _} (r0 r1 r2 r3 r4 r5 r6 r7 r8 r9 r10 r11 r12 r13 r14 r15 r16 r17 r18 r19 r20 r21 r22 r23 r24 r25 r26 r27 r28 r29 r30 r31 : α) (f : Fin 32 → α)
    (h0 : r0 = f 0) (h1 : r1 = f 1) (h2 : r2 = f 2) (h3 : r3 = f 3) (h4 : r4 = f 4) (h5 : r5 = f 5) (h6 : r6 = f 6) (h7 : r7 = f 7) (h8 : r8 = f 8) (h9 : r9 = f 9) (h10 : r10 = f 10) (h11 : r11 = f 11) (h12 : r12 = f 12) (h13 : r13 = f 13) (h14 : r14 = f 14) (h15 : r15 = f 15) (h16 : r16 = f 16) (h17 : r17 = f 17) (h18 : r18 = f 18) (h19 : r19 = f 19) (h20 : r20 = f 20) (h21 : r21 = f 21) (h22 : r22 = f 22) (h23 : r23 = f 23) (h24 : r24 = f 24) (h25 : r25 = f 25) (h26 : r26 = f 26) (h27 : r27 = f 27) (h28 : r28 = f 28) (h29 : r29 = f 29) (h30 : r30 = f 30) (h31 : r31 = f 31) :
    ∀ j : Fin 32, (![r0, r1, r2, r3, r4, r5, r6, r7, r8, r9, r10, r11, r12, r13, r14, r15, r16, r17, r18, r19, r20, r21, r22, r23, r24, r25, r26, r27, r28, r29, r30, r31] : Fin 32 → α) j = f j :=
  forall_fin32 h0 h1 h2 h3 h4 h5 h6 h7 h8 h9 h10 h11 h12 h13 h14 h15 h16 h17 h18 h19 h20 h21 h22 h23 h24 h25 h26 h27 h28 h29 h30 h31

theorem chunk_store_value_at (A : Ops F) (d : Dev nD) (L : grid1.Coords) (c : Fin 160) (n : Fin 2) (dd : Fin 8) (l : Fin 16) (cc : Fin τ.nSC)
    {κ4 : Kind} {sp4 : Space} (v4 : View sig κ4 sp4 S2x128 .f32) (f4 : v4.ty.Contents (Elt F))
    (off8 : Fin 2 → ℕ) (inb8 : ∀ a, off8 a + S2x128.size a ≤ S10240x128.size a)
    (hr8 : ∀ a, (Rect.unit (s := S10240x128) off8 S2x128.size inb8).stride a = 1)
    (hoff8 : off8 = ![320 * (tileW L).val + 2 * c.val, 0])
    (offS : Fin 2 → ℕ) (inbS : ∀ a, offS a + S1x16.size a ≤ S2x128.size a) (hoffS : offS = ![n.val, 16 * dd.val])
    (f1 : (Memref.whole cc1_scratch1).view.ty.Contents (Elt F)) (fe' : Buf (Elt F) (ewLoc d))
    (w : Fin 32) (hw : w = tileW L) (hfe : ∀ j ∈ erowSet w, (j 0).val < 2500 → fe' j = A.fe d j)
    (offW0 : Fin 2 → ℕ) (inbW0 : ∀ a, offW0 a + S1x16.size a ≤ S80x128.size a)
    (hoffW0 : offW0 = ![c.val / 2, (c.val % 2) * 64 + 32 * n.val])
    (offW1 : Fin 2 → ℕ) (inbW1 : ∀ a, offW1 a + S1x16.size a ≤ S80x128.size a)
    (hoffW1 : offW1 = ![c.val / 2, (c.val % 2) * 64 + 32 * n.val + 16])
    {κ2 : Kind} {sp2 : Space} (v2 : View sig κ2 sp2 S64x128 .f32) (f2 : v2.ty.Contents (Elt F))
    (f0 : (Memref.whole cc1_scratch0).view.ty.Contents (Elt F))
    (offL : Fin 2 → ℕ) (inbL : ∀ a, offL a + S1x64.size a ≤ S80x128.size a)
    (hrL : ∀ a, (Rect.unit (s := S80x128) offL S1x64.size inbL).stride a = 1) (hoffL : offL = ![c.val / 2, (c.val % 2) * 64])
    (inbT : ∀ a, (![0, 0] : Fin 2 → ℕ) a + S10240x128.size a ≤ S10240x128.size a)
    (hrT : ∀ a, (Rect.unit (s := S10240x128) ![0, 0] S10240x128.size inbT).stride a = 1)
    (hn : S64.numel = 64)
    (hin : ∀ x, ((((Memref.whole cc1_scratch0).slice (Rect.unit (s := S80x128) offL S1x64.size inbL) hrL).squeeze S64 squeezes_S1x64_S64).view.read (Elt F)
      (View.write (Elt F) (Memref.whole cc1_scratch0).view f0 ((idxRows L).view.read (Elt F) (A.fi d)) Finset.univ) x).toNat < 10240)
    (c2 : v2.ty.Contents (Elt F))
    (hc2 : c2 = v2.writes (Elt F) f2 [⟨Rect.whole S64x128,
        SparseCore.gatherPayload gathers_S10240x128_S64x128
          (((Memref.whole cc1_scratch8).slice (Rect.unit (s := S10240x128) ![0, 0] S10240x128.size inbT) hrT).view.read (Elt F) (ffsh A d cc))
          (SparseCore.rows ((((Memref.whole cc1_scratch0).slice (Rect.unit (s := S80x128) offL S1x64.size inbL) hrL).squeeze S64 squeezes_S1x64_S64).view.read (Elt F)
            (View.write (Elt F) (Memref.whole cc1_scratch0).view f0 ((idxRows L).view.read (Elt F) (A.fi d)) Finset.univ)) hn hin)⟩])
    (rows : Fin 32 → Vec F S1x16 .f32)
    (hrows : ∀ j : Fin 32, rows j = v2.readAt (Elt F) (Rect.unit (s := S64x128) ![32 * n.val + j.val, 16 * dd.val] S1x16.size (inb_row n dd j)).toLoadRect c2)
    (hrow : (nodeRow (tileW L) c n).val < 10000) :
    foldStore
        ((v4.readAt (Elt F) (Rect.unit (s := S2x128) offS S1x16.size inbS).toLoadRect
          (v4.write (Elt F) f4 (((Memref.whole cc1_scratch8).slice (Rect.unit (s := S10240x128) off8 S2x128.size inb8) hr8).view.read (Elt F) (ffsh A d cc)) Finset.univ))
          (ix2 (0 : Fin 1) l))
        (w32
          ((Memref.whole cc1_scratch1).view.readAt (Elt F) (Rect.unit (s := S80x128) offW0 S1x16.size inbW0).toLoadRect
            (View.write (Elt F) (Memref.whole cc1_scratch1).view f1 ((ewRows L).view.read (Elt F) fe') Finset.univ))
          ((Memref.whole cc1_scratch1).view.readAt (Elt F) (Rect.unit (s := S80x128) offW1 S1x16.size inbW1).toLoadRect
            (View.write (Elt F) (Memref.whole cc1_scratch1).view f1 ((ewRows L).view.read (Elt F) fe') Finset.univ)))
        (fun j => rows j (ix2 (0 : Fin 1) l))
      = outVal A d (ix2 (nodeRow (tileW L) c n) (laneCol dd l)) := by
  subst hc2 hw
  rw [ewRows_read_feAll A d L fe']
  have hw := (tileW L).isLt
  have hc := c.isLt
  have hnn := n.isLt
  have hdd := dd.isLt
  refine trip_store_value_nat A d (tileW L) c n dd l _ _ _ rows (feAll A d L fe')
    (320 * (tileW L).val + 2 * c.val) rfl (16 * dd.val) rfl ?hs
    (c.val / 2) rfl ((c.val % 2) * 64 + 32 * n.val) rfl ((c.val % 2) * 64 + 32 * n.val + 16) rfl ?hw0 ?hw1 (feAll_known A d L fe' hfe) hrow
    (fun j => SparseCore.rows ((((Memref.whole cc1_scratch0).slice (Rect.unit (s := S80x128) offL S1x64.size inbL) hrL).squeeze S64 squeezes_S1x64_S64).view.read (Elt F)
      (View.write (Elt F) (Memref.whole cc1_scratch0).view f0 ((idxRows L).view.read (Elt F) (A.fi d)) Finset.univ)) hn hin ⟨32 * n.val + j.val, by have := j.isLt; omega⟩)
    ?hnb ?hrows
  case hs =>
    exact load_self v4 f4 (ffsh A d cc) off8 inb8 hr8 _ hoff8 (by omega) offS inbS n.val (16 * dd.val) hoffS hnn (by omega) l
  case hw0 =>
    intro l'
    exact load_weights d L f1 (feAll A d L fe') offW0 inbW0 (c.val / 2) _ hoffW0 (by omega) (by omega) l'
  case hw1 =>
    intro l'
    exact load_weights d L f1 (feAll A d L fe') offW1 inbW1 (c.val / 2) _ hoffW1 (by omega) (by omega) l'
  case hnb =>
    intro j
    have hj := j.isLt
    rw [rows_word]
    rw [list_word d L f0 (A.fi d) offL inbL hrL (c.val / 2) ((c.val % 2) * 64) hoffL (by omega) (by omega) ⟨32 * n.val + j.val, by omega⟩]
  case hrows =>
    intro j
    have hj := j.isLt
    rw [hrows j]
    exact (load_row v2 f2 gathers_S10240x128_S64x128 _ _ _ (inb_row n dd j) (32 * n.val + j.val) (16 * dd.val) rfl (by omega) (by omega) l).trans
      (tab_read A d cc inbT hrT _)

syntax "value_lane " term:max term:max term:max term:max term:max term:max term:max term:max term:max : tactic
macro_rules
  | `(tactic| value_lane $Val $c $v2 $hoff8 $hw0 $hw1 $hoffL $hfe $hin) => `(tactic| (
      intro l hrow
      refine Eq.trans (store_fold _ _ _ _ _ _ _ _ _ _ _ _ _ _ _ _ _ _ _ _ _ _ _ _ _ _ _ _ _ _ _ _ _ _ _ l) ?_
      refine chunk_store_value_at _ _ _ $c _ _ l _ _ _ _ _ (fun _ => rfl) $hoff8 _ _ (by rfl) _ _ _ (by first | rfl | exact Fin.ext rfl) $hfe _ _ $hw0 _ _ $hw1
        $v2 (View.junk _) _ _ _ _ $hoffL inb_S10240x128_S10240x128_0_0 (fun _ => rfl) rfl $hin ?_ ?_ _ ?_ hrow
      pick_goal 3
      · refine vec32_eq _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;>
          exact readCov_unit_congr_fn (Val := $Val) $v2 _ _ _ rfl
      · rfl))

syntax "value_chunkA " term:max term:max term:max term:max term:max term:max : tactic
macro_rules
  | `(tactic| value_chunkA $Val $k $hoff8 $hoffL $hfe $hin) => `(tactic| (
      unfold_stores
      refine chunk_of_buffer _ _ _ (chunk0 $k) _ _ (off_out_c0 _ $k) _ _ _ _ _ _ _ _ _ _ _ _ _ _ _ _ _ _ ?_ ?_ ?_ ?_ ?_ ?_ ?_ ?_ ?_ ?_ ?_ ?_ ?_ ?_ ?_ ?_
      iterate 8 (value_lane $Val (chunk0 $k) (Memref.whole cc1_scratch2).view $hoff8 (off_w_c0_0_0 $k) (off_w_c0_0_16 $k) $hoffL $hfe $hin)
      iterate 8 (value_lane $Val (chunk0 $k) (Memref.whole cc1_scratch2).view $hoff8 (off_w_c0_32_0 $k) (off_w_c0_32_16 $k) $hoffL $hfe $hin)))

syntax "value_chunkB " term:max term:max term:max term:max : tactic
macro_rules
  | `(tactic| value_chunkB $Val $k $hfe $hin) => `(tactic| (
      unfold_stores
      refine chunk_of_buffer _ _ _ (chunk1 $k) _ _ (off_self_c1 _ $k) _ _ _ _ _ _ _ _ _ _ _ _ _ _ _ _ _ _ ?_ ?_ ?_ ?_ ?_ ?_ ?_ ?_ ?_ ?_ ?_ ?_ ?_ ?_ ?_ ?_
      iterate 8 (value_lane $Val (chunk1 $k) (Memref.whole cc1_scratch3).view (off_self_c1 _ $k) (off_w_c1_0_0 $k) (off_w_c1_0_16 $k) (off_list_c1 $k) $hfe $hin)
      iterate 8 (value_lane $Val (chunk1 $k) (Memref.whole cc1_scratch3).view (off_self_c1 _ $k) (off_w_c1_32_0 $k) (off_w_c1_32_16 $k) (off_list_c1 $k) $hfe $hin)))

end Cert.Proof.KI

end
-- ==== Proof.KI.TileBody.lean ====
import proofs.«204698_g79517024518204_fold_wed_m_581_46_alg».proof.Proof.KI.Pay
import proofs.«204698_g79517024518204_fold_wed_m_581_46_alg».proof.Proof.KI.OutChunks
import proofs.«204698_g79517024518204_fold_wed_m_581_46_alg».proof.Proof.KI.DoneJoin
import proofs.«204698_g79517024518204_fold_wed_m_581_46_alg».proof.Proof.KI.ChunkOK
import proofs.«204698_g79517024518204_fold_wed_m_581_46_alg».proof.Proof.KI.UnfoldPrefix
import proofs.«204698_g79517024518204_fold_wed_m_581_46_alg».proof.Proof.KI.Loads
import proofs.«204698_g79517024518204_fold_wed_m_581_46_alg».proof.Proof.KI.StoreRead
import proofs.«204698_g79517024518204_fold_wed_m_581_46_alg».proof.Proof.KI.ValueTac

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "featsV" => (Memref.whole Cert.KernelIdeal.main_v7_0_scv : Memref Cert.KernelIdeal.sig Kind.scVector Space.hbm Cert.KernelIdeal.S10240x128 EltTy.f32)
local notation "idxV" => (Memref.whole Cert.KernelIdeal.main_v9_scv : Memref Cert.KernelIdeal.sig Kind.scVector Space.hbm Cert.KernelIdeal.S2560x128 EltTy.i32)
local notation "ewV" => (Memref.whole Cert.KernelIdeal.main_v7_1_scv : Memref Cert.KernelIdeal.sig Kind.scVector Space.hbm Cert.KernelIdeal.S2560x128 EltTy.f32)
local notation "outV" => (Memref.whole Cert.KernelIdeal.main_v10_scv : Memref Cert.KernelIdeal.sig Kind.scVector Space.hbm Cert.KernelIdeal.S10240x128 EltTy.f32)
local notation "shV" => (Memref.whole Cert.KernelIdeal.cc1_scratch8 : Memref Cert.KernelIdeal.sig Kind.scVector Space.shared Cert.KernelIdeal.S10240x128 EltTy.f32)

variable (A : Ops F) (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev jL (L : grid1.Coords) : Fin 16 := Fin.cast bound_one (L 1)

abbrev segK (L : grid1.Coords) : Rect S10240x128 := Rect.unit (s := S10240x128) (k1_off1 L) S640x128.size (k1_off1_inb L)
abbrev erowK (L : grid1.Coords) : Rect S2560x128 := Rect.unit (s := S2560x128) (k1_off2 L) S80x128.size (k1_off2_inb L)
abbrev featsSegK (L : grid1.Coords) : Memref sig .scVector .hbm S640x128 .f32 := (featsV).slice (segK L) (fun _ => rfl)
abbrev shSegK (L : grid1.Coords) : Memref sig .scVector .shared S640x128 .f32 := (shV).slice (segK L) (fun _ => rfl)
abbrev idxRowK (L : grid1.Coords) : Memref sig .scVector .hbm S80x128 .i32 := (idxV).slice (erowK L) (fun _ => rfl)
abbrev ewRowK (L : grid1.Coords) : Memref sig .scVector .hbm S80x128 .f32 := (ewV).slice (erowK L) (fun _ => rfl)

omit [FloatOps F] in
theorem segK_eq : segK L = seg (jL L) := by
  unfold segK seg Rect.part Rect.block
  congr 1 <;> funext a
  · rw [k1_off1_eq]
    match a with
    | 0 => simp [Shape.partIx, Shape.partSize]; omega
    | 1 => simp [Shape.partIx, Shape.partSize]
  · match a with
    | 0 => simp [Shape.partSize]
    | 1 => simp [Shape.partSize]

omit [FloatOps F] in
theorem erowK_eq : erowK L = erows (wid (cL L) (jL L)) := by
  unfold erowK erows Rect.part Rect.block
  congr 1 <;> funext a
  · rw [k1_off2_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_featsSegK : (featsSegK L).view.set = segSet (jL L) := by
  show ((featsV).view.slice (segK L)).set = ((featsV).view.slice (seg (jL L))).set
  rw [segK_eq]
omit [FloatOps F] in
theorem set_shSegK : (shSegK L).view.set = segSet (jL L) := by
  show ((shV).view.slice (segK L)).set = ((featsV).view.slice (seg (jL L))).set
  rw [segK_eq]; rfl
omit [FloatOps F] in
theorem set_idxRowK : (idxRowK L).view.set = erowSet (wid (cL L) (jL L)) := by
  show ((idxV).view.slice (erowK L)).set = ((idxV).view.slice (erows (wid (cL L) (jL L)))).set
  rw [erowK_eq]
omit [FloatOps F] in
theorem set_ewRowK : (ewRowK L).view.set = erowSet (wid (cL L) (jL L)) := by
  show ((ewV).view.slice (erowK L)).set = ((idxV).view.slice (erows (wid (cL L) (jL L)))).set
  rw [erowK_eq]; rfl

omit [FloatOps F] in
theorem pts_featsSegK (q : PosShare TreeShare) (f : Buf (Elt F) (featsLoc d)) :
    ((featsSegK L).view.loc (V d (cV L) (jV L)) ↦[(featsSegK L).view.set]{q} f : sProp 𝕄) = featsLoc d ↦[segSet (jL L)]{q} f := by
  rw [set_featsSegK]
omit [FloatOps F] in
theorem pts_shSegK (q : PosShare TreeShare) (f : Buf (Elt F) (shLoc d (cV L))) :
    ((shSegK L).view.loc (V d (cV L) (jV L)) ↦[(shSegK L).view.set]{q} f : sProp 𝕄) = shLoc d (cV L) ↦[segSet (jL L)]{q} f := by
  rw [set_shSegK]; rfl
omit [FloatOps F] in
theorem pts_idxRowK (q : PosShare TreeShare) (f : Buf (Elt F) (idxLoc d)) :
    ((idxRowK L).view.loc (V d (cV L) (jV L)) ↦[(idxRowK L).view.set]{q} f : sProp 𝕄) = idxLoc d ↦[erowSet (wid (cL L) (jL L))]{q} f := by
  rw [set_idxRowK]
omit [FloatOps F] in
theorem pts_ewRowK (q : PosShare TreeShare) (f : Buf (Elt F) (ewLoc d)) :
    ((ewRowK L).view.loc (V d (cV L) (jV L)) ↦[(ewRowK L).view.set]{q} f : sProp 𝕄) = ewLoc d ↦[erowSet (wid (cL L) (jL L))]{q} f := by
  rw [set_ewRowK]

abbrev cellK (d : Dev nD) (L : grid1.Coords) (s : DmaSems sig S_) : GSem nD τ sig := (V d (cV L) (jV L), .dma s.sem)

omit [FloatOps F] in
theorem cell_mem (s : DmaSems sig S_) (hs : (SemLoc.dma s.sem : SemLoc sig).isScoped .scVector = true) :
    cellK d L s ∈ ownCells (V d (cV L) (jV L)) := (mem_ownCells (g := cellK d L s)).mpr ⟨rfl, hs⟩
omit [FloatOps F] in
theorem cell_mem_erase {T : Finset (GSem nD τ sig)} {s s' : DmaSems sig S_} (hne : (SemLoc.dma s.sem : SemLoc sig) ≠ .dma s'.sem)
    (h : cellK d L s ∈ T) : cellK d L s ∈ T.erase (cellK d L s') :=
  Finset.mem_erase.mpr ⟨fun e => hne (congrArg Prod.snd e), h⟩

def restCells (d : Dev nD) (L : grid1.Coords) : Finset (GSem nD τ sig) :=
  (((((((((ownCells (V d (cV L) (jV L))).erase (cellK d L cc1_scoped0)).erase (cellK d L cc1_scoped1)).erase (cellK d L cc1_scoped2)).erase (cellK d L cc1_scratch9)).erase
    (cellK d L cc1_scratch10)).erase (cellK d L cc1_scratch11)).erase (cellK d L cc1_scratch12)).erase (cellK d L cc1_scratch13)).erase (cellK d L cc1_scratch14)

omit [FloatOps F] in
theorem ownSems0_V :
    (ownSems0 (V d (cV L) (jV L)) : sProp 𝕄)
      = iprop(semVal (cellK d L cc1_scoped0) 0 ∗ semVal (cellK d L cc1_scoped1) 0 ∗ semVal (cellK d L cc1_scoped2) 0
          ∗ semVal (cellK d L cc1_scratch9) 0 ∗ semVal (cellK d L cc1_scratch10) 0 ∗ semVal (cellK d L cc1_scratch11) 0
          ∗ semVal (cellK d L cc1_scratch12) 0 ∗ semVal (cellK d L cc1_scratch13) 0 ∗ semVal (cellK d L cc1_scratch14) 0
          ∗ bigSep (restCells d L) fun g => semVal g 0) := by
  unfold SparseCore.Cfg.ownSems0 restCells
  rw [SparseCore.bigSep_erase' (cell_mem d L cc1_scoped0 (by decide)),
    SparseCore.bigSep_erase' (cell_mem_erase d L (by decide) (cell_mem d L cc1_scoped1 (by decide))),
    SparseCore.bigSep_erase' (cell_mem_erase d L (by decide) (cell_mem_erase d L (by decide) (cell_mem d L cc1_scoped2 (by decide)))),
    SparseCore.bigSep_erase' (cell_mem_erase d L (by decide) (cell_mem_erase d L (by decide) (cell_mem_erase d L (by decide) (cell_mem d L cc1_scratch9 (by decide))))),
    SparseCore.bigSep_erase' (cell_mem_erase d L (by decide) (cell_mem_erase d L (by decide) (cell_mem_erase d L (by decide) (cell_mem_erase d L (by decide)
      (cell_mem d L cc1_scratch10 (by decide)))))),
    SparseCore.bigSep_erase' (cell_mem_erase d L (by decide) (cell_mem_erase d L (by decide) (cell_mem_erase d L (by decide) (cell_mem_erase d L (by decide)
      (cell_mem_erase d L (by decide) (cell_mem d L cc1_scratch11 (by decide))))))),
    SparseCore.bigSep_erase' (cell_mem_erase d L (by decide) (cell_mem_erase d L (by decide) (cell_mem_erase d L (by decide) (cell_mem_erase d L (by decide)
      (cell_mem_erase d L (by decide) (cell_mem_erase d L (by decide) (cell_mem d L cc1_scratch12 (by decide)))))))),
    SparseCore.bigSep_erase' (cell_mem_erase d L (by decide) (cell_mem_erase d L (by decide) (cell_mem_erase d L (by decide) (cell_mem_erase d L (by decide)
      (cell_mem_erase d L (by decide) (cell_mem_erase d L (by decide) (cell_mem_erase d L (by decide) (cell_mem d L cc1_scratch13 (by decide))))))))),
    SparseCore.bigSep_erase' (cell_mem_erase d L (by decide) (cell_mem_erase d L (by decide) (cell_mem_erase d L (by decide) (cell_mem_erase d L (by decide)
      (cell_mem_erase d L (by decide) (cell_mem_erase d L (by decide) (cell_mem_erase d L (by decide) (cell_mem_erase d L (by decide)
      (cell_mem d L cc1_scratch14 (by decide))))))))))]

abbrev refK (L : grid1.Coords) (b : Ref sig .scVector) : DevRef τ sig := (Proc.scVector (cV L) (jV L)).devRef b

omit [FloatOps F] in
theorem ref_mem (b : Ref sig .scVector) (hb : (refK L b).owner = .proc (Proc.scVector (cV L) (jV L))) : refK L b ∈ ownRefs (τ := τ) (sig := sig) (.scVector (cV L) (jV L)) :=
  SparseCore.Cfg.mem_ownRefs_of_owner (p := Proc.scVector (cV L) (jV L)) (b := refK L b) hb
omit [FloatOps F] in
theorem ref_mem_erase {T : Finset (DevRef τ sig)} {b b' : Ref sig .scVector} (hne : b ≠ b') (h : refK L b ∈ T) : refK L b ∈ T.erase (refK L b') :=
  Finset.mem_erase.mpr ⟨fun e => hne (Proc.devRef_injective _ e), h⟩

def restRefs (L : grid1.Coords) : Finset (DevRef τ sig) :=
  ((((((((ownRefs (τ := τ) (sig := sig) (.scVector (cV L) (jV L))).erase (refK L cc1_scratch0)).erase (refK L cc1_scratch1)).erase (refK L cc1_scratch2)).erase (refK L cc1_scratch3)).erase
    (refK L cc1_scratch4)).erase (refK L cc1_scratch5)).erase (refK L cc1_scratch6)).erase (refK L cc1_scratch7)

abbrev bufK (d : Dev nD) (L : grid1.Coords) (b : Ref sig .scVector) : sProp 𝕄 := iprop(∃ f, (Memref.whole b).view.loc (V d (cV L) (jV L)) ↦{fullShare} f)

omit [FloatOps F] in
theorem ownBufs_V :
    (ownBufs (V d (cV L) (jV L)) : sProp 𝕄)
      = iprop(bufK (F := F) d L cc1_scratch0 ∗ bufK (F := F) d L cc1_scratch1 ∗ bufK (F := F) d L cc1_scratch2 ∗ bufK (F := F) d L cc1_scratch3
          ∗ bufK (F := F) d L cc1_scratch4 ∗ bufK (F := F) d L cc1_scratch5 ∗ bufK (F := F) d L cc1_scratch6 ∗ bufK (F := F) d L cc1_scratch7
          ∗ bigSep (restRefs L) fun b => iprop(∃ f, ((d, b) : Loc nD τ sig) ↦{fullShare} f)) := by
  unfold SparseCore.Cfg.ownBufs restRefs
  refine (SparseCore.bigSep_erase' (ref_mem L cc1_scratch0 rfl)).trans ?_
  rw [SparseCore.bigSep_erase' (ref_mem_erase L (by decide) (ref_mem L cc1_scratch1 rfl)),
    SparseCore.bigSep_erase' (ref_mem_erase L (by decide) (ref_mem_erase L (by decide) (ref_mem L cc1_scratch2 rfl))),
    SparseCore.bigSep_erase' (ref_mem_erase L (by decide) (ref_mem_erase L (by decide) (ref_mem_erase L (by decide) (ref_mem L cc1_scratch3 rfl)))),
    SparseCore.bigSep_erase' (ref_mem_erase L (by decide) (ref_mem_erase L (by decide) (ref_mem_erase L (by decide) (ref_mem_erase L (by decide) (ref_mem L cc1_scratch4 rfl))))),
    SparseCore.bigSep_erase' (ref_mem_erase L (by decide) (ref_mem_erase L (by decide) (ref_mem_erase L (by decide) (ref_mem_erase L (by decide) (ref_mem_erase L (by decide)
      (ref_mem L cc1_scratch5 rfl)))))),
    SparseCore.bigSep_erase' (ref_mem_erase L (by decide) (ref_mem_erase L (by decide) (ref_mem_erase L (by decide) (ref_mem_erase L (by decide) (ref_mem_erase L (by decide)
      (ref_mem_erase L (by decide) (ref_mem L cc1_scratch6 rfl))))))),
    SparseCore.bigSep_erase' (ref_mem_erase L (by decide) (ref_mem_erase L (by decide) (ref_mem_erase L (by decide) (ref_mem_erase L (by decide) (ref_mem_erase L (by decide)
      (ref_mem_erase L (by decide) (ref_mem_erase L (by decide) (ref_mem L cc1_scratch7 rfl))))))))]

omit [FloatOps F] in
theorem tb_segSet_eq (i : Fin 16) : segSet i = (seg i).set := by
  show ((View.whole (main_v7_0_scv : Ref sig .scVector)).slice (seg i)).set = _
  rw [View.set_slice]; exact Finset.map_refl
omit [FloatOps F] in
theorem tb_segs_disjoint : ∀ i ∈ (Finset.univ : Finset (Fin 16)), ∀ j ∈ (Finset.univ : Finset (Fin 16)), i ≠ j → Disjoint (segSet i) (segSet j) :=
  fun i _ j _ h => by rw [tb_segSet_eq, tb_segSet_eq]; exact Rect.part_disjoint hdiv16 h
omit [FloatOps F] in
theorem tb_segs_cover : (Finset.univ : Finset (Fin 16)).biUnion segSet = Finset.univ :=
  (Finset.biUnion_congr rfl fun i _ => tb_segSet_eq i).trans (Rect.biUnion_part hdiv16)

omit [FloatOps F] in

theorem tb_shPts_segs (c : Fin τ.nSC) (q : PosShare TreeShare) (f : Buf (Elt F) (shLoc d c)) :
    (shLoc d c ↦{q} f : sProp 𝕄) = bigSep Finset.univ fun n : Fin 16 => shLoc d c ↦[segSet n]{q} f := by
  rw [← pointsTo_biUnion Finset.univ (ℓ := shLoc d c) segSet tb_segs_disjoint, tb_segs_cover]; try rfl

theorem sh_filled (fsh : Buf (Elt F) (shLoc d (cV L))) (w : S640x128.Idx → Elt F .f32) (hw : w = (featsSegK L).view.read (Elt F) (A.ff d)) :
    ((shSegK L).view.loc (V d (cV L) (jV L)) ↦[(shSegK L).view.set]{fullShare} (shSegK L).view.writes (Elt F) fsh [⟨Rect.whole S640x128, w⟩] : sProp 𝕄)
      = shLoc d (cV L) ↦[segSet (jL L)]{fullShare} ffsh A d (cV L) := by
  subst hw
  refine Eq.trans (pointsTo_congr (g := ffsh A d (cV L)) fun i hi => ?_) (by rw [set_shSegK])
  obtain ⟨x, -, rfl⟩ := Finset.mem_map.mp hi
  rw [View.writes_singleton]
  have hx : (shSegK L).view.emb x = ((shSegK L).view.slice (Rect.whole S640x128)).emb x := by
    rw [View.emb_slice]; show _ = (shSegK L).view.emb ((Rect.whole S640x128).emb x); rw [Rect.emb_whole_apply]
  rw [hx, View.write_emb_of_mem _ _ (Finset.mem_univ _), View.read_apply, cast_cast, cast_eq, ← hx]
  rfl

theorem pays_intro : shSegPts A d (cV L) (jL L) fullShare
    ⊢ iprop(shSegPts A d (cV L) (jL L) rest16
        ∗ bigSep Finset.univ fun j : Fin (grid1.bound 1) => (bRd (F := F) A).payload (bcell d (cV L) (j.castLE hsub1)) 0 (jV L).val) := by
  refine (Transfers.pointsTo_toks_split fullShare 16).trans (sep_mono (Entails.refl _) (Entails.of_eq ?_))
  show (bigSep (Finset.univ : Finset (Fin 16)) fun j : Fin 16 => shLoc d (cV L) ↦[segSet (jL L)]{tok j} ffsh A d (cV L))
    = bigSep (Finset.univ : Finset (Fin 16)) fun j : Fin 16 => bPay A (bcell d (cV L) (Fin.castLE hsub1 (Fin.cast bound_one.symm j))) (jV L).val
  refine bigSep_congr fun j _ => ?_
  unfold bPay; dsimp only
  rw [dif_pos (jV L).isLt]; rfl

theorem pays_elim : (bigSep ((bRd (F := F) A).duties (bcell d (cV L) (jV L)) 0 \ ∅) fun n => (bRd (F := F) A).payload (bcell d (cV L) (jV L)) 0 n)
    ⊢ (shLoc d (cV L) ↦{tok (jL L)} ffsh A d (cV L) : sProp 𝕄) := by
  rw [Finset.sdiff_empty, bRd_duties₀, bigSep_image_of_injOn (fun a _ b _ h => Fin.val_injective h), tb_shPts_segs]
  refine Entails.of_eq ?_
  show (bigSep (Finset.univ : Finset (Fin 16)) fun n : Fin 16 => bPay A (bcell d (cV L) (jV L)) n.val) = _
  refine bigSep_congr fun n _ => ?_
  unfold bPay; dsimp only
  rw [dif_pos n.isLt]; rfl

def IdxOK : Prop := ∀ (d : Dev nD) (j : S2560x128.Idx), (A.fi d j).toNat < 10240

omit [FloatOps F] in
theorem pts_shV (q : PosShare TreeShare) (f : Buf (Elt F) (shLoc d (cV L))) :
    ((shV).view.loc (V d (cV L) (jV L)) ↦{q} f : sProp 𝕄) = shLoc d (cV L) ↦{q} f := rfl

def tokRest : Finset ℕ := ((((Finset.range 17).erase 13).erase 14).erase 15).erase 16

omit [FloatOps F] in

theorem toks_split {ℓ : Loc nD τ sig} (q : PosShare TreeShare) (f : Buf (Elt F) ℓ) :
    (ℓ ↦{q} f : sProp 𝕄) ⊣⊢ iprop((ℓ ↦{Transfers.shareDrop q 17} f) ∗ (ℓ ↦{Transfers.shareTokN q 13} f) ∗ (ℓ ↦{Transfers.shareTokN q 14} f)
      ∗ (ℓ ↦{Transfers.shareTokN q 15} f) ∗ (ℓ ↦{Transfers.shareTokN q 16} f) ∗ bigSep tokRest fun i => ℓ ↦{Transfers.shareTokN q i} f) := by
  have h : (ℓ ↦{q} f : sProp 𝕄) ⊣⊢ _ := Transfers.pointsTo_toks_range (ℓ := ℓ) (S := Finset.univ) (f := f) q 17
  rwa [SparseCore.bigSep_erase' (show 13 ∈ Finset.range 17 by decide), SparseCore.bigSep_erase' (show 14 ∈ (Finset.range 17).erase 13 by decide),
    SparseCore.bigSep_erase' (show 15 ∈ ((Finset.range 17).erase 13).erase 14 by decide),
    SparseCore.bigSep_erase' (show 16 ∈ (((Finset.range 17).erase 13).erase 14).erase 15 by decide)] at h

omit [FloatOps F] in

theorem halves_split {ℓ : Loc nD τ sig} (f : Buf (Elt F) ℓ) :
    (ℓ ↦{fullShare} f : sProp 𝕄) ⊣⊢ iprop((ℓ ↦{Transfers.shareDrop fullShare 1} f) ∗ (ℓ ↦{Transfers.shareTokN fullShare 0} f)) := by
  have h : (ℓ ↦{fullShare} f : sProp 𝕄) ⊣⊢ _ := Transfers.pointsTo_toks_range (ℓ := ℓ) (S := Finset.univ) (f := f) fullShare 1
  rwa [Finset.range_one, bigSep_singleton] at h

theorem idx_inb (hidx : IdxOK A) (g0 : Buf (Elt F) ((Memref.whole cc1_scratch0).view.loc (V d (cV L) (jV L))))
    (pay : S80x128.Idx → Elt F .i32) (hpay : pay = (idxRowK L).view.read (Elt F) (A.fi d))
    (off : Fin 2 → Nat) (hk : ∀ a, off a + S1x64.size a ≤ S80x128.size a) (hst : ∀ a, (Rect.unit (s := S80x128) off S1x64.size hk).stride a = 1)
    (hq : S1x64.Squeezes S64) :
    ∀ x, (View.read (Elt F) (((Memref.whole cc1_scratch0 : Memref sig .scVector .vmem S80x128 .i32).slice (Rect.unit (s := S80x128) off S1x64.size hk) hst).squeeze S64 hq).view
        (View.write (Elt F) (Memref.whole cc1_scratch0 : Memref sig .scVector .vmem S80x128 .i32).view g0 pay Finset.univ) x).toNat < 10240 := by
  subst hpay; intro x
  have e := View.write_whole_univ (Val := Elt F) (cc1_scratch0 : Ref sig .scVector) g0 ((idxRowK L).view.read (Elt F) (A.fi d))
  rw [show View.write (Elt F) (Memref.whole cc1_scratch0 : Memref sig .scVector .vmem S80x128 .i32).view g0 ((idxRowK L).view.read (Elt F) (A.fi d)) Finset.univ
      = (idxRowK L).view.read (Elt F) (A.fi d) from e]
  simp only [View.read_apply, cast_eq]
  exact hidx d _

theorem goRes_eq : goRes A d (cL L) (jL L)
    = iprop(featsSegPts A d (jL L) (hshare (cL L)) ∗ idxRowPts A d (wid (cL L) (jL L)) (hshare (cL L)) ∗ ewRowPts A d (wid (cL L) (jL L)) (hshare (cL L))
        ∗ outRowPts d (wid (cL L) (jL L)) (A.fo d) ∗ ∃ f, shLoc d (cV L) ↦[segSet (jL L)]{fullShare} f) := rfl
theorem tdRes_eq : tdRes A d (cL L) (jL L)
    = iprop(featsSegPts A d (jL L) (hshare (cL L)) ∗ idxRowPts A d (wid (cL L) (jL L)) (hshare (cL L)) ∗ ewRowPts A d (wid (cL L) (jL L)) (hshare (cL L))
        ∗ outDonePts A d (orowSet (wid (cL L) (jL L)))
        ∗ shSegPts A d (cV L) (jL L) rest16
        ∗ bigSep Finset.univ fun n : Fin 16 => shSegPts A d (cV L) n (tok (jL L))) := rfl

abbrev lstM (off : Fin 2 → Nat) (h : ∀ a, off a + S1x64.size a ≤ S80x128.size a) : Memref sig .scVector .vmem S64 .i32 :=
  ((Memref.whole cc1_scratch0 : Memref sig .scVector .vmem S80x128 .i32).slice (Rect.unit (s := S80x128) off S1x64.size h) (fun _ => rfl)).squeeze S64 squeezes_S1x64_S64
abbrev tabM : Memref sig .scVector .shared S10240x128 .f32 :=
  (shV).slice (Rect.unit (s := S10240x128) ![0, 0] S10240x128.size inb_S10240x128_S10240x128_0_0) (fun _ => rfl)
abbrev selfM (off : Fin 2 → Nat) (h : ∀ a, off a + S2x128.size a ≤ S10240x128.size a) : Memref sig .scVector .shared S2x128 .f32 :=
  (shV).slice (Rect.unit (s := S10240x128) off S2x128.size h) (fun _ => rfl)
omit [FloatOps F] in
theorem tb_trips_eq : k1_t1_loop.trips = 80 := by decide

def prevFin (t : ℕ) (h : ¬ t = 0 ∧ t ≤ 80) : Fin k1_t1_loop.trips := ⟨t - 1, by rw [tb_trips_eq]; omega⟩
omit [FloatOps F] in
theorem prevFin_succ (k : Fin k1_t1_loop.trips) (h : ¬ k.val + 1 = 0 ∧ k.val + 1 ≤ 80) : prevFin (k.val + 1) h = k := Fin.ext (by show k.val + 1 - 1 = k.val; omega)

section Loop

variable (O : CellTallies nD τ sig (HIx 1)) (W : Waits sig (HIx 1))
variable (pI : S80x128.Idx → Elt F .i32) (pE : S80x128.Idx → Elt F .f32)
variable (f0 : Buf (Elt F) ((Memref.whole cc1_scratch0).view.loc (V d (cV L) (jV L)))) (f1 : Buf (Elt F) ((Memref.whole cc1_scratch1).view.loc (V d (cV L) (jV L))))

abbrev idxvC : Buf (Elt F) ((Memref.whole cc1_scratch0).view.loc (V d (cV L) (jV L))) := View.write (Elt F) (Memref.whole cc1_scratch0).view f0 pI Finset.univ

def InbFact : Prop := ∀ (off : Fin 2 → ℕ) (hk : ∀ a, off a + S1x64.size a ≤ S80x128.size a) (hst : ∀ a, (Rect.unit (s := S80x128) off S1x64.size hk).stride a = 1)
    (hq : S1x64.Squeezes S64) (x : S64.Idx),
    (View.read (Elt F) (((Memref.whole cc1_scratch0 : Memref sig .scVector .vmem S80x128 .i32).slice (Rect.unit (s := S80x128) off S1x64.size hk) hst).squeeze S64 hq).view
      (idxvC (F := F) d L pI f0) x).toNat < 10240

variable (hinb : InbFact (F := F) d L pI f0)

def gatherG (off : Fin 2 → Nat) (h : ∀ a, off a + S1x64.size a ≤ S80x128.size a) : (Rect.whole cc1_scratch2.ty.shape).shape.Idx → Elt F cc1_scratch2.ty.elt :=
  SparseCore.gatherPayload gathers_S10240x128_S64x128 ((tabM).view.read (Elt F) (ffsh A d (cV L)))
    (SparseCore.rows ((lstM off h).view.read (Elt F) (idxvC (F := F) d L pI f0)) rfl (hinb off h (fun _ => rfl) squeezes_S1x64_S64))

def selfG (off : Fin 2 → Nat) (h : ∀ a, off a + S2x128.size a ≤ S10240x128.size a) : (Memref.whole cc1_scratch4).view.ty.Contents (Elt F) :=
  (selfM off h).view.read (Elt F) (ffsh A d (cV L))

def gatherFl (sem : DmaSems sig S_) (dst : Ref sig .scVector) (off : Fin 2 → Nat) (h : ∀ a, off a + S1x64.size a ≤ S80x128.size a) (ql qt : PosShare TreeShare)
    (fd : Buf (Elt F) ((Memref.whole dst).view.loc (V d (cV L) (jV L)))) (G : (Rect.whole dst.ty.shape).shape.Idx → Elt F dst.ty.elt) : sProp 𝕄 :=
  iprop(Transfers.Flight countersEmb (V d (cV L) (jV L)) (SemLoc.dma sem.sem) (default : HIx 1) 262144
      iprop((((Memref.whole dst).view.loc (V d (cV L) (jV L)) ↦[(Memref.whole dst).view.set]{fullShare}
              (Memref.whole dst).view.writes (Elt F) fd [⟨Rect.whole dst.ty.shape, G⟩])
          ∗ (Memref.whole cc1_scratch0).view.loc (V d (cV L) (jV L)) ↦[(lstM off h).view.set]{ql} idxvC (F := F) d L pI f0)
        ∗ (shV).view.loc (V d (cV L) (jV L)) ↦[(tabM).view.set]{qt} ffsh A d (cV L))
    ∗ ((shV).view.loc (V d (cV L) (jV L)) ↦[Finset.univ \ (tabM).view.set]{qt} ffsh A d (cV L))
    ∗ ((Memref.whole dst).view.loc (V d (cV L) (jV L)) ↦[Finset.univ \ (Memref.whole dst).view.set]{fullShare}
        (Memref.whole dst).view.writes (Elt F) fd [⟨Rect.whole dst.ty.shape, G⟩])
    ∗ ((Memref.whole cc1_scratch0).view.loc (V d (cV L) (jV L)) ↦[Finset.univ \ (lstM off h).view.set]{ql} idxvC (F := F) d L pI f0))

def selfFl (sem : DmaSems sig S_) (dst : Ref sig .scVector) (off : Fin 2 → Nat) (h : ∀ a, off a + S2x128.size a ≤ S10240x128.size a) (qt : PosShare TreeShare)
    (fd : Buf (Elt F) ((Memref.whole dst).view.loc (V d (cV L) (jV L)))) (G : (Memref.whole dst).view.ty.Contents (Elt F)) : sProp 𝕄 :=
  iprop(Transfers.Flight countersEmb (V d (cV L) (jV L)) (SemLoc.dma sem.sem) (default : HIx 1) 8192
      iprop(((Memref.whole dst).view.loc (V d (cV L) (jV L)) ↦{fullShare} View.write (Elt F) (Memref.whole dst).view fd G Finset.univ)
        ∗ (shV).view.loc (V d (cV L) (jV L)) ↦[(selfM off h).view.set]{qt} ffsh A d (cV L))
    ∗ ((shV).view.loc (V d (cV L) (jV L)) ↦[Finset.univ \ (selfM off h).view.set]{qt} ffsh A d (cV L)))

def outFl (sem : DmaSems sig S_) (src : Ref sig .scVector) (off : Fin 2 → Nat) (h : ∀ a, off a + S2x128.size a ≤ S10240x128.size a)
    (w : (Rect.whole S2x128).shape.Idx → Elt F .f32) (g : Buf (Elt F) ((Memref.whole src).view.loc (V d (cV L) (jV L)))) : sProp 𝕄 :=
  iprop(Transfers.Flight countersEmb (V d (cV L) (jV L)) (SemLoc.dma sem.sem) (default : HIx 1) 8192
      iprop(((outM off h).view.loc (V d (cV L) (jV L)) ↦[(outM off h).view.set]{fullShare} (outM off h).view.writes (Elt F) (A.fo d) [⟨Rect.whole S2x128, w⟩])
        ∗ (Memref.whole src).view.loc (V d (cV L) (jV L)) ↦[(Memref.whole src).view.set]{fullShare} g)
    ∗ ((Memref.whole src).view.loc (V d (cV L) (jV L)) ↦[Finset.univ \ (Memref.whole src).view.set]{fullShare} g))

def chunkPair (f : Buf (Elt F) (outLoc d)) (k : Fin k1_t1_loop.trips) : sProp 𝕄 :=
  iprop(((outA L k).view.loc (V d (cV L) (jV L)) ↦[(outA L k).view.set]{fullShare} f) ∗ ((outB L k).view.loc (V d (cV L) (jV L)) ↦[(outB L k).view.set]{fullShare} f))

abbrev bufE (b : Ref sig .scVector) : sProp 𝕄 := iprop(∃ f, (Memref.whole b).view.loc (V d (cV L) (jV L)) ↦{fullShare} f)

def preFl (offL : Fin 2 → Nat) (hL : ∀ a, offL a + S1x64.size a ≤ S80x128.size a) (offS : Fin 2 → Nat) (hS : ∀ a, offS a + S2x128.size a ≤ S10240x128.size a) : sProp 𝕄 :=
  iprop((∃ fd, gatherFl A d L pI f0 cc1_scratch9 cc1_scratch2 offL hL (Transfers.shareDrop fullShare 1) (Transfers.shareTokN (tok (jL L)) 13) fd (gatherG A d L pI f0 hinb offL hL))
    ∗ (∃ fd, selfFl A d L cc1_scratch11 cc1_scratch4 offS hS (Transfers.shareTokN (tok (jL L)) 15) fd (selfG A d L offS hS)))

def preIdle : sProp 𝕄 :=
  iprop(bufE (F := F) d L cc1_scratch2 ∗ ((shV).view.loc (V d (cV L) (jV L)) ↦{Transfers.shareTokN (tok (jL L)) 13} ffsh A d (cV L))
    ∗ ((Memref.whole cc1_scratch0).view.loc (V d (cV L) (jV L)) ↦{Transfers.shareDrop fullShare 1} idxvC (F := F) d L pI f0)
    ∗ semVal (cellK d L cc1_scratch9) 0
    ∗ bufE (F := F) d L cc1_scratch4 ∗ ((shV).view.loc (V d (cV L) (jV L)) ↦{Transfers.shareTokN (tok (jL L)) 15} ffsh A d (cV L))
    ∗ semVal (cellK d L cc1_scratch11) 0)
def Pstep (k : Fin k1_t1_loop.trips) : sProp 𝕄 :=
  if h2 : k1_cond2 k = 1#1 then preFl A d L pI f0 hinb (k1_off8 k) (k1_off8_inb k h2) (k1_off9 L k) (k1_off9_inb L k h2) else preIdle A d L pI f0
def Pre (t : ℕ) : sProp 𝕄 :=
  if t = 0 then preFl A d L pI f0 hinb ![0, 0] inb_S80x128_S1x64_0_0 (k1_off3 L) (k1_off3_inb L)
  else if h : ¬ t = 0 ∧ t ≤ 80 then Pstep A d L pI f0 hinb (prevFin t h) else iprop(emp)

def Wfl (k : Fin k1_t1_loop.trips) : sProp 𝕄 :=
  iprop((∃ w g, ⌜ChunkOK A d (k1_off7 L k) (k1_off7_inb L k) w⌝ ∗ outFl A d L cc1_scratch13 cc1_scratch6 (k1_off7 L k) (k1_off7_inb L k) w g)
    ∗ (∃ w g, ⌜ChunkOK A d (k1_off5 L k) (k1_off5_inb L k) w⌝ ∗ outFl A d L cc1_scratch14 cc1_scratch7 (k1_off5 L k) (k1_off5_inb L k) w g))
def Widle : sProp 𝕄 :=
  iprop(bufE (F := F) d L cc1_scratch6 ∗ semVal (cellK d L cc1_scratch13) 0 ∗ bufE (F := F) d L cc1_scratch7 ∗ semVal (cellK d L cc1_scratch14) 0)
def Wr (t : ℕ) : sProp 𝕄 :=
  if t = 0 then Widle (F := F) d L else if h : ¬ t = 0 ∧ t ≤ 80 then Wfl A d L (prevFin t h) else iprop(emp)

def inv (t : ℕ) (_ : PUnit) : sProp 𝕄 :=
  iprop(Transfers.MayWaits (V d (cV L) (jV L)) (default : HIx 1) O
    ∗ (bigSep (Finset.univ.filter fun k : Fin k1_t1_loop.trips => t ≤ k.val) (chunkPair (F := F) d L (A.fo d)))
    ∗ (bigSep (Finset.univ.filter fun k : Fin k1_t1_loop.trips => k.val < t - 1) (donePair A d L))
    ∗ bufE (F := F) d L cc1_scratch3 ∗ bufE (F := F) d L cc1_scratch5
    ∗ semVal (cellK d L cc1_scratch10) 0 ∗ semVal (cellK d L cc1_scratch12) 0
    ∗ ((Memref.whole cc1_scratch1).view.loc (V d (cV L) (jV L)) ↦{fullShare} View.write (Elt F) (Memref.whole cc1_scratch1).view f1 pE Finset.univ)
    ∗ (∃ W', ⌜∀ p ∈ W', p ∈ W ∨ p.2 = none ∨ p.2 = some (0 : Fin 1)⌝ ∗ owes (V d (cV L) (jV L)) O W')
    ∗ ((shV).view.loc (V d (cV L) (jV L)) ↦{Transfers.shareTokN (tok (jL L)) 14} ffsh A d (cV L))
    ∗ ((shV).view.loc (V d (cV L) (jV L)) ↦{Transfers.shareTokN (tok (jL L)) 16} ffsh A d (cV L))
    ∗ ((Memref.whole cc1_scratch0).view.loc (V d (cV L) (jV L)) ↦{Transfers.shareTokN fullShare 0} idxvC (F := F) d L pI f0)
    ∗ Pre A d L pI f0 hinb t ∗ Wr A d L t)

end Loop

section LoopLemmas

variable (pI : S80x128.Idx → Elt F .i32) (f0 : Buf (Elt F) ((Memref.whole cc1_scratch0).view.loc (V d (cV L) (jV L)))) (hinb : InbFact (F := F) d L pI f0)

theorem Pstep_pos (k : Fin k1_t1_loop.trips) (h2 : k1_cond2 k = 1#1) :
    Pstep A d L pI f0 hinb k = preFl A d L pI f0 hinb (k1_off8 k) (k1_off8_inb k h2) (k1_off9 L k) (k1_off9_inb L k h2) := by
  unfold Pstep; rw [dif_pos h2]
theorem Pstep_neg (k : Fin k1_t1_loop.trips) (h2 : ¬ k1_cond2 k = 1#1) : Pstep A d L pI f0 hinb k = preIdle A d L pI f0 := by
  unfold Pstep; rw [dif_neg h2]
theorem Wfl_eq (k : Fin k1_t1_loop.trips) : Wfl A d L k
    = iprop((∃ w g, ⌜ChunkOK A d (k1_off7 L k) (k1_off7_inb L k) w⌝ ∗ outFl A d L cc1_scratch13 cc1_scratch6 (k1_off7 L k) (k1_off7_inb L k) w g)
      ∗ (∃ w g, ⌜ChunkOK A d (k1_off5 L k) (k1_off5_inb L k) w⌝ ∗ outFl A d L cc1_scratch14 cc1_scratch7 (k1_off5 L k) (k1_off5_inb L k) w g)) := rfl

omit [FloatOps F] in
theorem todo_step (k : Fin k1_t1_loop.trips) (Φ : Fin k1_t1_loop.trips → sProp 𝕄) :
    bigSep (Finset.univ.filter fun j : Fin k1_t1_loop.trips => k.val ≤ j.val) Φ
      = iprop(Φ k ∗ bigSep (Finset.univ.filter fun j : Fin k1_t1_loop.trips => k.val + 1 ≤ j.val) Φ) :=
  trips_ge_step Φ k.val (tb_trips_eq ▸ k.isLt)
omit [FloatOps F] in
theorem done_step (k : Fin k1_t1_loop.trips) (hkp : ¬ k.val = 0 ∧ k.val ≤ 80) (Φ : Fin k1_t1_loop.trips → sProp 𝕄) :
    bigSep (Finset.univ.filter fun j : Fin k1_t1_loop.trips => j.val < k.val + 1 - 1) Φ
      = iprop(Φ (prevFin k.val hkp) ∗ bigSep (Finset.univ.filter fun j : Fin k1_t1_loop.trips => j.val < k.val - 1) Φ) := by
  rw [Nat.add_sub_cancel]; exact trips_lt_pred Φ k.val (Nat.pos_of_ne_zero hkp.1) (by have : k.val < 80 := tb_trips_eq ▸ k.isLt; omega)

def condW (k : Fin k1_t1_loop.trips) : BitVec 1 :=
  Scalar.cmpi .ne (Scalar.extui (Scalar.cmpi .sge (Scalar.muli 2#32 (Scf.iv 0#32 1#32 k)) 2#32)) 0#32
omit [FloatOps F] in
theorem condW_pos : ∀ k : Fin k1_t1_loop.trips, 1 ≤ k.val → condW k = 1#1 := by decide +kernel
omit [FloatOps F] in
theorem condW_zero : ∀ k : Fin k1_t1_loop.trips, k.val = 0 → ¬ condW k = 1#1 := by decide +kernel
omit [FloatOps F] in
theorem cond2_lt : ∀ k : Fin k1_t1_loop.trips, k.val < 79 → k1_cond2 k = 1#1 := by decide +kernel
omit [FloatOps F] in
theorem cond2_last : ∀ k : Fin k1_t1_loop.trips, 79 ≤ k.val → ¬ k1_cond2 k = 1#1 := by decide +kernel

end LoopLemmas
set_option maxHeartbeats 4000000 in
theorem tile_body (hF : (K (F := F)).Facts) (hidx : IdxOK A) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit A d (cV L) (jV L)
        ∗ goRes A d (cL L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__agg_sc L featsV (Memref.isWhole_whole _) idxV (Memref.isWhole_whole _) ewV (Memref.isWhole_whole _) outV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            shV (Memref.isWhole_whole _) cc1_scratch9 cc1_scratch10 cc1_scratch11 cc1_scratch12 cc1_scratch13 cc1_scratch14
            cc1_scoped0 cc1_scoped1 cc1_scoped2)
          fun _ => iprop(tdRes A d (cL L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1__agg_sc_eq_skeleton]; unfold cc1__agg_sc_skel
  simp only [k1_part147_eq_skeleton]; unfold k1_part147_skel
  rw [(K (F := F)).scopedBufs_V hF d (cV L) (jV L), SparseCore.Cfg.scopedSems0_V (Val := Elt F) d (cV L) (jV L), ownSems0_V, ownBufs_V]
  rw [goRes_eq]; unfold bkit
  iintro ⟨#Hlv, ⟨⟨%κ, #Hinv⟩, Htoks, #Hrch, Hat, Hcred⟩, ⟨Hfeats, Hidx, ⟨%fe, %hfe, Hew⟩, Hout, %fsh, Hsh⟩,
    ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, Hbufs⟩,
    ⟨HsA, HsB, HsC, Hs9, Hs10, Hs11, Hs12, Hs13, Hs14, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hfeats' := (Entails.of_eq (pts_featsSegK (F := F) d L _ _).symm) $$ Hfeats
  ihave Hidx' := (Entails.of_eq (pts_idxRowK (F := F) d L _ _).symm) $$ Hidx
  ihave Hew' := (Entails.of_eq (pts_ewRowK (F := F) d L _ _).symm) $$ Hew
  ihave Hsh' := (Entails.of_eq (pts_shSegK (F := F) d L _ _).symm) $$ Hsh

  sl_exec

  ihave Hsh2 := (Entails.of_eq (sh_filled (F := F) A d L fsh (tile_body.sl.dma0 A d L) rfl)) $$ Hsh'
  ihave Hsp := (pays_intro (F := F) A d L) $$ Hsh2
  icases Hsp with ⟨Hrest, Hpays⟩
  rw [Prog.bind_assoc]
  iapply (SparseCore.wp_subcoreBarrier 𝒱₀ none EB (bRd (F := F) A) d (sc := cV L) (i := jV L) sc_bar0 (grid1.bound 1) hsub1 (L 1) rfl κ (fun _ => 0) (jV L).val
      (fun j => bRd_mem₀ A d _ _ _) (fun _ => rfl) (bRd_expect A d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Htab := (pays_elim (F := F) A d L) $$ Hgot

  ihave Htk := (toks_split (F := F) (ℓ := shLoc d (cV L)) (tok (jL L)) (ffsh A d (cV L))).1 $$ Htab
  icases Htk with ⟨Htd, Ht13, Ht14, Ht15, Ht16, Htr⟩
  ihave Ht13' := (Entails.of_eq (pts_shV (F := F) d L _ _).symm) $$ Ht13
  ihave Ht14' := (Entails.of_eq (pts_shV (F := F) d L _ _).symm) $$ Ht14
  ihave Ht15' := (Entails.of_eq (pts_shV (F := F) d L _ _).symm) $$ Ht15
  ihave Ht16' := (Entails.of_eq (pts_shV (F := F) d L _ _).symm) $$ Ht16

  ihave Hb0h := (halves_split (F := F) _).1 $$ Hb0
  icases Hb0h with ⟨Hb0l, Hb0r⟩
  have hinb := idx_inb (F := F) A d L hidx f0 (tile_body.sl.dma0_1 A d L) rfl
  sl_exec

  sl_for (inv A d L O W (tile_body.sl.dma0_1 A d L) (tile_body.sl.dma0_2 d L fe) f0 f1 hinb)
    $$ [Hmw2 Hout Hb3 Hb5 Hb6 Hb7 Hs10 Hs12 Hs13 Hs14 Hb1 HO Ht14' Ht16' Hb0r Hs9 Ht13' Hb2 Hb0l Hs11 Ht15']
  case region =>
    intro k _
    have hk80 : k.val < 80 := tb_trips_eq ▸ k.isLt
    have hne : ¬ k.val + 1 = 0 ∧ k.val + 1 ≤ 80 := ⟨Nat.succ_ne_zero _, hk80⟩
    rcases Nat.eq_zero_or_pos k.val with hk0 | hk1
    ·
      have hc2 : k1_cond2 k = 1#1 := cond2_lt k (by omega)
      have hcW := condW_zero k hk0
      unfold inv Pre Wr
      rw [if_pos hk0, if_pos hk0, if_neg hne.1, if_neg hne.1, dif_pos hne, dif_pos hne, prevFin_succ]
      unfold preFl Widle gatherFl selfFl
      rw [todo_step k (chunkPair (F := F) d L (A.fo d))]; unfold chunkPair
      iintro ⟨#Hmw, ⟨⟨HoA, HoB⟩, Htodo⟩, Hdone, ⟨%f3, Hb3⟩, ⟨%f5, Hb5⟩, Hs10, Hs12, Hb1, ⟨%W', %hW', HO⟩, Ht14, Ht16, Hb0r,
        ⟨⟨%fd2, Hs9, Ht13, Hb2, Hb0l⟩, ⟨%fd4, Hs11, Ht15⟩⟩, ⟨⟨%f6, Hb6⟩, Hs13, ⟨%f7, Hb7⟩, Hs14⟩⟩
      sl_exec (disch := first | exact hc2 | exact hcW)
      sl_step
      isplitr; · iexact Hmw
      isplitl [Htodo]; · iexact Htodo
      isplitl [Hdone]; · rw [show k.val + 1 - 1 = k.val - 1 by omega]; iexact Hdone
      isplitl [Hb3]; · iexists _; iexact Hb3
      isplitl [Hb5]; · iexists _; iexact Hb5
      isplitl [Hs10]; · iexact Hs10
      isplitl [Hs12]; · iexact Hs12
      isplitl [Hb1]; · iexact Hb1
      isplitl [HO]
      · iexists _; isplitr; swap; · iexact HO
        ipureintro; intro p hp
        rcases Finset.mem_insert.mp hp with hp | hp; · exact .inr (.inl (hp ▸ rfl))
        rcases Finset.mem_insert.mp hp with hp | hp; · exact .inr (.inl (hp ▸ rfl))
        rcases Finset.mem_insert.mp hp with hp | hp; · exact .inr (.inl (hp ▸ rfl))
        rcases Finset.mem_insert.mp hp with hp | hp; · exact .inr (.inl (hp ▸ rfl))
        exact hW' p hp
      isplitl [Ht14]; · iexact Ht14
      isplitl [Ht16]; · iexact Ht16
      isplitl [Hb0r]; · iexact Hb0r
      isplitl [Hs9 Ht13 Hb2 Hb0l Hs11  Ht15]
      · rw [Pstep_pos A d L _ f0 hinb k hc2]; unfold preFl gatherFl selfFl
        isplitl [Hs9 Ht13 Hb2 Hb0l]
        · iexists ((Memref.whole cc1_scratch2).view.writes (Elt F) fd2 [⟨Rect.whole cc1_scratch2.ty.shape, gatherG A d L (tile_body.sl.dma0_1 A d L) f0 hinb ![0, 0] inb_S80x128_S1x64_0_0⟩])
          isplitl [Hs9]; · iexact Hs9
          isplitl [Ht13]; · iexact Ht13
          isplitl [Hb2]; · iexact Hb2
          iexact Hb0l
        · iexists (View.write (Elt F) (Memref.whole cc1_scratch4).view fd4 (selfG A d L (k1_off3 L) (k1_off3_inb L)) Finset.univ)
          isplitl [Hs11]; · iexact Hs11
          iexact Ht15
      · rw [Wfl_eq]; unfold outFl
        isplitl [Hs13 Hb6]
        · iexists _, _; isplitr; swap
          · isplitl [Hs13]; · iexact Hs13
            iexact Hb6
          · ipureintro; value_chunkA (Elt F) k (off_self_c0_zero L k hk0) (off_list_c0_zero k hk0) hfe (hinb _ inb_S80x128_S1x64_0_0 (fun _ => rfl) _)
        · iexists _, _; isplitr; swap
          · isplitl [Hs14]; · iexact Hs14
            iexact Hb7
          · ipureintro; value_chunkB (Elt F) k hfe (hinb _ (k1_off4_inb k) (fun _ => rfl) _)
    · rcases Nat.lt_or_ge k.val 79 with h79 | h79
      ·
        have hkp : ¬ k.val = 0 ∧ k.val ≤ 80 := ⟨by omega, by omega⟩
        have hc2 : k1_cond2 k = 1#1 := cond2_lt k h79
        have hc2p : k1_cond2 (prevFin k.val hkp) = 1#1 := cond2_lt _ (show k.val - 1 < 79 by omega)
        have hcW := condW_pos k hk1
        have hk' : k.val = (prevFin k.val hkp).val + 1 := by show k.val = k.val - 1 + 1; omega
        unfold inv Pre Wr
        rw [if_neg hkp.1, if_neg hkp.1, dif_pos hkp, dif_pos hkp, if_neg hne.1, if_neg hne.1, dif_pos hne, dif_pos hne, prevFin_succ,
          Pstep_pos A d L _ f0 hinb (prevFin k.val hkp) hc2p, Wfl_eq A d L (prevFin k.val hkp)]
        unfold preFl gatherFl selfFl outFl
        rw [todo_step k (chunkPair (F := F) d L (A.fo d))]; unfold chunkPair
        iintro ⟨#Hmw, ⟨⟨HoA, HoB⟩, Htodo⟩, Hdone, ⟨%f3, Hb3⟩, ⟨%f5, Hb5⟩, Hs10, Hs12, Hb1, ⟨%W', %hW', HO⟩, Ht14, Ht16, Hb0r,
          ⟨⟨%fd2, Hs9, Ht13, Hb2, Hb0l⟩, ⟨%fd4, Hs11, Ht15⟩⟩, ⟨⟨%wA, %gA, %hA, Hs13, Hb6⟩, ⟨%wB, %gB, %hB, Hs14, Hb7⟩⟩⟩
        sl_exec (disch := first | exact hc2 | exact hcW)
        sl_step
        isplitr; · iexact Hmw
        isplitl [Htodo]; · iexact Htodo
        isplitl [Hdone Hs13_dst Hs14_dst]
        · rw [done_step k hkp (donePair A d L)]
          isplitl [Hs13_dst Hs14_dst]
          · unfold donePair
            isplitl [Hs13_dst]
            · iapply (chunk_done A d L _ _ _ hA); iexact Hs13_dst
            · iapply (chunk_done A d L _ _ _ hB); iexact Hs14_dst
          · iexact Hdone
        isplitl [Hb3]; · iexists _; iexact Hb3
        isplitl [Hb5]; · iexists _; iexact Hb5
        isplitl [Hs10]; · iexact Hs10
        isplitl [Hs12]; · iexact Hs12
        isplitl [Hb1]; · iexact Hb1
        isplitl [HO]
        · iexists _; isplitr; swap; · iexact HO
          ipureintro; intro p hp
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          exact hW' p hp
        isplitl [Ht14]; · iexact Ht14
        isplitl [Ht16]; · iexact Ht16
        isplitl [Hb0r]; · iexact Hb0r
        isplitl [Hs9 Ht13 Hb2 Hb0l Hs11  Ht15]
        · rw [Pstep_pos A d L _ f0 hinb k hc2]; unfold preFl gatherFl selfFl
          isplitl [Hs9 Ht13 Hb2 Hb0l]
          · iexists ((Memref.whole cc1_scratch2).view.writes (Elt F) fd2 [⟨Rect.whole cc1_scratch2.ty.shape, gatherG A d L (tile_body.sl.dma0_1 A d L) f0 hinb (k1_off8 (prevFin k.val hkp)) (k1_off8_inb (prevFin k.val hkp) hc2p)⟩])
            isplitl [Hs9]; · iexact Hs9
            isplitl [Ht13]; · iexact Ht13
            isplitl [Hb2]; · iexact Hb2
            iexact Hb0l
          · iexists (View.write (Elt F) (Memref.whole cc1_scratch4).view fd4 (selfG A d L (k1_off9 L (prevFin k.val hkp)) (k1_off9_inb L (prevFin k.val hkp) hc2p)) Finset.univ)
            isplitl [Hs11]; · iexact Hs11
            iexact Ht15
        · rw [Wfl_eq]; unfold outFl
          isplitl [Hs13 Hb6]
          · iexists _, _; isplitr; swap
            · isplitl [Hs13]; · iexact Hs13
              iexact Hb6
            · ipureintro; value_chunkA (Elt F) k (off_self_c0_next L _ k hk') (off_list_c0_next _ k hk') hfe (hinb _ (k1_off8_inb _ hc2p) (fun _ => rfl) _)
          · iexists _, _; isplitr; swap
            · isplitl [Hs14]; · iexact Hs14
              iexact Hb7
            · ipureintro; value_chunkB (Elt F) k hfe (hinb _ (k1_off4_inb k) (fun _ => rfl) _)
      ·
        have hkp : ¬ k.val = 0 ∧ k.val ≤ 80 := ⟨by omega, by omega⟩
        have hc2 : ¬ k1_cond2 k = 1#1 := cond2_last k h79
        have hc2p : k1_cond2 (prevFin k.val hkp) = 1#1 := cond2_lt _ (show k.val - 1 < 79 by omega)
        have hcW := condW_pos k hk1
        have hk' : k.val = (prevFin k.val hkp).val + 1 := by show k.val = k.val - 1 + 1; omega
        unfold inv Pre Wr
        rw [if_neg hkp.1, if_neg hkp.1, dif_pos hkp, dif_pos hkp, if_neg hne.1, if_neg hne.1, dif_pos hne, dif_pos hne, prevFin_succ,
          Pstep_pos A d L _ f0 hinb (prevFin k.val hkp) hc2p, Wfl_eq A d L (prevFin k.val hkp)]
        unfold preFl gatherFl selfFl outFl
        rw [todo_step k (chunkPair (F := F) d L (A.fo d))]; unfold chunkPair
        iintro ⟨#Hmw, ⟨⟨HoA, HoB⟩, Htodo⟩, Hdone, ⟨%f3, Hb3⟩, ⟨%f5, Hb5⟩, Hs10, Hs12, Hb1, ⟨%W', %hW', HO⟩, Ht14, Ht16, Hb0r,
          ⟨⟨%fd2, Hs9, Ht13, Hb2, Hb0l⟩, ⟨%fd4, Hs11, Ht15⟩⟩, ⟨⟨%wA, %gA, %hA, Hs13, Hb6⟩, ⟨%wB, %gB, %hB, Hs14, Hb7⟩⟩⟩
        sl_exec (disch := first | exact hc2 | exact hcW)
        sl_step
        isplitr; · iexact Hmw
        isplitl [Htodo]; · iexact Htodo
        isplitl [Hdone Hs13_dst Hs14_dst]
        · rw [done_step k hkp (donePair A d L)]
          isplitl [Hs13_dst Hs14_dst]
          · unfold donePair
            isplitl [Hs13_dst]
            · iapply (chunk_done A d L _ _ _ hA); iexact Hs13_dst
            · iapply (chunk_done A d L _ _ _ hB); iexact Hs14_dst
          · iexact Hdone
        isplitl [Hb3]; · iexists _; iexact Hb3
        isplitl [Hb5]; · iexists _; iexact Hb5
        isplitl [Hs10]; · iexact Hs10
        isplitl [Hs12]; · iexact Hs12
        isplitl [Hb1]; · iexact Hb1
        isplitl [HO]
        · iexists _; isplitr; swap; · iexact HO
          ipureintro; intro p hp
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          exact hW' p hp
        isplitl [Ht14]; · iexact Ht14
        isplitl [Ht16]; · iexact Ht16
        isplitl [Hb0r]; · iexact Hb0r
        isplitl [Hs9 Ht13 Hb2 Hb0l Hs11 Hs11_dst Ht15]
        · rw [Pstep_neg A d L _ f0 hinb k hc2]; unfold preIdle
          isplitl [Hb2]; · iexists _; iexact Hb2
          isplitl [Ht13]; · iexact Ht13
          isplitl [Hb0l]; · iexact Hb0l
          isplitl [Hs9]; · iexact Hs9
          isplitl [Hs11_dst]; · iexists _; iexact Hs11_dst
          isplitl [Ht15]; · iexact Ht15
          iexact Hs11
        · rw [Wfl_eq]; unfold outFl
          isplitl [Hs13 Hb6]
          · iexists _, _; isplitr; swap
            · isplitl [Hs13]; · iexact Hs13
              iexact Hb6
            · ipureintro; value_chunkA (Elt F) k (off_self_c0_next L _ k hk') (off_list_c0_next _ k hk') hfe (hinb _ (k1_off8_inb _ hc2p) (fun _ => rfl) _)
          · iexists _, _; isplitr; swap
            · isplitl [Hs14]; · iexact Hs14
              iexact Hb7
            · ipureintro; value_chunkB (Elt F) k hfe (hinb _ (k1_off4_inb k) (fun _ => rfl) _)
  ·
    unfold inv Pre Wr
    rw [if_pos rfl, if_pos rfl]
    unfold preFl Widle gatherFl selfFl
    isplitr; · iexact Hmw2
    isplitl [Hout]
    · rw [trips_ge_zero]
      iapply (Entails.of_eq (show (outRowPts d (wid (cL L) (jL L)) (A.fo d) : sProp 𝕄) = bigSep Finset.univ (chunkPair (F := F) d L (A.fo d)) from
        out_chunks L d fullShare (A.fo d)))
      iexact Hout
    isplitr; · rw [show (0 : ℕ) - 1 = 0 from rfl, trips_lt_zero]; iempintro
    isplitl [Hb3]; · iexists _; iexact Hb3
    isplitl [Hb5]; · iexists _; iexact Hb5
    isplitl [Hs10]; · iexact Hs10
    isplitl [Hs12]; · iexact Hs12
    isplitl [Hb1]; · iexact Hb1
    isplitl [HO]
    · iexists _; isplitr; swap; · iexact HO
      ipureintro; intro p hp
      rcases Finset.mem_insert.mp hp with hp | hp; · exact .inr (.inr (hp ▸ rfl))
      rcases Finset.mem_insert.mp hp with hp | hp; · exact .inr (.inl (hp ▸ rfl))
      rcases Finset.mem_insert.mp hp with hp | hp; · exact .inr (.inl (hp ▸ rfl))
      rcases Finset.mem_insert.mp hp with hp | hp; · exact .inr (.inl (hp ▸ rfl))
      exact .inl hp
    isplitl [Ht14']; · iexact Ht14'
    isplitl [Ht16']; · iexact Ht16'
    isplitl [Hb0r]; · iexact Hb0r
    isplitl [Hs9 Ht13' Hb2 Hb0l Hs11 Ht15']
    · isplitl [Hs9 Ht13' Hb2 Hb0l]
      · iexists f2
        isplitl [Hs9]; · iexact Hs9
        isplitl [Ht13']; · iexact Ht13'
        isplitl [Hb2]; · iexact Hb2
        iexact Hb0l
      · iexists f4
        isplitl [Hs11]; · iexact Hs11
        iexact Ht15'
    · isplitl [Hb6]; · iexists _; iexact Hb6
      isplitl [Hs13]; · iexact Hs13
      isplitl [Hb7]; · iexists _; iexact Hb7
      iexact Hs14

  iintro %acc
  have h80 : Scf.trips k1_t1_loop.lb k1_t1_loop.ub k1_t1_loop.st = 80 := by decide
  rw [show inv A d L O W (tile_body.sl.dma0_1 A d L) (tile_body.sl.dma0_2 d L fe) f0 f1 hinb (Scf.trips k1_t1_loop.lb k1_t1_loop.ub k1_t1_loop.st) acc = inv A d L O W (tile_body.sl.dma0_1 A d L) (tile_body.sl.dma0_2 d L fe) f0 f1 hinb 80 acc from by rw [h80]]
  have hnn : ¬ (80 : ℕ) = 0 ∧ (80 : ℕ) ≤ 80 := ⟨by decide, le_rfl⟩
  have hc2l : ¬ k1_cond2 (prevFin 80 hnn) = 1#1 := cond2_last _ (show 79 ≤ 80 - 1 from le_rfl)
  unfold inv Pre Wr
  rw [if_neg hnn.1, if_neg hnn.1, dif_pos hnn, dif_pos hnn, Pstep_neg A d L _ f0 hinb _ hc2l, Wfl_eq, trips_ge_end, show (80 : ℕ) - 1 = 79 from rfl]
  unfold preIdle outFl
  iintro ⟨-, -, Hdone, ⟨%f3', Hb3⟩, ⟨%f5', Hb5⟩, Hs10, Hs12, Hb1, ⟨%W', %hW', HO⟩, Ht14, Ht16, Hb0r,
    ⟨⟨%f2', Hb2⟩, Ht13, Hb0l, Hs9, ⟨%f4', Hb4⟩, Ht15, Hs11⟩, ⟨⟨%wA, %gA, %hA, Hs13, Hb6⟩, ⟨%wB, %gB, %hB, Hs14, Hb7⟩⟩⟩
  sl_exec
  sl_step
  rw [tdRes_eq]
  isplitl [Hfeats' Hidx' Hew' Hdone Hs13_dst Hs14_dst Hrest Htd Htr Ht13 Ht14 Ht15 Ht16]
  · isplitl [Hfeats']; · iapply (Entails.of_eq (pts_featsSegK (F := F) d L _ _)); iexact Hfeats'
    isplitl [Hidx']; · iapply (Entails.of_eq (pts_idxRowK (F := F) d L _ _)); iexact Hidx'
    isplitl [Hew']
    · iexists fe; isplitr; · ipureintro; exact hfe
      iapply (Entails.of_eq (pts_ewRowK (F := F) d L _ _)); iexact Hew'
    isplitl [Hdone Hs13_dst Hs14_dst]
    · iapply (done_join A d L)
      rw [← trips_lt_end (donePair A d L), trips_lt_step (donePair A d L) 79 (by decide)]
      isplitl [Hs13_dst Hs14_dst]
      · unfold donePair
        isplitl [Hs13_dst]
        · iapply (chunk_done A d L _ _ _ hA); iexact Hs13_dst
        · iapply (chunk_done A d L _ _ _ hB); iexact Hs14_dst
      · iexact Hdone
    isplitl [Hrest]; · iexact Hrest
    iapply (Entails.of_eq (tb_shPts_segs (F := F) d (cV L) (tok (jL L)) (ffsh A d (cV L))))
    iapply (toks_split (F := F) (ℓ := shLoc d (cV L)) (tok (jL L)) (ffsh A d (cV L))).2
    isplitl [Htd]; · iexact Htd
    isplitl [Ht13]; · iapply (Entails.of_eq (pts_shV (F := F) d L _ _)); iexact Ht13
    isplitl [Ht14]; · iapply (Entails.of_eq (pts_shV (F := F) d L _ _)); iexact Ht14
    isplitl [Ht15]; · iapply (Entails.of_eq (pts_shV (F := F) d L _ _)); iexact Ht15
    isplitl [Ht16]; · iapply (Entails.of_eq (pts_shV (F := F) d L _ _)); iexact Ht16
    iexact Htr
  isplitl [Hb0l Hb0r Hb1 Hb2 Hb3 Hb4 Hb5 Hb6 Hb7 Hbufs]
  · isplitl [Hb0l Hb0r]
    · iexists _; iapply (halves_split (F := F) _).2
      isplitl [Hb0l]; · iexact Hb0l
      iexact Hb0r
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    iexact Hbufs
  isplitl [HsA HsB HsC Hs9 Hs10 Hs11 Hs12 Hs13 Hs14 Hsems]
  · isplitl [HsA]; · iexact HsA
    isplitl [HsB]; · iexact HsB
    isplitl [HsC]; · iexact HsC
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact Hsems
  iexists _; isplitr; swap; · iexact HO
  ipureintro; intro p hp
  rcases Finset.mem_insert.mp hp with hp | hp; · exact .inr (.inl (hp ▸ rfl))
  rcases Finset.mem_insert.mp hp with hp | hp; · exact .inr (.inl (hp ▸ rfl))
  exact hW' p hp

end Cert.Proof.KI

end
-- ==== Proof.KI.HostRead.lean ====
import proofs.«204698_g79517024518204_fold_wed_m_581_46_alg».proof.Proof.Gen.KernelIdeal
import Idealize.ShloMosaic.Lib.ValueIdx
import Idealize.ShloMosaic.Lib.Pipeline.Value
import Idealize.ShloMosaic.Lib.KernelVsHost

namespace Cert.Proof.KI

open Cert.KernelIdeal Idealize.ShloMosaic Idealize.ShloMosaic.ValueIdx

variable {α : Type}

theorem read_x (a0 : S1x10000x128.Idx → α) (h : S1x10000x128.ShapeCasts S10000x128) (n : Fin 10000) (k : Fin 128) :
    shapeCast S10000x128 a0 h (ix2 n k) = a0 (ix3 (0 : Fin 1) n k) := by
  refine shapeCast_apply a0 h _ _ ?_
  rw [Shape.rowMajor_val_three, Shape.rowMajor_val_two]
  show (0 * 10000 + n.val) * 128 + k.val = n.val * 128 + k.val
  omega

theorem read_cond (a1 : S1x1x128.Idx → α) (h : S1x1x128.ShapeCasts S1x128) (k : Fin 128) :
    shapeCast S1x128 a1 h (ix2 (0 : Fin 1) k) = a1 (ix3 (0 : Fin 1) (0 : Fin 1) k) := by
  refine shapeCast_apply a1 h _ _ ?_
  rw [Shape.rowMajor_val_three, Shape.rowMajor_val_two]
  show (0 * 1 + 0) * 128 + k.val = 0 * 128 + k.val
  omega

theorem read_g (a6 : S256.Idx → α) (h : S256.ShapeCasts S256x1) (r : Fin 256) :
    shapeCast S256x1 a6 h (ix2 r (0 : Fin 1)) = a6 (ix1 r) := by
  refine shapeCast_apply a6 h _ _ ?_
  rw [Shape.rowMajor_val_one, Shape.rowMajor_val_two]
  show r.val = r.val * 1 + 0
  omega

theorem read_b (a7 : S256.Idx → α) (h : S256.ShapeCasts S1x256) (r : Fin 256) :
    shapeCast S1x256 a7 h (ix2 (0 : Fin 1) r) = a7 (ix1 r) := by
  refine shapeCast_apply a7 h _ _ ?_
  rw [Shape.rowMajor_val_one, Shape.rowMajor_val_two]
  show r.val = 0 * 256 + r.val
  omega

theorem read_bf (a9 : S128.Idx → α) (h : S128.ShapeCasts S1x128) (o : Fin 128) :
    shapeCast S1x128 a9 h (ix2 (0 : Fin 1) o) = a9 (ix1 o) := by
  refine shapeCast_apply a9 h _ _ ?_
  rw [Shape.rowMajor_val_one, Shape.rowMajor_val_two]
  show o.val = 0 * 128 + o.val
  omega

theorem read_w (a3 : S1x320000x1.Idx → α) (h : S1x320000x1.ShapeCasts S2500x128) (r : Fin 2500) (j : Fin 128) :
    shapeCast S2500x128 a3 h (ix2 r j) = a3 (ix3 (0 : Fin 1) (⟨128 * r.val + j.val, by omega⟩ : Fin 320000) (0 : Fin 1)) := by
  refine shapeCast_apply a3 h _ _ ?_
  rw [Shape.rowMajor_val_three, Shape.rowMajor_val_two]
  show (0 * 320000 + (128 * r.val + j.val)) * 1 + 0 = r.val * 128 + j.val
  omega

theorem read_idx (a2 : S320000.Idx → α) (z : S_.Idx → α) (hp : S320000.Pads (![0] : Fin 1 → Nat) ![7680] ![0] S327680) (hz : 0 < S_.numel)
    (h : S327680.ShapeCasts S2560x128) (r : Fin 2560) (j : Fin 128) :
    shapeCast S2560x128 (pad S327680 ![0] ![7680] ![0] a2 z hp hz) h (ix2 r j)
      = if hlt : 128 * r.val + j.val < 320000 then a2 (ix1 (⟨128 * r.val + j.val, hlt⟩ : Fin 320000)) else z ix0 := by
  refine (shapeCast_apply _ h (ix2 r j) (ix1 (⟨128 * r.val + j.val, by omega⟩ : Fin 327680)) ?_).trans ?_
  · rw [Shape.rowMajor_val_one, Shape.rowMajor_val_two]
    show 128 * r.val + j.val = r.val * 128 + j.val
    omega
  · split
    · next hlt =>
      refine pad_apply_of_inside _ _ _ a2 z hp hz _ (ix1 (⟨128 * r.val + j.val, hlt⟩ : Fin 320000)) fun a => ?_
      obtain rfl : a = 0 := Subsingleton.elim _ _
      show 128 * r.val + j.val = 0 + (128 * r.val + j.val) * (0 + 1)
      omega
    · next hge =>
      refine (pad_apply_of_not_inside _ _ _ a2 z hp hz _ 0 ?_).trans (congrArg z (eq_ix0 _))
      show ¬(0 ≤ 128 * r.val + j.val ∧ (128 * r.val + j.val - 0) % 1 = 0 ∧ (128 * r.val + j.val - 0) / 1 < 320000)
      omega

theorem read_out (f : S10240x128.Idx → α) (hs : S10240x128.Slices ![0, 0] S10000x128) (h : S10000x128.ShapeCasts S1x10000x128)
    (n : Fin 10000) (o : Fin 128) :
    shapeCast S1x10000x128 (extractStridedSlice S10000x128 ![0, 0] f hs) h (ix3 (0 : Fin 1) n o)
      = f (ix2 (⟨n.val, by omega⟩ : Fin 10240) o) := by
  refine (shapeCast_apply _ h (ix3 (0 : Fin 1) n o) (ix2 n o) ?_).trans ?_
  · rw [Shape.rowMajor_val_two, Shape.rowMajor_val_three]
    show n.val * 128 + o.val = (0 * 10000 + n.val) * 128 + o.val
    omega
  · exact extractStridedSlice_apply ![0, 0] f hs (ix2 n o) (ix2 (⟨n.val, by omega⟩ : Fin 10240) o) fun a =>
      match a with
      | ⟨0, _⟩ => (Nat.zero_add _).symm
      | ⟨1, _⟩ => (Nat.zero_add _).symm

end Cert.Proof.KI
-- ==== Proof.KI.Main.lean ====
import proofs.«204698_g79517024518204_fold_wed_m_581_46_alg».proof.Proof.KI.MainDefs
import proofs.«204698_g79517024518204_fold_wed_m_581_46_alg».proof.Proof.KI.MainParts
import proofs.«204698_g79517024518204_fold_wed_m_581_46_alg».proof.Proof.KI.TileBody
import proofs.«204698_g79517024518204_fold_wed_m_581_46_alg».proof.Proof.KI.HostRead

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within after)
open Idealize.ShloMosaic.ValueIdx (ix2 ix3)

variable {F : FTy → Type} [FloatOps F]

local notation "𝕄" => MT nD τ sig (HIx 1) (Elt F) ℕ UU ℕ

variable (m : (ℓ : Loc nD τ sig) → Buf (Elt F) ℓ) (ρ : Dev nD → PrngReg)

variable (FEATS : (d : Dev nD) → Buf (Elt F) (featsLoc d))

def RegionStep : Prop :=
  ∀ (Vf : (c : Dev nD) → (b : Ref sig .tc) → Buf (Elt F) ((c.tc : Thread nD τ).loc b)) (O : Dev nD → CellTallies nD τ sig (HIx 1))
    (_ : Vf = VR m)
    (_ : ∀ (c : Dev nD) (sm : SemLoc sig), (levAts (K (F := F)).L (K (F := F)).lev : sProp 𝕄) ⊢ MayWait (c.tc : Thread nD τ) sm none (O c))
    (c : Dev nD),
    iprop(levAts (K (F := F)).L (K (F := F)).lev ∗ regPre c (Vf c) (O c))
      ⊢ wp frame (wpE (D (F := F)) 𝒱 (SparseCore.T c) none) Set.univ
          (Prog.lift (.customCall (Pipeline.entry (0 : Fin 1)) ()) : Prog (TpuEff nD τ sig (Elt F) (ΛP (F := F)) .tc) PUnit)
          fun _ => regPost FEATS c (Vf c) (O c)

def ops4 : List (HloOp τ sig (Elt F)) :=
  [StableHlo.nullary main_c (constantI S_ 32 0#32),
   StableHlo.TRef.unary (.of main_c : StableHlo.TRef sig ⟨S_, .i32⟩) main_call0.v0 id,
   StableHlo.TRef.binary (.of main_arg2 : StableHlo.TRef sig ⟨S320000, .i32⟩) main_call0.v0 main_call0.v1 (fun x v => pad S327680 ![0] ![7680] ![0] x v pads_S320000_S327680_076800 h_S_),
   StableHlo.reshape main_v8 main_v9 rfl shapeCasts_S327680_S2560x128]

def ops2 : List (HloOp τ sig (Elt F)) :=
  [StableHlo.unary main_v10 main_v11 ((extractStridedSlice S10000x128 ![0, 0] · slices_S10240x128_S10000x128_0_0) : (⟨S10240x128, .f32⟩ : BufTy).Contents (Elt F) → (⟨S10000x128, .f32⟩ : BufTy).Contents (Elt F)),
   StableHlo.reshape main_v11 main_v12 rfl shapeCasts_S10000x128_S1x10000x128]

theorem main_eq (d : Dev nD) : main (F := F) d =
    (StableHlo.seq ops7 >>= fun _ => (Prog.lift (.customCall (SparseCore.inner (Pipeline.entry 0)) ()) >>= fun _ =>
      (StableHlo.seq ops4 >>= fun _ => ((sc (F := F)).run d 0 >>= fun _ => (StableHlo.seq ops2 >>= fun _ => pure ⟨⟩))))) := rfl

omit [FloatOps F] in
theorem R26_eq : (Finset.univ.filter fun b : Ref sig .tc => ¬ b.isScoped) = R26 := by decide

theorem held_map (d : Dev nD) (R : Finset (Ref sig .tc)) (W : Valuation τ sig (Elt F)) :
    (held (SparseCore.T d) (R.map ⟨Proc.devRef .tc, Proc.devRef_injective _⟩) W : sProp 𝕄)
      = bigSep R fun b => (((SparseCore.T d).loc b) ↦{fullShare} W (dr b) : sProp 𝕄) := by
  unfold held
  rw [bigSep_map]
  rfl

theorem unscoped_held (d : Dev nD) : (unscopedBufs d (fun b => m ((SparseCore.T d).loc b)) : sProp 𝕄) = held (SparseCore.T d) S26 (V0 m d) := by
  unfold S26
  rw [held_map, unscopedBufs, R26_eq]
  rfl

omit [FloatOps F] in
theorem sub26 {A : Finset (Ref sig .tc)} (h : A ⊆ R26) : A.map ⟨Proc.devRef (τ := τ) .tc, Proc.devRef_injective _⟩ ⊆ S26 :=
  Finset.map_subset_map.mpr h

theorem h7 : ∀ op ∈ (ops7 (F := F)), op.bufs ⊆ S26 := by
  intro op hop
  simp only [ops7, List.mem_cons, List.not_mem_nil, or_false] at hop
  rcases hop with rfl | rfl | rfl | rfl | rfl | rfl | rfl
  · exact sub26 (A := {main_arg0, main_v0}) (by decide)
  · exact sub26 (A := {main_arg1, main_v1}) (by decide)
  · exact sub26 (A := {main_arg6, main_v2}) (by decide)
  · exact sub26 (A := {main_arg7, main_v3}) (by decide)
  · exact sub26 (A := {main_arg9, main_v4}) (by decide)
  · exact sub26 (A := {main_arg3, main_v5}) (by decide)
  · exact sub26 (A := {main_arg4, main_v6}) (by decide)
theorem h7f : ∀ op ∈ (ops7 (F := F)), op.fresh = ∅ := by
  intro op hop
  simp only [ops7, List.mem_cons, List.not_mem_nil, or_false] at hop
  rcases hop with rfl | rfl | rfl | rfl | rfl | rfl | rfl <;> rfl
theorem h4 : ∀ op ∈ (ops4 (F := F)), op.bufs ⊆ S26 := by
  intro op hop
  simp only [ops4, List.mem_cons, List.not_mem_nil, or_false] at hop
  rcases hop with rfl | rfl | rfl | rfl
  · exact sub26 (A := {main_c}) (by decide)
  · exact sub26 (A := {main_c, main_call0_v0}) (by decide)
  · exact sub26 (A := {main_arg2, main_call0_v0, main_v8}) (by decide)
  · exact sub26 (A := {main_v8, main_v9}) (by decide)
theorem h4f : ∀ op ∈ (ops4 (F := F)), op.fresh = ∅ := by
  intro op hop
  simp only [ops4, List.mem_cons, List.not_mem_nil, or_false] at hop
  rcases hop with rfl | rfl | rfl | rfl <;> rfl

def callRefs : Finset (Ref sig .tc) := {main_v7_0, main_v9, main_v7_1, main_v10}

omit [FloatOps F] in
theorem subMap {A B : Finset (Ref sig .tc)} (h : A ⊆ B) :
    A.map ⟨Proc.devRef (τ := τ) .tc, Proc.devRef_injective _⟩ ⊆ B.map ⟨Proc.devRef (τ := τ) .tc, Proc.devRef_injective _⟩ :=
  Finset.map_subset_map.mpr h

theorem h2 : ∀ op ∈ (ops2 (F := F)), op.bufs ⊆ (insert main_v10 (R26 \ callRefs)).map ⟨Proc.devRef (τ := τ) .tc, Proc.devRef_injective _⟩ := by
  intro op hop
  simp only [ops2, List.mem_cons, List.not_mem_nil, or_false] at hop
  rcases hop with rfl | rfl
  · exact subMap (A := {main_v10, main_v11}) (B := insert main_v10 (R26 \ callRefs)) (by decide)
  · exact subMap (A := {main_v11, main_v12}) (B := insert main_v10 (R26 \ callRefs)) (by decide)
theorem h2f : ∀ op ∈ (ops2 (F := F)), op.fresh = ∅ := by
  intro op hop
  simp only [ops2, List.mem_cons, List.not_mem_nil, or_false] at hop
  rcases hop with rfl | rfl <;> rfl

def W7 : List (Ref sig .tc) := [main_v0, main_v1, main_v2, main_v3, main_v4, main_v5, main_v6]
def W4 : List (Ref sig .tc) := [main_c, main_call0_v0, main_v8, main_v9]
def W2 : List (Ref sig .tc) := [main_v11, main_v12]

omit [FloatOps F] in
theorem wsub {W : List (Ref sig .tc)} {y : Ref sig .tc} (h : y ∈ W) :
    ({dr y} : Finset (DevRef τ sig)) ⊆ (W.map (Proc.devRef (τ := τ) .tc)).toFinset := by
  intro b hb
  rw [Finset.mem_singleton] at hb
  subst hb
  exact List.mem_toFinset.mpr (List.mem_map_of_mem h)

theorem hW7 : (ops7 (F := F)).Forall fun op => op.writes ⊆ (W7.map (Proc.devRef (τ := τ) .tc)).toFinset :=
  ⟨wsub (y := main_v0) (by decide), wsub (y := main_v1) (by decide), wsub (y := main_v2) (by decide), wsub (y := main_v3) (by decide),
    wsub (y := main_v4) (by decide), wsub (y := main_v5) (by decide), wsub (y := main_v6) (by decide)⟩
theorem hW4 : (ops4 (F := F)).Forall fun op => op.writes ⊆ (W4.map (Proc.devRef (τ := τ) .tc)).toFinset :=
  ⟨wsub (y := main_c) (by decide), wsub (y := main_call0_v0) (by decide), wsub (y := main_v8) (by decide), wsub (y := main_v9) (by decide)⟩
theorem hW2 : (ops2 (F := F)).Forall fun op => op.writes ⊆ (W2.map (Proc.devRef (τ := τ) .tc)).toFinset :=
  ⟨wsub (y := main_v11) (by decide), wsub (y := main_v12) (by decide)⟩

def V2 (d : Dev nD) (EW : Buf (Elt F) (ewLoc d)) : Valuation τ sig (Elt F) :=
  Function.update (Function.update (V1 m d) (dr main_v7_0) (FEATS d)) (dr main_v7_1) EW

def V3 (d : Dev nD) (EW : Buf (Elt F) (ewLoc d)) : Valuation τ sig (Elt F) := after ops4 (V2 m FEATS d EW)

def V4 (d : Dev nD) (EW : Buf (Elt F) (ewLoc d)) (fo : Buf (Elt F) (outLoc d)) : Valuation τ sig (Elt F) :=
  Function.update (V3 m FEATS d EW) (dr main_v10) fo
def V5 (d : Dev nD) (EW : Buf (Elt F) (ewLoc d)) (fo : Buf (Elt F) (outLoc d)) : Valuation τ sig (Elt F) := after ops2 (V4 m FEATS d EW fo)

omit [FloatOps F] in
theorem dr_ne {a b : Ref sig .tc} (h : a ≠ b) : dr a ≠ dr b := fun e => h (Proc.devRef_injective _ e)

theorem V1_keep (d : Dev nD) {r : Ref sig .tc} (hr : r ∉ W7) : V1 m d (dr r) = m ((SparseCore.T d).loc r) :=
  StableHlo.after_of_writes_sub ops7 (V0 m d) hW7 hr
theorem V2_keep (d : Dev nD) (EW : Buf (Elt F) (ewLoc d)) {r : Ref sig .tc} (h0 : r ≠ main_v7_0) (h1 : r ≠ main_v7_1) :
    V2 m FEATS d EW (dr r) = V1 m d (dr r) := by
  unfold V2
  rw [Function.update_of_ne (dr_ne h1), Function.update_of_ne (dr_ne h0)]
theorem V3_keep (d : Dev nD) (EW : Buf (Elt F) (ewLoc d)) {r : Ref sig .tc} (hr : r ∉ W4) : V3 m FEATS d EW (dr r) = V2 m FEATS d EW (dr r) :=
  StableHlo.after_of_writes_sub ops4 (V2 m FEATS d EW) hW4 hr
theorem V5_keep (d : Dev nD) (EW : Buf (Elt F) (ewLoc d)) (fo : Buf (Elt F) (outLoc d)) {r : Ref sig .tc} (hr : r ∉ W2) :
    V5 m FEATS d EW fo (dr r) = V4 m FEATS d EW fo (dr r) :=
  StableHlo.after_of_writes_sub ops2 (V4 m FEATS d EW fo) hW2 hr

theorem V3_feats (d : Dev nD) (EW : Buf (Elt F) (ewLoc d)) : V3 m FEATS d EW (dr main_v7_0) = FEATS d := by
  rw [V3_keep m FEATS d EW (by decide)]
  unfold V2
  rw [Function.update_of_ne (dr_ne (by decide)), Function.update_self]
theorem V3_ew (d : Dev nD) (EW : Buf (Elt F) (ewLoc d)) : V3 m FEATS d EW (dr main_v7_1) = EW := by
  rw [V3_keep m FEATS d EW (by decide)]
  unfold V2
  rw [Function.update_self]
theorem V3_out (d : Dev nD) (EW : Buf (Elt F) (ewLoc d)) : V3 m FEATS d EW (dr main_v10) = m (outLoc d) := by
  rw [V3_keep m FEATS d EW (by decide), V2_keep m FEATS d EW (by decide) (by decide), V1_keep m d (by decide)]
theorem V3_idx (d : Dev nD) (EW : Buf (Elt F) (ewLoc d)) : V3 m FEATS d EW (dr main_v9) = fiOf m d := by
  have ha2 : V2 m FEATS d EW (dr main_arg2) = argAt m d main_arg2 := by
    rw [V2_keep m FEATS d EW (by decide) (by decide), V1_keep m d (by decide)]
  unfold V3 ops4 fiOf
  rw [← ha2]
  rfl
theorem V5_arg (d : Dev nD) (EW : Buf (Elt F) (ewLoc d)) (fo : Buf (Elt F) (outLoc d)) (b : Ref sig .tc) (hb : b ∈ argRefs) :
    V5 m FEATS d EW fo (dr b) = argAt m d b := by
  have hb2 : b ∉ W2 := by revert b; decide
  have hb10 : b ≠ main_v10 := by revert b; decide
  have hb4 : b ∉ W4 := by revert b; decide
  have hb70 : b ≠ main_v7_0 := by revert b; decide
  have hb71 : b ≠ main_v7_1 := by revert b; decide
  have hb7 : b ∉ W7 := by revert b; decide
  rw [V5_keep m FEATS d EW fo hb2]
  unfold V4
  rw [Function.update_of_ne (dr_ne hb10), V3_keep m FEATS d EW hb4, V2_keep m FEATS d EW hb70 hb71, V1_keep m d hb7]
theorem V5_res (d : Dev nD) (EW : Buf (Elt F) (ewLoc d)) (fo : Buf (Elt F) (outLoc d)) :
    V5 m FEATS d EW fo (dr main_v12)
      = shapeCast S1x10000x128 (extractStridedSlice S10000x128 ![0, 0] fo slices_S10240x128_S10000x128_0_0) shapeCasts_S10000x128_S1x10000x128 := by
  have h10 : V4 m FEATS d EW fo (dr main_v10) = fo := by unfold V4; rw [Function.update_self]
  unfold V5 ops2
  rw [← h10]
  rfl

theorem Otc_none (d : Dev nD) (g : GSem nD τ sig) : (K (F := F)).Otc d 0 g none = 0 := by
  by_contra h
  have h1 := SparseCore.Cfg.lev_of_Otc_pos (K := K (F := F)) (d := d) (n := 0) (g := g) (ι := none) (Nat.pos_of_ne_zero h)
  have h0 : (K (F := F)).lev g none = 0 := rfl
  rw [h0] at h1
  omega

omit [FloatOps F] in
theorem bigSep_regRefs (Φ : Ref sig .tc → sProp 𝕄) : bigSep regRefs Φ = iprop(Φ main_v7_0 ∗ Φ main_v7_1 ∗ bigSep regOps Φ) := by
  unfold regRefs
  rw [SparseCore.bigSep_insert' (by decide), SparseCore.bigSep_insert' (by decide)]
omit [FloatOps F] in
theorem bigSep_callRefs (Φ : Ref sig .tc → sProp 𝕄) :
    bigSep callRefs Φ = iprop(Φ main_v7_0 ∗ Φ main_v9 ∗ Φ main_v7_1 ∗ Φ main_v10) := by
  unfold callRefs
  rw [SparseCore.bigSep_insert' (by decide), SparseCore.bigSep_insert' (by decide), SparseCore.bigSep_insert' (by decide), bigSep_singleton]

theorem held_V1 (d : Dev nD) :
    (held (d.tc : Thread nD τ) S26 (after ops7 (V0 m d)) : sProp 𝕄)
      ⊢ iprop((bigSep regRefs fun b => (((d.tc : Thread nD τ).loc b) ↦{fullShare} VR m d b : sProp 𝕄))
          ∗ bigSep (R26 \ regRefs) fun b => (((SparseCore.T d).loc b) ↦{fullShare} V1 m d (dr b) : sProp 𝕄)) := by
  show (held (SparseCore.T d) S26 (V1 m d) : sProp 𝕄) ⊢ _
  unfold S26
  rw [held_map, SparseCore.bigSep_sdiff_split' (show regRefs ⊆ R26 by decide)]
  exact Entails.refl _

theorem held_V2 (d : Dev nD) (EW : Buf (Elt F) (ewLoc d)) :
    iprop((featsLoc d ↦{fullShare} FEATS d) ∗ (ewLoc d ↦{fullShare} EW)
        ∗ (bigSep regOps fun b => (((d.tc : Thread nD τ).loc b) ↦{fullShare} VR m d b : sProp 𝕄))
        ∗ bigSep (R26 \ regRefs) fun b => (((SparseCore.T d).loc b) ↦{fullShare} V1 m d (dr b) : sProp 𝕄))
      ⊢ (held (d.tc : Thread nD τ) S26 (V2 m FEATS d EW) : sProp 𝕄) := by
  have e0 : V2 m FEATS d EW (dr main_v7_0) = FEATS d := by
    unfold V2; rw [Function.update_of_ne (dr_ne (by decide)), Function.update_self]
  have e1 : V2 m FEATS d EW (dr main_v7_1) = EW := by unfold V2; rw [Function.update_self]
  have hc1 : (bigSep regOps fun b => (((SparseCore.T d).loc b) ↦{fullShare} V2 m FEATS d EW (dr b) : sProp 𝕄))
      = bigSep regOps fun b => (((d.tc : Thread nD τ).loc b) ↦{fullShare} VR m d b : sProp 𝕄) :=
    bigSep_congr fun b hb => by
      have h0 : b ≠ main_v7_0 := by revert b; decide
      have h1 : b ≠ main_v7_1 := by revert b; decide
      rw [V2_keep m FEATS d EW h0 h1]; rfl
  have hc2 : (bigSep (R26 \ regRefs) fun b => (((SparseCore.T d).loc b) ↦{fullShare} V2 m FEATS d EW (dr b) : sProp 𝕄))
      = bigSep (R26 \ regRefs) fun b => (((SparseCore.T d).loc b) ↦{fullShare} V1 m d (dr b) : sProp 𝕄) :=
    bigSep_congr fun b hb => by
      have h0 : b ≠ main_v7_0 := by revert b; decide
      have h1 : b ≠ main_v7_1 := by revert b; decide
      rw [V2_keep m FEATS d EW h0 h1]
  show _ ⊢ (held (SparseCore.T d) S26 (V2 m FEATS d EW) : sProp 𝕄)
  unfold S26
  rw [held_map, SparseCore.bigSep_sdiff_split' (show regRefs ⊆ R26 by decide), bigSep_regRefs, hc1, hc2, e0, e1]
  iintro ⟨Hf, He, Ho, Hr⟩
  isplitl [Hf He Ho]
  · isplitl [Hf]; · iexact Hf
    isplitl [He]; · iexact He
    iexact Ho
  · iexact Hr

theorem held_V3 (d : Dev nD) (EW : Buf (Elt F) (ewLoc d)) :
    (held (d.tc : Thread nD τ) S26 (after ops4 (V2 m FEATS d EW)) : sProp 𝕄)
      ⊢ iprop((featsLoc d ↦{fullShare} FEATS d) ∗ (idxLoc d ↦{fullShare} fiOf m d) ∗ (ewLoc d ↦{fullShare} EW) ∗ (outLoc d ↦{fullShare} m (outLoc d))
          ∗ bigSep (R26 \ callRefs) fun b => (((SparseCore.T d).loc b) ↦{fullShare} V3 m FEATS d EW (dr b) : sProp 𝕄)) := by
  show (held (SparseCore.T d) S26 (V3 m FEATS d EW) : sProp 𝕄) ⊢ _
  unfold S26
  rw [held_map, SparseCore.bigSep_sdiff_split' (show callRefs ⊆ R26 by decide), bigSep_callRefs, V3_feats, V3_idx, V3_ew, V3_out]
  iintro ⟨⟨Hf, Hi, He, Ho⟩, Hr⟩
  isplitl [Hf]; · iexact Hf
  isplitl [Hi]; · iexact Hi
  isplitl [He]; · iexact He
  isplitl [Ho]; · iexact Ho
  iexact Hr

theorem held_V4 (d : Dev nD) (EW : Buf (Elt F) (ewLoc d)) (fo : Buf (Elt F) (outLoc d)) :
    iprop((outLoc d ↦{fullShare} fo) ∗ bigSep (R26 \ callRefs) fun b => (((SparseCore.T d).loc b) ↦{fullShare} V3 m FEATS d EW (dr b) : sProp 𝕄))
      ⊢ (held (d.tc : Thread nD τ) ((insert main_v10 (R26 \ callRefs)).map ⟨Proc.devRef (τ := τ) .tc, Proc.devRef_injective _⟩) (V4 m FEATS d EW fo) : sProp 𝕄) := by
  have e : V4 m FEATS d EW fo (dr main_v10) = fo := by unfold V4; rw [Function.update_self]
  have hc : (bigSep (R26 \ callRefs) fun b => (((SparseCore.T d).loc b) ↦{fullShare} V4 m FEATS d EW fo (dr b) : sProp 𝕄))
      = bigSep (R26 \ callRefs) fun b => (((SparseCore.T d).loc b) ↦{fullShare} V3 m FEATS d EW (dr b) : sProp 𝕄) :=
    bigSep_congr fun b hb => by
      have h0 : b ≠ main_v10 := by revert b; decide
      unfold V4; rw [Function.update_of_ne (dr_ne h0)]
  show _ ⊢ (held (SparseCore.T d) ((insert main_v10 (R26 \ callRefs)).map ⟨Proc.devRef (τ := τ) .tc, Proc.devRef_injective _⟩) (V4 m FEATS d EW fo) : sProp 𝕄)
  rw [held_map, SparseCore.bigSep_insert' (by decide), hc, e]

theorem held_V5 (d : Dev nD) (EW : Buf (Elt F) (ewLoc d)) (fo : Buf (Elt F) (outLoc d)) :
    (held (d.tc : Thread nD τ) ((insert main_v10 (R26 \ callRefs)).map ⟨Proc.devRef (τ := τ) .tc, Proc.devRef_injective _⟩) (after ops2 (V4 m FEATS d EW fo)) : sProp 𝕄)
      ⊢ iprop((bigSep argRefs fun b => (((SparseCore.T d).loc b) ↦{fullShare} argAt m d b : sProp 𝕄))
          ∗ ((SparseCore.T d).loc main_v12) ↦{fullShare} V5 m FEATS d EW fo (dr main_v12)) := by
  have hc : (bigSep argRefs fun b => (((SparseCore.T d).loc b) ↦{fullShare} V5 m FEATS d EW fo (dr b) : sProp 𝕄))
      = bigSep argRefs fun b => (((SparseCore.T d).loc b) ↦{fullShare} argAt m d b : sProp 𝕄) :=
    bigSep_congr fun b hb => by rw [V5_arg m FEATS d EW fo b hb]
  have h1 : (bigSep (insert main_v10 (R26 \ callRefs)) fun b => (((SparseCore.T d).loc b) ↦{fullShare} V5 m FEATS d EW fo (dr b) : sProp 𝕄))
      ⊢ bigSep (insert main_v12 argRefs) fun b => (((SparseCore.T d).loc b) ↦{fullShare} V5 m FEATS d EW fo (dr b) : sProp 𝕄) :=
    bigSep_subset (by decide)
  rw [SparseCore.bigSep_insert' (i := main_v12) (s := argRefs) (by decide), hc] at h1
  show (held (SparseCore.T d) ((insert main_v10 (R26 \ callRefs)).map ⟨Proc.devRef (τ := τ) .tc, Proc.devRef_injective _⟩) (V5 m FEATS d EW fo) : sProp 𝕄) ⊢ _
  rw [held_map]
  refine h1.trans ?_
  iintro ⟨H12, Hargs⟩
  isplitl [Hargs]; · iexact Hargs
  iexact H12

theorem ew_agrees (d : Dev nD) (EW : Buf (Elt F) (ewLoc d))
    (hEW : ∀ (r : Fin 2500) (j : Fin 128),
      EW (ix2 (⟨r.val, by omega⟩ : Fin 2560) j) = FloatOps.mulf (VR m d main_v5 (ix2 r j)) (VR m d main_v6 (ix2 r j))) :
    ∀ j : S2560x128.Idx, (j 0).val < 2500 → EW j = feOf m d j := by
  intro j hj
  unfold feOf
  rw [dif_pos hj]
  exact (congrArg EW (ValueIdx.eq_ix2 j)).trans (hEW ⟨(j 0).val, hj⟩ (j 1))

theorem tcSt_focus (d : Dev nD) :
    ((K (F := F)).tcSt EH d 0 : sProp 𝕄)
      ⊢ iprop(owesPart (F := F) d ((K (F := F)).Otc d 0) ∗ (owesPart (F := F) d ((K (F := F)).Otc d 0) -∗ (K (F := F)).tcSt EH d 0)) := by
  unfold SparseCore.Cfg.tcSt owesPart
  iintro ⟨Hown, Hrest⟩
  isplitl [Hown]; · iexact Hown
  iintro Hown
  isplitl [Hown]; · iexact Hown
  iexact Hrest

set_option backward.isDefEq.respectTransparency.types false in
theorem hmain (hreg : RegionStep m FEATS) (κ : GSem nD τ sig → ℕ) (d : Dev nD) :
    iprop((K (F := F)).ctx EH (P (opsOf m FEATS)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m FEATS d) := by
  have hmw : ∀ (c : Dev nD) (sm : SemLoc sig), (levAts (K (F := F)).L (K (F := F)).lev : sProp 𝕄)
      ⊢ MayWait (c.tc : Thread nD τ) sm none ((K (F := F)).Otc c 0) :=
    fun c sm => (K (F := F)).mayWait_none sm (Otc_none c)
  unfold SparseCore.Cfg.tcRes
  rw [unscoped_held, main_eq]
  iintro ⟨#Hctx, Hst, ⟨Hb, Hheld, -, -⟩, HG⟩
  ihave Hst := (tcSt_focus (F := F) d) $$ Hst
  icases Hst with ⟨Hown, Hst⟩

  iapply (StableHlo.wp_seq (defs := (K (F := F)).defs (D (F := F))) 𝒱 none Set.univ d S26 _ ops7 h7 h7f (V0 m d)) $$ [Hb Hheld]
  · isplitl [Hb] <;> iassumption
  iintro ⟨Hb, Hheld⟩

  ihave Hh := (held_V1 m d) $$ Hheld
  icases Hh with ⟨Hreg, Hrest⟩
  rw [wp_bind]
  iapply (wp_wand_r frame _ Set.univ)
  isplitl [Hb Hreg Hown HG]
  · iapply ((K (F := F)).wp_liftProg (D (F := F)) 𝒱 (SparseCore.T d) Set.univ none
      (Prog.lift (.customCall (Pipeline.entry (0 : Fin 1)) ()) : Prog (TpuEff nD τ sig (Elt F) (ΛP (F := F)) .tc) PUnit) _)
    iapply (hreg (VR m) (fun c => (K (F := F)).Otc c 0) rfl hmw d)
    isplitr
    · iapply ((K (F := F)).ctx_levAts κ); iexact Hctx
    unfold regPre
    isplitl [Hb]; · iexact Hb
    isplitl [Hreg]; · iexact Hreg
    isplitl [Hown]; · iexact Hown
    iexact HG
  iintro %_ Hpost
  unfold regPost
  icases Hpost with ⟨Hb, Hops, Hfeats, ⟨%EW, %hEW, Hew⟩, Hown⟩

  ihave Hheld := (held_V2 m FEATS d EW) $$ [Hfeats Hew Hops Hrest]
  · isplitl [Hfeats]; · iexact Hfeats
    isplitl [Hew]; · iexact Hew
    isplitl [Hops]; · iexact Hops
    iexact Hrest
  iapply (StableHlo.wp_seq (defs := (K (F := F)).defs (D (F := F))) 𝒱 none Set.univ d S26 _ ops4 h4 h4f (V2 m FEATS d EW)) $$ [Hb Hheld]
  · isplitl [Hb] <;> iassumption
  iintro ⟨Hb, Hheld⟩

  ihave Hh := (held_V3 m FEATS d EW) $$ Hheld
  icases Hh with ⟨Hfeats, Hidx, Hew, Hout, Hrest⟩
  rw [wp_bind]
  iapply ((K (F := F)).wp_run (D (F := F)) 𝒱 (EH := EH) (P := P (opsOf m FEATS)) κ d 0) $$ [Hown Hst Hfeats Hidx Hew Hout Hb Hrest]
  isplitr; · iexact Hctx
  isplitl [Hown Hst]
  · iapply Hst; iexact Hown
  isplitl [Hfeats Hidx Hew Hout]
  · iapply (call_handover m FEATS d EW (ew_agrees m d EW hEW))
    isplitl [Hfeats]; · iexact Hfeats
    isplitl [Hidx]; · iexact Hidx
    isplitl [Hew]; · iexact Hew
    iexact Hout
  iintro ⟨Hst, Hdn⟩
  ihave Hdn' := (call_return m FEATS d) $$ Hdn
  icases Hdn' with ⟨%fo, %hfo, Hout⟩

  ihave Hheld := (held_V4 m FEATS d EW fo) $$ [Hout Hrest]
  · isplitl [Hout] <;> iassumption
  iapply (StableHlo.wp_seq (defs := (K (F := F)).defs (D (F := F))) 𝒱 none Set.univ d
      ((insert main_v10 (R26 \ callRefs)).map ⟨Proc.devRef (τ := τ) .tc, Proc.devRef_injective _⟩) _ ops2 h2 h2f (V4 m FEATS d EW fo)) $$ [Hb Hheld]
  · isplitl [Hb] <;> iassumption
  iintro ⟨Hb, Hheld⟩
  ihave Hh := (held_V5 m FEATS d EW fo) $$ Hheld
  icases Hh with ⟨Hargs, Hres⟩
  rw [wp_pure]
  imodintro
  isplitl [Hst]; · iexact Hst
  unfold FIN
  isplitl [Hargs]; · iexact Hargs
  iexists (V5 m FEATS d EW fo (dr main_v12))
  isplitr
  · ipureintro
    intro n o
    rw [V5_res, read_out]
    exact hfo _ n.isLt
  iexact Hres

theorem hfin (d : Dev nD) (s' : Phys nD τ sig (Elt F)) : iprop(FIN m FEATS d ∗ SI s') ⊢ (⌜fq m FEATS d s'⌝ : sProp 𝕄) := by
  have h1 : iprop(FIN m FEATS d ∗ SI s') ⊢ (⌜∀ (n : Fin 10000) (o : Fin 128),
      s'.mem.mem ((SparseCore.T d).loc main_v12) (ix3 (0 : Fin 1) n o) = outVal (opsOf m FEATS) d (ix2 (⟨n.val, by omega⟩ : Fin 10240) o)⌝ : sProp 𝕄) := by
    iintro ⟨HF, HSI⟩
    unfold FIN
    icases HF with ⟨-, %f, %hf, Hv⟩
    ihave H := (SI_pointsTo_agree (st := s') (ℓ := (SparseCore.T d).loc main_v12) (I := Finset.univ) (q := fullShare) (f := f)) $$ [HSI Hv]
    · isplitl [HSI] <;> iassumption
    icases H with %h
    ipureintro
    intro n o
    rw [h _ (Finset.mem_univ _)]
    exact hf n o
  have h2 : ∀ b ∈ argRefs, iprop(FIN m FEATS d ∗ SI s') ⊢ (⌜s'.mem.mem ((SparseCore.T d).loc b) = argAt m d b⌝ : sProp 𝕄) := by
    intro b hb
    iintro ⟨HF, HSI⟩
    unfold FIN
    icases HF with ⟨Hargs, -⟩
    ihave Hb := (show (bigSep argRefs fun b : Ref sig .tc => (((SparseCore.T d).loc b) ↦{fullShare} argAt m d b : sProp 𝕄))
        ⊢ (((SparseCore.T d).loc b) ↦{fullShare} argAt m d b : sProp 𝕄) from bigSep_elim hb) $$ Hargs
    ihave H := (SI_pointsTo_agree (st := s') (ℓ := (SparseCore.T d).loc b) (I := Finset.univ) (q := fullShare) (f := argAt m d b)) $$ [HSI Hb]
    · isplitl [HSI] <;> iassumption
    icases H with %h
    ipureintro
    exact funext fun i => h i (Finset.mem_univ i)
  exact fun a ha => ⟨h1 a ha, fun b hb => h2 b hb a ha⟩

theorem hQ (s' : Phys nD τ sig (Elt F)) (h : ∀ d, fq m FEATS d s') : QC m FEATS (⟨⟩, s'.mem) := fun c =>
  ⟨(h c).1, (h c).2 _ (by decide), (h c).2 _ (by decide), (h c).2 _ (by decide), (h c).2 _ (by decide), (h c).2 _ (by decide),
    (h c).2 _ (by decide), (h c).2 _ (by decide), (h c).2 _ (by decide), (h c).2 _ (by decide), (h c).2 _ (by decide)⟩

theorem run_main [∀ e, Nonempty (Elt F e)] (hreg : RegionStep m FEATS)
    (htile : (K (F := F)).TileObl (D (F := F)) 𝒱 (P (opsOf m FEATS)) v₀ 0)
    (hvec : (K (F := F)).VecSplit (P (opsOf m FEATS)) 0)
    (hu₀ : iprop((ownU (u₀ (F := F)) : sProp 𝕄) ∗ (P (opsOf m FEATS)).oxCred ∗ (K (F := F)).freeSems0)
      ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P (opsOf m FEATS)).x q thr)) :
    θ_run (Cert.KernelIdeal.defs (F := F)) (Cert.KernelIdeal.threads (F := F)) ⟨m, fun _ => 0, ρ⟩ (QC m FEATS) :=
  SparseCore.Cfg.θ_run_sc (K := K (F := F)) (D := D (F := F)) (𝒱 := 𝒱) (EH := EH) (P := P (opsOf m FEATS)) facts v₀
    (fun q hq => match q with | 0 => nomatch hq)
    (fun q _ => match q with | 0 => htile)
    (fun q _ => match q with | 0 => hvec)
    m ρ main (G (F := F)) (FIN m FEATS) (u₀ (F := F)) hu₀ (hmain m ρ FEATS hreg) (fq m FEATS) (hfin m FEATS) (QC m FEATS) (hQ m FEATS)

end Cert.Proof.KI

end
-- ==== Proof.KI.Tile.lean ====
import proofs.«204698_g79517024518204_fold_wed_m_581_46_alg».proof.Proof.KI.TileBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "featsV" => (Memref.whole Cert.KernelIdeal.main_v7_0_scv : Memref Cert.KernelIdeal.sig Kind.scVector Space.hbm Cert.KernelIdeal.S10240x128 EltTy.f32)
local notation "idxV" => (Memref.whole Cert.KernelIdeal.main_v9_scv : Memref Cert.KernelIdeal.sig Kind.scVector Space.hbm Cert.KernelIdeal.S2560x128 EltTy.i32)
local notation "ewV" => (Memref.whole Cert.KernelIdeal.main_v7_1_scv : Memref Cert.KernelIdeal.sig Kind.scVector Space.hbm Cert.KernelIdeal.S2560x128 EltTy.f32)
local notation "outV" => (Memref.whole Cert.KernelIdeal.main_v10_scv : Memref Cert.KernelIdeal.sig Kind.scVector Space.hbm Cert.KernelIdeal.S10240x128 EltTy.f32)
local notation "shV" => (Memref.whole Cert.KernelIdeal.cc1_scratch8 : Memref Cert.KernelIdeal.sig Kind.scVector Space.shared Cert.KernelIdeal.S10240x128 EltTy.f32)

variable (A : Ops F)

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__agg_sc (fun | 0 => c | 1 => s | ⟨_ + 2, h⟩ => absurd h (Nat.not_lt.2 (Nat.le_add_left _ _)))
          featsV (Memref.isWhole_whole _) idxV (Memref.isWhole_whole _) ewV (Memref.isWhole_whole _) outV (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _) (Memref.whole cc1_scratch5) (Memref.isWhole_whole _)
          (Memref.whole cc1_scratch6) (Memref.isWhole_whole _) (Memref.whole cc1_scratch7) (Memref.isWhole_whole _)
          shV (Memref.isWhole_whole _) cc1_scratch9 cc1_scratch10 cc1_scratch11 cc1_scratch12 cc1_scratch13 cc1_scratch14
          cc1_scoped0 cc1_scoped1 cc1_scoped2) ⟨⟩ c s := rfl

set_option maxRecDepth 16384 in
theorem tileObl (hF : (K (F := F)).Facts) (hidx : IdxOK A) : (K (F := F)).TileObl (D (F := F)) 𝒱 (P A) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A d (coordsV ⟨_, hci.1⟩ ⟨_, hci.2⟩) hF hidx O W hO hOlev

end Cert.Proof.KI

end
-- ==== Proof.KI.Split.lean ====
import proofs.«204698_g79517024518204_fold_wed_m_581_46_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "featsV" => (Memref.whole Cert.KernelIdeal.main_v7_0_scv : Memref Cert.KernelIdeal.sig Kind.scVector Space.hbm Cert.KernelIdeal.S10240x128 EltTy.f32)
local notation "idxV" => (Memref.whole Cert.KernelIdeal.main_v9_scv : Memref Cert.KernelIdeal.sig Kind.scVector Space.hbm Cert.KernelIdeal.S2560x128 EltTy.i32)
local notation "ewV" => (Memref.whole Cert.KernelIdeal.main_v7_1_scv : Memref Cert.KernelIdeal.sig Kind.scVector Space.hbm Cert.KernelIdeal.S2560x128 EltTy.f32)
local notation "outV" => (Memref.whole Cert.KernelIdeal.main_v10_scv : Memref Cert.KernelIdeal.sig Kind.scVector Space.hbm Cert.KernelIdeal.S10240x128 EltTy.f32)
local notation "shV" => (Memref.whole Cert.KernelIdeal.cc1_scratch8 : Memref Cert.KernelIdeal.sig Kind.scVector Space.shared Cert.KernelIdeal.S10240x128 EltTy.f32)

omit [FloatOps F] in
theorem segSet_eq (i : Fin 16) : segSet i = (seg i).set := View.set_slice_whole _ _
omit [FloatOps F] in
theorem orowSet_eq (w : Fin 32) : orowSet w = (orows w).set := View.set_slice_whole _ _
omit [FloatOps F] in
theorem erowSet_eq (w : Fin 32) : erowSet w = (erows w).set := View.set_slice_whole _ _

omit [FloatOps F] in

theorem seg_disjoint : ∀ i ∈ (Finset.univ : Finset (Fin 16)), ∀ j ∈ (Finset.univ : Finset (Fin 16)), i ≠ j → Disjoint (segSet i) (segSet j) :=
  fun i _ j _ h => by rw [segSet_eq, segSet_eq]; exact Rect.part_disjoint hdiv16 h
omit [FloatOps F] in

theorem seg_cover : (Finset.univ : Finset (Fin 16)).biUnion segSet = Finset.univ :=
  (Finset.biUnion_congr rfl fun i _ => segSet_eq i).trans (Rect.biUnion_part hdiv16)

omit [FloatOps F] in

theorem wid_injective (c : Fin 2) : Function.Injective (wid c) := fun i j h => by
  have e := congrArg Fin.val h
  simp only [wid] at e
  exact Fin.ext (by omega)

omit [FloatOps F] in
theorem orow_disjoint (c : Fin 2) : ∀ i ∈ (Finset.univ : Finset (Fin 16)), ∀ j ∈ (Finset.univ : Finset (Fin 16)), i ≠ j →
    Disjoint (orowSet (wid c i)) (orowSet (wid c j)) :=
  fun i _ j _ h => by rw [orowSet_eq, orowSet_eq]; exact Rect.part_disjoint hdiv32 fun e => h (wid_injective c e)
omit [FloatOps F] in
theorem erow_disjoint (c : Fin 2) : ∀ i ∈ (Finset.univ : Finset (Fin 16)), ∀ j ∈ (Finset.univ : Finset (Fin 16)), i ≠ j →
    Disjoint (erowSet (wid c i)) (erowSet (wid c j)) :=
  fun i _ j _ h => by rw [erowSet_eq, erowSet_eq]; exact Rect.part_disjoint hdiv32' fun e => h (wid_injective c e)

def erowSetC (c : Fin 2) : Finset S2560x128.Idx := (Finset.univ : Finset (Fin 16)).biUnion fun i => erowSet (wid c i)

omit [FloatOps F] in
theorem erowSetC_union (c : Fin 2) : erowSetC c ∪ (Finset.univ \ erowSetC c) = Finset.univ :=
  Finset.union_sdiff_of_subset (Finset.subset_univ _)

section Join
variable {ℓ : Loc nD τ sig}

theorem known_union (I J : Finset (Idx ℓ)) (hIJ : Disjoint I J) (q : PosShare TreeShare) (G : Buf (Elt F) ℓ) (ok : Idx ℓ → Prop) :
    iprop((∃ f : Buf (Elt F) ℓ, ⌜∀ j ∈ I, ok j → f j = G j⌝ ∗ ℓ ↦[I]{q} f) ∗ (∃ f : Buf (Elt F) ℓ, ⌜∀ j ∈ J, ok j → f j = G j⌝ ∗ ℓ ↦[J]{q} f))
      ⊢ (iprop(∃ f : Buf (Elt F) ℓ, ⌜∀ j ∈ I ∪ J, ok j → f j = G j⌝ ∗ ℓ ↦[I ∪ J]{q} f) : sProp 𝕄) := by
  iintro ⟨⟨%f, %hf, Hf⟩, ⟨%g, %hg, Hg⟩⟩
  iexists J.piecewise g f
  isplitr
  · ipureintro
    intro j hj hok
    by_cases hJ : j ∈ J
    · rw [Finset.piecewise_eq_of_mem _ _ _ hJ]; exact hg j hJ hok
    · rw [Finset.piecewise_eq_of_notMem _ _ _ hJ]
      exact hf j ((Finset.mem_union.mp hj).resolve_right hJ) hok
  · iapply (pointsTo_join hIJ)
    isplitl [Hf]; · iexact Hf
    iexact Hg

theorem known_biUnion {T : Type} [DecidableEq T] (Sx : Finset T) (Kf : T → Finset (Idx ℓ)) (q : PosShare TreeShare) (G : Buf (Elt F) ℓ)
    (ok : Idx ℓ → Prop) (hd : ∀ t ∈ Sx, ∀ t' ∈ Sx, t ≠ t' → Disjoint (Kf t) (Kf t')) :
    bigSep Sx (fun t => iprop(∃ f : Buf (Elt F) ℓ, ⌜∀ j ∈ Kf t, ok j → f j = G j⌝ ∗ ℓ ↦[Kf t]{q} f))
      ⊢ (iprop(∃ f : Buf (Elt F) ℓ, ⌜∀ j ∈ Sx.biUnion Kf, ok j → f j = G j⌝ ∗ ℓ ↦[Sx.biUnion Kf]{q} f) : sProp 𝕄) := by
  refine (bigSep_exists_pi Sx (fun t (f : Buf (Elt F) ℓ) => iprop(⌜∀ j ∈ Kf t, ok j → f j = G j⌝ ∗ ℓ ↦[Kf t]{q} f))).trans ?_
  iintro ⟨%fs, H⟩
  ihave H1 := (bigSep_pure_sep Sx (fun t => ∀ j ∈ Kf t, ok j → fs t j = G j) (fun t => ℓ ↦[Kf t]{q} fs t)) $$ H
  icases H1 with ⟨%hfs, H2⟩
  ihave H3 := (pointsTo_biUnion_join Sx Kf fs G hd) $$ H2
  icases H3 with ⟨%g, %hg, Hg⟩
  iexists g
  isplitr
  · ipureintro
    intro j hj hok
    obtain ⟨t, ht, hjt⟩ := Finset.mem_biUnion.mp hj
    rw [hg t ht j hjt]; exact hfs t ht j hjt hok
  · iexact Hg

end Join

variable (A : Ops F)

theorem featsPts_segs (d : Dev nD) (q : PosShare TreeShare) :
    (featsPts A d q : sProp 𝕄) = bigSep Finset.univ fun i : Fin 16 => featsSegPts A d i q := by
  rw [← pointsTo_biUnion Finset.univ (ℓ := featsLoc d) segSet seg_disjoint, seg_cover]

theorem shPts_segs (d : Dev nD) (c : Fin τ.nSC) (q : PosShare TreeShare) (f : Buf (Elt F) (shLoc d c)) :
    (shLoc d c ↦{q} f : sProp 𝕄) = bigSep Finset.univ fun i : Fin 16 => shLoc d c ↦[segSet i]{q} f := by
  rw [← pointsTo_biUnion Finset.univ (ℓ := shLoc d c) segSet seg_disjoint, seg_cover]

theorem outPts_rows (d : Dev nD) (c : Fin 2) (f : Buf (Elt F) (outLoc d)) :
    (outLoc d ↦[orowSetC c]{fullShare} f : sProp 𝕄) = bigSep Finset.univ fun i : Fin 16 => outRowPts d (wid c i) f := by
  unfold orowSetC
  rw [pointsTo_biUnion Finset.univ (ℓ := outLoc d) (fun i => orowSet (wid c i)) (orow_disjoint c)]

theorem idxPts_rows (d : Dev nD) (c : Fin 2) (q : PosShare TreeShare) :
    (idxPts A d q : sProp 𝕄)
      = iprop((bigSep Finset.univ fun i : Fin 16 => idxRowPts A d (wid c i) q) ∗ idxLoc d ↦[Finset.univ \ erowSetC c]{q} A.fi d) := by
  have hs : (idxLoc d ↦[Finset.univ]{q} A.fi d : sProp 𝕄)
      ⊣⊢ iprop((idxLoc d ↦[erowSetC c]{q} A.fi d) ∗ idxLoc d ↦[Finset.univ \ erowSetC c]{q} A.fi d) :=
    pointsTo_split_subset (Finset.subset_univ _)
  have hb : (idxLoc d ↦[erowSetC c]{q} A.fi d : sProp 𝕄) = bigSep Finset.univ fun i : Fin 16 => idxRowPts A d (wid c i) q := by
    unfold erowSetC
    rw [pointsTo_biUnion Finset.univ (ℓ := idxLoc d) (fun i => erowSet (wid c i)) (erow_disjoint c)]
  rw [← hb]
  exact BI.equiv_iff.mp ⟨hs.1, hs.2⟩

theorem ewLoc_rows (d : Dev nD) (c : Fin 2) (q : PosShare TreeShare) (fe : Buf (Elt F) (ewLoc d)) :
    (ewLoc d ↦{q} fe : sProp 𝕄)
      = iprop((bigSep Finset.univ fun i : Fin 16 => ewLoc d ↦[erowSet (wid c i)]{q} fe) ∗ ewLoc d ↦[Finset.univ \ erowSetC c]{q} fe) := by
  have hs : (ewLoc d ↦[Finset.univ]{q} fe : sProp 𝕄)
      ⊣⊢ iprop((ewLoc d ↦[erowSetC c]{q} fe) ∗ ewLoc d ↦[Finset.univ \ erowSetC c]{q} fe) :=
    pointsTo_split_subset (Finset.subset_univ _)
  have hb : (ewLoc d ↦[erowSetC c]{q} fe : sProp 𝕄) = bigSep Finset.univ fun i : Fin 16 => ewLoc d ↦[erowSet (wid c i)]{q} fe := by
    unfold erowSetC
    rw [pointsTo_biUnion Finset.univ (ℓ := ewLoc d) (fun i => erowSet (wid c i)) (erow_disjoint c)]
  rw [← hb]
  exact BI.equiv_iff.mp ⟨hs.1, hs.2⟩

abbrev ewRest (d : Dev nD) (c : Fin 2) (q : PosShare TreeShare) : sProp 𝕄 :=
  iprop(∃ fe : Buf (Elt F) (ewLoc d), ⌜∀ j ∈ Finset.univ \ erowSetC c, (j 0).val < 2500 → fe j = A.fe d j⌝ ∗ ewLoc d ↦[Finset.univ \ erowSetC c]{q} fe)

theorem ew_fwd (d : Dev nD) (c : Fin 2) (q : PosShare TreeShare) :
    (ewPts A d q : sProp 𝕄) ⊢ iprop((bigSep Finset.univ fun i : Fin 16 => ewRowPts A d (wid c i) q) ∗ ewRest A d c q) := by
  iintro ⟨%fe, %hfe, He⟩
  ihave He' := (Entails.of_eq (ewLoc_rows d c q fe)) $$ He
  icases He' with ⟨Hr, Hrest⟩
  have hrow : ∀ i : Fin 16, (ewLoc d ↦[erowSet (wid c i)]{q} fe : sProp 𝕄) ⊢ ewRowPts A d (wid c i) q := fun i => by
    iintro H
    iexists fe
    isplitr
    · ipureintro; exact fun j _ hj => hfe j hj
    · iexact H
  isplitl [Hr]
  · iapply (SparseCore.ent (bigSep_mono (Φ := fun i : Fin 16 => (ewLoc d ↦[erowSet (wid c i)]{q} fe : sProp 𝕄))
      (Ψ := fun i : Fin 16 => ewRowPts A d (wid c i) q) fun i _ => hrow i))
    iexact Hr
  · iexists fe
    isplitr
    · ipureintro; exact fun j _ hj => hfe j hj
    · iexact Hrest

theorem ew_back (d : Dev nD) (c : Fin 2) (q : PosShare TreeShare) :
    iprop((bigSep Finset.univ fun i : Fin 16 => ewRowPts A d (wid c i) q) ∗ ewRest A d c q) ⊢ (ewPts A d q : sProp 𝕄) := by
  iintro ⟨Hr, Hrest⟩
  ihave Hr' := (known_biUnion (ℓ := ewLoc d) Finset.univ (fun i : Fin 16 => erowSet (wid c i)) q (A.fe d) (fun j => (j 0).val < 2500) (erow_disjoint c)) $$ Hr
  ihave H := (known_union (ℓ := ewLoc d) (erowSetC c) (Finset.univ \ erowSetC c) Finset.disjoint_sdiff q (A.fe d) (fun j => (j 0).val < 2500)) $$ [Hr' Hrest]
  · isplitl [Hr']; · iexact Hr'
    iexact Hrest
  rw [erowSetC_union]
  icases H with ⟨%f, %hf, Hf⟩
  iexists f
  isplitr
  · ipureintro; exact fun j hj => hf j (Finset.mem_univ j) hj
  · iexact Hf

theorem out_back (d : Dev nD) (c : Fin 2) :
    (bigSep Finset.univ fun i : Fin 16 => outDonePts A d (orowSet (wid c i))) ⊢ (outDonePts A d (orowSetC c) : sProp 𝕄) :=
  known_biUnion (ℓ := outLoc d) Finset.univ (fun i : Fin 16 => orowSet (wid c i)) fullShare (outVal A d) (fun j => (j 0).val < 10000) (orow_disjoint c)

theorem ownBufs_sh (d : Dev nD) (c : Fin τ.nSC) :
    (ownBufs (S d c) : sProp 𝕄)
      = iprop((∃ f, shLoc d c ↦{fullShare} f)
          ∗ bigSep ((ownRefs (τ := τ) (.scScalar c)).erase (shRef c)) fun b => iprop(∃ f, ((d, b) : Loc nD τ sig) ↦{fullShare} f)) := by
  unfold SparseCore.Cfg.ownBufs
  exact SparseCore.bigSep_erase' (i := shRef c) (mem_ownRefs.mpr rfl)

theorem sh_join (d : Dev nD) (c : Fin τ.nSC) :
    iprop((bigSep Finset.univ fun i : Fin 16 => shSegPts A d c i rest16)
        ∗ bigSep Finset.univ fun i : Fin 16 => bigSep Finset.univ fun n : Fin 16 => shSegPts A d c n (tok i))
      ⊢ (shLoc d c ↦{fullShare} ffsh A d c : sProp 𝕄) := by
  rw [bigSep_univ_comm (fun i n : Fin 16 => shSegPts A d c n (tok i)), ← bigSep_sep', shPts_segs]
  exact bigSep_mono fun n _ => Transfers.pointsTo_toks_join fullShare 16

theorem split_core (d : Dev nD) (c : Fin 2) :
    iprop(iprop(featsPts A d (hshare c) ∗ idxPts A d (hshare c) ∗ ewPts A d (hshare c) ∗ outLoc d ↦[orowSetC c]{fullShare} A.fo d)
        ∗ ownBufs (S d (Fin.cast nSC_eq.symm c)))
      ⊢ (|={Set.univ}=> iprop((bigSep Finset.univ fun i : Fin 16 => goRes A d c i)
          ∗ ((bigSep Finset.univ fun i : Fin 16 => tdRes A d c i)
            -∗ iprop(iprop(featsPts A d (hshare c) ∗ idxPts A d (hshare c) ∗ ewPts A d (hshare c) ∗ outDonePts A d (orowSetC c))
                ∗ ownBufs (S d (Fin.cast nSC_eq.symm c))))) : sProp 𝕄) := by
  unfold goRes tdRes
  simp only [bigSep_sep']
  rw [ownBufs_sh, featsPts_segs, idxPts_rows A d c, outPts_rows]
  iintro ⟨⟨Hf, ⟨Hi, Hir⟩, He, Ho⟩, ⟨%fsh, Hsh⟩, Hown⟩
  ihave He' := (ew_fwd A d c (hshare c)) $$ He
  icases He' with ⟨He, Her⟩
  have hseg : ∀ i : Fin 16, (shLoc d (Fin.cast nSC_eq.symm c) ↦[segSet i]{fullShare} fsh : sProp 𝕄)
      ⊢ iprop(∃ f, shLoc d (Fin.cast nSC_eq.symm c) ↦[segSet i]{fullShare} f) := fun i => by
    iintro H; iexists fsh; iexact H
  imodintro
  isplitl [Hf Hi He Ho Hsh]
  · isplitl [Hf]; · iexact Hf
    isplitl [Hi]; · iexact Hi
    isplitl [He]; · iexact He
    isplitl [Ho]; · iexact Ho
    ihave Hsh' := (Entails.of_eq (shPts_segs d (Fin.cast nSC_eq.symm c) fullShare fsh)) $$ Hsh
    iapply (SparseCore.ent (bigSep_mono (Φ := fun i : Fin 16 => (shLoc d (Fin.cast nSC_eq.symm c) ↦[segSet i]{fullShare} fsh : sProp 𝕄))
      (Ψ := fun i : Fin 16 => iprop(∃ f, shLoc d (Fin.cast nSC_eq.symm c) ↦[segSet i]{fullShare} f)) fun i _ => hseg i))
    iexact Hsh'
  iintro ⟨Hf, Hi, He, Ho, Hr, Ht⟩
  isplitl [Hf Hi Hir He Her Ho]
  · isplitl [Hf]; · iexact Hf
    isplitl [Hi Hir]
    · isplitl [Hi]; · iexact Hi
      iexact Hir
    isplitl [He Her]
    · iapply (ew_back A d c (hshare c))
      isplitl [He]; · iexact He
      iexact Her
    iapply (out_back A d c); iexact Ho
  isplitl [Hr Ht]
  · iexists ffsh A d (Fin.cast nSC_eq.symm c)
    iapply (sh_join A d (Fin.cast nSC_eq.symm c))
    isplitl [Hr]; · iexact Hr
    iexact Ht
  iexact Hown

theorem vecSplit : (K (F := F)).VecSplit (P A) 0 := fun d c => split_core A d (Fin.cast nCore_zero c)

end Cert.Proof.KI

end
-- ==== Proof.KI.LaunchElem.lean ====
import proofs.«204698_g79517024518204_fold_wed_m_581_46_alg».proof.Proof.KI.Ghost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (A : Ops F)

omit [FloatOps F] in
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a)
      ∗ BI.own ((uEmb (nD := nD) (sig := sig) (Ix := HIx 1) (Val := Elt F) (Name := ℕ) (U := UU) (Lvl := ℕ)).toEmb ((1, (b, (p, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : BI.own ((uEmb (nD := nD) (sig := sig) (Ix := HIx 1) (Val := Elt F) (Name := ℕ) (U := UU) (Lvl := ℕ)).toEmb ((1, (b, (p, 1))) : UU))
      ⊢ (iprop(BI.own (EB b) ∗ BI.own (EP p)) : sProp 𝕄) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op (p, (1 : Counters))))))
  iintro Hu
  ihave H := h1 $$ Hu
  icases H with ⟨HH, HR⟩
  ihave H2 := h2 $$ HR
  icases H2 with ⟨HB, HP⟩
  isplitl [HH]; · iexact HH
  isplitl [HB]; · iexact HB
  iexact HP

theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

theorem invs_b : iprop((bigSep bCells fun g => (semVal g 0 : sProp 𝕄)) ∗ bigSep bCells fun g => roundState EB (bRd (F := F) A) g 0)
    ⊢ |={Set.univ}=> iprop(∃ κ : GSem nD τ sig → ℕ, bigSep bCells fun g => cellInv EB (bRd (F := F) A) (κ g) g) := by
  refine (Rounds.bodies_intro EB (bRd (F := F) A) bCells).trans ((inv_alloc_family bCells (Rounds.body EB (bRd (F := F) A)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.univ_eq_empty, Finset.sum_empty, tallyAt_zero]
  | n + 1 => by rw [Fin.sum_univ_castSucc, sum_tallyAt_one g ι n, tallyAt_add]

theorem creds_b : ((P (F := F) A).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) A).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) A).oxFrom 0 (V d c i) = oxV d c := fun i => by
    rw [show (0 : ℕ) = (0 : Fin 1).val from rfl, (P A).oxFrom_step, (P A).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in

theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) A).x q (SparseCore.T d)) = iprop(emp) :=
  bigSep_univ_of_subsingleton (0 : Fin 1)
theorem Px_S (d : Dev nD) (c : Fin τ.nSC) : (bigSep Finset.univ fun q : Fin 1 => (P (F := F) A).x q (S d c)) = iprop(emp) :=
  bigSep_univ_of_subsingleton (0 : Fin 1)
theorem Px_V (d : Dev nD) (c : Fin τ.nSC) (i : Fin τ.nSub) :
    (bigSep Finset.univ fun q : Fin 1 => (P (F := F) A).x q (V d c i)) = bkit A d c i :=
  bigSep_univ_of_subsingleton (0 : Fin 1)

omit [FloatOps F] in
theorem bigSep_emp' {I : Type} (s : Finset I) : (bigSep s fun _ => iprop(emp)) = (iprop(emp) : sProp 𝕄) := bigSep_emp_const s

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

abbrev shared : sProp 𝕄 :=
  iprop((∃ κ : GSem nD τ sig → ℕ, bigSep Finset.univ fun x : DCI => cellInv EB (bRd (F := F) A) (κ (bcell₃ x)) (bcell₃ x))
    ∗ bigSep Finset.univ fun x : DCI => reached EB (bcell₃ x) 0)

abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

theorem kit_intro (dci : DCI) : iprop(shared (F := F) A ∗ mine (F := F) dci) ⊢ (bkit (F := F) A dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) A) (κ (bcell₃ x)) (bcell₃ x)) fun j _ =>
        sep_elim_left.trans (bigSep_elim (Φ := fun x : DCI => (cellInv EB (bRd (F := F) A) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => (reached EB (bcell₃ x) 0 : sProp 𝕄)) fun j _ =>
        sep_elim_left.trans (bigSep_elim (Φ := fun x : DCI => (reached EB (bcell₃ x) 0 : sProp 𝕄))
          (i := (d, c, Fin.castLE hsub1 j)) (Finset.mem_univ _))))
    isplitl; · iexact Hr
    rw [bigSep_emp']; iempintro
  isplitl [Hat]; · iexact Hat
  iexact Hcred

theorem kits_deal :
    iprop(shared (F := F) A ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) A).x q thr : sProp 𝕄) := by
  rw [SparseCore.Cfg.bigSep_threads (fun thr : Thread nD τ => bigSep Finset.univ fun q : Fin 1 => (P A).x q thr)]
  simp only [Px_T, Px_S, Px_V, bigSep_emp']
  iintro ⟨#Hsh, Hat, Htok, Hcred⟩
  isplitr; · iempintro
  isplitr; · iempintro
  iapply (bigSep_mono_frame (R := shared (F := F) A) (Φ := mine (F := F)) fun dci _ => kit_intro (F := F) A dci)
  isplitr; · iexact Hsh
  unfold mine
  rw [bigSep_sep', bigSep_sep']
  isplitl [Hat]; · iexact Hat
  isplitl [Htok]; · iexact Htok
  iexact Hcred

theorem ghost_deal : (BI.own (EP (initOf (Pipeline.cells cfgs Gen.cellOf_inj) (Pipeline.launchToks cfgs Gen.cellOf_inj))) : sProp 𝕄)
    ⊢ iprop(|==> bigSep Finset.univ (G (F := F))) := by
  refine (Pipeline.fund_ghost cfgs EP Gen.cellOf_inj).trans (BI.bupd_mono ?_)
  simp only [G_eq, bigSep_sep', bigSep_univ_of_subsingleton (0 : Fin 1)]
  exact BI.Entails.refl _

theorem hu₀ : iprop(ownU (u₀ (F := F)) ∗ (P (F := F) A).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P A).x q thr) := by
  unfold u₀
  iintro ⟨Hu, Hcred, Hfree⟩
  ihave H := (ownU_split _ _ _) $$ Hu
  icases H with ⟨HH, HB, HP⟩
  imod (Rounds.fund EB (bRd (F := F) A) bCells bToks) $$ HB with ⟨Hst, #Hr, Hat, Htok⟩
  imod (ghost_deal (F := F)) $$ HP with HG
  ihave Hsems := (sems_b (F := F)) $$ Hfree
  imod (invs_b (F := F) A) $$ [Hsems Hst] with ⟨%κ, #Hinv⟩
  · isplitl [Hsems] <;> iassumption
  ihave Hcred' := (creds_b A) $$ Hcred
  ihave Hinv' := (Entails.of_eq (bCells_eq (F := F) fun g => cellInv EB (bRd (F := F) A) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal A)
  isplitr
  · isplitl; · iexists κ; iexact Hinv'
    iexact Hr'
  isplitl [Hat']; · iexact Hat'
  isplitl [Htok']; · iexact Htok'
  iexact Hcred'

end Cert.Proof.KI

end
-- ==== Proof.KI.IdxFacts.lean ====
import proofs.«204698_g79517024518204_fold_wed_m_581_46_alg».proof.Proof.KI.MainDefs
import proofs.«204698_g79517024518204_fold_wed_m_581_46_alg».proof.Proof.KI.TileBody
import proofs.«204698_g79517024518204_fold_wed_m_581_46_alg».proof.Proof.KI.HostRead
import proofs.«204698_g79517024518204_fold_wed_m_581_46_alg».proof.Proof.PreFacts

noncomputable section

namespace Cert.Proof.KI

open Cert.KernelIdeal Cert.KernelIdeal.Gen
open Idealize.ShloMosaic
open Idealize.ShloMosaic.ValueIdx (ix0 ix1 ix2 ix3 eq_ix2)

theorem edge_row_lt (n : Fin 10000) (k : Fin 32) : (32 * n.val + k.val) / 128 < 2500 := by omega
theorem edge_pos (n : Fin 10000) (k : Fin 32) : 128 * ((32 * n.val + k.val) / 128) + (32 * n.val + k.val) % 128 = 32 * n.val + k.val :=
  Nat.div_add_mod _ _

variable {F : FTy → Type} [FloatOps F] (m : (ℓ : Loc nD τ sig) → Buf (Elt F) ℓ)

section Reads

variable (d : Dev nD)

theorem feOf_apply (q : ℕ) (hq : q < 2500) (j : Fin 128) :
    feOf m d (ix2 (⟨q, by omega⟩ : Fin 2560) j)
      = FloatOps.mulf (w3Of m d (ix2 (⟨q, hq⟩ : Fin 2500) j)) (w4Of m d (ix2 (⟨q, hq⟩ : Fin 2500) j)) := by
  unfold feOf
  exact dif_pos hq

theorem w3Of_apply (r : Fin 2500) (j : Fin 128) :
    w3Of m d (ix2 r j) = argAt m d main_arg3 (ix3 (0 : Fin 1) (⟨128 * r.val + j.val, by omega⟩ : Fin 320000) (0 : Fin 1)) := by
  unfold w3Of; exact read_w _ _ r j
theorem w4Of_apply (r : Fin 2500) (j : Fin 128) :
    w4Of m d (ix2 r j) = argAt m d main_arg4 (ix3 (0 : Fin 1) (⟨128 * r.val + j.val, by omega⟩ : Fin 320000) (0 : Fin 1)) := by
  unfold w4Of; exact read_w _ _ r j

theorem fiOf_apply (r : Fin 2560) (j : Fin 128) :
    fiOf m d (ix2 r j)
      = if hlt : 128 * r.val + j.val < 320000 then argAt m d main_arg2 (ix1 (⟨128 * r.val + j.val, hlt⟩ : Fin 320000)) else (0#32 : BitVec 32) := by
  unfold fiOf; exact read_idx _ _ _ _ _ r j

end Reads

theorem idxOK_ops (FEATS : (d : Dev nD) → Buf (Elt F) (featsLoc d))
    (hr : ∀ (d : Dev nD) (e : Fin 320000), (argAt m d main_arg2 (ix1 e)).toNat ≤ 9999) : IdxOK (opsOf m FEATS) := by
  intro d j
  obtain ⟨r, c, rfl⟩ : ∃ (r : Fin 2560) (c : Fin 128), j = ix2 r c := ⟨j 0, j 1, eq_ix2 j⟩
  show (fiOf m d (ix2 r c)).toNat < 10240
  rw [fiOf_apply]
  split
  · next hlt => have := hr d ⟨_, hlt⟩; omega
  · decide

theorem hr_of_pre [Cert.Pre_input_domain.Facts]
    (h : ∀ c : Dev nD, Cert.Pre_input_domain.fn (F := F) (argAt m c main_arg0) (argAt m c main_arg1) (argAt m c main_arg2)
      (argAt m c main_arg3) (argAt m c main_arg4) (argAt m c main_arg5) (argAt m c main_arg6) (argAt m c main_arg7)
      (argAt m c main_arg8) (argAt m c main_arg9) = (fun _ => 1#1)) :
    ∀ (d : Dev nD) (e : Fin 320000), (argAt m d main_arg2 (ix1 e)).toNat ≤ 9999 :=
  fun d e => Cert.PreFacts.idx_toNat _ _ _ _ _ _ _ _ _ _ (h d) (ix1 e)

end Cert.Proof.KI

end
-- ==== Proof.AggFold.lean ====
import proofs.«204698_g79517024518204_fold_wed_m_581_46_alg».proof.Proof.Spec
import Mathlib.Algebra.BigOperators.Fin

noncomputable section

namespace Cert.Spec

def accFold (s : EReal) (w f : Fin 32 → EReal) : (k : ℕ) → k ≤ 32 → EReal
  | 0, _ => s
  | k + 1, h => accFold s w f k (by omega) + w ⟨k, by omega⟩ * f ⟨k, by omega⟩

theorem accFold_eq_partial (s : EReal) (w f : Fin 32 → EReal) : ∀ (k : ℕ) (h : k ≤ 32),
    accFold s w f k h = s + ∑ j : Fin k, w ⟨j.val, by omega⟩ * f ⟨j.val, by omega⟩
  | 0, _ => by rw [accFold, Finset.univ_eq_empty, Finset.sum_empty, add_zero]
  | k + 1, h => by
    rw [accFold, accFold_eq_partial s w f k (by omega), Fin.sum_univ_castSucc, add_assoc]
    rfl

theorem accFold_eq_sum (s : EReal) (w f : Fin 32 → EReal) :
    accFold s w f 32 le_rfl = s + ∑ k : Fin 32, w k * f k :=
  accFold_eq_partial s w f 32 le_rfl

theorem agg_of_fold (I : In) (T : Fin 10000 → Fin 128 → EReal) (n : Fin 10000) (o : Fin 128) :
    max (accFold (T n o) (fun k => I.wv (edge n k) * I.wp (edge n k)) (fun k => T (I.idx (edge n k)) o) 32 le_rfl) 0
      = agg I T n o := by
  rw [accFold_eq_sum, agg]

end Cert.Spec

end
-- ==== Proof.KI.AggValue.lean ====
import proofs.«204698_g79517024518204_fold_wed_m_581_46_alg».proof.Proof.KI.Common
import proofs.«204698_g79517024518204_fold_wed_m_581_46_alg».proof.Proof.AggFold
import Idealize.ShloMosaic.PureOps.Ideal.Laws

noncomputable section

namespace Cert.Proof.KI

open Cert.KernelIdeal Idealize.ShloMosaic

variable (A : Ops Ideal) (d : Dev nD)

theorem accAt_eq_accFold (r : Fin 10240) (o : Fin 128) : ∀ (k : ℕ) (h : k ≤ 32),
    accAt A d r o k h = Cert.Spec.accFold (A.ff d (ValueIdx.ix2 r o)) (fun k => wAt A d r k) (fun k => A.ff d (ValueIdx.ix2 (nbAt A d r k) o)) k h
  | 0, _ => rfl
  | k + 1, h => by
    unfold accAt Cert.Spec.accFold
    rw [accAt_eq_accFold r o k (by omega)]
    rfl

theorem outVal_eq_fold (j : S10240x128.Idx) :
    outVal A d j = max (Cert.Spec.accFold (A.ff d (ValueIdx.ix2 (j 0) (j 1))) (fun k => wAt A d (j 0) k)
      (fun k => A.ff d (ValueIdx.ix2 (nbAt A d (j 0) k) (j 1))) 32 le_rfl) 0 := by
  unfold outVal
  show max (accAt A d (j 0) (j 1) 32 le_rfl) (Ideal.ofBits .f32 0x00000000#32) = _
  exact congrArg₂ max (accAt_eq_accFold A d (j 0) (j 1) 32 le_rfl) Ideal.ofBits_zero_f32

end Cert.Proof.KI

end
-- ==== Proof.KI.KerValue.lean ====
import proofs.«204698_g79517024518204_fold_wed_m_581_46_alg».proof.Proof.KI.AggValue
import proofs.«204698_g79517024518204_fold_wed_m_581_46_alg».proof.Proof.AggFold
import proofs.«204698_g79517024518204_fold_wed_m_581_46_alg».proof.Proof.Spec

noncomputable section

namespace Cert.Proof.KI

open Cert.KernelIdeal Idealize.ShloMosaic

theorem outVal_eq_outK (A : Ops Ideal) (d : Dev nD) (I : Cert.Spec.In)
    (hff : ∀ (n : Fin 10000) (o : Fin 128), A.ff d (ValueIdx.ix2 (⟨n.val, by omega⟩ : Fin 10240) o) = Cert.Spec.filmK I n o)
    (hw : ∀ (n : Fin 10000) (k : Fin 32), wAt A d ⟨n.val, by omega⟩ k = I.wv (Cert.Spec.edge n k) * I.wp (Cert.Spec.edge n k))
    (hnb : ∀ (n : Fin 10000) (k : Fin 32), (nbAt A d ⟨n.val, by omega⟩ k).val = (I.idx (Cert.Spec.edge n k)).val)
    (n : Fin 10000) (o : Fin 128) :
    outVal A d (ValueIdx.ix2 (⟨n.val, by omega⟩ : Fin 10240) o) = Cert.Spec.outK I n o := by

  have hnb' : ∀ k : Fin 32, nbAt A d (⟨n.val, by omega⟩ : Fin 10240) k = (⟨(I.idx (Cert.Spec.edge n k)).val, by omega⟩ : Fin 10240) :=
    fun k => Fin.ext (hnb n k)
  have e1 : (fun k : Fin 32 => wAt A d (⟨n.val, by omega⟩ : Fin 10240) k) = fun k => I.wv (Cert.Spec.edge n k) * I.wp (Cert.Spec.edge n k) :=
    funext (hw n)
  have e2 : (fun k : Fin 32 => A.ff d (ValueIdx.ix2 (nbAt A d (⟨n.val, by omega⟩ : Fin 10240) k) o))
      = fun k => Cert.Spec.filmK I (I.idx (Cert.Spec.edge n k)) o :=
    funext fun k => by rw [hnb' k]; exact hff (I.idx (Cert.Spec.edge n k)) o
  refine (outVal_eq_fold A d _).trans ?_
  show max (Cert.Spec.accFold (A.ff d (ValueIdx.ix2 (⟨n.val, by omega⟩ : Fin 10240) o)) (fun k : Fin 32 => wAt A d (⟨n.val, by omega⟩ : Fin 10240) k)
      (fun k : Fin 32 => A.ff d (ValueIdx.ix2 (nbAt A d (⟨n.val, by omega⟩ : Fin 10240) k) o)) 32 le_rfl) 0 = Cert.Spec.outK I n o
  rw [hff n o, e1, e2]
  exact Cert.Spec.agg_of_fold I (Cert.Spec.filmK I) n o

end Cert.Proof.KI

end
-- ==== Proof.KI.KerSide.lean ====
import proofs.«204698_g79517024518204_fold_wed_m_581_46_alg».proof.Proof.KI.IdxFacts
import proofs.«204698_g79517024518204_fold_wed_m_581_46_alg».proof.Proof.KI.KerValue
import proofs.«204698_g79517024518204_fold_wed_m_581_46_alg».proof.Proof.Spec

noncomputable section

namespace Cert.Proof.KI

open Cert.KernelIdeal Cert.KernelIdeal.Gen
open Idealize.ShloMosaic
open Idealize.ShloMosaic.ValueIdx (ix0 ix1 ix2 ix3 eq_ix2)

section AtIdeal

variable (m : (ℓ : Loc nD τ sig) → Buf (Elt Ideal) ℓ) (FEATS : (d : Dev nD) → Buf (Elt Ideal) (featsLoc d)) (d : Dev nD) (I : Cert.Spec.In)

theorem hw_ops
    (hwv : ∀ e : Fin 320000, I.wv e = argAt m d main_arg3 (ix3 (0 : Fin 1) e (0 : Fin 1)))
    (hwp : ∀ e : Fin 320000, I.wp e = argAt m d main_arg4 (ix3 (0 : Fin 1) e (0 : Fin 1)))
    (n : Fin 10000) (k : Fin 32) :
    wAt (opsOf m FEATS) d ⟨n.val, by omega⟩ k = I.wv (Cert.Spec.edge n k) * I.wp (Cert.Spec.edge n k) := by
  have he : (⟨128 * ((32 * n.val + k.val) / 128) + (32 * n.val + k.val) % 128, by omega⟩ : Fin 320000) = Cert.Spec.edge n k :=
    Fin.ext (edge_pos n k)
  have h1 : wAt (opsOf m FEATS) d ⟨n.val, by omega⟩ k
      = feOf m d (ix2 (⟨(32 * n.val + k.val) / 128, by omega⟩ : Fin 2560) (⟨(32 * n.val + k.val) % 128, Nat.mod_lt _ (by decide)⟩ : Fin 128)) := rfl
  rw [h1, feOf_apply m d _ (edge_row_lt n k), w3Of_apply, w4Of_apply, hwv, hwp, ← he]
  rfl

theorem fiOf_edge (n : Fin 10000) (k : Fin 32) :
    fiOf m d (ix2 (⟨(32 * n.val + k.val) / 128, by omega⟩ : Fin 2560) (⟨(32 * n.val + k.val) % 128, Nat.mod_lt _ (by decide)⟩ : Fin 128))
      = argAt m d main_arg2 (ix1 (Cert.Spec.edge n k)) := by
  have hlt : 128 * ((32 * n.val + k.val) / 128) + (32 * n.val + k.val) % 128 < 320000 := by rw [edge_pos]; omega
  rw [fiOf_apply]
  refine (dif_pos hlt).trans ?_
  exact congrArg (fun e => argAt m d main_arg2 (ix1 e)) (Fin.ext (edge_pos n k))

theorem hnb_ops
    (hix : ∀ e : Fin 320000, I.idx e = ⟨(argAt m d main_arg2 (ix1 e)).toNat % 10000, Nat.mod_lt _ (by decide)⟩)
    (hr : ∀ e : Fin 320000, (argAt m d main_arg2 (ix1 e)).toNat ≤ 9999)
    (n : Fin 10000) (k : Fin 32) :
    (nbAt (opsOf m FEATS) d ⟨n.val, by omega⟩ k).val = (I.idx (Cert.Spec.edge n k)).val := by
  have h1 : (nbAt (opsOf m FEATS) d ⟨n.val, by omega⟩ k).val
      = (fiOf m d (ix2 (⟨(32 * n.val + k.val) / 128, by omega⟩ : Fin 2560) (⟨(32 * n.val + k.val) % 128, Nat.mod_lt _ (by decide)⟩ : Fin 128))).toNat % 10240 := rfl
  rw [h1, fiOf_edge, hix]
  show (argAt m d main_arg2 (ix1 (Cert.Spec.edge n k))).toNat % 10240 = (argAt m d main_arg2 (ix1 (Cert.Spec.edge n k))).toNat % 10000
  have := hr (Cert.Spec.edge n k)
  omega

theorem ker_value
    (hwv : ∀ e : Fin 320000, I.wv e = argAt m d main_arg3 (ix3 (0 : Fin 1) e (0 : Fin 1)))
    (hwp : ∀ e : Fin 320000, I.wp e = argAt m d main_arg4 (ix3 (0 : Fin 1) e (0 : Fin 1)))
    (hix : ∀ e : Fin 320000, I.idx e = ⟨(argAt m d main_arg2 (ix1 e)).toNat % 10000, Nat.mod_lt _ (by decide)⟩)
    (hr : ∀ e : Fin 320000, (argAt m d main_arg2 (ix1 e)).toNat ≤ 9999)
    (hff : ∀ (n : Fin 10000) (o : Fin 128), FEATS d (ix2 (⟨n.val, by omega⟩ : Fin 10240) o) = Cert.Spec.filmK I n o)
    (n : Fin 10000) (o : Fin 128) :
    outVal (opsOf m FEATS) d (ix2 (⟨n.val, by omega⟩ : Fin 10240) o) = Cert.Spec.outK I n o :=
  outVal_eq_outK (opsOf m FEATS) d I hff (hw_ops m FEATS d I hwv hwp) (hnb_ops m FEATS d I hix hr) n o

end AtIdeal

end Cert.Proof.KI

end
-- ==== Proof.KI.FilmDefs.lean ====
import proofs.«204698_g79517024518204_fold_wed_m_581_46_alg».proof.Proof.Gen.KernelIdeal.Skeleton

noncomputable section

namespace Cert.KernelIdeal.Film

open Cert.KernelIdeal Cert.KernelIdeal.Gen

open Idealize.ShloMosaic
open Idealize.ShloMosaic.TcCoe
open Idealize.SL.Sem

variable {F : FTy → Type} [FloatOps F]

abbrev scr : Memref sig .tc .vmem S1x256 .f32 := Memref.whole cc0_scratch0

abbrev gbv (xv : Vec F S256x128 .f32) (xg : Vec F S256x1 .f32) (xc : Vec F S1x128 .f32) (xb : Vec F S1x256 .f32) : FVec F S1x256 .f32 :=
  k0_pay1 xv xg xc xb

abbrev gbLo (g : cc0_scratch0.ty.Contents (Elt F)) : Vec F S1x128 .f32 :=
  View.readAt (Elt F) (scr).view (Rect.unit (s := S1x256) ![0, 0] S1x128.size inb_S1x256_S1x128_0_0).toLoadRect g
abbrev gbHi (g : cc0_scratch0.ty.Contents (Elt F)) : Vec F S1x128 .f32 :=
  View.readAt (Elt F) (scr).view (Rect.unit (s := S1x256) ![0, 128] S1x128.size inb_S1x256_S1x128_0_128).toLoadRect g

abbrev featv (xx : Vec F S2000x128 .f32) (xW : Vec F S128x128 .f32) (xbf : Vec F S1x128 .f32) (g : cc0_scratch0.ty.Contents (Elt F)) :
    FVec F S2000x128 .f32 :=
  k0_pay3 xx xW xbf (gbLo g) (gbHi g)

abbrev ewv (xa xb : Vec F S2500x128 .f32) : FVec F S2500x128 .f32 := k0_pay2 xa xb

def t0 : Fin cfg0.N := ⟨0, by decide⟩

variable (c : Dev nD) (V : (b : Ref sig .tc) → Buf (Elt F) ((c : Thread nD τ).loc b))

def inB (w : Fin cfg0.W) (t : Fin cfg0.N) : (cfg0.win w).block.Idx → Elt F (cfg0.win w).elt :=
  (cfg0.win w).fill (cfg0.grid.coords t) (fun _ => Classical.arbitrary _)
    (((cfg0.win w).blk t).view.read (Elt F) (V (cfg0.win w).arr.view.ref))

def gbOf : FVec F S1x256 .f32 := gbv (inB c V 1 t0) (inB c V 2 t0) (inB c V 0 t0) (inB c V 3 t0)

def featBlk (t : Fin cfg0.N) : FVec F S2000x128 .f32 := featv (inB c V 4 t) (inB c V 5 t0) (inB c V 6 t0) (gbOf c V)

def ewOf : FVec F S2500x128 .f32 := ewv (inB c V 7 t0) (inB c V 8 t0)

abbrev ewRect : Rect S2560x128 := Rect.unit (s := S2560x128) ![0, 0] S2500x128.size inb_S2560x128_S2500x128_0_0

def featsAt : Nat → Buf (Elt F) ((cfg0.win 9).arr.view.loc (c : Thread nD τ))
  | 0 => V (cfg0.win 9).arr.view.ref
  | n + 1 =>
    if h : n < cfg0.N then
      ((cfg0.win 9).blk ⟨n, h⟩).view.write (Elt F) (featsAt n) ((cfg0.win 9).cut (cfg0.grid.coords ⟨n, h⟩) (featBlk c V ⟨n, h⟩)) Finset.univ
    else featsAt n

def FEATS : Buf (Elt F) ((c : Thread nD τ).loc main_v7_0) := featsAt c V cfg0.N

end Cert.KernelIdeal.Film

end
-- ==== Proof.KI.FilmBody.lean ====
import proofs.«204698_g79517024518204_fold_wed_m_581_46_alg».proof.Proof.KI.FilmDefs
import proofs.«204698_g79517024518204_fold_wed_m_581_46_alg».proof.Proof.Gen.KernelIdeal
import proofs.«204698_g79517024518204_fold_wed_m_581_46_alg».proof.Proof.Gen.KernelIdeal.Skeleton
import proofs.«204698_g79517024518204_fold_wed_m_581_46_alg».proof.Proof.Gen.KernelIdeal.Launch
import proofs.«204698_g79517024518204_fold_wed_m_581_46_alg».proof.Proof.Gen.KernelIdeal.Points
import Idealize.ShloMosaic.Lib.Tactic
import Idealize.ShloMosaic.Lib.Pipeline.Regions

noncomputable section

namespace Cert.KernelIdeal.Film

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section Whole

variable {sig : RefSig} {κ : Kind} {sp : Space} {s : Shape} {e : EltTy} {Val : EltTy → Type}

theorem off00 : (![0, 0] : Fin 2 → Nat) = fun _ => 0 := by
  funext a; fin_cases a <;> rfl

theorem readAt_all {m : Memref sig κ sp s e} (h : m.IsWhole) {off : Fin s.rank → Nat} (ho : off = fun _ => 0)
    (inb : ∀ a, off a + s.size a ≤ s.size a) (f : m.view.ty.Contents Val) :
    m.view.readAt Val (Rect.unit off s.size inb).toLoadRect f = m.view.read Val f := by
  obtain ⟨b, rfl, rfl, rfl, hm⟩ := h; cases hm
  rw [Memref.readAt_unit_zero Val b ho inb f]; rfl

theorem writes_all {m : Memref sig κ sp s e} (h : m.IsWhole) {off : Fin s.rank → Nat} (ho : off = fun _ => 0)
    (inb : ∀ a, off a + s.size a ≤ s.size a) (f : m.view.ty.Contents Val) (w : s.Idx → Val e) :
    m.view.read Val (m.view.writes Val f [⟨Rect.unit off s.size inb, w⟩]) = w := by
  obtain ⟨b, rfl, rfl, rfl, hm⟩ := h; cases hm
  show (Memref.whole b).view.read Val (((Memref.whole b).access (Rect.unit off b.ty.shape.size inb)).write Val f w Finset.univ) = w
  rw [Memref.write_access_unit_zero_univ Val b ho inb f w]; rfl

end Whole

variable {F : FTy → Type} [FloatOps F]

theorem readCov_scr (w : FVec F S1x256 .f32) (B : LoadRect S1x256) :
    (scr).view.readCov [⟨Rect.unit (s := S1x256) ![0, 0] S1x256.size inb_S1x256_S1x256_0_0, w⟩] B
      = View.readAt (Elt F) (scr).view B w := by
  unfold View.readCov
  congr 1
  exact Memref.write_access_unit_zero_univ (Elt F) cc0_scratch0 off00 inb_S1x256_S1x256_0_0 _ w

theorem writes_scr (fs : cc0_scratch0.ty.Contents (Elt F)) (w : FVec F S1x256 .f32) :
    (scr).view.writes (Elt F) fs [⟨Rect.unit (s := S1x256) ![0, 0] S1x256.size inb_S1x256_S1x256_0_0, w⟩] = w :=
  Memref.write_access_unit_zero_univ (Elt F) cc0_scratch0 off00 inb_S1x256_S1x256_0_0 fs w

variable {Ix : Type} [DecidableEq Ix] {Name : Type} [DecidableEq Name] {U : Type} [URA U]

local notation "𝕄" => MT nD τ sig Ix (Elt F) Name U ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev rd1 (M : Memref sig .tc .vmem S1x128 .f32) (f : M.view.ty.Contents (Elt F)) : Vec F S1x128 .f32 :=
  View.readAt (Elt F) M.view (Rect.unit (s := S1x128) ![0, 0] S1x128.size inb_S1x128_S1x128_0_0).toLoadRect f
abbrev rd2 (M : Memref sig .tc .vmem S256x128 .f32) (f : M.view.ty.Contents (Elt F)) : Vec F S256x128 .f32 :=
  View.readAt (Elt F) M.view (Rect.unit (s := S256x128) ![0, 0] S256x128.size inb_S256x128_S256x128_0_0).toLoadRect f
abbrev rd3 (M : Memref sig .tc .vmem S256x1 .f32) (f : M.view.ty.Contents (Elt F)) : Vec F S256x1 .f32 :=
  View.readAt (Elt F) M.view (Rect.unit (s := S256x1) ![0, 0] S256x1.size inb_S256x1_S256x1_0_0).toLoadRect f
abbrev rd4 (M : Memref sig .tc .vmem S1x256 .f32) (f : M.view.ty.Contents (Elt F)) : Vec F S1x256 .f32 :=
  View.readAt (Elt F) M.view (Rect.unit (s := S1x256) ![0, 0] S1x256.size inb_S1x256_S1x256_0_0).toLoadRect f
abbrev rd5 (M : Memref sig .tc .vmem S2000x128 .f32) (f : M.view.ty.Contents (Elt F)) : Vec F S2000x128 .f32 :=
  View.readAt (Elt F) M.view (Rect.unit (s := S2000x128) ![0, 0] S2000x128.size inb_S2000x128_S2000x128_0_0).toLoadRect f
abbrev rd6 (M : Memref sig .tc .vmem S128x128 .f32) (f : M.view.ty.Contents (Elt F)) : Vec F S128x128 .f32 :=
  View.readAt (Elt F) M.view (Rect.unit (s := S128x128) ![0, 0] S128x128.size inb_S128x128_S128x128_0_0).toLoadRect f
abbrev rd8 (M : Memref sig .tc .vmem S2500x128 .f32) (f : M.view.ty.Contents (Elt F)) : Vec F S2500x128 .f32 :=
  View.readAt (Elt F) M.view (Rect.unit (s := S2500x128) ![0, 0] S2500x128.size inb_S2500x128_S2500x128_0_0).toLoadRect f

abbrev stFeat (M : Memref sig .tc .vmem S2000x128 .f32) (f : M.view.ty.Contents (Elt F)) (w : FVec F S2000x128 .f32) : M.view.ty.Contents (Elt F) :=
  M.view.writes (Elt F) f [⟨Rect.unit (s := S2000x128) ![0, 0] S2000x128.size inb_S2000x128_S2000x128_0_0, w⟩]
abbrev stEw (M : Memref sig .tc .vmem S2560x128 .f32) (f : M.view.ty.Contents (Elt F)) (w : FVec F S2500x128 .f32) : M.view.ty.Contents (Elt F) :=
  M.view.writes (Elt F) f [⟨Rect.unit (s := S2560x128) ![0, 0] S2500x128.size inb_S2560x128_S2500x128_0_0, w⟩]

theorem run0 (𝒱₀ : Variants) (c : Dev nD) (i : grid0.Coords) (hi : k0_cond1 i = 1#1)
    (M1 : Memref sig .tc .vmem S1x128 .f32) (h1 : M1.IsWhole) (M2 : Memref sig .tc .vmem S256x128 .f32) (h2 : M2.IsWhole)
    (M3 : Memref sig .tc .vmem S256x1 .f32) (h3 : M3.IsWhole) (M4 : Memref sig .tc .vmem S1x256 .f32) (h4 : M4.IsWhole)
    (M5 : Memref sig .tc .vmem S2000x128 .f32) (h5 : M5.IsWhole) (M6 : Memref sig .tc .vmem S128x128 .f32) (h6 : M6.IsWhole)
    (M7 : Memref sig .tc .vmem S1x128 .f32) (h7 : M7.IsWhole) (M8 : Memref sig .tc .vmem S2500x128 .f32) (h8 : M8.IsWhole)
    (M9 : Memref sig .tc .vmem S2500x128 .f32) (h9 : M9.IsWhole) (M10 : Memref sig .tc .vmem S2000x128 .f32) (h10 : M10.IsWhole)
    (M11 : Memref sig .tc .vmem S2560x128 .f32) (h11 : M11.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9) (f10 : Bf (F := F) c M10)
    (f11 : Bf (F := F) c M11) (fs : Bf (F := F) c (Memref.whole cc0_scratch0)) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9
        ∗ pt c M10 f10 ∗ pt c M11 f11 ∗ pt c scr fs
        ∗ (iprop(pt c M1 f1 ∗ pt c M2 f2 ∗ pt c M3 f3 ∗ pt c M4 f4 ∗ pt c M5 f5 ∗ pt c M6 f6 ∗ pt c M7 f7 ∗ pt c M8 f8 ∗ pt c M9 f9
            ∗ pt c M10 (stFeat M10 f10 (featv (rd5 M5 f5) (rd6 M6 f6) (rd1 M7 f7) (gbv (rd2 M2 f2) (rd3 M3 f3) (rd1 M1 f1) (rd4 M4 f4))))
            ∗ pt c M11 (stEw M11 f11 (ewv (rd8 M8 f8) (rd8 M9 f9)))
            ∗ pt c scr (gbv (rd2 M2 f2) (rd3 M3 f3) (rd1 M1 f1) (rd4 M4 f4))) -∗ Q ⟨⟩))
      ⊢ wp frame (wpE (defs₀ (F := F)) 𝒱₀ (c : Thread nD τ) none) Set.univ
          (cc0__film_body i M1 h1 M2 h2 M3 h3 M4 h4 M5 h5 M6 h6 M7 h7 M8 h8 M9 h9 M10 h10 M11 h11 (Memref.whole cc0_scratch0) (Memref.isWhole_whole _)) Q := by
  iintro ⟨H1, H2, H3, H4, H5, H6, H7, H8, H9, H10, H11, Hs, Hk⟩
  sl_unfold [cc0__film_body]
  sl_exec (disch := exact hi)
  sl_step
  sl_unfold_words
  rw [readCov_scr, readCov_scr, writes_scr]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hs

theorem runS (𝒱₀ : Variants) (c : Dev nD) (i : grid0.Coords) (hi : ¬ k0_cond1 i = 1#1)
    (M1 : Memref sig .tc .vmem S1x128 .f32) (h1 : M1.IsWhole) (M2 : Memref sig .tc .vmem S256x128 .f32) (h2 : M2.IsWhole)
    (M3 : Memref sig .tc .vmem S256x1 .f32) (h3 : M3.IsWhole) (M4 : Memref sig .tc .vmem S1x256 .f32) (h4 : M4.IsWhole)
    (M5 : Memref sig .tc .vmem S2000x128 .f32) (h5 : M5.IsWhole) (M6 : Memref sig .tc .vmem S128x128 .f32) (h6 : M6.IsWhole)
    (M7 : Memref sig .tc .vmem S1x128 .f32) (h7 : M7.IsWhole) (M8 : Memref sig .tc .vmem S2500x128 .f32) (h8 : M8.IsWhole)
    (M9 : Memref sig .tc .vmem S2500x128 .f32) (h9 : M9.IsWhole) (M10 : Memref sig .tc .vmem S2000x128 .f32) (h10 : M10.IsWhole)
    (M11 : Memref sig .tc .vmem S2560x128 .f32) (h11 : M11.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9) (f10 : Bf (F := F) c M10)
    (f11 : Bf (F := F) c M11) (fs : Bf (F := F) c (Memref.whole cc0_scratch0)) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9
        ∗ pt c M10 f10 ∗ pt c M11 f11 ∗ pt c scr fs
        ∗ (iprop(pt c M1 f1 ∗ pt c M2 f2 ∗ pt c M3 f3 ∗ pt c M4 f4 ∗ pt c M5 f5 ∗ pt c M6 f6 ∗ pt c M7 f7 ∗ pt c M8 f8 ∗ pt c M9 f9
            ∗ pt c M10 (stFeat M10 f10 (featv (rd5 M5 f5) (rd6 M6 f6) (rd1 M7 f7) fs))
            ∗ pt c M11 f11 ∗ pt c scr fs) -∗ Q ⟨⟩))
      ⊢ wp frame (wpE (defs₀ (F := F)) 𝒱₀ (c : Thread nD τ) none) Set.univ
          (cc0__film_body i M1 h1 M2 h2 M3 h3 M4 h4 M5 h5 M6 h6 M7 h7 M8 h8 M9 h9 M10 h10 M11 h11 (Memref.whole cc0_scratch0) (Memref.isWhole_whole _)) Q := by
  iintro ⟨H1, H2, H3, H4, H5, H6, H7, H8, H9, H10, H11, Hs, Hk⟩
  sl_unfold [cc0__film_body]
  sl_exec (disch := exact hi)
  sl_step
  sl_unfold_words
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hs

section Data

open Idealize.ShloMosaic.Pipeline (RDat)

variable (c : Dev nD) (V : (b : Ref sig .tc) → Buf (Elt F) ((c : Thread nD τ).loc b)) (O : CellTallies nD τ sig Ix) (ι : Ix)

def rdat : RDat τ (Elt F) Ix Name U ℕ cfg0 c where
  A w := V ((cfg0.win w).arr.view.ref)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => X = featBlk c V t
    | ⟨10, _⟩ => if t.val = 0 then ∀ x, X ((ewRect).emb x) = ewOf c V x else X = Y
  Φ t := if t.val = 0 then iprop(∃ f, pt c scr f) else pt c scr (gbOf c V)
  q _ := fullShare
  owed _ := O
  recorded _ := {p | p.2 = ι}

end Data

section Finds

open Idealize.ShloMosaic.Pipeline (RDat Window)

theorem fill_uncut {G : Pipeline.Grid} (w : Window sig G) (i : G.Coords) (hm : ∀ j, w.moved i j = true) {α : Type}
    (d d' : w.block.Idx → α) (g : (w.xblock i).Idx → α) : w.fill i d g = w.fill i d' g := by
  funext j; unfold Window.fill; rw [dif_pos (hm j), dif_pos (hm j)]

theorem finds_keep {cfg : Pipeline.Cfg sig Λ₀} {c : Dev nD} (rd : RDat τ (Elt F) Ix Name U ℕ cfg c) (w : Fin cfg.W)
    (hk : ∀ t Y X, rd.after w t Y X → X = Y) (hfl : ∀ t, (cfg.win w).flush t = false)
    (hf0 : ∀ t : Fin cfg.N, t.val = 0 → (cfg.win w).fetch t = true) :
    ∀ (n : Nat) (t : Fin cfg.N), t.val = n → ∀ Y, rd.Finds w t Y → ∃ t' d, (cfg.win w).fetch t' = true ∧ Y = rd.fetched w t' d := by
  intro n
  induction n with
  | zero =>
    intro t ht Y hY
    rw [rd.finds_of_fetch (hf0 t ht)] at hY
    obtain ⟨d, rfl⟩ := hY
    exact ⟨t, d, hf0 t ht, rfl⟩
  | succ n ih =>
    intro t ht Y hY
    by_cases hf : (cfg.win w).fetch t = true
    · rw [rd.finds_of_fetch hf] at hY
      obtain ⟨d, rfl⟩ := hY
      exact ⟨t, d, hf, rfl⟩
    · have hf' : (cfg.win w).fetch t = false := Bool.eq_false_iff.mpr hf
      rw [rd.finds_of_pos hf' (by omega)] at hY
      rcases hY with h | h
      · rw [hfl] at h; exact absurd h Bool.false_ne_true
      · obtain ⟨Y', hY', ha⟩ := h
        obtain rfl := hk _ _ _ ha
        exact ih ⟨t.val - 1, Nat.lt_of_le_of_lt (Nat.sub_le _ _) t.isLt⟩ (by simp only []; omega) _ hY'

variable (c : Dev nD) (V : (b : Ref sig .tc) → Buf (Elt F) ((c : Thread nD τ).loc b)) (O : CellTallies nD τ sig Ix) (ι : Ix)

theorem finds_sync (w : Fin cfg0.W) (hk : ∀ t Y X, (rdat (Name := Name) (U := U) c V O ι).after w t Y X → X = Y)
    (hfl : ∀ t, (cfg0.win w).flush t = false) (hfe : ∀ t : Fin cfg0.N, (cfg0.win w).fetch t = true ↔ t.val % 5 = 0)
    (hm : ∀ j, (cfg0.win w).moved (cfg0.grid.coords t0) j = true)
    (t : Fin cfg0.N) (Y : (cfg0.win w).block.Idx → Elt F (cfg0.win w).elt)
    (hY : (rdat (Name := Name) (U := U) c V O ι).Finds w t Y) : Y = inB c V w t0 := by
  obtain ⟨t', d, hf, rfl⟩ := finds_keep (rdat (Name := Name) (U := U) c V O ι) w hk hfl
    (fun t ht => (hfe t).mpr (by rw [ht])) t.val t rfl Y hY
  have ht' : t' = t0 := Fin.ext (by
    have h1 := (hfe t').mp hf
    have h2 : t'.val < 5 := lt_of_lt_of_eq t'.isLt N_0
    show t'.val = 0
    omega)
  subst ht'
  exact fill_uncut (cfg0.win w) _ hm _ _ _

end Finds

section Obligation

open Idealize.ShloMosaic.Pipeline (RDat Window)

variable (c : Dev nD) (V : (b : Ref sig .tc) → Buf (Elt F) ((c : Thread nD τ).loc b)) (O : CellTallies nD τ sig Ix) (ι : Ix)

theorem owns_whole' {sp : Space} {S : Shape} {e : EltTy} (M : Memref sig .tc sp S e) (h : M.IsWhole) (q : PosShare TreeShare)
    (X : S.Idx → Elt F e) :
    (owns (c : Thread nD τ) M q X : sProp 𝕄) = iprop(∃ f, ⌜M.view.read (Elt F) f = X⌝ ∗ (M.view.loc (c : Thread nD τ) ↦{q} f)) := by
  unfold owns; rw [h.set_eq_univ]

theorem owns_of_pt {sp : Space} {S : Shape} {e : EltTy} (M : Memref sig .tc sp S e) (h : M.IsWhole) (q : PosShare TreeShare)
    (f : M.view.ty.Contents (Elt F)) (X : S.Idx → Elt F e) (hf : M.view.read (Elt F) f = X) :
    (M.view.loc (c : Thread nD τ) ↦{q} f : sProp 𝕄) ⊢ owns (c : Thread nD τ) M q X := by
  rw [owns_whole' c M h]
  iintro H; iexists f; isplitr; · ipureintro; exact hf
  iexact H

theorem Φ_zero (t : Fin (cfg0.N + 1)) (h : t.val = 0) : (rdat (Name := Name) (U := U) c V O ι).Φ t = iprop(∃ f, pt c scr f) := if_pos h
theorem Φ_pos (t : Fin (cfg0.N + 1)) (h : t.val ≠ 0) : (rdat (Name := Name) (U := U) c V O ι).Φ t = pt c scr (gbOf c V) := if_neg h

theorem cond_iff : ∀ t : Fin grid0.N, k0_cond1 (grid0.coords t) = 1#1 ↔ t.val = 0 := by decide

set_option maxHeartbeats 4000000 in

theorem body_obligation (𝒱₀ : Variants) : (rdat (Name := Name) (U := U) c V O ι).BodyObligation (defs₀ (F := F)) 𝒱₀ ι Set.univ := by
  intro t Y hY
  have e0 : Y 0 = inB c V 0 t0 := finds_sync c V O ι 0 (fun _ _ _ h => h) (fun _ => rfl) fetch0_0 (fun _ => rfl) t (Y 0) (hY 0)
  have e1 : Y 1 = inB c V 1 t0 := finds_sync c V O ι 1 (fun _ _ _ h => h) (fun _ => rfl) fetch0_1 (fun _ => rfl) t (Y 1) (hY 1)
  have e2 : Y 2 = inB c V 2 t0 := finds_sync c V O ι 2 (fun _ _ _ h => h) (fun _ => rfl) fetch0_2 (fun _ => rfl) t (Y 2) (hY 2)
  have e3 : Y 3 = inB c V 3 t0 := finds_sync c V O ι 3 (fun _ _ _ h => h) (fun _ => rfl) fetch0_3 (fun _ => rfl) t (Y 3) (hY 3)
  have e5 : Y 5 = inB c V 5 t0 := finds_sync c V O ι 5 (fun _ _ _ h => h) (fun _ => rfl) fetch0_5 (fun _ => rfl) t (Y 5) (hY 5)
  have e6 : Y 6 = inB c V 6 t0 := finds_sync c V O ι 6 (fun _ _ _ h => h) (fun _ => rfl) fetch0_6 (fun _ => rfl) t (Y 6) (hY 6)
  have e7 : Y 7 = inB c V 7 t0 := finds_sync c V O ι 7 (fun _ _ _ h => h) (fun _ => rfl) fetch0_7 (fun _ => rfl) t (Y 7) (hY 7)
  have e8 : Y 8 = inB c V 8 t0 := finds_sync c V O ι 8 (fun _ _ _ h => h) (fun _ => rfl) fetch0_8 (fun _ => rfl) t (Y 8) (hY 8)
  have e4 : Y 4 = inB c V 4 t := by
    obtain ⟨d, hd⟩ := ((rdat (Name := Name) (U := U) c V O ι).finds_of_fetch (fetch0_4 t) (Y 4)).mp (hY 4)
    rw [hd]
    exact fill_uncut (cfg0.win 4) (cfg0.grid.coords t) (fun _ => rfl) d (fun _ => Classical.arbitrary _) _
  rw [bigSep_W0, bigSep_W0]
  beta_reduce
  rw [owns_whole' c (st0_0 t) (stage_whole0 0 _) fullShare (Y 0), owns_whole' c (st0_1 t) (stage_whole0 1 _) fullShare (Y 1),
    owns_whole' c (st0_2 t) (stage_whole0 2 _) fullShare (Y 2), owns_whole' c (st0_3 t) (stage_whole0 3 _) fullShare (Y 3),
    owns_whole' c (st0_4 t) (stage_whole0 4 _) fullShare (Y 4), owns_whole' c (st0_5 t) (stage_whole0 5 _) fullShare (Y 5),
    owns_whole' c (st0_6 t) (stage_whole0 6 _) fullShare (Y 6), owns_whole' c (st0_7 t) (stage_whole0 7 _) fullShare (Y 7),
    owns_whole' c (st0_8 t) (stage_whole0 8 _) fullShare (Y 8), owns_whole' c (st0_9 t) (stage_whole0 9 _) fullShare (Y 9),
    owns_whole' c (st0_10 t) (stage_whole0 10 _) fullShare (Y 10)]
  by_cases ht : t.val = 0
  · have hi : k0_cond1 (grid0.coords t) = 1#1 := (cond_iff t).mpr ht
    rw [Φ_zero c V O ι t.castSucc ht, Φ_pos c V O ι t.succ (Nat.succ_ne_zero t.val)]

    iintro ⟨⟨%fs, Hs⟩, HO, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩
    have r0 : rd1 (st0_0 t) f0 = inB c V 0 t0 := (readAt_all (stage_whole0 0 _) off00 _ f0).trans (hf0.trans e0)
    have r1 : rd2 (st0_1 t) f1 = inB c V 1 t0 := (readAt_all (stage_whole0 1 _) off00 _ f1).trans (hf1.trans e1)
    have r2 : rd3 (st0_2 t) f2 = inB c V 2 t0 := (readAt_all (stage_whole0 2 _) off00 _ f2).trans (hf2.trans e2)
    have r3 : rd4 (st0_3 t) f3 = inB c V 3 t0 := (readAt_all (stage_whole0 3 _) off00 _ f3).trans (hf3.trans e3)
    have r4 : rd5 (st0_4 t) f4 = inB c V 4 t := (readAt_all (stage_whole0 4 _) off00 _ f4).trans (hf4.trans e4)
    have r5 : rd6 (st0_5 t) f5 = inB c V 5 t0 := (readAt_all (stage_whole0 5 _) off00 _ f5).trans (hf5.trans e5)
    have r6 : rd1 (st0_6 t) f6 = inB c V 6 t0 := (readAt_all (stage_whole0 6 _) off00 _ f6).trans (hf6.trans e6)
    have r7 : rd8 (st0_7 t) f7 = inB c V 7 t0 := (readAt_all (stage_whole0 7 _) off00 _ f7).trans (hf7.trans e7)
    have r8 : rd8 (st0_8 t) f8 = inB c V 8 t0 := (readAt_all (stage_whole0 8 _) off00 _ f8).trans (hf8.trans e8)
    have hg : gbv (rd2 (st0_1 t) f1) (rd3 (st0_2 t) f2) (rd1 (st0_0 t) f0) (rd4 (st0_3 t) f3) = gbOf c V := by
      unfold gbOf; rw [r0, r1, r2, r3]
    have h9 : (st0_9 t).view.read (Elt F) (stFeat (st0_9 t) f9 (featv (rd5 (st0_4 t) f4) (rd6 (st0_5 t) f5) (rd1 (st0_6 t) f6)
        (gbv (rd2 (st0_1 t) f1) (rd3 (st0_2 t) f2) (rd1 (st0_0 t) f0) (rd4 (st0_3 t) f3)))) = featBlk c V t :=
      (writes_all (stage_whole0 9 _) off00 _ f9 _).trans (by unfold featBlk; rw [r4, r5, r6, hg])
    have h10 : ∀ x, (st0_10 t).view.read (Elt F) (stEw (st0_10 t) f10 (ewv (rd8 (st0_7 t) f7) (rd8 (st0_8 t) f8))) ((ewRect).emb x)
        = ewOf c V x := fun x =>
      (View.read_writes_cons_emb (st0_10 t).view f10 ewRect (ewv (rd8 (st0_7 t) f7) (rd8 (st0_8 t) f8)) [] x).trans (by unfold ewOf; rw [r7, r8])
    have hs' : (pt c scr (gbv (rd2 (st0_1 t) f1) (rd3 (st0_2 t) f2) (rd1 (st0_0 t) f0) (rd4 (st0_3 t) f3)) : sProp 𝕄)
        ⊢ pt c scr (gbOf c V) := by rw [hg]
    iapply (run0 𝒱₀ c (grid0.coords t) hi (st0_0 t) (stage_whole0 0 _) (st0_1 t) (stage_whole0 1 _) (st0_2 t) (stage_whole0 2 _) (st0_3 t) (stage_whole0 3 _) (st0_4 t) (stage_whole0 4 _) (st0_5 t) (stage_whole0 5 _) (st0_6 t) (stage_whole0 6 _) (st0_7 t) (stage_whole0 7 _) (st0_8 t) (stage_whole0 8 _) (st0_9 t) (stage_whole0 9 _) (st0_10 t) (stage_whole0 10 _)
      f0 f1 f2 f3 f4 f5 f6 f7 f8 f9 f10 fs _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hs]; · iexact Hs
    iintro ⟨H0, H1, H2, H3, H4, H5, H6, H7, H8, H9, H10, Hs⟩
    isplitl [Hs]; · iapply hs'; iexact Hs
    isplitl [HO]; · iexact HO
    isplitl [H0]
    · iexists (Y 0); isplitr; · ipureintro; exact rfl
      iapply (owns_of_pt c (st0_0 t) (stage_whole0 0 _) fullShare f0 (Y 0) hf0); iexact H0
    isplitl [H1]
    · iexists (Y 1); isplitr; · ipureintro; exact rfl
      iapply (owns_of_pt c (st0_1 t) (stage_whole0 1 _) fullShare f1 (Y 1) hf1); iexact H1
    isplitl [H2]
    · iexists (Y 2); isplitr; · ipureintro; exact rfl
      iapply (owns_of_pt c (st0_2 t) (stage_whole0 2 _) fullShare f2 (Y 2) hf2); iexact H2
    isplitl [H3]
    · iexists (Y 3); isplitr; · ipureintro; exact rfl
      iapply (owns_of_pt c (st0_3 t) (stage_whole0 3 _) fullShare f3 (Y 3) hf3); iexact H3
    isplitl [H4]
    · iexists (Y 4); isplitr; · ipureintro; exact rfl
      iapply (owns_of_pt c (st0_4 t) (stage_whole0 4 _) fullShare f4 (Y 4) hf4); iexact H4
    isplitl [H5]
    · iexists (Y 5); isplitr; · ipureintro; exact rfl
      iapply (owns_of_pt c (st0_5 t) (stage_whole0 5 _) fullShare f5 (Y 5) hf5); iexact H5
    isplitl [H6]
    · iexists (Y 6); isplitr; · ipureintro; exact rfl
      iapply (owns_of_pt c (st0_6 t) (stage_whole0 6 _) fullShare f6 (Y 6) hf6); iexact H6
    isplitl [H7]
    · iexists (Y 7); isplitr; · ipureintro; exact rfl
      iapply (owns_of_pt c (st0_7 t) (stage_whole0 7 _) fullShare f7 (Y 7) hf7); iexact H7
    isplitl [H8]
    · iexists (Y 8); isplitr; · ipureintro; exact rfl
      iapply (owns_of_pt c (st0_8 t) (stage_whole0 8 _) fullShare f8 (Y 8) hf8); iexact H8
    isplitl [H9]
    · iexists (featBlk c V t); isplitr; · ipureintro; exact rfl
      iapply (owns_of_pt c (st0_9 t) (stage_whole0 9 _) fullShare _ _ h9); iexact H9
    iexists _; isplitr; swap
    · iapply (owns_of_pt c (st0_10 t) (stage_whole0 10 _) fullShare _ _ rfl); iexact H10
    · ipureintro
      show (if t.val = 0 then _ else _)
      rw [if_pos ht]; exact h10

  · have hi : ¬ k0_cond1 (grid0.coords t) = 1#1 := fun h => ht ((cond_iff t).mp h)
    rw [Φ_pos c V O ι t.castSucc ht, Φ_pos c V O ι t.succ (Nat.succ_ne_zero t.val)]

    iintro ⟨Hs, HO, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩
    have r0 : rd1 (st0_0 t) f0 = inB c V 0 t0 := (readAt_all (stage_whole0 0 _) off00 _ f0).trans (hf0.trans e0)
    have r1 : rd2 (st0_1 t) f1 = inB c V 1 t0 := (readAt_all (stage_whole0 1 _) off00 _ f1).trans (hf1.trans e1)
    have r2 : rd3 (st0_2 t) f2 = inB c V 2 t0 := (readAt_all (stage_whole0 2 _) off00 _ f2).trans (hf2.trans e2)
    have r3 : rd4 (st0_3 t) f3 = inB c V 3 t0 := (readAt_all (stage_whole0 3 _) off00 _ f3).trans (hf3.trans e3)
    have r4 : rd5 (st0_4 t) f4 = inB c V 4 t := (readAt_all (stage_whole0 4 _) off00 _ f4).trans (hf4.trans e4)
    have r5 : rd6 (st0_5 t) f5 = inB c V 5 t0 := (readAt_all (stage_whole0 5 _) off00 _ f5).trans (hf5.trans e5)
    have r6 : rd1 (st0_6 t) f6 = inB c V 6 t0 := (readAt_all (stage_whole0 6 _) off00 _ f6).trans (hf6.trans e6)
    have h9 : (st0_9 t).view.read (Elt F) (stFeat (st0_9 t) f9 (featv (rd5 (st0_4 t) f4) (rd6 (st0_5 t) f5) (rd1 (st0_6 t) f6)
        (gbOf c V))) = featBlk c V t :=
      (writes_all (stage_whole0 9 _) off00 _ f9 _).trans (by unfold featBlk; rw [r4, r5, r6])
    iapply (runS 𝒱₀ c (grid0.coords t) hi (st0_0 t) (stage_whole0 0 _) (st0_1 t) (stage_whole0 1 _) (st0_2 t) (stage_whole0 2 _) (st0_3 t) (stage_whole0 3 _) (st0_4 t) (stage_whole0 4 _) (st0_5 t) (stage_whole0 5 _) (st0_6 t) (stage_whole0 6 _) (st0_7 t) (stage_whole0 7 _) (st0_8 t) (stage_whole0 8 _) (st0_9 t) (stage_whole0 9 _) (st0_10 t) (stage_whole0 10 _)
      f0 f1 f2 f3 f4 f5 f6 f7 f8 f9 f10 (gbOf c V) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hs]; · iexact Hs
    iintro ⟨H0, H1, H2, H3, H4, H5, H6, H7, H8, H9, H10, Hs⟩
    isplitl [Hs]; · iexact Hs
    isplitl [HO]; · iexact HO
    isplitl [H0]
    · iexists (Y 0); isplitr; · ipureintro; exact rfl
      iapply (owns_of_pt c (st0_0 t) (stage_whole0 0 _) fullShare f0 (Y 0) hf0); iexact H0
    isplitl [H1]
    · iexists (Y 1); isplitr; · ipureintro; exact rfl
      iapply (owns_of_pt c (st0_1 t) (stage_whole0 1 _) fullShare f1 (Y 1) hf1); iexact H1
    isplitl [H2]
    · iexists (Y 2); isplitr; · ipureintro; exact rfl
      iapply (owns_of_pt c (st0_2 t) (stage_whole0 2 _) fullShare f2 (Y 2) hf2); iexact H2
    isplitl [H3]
    · iexists (Y 3); isplitr; · ipureintro; exact rfl
      iapply (owns_of_pt c (st0_3 t) (stage_whole0 3 _) fullShare f3 (Y 3) hf3); iexact H3
    isplitl [H4]
    · iexists (Y 4); isplitr; · ipureintro; exact rfl
      iapply (owns_of_pt c (st0_4 t) (stage_whole0 4 _) fullShare f4 (Y 4) hf4); iexact H4
    isplitl [H5]
    · iexists (Y 5); isplitr; · ipureintro; exact rfl
      iapply (owns_of_pt c (st0_5 t) (stage_whole0 5 _) fullShare f5 (Y 5) hf5); iexact H5
    isplitl [H6]
    · iexists (Y 6); isplitr; · ipureintro; exact rfl
      iapply (owns_of_pt c (st0_6 t) (stage_whole0 6 _) fullShare f6 (Y 6) hf6); iexact H6
    isplitl [H7]
    · iexists (Y 7); isplitr; · ipureintro; exact rfl
      iapply (owns_of_pt c (st0_7 t) (stage_whole0 7 _) fullShare f7 (Y 7) hf7); iexact H7
    isplitl [H8]
    · iexists (Y 8); isplitr; · ipureintro; exact rfl
      iapply (owns_of_pt c (st0_8 t) (stage_whole0 8 _) fullShare f8 (Y 8) hf8); iexact H8
    isplitl [H9]
    · iexists (featBlk c V t); isplitr; · ipureintro; exact rfl
      iapply (owns_of_pt c (st0_9 t) (stage_whole0 9 _) fullShare _ _ h9); iexact H9
    iexists (Y 10); isplitr
    · ipureintro
      show (if t.val = 0 then _ else _)
      rw [if_neg ht]
    · iapply (owns_of_pt c (st0_10 t) (stage_whole0 10 _) fullShare f10 (Y 10) hf10); iexact H10

end Obligation

section Arrays

open Idealize.ShloMosaic.Pipeline (RDat Window)

variable (c : Dev nD) (V : (b : Ref sig .tc) → Buf (Elt F) ((c : Thread nD τ).loc b)) (O : CellTallies nD τ sig Ix) (ι : Ix)

theorem arrAt9 : ∀ (n : Nat) (G : Buf (Elt F) ((cfg0.win 9).arr.view.loc (c : Thread nD τ))), (rdat (Name := Name) (U := U) c V O ι).ArrAt 9 n G → G = featsAt c V n
  | 0, G, h => h
  | n + 1, G, h => by
    simp only [RDat.ArrAt] at h
    by_cases hn : n < cfg0.N
    · rw [dif_pos hn, if_pos (flush0_9 ⟨n, hn⟩)] at h
      obtain ⟨G₀, X, hG₀, hX, rfl⟩ := h
      obtain ⟨Y, -, ha⟩ := hX
      have hXe : X = featBlk c V ⟨n, hn⟩ := ha
      subst hXe
      rw [arrAt9 n G₀ hG₀]
      show _ = featsAt c V (n + 1)
      rw [featsAt, dif_pos hn]
    · rw [dif_neg hn] at h
      rw [featsAt, dif_neg hn]
      exact arrAt9 n G h

theorem leaves10 : ∀ (n : Nat) (t : Fin cfg0.N), t.val = n → ∀ X, (rdat (Name := Name) (U := U) c V O ι).Leaves 10 t X → ∀ x, X ((ewRect).emb x) = ewOf c V x := by
  intro n
  induction n with
  | zero =>
    intro t ht X hX
    obtain ⟨Y, -, ha⟩ := hX
    have ha' : (if t.val = 0 then ∀ x, X ((ewRect).emb x) = ewOf c V x else X = Y) := ha
    rw [if_pos ht] at ha'
    exact ha'
  | succ n ih =>
    intro t ht X hX
    obtain ⟨Y, hY, ha⟩ := hX
    have ha' : (if t.val = 0 then ∀ x, X ((ewRect).emb x) = ewOf c V x else X = Y) := ha
    rw [if_neg (by omega)] at ha'
    subst ha'
    rw [(rdat (Name := Name) (U := U) c V O ι).finds_of_pos (w := 10) rfl (by omega)] at hY
    rcases hY with h | h
    · have h4 := (flush0_10 _).mp h
      have h5 : t.val < 5 := lt_of_lt_of_eq t.isLt N_0
      simp only [] at h4
      omega
    · exact ih ⟨t.val - 1, Nat.lt_of_le_of_lt (Nat.sub_le _ _) t.isLt⟩ (by simp only []; omega) _ h

theorem arrAt10_lt : ∀ (n : Nat), n ≤ 4 → ∀ (G : Buf (Elt F) ((cfg0.win 10).arr.view.loc (c : Thread nD τ))),
    (rdat (Name := Name) (U := U) c V O ι).ArrAt 10 n G → G = V (cfg0.win 10).arr.view.ref
  | 0, _, G, h => h
  | n + 1, hn, G, h => by
    simp only [RDat.ArrAt] at h
    have hN : n < cfg0.N := lt_of_lt_of_eq (by omega : n < 5) N_0.symm
    rw [dif_pos hN, if_neg (fun hf => by have h4 := (flush0_10 ⟨n, hN⟩).mp hf; simp only [] at h4; omega)] at h
    exact arrAt10_lt n (by omega) G h

theorem arrAt10 (n : Nat) (hn : n = 4) (G : Buf (Elt F) ((cfg0.win 10).arr.view.loc (c : Thread nD τ)))
    (h : (rdat (Name := Name) (U := U) c V O ι).ArrAt 10 (n + 1) G) : ∀ x, G ((ewRect).emb x) = ewOf c V x := by
  simp only [RDat.ArrAt] at h
  have hN : n < cfg0.N := lt_of_lt_of_eq (by omega : n < 5) N_0.symm
  rw [dif_pos hN, if_pos ((flush0_10 ⟨n, hN⟩).mpr (by simp only []; omega))] at h
  obtain ⟨G₀, X, -, hX, rfl⟩ := h
  have hl := leaves10 c V O ι n ⟨n, hN⟩ rfl X hX
  intro x
  have hw : ((cfg0.win 10).blk ⟨n, hN⟩).view.write (Elt F) G₀ ((cfg0.win 10).cut (cfg0.grid.coords ⟨n, hN⟩) X) Finset.univ
      = (cfg0.win 10).cut (cfg0.grid.coords ⟨n, hN⟩) X :=
    Memref.write_access_unit_zero_univ (Elt F) main_v7_1 (off := fun a => (cfg0.win 10).index ⟨n, hN⟩ a * (cfg0.win 10).size a)
      (by funext a; fin_cases a <;> rfl) _ G₀ _
  rw [hw]
  exact hl x

end Arrays

section Region

open Idealize.ShloMosaic.Pipeline (RDat)

variable (V : (c : Dev nD) → (b : Ref sig .tc) → Buf (Elt F) ((c : Thread nD τ).loc b)) (O : Dev nD → CellTallies nD τ sig Ix) (ι : Ix)

abbrev adm : (p : Fin 1) → (pcfgs (F := F) p).Adm := fun p => (cfgs p).toPCfg_adm

def rdats (_ : Fin 1) (c : Dev nD) : RDat τ (Elt F) Ix Name U ℕ cfg0 c := rdat c (V c) (O c) ι

def owesι (c : Dev nD) : sProp 𝕄 := iprop(∃ W : Waits sig Ix, ⌜∀ p ∈ W, p.2 = ι⌝ ∗ owes (c : Thread nD τ) (O c) W)

abbrev buf (c : Dev nD) (b : Ref sig .tc) (f : Buf (Elt F) ((c : Thread nD τ).loc b)) : sProp 𝕄 := ((c : Thread nD τ).loc b) ↦{fullShare} f

def filmPre (c : Dev nD) : sProp 𝕄 :=
  iprop(owesι (Name := Name) (U := U) O ι c ∗ buf c main_v1 (V c main_v1) ∗ buf c main_arg5 (V c main_arg5) ∗ buf c main_v2 (V c main_v2) ∗ buf c main_v3 (V c main_v3) ∗ buf c main_v0 (V c main_v0) ∗ buf c main_arg8 (V c main_arg8) ∗ buf c main_v4 (V c main_v4) ∗ buf c main_v5 (V c main_v5) ∗ buf c main_v6 (V c main_v6) ∗ buf c main_v7_0 (V c main_v7_0) ∗ buf c main_v7_1 (V c main_v7_1))

def filmPost (c : Dev nD) : sProp 𝕄 :=
  iprop(owesι (Name := Name) (U := U) O ι c ∗ buf c main_v1 (V c main_v1) ∗ buf c main_arg5 (V c main_arg5) ∗ buf c main_v2 (V c main_v2) ∗ buf c main_v3 (V c main_v3) ∗ buf c main_v0 (V c main_v0) ∗ buf c main_arg8 (V c main_arg8) ∗ buf c main_v4 (V c main_v4) ∗ buf c main_v5 (V c main_v5) ∗ buf c main_v6 (V c main_v6)
    ∗ buf c main_v7_0 (FEATS c (V c))
    ∗ ∃ EW : Buf (Elt F) ((c : Thread nD τ).loc main_v7_1), ⌜∀ x, EW ((ewRect).emb x) = ewOf c (V c) x⌝ ∗ buf c main_v7_1 EW)

theorem arr_pt (c : Dev nD) (w : Fin cfg0.W) (G : Buf (Elt F) ((cfg0.win w).arr.view.loc (c : Thread nD τ))) :
    ((cfg0.win w).arr.view.loc (c : Thread nD τ) ↦[(cfg0.win w).arr.view.set]{(rdat (Name := Name) (U := U) c (V c) (O c) ι).share w} G : sProp 𝕄)
      = (((c : Thread nD τ).loc (cfg0.win w).arr.view.ref) ↦{fullShare} G) := by
  rw [(arr_whole0 w).set_eq_univ, (rdat (Name := Name) (U := U) c (V c) (O c) ι).share_full (fun _ => rfl)]

variable (L : GSem nD τ sig → Finset Ix) (lv : GSem nD τ sig → Ix → ℕ)

set_option maxHeartbeats 2000000 in
set_option backward.isDefEq.respectTransparency.types false in

def reg (hmw : ∀ (c : Dev nD) (sm : SemLoc sig), (levAts L lv : sProp 𝕄) ⊢ MayWait (c : Thread nD τ) sm ι (O c)) (𝒱₀ : Variants) :
    Pipeline.RDat.RegionSeg (pcfgs (F := F)) adm (rdats (Name := Name) (U := U) V O ι) ι defs₀ 𝒱₀ L lv 0 where
  win := launch0.win.to₀
  block_pos := launch0.block_pos
  stage_whole := launch0.stage_whole
  K := PEmpty
  osem := fun k => k.elim
  ho := Pipeline.OwnSemFacts.none _
  hbody c := body_obligation c (V c) (O c) ι 𝒱₀
  hwaits c := Pipeline.RDat.cellsWaits_intro (Pipeline.pin (pcfgs (F := F)) adm) (rdats (Name := Name) (U := U) V O ι) ι 0 c fun w s t => hmw c _
  pre := filmPre (Name := Name) (U := U) V O ι
  post := filmPost (Name := Name) (U := U) V O ι
  X _ := iprop(emp)
  Y _ := iprop(emp)
  Z _ := iprop(emp)
  hentry c := by
    rw [Pipeline.RDat.arrays_eq (pcfgs (F := F)) adm (rdats (Name := Name) (U := U) V O ι) 0 c launch0.arr_whole
      (fun w => (rdat (Name := Name) (U := U) c (V c) (O c) ι).share_full (fun _ => rfl) w), bigSep_W0]
    unfold filmPre
    iintro ⟨⟨HO, H0, H1, H2, H3, H4, H5, H6, H7, H8, H9, H10⟩, -, -⟩
    imodintro
    isplitl [H0 H1 H2 H3 H4 H5 H6 H7 H8 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitr
    · unfold Pipeline.prefHeld; rw [show (Finset.univ : Finset (Fin 0)) = ∅ from rfl, BI.bigSep_empty]; iempintro
    isplitl [HO]
    · unfold owesι
      icases HO with ⟨%W, %hW, HO⟩
      iexists W; isplitr; · ipureintro; exact fun p hp => Or.inl (hW p hp)
      iexact HO
    isplitl [] <;> iempintro
  hin c := by
    show iprop(_ ∗ _ ∗ Pipeline.scopedRest spec0 c) ⊢ (rdat (Name := Name) (U := U) c (V c) (O c) ι).Φ 0
    rw [scopedRest0_eq c, Φ_zero c (V c) (O c) ι 0 rfl]
    iintro ⟨-, -, ⟨%f, H⟩⟩
    iexists f; iexact H
  hout c := by
    show (rdat (Name := Name) (U := U) c (V c) (O c) ι).Φ (Fin.last cfg0.N) ⊢ iprop(_ ∗ _ ∗ Pipeline.scopedRest spec0 c)
    rw [scopedRest0_eq c, Pipeline.ownSems0_none, Φ_pos c (V c) (O c) ι (Fin.last cfg0.N) (by rw [Fin.val_last, show cfg0.N = 5 from N_0]; decide)]
    iintro H
    isplitr; · iempintro
    isplitr; · iempintro
    iexists _; iexact H
  hexit c := by
    show iprop((rdat (Name := Name) (U := U) c (V c) (O c) ι).arraysAt cfg0.N ∗ _ ∗ _ ∗ _) ⊢ _
    unfold RDat.arraysAt filmPost
    rw [bigSep_W0]
    iintro ⟨⟨⟨%F0, %h0, H0⟩, ⟨%F1, %h1, H1⟩, ⟨%F2, %h2, H2⟩, ⟨%F3, %h3, H3⟩, ⟨%F4, %h4, H4⟩, ⟨%F5, %h5, H5⟩, ⟨%F6, %h6, H6⟩, ⟨%F7, %h7, H7⟩, ⟨%F8, %h8, H8⟩, ⟨%F9, %h9, H9⟩, ⟨%F10, %h10, H10⟩⟩, HO, -, -⟩
    have e0 : F0 = V c main_v1 := by rw [(rdat (Name := Name) (U := U) c (V c) (O c) ι).ArrAt_in 0 rfl] at h0; exact h0
    subst e0
    have e1 : F1 = V c main_arg5 := by rw [(rdat (Name := Name) (U := U) c (V c) (O c) ι).ArrAt_in 1 rfl] at h1; exact h1
    subst e1
    have e2 : F2 = V c main_v2 := by rw [(rdat (Name := Name) (U := U) c (V c) (O c) ι).ArrAt_in 2 rfl] at h2; exact h2
    subst e2
    have e3 : F3 = V c main_v3 := by rw [(rdat (Name := Name) (U := U) c (V c) (O c) ι).ArrAt_in 3 rfl] at h3; exact h3
    subst e3
    have e4 : F4 = V c main_v0 := by rw [(rdat (Name := Name) (U := U) c (V c) (O c) ι).ArrAt_in 4 rfl] at h4; exact h4
    subst e4
    have e5 : F5 = V c main_arg8 := by rw [(rdat (Name := Name) (U := U) c (V c) (O c) ι).ArrAt_in 5 rfl] at h5; exact h5
    subst e5
    have e6 : F6 = V c main_v4 := by rw [(rdat (Name := Name) (U := U) c (V c) (O c) ι).ArrAt_in 6 rfl] at h6; exact h6
    subst e6
    have e7 : F7 = V c main_v5 := by rw [(rdat (Name := Name) (U := U) c (V c) (O c) ι).ArrAt_in 7 rfl] at h7; exact h7
    subst e7
    have e8 : F8 = V c main_v6 := by rw [(rdat (Name := Name) (U := U) c (V c) (O c) ι).ArrAt_in 8 rfl] at h8; exact h8
    subst e8
    have e9 : F9 = FEATS c (V c) := arrAt9 c (V c) (O c) ι _ F9 h9
    subst e9
    have e10 : ∀ x, F10 ((ewRect).emb x) = ewOf c (V c) x :=
      arrAt10 c (V c) (O c) ι 4 rfl F10 (Eq.mp (congrArg (fun n => (rdat (Name := Name) (U := U) c (V c) (O c) ι).ArrAt 10 n F10) N_0) h10)
    ihave H0 := (Entails.of_eq (arr_pt (Name := Name) (U := U) V O ι c 0 _)) $$ H0
    ihave H1 := (Entails.of_eq (arr_pt (Name := Name) (U := U) V O ι c 1 _)) $$ H1
    ihave H2 := (Entails.of_eq (arr_pt (Name := Name) (U := U) V O ι c 2 _)) $$ H2
    ihave H3 := (Entails.of_eq (arr_pt (Name := Name) (U := U) V O ι c 3 _)) $$ H3
    ihave H4 := (Entails.of_eq (arr_pt (Name := Name) (U := U) V O ι c 4 _)) $$ H4
    ihave H5 := (Entails.of_eq (arr_pt (Name := Name) (U := U) V O ι c 5 _)) $$ H5
    ihave H6 := (Entails.of_eq (arr_pt (Name := Name) (U := U) V O ι c 6 _)) $$ H6
    ihave H7 := (Entails.of_eq (arr_pt (Name := Name) (U := U) V O ι c 7 _)) $$ H7
    ihave H8 := (Entails.of_eq (arr_pt (Name := Name) (U := U) V O ι c 8 _)) $$ H8
    ihave H9 := (Entails.of_eq (arr_pt (Name := Name) (U := U) V O ι c 9 _)) $$ H9
    ihave H10 := (Entails.of_eq (arr_pt (Name := Name) (U := U) V O ι c 10 _)) $$ H10
    imodintro
    isplitl [HO]
    · unfold owesι RDat.owesAt Pipeline.owesWithin
      icases HO with ⟨%W, %hW, HO⟩
      iexists W; isplitr
      · ipureintro
        intro p hp
        rcases hW hp with h | ⟨w, s, rfl⟩
        · exact h
        · rfl
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists F10; isplitr; · ipureintro; exact e10
    iexact H10

end Region

section Enter

open Idealize.ShloMosaic.Pipeline (RDat)

variable (V : (c : Dev nD) → (b : Ref sig .tc) → Buf (Elt F) ((c : Thread nD τ).loc b)) (O : Dev nD → CellTallies nD τ sig Ix) (ι : Ix)
  (L : GSem nD τ sig → Finset Ix) (lv : GSem nD τ sig → Ix → ℕ)

set_option backward.isDefEq.respectTransparency.types false in

theorem film_region [Infinite Name] (hmw : ∀ (c : Dev nD) (sm : SemLoc sig), (levAts L lv : sProp 𝕄) ⊢ MayWait (c : Thread nD τ) sm ι (O c))
    (EP : Emb (URounds (GSem nD τ sig) Unit) (MT nD τ sig Ix (Elt F) Name U ℕ)) [EP.LandsIn (upEmb : UEmb _ 𝕄)] (𝒱₀ : Variants) (c : Dev nD)
    (bd : Option (Variants.lift 𝒱₀).V)
    (hv : ∀ u ∈ bd, (Variants.lift 𝒱₀).lt (.inr ((Pipeline.pin (pcfgs (F := F)) adm 0).tripCount + 1)) u)
    {α : Type} (k : PUnit → Prog (TpuEff nD τ sig (Elt F) (Pipeline.Sig Λ₀ (Fin 1) fun p => (pcfgs (F := F) p).Adm) .tc) α) (Q : α → sProp 𝕄) :
    iprop((iprop(boundary (c : Thread nD τ) ∗ filmPost (Name := Name) (U := U) V O ι c)
            -∗ wp frame (wpE (Pipeline.defs (pcfgs (F := F)) defs₀) (Variants.lift 𝒱₀) (c : Thread nD τ) bd) Set.univ (k ⟨⟩) Q)
        ∗ boundary (c : Thread nD τ) ∗ filmPre (Name := Name) (U := U) V O ι c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c : Thread nD τ) bd) Set.univ
          (.op (.customCall (Pipeline.entry 0) ()) k) Q :=
  Pipeline.RDat.RegionSeg.wp (pcfgs (F := F)) adm (rdats (Name := Name) (U := U) V O ι) ι cellOf_inj EP defs₀ 𝒱₀ L lv
    (reg V O ι L lv hmw 𝒱₀) c bd hv k Q

end Enter

end Cert.KernelIdeal.Film

end
-- ==== Proof.KI.FilmRegion.lean ====
import proofs.«204698_g79517024518204_fold_wed_m_581_46_alg».proof.Proof.KI.FilmBody
import proofs.«204698_g79517024518204_fold_wed_m_581_46_alg».proof.Proof.KI.MainDefs
import Idealize.ShloMosaic.Lib.Pipeline.Value

noncomputable section

namespace Cert.Proof.KI

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

theorem regRefs_chain (Φ : Ref sig .tc → sProp 𝕄) :
    bigSep regRefs Φ = iprop(Φ main_v7_0 ∗ Φ main_v7_1 ∗ Φ main_v1 ∗ Φ main_arg5 ∗ Φ main_v2 ∗ Φ main_v3 ∗ Φ main_v0 ∗ Φ main_arg8 ∗ Φ main_v4
      ∗ Φ main_v5 ∗ Φ main_v6) := by
  unfold regRefs regOps
  rw [bigSep_insert (by decide), bigSep_insert (by decide), bigSep_insert (by decide), bigSep_insert (by decide), bigSep_insert (by decide),
    bigSep_insert (by decide), bigSep_insert (by decide), bigSep_insert (by decide), bigSep_insert (by decide), bigSep_insert (by decide),
    bigSep_singleton]
  rfl

theorem regOps_chain (Φ : Ref sig .tc → sProp 𝕄) :
    bigSep regOps Φ = iprop(Φ main_v1 ∗ Φ main_arg5 ∗ Φ main_v2 ∗ Φ main_v3 ∗ Φ main_v0 ∗ Φ main_arg8 ∗ Φ main_v4 ∗ Φ main_v5 ∗ Φ main_v6) := by
  unfold regOps
  rw [bigSep_insert (by decide), bigSep_insert (by decide), bigSep_insert (by decide), bigSep_insert (by decide), bigSep_insert (by decide),
    bigSep_insert (by decide), bigSep_insert (by decide), bigSep_insert (by decide), bigSep_singleton]
  rfl

theorem ewRect_emb (r : Fin 2500) (j : Fin 128) :
    (Film.ewRect).emb (ix2 r j) = ix2 (⟨r.val, by omega⟩ : Fin 2560) j := by
  funext a
  fin_cases a <;> (apply Fin.ext; rw [Rect.emb_apply]; simp [ix2])

theorem inB_wv (c : Dev nD) (V : (b : Ref sig .tc) → Buf (Elt F) ((c : Thread nD τ).loc b)) (x : S2500x128.Idx) :
    Film.inB c V 7 Film.t0 x = V main_v5 x := by
  unfold Film.inB Pipeline.Window.fill
  rw [dif_pos (show (cfg0.win 7).moved (cfg0.grid.coords Film.t0) x = true from rfl)]
  exact congrFun (Memref.read_access_unit_zero (Elt F) main_v5 (off := fun a => (cfg0.win 7).index Film.t0 a * (cfg0.win 7).size a)
    (by funext a; fin_cases a <;> rfl) _ (V main_v5)) x

theorem inB_wp (c : Dev nD) (V : (b : Ref sig .tc) → Buf (Elt F) ((c : Thread nD τ).loc b)) (x : S2500x128.Idx) :
    Film.inB c V 8 Film.t0 x = V main_v6 x := by
  unfold Film.inB Pipeline.Window.fill
  rw [dif_pos (show (cfg0.win 8).moved (cfg0.grid.coords Film.t0) x = true from rfl)]
  exact congrFun (Memref.read_access_unit_zero (Elt F) main_v6 (off := fun a => (cfg0.win 8).index Film.t0 a * (cfg0.win 8).size a)
    (by funext a; fin_cases a <;> rfl) _ (V main_v6)) x

theorem ewOf_apply (c : Dev nD) (V : (b : Ref sig .tc) → Buf (Elt F) ((c : Thread nD τ).loc b)) (r : Fin 2500) (j : Fin 128) :
    Film.ewOf c V (ix2 r j) = FloatOps.mulf (V main_v5 (ix2 r j)) (V main_v6 (ix2 r j)) := by
  unfold Film.ewOf Film.ewv k0_pay2
  rw [shapeCast_self, shapeCast_self]
  show FloatOps.mulf (Film.inB c V 7 Film.t0 (ix2 r j)) (Film.inB c V 8 Film.t0 (ix2 r j)) = _
  rw [inB_wv, inB_wp]

variable (m : (ℓ : Loc nD τ sig) → Buf (Elt F) ℓ)

set_option maxHeartbeats 2000000 in

theorem region_step (Vf : (c : Dev nD) → (b : Ref sig .tc) → Buf (Elt F) ((c.tc : Thread nD τ).loc b)) (O : Dev nD → CellTallies nD τ sig (HIx 1))
    (hV : Vf = VR m)
    (hmw : ∀ (c : Dev nD) (sm : SemLoc sig), (levAts (K (F := F)).L (K (F := F)).lev : sProp 𝕄) ⊢ MayWait (c.tc : Thread nD τ) sm none (O c))
    (c : Dev nD) :
    iprop(levAts (K (F := F)).L (K (F := F)).lev ∗ regPre c (Vf c) (O c))
      ⊢ wp frame (wpE (D (F := F)) 𝒱 (SparseCore.T c) none) Set.univ
          (Prog.lift (.customCall (Pipeline.entry (0 : Fin 1)) ()) : Prog (TpuEff nD τ sig (Elt F) (ΛP (F := F)) .tc) PUnit)
          fun _ => regPost (fun c => Film.FEATS c (VR m c)) c (Vf c) (O c) := by
  subst hV
  unfold regPre G owesPart
  rw [regRefs_chain]
  iintro ⟨#Hlv, Hb, ⟨H70, H71, H1, H5, H2, H3, H0, H8, H4, Hv5, Hv6⟩, ⟨%W, %hW, HO⟩, Hg, Ht⟩
  have hW0 : ∀ p ∈ W, p.2 = none := fun p hp => by
    have h := hW p hp
    rcases hp2 : p.2 with _ | q
    · rfl
    · have hpos := (K (F := F)).lev_some_pos (SparseCore.T c, p.1) q
      rw [hp2] at h
      omega
  iapply (Film.film_region (Name := ℕ) (U := UU) (VR m) O none (K (F := F)).L (K (F := F)).lev hmw EP 𝒱₀ c none (fun _ h => nomatch h)
    (fun x => .ret x) _)
  isplitr [Hb H70 H71 H1 H5 H2 H3 H0 H8 H4 Hv5 Hv6 HO Hg Ht]
  · iintro ⟨Hb, Hpost⟩
    sl_step
    unfold regPost Film.filmPost Film.owesι owesPart
    icases Hpost with ⟨⟨%W', %hW', HO⟩, H1, H5, H2, H3, H0, H8, H4, Hv5, Hv6, H70, ⟨%EW, %hEW, H71⟩⟩
    rw [regOps_chain]
    isplitl [Hb]; · iexact Hb
    isplitl [H1 H5 H2 H3 H0 H8 H4 Hv5 Hv6]
    · isplitl [H1]; · iexact H1
      isplitl [H5]; · iexact H5
      isplitl [H2]; · iexact H2
      isplitl [H3]; · iexact H3
      isplitl [H0]; · iexact H0
      isplitl [H8]; · iexact H8
      isplitl [H4]; · iexact H4
      isplitl [Hv5]; · iexact Hv5
      iexact Hv6
    isplitl [H70]; · iexact H70
    isplitl [H71]
    · iexists EW; isplitr
      · ipureintro
        intro r j
        rw [← ewRect_emb r j, hEW, ewOf_apply]
      iexact H71
    iexists W'; isplitr
    · ipureintro
      intro p hp
      show (K (F := F)).lev _ p.2 ≤ _
      rw [hW' p hp]
      exact Nat.zero_le _
    iexact HO
  isplitl [Hb]; · iexact Hb
  isplitl [H70 H71 H1 H5 H2 H3 H0 H8 H4 Hv5 Hv6 HO]
  · unfold Film.filmPre Film.owesι
    isplitl [HO]
    · iexists W; isplitr; · ipureintro; exact hW0
      iexact HO
    isplitl [H1]; · iexact H1
    isplitl [H5]; · iexact H5
    isplitl [H2]; · iexact H2
    isplitl [H3]; · iexact H3
    isplitl [H0]; · iexact H0
    isplitl [H8]; · iexact H8
    isplitl [H4]; · iexact H4
    isplitl [Hv5]; · iexact Hv5
    isplitl [Hv6]; · iexact Hv6
    isplitl [H70]; · iexact H70
    iexact H71
  isplitr; · iexact Hlv
  isplitl [Hg]; · iexact Hg
  iexact Ht

end Cert.Proof.KI

end
-- ==== Proof.KI.FilmPay.lean ====
import proofs.«204698_g79517024518204_fold_wed_m_581_46_alg».proof.Proof.Gen.KernelIdeal.Skeleton
import proofs.«204698_g79517024518204_fold_wed_m_581_46_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Proof.KI

open Cert.KernelIdeal Cert.KernelIdeal.Gen
open Idealize.ShloMosaic Idealize.ShloMosaic.ValueIdx
open scoped BigOperators

section Layout
variable {α : Type}

theorem shapeCast_a_a1_apply {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

theorem broadcastTo_a1_ab_apply {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

end Layout

theorem rsqrt_apply {s : Shape} (x : FVec Ideal s .f32) (i : s.Idx) : rsqrt x i = Ideal.rsqrt (x i) := rfl
theorem scalar_ofBits (w : BitVec 32) : Scalar.ofBits (F := Ideal) .f32 w = Ideal.ofBits .f32 w := rfl

theorem laneSum_block_apply (x : FVec Ideal S2000x128 .f32) (h : S2000x128.Reduces [1] S2000) (hφ : FKind.Formats .f32)
    (hacc : (0x00000000#32 : BitVec 32) = 0x00000000#32) (p : Fin 2000) :
    multiReduction .add [1] S2000 x 0x00000000#32 h hφ hacc (ix1 p) = ∑ o : Fin 128, x (ix2 p o) := by
  refine (Ideal.multiReduction_add_single x 0x00000000#32 h hφ hacc (ix1 p)).trans ?_
  refine Finset.sum_congr rfl fun k _ => ?_
  exact congrArg x (funext fun a => Fin.ext (by match a with | ⟨0, _⟩ => rfl | ⟨1, _⟩ => rfl))

theorem laneSum_dir_apply (x : FVec Ideal S256x128 .f32) (h : S256x128.Reduces [1] S256) (hφ : FKind.Formats .f32)
    (hacc : (0x00000000#32 : BitVec 32) = 0x00000000#32) (r : Fin 256) :
    multiReduction .add [1] S256 x 0x00000000#32 h hφ hacc (ix1 r) = ∑ k : Fin 128, x (ix2 r k) := by
  refine (Ideal.multiReduction_add_single x 0x00000000#32 h hφ hacc (ix1 r)).trans ?_
  refine Finset.sum_congr rfl fun k _ => ?_
  exact congrArg x (funext fun a => Fin.ext (by match a with | ⟨0, _⟩ => rfl | ⟨1, _⟩ => rfl))

theorem lhs_lin_0 (i : S2000x128.Idx) (q : dot_S2000x128_S128x128_S2000x128_1_1_0_0_n_n.contr.Idx) :
    (dot_S2000x128_S128x128_S2000x128_1_1_0_0_n_n.lhsIdx i q 0).val = (i 0).val := by
  unfold DotDims.lhsIdx
  rw [dif_neg (show ¬(0 : Fin S2000x128.rank) ∈ dot_S2000x128_S128x128_S2000x128_1_1_0_0_n_n.lhsBatch by decide),
    dif_pos (show (0 : Fin S2000x128.rank) ∈ dot_S2000x128_S128x128_S2000x128_1_1_0_0_n_n.lhsNonContracting by decide)]
  rfl
theorem lhs_lin_1 (i : S2000x128.Idx) (q : dot_S2000x128_S128x128_S2000x128_1_1_0_0_n_n.contr.Idx) :
    (dot_S2000x128_S128x128_S2000x128_1_1_0_0_n_n.lhsIdx i q 1).val = (q ⟨0, by decide⟩).val :=
  dot_S2000x128_S128x128_S2000x128_1_1_0_0_n_n.lhsIdx_val_of_single rfl i q
theorem rhs_lin_0 (i : S2000x128.Idx) (q : dot_S2000x128_S128x128_S2000x128_1_1_0_0_n_n.contr.Idx) :
    (dot_S2000x128_S128x128_S2000x128_1_1_0_0_n_n.rhsIdx i q 0).val = (i 1).val := by
  unfold DotDims.rhsIdx
  rw [dif_neg (show ¬(0 : Fin S128x128.rank) ∈ dot_S2000x128_S128x128_S2000x128_1_1_0_0_n_n.rhsBatch by decide),
    dif_pos (show (0 : Fin S128x128.rank) ∈ dot_S2000x128_S128x128_S2000x128_1_1_0_0_n_n.rhsNonContracting by decide)]
  rfl
theorem rhs_lin_1 (i : S2000x128.Idx) (q : dot_S2000x128_S128x128_S2000x128_1_1_0_0_n_n.contr.Idx) :
    (dot_S2000x128_S128x128_S2000x128_1_1_0_0_n_n.rhsIdx i q 1).val = (q ⟨0, by decide⟩).val :=
  dot_S2000x128_S128x128_S2000x128_1_1_0_0_n_n.rhsIdx_val_of_single rfl i q
theorem lhs_gb_0 (i : S1x256.Idx) (q : dot_S1x128_S256x128_S1x256_1_1_0_0_n_n.contr.Idx) :
    (dot_S1x128_S256x128_S1x256_1_1_0_0_n_n.lhsIdx i q 0).val = (i 0).val := by
  unfold DotDims.lhsIdx
  rw [dif_neg (show ¬(0 : Fin S1x128.rank) ∈ dot_S1x128_S256x128_S1x256_1_1_0_0_n_n.lhsBatch by decide),
    dif_pos (show (0 : Fin S1x128.rank) ∈ dot_S1x128_S256x128_S1x256_1_1_0_0_n_n.lhsNonContracting by decide)]
  rfl
theorem lhs_gb_1 (i : S1x256.Idx) (q : dot_S1x128_S256x128_S1x256_1_1_0_0_n_n.contr.Idx) :
    (dot_S1x128_S256x128_S1x256_1_1_0_0_n_n.lhsIdx i q 1).val = (q ⟨0, by decide⟩).val :=
  dot_S1x128_S256x128_S1x256_1_1_0_0_n_n.lhsIdx_val_of_single rfl i q
theorem rhs_gb_0 (i : S1x256.Idx) (q : dot_S1x128_S256x128_S1x256_1_1_0_0_n_n.contr.Idx) :
    (dot_S1x128_S256x128_S1x256_1_1_0_0_n_n.rhsIdx i q 0).val = (i 1).val := by
  unfold DotDims.rhsIdx
  rw [dif_neg (show ¬(0 : Fin S256x128.rank) ∈ dot_S1x128_S256x128_S1x256_1_1_0_0_n_n.rhsBatch by decide),
    dif_pos (show (0 : Fin S256x128.rank) ∈ dot_S1x128_S256x128_S1x256_1_1_0_0_n_n.rhsNonContracting by decide)]
  rfl
theorem rhs_gb_1 (i : S1x256.Idx) (q : dot_S1x128_S256x128_S1x256_1_1_0_0_n_n.contr.Idx) :
    (dot_S1x128_S256x128_S1x256_1_1_0_0_n_n.rhsIdx i q 1).val = (q ⟨0, by decide⟩).val :=
  dot_S1x128_S256x128_S1x256_1_1_0_0_n_n.rhsIdx_val_of_single rfl i q

theorem linMatmul_apply (l : FVec Ideal S2000x128 .f32) (r : FVec Ideal S128x128 .f32) (p : Fin 2000) (o : Fin 128) :
    matmul dot_S2000x128_S128x128_S2000x128_1_1_0_0_n_n (some .fp32) l r (constant (F := Ideal) S2000x128 .f32 0x00000000#32) (ix2 p o)
      = ∑ k : Fin 128, l (ix2 p k) * r (ix2 o k) := by
  simp only [matmul]
  rw [Ideal.matmul_constant_zero_apply, ← Equiv.sum_comp (contrEquiv1 dot_S2000x128_S128x128_S2000x128_1_1_0_0_n_n 128 rfl rfl).symm]
  refine Finset.sum_congr rfl fun k _ => ?_
  have hk := contrEquiv1_symm_val dot_S2000x128_S128x128_S2000x128_1_1_0_0_n_n 128 rfl rfl k
  have el : dot_S2000x128_S128x128_S2000x128_1_1_0_0_n_n.lhsIdx (ix2 p o) ((contrEquiv1 dot_S2000x128_S128x128_S2000x128_1_1_0_0_n_n 128 rfl rfl).symm k) = ix2 p k :=
    funext fun a => Fin.ext (by
      match a with
      | ⟨0, _⟩ => exact lhs_lin_0 _ _
      | ⟨1, _⟩ => exact (lhs_lin_1 _ _).trans hk)
  have er : dot_S2000x128_S128x128_S2000x128_1_1_0_0_n_n.rhsIdx (ix2 p o) ((contrEquiv1 dot_S2000x128_S128x128_S2000x128_1_1_0_0_n_n 128 rfl rfl).symm k) = ix2 o k :=
    funext fun a => Fin.ext (by
      match a with
      | ⟨0, _⟩ => exact rhs_lin_0 _ _
      | ⟨1, _⟩ => exact (rhs_lin_1 _ _).trans hk)
  rw [el, er]

theorem gbMatmul_apply (l : FVec Ideal S1x128 .f32) (r : FVec Ideal S256x128 .f32) (r' : Fin 256) :
    matmul dot_S1x128_S256x128_S1x256_1_1_0_0_n_n (some .fp32) l r (constant (F := Ideal) S1x256 .f32 0x00000000#32) (ix2 0 r')
      = ∑ k : Fin 128, l (ix2 0 k) * r (ix2 r' k) := by
  simp only [matmul]
  rw [Ideal.matmul_constant_zero_apply, ← Equiv.sum_comp (contrEquiv1 dot_S1x128_S256x128_S1x256_1_1_0_0_n_n 128 rfl rfl).symm]
  refine Finset.sum_congr rfl fun k _ => ?_
  have hk := contrEquiv1_symm_val dot_S1x128_S256x128_S1x256_1_1_0_0_n_n 128 rfl rfl k
  have el : dot_S1x128_S256x128_S1x256_1_1_0_0_n_n.lhsIdx (ix2 0 r') ((contrEquiv1 dot_S1x128_S256x128_S1x256_1_1_0_0_n_n 128 rfl rfl).symm k) = ix2 0 k :=
    funext fun a => Fin.ext (by
      match a with
      | ⟨0, _⟩ => exact lhs_gb_0 _ _
      | ⟨1, _⟩ => exact (lhs_gb_1 _ _).trans hk)
  have er : dot_S1x128_S256x128_S1x256_1_1_0_0_n_n.rhsIdx (ix2 0 r') ((contrEquiv1 dot_S1x128_S256x128_S1x256_1_1_0_0_n_n 128 rfl rfl).symm k) = ix2 r' k :=
    funext fun a => Fin.ext (by
      match a with
      | ⟨0, _⟩ => exact rhs_gb_0 _ _
      | ⟨1, _⟩ => exact (rhs_gb_1 _ _).trans hk)
  rw [el, er]

def rowOf (t : Fin 5) (p : Fin 2000) : Fin 10000 := ⟨2000 * t.val + p.val, by have := t.isLt; have := p.isLt; omega⟩

variable (I : Cert.Spec.In)

theorem pay1_apply (v38 : FVec Ideal S256x128 .f32) (v42 : FVec Ideal S256x1 .f32) (v48 : FVec Ideal S1x128 .f32)
    (v51 : FVec Ideal S1x256 .f32)
    (hv : ∀ r k, v38 (ix2 r k) = I.v r k) (hg : ∀ r, v42 (ix2 r 0) = I.g r) (hc : ∀ k, v48 (ix2 0 k) = I.cond k)
    (hb : ∀ r, v51 (ix2 0 r) = I.b r) (r : Fin 256) :
    k0_pay1 (F := Ideal) v38 v42 v48 v51 (ix2 0 r) = Cert.Spec.gbK I r := by
  simp only [k0_pay1, shapeCast_self, addf_apply, gbMatmul_apply, mulf_apply, broadcastTo_a1_ab_apply, rsqrt_apply,
    shapeCast_a_a1_apply, hv, hg, hc, hb]
  rw [laneSum_dir_apply]
  simp only [mulf_apply, hv]
  rfl

theorem pay3_apply (t : Fin 5) (v3 : FVec Ideal S2000x128 .f32) (v5 : FVec Ideal S128x128 .f32) (v7 v27 v30 : FVec Ideal S1x128 .f32)
    (hx : ∀ (p : Fin 2000) k, v3 (ix2 p k) = I.x (rowOf t p) k) (hW : ∀ o k, v5 (ix2 o k) = I.W o k)
    (hbf : ∀ o, v7 (ix2 0 o) = I.bf o) (hga : ∀ o, v27 (ix2 0 o) = Cert.Spec.gbK I (Cert.Spec.lo o))
    (hbe : ∀ o, v30 (ix2 0 o) = Cert.Spec.gbK I (Cert.Spec.hi o)) (p : Fin 2000) (o : Fin 128) :
    k0_pay3 (F := Ideal) v3 v5 v7 v27 v30 (ix2 p o) = Cert.Spec.filmK I (rowOf t p) o := by
  simp only [k0_pay3, shapeCast_self]
  repeat (first
    | rw [laneSum_block_apply]
    | simp only [maximumf_apply, addf_apply, mulf_apply, subf_apply, divf_apply, rsqrt_apply, broadcast_apply,
        broadcastTo_1b_ab_apply, broadcastTo_a1_ab_apply, shapeCast_a_a1_apply, linMatmul_apply, scalar_ofBits,
        Ideal.ofBits_zero_f32, hx, hW, hbf, hga, hbe])
  rfl

end Cert.Proof.KI

end
-- ==== Proof.KI.FilmValue.lean ====
import proofs.«204698_g79517024518204_fold_wed_m_581_46_alg».proof.Proof.KI.MainDefs
import proofs.«204698_g79517024518204_fold_wed_m_581_46_alg».proof.Proof.KI.HostRead
import proofs.«204698_g79517024518204_fold_wed_m_581_46_alg».proof.Proof.KI.FilmPay
import proofs.«204698_g79517024518204_fold_wed_m_581_46_alg».proof.Proof.KI.FilmDefs
import Idealize.ShloMosaic.Lib.StableHlo.Run
import Idealize.ShloMosaic.Lib.Pipeline.Value

noncomputable section

namespace Cert.Proof.KI

open Cert.KernelIdeal Cert.KernelIdeal.Gen Cert.KernelIdeal.Film
open Idealize.ShloMosaic Idealize.ShloMosaic.StableHlo Idealize.ShloMosaic.ValueIdx Idealize.ShloMosaic.TcCoe
open Idealize.SL.Sem

variable (m : (ℓ : Loc nD τ sig) → Buf (Elt Ideal) ℓ)

theorem VR_v0 (d : Dev nD) :
    VR m d main_v0 = shapeCast S10000x128 (argAt m d main_arg0) shapeCasts_S1x10000x128_S10000x128 := by
  dsimp only [VR, V1, ops7, dr]
  after_results
  rfl
theorem VR_v1 (d : Dev nD) :
    VR m d main_v1 = shapeCast S1x128 (argAt m d main_arg1) shapeCasts_S1x1x128_S1x128 := by
  dsimp only [VR, V1, ops7, dr]
  after_results
  rfl
theorem VR_v2 (d : Dev nD) :
    VR m d main_v2 = shapeCast S256x1 (argAt m d main_arg6) shapeCasts_S256_S256x1 := by
  dsimp only [VR, V1, ops7, dr]
  after_results
  rfl
theorem VR_v3 (d : Dev nD) :
    VR m d main_v3 = shapeCast S1x256 (argAt m d main_arg7) shapeCasts_S256_S1x256 := by
  dsimp only [VR, V1, ops7, dr]
  after_results
  rfl
theorem VR_v4 (d : Dev nD) :
    VR m d main_v4 = shapeCast S1x128 (argAt m d main_arg9) shapeCasts_S128_S1x128 := by
  dsimp only [VR, V1, ops7, dr]
  after_results
  rfl
theorem VR_arg5 (d : Dev nD) : VR m d main_arg5 = argAt m d main_arg5 := by
  dsimp only [VR, V1, ops7, dr]
  after_results
  rfl
theorem VR_arg8 (d : Dev nD) : VR m d main_arg8 = argAt m d main_arg8 := by
  dsimp only [VR, V1, ops7, dr]
  after_results
  rfl

section Operands
variable (I : Cert.Spec.In) (d : Dev nD)

theorem vr_x (hx : ∀ n k, I.x n k = argAt m d main_arg0 (ix3 (0 : Fin 1) n k)) (n : Fin 10000) (k : Fin 128) :
    VR m d main_v0 (ix2 n k) = I.x n k :=
  (congrFun (VR_v0 m d) (ix2 n k)).trans ((read_x _ _ n k).trans (hx n k).symm)

theorem vr_cond (hcond : ∀ k, I.cond k = argAt m d main_arg1 (ix3 (0 : Fin 1) (0 : Fin 1) k)) (k : Fin 128) :
    VR m d main_v1 (ix2 (0 : Fin 1) k) = I.cond k :=
  (congrFun (VR_v1 m d) (ix2 (0 : Fin 1) k)).trans ((read_cond _ _ k).trans (hcond k).symm)

theorem vr_g (hg : ∀ r, I.g r = argAt m d main_arg6 (ix1 r)) (r : Fin 256) :
    VR m d main_v2 (ix2 r (0 : Fin 1)) = I.g r :=
  (congrFun (VR_v2 m d) (ix2 r (0 : Fin 1))).trans ((read_g _ _ r).trans (hg r).symm)

theorem vr_b (hb : ∀ r, I.b r = argAt m d main_arg7 (ix1 r)) (r : Fin 256) :
    VR m d main_v3 (ix2 (0 : Fin 1) r) = I.b r :=
  (congrFun (VR_v3 m d) (ix2 (0 : Fin 1) r)).trans ((read_b _ _ r).trans (hb r).symm)

theorem vr_bf (hbf : ∀ o, I.bf o = argAt m d main_arg9 (ix1 o)) (o : Fin 128) :
    VR m d main_v4 (ix2 (0 : Fin 1) o) = I.bf o :=
  (congrFun (VR_v4 m d) (ix2 (0 : Fin 1) o)).trans ((read_bf _ _ o).trans (hbf o).symm)

theorem vr_v (hv : ∀ r k, I.v r k = argAt m d main_arg5 (ix2 r k)) (r : Fin 256) (k : Fin 128) :
    VR m d main_arg5 (ix2 r k) = I.v r k :=
  (congrFun (VR_arg5 m d) (ix2 r k)).trans (hv r k).symm

theorem vr_W (hW : ∀ o k, I.W o k = argAt m d main_arg8 (ix2 o k)) (o k : Fin 128) :
    VR m d main_arg8 (ix2 o k) = I.W o k :=
  (congrFun (VR_arg8 m d) (ix2 o k)).trans (hW o k).symm

end Operands

theorem N_eq : cfg0.N = 5 := by decide

theorem index4 : ∀ t : Fin cfg0.N, (cfg0.win 4).index t ⟨0, by decide⟩ = t.val ∧ (cfg0.win 4).index t ⟨1, by decide⟩ = 0 := by decide
theorem index9 : ∀ t : Fin cfg0.N, (cfg0.win 9).index t ⟨0, by decide⟩ = t.val ∧ (cfg0.win 9).index t ⟨1, by decide⟩ = 0 := by decide
theorem xsize9 : ∀ t : Fin cfg0.N, (cfg0.win 9).xsize (cfg0.grid.coords t) ⟨0, by decide⟩ = 2000
    ∧ (cfg0.win 9).xsize (cfg0.grid.coords t) ⟨1, by decide⟩ = 128 := by decide
theorem index0_t0 : (cfg0.win 0).index t0 ⟨0, by decide⟩ = 0 ∧ (cfg0.win 0).index t0 ⟨1, by decide⟩ = 0 := by decide
theorem index1_t0 : (cfg0.win 1).index t0 ⟨0, by decide⟩ = 0 ∧ (cfg0.win 1).index t0 ⟨1, by decide⟩ = 0 := by decide
theorem index2_t0 : (cfg0.win 2).index t0 ⟨0, by decide⟩ = 0 ∧ (cfg0.win 2).index t0 ⟨1, by decide⟩ = 0 := by decide
theorem index3_t0 : (cfg0.win 3).index t0 ⟨0, by decide⟩ = 0 ∧ (cfg0.win 3).index t0 ⟨1, by decide⟩ = 0 := by decide
theorem index5_t0 : (cfg0.win 5).index t0 ⟨0, by decide⟩ = 0 ∧ (cfg0.win 5).index t0 ⟨1, by decide⟩ = 0 := by decide
theorem index6_t0 : (cfg0.win 6).index t0 ⟨0, by decide⟩ = 0 ∧ (cfg0.win 6).index t0 ⟨1, by decide⟩ = 0 := by decide

section Blocks
variable (c : Dev nD) (V : (b : Ref sig .tc) → Buf (Elt Ideal) ((c : Thread nD τ).loc b))

theorem inB4_apply (t : Fin cfg0.N) (p : Fin 2000) (k : Fin 128) (r : Fin 10000) (hr : r.val = 2000 * t.val + p.val) :
    inB c V 4 t (ix2 p k) = V main_v0 (ix2 r k) := by
  unfold inB Pipeline.Window.fill
  rw [dif_pos (show (cfg0.win 4).moved (cfg0.grid.coords t) (ix2 p k) = true from rfl), View.read_apply, cast_eq]
  refine congrArg (V main_v0) (funext fun a => Fin.ext ?_)
  refine (Pipeline.Window.rect_emb_val (cfg0.win 4) t _ a).trans ?_
  match a with
  | ⟨0, _⟩ =>
    rw [(index4 t).1]
    show t.val * 2000 + p.val = r.val
    omega
  | ⟨1, _⟩ =>
    rw [(index4 t).2]
    show 0 * 128 + k.val = k.val
    omega

theorem inB0_apply (i : Fin 1) (j : Fin 128) : inB c V 0 t0 (ix2 i j) = V main_v1 (ix2 i j) := by
  unfold inB Pipeline.Window.fill
  rw [dif_pos (show (cfg0.win 0).moved (cfg0.grid.coords t0) (ix2 i j) = true from rfl), View.read_apply, cast_eq]
  refine congrArg (V main_v1) (funext fun a => Fin.ext ?_)
  refine (Pipeline.Window.rect_emb_val (cfg0.win 0) t0 _ a).trans ?_
  match a with
  | ⟨0, _⟩ =>
    rw [(index0_t0).1]
    show 0 * 1 + i.val = i.val
    omega
  | ⟨1, _⟩ =>
    rw [(index0_t0).2]
    show 0 * 128 + j.val = j.val
    omega

theorem inB1_apply (i : Fin 256) (j : Fin 128) : inB c V 1 t0 (ix2 i j) = V main_arg5 (ix2 i j) := by
  unfold inB Pipeline.Window.fill
  rw [dif_pos (show (cfg0.win 1).moved (cfg0.grid.coords t0) (ix2 i j) = true from rfl), View.read_apply, cast_eq]
  refine congrArg (V main_arg5) (funext fun a => Fin.ext ?_)
  refine (Pipeline.Window.rect_emb_val (cfg0.win 1) t0 _ a).trans ?_
  match a with
  | ⟨0, _⟩ =>
    rw [(index1_t0).1]
    show 0 * 256 + i.val = i.val
    omega
  | ⟨1, _⟩ =>
    rw [(index1_t0).2]
    show 0 * 128 + j.val = j.val
    omega

theorem inB2_apply (i : Fin 256) (j : Fin 1) : inB c V 2 t0 (ix2 i j) = V main_v2 (ix2 i j) := by
  unfold inB Pipeline.Window.fill
  rw [dif_pos (show (cfg0.win 2).moved (cfg0.grid.coords t0) (ix2 i j) = true from rfl), View.read_apply, cast_eq]
  refine congrArg (V main_v2) (funext fun a => Fin.ext ?_)
  refine (Pipeline.Window.rect_emb_val (cfg0.win 2) t0 _ a).trans ?_
  match a with
  | ⟨0, _⟩ =>
    rw [(index2_t0).1]
    show 0 * 256 + i.val = i.val
    omega
  | ⟨1, _⟩ =>
    rw [(index2_t0).2]
    show 0 * 1 + j.val = j.val
    omega

theorem inB3_apply (i : Fin 1) (j : Fin 256) : inB c V 3 t0 (ix2 i j) = V main_v3 (ix2 i j) := by
  unfold inB Pipeline.Window.fill
  rw [dif_pos (show (cfg0.win 3).moved (cfg0.grid.coords t0) (ix2 i j) = true from rfl), View.read_apply, cast_eq]
  refine congrArg (V main_v3) (funext fun a => Fin.ext ?_)
  refine (Pipeline.Window.rect_emb_val (cfg0.win 3) t0 _ a).trans ?_
  match a with
  | ⟨0, _⟩ =>
    rw [(index3_t0).1]
    show 0 * 1 + i.val = i.val
    omega
  | ⟨1, _⟩ =>
    rw [(index3_t0).2]
    show 0 * 256 + j.val = j.val
    omega

theorem inB5_apply (i : Fin 128) (j : Fin 128) : inB c V 5 t0 (ix2 i j) = V main_arg8 (ix2 i j) := by
  unfold inB Pipeline.Window.fill
  rw [dif_pos (show (cfg0.win 5).moved (cfg0.grid.coords t0) (ix2 i j) = true from rfl), View.read_apply, cast_eq]
  refine congrArg (V main_arg8) (funext fun a => Fin.ext ?_)
  refine (Pipeline.Window.rect_emb_val (cfg0.win 5) t0 _ a).trans ?_
  match a with
  | ⟨0, _⟩ =>
    rw [(index5_t0).1]
    show 0 * 128 + i.val = i.val
    omega
  | ⟨1, _⟩ =>
    rw [(index5_t0).2]
    show 0 * 128 + j.val = j.val
    omega

theorem inB6_apply (i : Fin 1) (j : Fin 128) : inB c V 6 t0 (ix2 i j) = V main_v4 (ix2 i j) := by
  unfold inB Pipeline.Window.fill
  rw [dif_pos (show (cfg0.win 6).moved (cfg0.grid.coords t0) (ix2 i j) = true from rfl), View.read_apply, cast_eq]
  refine congrArg (V main_v4) (funext fun a => Fin.ext ?_)
  refine (Pipeline.Window.rect_emb_val (cfg0.win 6) t0 _ a).trans ?_
  match a with
  | ⟨0, _⟩ =>
    rw [(index6_t0).1]
    show 0 * 1 + i.val = i.val
    omega
  | ⟨1, _⟩ =>
    rw [(index6_t0).2]
    show 0 * 128 + j.val = j.val
    omega

end Blocks

theorem gbLo_apply (g : FVec Ideal S1x256 .f32) (j : Fin 128) :
    gbLo (F := Ideal) g (ix2 (0 : Fin 1) j) = g (ix2 (0 : Fin 1) (Cert.Spec.lo j)) := by
  unfold gbLo
  rw [View.readAt_apply, View.read_apply, cast_eq]
  refine congrArg g (funext fun a => Fin.ext ?_)
  match a with
  | ⟨0, _⟩ => rfl
  | ⟨1, _⟩ =>
    show 0 + 1 * j.val = j.val
    omega

theorem gbHi_apply (g : FVec Ideal S1x256 .f32) (j : Fin 128) :
    gbHi (F := Ideal) g (ix2 (0 : Fin 1) j) = g (ix2 (0 : Fin 1) (Cert.Spec.hi j)) := by
  unfold gbHi
  rw [View.readAt_apply, View.read_apply, cast_eq]
  refine congrArg g (funext fun a => Fin.ext ?_)
  match a with
  | ⟨0, _⟩ => rfl
  | ⟨1, _⟩ =>
    show 128 + 1 * j.val = 128 + j.val
    omega

section Table
variable (c : Dev nD) (V : (b : Ref sig .tc) → Buf (Elt Ideal) ((c : Thread nD τ).loc b))

theorem featsAt_forall
    (P : ((cfg0.win 9).arr.view.loc (c : Thread nD τ)).2.ty.Idx
      → Elt Ideal ((cfg0.win 9).arr.view.loc (c : Thread nD τ)).2.ty.elt → Prop)
    (hP : ∀ (t : Fin cfg0.N) (y : ((cfg0.win 9).xblock (cfg0.grid.coords t)).Idx),
      P (((cfg0.win 9).blk t).view.emb y)
        (_root_.cast (congrArg (Elt Ideal) ((cfg0.win 9).blk t).view.elt_eq.symm)
          ((cfg0.win 9).cut (cfg0.grid.coords t) (featBlk c V t) y))) :
    ∀ (n : Nat) (t : Fin cfg0.N) (i : ((cfg0.win 9).arr.view.loc (c : Thread nD τ)).2.ty.Idx),
      t.val < n → i ∈ ((cfg0.win 9).blk t).view.set → P i (featsAt c V n i)
  | 0, _, _, ht, _ => absurd ht (Nat.not_lt_zero _)
  | n + 1, t, i, ht, hi => by
    rw [featsAt]
    by_cases hn : n < cfg0.N
    · rw [dif_pos hn]
      by_cases hin : i ∈ ((cfg0.win 9).blk ⟨n, hn⟩).view.set
      · obtain ⟨y, -, rfl⟩ := Finset.mem_map.mp hin
        rw [View.write_emb_of_mem _ _ (Finset.mem_univ y)]
        exact hP _ y
      · rw [View.write_of_not_mem _ _ _ (by rwa [View.setOn_univ])]
        have htn : t.val ≠ n := fun e => hin (by have : t = ⟨n, hn⟩ := Fin.ext e; exact this ▸ hi)
        exact featsAt_forall P hP n t i (by omega) hi
    · rw [dif_neg hn]
      exact featsAt_forall P hP n t i (by have := t.isLt; omega) hi

end Table

section Value
variable (I : Cert.Spec.In) (d : Dev nD)
  (hx : ∀ n k, I.x n k = argAt m d main_arg0 (ix3 (0 : Fin 1) n k))
  (hcond : ∀ k, I.cond k = argAt m d main_arg1 (ix3 (0 : Fin 1) (0 : Fin 1) k))
  (hv : ∀ r k, I.v r k = argAt m d main_arg5 (ix2 r k))
  (hg : ∀ r, I.g r = argAt m d main_arg6 (ix1 r))
  (hb : ∀ r, I.b r = argAt m d main_arg7 (ix1 r))
  (hW : ∀ o k, I.W o k = argAt m d main_arg8 (ix2 o k))
  (hbf : ∀ o, I.bf o = argAt m d main_arg9 (ix1 o))
include hcond hv hg hb in

theorem gbOf_value (r : Fin 256) : gbOf d (VR m d) (ix2 (0 : Fin 1) r) = Cert.Spec.gbK I r :=
  pay1_apply I (inB d (VR m d) 1 t0) (inB d (VR m d) 2 t0) (inB d (VR m d) 0 t0) (inB d (VR m d) 3 t0)
    (fun r k => (inB1_apply d (VR m d) r k).trans (vr_v m I d hv r k))
    (fun r => (inB2_apply d (VR m d) r (0 : Fin 1)).trans (vr_g m I d hg r))
    (fun k => (inB0_apply d (VR m d) (0 : Fin 1) k).trans (vr_cond m I d hcond k))
    (fun r => (inB3_apply d (VR m d) (0 : Fin 1) r).trans (vr_b m I d hb r)) r

include hx hcond hv hg hb hW hbf in

theorem featBlk_value (t : Fin cfg0.N) (p : Fin 2000) (o : Fin 128) (n : Fin 10000) (hn : n.val = 2000 * t.val + p.val) :
    featBlk d (VR m d) t (ix2 p o) = Cert.Spec.filmK I n o := by
  have ht5 : t.val < 5 := N_eq ▸ t.isLt
  have hrow : rowOf ⟨t.val, ht5⟩ p = n := Fin.ext (by show 2000 * t.val + p.val = n.val; omega)
  have h := pay3_apply I ⟨t.val, ht5⟩ (inB d (VR m d) 4 t) (inB d (VR m d) 5 t0) (inB d (VR m d) 6 t0)
    (gbLo (gbOf d (VR m d))) (gbHi (gbOf d (VR m d)))
    (fun p k => (inB4_apply d (VR m d) t p k (rowOf ⟨t.val, ht5⟩ p) rfl).trans (vr_x m I d hx _ k))
    (fun o k => (inB5_apply d (VR m d) o k).trans (vr_W m I d hW o k))
    (fun o => (inB6_apply d (VR m d) (0 : Fin 1) o).trans (vr_bf m I d hbf o))
    (fun o => (gbLo_apply _ o).trans (gbOf_value m I d hcond hv hg hb _))
    (fun o => (gbHi_apply _ o).trans (gbOf_value m I d hcond hv hg hb _)) p o
  rw [hrow] at h
  exact h

include hx hcond hv hg hb hW hbf in

theorem feats_value (n : Fin 10000) (o : Fin 128) :
    Film.FEATS d (VR m d) (ix2 (⟨n.val, by omega⟩ : Fin 10240) o) = Cert.Spec.filmK I n o := by
  have hN : n.val / 2000 < cfg0.N := by rw [N_eq]; have := n.isLt; omega
  refine featsAt_forall d (VR m d)
    (fun i v => ∀ (n : Fin 10000) (o : Fin 128), i = (ix2 (⟨n.val, by omega⟩ : Fin 10240) o : S10240x128.Idx) → v = Cert.Spec.filmK I n o)
    (fun t y n o hi => ?_) cfg0.N ⟨n.val / 2000, hN⟩ _ hN ?_ n o rfl
  ·
    have e0 := Pipeline.Window.rect_emb_val (cfg0.win 9) t y ⟨0, Nat.zero_lt_two⟩
    have e1 := Pipeline.Window.rect_emb_val (cfg0.win 9) t y ⟨1, Nat.one_lt_two⟩
    rw [(index9 t).1] at e0
    rw [(index9 t).2] at e1
    have h0 : n.val = t.val * 2000 + (y ⟨0, Nat.zero_lt_two⟩).val := (congrArg Fin.val (congrFun hi ⟨0, Nat.zero_lt_two⟩)).symm.trans e0
    have h1 : o.val = 0 * 128 + (y ⟨1, Nat.one_lt_two⟩).val := (congrArg Fin.val (congrFun hi ⟨1, Nat.one_lt_two⟩)).symm.trans e1
    have hy0 : (y ⟨0, Nat.zero_lt_two⟩).val < 2000 := lt_of_lt_of_eq (y ⟨0, Nat.zero_lt_two⟩).isLt (xsize9 t).1
    rw [cast_eq]
    refine (congrArg (featBlk d (VR m d) t) (?_ : _ = ix2 (⟨(y ⟨0, Nat.zero_lt_two⟩).val, hy0⟩ : Fin 2000) o)).trans
      (featBlk_value m I d hx hcond hv hg hb hW hbf t ⟨(y ⟨0, Nat.zero_lt_two⟩).val, hy0⟩ o n (by show n.val = 2000 * t.val + (y ⟨0, Nat.zero_lt_two⟩).val; omega))
    funext a
    refine Fin.ext ?_
    match a with
    | ⟨0, _⟩ => rfl
    | ⟨1, _⟩ => show (y ⟨1, _⟩).val = o.val; omega
  ·
    rw [View.set_slice_whole, Rect.mem_set_unit]
    intro a
    match a with
    | ⟨0, _⟩ =>
      rw [(index9 ⟨n.val / 2000, hN⟩).1, (xsize9 ⟨n.val / 2000, hN⟩).1]
      show n.val / 2000 * 2000 ≤ n.val ∧ n.val < n.val / 2000 * 2000 + 2000
      omega
    | ⟨1, _⟩ =>
      rw [(index9 ⟨n.val / 2000, hN⟩).2, (xsize9 ⟨n.val / 2000, hN⟩).2]
      show 0 * 128 ≤ o.val ∧ o.val < 0 * 128 + 128
      omega

end Value

end Cert.Proof.KI

end
-- ==== Proof.KB.Common.lean ====
import proofs.«204698_g79517024518204_fold_wed_m_581_46_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«204698_g79517024518204_fold_wed_m_581_46_alg».proof.Proof.Gen.Kernel
import proofs.«204698_g79517024518204_fold_wed_m_581_46_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

variable [FloatOps F]

theorem nCore_zero : (K (F := F)).nCore 0 = 2 := rfl
theorem nSub_zero : (K (F := F)).nSub 0 = 16 := rfl
theorem nSC_eq : τ.nSC = 2 := rfl
theorem nSub_eq : τ.nSub = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UB : Type := URounds (GSem nD τ sig) ℕ

abbrev UP : Type := URounds (GSem nD τ sig) Unit
abbrev UU : Type := UH × (UB × (UP × Counters))

local notation "𝕄" => MT nD τ sig (HIx 1) (Elt F) ℕ UU ℕ

abbrev EH : Emb UH (MT nD τ sig (HIx 1) (Elt F) ℕ UU ℕ) := embL
def EB : Emb UB (MT nD τ sig (HIx 1) (Elt F) ℕ UU ℕ) :=
  ((Emb.inl : Emb UB (UB × (UP × Counters))).trans (Emb.inr : Emb (UB × (UP × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
def EP : Emb UP (MT nD τ sig (HIx 1) (Elt F) ℕ UU ℕ) :=
  (((Emb.inl : Emb UP (UP × Counters)).trans (Emb.inr : Emb (UP × Counters) (UB × (UP × Counters)))).trans
      (Emb.inr : Emb (UB × (UP × Counters)) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

abbrev featsLoc (d : Dev nD) : Loc nD τ sig := (SparseCore.T d).loc main_v7_0
abbrev idxLoc (d : Dev nD) : Loc nD τ sig := (SparseCore.T d).loc main_v9
abbrev ewLoc (d : Dev nD) : Loc nD τ sig := (SparseCore.T d).loc main_v7_1
abbrev outLoc (d : Dev nD) : Loc nD τ sig := (SparseCore.T d).loc main_v10

abbrev shRef (c : Fin τ.nSC) : DevRef τ sig := ⟨.shared, ⟨0, by decide⟩, c⟩
abbrev shLoc (d : Dev nD) (c : Fin τ.nSC) : Loc nD τ sig := (d, shRef c)

local notation "featsV" => (Memref.whole Cert.Kernel.main_v7_0_scv : Memref Cert.Kernel.sig Kind.scVector Space.hbm Cert.Kernel.S10240x128 EltTy.f32)
local notation "idxV" => (Memref.whole Cert.Kernel.main_v9_scv : Memref Cert.Kernel.sig Kind.scVector Space.hbm Cert.Kernel.S2560x128 EltTy.i32)
local notation "ewV" => (Memref.whole Cert.Kernel.main_v7_1_scv : Memref Cert.Kernel.sig Kind.scVector Space.hbm Cert.Kernel.S2560x128 EltTy.f32)
local notation "outV" => (Memref.whole Cert.Kernel.main_v10_scv : Memref Cert.Kernel.sig Kind.scVector Space.hbm Cert.Kernel.S10240x128 EltTy.f32)
local notation "shV" => (Memref.whole Cert.Kernel.cc1_scratch8 : Memref Cert.Kernel.sig Kind.scVector Space.shared Cert.Kernel.S10240x128 EltTy.f32)

def wid (c : Fin 2) (i : Fin 16) : Fin 32 := ⟨2 * i.val + c.val, by omega⟩

theorem hdiv16 : 16 ∣ S10240x128.size 0 := ⟨640, rfl⟩
theorem hdiv32 : 32 ∣ S10240x128.size 0 := ⟨320, rfl⟩
theorem hdiv32' : 32 ∣ S2560x128.size 0 := ⟨80, rfl⟩

abbrev seg (i : Fin 16) : Rect S10240x128 := Rect.part (s := S10240x128) (a₀ := 0) hdiv16 i

abbrev orows (w : Fin 32) : Rect S10240x128 := Rect.part (s := S10240x128) (a₀ := 0) hdiv32 w

abbrev erows (w : Fin 32) : Rect S2560x128 := Rect.part (s := S2560x128) (a₀ := 0) hdiv32' w
abbrev segSet (i : Fin 16) : Finset S10240x128.Idx := ((featsV).view.slice (seg i)).set
abbrev orowSet (w : Fin 32) : Finset S10240x128.Idx := ((outV).view.slice (orows w)).set
abbrev erowSet (w : Fin 32) : Finset S2560x128.Idx := ((idxV).view.slice (erows w)).set

structure Ops (F : FTy → Type) where
  ff : (d : Dev nD) → Buf (Elt F) (featsLoc d)
  fi : (d : Dev nD) → Buf (Elt F) (idxLoc d)
  fe : (d : Dev nD) → Buf (Elt F) (ewLoc d)
  fo : (d : Dev nD) → Buf (Elt F) (outLoc d)

variable (A : Ops F)

def ffsh (d : Dev nD) (c : Fin τ.nSC) : Buf (Elt F) (shLoc d c) := fun j => A.ff d j

def wAt (d : Dev nD) (r : Fin 10240) (k : Fin 32) : F .f32 :=
  A.fe d (ValueIdx.ix2 (⟨(32 * r.val + k.val) / 128, by omega⟩ : Fin 2560) (⟨(32 * r.val + k.val) % 128, Nat.mod_lt _ (by decide)⟩ : Fin 128))

def nbAt (d : Dev nD) (r : Fin 10240) (k : Fin 32) : Fin 10240 :=
  ⟨(A.fi d (ValueIdx.ix2 (⟨(32 * r.val + k.val) / 128, by omega⟩ : Fin 2560) (⟨(32 * r.val + k.val) % 128, Nat.mod_lt _ (by decide)⟩ : Fin 128))).toNat % 10240,
    Nat.mod_lt _ (by decide)⟩

def accAt (d : Dev nD) (r : Fin 10240) (o : Fin 128) : (k : ℕ) → k ≤ 32 → F .f32
  | 0, _ => A.ff d (ValueIdx.ix2 r o)
  | k + 1, h => FloatOps.addf (accAt d r o k (by omega)) (FloatOps.mulf (wAt A d r ⟨k, by omega⟩) (A.ff d (ValueIdx.ix2 (nbAt A d r ⟨k, by omega⟩) o)))

def outVal (d : Dev nD) : Buf (Elt F) (outLoc d) := fun j =>
  FloatOps.maximumf (accAt A d (j 0) (j 1) 32 le_rfl) (FloatOps.ofBits .f32 0x00000000#32)

end Cert.Proof.KB

end
-- ==== Proof.KB.Pay.lean ====
import proofs.«204698_g79517024518204_fold_wed_m_581_46_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (A : Ops F)

abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

abbrev tok (j : Fin 16) : PosShare TreeShare := Transfers.shareTok fullShare 16 j
abbrev rest16 : PosShare TreeShare := Transfers.shareDrop fullShare 16

abbrev shSegPts (d : Dev nD) (c : Fin τ.nSC) (n : Fin 16) (q : PosShare TreeShare) : sProp 𝕄 :=
  shLoc d c ↦[segSet n]{q} ffsh A d c

def bPay (g : GSem nD τ sig) (n : ℕ) : sProp 𝕄 :=
  match g with
  | ((d, .scVector c j), _) => if h : n < 16 then shSegPts A d c ⟨n, h⟩ (tok (Fin.cast nSub_eq j)) else iprop(emp)
  | _ => iprop(emp)

def bRd : Rounds.Schedule (GSem nD τ sig) ℕ 𝕄 where
  duties g r := if isBar g ∧ r = 0 then (Finset.univ : Finset (Fin τ.nSub)).image Fin.val else ∅
  amount _ _ _ := 1
  payload g _ n := bPay A g n
  amount_pos _ _ _ _ := Nat.one_pos

instance bRd_payload_storable (g : GSem nD τ sig) (r n : ℕ) : BI.Storable (upEmb : UEmb _ 𝕄) ((bRd (F := F) A).payload g r n) := by
  show BI.Storable upEmb (bPay A g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd (F := F) A).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) A).duties (bcell d c j) 0 := by
  rw [bRd_duties₀]; exact Finset.mem_image_of_mem _ (Finset.mem_univ i)
theorem bRd_expect (d : Dev nD) (c : Fin τ.nSC) (j : Fin τ.nSub) : 0 + grid1.bound 1 = (bRd (F := F) A).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

def oxV (d : Dev nD) (c : Fin τ.nSC) : CellTallies nD τ sig (HIx 1) := ∑ j : Fin (grid1.bound 1), tallyAt (bcell d c (j.castLE hsub1)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid1.bound 1), g = bcell d c (j.castLE hsub1) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

def bkit (d : Dev nD) (c : Fin τ.nSC) (i : Fin τ.nSub) : sProp 𝕄 :=
  iprop((∃ κ : GSem nD τ sig → ℕ, bigSep Finset.univ fun j : Fin (grid1.bound 1) =>
      cellInv EB (bRd (F := F) A) (κ (bcell d c (j.castLE hsub1))) (bcell d c (j.castLE hsub1)))
    ∗ (bigSep Finset.univ fun j : Fin (grid1.bound 1) => dutyTok EB (bcell d c (j.castLE hsub1)) 0 i.val)
    ∗ (bigSep Finset.univ fun j : Fin (grid1.bound 1) => reached EB (bcell d c (j.castLE hsub1)) 0)
    ∗ atPos EB (bcell d c i) 0 ∅ 0
    ∗ cred (tallyAt (bcell d c i) (some 0) (grid1.bound 1)))

def hshare (c : Fin 2) : PosShare TreeShare := if c.val = 0 then (fullShare : PosShare TreeShare).left else (fullShare : PosShare TreeShare).right

def orowSetC (c : Fin 2) : Finset S10240x128.Idx := (Finset.univ : Finset (Fin 16)).biUnion fun i => orowSet (wid c i)

abbrev featsPts (d : Dev nD) (q : PosShare TreeShare) : sProp 𝕄 := featsLoc d ↦{q} A.ff d
abbrev idxPts (d : Dev nD) (q : PosShare TreeShare) : sProp 𝕄 := idxLoc d ↦{q} A.fi d

abbrev ewPts (d : Dev nD) (q : PosShare TreeShare) : sProp 𝕄 :=
  iprop(∃ fe : Buf (Elt F) (ewLoc d), ⌜∀ j : S2560x128.Idx, (j 0).val < 2500 → fe j = A.fe d j⌝ ∗ ewLoc d ↦{q} fe)
abbrev featsSegPts (d : Dev nD) (i : Fin 16) (q : PosShare TreeShare) : sProp 𝕄 := featsLoc d ↦[segSet i]{q} A.ff d
abbrev idxRowPts (d : Dev nD) (w : Fin 32) (q : PosShare TreeShare) : sProp 𝕄 := idxLoc d ↦[erowSet w]{q} A.fi d
abbrev ewRowPts (d : Dev nD) (w : Fin 32) (q : PosShare TreeShare) : sProp 𝕄 :=
  iprop(∃ fe : Buf (Elt F) (ewLoc d), ⌜∀ j ∈ erowSet w, (j 0).val < 2500 → fe j = A.fe d j⌝ ∗ ewLoc d ↦[erowSet w]{q} fe)
abbrev outRowPts (d : Dev nD) (w : Fin 32) (f : Buf (Elt F) (outLoc d)) : sProp 𝕄 := outLoc d ↦[orowSet w]{fullShare} f

abbrev outDonePts (d : Dev nD) (Sr : Finset S10240x128.Idx) : sProp 𝕄 :=
  iprop(∃ f : Buf (Elt F) (outLoc d), ⌜∀ j ∈ Sr, (j 0).val < 10000 → f j = outVal A d j⌝ ∗ outLoc d ↦[Sr]{fullShare} f)

def goRes (d : Dev nD) (c : Fin 2) (i : Fin 16) : sProp 𝕄 :=
  iprop(featsSegPts A d i (hshare c) ∗ idxRowPts A d (wid c i) (hshare c) ∗ ewRowPts A d (wid c i) (hshare c)
    ∗ outRowPts d (wid c i) (A.fo d) ∗ ∃ f, shLoc d (Fin.cast nSC_eq.symm c) ↦[segSet i]{fullShare} f)

def tdRes (d : Dev nD) (c : Fin 2) (i : Fin 16) : sProp 𝕄 :=
  iprop(featsSegPts A d i (hshare c) ∗ idxRowPts A d (wid c i) (hshare c) ∗ ewRowPts A d (wid c i) (hshare c)
    ∗ outDonePts A d (orowSet (wid c i))
    ∗ shSegPts A d (Fin.cast nSC_eq.symm c) i rest16
    ∗ bigSep Finset.univ fun n : Fin 16 => shSegPts A d (Fin.cast nSC_eq.symm c) n (tok i))

def P : (K (F := F)).Pay (nD := nD) (Val := Elt F) (Name := ℕ) (U := UU) where
  st := fun q d c => match q with
    | 0 => iprop(featsPts A d (hshare (Fin.cast nCore_zero c)) ∗ idxPts A d (hshare (Fin.cast nCore_zero c)) ∗ ewPts A d (hshare (Fin.cast nCore_zero c))
        ∗ outLoc d ↦[orowSetC (Fin.cast nCore_zero c)]{fullShare} A.fo d)
  dn := fun q d c => match q with
    | 0 => iprop(featsPts A d (hshare (Fin.cast nCore_zero c)) ∗ idxPts A d (hshare (Fin.cast nCore_zero c)) ∗ ewPts A d (hshare (Fin.cast nCore_zero c))
        ∗ outDonePts A d (orowSetC (Fin.cast nCore_zero c)))
  go := fun q d c i => match q with | 0 => goRes A d (Fin.cast nCore_zero c) (Fin.cast nSub_zero i)
  td := fun q d c i => match q with | 0 => tdRes A d (Fin.cast nCore_zero c) (Fin.cast nSub_zero i)
  x := fun _ thr => match thr with
    | (d, .scVector c i) => bkit A d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub1) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) A).IsStorable where
  st q d c := match q with | 0 => by unfold P; dsimp only; infer_instance
  dn q d c := match q with | 0 => by unfold P; dsimp only; infer_instance
  go q d c i := match q with | 0 => by unfold P goRes; dsimp only; infer_instance
  td q d c i := match q with | 0 => by unfold P tdRes; dsimp only; infer_instance

end Cert.Proof.KB

end
-- ==== Proof.KB.Ghost.lean ====
import proofs.«204698_g79517024518204_fold_wed_m_581_46_alg».proof.Proof.KB.Pay
import proofs.«204698_g79517024518204_fold_wed_m_581_46_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev DCI : Type := Dev nD × Fin τ.nSC × Fin τ.nSub

abbrev bcell₃ (x : DCI) : GSem nD τ sig := bcell x.1 x.2.1 x.2.2

def bCells : Finset (GSem nD τ sig) := Finset.univ.image bcell₃

def bToks : Finset (GSem nD τ sig × ℕ × ℕ) :=
  Finset.univ.image fun x : DCI × Fin (grid1.bound 1) => (bcell x.1.1 x.1.2.1 (x.2.castLE hsub1), 0, x.1.2.2.val)

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

abbrev adm : (p : Fin 1) → (pcfgs (F := F) p).Adm := fun p => (cfgs p).toPCfg_adm

def u₀ : UU :=
  (initOf (K (F := F)).hsCells (K (F := F)).hsToks,
    (initOf bCells bToks, (initOf (Pipeline.cells cfgs Gen.cellOf_inj) (Pipeline.launchToks cfgs Gen.cellOf_inj), 1)))

def G (d : Dev nD) : sProp 𝕄 :=
  iprop(Pipeline.cellsGhost (Pipeline.pin (pcfgs (F := F)) adm) EP 0 d ∗ Pipeline.toksInit (Pipeline.pin (pcfgs (F := F)) adm) EP 0 d)

theorem G_eq (d : Dev nD) : (G (F := F) d : sProp 𝕄) = iprop(Pipeline.cellsGhost cfgs EP 0 d ∗ Pipeline.toksInit cfgs EP 0 d) := rfl

end Cert.Proof.KB

end
-- ==== Proof.KB.MainDefs.lean ====
import proofs.«204698_g79517024518204_fold_wed_m_581_46_alg».proof.Proof.KB.Ghost

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after)
open Idealize.ShloMosaic.ValueIdx (ix2 ix3)

variable {F : FTy → Type} [FloatOps F]

local notation "𝕄" => MT nD τ sig (HIx 1) (Elt F) ℕ UU ℕ

variable (m : (ℓ : Loc nD τ sig) → Buf (Elt F) ℓ) (ρ : Dev nD → PrngReg)

variable (FEATS : (d : Dev nD) → Buf (Elt F) (featsLoc d))

abbrev argAt (d : Dev nD) (b : Ref sig .tc) : Buf (Elt F) ((SparseCore.T d : Thread nD τ).loc b) := m ((SparseCore.T d : Thread nD τ).loc b)

def w3Of (d : Dev nD) : S2500x128.Idx → F .f32 := shapeCast S2500x128 (argAt m d main_arg3) shapeCasts_S1x320000x1_S2500x128
def w4Of (d : Dev nD) : S2500x128.Idx → F .f32 := shapeCast S2500x128 (argAt m d main_arg4) shapeCasts_S1x320000x1_S2500x128

def fiOf (d : Dev nD) : Buf (Elt F) (idxLoc d) :=
  shapeCast S2560x128
    (pad (s := S320000) S327680 ![0] ![7680] ![0] (argAt m d main_arg2) (constantI S_ 32 0#32) pads_S320000_S327680_076800 h_S_)
    shapeCasts_S327680_S2560x128

def feOf (d : Dev nD) : Buf (Elt F) (ewLoc d) := fun j =>
  if h : (j 0).val < 2500 then
    FloatOps.mulf (w3Of m d (ix2 (⟨(j 0).val, h⟩ : Fin 2500) (j 1))) (w4Of m d (ix2 (⟨(j 0).val, h⟩ : Fin 2500) (j 1)))
  else FloatOps.ofBits .f32 0x00000000#32

def opsOf : Ops F where
  ff := FEATS
  fi := fiOf m
  fe := feOf m
  fo := fun d => m (outLoc d)

abbrev dr (b : Ref sig .tc) : DevRef τ sig := Proc.devRef .tc b

def R26 : Finset (Ref sig .tc) :=
  {main_arg0, main_arg1, main_arg2, main_arg3, main_arg4, main_arg5, main_arg6, main_arg7, main_arg8, main_arg9,
   main_v0, main_v1, main_v2, main_v3, main_v4, main_v5, main_v6, main_v7_0, main_v7_1, main_c, main_call0_v0, main_v8,
   main_v9, main_v10, main_v11, main_v12}
def S26 : Finset (DevRef τ sig) := R26.map ⟨Proc.devRef .tc, Proc.devRef_injective _⟩

def V0 (d : Dev nD) : Valuation τ sig (Elt F) := fun b => m (d, b)

def ops7 : List (HloOp τ sig (Elt F)) :=
  [StableHlo.reshape main_arg0 main_v0 rfl shapeCasts_S1x10000x128_S10000x128,
   StableHlo.reshape main_arg1 main_v1 rfl shapeCasts_S1x1x128_S1x128,
   StableHlo.reshape main_arg6 main_v2 rfl shapeCasts_S256_S256x1,
   StableHlo.reshape main_arg7 main_v3 rfl shapeCasts_S256_S1x256,
   StableHlo.reshape main_arg9 main_v4 rfl shapeCasts_S128_S1x128,
   StableHlo.reshape main_arg3 main_v5 rfl shapeCasts_S1x320000x1_S2500x128,
   StableHlo.reshape main_arg4 main_v6 rfl shapeCasts_S1x320000x1_S2500x128]

def V1 (d : Dev nD) : Valuation τ sig (Elt F) := after ops7 (V0 m d)

def VR (c : Dev nD) : (b : Ref sig .tc) → Buf (Elt F) ((c.tc : Thread nD τ).loc b) := fun b => V1 m c (dr b)

def regOps : Finset (Ref sig .tc) := {main_v1, main_arg5, main_v2, main_v3, main_v0, main_arg8, main_v4, main_v5, main_v6}
def regRefs : Finset (Ref sig .tc) := insert main_v7_0 (insert main_v7_1 regOps)

def owesPart (c : Dev nD) (O : CellTallies nD τ sig (HIx 1)) : sProp 𝕄 :=
  iprop(∃ W, ⌜(K (F := F)).WBelow (SparseCore.T c) W (8 * 0)⌝ ∗ owes (SparseCore.T c) O W)

def regPre (c : Dev nD) (Vc : (b : Ref sig .tc) → Buf (Elt F) ((c.tc : Thread nD τ).loc b)) (O : CellTallies nD τ sig (HIx 1)) : sProp 𝕄 :=
  iprop(boundary (SparseCore.T c) ∗ (bigSep regRefs fun b => ((c.tc : Thread nD τ).loc b) ↦{fullShare} Vc b) ∗ owesPart (F := F) c O ∗ G (F := F) c)

def regPost (c : Dev nD) (Vc : (b : Ref sig .tc) → Buf (Elt F) ((c.tc : Thread nD τ).loc b)) (O : CellTallies nD τ sig (HIx 1)) : sProp 𝕄 :=
  iprop(boundary (SparseCore.T c) ∗ (bigSep regOps fun b => ((c.tc : Thread nD τ).loc b) ↦{fullShare} Vc b)
    ∗ (featsLoc c ↦{fullShare} FEATS c)
    ∗ (∃ EW : Buf (Elt F) (ewLoc c), ⌜∀ (r : Fin 2500) (j : Fin 128),
          EW (ix2 (⟨r.val, by omega⟩ : Fin 2560) j) = FloatOps.mulf (Vc main_v5 (ix2 r j)) (Vc main_v6 (ix2 r j))⌝ ∗ ewLoc c ↦{fullShare} EW)
    ∗ owesPart (F := F) c O)

def argRefs : Finset (Ref sig .tc) :=
  {main_arg0, main_arg1, main_arg2, main_arg3, main_arg4, main_arg5, main_arg6, main_arg7, main_arg8, main_arg9}

def FIN (d : Dev nD) : sProp 𝕄 :=
  iprop((bigSep argRefs fun b => ((SparseCore.T d).loc b) ↦{fullShare} argAt m d b)
    ∗ ∃ f : Buf (Elt F) ((SparseCore.T d).loc main_v12),
        ⌜∀ (n : Fin 10000) (o : Fin 128), f (ix3 (0 : Fin 1) n o) = outVal (opsOf m FEATS) d (ix2 (⟨n.val, by omega⟩ : Fin 10240) o)⌝
        ∗ ((SparseCore.T d).loc main_v12) ↦{fullShare} f)

def fq (d : Dev nD) (s' : Phys nD τ sig (Elt F)) : Prop :=
  (∀ (n : Fin 10000) (o : Fin 128),
      s'.mem.mem ((SparseCore.T d).loc main_v12) (ix3 (0 : Fin 1) n o) = outVal (opsOf m FEATS) d (ix2 (⟨n.val, by omega⟩ : Fin 10240) o))
    ∧ ∀ b ∈ argRefs, s'.mem.mem ((SparseCore.T d).loc b) = argAt m d b

def QC : PUnit × MemSt nD τ sig (Elt F) → Prop := fun r => ∀ c : Dev nD,
  (∀ (n : Fin 10000) (o : Fin 128),
      r.2.mem ((c.tc : Thread nD τ).loc main_v12) (ix3 (0 : Fin 1) n o) = outVal (opsOf m FEATS) c (ix2 (⟨n.val, by omega⟩ : Fin 10240) o))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)

end Cert.Proof.KB

end
-- ==== Proof.KB.MainParts.lean ====
import proofs.«204698_g79517024518204_fold_wed_m_581_46_alg».proof.Proof.KB.MainDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

omit [FloatOps F] in
theorem orowSet_eq_part (w : Fin 32) : orowSet w = (orows w).set := by
  show ((View.whole (main_v10_scv : Ref sig .scVector)).slice (orows w)).set = _
  rw [View.set_slice]; exact Finset.map_refl

omit [FloatOps F] in

theorem orowC_disjoint : Disjoint (orowSetC 0) (orowSetC 1) := by
  unfold orowSetC
  rw [Finset.disjoint_biUnion_left]; intro i _
  rw [Finset.disjoint_biUnion_right]; intro i' _
  rw [orowSet_eq_part, orowSet_eq_part]
  refine Rect.part_disjoint hdiv32 fun e => ?_
  have := congrArg Fin.val e
  simp only [wid, Fin.val_zero, Fin.val_one] at this
  omega

omit [FloatOps F] in

theorem orowC_cover : orowSetC 0 ∪ orowSetC 1 = Finset.univ := by
  refine Finset.eq_univ_of_forall fun j => ?_
  have hj : j ∈ (Finset.univ : Finset (Fin 32)).biUnion fun w => (orows w).set := by
    rw [Rect.biUnion_part hdiv32]; exact Finset.mem_univ j
  obtain ⟨w, -, hw⟩ := Finset.mem_biUnion.mp hj
  rw [← orowSet_eq_part] at hw
  rcases Nat.mod_two_eq_zero_or_one w.val with h | h
  · have hwid : w = wid 0 ⟨w.val / 2, by omega⟩ := Fin.ext (by simp only [wid, Fin.val_zero]; omega)
    rw [hwid] at hw
    exact Finset.mem_union_left _ (Finset.mem_biUnion.mpr ⟨_, Finset.mem_univ _, hw⟩)
  · have hwid : w = wid 1 ⟨w.val / 2, by omega⟩ := Fin.ext (by simp only [wid, Fin.val_one]; omega)
    rw [hwid] at hw
    exact Finset.mem_union_right _ (Finset.mem_biUnion.mpr ⟨_, Finset.mem_univ _, hw⟩)

omit [FloatOps F] in
theorem hshare_zero : hshare 0 = (fullShare : PosShare TreeShare).left := rfl
omit [FloatOps F] in
theorem hshare_one : hshare 1 = (fullShare : PosShare TreeShare).right := rfl

omit [FloatOps F] in

theorem whole_halves {ℓ : Loc nD τ sig} (f : Buf (Elt F) ℓ) :
    (ℓ ↦{fullShare} f : sProp 𝕄) ⊣⊢ iprop((ℓ ↦{hshare 0} f) ∗ ℓ ↦{hshare 1} f) := by
  rw [hshare_zero, hshare_one]
  exact pointsTo_share (PosShare.mem_left_op_right fullShare)

theorem bigSep_cores (Φ : Fin 2 → sProp 𝕄) :
    (bigSep Finset.univ fun c : Fin ((K (F := F)).nCore 0) => Φ (Fin.cast nCore_zero c)) = iprop(Φ 0 ∗ Φ 1) := by
  have h : (bigSep Finset.univ fun c : Fin ((K (F := F)).nCore 0) => Φ (Fin.cast nCore_zero c)) = bigSep Finset.univ Φ :=
    bigSep_congr fun _ _ => congrArg Φ (Fin.ext rfl)
  rw [h, show (Finset.univ : Finset (Fin 2)) = {0, 1} from by decide, SparseCore.bigSep_insert' (by decide), bigSep_singleton]

omit [FloatOps F] in

theorem outPts_cores (d : Dev nD) (f : Buf (Elt F) (outLoc d)) :
    (outLoc d ↦{fullShare} f : sProp 𝕄) ⊣⊢ iprop((outLoc d ↦[orowSetC 0]{fullShare} f) ∗ outLoc d ↦[orowSetC 1]{fullShare} f) := by
  have h : (outLoc d ↦[orowSetC 0 ∪ orowSetC 1]{fullShare} f : sProp 𝕄)
      ⊣⊢ iprop((outLoc d ↦[orowSetC 0]{fullShare} f) ∗ outLoc d ↦[orowSetC 1]{fullShare} f) := pointsTo_union orowC_disjoint
  rw [orowC_cover] at h
  exact h

omit [FloatOps F] in

theorem out_join (d : Dev nD) (f0 f1 : Buf (Elt F) (outLoc d)) :
    iprop((outLoc d ↦[orowSetC 0]{fullShare} f0) ∗ outLoc d ↦[orowSetC 1]{fullShare} f1)
      ⊢ (outLoc d ↦{fullShare} ((orowSetC 1).piecewise f1 f0) : sProp 𝕄) := by
  have h : iprop((outLoc d ↦[orowSetC 0]{fullShare} f0) ∗ outLoc d ↦[orowSetC 1]{fullShare} f1)
      ⊢ (outLoc d ↦[orowSetC 0 ∪ orowSetC 1]{fullShare} ((orowSetC 1).piecewise f1 f0) : sProp 𝕄) := pointsTo_join orowC_disjoint
  rw [orowC_cover] at h
  exact h

variable (m : (ℓ : Loc nD τ sig) → Buf (Elt F) ℓ) (FEATS : (d : Dev nD) → Buf (Elt F) (featsLoc d))

abbrev stC (d : Dev nD) (c : Fin 2) : sProp 𝕄 :=
  iprop(featsPts (opsOf m FEATS) d (hshare c) ∗ idxPts (opsOf m FEATS) d (hshare c) ∗ ewPts (opsOf m FEATS) d (hshare c)
    ∗ outLoc d ↦[orowSetC c]{fullShare} (opsOf m FEATS).fo d)
abbrev dnC (d : Dev nD) (c : Fin 2) : sProp 𝕄 :=
  iprop(featsPts (opsOf m FEATS) d (hshare c) ∗ idxPts (opsOf m FEATS) d (hshare c) ∗ ewPts (opsOf m FEATS) d (hshare c)
    ∗ outDonePts (opsOf m FEATS) d (orowSetC c))

theorem st_cores (d : Dev nD) :
    (bigSep Finset.univ fun c : Fin ((K (F := F)).nCore 0) => (P (opsOf m FEATS)).st 0 d c : sProp 𝕄) = iprop(stC m FEATS d 0 ∗ stC m FEATS d 1) :=
  bigSep_cores (F := F) (fun c => stC m FEATS d c)
theorem dn_cores (d : Dev nD) :
    (bigSep Finset.univ fun c : Fin ((K (F := F)).nCore 0) => (P (opsOf m FEATS)).dn 0 d c : sProp 𝕄) = iprop(dnC m FEATS d 0 ∗ dnC m FEATS d 1) :=
  bigSep_cores (F := F) (fun c => dnC m FEATS d c)

theorem call_handover (d : Dev nD) (EW : Buf (Elt F) (ewLoc d)) (hEW : ∀ j : S2560x128.Idx, (j 0).val < 2500 → EW j = feOf m d j) :
    iprop((featsLoc d ↦{fullShare} FEATS d) ∗ (idxLoc d ↦{fullShare} fiOf m d) ∗ (ewLoc d ↦{fullShare} EW) ∗ (outLoc d ↦{fullShare} m (outLoc d)))
      ⊢ (bigSep Finset.univ fun c : Fin ((K (F := F)).nCore 0) => (P (opsOf m FEATS)).st 0 d c : sProp 𝕄) := by
  rw [st_cores]
  iintro ⟨Hf, Hi, He, Ho⟩
  ihave Hf' := (whole_halves (F := F) (FEATS d)).1 $$ Hf
  icases Hf' with ⟨Hf0, Hf1⟩
  ihave Hi' := (whole_halves (F := F) (fiOf m d)).1 $$ Hi
  icases Hi' with ⟨Hi0, Hi1⟩
  ihave He' := (whole_halves (F := F) EW).1 $$ He
  icases He' with ⟨He0, He1⟩
  ihave Ho' := (outPts_cores (F := F) d (m (outLoc d))).1 $$ Ho
  icases Ho' with ⟨Ho0, Ho1⟩
  isplitl [Hf0 Hi0 He0 Ho0]
  · isplitl [Hf0]; · iexact Hf0
    isplitl [Hi0]; · iexact Hi0
    isplitl [He0]
    · iexists EW; isplitr; · ipureintro; exact hEW
      iexact He0
    iexact Ho0
  · isplitl [Hf1]; · iexact Hf1
    isplitl [Hi1]; · iexact Hi1
    isplitl [He1]
    · iexists EW; isplitr; · ipureintro; exact hEW
      iexact He1
    iexact Ho1

theorem call_return (d : Dev nD) :
    (bigSep Finset.univ fun c : Fin ((K (F := F)).nCore 0) => (P (opsOf m FEATS)).dn 0 d c : sProp 𝕄)
      ⊢ iprop(∃ fo : Buf (Elt F) (outLoc d), ⌜∀ j : S10240x128.Idx, (j 0).val < 10000 → fo j = outVal (opsOf m FEATS) d j⌝ ∗ outLoc d ↦{fullShare} fo) := by
  rw [dn_cores]
  iintro ⟨⟨-, -, -, %f0, %h0, Ho0⟩, ⟨-, -, -, %f1, %h1, Ho1⟩⟩
  iexists (orowSetC 1).piecewise f1 f0
  isplitr
  · ipureintro
    intro j hj
    by_cases hm : j ∈ orowSetC 1
    · rw [Finset.piecewise_eq_of_mem _ _ _ hm]; exact h1 j hm hj
    · rw [Finset.piecewise_eq_of_notMem _ _ _ hm]
      have hu : j ∈ orowSetC 0 ∪ orowSetC 1 := by rw [orowC_cover]; exact Finset.mem_univ j
      exact h0 j ((Finset.mem_union.mp hu).resolve_right hm) hj
  · iapply (out_join (F := F) d f0 f1)
    isplitl [Ho0] <;> iassumption

end Cert.Proof.KB

end
-- ==== Proof.KB.OutChunks.lean ====
import proofs.«204698_g79517024518204_fold_wed_m_581_46_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "outV" => (Memref.whole Cert.Kernel.main_v10_scv : Memref Cert.Kernel.sig Kind.scVector Space.hbm Cert.Kernel.S10240x128 EltTy.f32)

omit [FloatOps F] in
theorem grid_bound_zero : grid1.bound 0 = 2 := rfl
omit [FloatOps F] in
theorem grid_bound_one : grid1.bound 1 = 16 := rfl

local notation "cV[" L "]" => Fin.castLE hcore1 (L 0)
local notation "jV[" L "]" => Fin.castLE hsub1 (L 1)
local notation "wL[" L "]" => wid (Fin.cast grid_bound_zero (L 0)) (Fin.cast grid_bound_one (L 1))

omit [FloatOps F] in

theorem oc_trips_eq : k1_t1_loop.trips = 80 := by decide

abbrev outA (L : grid1.Coords) (k : Fin k1_t1_loop.trips) : Memref sig .scVector .hbm S2x128 .f32 :=
  (outV).slice (Rect.unit (s := S10240x128) (k1_off7 L k) S2x128.size (k1_off7_inb L k)) (fun _ => rfl)

abbrev outB (L : grid1.Coords) (k : Fin k1_t1_loop.trips) : Memref sig .scVector .hbm S2x128 .f32 :=
  (outV).slice (Rect.unit (s := S10240x128) (k1_off5 L k) S2x128.size (k1_off5_inb L k)) (fun _ => rfl)

variable (L : grid1.Coords)

omit [FloatOps F] in

theorem wL_val : (wL[L]).val = 2 * (L 1).val + (L 0).val := rfl

omit [FloatOps F] in

theorem mem_orowSet_iff (w : Fin 32) (j : S10240x128.Idx) :
    j ∈ orowSet w ↔ 320 * w.val ≤ (j 0).val ∧ (j 0).val < 320 * w.val + 320 := by
  rw [show orowSet w = (orows w).set from View.set_slice_whole _ _, Rect.mem_set_unit]
  constructor
  · intro h
    have h0 := h 0
    simp [Shape.partIx, Shape.partSize] at h0
    omega
  · intro h a
    match a with
    | 0 => simp [Shape.partIx, Shape.partSize]; omega
    | 1 => simp [Shape.partIx, Shape.partSize]; exact (j 1).isLt

omit [FloatOps F] in

theorem mem_outA (k : Fin k1_t1_loop.trips) (j : S10240x128.Idx) :
    j ∈ (outA L k).view.set ↔ (j 0).val = 320 * (wL[L]).val + 4 * k.val ∨ (j 0).val = 320 * (wL[L]).val + 4 * k.val + 1 := by
  show j ∈ ((outV).view.slice (Rect.unit (s := S10240x128) (k1_off7 L k) S2x128.size (k1_off7_inb L k))).set ↔ _
  rw [View.set_slice_whole, Rect.mem_set_unit, k1_off7_eq, wL_val]
  constructor
  · intro h
    have h0 := h 0
    simp at h0
    omega
  · intro h a
    match a with
    | 0 => simp; omega
    | 1 => simp; exact (j 1).isLt

omit [FloatOps F] in

theorem mem_outB (k : Fin k1_t1_loop.trips) (j : S10240x128.Idx) :
    j ∈ (outB L k).view.set ↔ (j 0).val = 320 * (wL[L]).val + 4 * k.val + 2 ∨ (j 0).val = 320 * (wL[L]).val + 4 * k.val + 3 := by
  show j ∈ ((outV).view.slice (Rect.unit (s := S10240x128) (k1_off5 L k) S2x128.size (k1_off5_inb L k))).set ↔ _
  rw [View.set_slice_whole, Rect.mem_set_unit, k1_off5_eq, wL_val]
  constructor
  · intro h
    have h0 := h 0
    simp at h0
    omega
  · intro h a
    match a with
    | 0 => simp; omega
    | 1 => simp; exact (j 1).isLt

omit [FloatOps F] in

theorem outAB_disjoint (k : Fin k1_t1_loop.trips) : Disjoint (outA L k).view.set (outB L k).view.set :=
  Finset.disjoint_left.mpr fun j hA hB => by
    rw [mem_outA] at hA; rw [mem_outB] at hB; omega

omit [FloatOps F] in

theorem outChunk_disjoint : ∀ k ∈ (Finset.univ : Finset (Fin k1_t1_loop.trips)), ∀ k' ∈ (Finset.univ : Finset (Fin k1_t1_loop.trips)), k ≠ k' →
    Disjoint ((outA L k).view.set ∪ (outB L k).view.set) ((outA L k').view.set ∪ (outB L k').view.set) :=
  fun k _ k' _ hne => Finset.disjoint_left.mpr fun j h h' => by
    rw [Finset.mem_union, mem_outA, mem_outB] at h h'
    have : k.val ≠ k'.val := fun e => hne (Fin.ext e)
    omega

omit [FloatOps F] in

theorem outChunk_cover :
    (Finset.univ : Finset (Fin k1_t1_loop.trips)).biUnion (fun k => (outA L k).view.set ∪ (outB L k).view.set) = orowSet wL[L] := by
  ext j
  rw [mem_orowSet_iff, Finset.mem_biUnion]
  constructor
  · rintro ⟨k, -, hk⟩
    have hk80 : k.val < 80 := oc_trips_eq ▸ k.isLt
    rw [Finset.mem_union, mem_outA, mem_outB] at hk
    omega
  · rintro ⟨h1, h2⟩
    refine ⟨⟨((j 0).val - 320 * (wL[L]).val) / 4, by rw [oc_trips_eq]; omega⟩, Finset.mem_univ _, ?_⟩
    rw [Finset.mem_union, mem_outA, mem_outB]
    dsimp only
    omega

theorem out_chunks (d : Dev nD) (q : PosShare TreeShare) (f : Buf (Elt F) (outLoc d)) :
    (outLoc d ↦[orowSet wL[L]]{q} f : sProp 𝕄)
      = bigSep Finset.univ fun k : Fin k1_t1_loop.trips =>
          iprop(((outA L k).view.loc (V d cV[L] jV[L]) ↦[(outA L k).view.set]{q} f)
            ∗ ((outB L k).view.loc (V d cV[L] jV[L]) ↦[(outB L k).view.set]{q} f)) := by
  rw [← outChunk_cover L, pointsTo_biUnion Finset.univ (ℓ := outLoc d) _ (outChunk_disjoint L)]
  refine bigSep_congr fun k _ => ?_
  have hu : (outLoc d ↦[(outA L k).view.set ∪ (outB L k).view.set]{q} f : sProp 𝕄)
      ⊣⊢ iprop((outLoc d ↦[(outA L k).view.set]{q} f) ∗ outLoc d ↦[(outB L k).view.set]{q} f) := pointsTo_union (outAB_disjoint L k)
  exact BI.equiv_iff.mp ⟨hu.1, hu.2⟩

section Steps
variable {M : Type _} [URA M] {n : ℕ} (Φ : Fin n → sProp M)

omit [FloatOps F] in

theorem bigSep_ge_step (t : ℕ) (h : t < n) :
    bigSep (Finset.univ.filter fun k : Fin n => t ≤ k.val) Φ
      = iprop(Φ ⟨t, h⟩ ∗ bigSep (Finset.univ.filter fun k : Fin n => t + 1 ≤ k.val) Φ) := by
  have hs : (Finset.univ.filter fun k : Fin n => t ≤ k.val) = insert ⟨t, h⟩ (Finset.univ.filter fun k : Fin n => t + 1 ≤ k.val) := by
    ext k
    simp only [Finset.mem_filter, Finset.mem_univ, true_and, Finset.mem_insert, Fin.ext_iff]
    omega
  rw [hs, bigSep_insert (by simp only [Finset.mem_filter, Finset.mem_univ, true_and]; omega)]
  rfl

omit [FloatOps F] in

theorem bigSep_lt_step (t : ℕ) (h : t < n) :
    bigSep (Finset.univ.filter fun k : Fin n => k.val < t + 1) Φ
      = iprop(Φ ⟨t, h⟩ ∗ bigSep (Finset.univ.filter fun k : Fin n => k.val < t) Φ) := by
  have hs : (Finset.univ.filter fun k : Fin n => k.val < t + 1) = insert ⟨t, h⟩ (Finset.univ.filter fun k : Fin n => k.val < t) := by
    ext k
    simp only [Finset.mem_filter, Finset.mem_univ, true_and, Finset.mem_insert, Fin.ext_iff]
    omega
  rw [hs, bigSep_insert (by simp only [Finset.mem_filter, Finset.mem_univ, true_and]; omega)]
  rfl

omit [FloatOps F] in

theorem bigSep_lt_pred (t : ℕ) (ht : 1 ≤ t) (h : t - 1 < n) :
    bigSep (Finset.univ.filter fun k : Fin n => k.val < t) Φ
      = iprop(Φ ⟨t - 1, h⟩ ∗ bigSep (Finset.univ.filter fun k : Fin n => k.val < t - 1) Φ) := by
  have e : (Finset.univ.filter fun k : Fin n => k.val < t) = Finset.univ.filter fun k : Fin n => k.val < t - 1 + 1 := by
    rw [Nat.sub_add_cancel ht]
  rw [e, bigSep_lt_step Φ (t - 1) h]

omit [FloatOps F] in

theorem bigSep_ge_zero : bigSep (Finset.univ.filter fun k : Fin n => 0 ≤ k.val) Φ = bigSep Finset.univ Φ := by
  rw [Finset.filter_true_of_mem fun k _ => Nat.zero_le k.val]

omit [FloatOps F] in

theorem bigSep_lt_zero : bigSep (Finset.univ.filter fun k : Fin n => k.val < 0) Φ = (iprop(emp) : sProp M) := by
  rw [Finset.filter_false_of_mem fun k _ => Nat.not_lt_zero k.val]; rfl

omit [FloatOps F] in

theorem bigSep_ge_end : bigSep (Finset.univ.filter fun k : Fin n => n ≤ k.val) Φ = (iprop(emp) : sProp M) := by
  rw [Finset.filter_false_of_mem fun k _ => Nat.not_le.mpr k.isLt]; rfl

omit [FloatOps F] in

theorem bigSep_lt_end : bigSep (Finset.univ.filter fun k : Fin n => k.val < n) Φ = bigSep Finset.univ Φ := by
  rw [Finset.filter_true_of_mem fun k _ => k.isLt]

end Steps

section Trips
variable {M : Type _} [URA M] (Φ : Fin k1_t1_loop.trips → sProp M)

omit [FloatOps F] in
theorem trips_ge_step (t : ℕ) (h : t < 80) :
    bigSep (Finset.univ.filter fun k : Fin k1_t1_loop.trips => t ≤ k.val) Φ
      = iprop(Φ ⟨t, h⟩ ∗ bigSep (Finset.univ.filter fun k : Fin k1_t1_loop.trips => t + 1 ≤ k.val) Φ) :=
  bigSep_ge_step Φ t h
omit [FloatOps F] in
theorem trips_lt_step (t : ℕ) (h : t < 80) :
    bigSep (Finset.univ.filter fun k : Fin k1_t1_loop.trips => k.val < t + 1) Φ
      = iprop(Φ ⟨t, h⟩ ∗ bigSep (Finset.univ.filter fun k : Fin k1_t1_loop.trips => k.val < t) Φ) :=
  bigSep_lt_step Φ t h
omit [FloatOps F] in
theorem trips_lt_pred (t : ℕ) (ht : 1 ≤ t) (h : t - 1 < 80) :
    bigSep (Finset.univ.filter fun k : Fin k1_t1_loop.trips => k.val < t) Φ
      = iprop(Φ ⟨t - 1, h⟩ ∗ bigSep (Finset.univ.filter fun k : Fin k1_t1_loop.trips => k.val < t - 1) Φ) :=
  bigSep_lt_pred Φ t ht h
omit [FloatOps F] in
theorem trips_ge_zero : bigSep (Finset.univ.filter fun k : Fin k1_t1_loop.trips => 0 ≤ k.val) Φ = bigSep Finset.univ Φ :=
  bigSep_ge_zero Φ
omit [FloatOps F] in
theorem trips_lt_zero : bigSep (Finset.univ.filter fun k : Fin k1_t1_loop.trips => k.val < 0) Φ = (iprop(emp) : sProp M) :=
  bigSep_lt_zero Φ
omit [FloatOps F] in
theorem trips_ge_end : bigSep (Finset.univ.filter fun k : Fin k1_t1_loop.trips => 80 ≤ k.val) Φ = (iprop(emp) : sProp M) :=
  bigSep_ge_end Φ
omit [FloatOps F] in
theorem trips_lt_end : bigSep (Finset.univ.filter fun k : Fin k1_t1_loop.trips => k.val < 80) Φ = bigSep Finset.univ Φ :=
  bigSep_lt_end Φ

end Trips

end Cert.Proof.KB

end
-- ==== Proof.KB.DoneJoin.lean ====
import proofs.«204698_g79517024518204_fold_wed_m_581_46_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (A : Ops F) (d : Dev nD) (L : grid1.Coords)

abbrev outM (off : Fin 2 → Nat) (h : ∀ a, off a + S2x128.size a ≤ S10240x128.size a) : Memref sig .scVector .hbm S2x128 .f32 :=
  (Memref.whole main_v10_scv : Memref sig .scVector .hbm S10240x128 .f32).slice (Rect.unit (s := S10240x128) off S2x128.size h) (fun _ => rfl)

def doneChunk (off : Fin 2 → Nat) (h : ∀ a, off a + S2x128.size a ≤ S10240x128.size a) : sProp 𝕄 :=
  iprop(∃ f : Buf (Elt F) (outLoc d), ⌜∀ j ∈ (outM off h).view.set, (j 0).val < 10000 → f j = outVal A d j⌝
    ∗ (outM off h).view.loc (V d ((L 0).castLE hcore1) ((L 1).castLE hsub1)) ↦[(outM off h).view.set]{fullShare} f)

def donePair (k : Fin k1_t1_loop.trips) : sProp 𝕄 :=
  iprop(doneChunk A d L (k1_off7 L k) (k1_off7_inb L k) ∗ doneChunk A d L (k1_off5 L k) (k1_off5_inb L k))

abbrev setA (k : Fin k1_t1_loop.trips) : Finset S10240x128.Idx := (outM (k1_off7 L k) (k1_off7_inb L k)).view.set
abbrev setB (k : Fin k1_t1_loop.trips) : Finset S10240x128.Idx := (outM (k1_off5 L k) (k1_off5_inb L k)).view.set

theorem join_done {T : Type} [DecidableEq T] {ℓ : Loc nD τ sig} {q : PosShare TreeShare} (Sx : Finset T) (Kx : T → Finset (Idx ℓ))
    (v : Buf (Elt F) ℓ) (C : Idx ℓ → Prop) (f₀ : Buf (Elt F) ℓ)
    (h : ∀ t ∈ Sx, ∀ t' ∈ Sx, t ≠ t' → Disjoint (Kx t) (Kx t')) :
    bigSep Sx (fun t => (iprop(∃ f : Buf (Elt F) ℓ, ⌜∀ j ∈ Kx t, C j → f j = v j⌝ ∗ ℓ ↦[Kx t]{q} f) : sProp 𝕄))
      ⊢ (iprop(∃ g : Buf (Elt F) ℓ, ⌜∀ j ∈ Sx.biUnion Kx, C j → g j = v j⌝ ∗ ℓ ↦[Sx.biUnion Kx]{q} g) : sProp 𝕄) := by
  classical
  induction Sx using Finset.induction_on with
  | empty =>
    iintro -
    iexists f₀
    isplitr
    · ipureintro; intro j hj; exact absurd hj (Finset.notMem_empty j)
    · rw [Finset.biUnion_empty, pointsTo_empty]; iempintro
  | insert t Sx ht ih =>
    rw [SparseCore.bigSep_insert' ht, Finset.biUnion_insert]
    have hd : Disjoint (Kx t) (Sx.biUnion Kx) :=
      (Finset.disjoint_biUnion_right _ _ _).mpr fun t' ht' =>
        h t (Finset.mem_insert_self _ _) t' (Finset.mem_insert_of_mem ht') (fun e => ht (e ▸ ht'))
    iintro ⟨⟨%f, %hf, Ht⟩, HS⟩
    ihave H := (ih fun t₁ h₁ t₂ h₂ => h t₁ (Finset.mem_insert_of_mem h₁) t₂ (Finset.mem_insert_of_mem h₂)) $$ HS
    icases H with ⟨%g, %hg, HS⟩
    iexists (Sx.biUnion Kx).piecewise g f
    isplitr
    · ipureintro
      intro j hj hC
      by_cases hm : j ∈ Sx.biUnion Kx
      · rw [Finset.piecewise_eq_of_mem _ _ _ hm]; exact hg j hm hC
      · rw [Finset.piecewise_eq_of_notMem _ _ _ hm]
        rcases Finset.mem_union.mp hj with h1 | h1
        · exact hf j h1 hC
        · exact absurd h1 hm
    · iapply (pointsTo_join hd)
      isplitl [Ht]; · iexact Ht
      iexact HS

theorem chunksA_join (hA : ∀ k k' : Fin k1_t1_loop.trips, k ≠ k' → Disjoint (setA L k) (setA L k')) :
    (bigSep Finset.univ fun k : Fin k1_t1_loop.trips => doneChunk A d L (k1_off7 L k) (k1_off7_inb L k))
      ⊢ (iprop(∃ g : Buf (Elt F) (outLoc d), ⌜∀ j ∈ Finset.univ.biUnion (setA L), (j 0).val < 10000 → g j = outVal A d j⌝
          ∗ outLoc d ↦[Finset.univ.biUnion (setA L)]{fullShare} g) : sProp 𝕄) :=
  join_done (ℓ := outLoc d) (q := fullShare) Finset.univ (setA L) (outVal A d) (fun j => (j 0).val < 10000) (A.fo d)
    fun k _ k' _ hne => hA k k' hne

theorem chunksB_join (hB : ∀ k k' : Fin k1_t1_loop.trips, k ≠ k' → Disjoint (setB L k) (setB L k')) :
    (bigSep Finset.univ fun k : Fin k1_t1_loop.trips => doneChunk A d L (k1_off5 L k) (k1_off5_inb L k))
      ⊢ (iprop(∃ g : Buf (Elt F) (outLoc d), ⌜∀ j ∈ Finset.univ.biUnion (setB L), (j 0).val < 10000 → g j = outVal A d j⌝
          ∗ outLoc d ↦[Finset.univ.biUnion (setB L)]{fullShare} g) : sProp 𝕄) :=
  join_done (ℓ := outLoc d) (q := fullShare) Finset.univ (setB L) (outVal A d) (fun j => (j 0).val < 10000) (A.fo d)
    fun k _ k' _ hne => hB k k' hne

theorem done_join_of (Sr : Finset S10240x128.Idx)
    (hA : ∀ k k' : Fin k1_t1_loop.trips, k ≠ k' → Disjoint (setA L k) (setA L k'))
    (hB : ∀ k k' : Fin k1_t1_loop.trips, k ≠ k' → Disjoint (setB L k) (setB L k'))
    (hAB : ∀ k k' : Fin k1_t1_loop.trips, Disjoint (setA L k) (setB L k'))
    (hcov : Finset.univ.biUnion (setA L) ∪ Finset.univ.biUnion (setB L) = Sr) :
    bigSep Finset.univ (donePair A d L) ⊢ outDonePts A d Sr := by
  have hd : Disjoint (Finset.univ.biUnion (setA L)) (Finset.univ.biUnion (setB L)) := by
    rw [Finset.disjoint_biUnion_left]; intro k _
    rw [Finset.disjoint_biUnion_right]; intro k' _
    exact hAB k k'
  unfold donePair
  rw [bigSep_sep']
  iintro ⟨HA, HB⟩
  ihave HA := (chunksA_join A d L hA) $$ HA
  icases HA with ⟨%gA, %hgA, HA⟩
  ihave HB := (chunksB_join A d L hB) $$ HB
  icases HB with ⟨%gB, %hgB, HB⟩
  ihave H := (pointsTo_join (ℓ := outLoc d) (q := fullShare) hd) $$ [HA HB]
  · isplitl [HA] <;> iassumption
  unfold outDonePts
  iexists (Finset.univ.biUnion (setB L)).piecewise gB gA
  isplitr
  · ipureintro
    intro j hj hC
    rw [← hcov] at hj
    by_cases hm : j ∈ Finset.univ.biUnion (setB L)
    · rw [Finset.piecewise_eq_of_mem _ _ _ hm]; exact hgB j hm hC
    · rw [Finset.piecewise_eq_of_notMem _ _ _ hm]
      rcases Finset.mem_union.mp hj with h1 | h1
      · exact hgA j h1 hC
      · exact absurd h1 hm
  · rw [← hcov]; iexact H

abbrev base (L : grid1.Coords) : ℕ := 640 * (L 1).val + 320 * (L 0).val

omit [FloatOps F] in
theorem trips80 : k1_t1_loop.trips = 80 := by decide

omit [FloatOps F] in
theorem mem_outM {off : Fin 2 → Nat} {h : ∀ a, off a + S2x128.size a ≤ S10240x128.size a} {j : S10240x128.Idx} :
    j ∈ (outM off h).view.set ↔ (off 0 ≤ (j 0).val ∧ (j 0).val < off 0 + 2) ∧ (off 1 ≤ (j 1).val ∧ (j 1).val < off 1 + 128) := by
  show j ∈ ((View.whole (main_v10_scv : Ref sig .scVector)).slice (Rect.unit (s := S10240x128) off S2x128.size h)).set ↔ _
  rw [View.set_slice_whole, Rect.mem_set_unit]
  exact ⟨fun H => ⟨H 0, H 1⟩, fun H x => match x with | ⟨0, _⟩ => H.1 | ⟨1, _⟩ => H.2⟩

omit [FloatOps F] in
theorem mem_setA (k : Fin k1_t1_loop.trips) (j : S10240x128.Idx) :
    j ∈ setA L k ↔ base L + 4 * k.val ≤ (j 0).val ∧ (j 0).val < base L + 4 * k.val + 2 := by
  have e0 : k1_off7 L k 0 = base L + 4 * k.val := by rw [k1_off7_eq]; rfl
  have e1 : k1_off7 L k 1 = 0 := by rw [k1_off7_eq]; rfl
  have h1 : (j 1).val < 128 := (j 1).isLt
  rw [mem_outM, e0, e1]
  exact ⟨fun H => H.1, fun H => ⟨H, Nat.zero_le _, by omega⟩⟩

omit [FloatOps F] in
theorem mem_setB (k : Fin k1_t1_loop.trips) (j : S10240x128.Idx) :
    j ∈ setB L k ↔ base L + 4 * k.val + 2 ≤ (j 0).val ∧ (j 0).val < base L + 4 * k.val + 4 := by
  have e0 : k1_off5 L k 0 = base L + 4 * k.val + 2 := by rw [k1_off5_eq]; rfl
  have e1 : k1_off5 L k 1 = 0 := by rw [k1_off5_eq]; rfl
  have h1 : (j 1).val < 128 := (j 1).isLt
  rw [mem_outM, e0, e1]
  exact ⟨fun H => ⟨H.1.1, by omega⟩, fun H => ⟨⟨H.1, by omega⟩, Nat.zero_le _, by omega⟩⟩

omit [FloatOps F] in
theorem mem_orowSet (w : Fin 32) (j : S10240x128.Idx) : j ∈ orowSet w ↔ 320 * w.val ≤ (j 0).val ∧ (j 0).val < 320 * w.val + 320 := by
  have h1 : (j 1).val < 128 := (j 1).isLt
  show j ∈ ((View.whole (main_v10_scv : Ref sig .scVector)).slice (orows w)).set ↔ _
  rw [View.set_slice_whole, Rect.mem_set_unit]
  constructor
  · intro H
    have h0 : w.val * 320 ≤ (j 0).val ∧ (j 0).val < w.val * 320 + 320 := H 0
    omega
  · intro H x
    match x with
    | ⟨0, _⟩ => exact (show w.val * 320 ≤ (j 0).val ∧ (j 0).val < w.val * 320 + 320 from by omega)
    | ⟨1, _⟩ => exact (show 0 * 128 ≤ (j 1).val ∧ (j 1).val < 0 * 128 + 128 from by omega)

omit [FloatOps F] in
theorem base_eq : base L = 320 * (wid (Fin.cast (rfl : grid1.bound 0 = 2) (L 0)) (Fin.cast (rfl : grid1.bound 1 = 16) (L 1))).val := by
  show 640 * (L 1).val + 320 * (L 0).val = 320 * (2 * (L 1).val + (L 0).val)
  omega

omit [FloatOps F] in
theorem setA_disjoint (k k' : Fin k1_t1_loop.trips) (hne : k ≠ k') : Disjoint (setA L k) (setA L k') := by
  rw [Finset.disjoint_left]; intro j hj hj'
  rw [mem_setA] at hj hj'
  have : k.val ≠ k'.val := fun e => hne (Fin.ext e)
  omega
omit [FloatOps F] in
theorem setB_disjoint (k k' : Fin k1_t1_loop.trips) (hne : k ≠ k') : Disjoint (setB L k) (setB L k') := by
  rw [Finset.disjoint_left]; intro j hj hj'
  rw [mem_setB] at hj hj'
  have : k.val ≠ k'.val := fun e => hne (Fin.ext e)
  omega
omit [FloatOps F] in
theorem setAB_disjoint (k k' : Fin k1_t1_loop.trips) : Disjoint (setA L k) (setB L k') := by
  rw [Finset.disjoint_left]; intro j hj hj'
  rw [mem_setA] at hj
  rw [mem_setB] at hj'
  omega

omit [FloatOps F] in

theorem sets_cover : Finset.univ.biUnion (setA L) ∪ Finset.univ.biUnion (setB L)
    = orowSet (wid (Fin.cast (rfl : grid1.bound 0 = 2) (L 0)) (Fin.cast (rfl : grid1.bound 1 = 16) (L 1))) := by
  ext j
  rw [Finset.mem_union, Finset.mem_biUnion, Finset.mem_biUnion, mem_orowSet, ← base_eq]
  constructor
  · rintro (⟨k, -, hk⟩ | ⟨k, -, hk⟩)
    · rw [mem_setA] at hk; have : k.val < 80 := lt_of_lt_of_eq k.isLt trips80; omega
    · rw [mem_setB] at hk; have : k.val < 80 := lt_of_lt_of_eq k.isLt trips80; omega
  · intro H
    have hk : ((j 0).val - base L) / 4 < k1_t1_loop.trips := by rw [trips80]; omega
    by_cases h2 : ((j 0).val - base L) % 4 < 2
    · refine Or.inl ⟨⟨_, hk⟩, Finset.mem_univ _, (mem_setA L _ j).mpr ?_⟩
      show base L + 4 * (((j 0).val - base L) / 4) ≤ (j 0).val ∧ (j 0).val < base L + 4 * (((j 0).val - base L) / 4) + 2
      omega
    · refine Or.inr ⟨⟨_, hk⟩, Finset.mem_univ _, (mem_setB L _ j).mpr ?_⟩
      show base L + 4 * (((j 0).val - base L) / 4) + 2 ≤ (j 0).val ∧ (j 0).val < base L + 4 * (((j 0).val - base L) / 4) + 4
      omega

theorem done_join :
    bigSep Finset.univ (donePair A d L)
      ⊢ outDonePts A d (orowSet (wid (Fin.cast (rfl : grid1.bound 0 = 2) (L 0)) (Fin.cast (rfl : grid1.bound 1 = 16) (L 1)))) :=
  done_join_of A d L _ (setA_disjoint L) (setB_disjoint L) (setAB_disjoint L) (sets_cover L)

theorem chunk_done (off : Fin 2 → Nat) (h : ∀ a, off a + S2x128.size a ≤ S10240x128.size a) (f : Buf (Elt F) (outLoc d))
    (hv : ∀ j ∈ (outM off h).view.set, (j 0).val < 10000 → f j = outVal A d j) :
    ((outM off h).view.loc (V d ((L 0).castLE hcore1) ((L 1).castLE hsub1)) ↦[(outM off h).view.set]{fullShare} f : sProp 𝕄)
      ⊢ doneChunk A d L off h := by
  unfold doneChunk
  iintro H
  iexists f
  isplitr
  · ipureintro; exact hv
  · iexact H

end Cert.Proof.KB

end
-- ==== Proof.KB.ChunkOK.lean ====
import proofs.«204698_g79517024518204_fold_wed_m_581_46_alg».proof.Proof.KB.Pay
import Idealize.ShloMosaic.Lib.Writes

noncomputable section

namespace Cert.Proof.KB

open Cert.Kernel Cert.Kernel.Gen
open Idealize.ShloMosaic

variable {F : FTy → Type} [FloatOps F]

variable (A : Ops F) (d : Dev nD)

def ChunkOK (off : Fin 2 → Nat) (h : ∀ a, off a + S2x128.size a ≤ S10240x128.size a) (w : S2x128.Idx → Elt F .f32) : Prop :=
  ∀ j ∈ ((Memref.whole main_v10_scv : Memref sig .scVector .hbm S10240x128 .f32).slice (Rect.unit (s := S10240x128) off S2x128.size h) (fun _ => rfl)).view.set, (j 0).val < 10000 →
    ((Memref.whole main_v10_scv : Memref sig .scVector .hbm S10240x128 .f32).slice (Rect.unit (s := S10240x128) off S2x128.size h) (fun _ => rfl)).view.writes (Elt F) (A.fo d) [⟨Rect.whole S2x128, w⟩] j = outVal A d j

theorem emb_pair (off : Fin 2 → Nat) (h : ∀ a, off a + S2x128.size a ≤ S10240x128.size a) (x : S2x128.Idx) :
    ((((Memref.whole main_v10_scv : Memref sig .scVector .hbm S10240x128 .f32).slice (Rect.unit (s := S10240x128) off S2x128.size h) (fun _ => rfl)).view.emb x) 0).val = off 0 + (x 0).val ∧ ((((Memref.whole main_v10_scv : Memref sig .scVector .hbm S10240x128 .f32).slice (Rect.unit (s := S10240x128) off S2x128.size h) (fun _ => rfl)).view.emb x) 1).val = off 1 + (x 1).val := by
  constructor
  · show off 0 + 1 * (x 0).val = off 0 + (x 0).val
    omega
  · show off 1 + 1 * (x 1).val = off 1 + (x 1).val
    omega

theorem chunkOK_intro (off : Fin 2 → Nat) (h : ∀ a, off a + S2x128.size a ≤ S10240x128.size a) (w : S2x128.Idx → Elt F .f32)
    (hw : ∀ x : S2x128.Idx, off 0 + (x 0).val < 10000 → w x = outVal A d (((Memref.whole main_v10_scv : Memref sig .scVector .hbm S10240x128 .f32).slice (Rect.unit (s := S10240x128) off S2x128.size h) (fun _ => rfl)).view.emb x)) :
    ChunkOK A d off h w := by
  intro j hj hlt
  obtain ⟨x, -, rfl⟩ := Finset.mem_map.mp hj
  have hx : off 0 + (x 0).val < 10000 := by rw [← (emb_pair off h x).1]; exact hlt
  have e : ((Memref.whole main_v10_scv : Memref sig .scVector .hbm S10240x128 .f32).slice (Rect.unit (s := S10240x128) off S2x128.size h) (fun _ => rfl)).view.emb x = (((Memref.whole main_v10_scv : Memref sig .scVector .hbm S10240x128 .f32).slice (Rect.unit (s := S10240x128) off S2x128.size h) (fun _ => rfl)).view.slice (Rect.whole S2x128)).emb x :=
    congrArg ((Memref.whole main_v10_scv : Memref sig .scVector .hbm S10240x128 .f32).slice (Rect.unit (s := S10240x128) off S2x128.size h) (fun _ => rfl)).view.emb (Rect.emb_whole_apply S2x128 x).symm
  rw [View.writes_singleton]
  conv_lhs => rw [e]
  rw [View.write_emb_of_mem _ _ (Finset.mem_univ x), cast_eq]
  exact hw x hx

end Cert.Proof.KB

end
-- ==== Proof.KB.UnfoldPrefix.lean ====
import Lean

open Lean Elab Tactic Meta Parser.Tactic

namespace Cert.Proof.KB

elab "unfold_prefix " pre:ident loc:(location)? : tactic => do
  let pfx := pre.getId
  let ns ← getCurrNamespace
  let rec enclosing : Name → List Name
    | .anonymous => [.anonymous]
    | n@(.str q _) => n :: enclosing q
    | n@(.num q _) => n :: enclosing q
  let cands := (enclosing ns).map (· ++ pfx)
  let p : Name → Bool := fun n => cands.any fun c => c.isPrefixOf n && n != c
  withLocation (expandOptLocation (Lean.mkOptionalNode loc))
    (atLocal := fun fv => do
      let g ← getMainGoal
      let t ← instantiateMVars (← fv.getType)
      let t' ← Meta.deltaExpand t p
      replaceMainGoal [← g.replaceLocalDeclDefEq fv t'])
    (atTarget := do
      let g ← getMainGoal
      let t ← instantiateMVars (← g.getType)
      let t' ← Meta.deltaExpand t p
      replaceMainGoal [← g.replaceTargetDefEq t'])
    (failed := fun _ => throwError "nothing to unfold")

end Cert.Proof.KB
-- ==== Proof.KB.Compute.lean ====
import proofs.«204698_g79517024518204_fold_wed_m_581_46_alg».proof.Proof.KB.Common
import Idealize.ShloMosaic.Lib.ValueLayout

noncomputable section

namespace Cert.Proof.KB

open Cert.Kernel Cert.Kernel.Gen
open Idealize.ShloMosaic Idealize.ShloMosaic.ValueIdx

variable {F : FTy → Type} [FloatOps F]

/-- The running sum after the first k edges: the self value, then weight times neighbour value, one edge at a time. -/
def foldAcc (s : F .f32) (w x : Fin 32 → F .f32) : (k : ℕ) → k ≤ 32 → F .f32
  | 0, _ => s
  | k + 1, h => FloatOps.addf (foldAcc s w x k (by omega)) (FloatOps.mulf (w ⟨k, by omega⟩) (x ⟨k, by omega⟩))

def foldStore (s : F .f32) (w x : Fin 32 → F .f32) : F .f32 :=
  FloatOps.maximumf (foldAcc s w x 32 le_rfl) (FloatOps.ofBits .f32 0x00000000#32)

/-- Edge k's weight is lane k mod 16 of the first (k < 16) or second weight vector. -/
def w32 (w0 w1 : Vec F S1x16 .f32) (k : Fin 32) : F .f32 :=
  if h : k.val < 16 then w0 (ix2 (0 : Fin 1) (⟨k.val, h⟩ : Fin 16)) else w1 (ix2 (0 : Fin 1) (⟨k.val - 16, by omega⟩ : Fin 16))

omit [FloatOps F] in
theorem lane_lt {k : ℕ} (h : S16.Slices ![k] S1) : k < 16 := by
  have := h.2 0
  simpa using this

theorem extract_lane (k : ℕ) (v : FVec F S16 .f32) (h : S16.Slices ![k] S1) (h' : ∀ a, (![0] : Fin S1.rank → ℕ) a < S1.size a) :
    extractAt ![0] (extractStridedSlice S1 ![k] v h) h' = v (ix1 (⟨k, lane_lt h⟩ : Fin 16)) := by
  unfold extractAt extractStridedSlice
  congr 1
  funext a
  have ha : a = 0 := Subsingleton.elim _ _
  subst ha
  rfl

omit [FloatOps F] in
theorem cast_row {α : Type} (x : S1x16.Idx → α) (h : S1x16.ShapeCasts S16) (l : Fin 16) : shapeCast S16 x h (ix1 l) = x (ix2 (0 : Fin 1) l) :=
  shapeCast_1a_a_apply x h l
omit [FloatOps F] in
theorem cast_block {α : Type} (v : S16.Idx → α) (h : S16.ShapeCasts S1x16) (l : Fin 16) : shapeCast S1x16 v h (ix2 (0 : Fin 1) l) = v (ix1 l) :=
  shapeCast_a_1a_apply v h 0 l

theorem addf_at {s : Shape} (a b : FVec F s .f32) (i : s.Idx) : addf a b i = FloatOps.addf (a i) (b i) := rfl
theorem mulf_at {s : Shape} (a b : FVec F s .f32) (i : s.Idx) : mulf a b i = FloatOps.mulf (a i) (b i) := rfl
theorem maximumf_at {s : Shape} (a b : FVec F s .f32) (i : s.Idx) : maximumf a b i = FloatOps.maximumf (a i) (b i) := rfl
theorem broadcast_at {s : Shape} {α : Type} (x : α) (i : s.Idx) : broadcast s x i = x := rfl

open Lean Elab Tactic Meta in
/-- Write a stored block out in the goal: the run's named words and the kernel's payload names replaced by their bodies. -/
elab "unfold_stores" : tactic => do
  let g ← getMainGoal
  let p : Name → Bool := fun n =>
    n.components.dropLast.any (· == `sl) || (n.isStr && n.getPrefix == `Cert.Kernel.Gen && n.getString!.startsWith "k1_pay")
  let mut t ← instantiateMVars (← g.getType)
  for _ in [0:6] do
    let t' ← Meta.deltaExpand t p
    if t' == t then break
    t := t'
  t ← Core.transform t (pre := fun e => match e with
    | .letE _ _ v b _ => return .visit (b.instantiate1 v)
    | _ => return .continue)
  t ← Core.betaReduce t
  replaceMainGoal [← g.replaceTargetDefEq t]

/-- Every vector operation acts lane by lane, so a stored block at a lane is the fold over the 35 blocks loaded for it. -/
theorem store_fold (s w0 w1 x0 x1 x2 x3 x4 x5 x6 x7 x8 x9 x10 x11 x12 x13 x14 x15 x16 x17 x18 x19 x20 x21 x22 x23 x24 x25 x26 x27 x28 x29 x30 x31 : Vec F S1x16 .f32) (l : Fin 16) :
    (shapeCast S1x16 (maximumf
      (addf (addf (addf (addf (addf (addf (addf (addf (addf (addf (addf (addf (addf (addf (addf (addf (addf (addf (addf (addf (addf (addf (addf (addf (addf (addf (addf (addf (addf (addf (addf (addf (shapeCast S16 s)
      (mulf (broadcast S16 (extractAt ![0] (extractStridedSlice S1 ![0] (shapeCast S16 w0)))) (shapeCast S16 x0)))
      (mulf (broadcast S16 (extractAt ![0] (extractStridedSlice S1 ![1] (shapeCast S16 w0)))) (shapeCast S16 x1)))
      (mulf (broadcast S16 (extractAt ![0] (extractStridedSlice S1 ![2] (shapeCast S16 w0)))) (shapeCast S16 x2)))
      (mulf (broadcast S16 (extractAt ![0] (extractStridedSlice S1 ![3] (shapeCast S16 w0)))) (shapeCast S16 x3)))
      (mulf (broadcast S16 (extractAt ![0] (extractStridedSlice S1 ![4] (shapeCast S16 w0)))) (shapeCast S16 x4)))
      (mulf (broadcast S16 (extractAt ![0] (extractStridedSlice S1 ![5] (shapeCast S16 w0)))) (shapeCast S16 x5)))
      (mulf (broadcast S16 (extractAt ![0] (extractStridedSlice S1 ![6] (shapeCast S16 w0)))) (shapeCast S16 x6)))
      (mulf (broadcast S16 (extractAt ![0] (extractStridedSlice S1 ![7] (shapeCast S16 w0)))) (shapeCast S16 x7)))
      (mulf (broadcast S16 (extractAt ![0] (extractStridedSlice S1 ![8] (shapeCast S16 w0)))) (shapeCast S16 x8)))
      (mulf (broadcast S16 (extractAt ![0] (extractStridedSlice S1 ![9] (shapeCast S16 w0)))) (shapeCast S16 x9)))
      (mulf (broadcast S16 (extractAt ![0] (extractStridedSlice S1 ![10] (shapeCast S16 w0)))) (shapeCast S16 x10)))
      (mulf (broadcast S16 (extractAt ![0] (extractStridedSlice S1 ![11] (shapeCast S16 w0)))) (shapeCast S16 x11)))
      (mulf (broadcast S16 (extractAt ![0] (extractStridedSlice S1 ![12] (shapeCast S16 w0)))) (shapeCast S16 x12)))
      (mulf (broadcast S16 (extractAt ![0] (extractStridedSlice S1 ![13] (shapeCast S16 w0)))) (shapeCast S16 x13)))
      (mulf (broadcast S16 (extractAt ![0] (extractStridedSlice S1 ![14] (shapeCast S16 w0)))) (shapeCast S16 x14)))
      (mulf (broadcast S16 (extractAt ![0] (extractStridedSlice S1 ![15] (shapeCast S16 w0)))) (shapeCast S16 x15)))
      (mulf (broadcast S16 (extractAt ![0] (extractStridedSlice S1 ![0] (shapeCast S16 w1)))) (shapeCast S16 x16)))
      (mulf (broadcast S16 (extractAt ![0] (extractStridedSlice S1 ![1] (shapeCast S16 w1)))) (shapeCast S16 x17)))
      (mulf (broadcast S16 (extractAt ![0] (extractStridedSlice S1 ![2] (shapeCast S16 w1)))) (shapeCast S16 x18)))
      (mulf (broadcast S16 (extractAt ![0] (extractStridedSlice S1 ![3] (shapeCast S16 w1)))) (shapeCast S16 x19)))
      (mulf (broadcast S16 (extractAt ![0] (extractStridedSlice S1 ![4] (shapeCast S16 w1)))) (shapeCast S16 x20)))
      (mulf (broadcast S16 (extractAt ![0] (extractStridedSlice S1 ![5] (shapeCast S16 w1)))) (shapeCast S16 x21)))
      (mulf (broadcast S16 (extractAt ![0] (extractStridedSlice S1 ![6] (shapeCast S16 w1)))) (shapeCast S16 x22)))
      (mulf (broadcast S16 (extractAt ![0] (extractStridedSlice S1 ![7] (shapeCast S16 w1)))) (shapeCast S16 x23)))
      (mulf (broadcast S16 (extractAt ![0] (extractStridedSlice S1 ![8] (shapeCast S16 w1)))) (shapeCast S16 x24)))
      (mulf (broadcast S16 (extractAt ![0] (extractStridedSlice S1 ![9] (shapeCast S16 w1)))) (shapeCast S16 x25)))
      (mulf (broadcast S16 (extractAt ![0] (extractStridedSlice S1 ![10] (shapeCast S16 w1)))) (shapeCast S16 x26)))
      (mulf (broadcast S16 (extractAt ![0] (extractStridedSlice S1 ![11] (shapeCast S16 w1)))) (shapeCast S16 x27)))
      (mulf (broadcast S16 (extractAt ![0] (extractStridedSlice S1 ![12] (shapeCast S16 w1)))) (shapeCast S16 x28)))
      (mulf (broadcast S16 (extractAt ![0] (extractStridedSlice S1 ![13] (shapeCast S16 w1)))) (shapeCast S16 x29)))
      (mulf (broadcast S16 (extractAt ![0] (extractStridedSlice S1 ![14] (shapeCast S16 w1)))) (shapeCast S16 x30)))
      (mulf (broadcast S16 (extractAt ![0] (extractStridedSlice S1 ![15] (shapeCast S16 w1)))) (shapeCast S16 x31)))
      (broadcast S16 (Scalar.ofBits .f32 0x00000000#32)))) (ix2 (0 : Fin 1) l)
      = foldStore (s (ix2 (0 : Fin 1) l)) (w32 w0 w1) (fun k => (![x0, x1, x2, x3, x4, x5, x6, x7, x8, x9, x10, x11, x12, x13, x14, x15, x16, x17, x18, x19, x20, x21, x22, x23, x24, x25, x26, x27, x28, x29, x30, x31] : Fin 32 → Vec F S1x16 .f32) k (ix2 (0 : Fin 1) l)) := by
  simp only [addf_at, mulf_at, maximumf_at, broadcast_at, extract_lane, cast_row, cast_block]
  rfl

end Cert.Proof.KB

end
-- ==== Proof.KB.TripValue.lean ====
import proofs.«204698_g79517024518204_fold_wed_m_581_46_alg».proof.Proof.KB.Compute

noncomputable section

namespace Cert.Proof.KB

open Cert.Kernel Cert.Kernel.Gen
open Idealize.ShloMosaic Idealize.ShloMosaic.ValueIdx

variable {F : FTy → Type} [FloatOps F]

def nodeRow (w : Fin 32) (c : Fin 160) (n : Fin 2) : Fin 10240 := ⟨320 * w.val + 2 * c.val + n.val, by omega⟩

def edgeRow (w : Fin 32) (c : Fin 160) : Fin 2560 := ⟨80 * w.val + c.val / 2, by omega⟩

def edgeCol (c : Fin 160) (n : Fin 2) (k : Fin 32) : Fin 128 := ⟨(c.val % 2) * 64 + 32 * n.val + k.val, by omega⟩

def laneCol (dd : Fin 8) (l : Fin 16) : Fin 128 := ⟨16 * dd.val + l.val, by omega⟩

theorem nodeRow_val (w : Fin 32) (c : Fin 160) (n : Fin 2) : (nodeRow w c n).val = 320 * w.val + 2 * c.val + n.val := rfl

theorem edge_div (w : Fin 32) (c : Fin 160) (n : Fin 2) (k : Fin 32) :
    (32 * (nodeRow w c n).val + k.val) / 128 = 80 * w.val + c.val / 2 := by
  rw [nodeRow_val]; omega

theorem edge_mod (w : Fin 32) (c : Fin 160) (n : Fin 2) (k : Fin 32) :
    (32 * (nodeRow w c n).val + k.val) % 128 = (c.val % 2) * 64 + 32 * n.val + k.val := by
  rw [nodeRow_val]; omega

theorem edgeRow_lt (w : Fin 32) (c : Fin 160) (n : Fin 2) (hr : (nodeRow w c n).val < 10000) : (edgeRow w c).val < 2500 := by
  rw [nodeRow_val] at hr
  show 80 * w.val + c.val / 2 < 2500
  omega

variable (A : Ops F)

theorem wAt_eq (d : Dev nD) (w : Fin 32) (c : Fin 160) (n : Fin 2) (k : Fin 32) :
    wAt A d (nodeRow w c n) k = A.fe d (ix2 (edgeRow w c) (edgeCol c n k)) := by
  unfold wAt
  congr 2
  · exact Fin.ext (edge_div w c n k)
  · exact Fin.ext (edge_mod w c n k)

theorem nbAt_eq (d : Dev nD) (w : Fin 32) (c : Fin 160) (n : Fin 2) (k : Fin 32) :
    (nbAt A d (nodeRow w c n) k).val = (A.fi d (ix2 (edgeRow w c) (edgeCol c n k))).toNat % 10240 := by
  unfold nbAt
  show (A.fi d (ix2 _ _)).toNat % 10240 = _
  congr 4
  · exact Fin.ext (edge_div w c n k)
  · exact Fin.ext (edge_mod w c n k)

theorem foldAcc_eq_accAt (d : Dev nD) (r : Fin 10240) (o : Fin 128) (s : F .f32) (wv x : Fin 32 → F .f32)
    (hs : s = A.ff d (ix2 r o)) (hw : ∀ k, wv k = wAt A d r k) (hx : ∀ k, x k = A.ff d (ix2 (nbAt A d r k) o)) :
    ∀ (k : ℕ) (h : k ≤ 32), foldAcc s wv x k h = accAt A d r o k h := by
  intro k
  induction k with
  | zero => intro h; exact hs
  | succ k ih =>
    intro h
    show FloatOps.addf (foldAcc s wv x k (by omega)) (FloatOps.mulf (wv ⟨k, by omega⟩) (x ⟨k, by omega⟩))
      = FloatOps.addf (accAt A d r o k (by omega)) (FloatOps.mulf (wAt A d r ⟨k, by omega⟩) (A.ff d (ix2 (nbAt A d r ⟨k, by omega⟩) o)))
    rw [ih, hw, hx]

theorem trip_store_value (d : Dev nD) (w : Fin 32) (c : Fin 160) (n : Fin 2) (dd : Fin 8) (l : Fin 16)
    (s w0 w1 : Vec F S1x16 .f32) (rows : Fin 32 → Vec F S1x16 .f32) (fe' : Buf (Elt F) (ewLoc d))
    (hs : s (ix2 (0 : Fin 1) l) = A.ff d (ix2 (nodeRow w c n) (laneCol dd l)))
    (hw0 : ∀ l' : Fin 16, w0 (ix2 (0 : Fin 1) l') = fe' (ix2 (edgeRow w c) (edgeCol c n ⟨l'.val, by omega⟩)))
    (hw1 : ∀ l' : Fin 16, w1 (ix2 (0 : Fin 1) l') = fe' (ix2 (edgeRow w c) (edgeCol c n ⟨16 + l'.val, by omega⟩)))
    (hfe : ∀ j : S2560x128.Idx, (j 0).val < 2500 → fe' j = A.fe d j) (hr : (nodeRow w c n).val < 10000)
    (hrows : ∀ k : Fin 32, rows k (ix2 (0 : Fin 1) l) = A.ff d (ix2 (nbAt A d (nodeRow w c n) k) (laneCol dd l))) :
    foldStore (s (ix2 (0 : Fin 1) l)) (w32 w0 w1) (fun k => rows k (ix2 (0 : Fin 1) l))
      = outVal A d (ix2 (nodeRow w c n) (laneCol dd l)) := by
  have hw : ∀ k : Fin 32, w32 w0 w1 k = wAt A d (nodeRow w c n) k := by
    intro k
    rw [wAt_eq, ← hfe _ (edgeRow_lt w c n hr)]
    unfold w32
    split
    · next h => rw [hw0 ⟨k.val, h⟩]
    · next h =>
      rw [hw1 ⟨k.val - 16, by omega⟩]
      congr 2
      exact Fin.ext (by show (c.val % 2) * 64 + 32 * n.val + (16 + (k.val - 16)) = (c.val % 2) * 64 + 32 * n.val + k.val; omega)
  show FloatOps.maximumf (foldAcc _ _ _ 32 le_rfl) _ = FloatOps.maximumf (accAt A d (nodeRow w c n) (laneCol dd l) 32 le_rfl) _
  rw [foldAcc_eq_accAt A d (nodeRow w c n) (laneCol dd l) _ _ _ hs hw hrows 32 le_rfl]

end Cert.Proof.KB

end
-- ==== Proof.KB.Offsets.lean ====
import proofs.«204698_g79517024518204_fold_wed_m_581_46_alg».proof.Proof.Gen.Kernel

namespace Cert.Proof.KB

open Cert.Kernel Cert.Kernel.Gen
open Idealize.ShloMosaic

theorem trips_eq : k1_t1_loop.trips = 80 := by decide +kernel

theorem k1_off4_eq : ∀ k : Fin k1_t1_loop.trips, k1_off4 k = ![k.val, 64] := by decide +kernel

theorem k1_off8_eq : ∀ k : Fin k1_t1_loop.trips, k1_off8 k = ![k.val + 1, 0] := by decide +kernel

theorem k1_off6_eq_0_0 : ∀ k : Fin k1_t1_loop.trips, k1_off6 k 0#32 0#32 = ![k.val, 0] := by decide +kernel
theorem k1_off6_eq_0_16 : ∀ k : Fin k1_t1_loop.trips, k1_off6 k 0#32 16#32 = ![k.val, 16] := by decide +kernel
theorem k1_off6_eq_32_0 : ∀ k : Fin k1_t1_loop.trips, k1_off6 k 32#32 0#32 = ![k.val, 32] := by decide +kernel
theorem k1_off6_eq_32_16 : ∀ k : Fin k1_t1_loop.trips, k1_off6 k 32#32 16#32 = ![k.val, 48] := by decide +kernel

theorem k1_off10_eq_0_0 : ∀ k : Fin k1_t1_loop.trips, k1_off10 k 0#32 0#32 = ![k.val, 64] := by decide +kernel
theorem k1_off10_eq_0_16 : ∀ k : Fin k1_t1_loop.trips, k1_off10 k 0#32 16#32 = ![k.val, 80] := by decide +kernel
theorem k1_off10_eq_32_0 : ∀ k : Fin k1_t1_loop.trips, k1_off10 k 32#32 0#32 = ![k.val, 96] := by decide +kernel
theorem k1_off10_eq_32_16 : ∀ k : Fin k1_t1_loop.trips, k1_off10 k 32#32 16#32 = ![k.val, 112] := by decide +kernel

end Cert.Proof.KB
-- ==== Proof.KB.Loads.lean ====
import proofs.«204698_g79517024518204_fold_wed_m_581_46_alg».proof.Proof.KB.TripValue
import proofs.«204698_g79517024518204_fold_wed_m_581_46_alg».proof.Proof.KB.Offsets
import Idealize.ShloMosaic.Lib.Exec.Geometry

noncomputable section

namespace Cert.Proof.KB

open Cert.Kernel Cert.Kernel.Gen
open Idealize.ShloMosaic Idealize.ShloMosaic.ValueIdx

section Generic
variable {sg : RefSig} {κ : Kind} {sp : Space} {s : Shape} {e : EltTy} {Val : EltTy → Type}

theorem readAt_unit_write_univ (v : View sg κ sp s e) (f : v.ty.Contents Val) (W : s.Idx → Val e) (off size : Fin s.rank → ℕ)
    (inb : ∀ a, off a + size a ≤ s.size a) (x : (Rect.unit off size inb).shape.Idx) :
    v.readAt Val (Rect.unit off size inb).toLoadRect (v.write Val f W Finset.univ) x = W ((Rect.unit off size inb).emb x) := by
  rw [View.readAt_apply, View.read_write_univ]
  rfl

theorem readAt_unit_writes_whole (v : View sg κ sp s e) (f : v.ty.Contents Val) (G : s.Idx → Val e) (off size : Fin s.rank → ℕ)
    (inb : ∀ a, off a + size a ≤ s.size a) (x : (Rect.unit off size inb).shape.Idx) :
    v.readAt Val (Rect.unit off size inb).toLoadRect (v.writes Val f [⟨Rect.whole s, G⟩]) x = G ((Rect.unit off size inb).emb x) := by
  rw [View.readAt_apply, View.read_writes_whole]
  rfl

end Generic

variable {F : FTy → Type} [FloatOps F]

def tileW (L : grid1.Coords) : Fin 32 :=
  ⟨2 * (L 1).val + (L 0).val, by
    have h0 : (L 0).val < 2 := (L 0).isLt
    have h1 : (L 1).val < 16 := (L 1).isLt
    omega⟩

omit [FloatOps F] in
theorem tileW_val (L : grid1.Coords) : (tileW L).val = 2 * (L 1).val + (L 0).val := rfl

abbrev ewRows (L : grid1.Coords) : Memref sig .scVector .hbm S80x128 .f32 :=
  (Memref.whole main_v7_1_scv).slice (Rect.unit (s := S2560x128) (k1_off2 L) S80x128.size (k1_off2_inb L)) (fun _ => rfl)
abbrev idxRows (L : grid1.Coords) : Memref sig .scVector .hbm S80x128 .i32 :=
  (Memref.whole main_v9_scv).slice (Rect.unit (s := S2560x128) (k1_off2 L) S80x128.size (k1_off2_inb L)) (fun _ => rfl)

theorem idx2_ext {R C : ℕ} (i j : (⟨2, ![R, C]⟩ : Shape).Idx) (h0 : (i 0).val = (j 0).val) (h1 : (i 1).val = (j 1).val) : i = j := by
  funext a
  match a with
  | ⟨0, _⟩ => exact Fin.ext h0
  | ⟨1, _⟩ => exact Fin.ext h1

theorem load_weights (d : Dev nD) (L : grid1.Coords) (f1 : (Memref.whole cc1_scratch1).view.ty.Contents (Elt F)) (fe : Buf (Elt F) (ewLoc d))
    (off : Fin 2 → ℕ) (inb : ∀ a, off a + S1x16.size a ≤ S80x128.size a) (r col : ℕ) (hoff : off = ![r, col])
    (hr : r < 80) (hc : col + 16 ≤ 128) (l : Fin 16) :
    (Memref.whole cc1_scratch1).view.readAt (Elt F) (Rect.unit (s := S80x128) off S1x16.size inb).toLoadRect
        (View.write (Elt F) (Memref.whole cc1_scratch1).view f1 ((ewRows L).view.read (Elt F) fe) Finset.univ) (ix2 (0 : Fin 1) l)
      = fe (ix2 (⟨80 * (tileW L).val + r, by have := (tileW L).isLt; omega⟩ : Fin 2560) (⟨col + l.val, by omega⟩ : Fin 128)) := by
  subst hoff
  rw [readAt_unit_write_univ]
  show fe _ = fe _
  congr 1
  apply idx2_ext
  · show k1_off2 L 0 + 1 * (r + 1 * 0) = 80 * (tileW L).val + r
    rw [k1_off2_eq, tileW_val]
    show 160 * (L 1).val + 80 * (L 0).val + 1 * (r + 1 * 0) = _
    omega
  · show k1_off2 L 1 + 1 * (col + 1 * l.val) = col + l.val
    rw [k1_off2_eq]
    show 0 + 1 * (col + 1 * l.val) = _
    omega

theorem load_self {κ : Kind} {sp : Space} (v : View sig κ sp S2x128 .f32) (fS : v.ty.Contents (Elt F))
    (g : (Memref.whole cc1_scratch8).view.ty.Contents (Elt F))
    (off8 : Fin 2 → ℕ) (inb8 : ∀ a, off8 a + S2x128.size a ≤ S10240x128.size a) (hr8 : ∀ a, (Rect.unit (s := S10240x128) off8 S2x128.size inb8).stride a = 1)
    (base : ℕ) (hoff8 : off8 = ![base, 0]) (hb : base + 2 ≤ 10240)
    (off : Fin 2 → ℕ) (inb : ∀ a, off a + S1x16.size a ≤ S2x128.size a) (n col : ℕ) (hoff : off = ![n, col]) (hn : n < 2) (hc : col + 16 ≤ 128)
    (l : Fin 16) :
    v.readAt (Elt F) (Rect.unit (s := S2x128) off S1x16.size inb).toLoadRect
        (v.write (Elt F) fS (((Memref.whole cc1_scratch8).slice (Rect.unit (s := S10240x128) off8 S2x128.size inb8) hr8).view.read (Elt F) g) Finset.univ)
        (ix2 (0 : Fin 1) l)
      = g (ix2 (⟨base + n, by omega⟩ : Fin 10240) (⟨col + l.val, by omega⟩ : Fin 128)) := by
  subst hoff hoff8
  rw [readAt_unit_write_univ]
  show g _ = g _
  congr 1
  apply idx2_ext
  · show base + 1 * (n + 1 * 0) = base + n
    omega
  · show 0 + 1 * (col + 1 * l.val) = col + l.val
    omega

theorem load_row {κ : Kind} {sp : Space} (v : View sig κ sp S64x128 .f32) (f2 : v.ty.Contents (Elt F))
    (hg : S10240x128.Gathers 0 S64x128) (tab : S10240x128.Idx → Elt F .f32)
    (rws : Fin (S64x128.size hg.axis') → Fin (S10240x128.size hg.axis))
    (off : Fin 2 → ℕ) (inb : ∀ a, off a + S1x16.size a ≤ S64x128.size a) (e col : ℕ) (hoff : off = ![e, col]) (he : e < 64) (hc : col + 16 ≤ 128)
    (l : Fin 16) :
    v.readAt (Elt F) (Rect.unit (s := S64x128) off S1x16.size inb).toLoadRect
        (v.writes (Elt F) f2 [⟨Rect.whole S64x128, SparseCore.gatherPayload hg tab rws⟩]) (ix2 (0 : Fin 1) l)
      = tab (ix2 (rws ⟨e, he⟩) (⟨col + l.val, by omega⟩ : Fin 128)) := by
  subst hoff
  rw [readAt_unit_writes_whole]
  unfold SparseCore.gatherPayload
  congr 1
  apply idx2_ext
  · have h := congrArg Fin.val (Shape.Gathers.idx_axis hg rws ((Rect.unit (s := S64x128) ![e, col] S1x16.size inb).emb (ix2 (0 : Fin 1) l)))
    refine h.trans ?_
    congr 2
  · refine (Shape.Gathers.idx_of_ne hg rws _ 1 (by decide)).trans ?_
    show col + 1 * l.val = col + l.val
    omega

omit [FloatOps F] in

theorem squeeze_idx (h : S64.numel = S1x64.numel) (e : Fin 64) : Shape.reshapeEquiv h (ix1 e) = ix2 (0 : Fin 1) e :=
  Shape.reshapeEquiv_eq_of_rowMajor h (by
    rw [Shape.rowMajor_val_two, Shape.rowMajor_val_one]
    show 0 * 64 + e.val = e.val
    omega)

theorem list_word (d : Dev nD) (L : grid1.Coords) (f0 : (Memref.whole cc1_scratch0).view.ty.Contents (Elt F)) (fi : Buf (Elt F) (idxLoc d))
    (offL : Fin 2 → ℕ) (inbL : ∀ a, offL a + S1x64.size a ≤ S80x128.size a)
    (hrL : ∀ a, (Rect.unit (s := S80x128) offL S1x64.size inbL).stride a = 1)
    (r0 c0 : ℕ) (hoffL : offL = ![r0, c0]) (hr0 : r0 < 80) (hc0 : c0 + 64 ≤ 128) (e : Fin 64) :
    (((Memref.whole cc1_scratch0).slice (Rect.unit (s := S80x128) offL S1x64.size inbL) hrL).squeeze S64 squeezes_S1x64_S64).view.read (Elt F)
        (View.write (Elt F) (Memref.whole cc1_scratch0).view f0 ((idxRows L).view.read (Elt F) fi) Finset.univ) (ix1 e)
      = fi (ix2 (⟨80 * (tileW L).val + r0, by have := (tileW L).isLt; omega⟩ : Fin 2560) (⟨c0 + e.val, by omega⟩ : Fin 128)) := by
  subst hoffL
  have h1 : (((Memref.whole cc1_scratch0).slice (Rect.unit (s := S80x128) ![r0, c0] S1x64.size inbL) hrL).squeeze S64 squeezes_S1x64_S64).view.read (Elt F)
        (View.write (Elt F) (Memref.whole cc1_scratch0).view f0 ((idxRows L).view.read (Elt F) fi) Finset.univ) (ix1 e)
      = (Memref.whole cc1_scratch0).view.read (Elt F)
          (View.write (Elt F) (Memref.whole cc1_scratch0).view f0 ((idxRows L).view.read (Elt F) fi) Finset.univ)
          ((Rect.unit (s := S80x128) ![r0, c0] S1x64.size inbL).emb (Shape.reshapeEquiv squeezes_S1x64_S64.numel_eq (ix1 e))) := rfl
  rw [h1, View.read_write_univ, squeeze_idx]
  show fi _ = fi _
  congr 1
  apply idx2_ext
  · show k1_off2 L 0 + 1 * (r0 + 1 * 0) = 80 * (tileW L).val + r0
    rw [k1_off2_eq, tileW_val]
    show 160 * (L 1).val + 80 * (L 0).val + 1 * (r0 + 1 * 0) = _
    omega
  · show k1_off2 L 1 + 1 * (c0 + 1 * e.val) = c0 + e.val
    rw [k1_off2_eq]
    show 0 + 1 * (c0 + 1 * e.val) = _
    omega

theorem rows_word (idx : S64.Idx → Elt F .i32) (hn : S64.numel = 64) (h : ∀ x, (idx x).toNat < 10240) (e : Fin 64) :
    (SparseCore.rows (F := F) idx hn h e).val = (idx (ix1 e)).toNat := by
  unfold SparseCore.rows
  show (idx _).toNat = (idx _).toNat
  congr 2
  funext a
  have ha : a = 0 := Subsingleton.elim _ _
  subst ha
  apply Fin.ext
  have hv := Shape.rowMajor_val_one (S64.rowMajor.symm (e.cast hn.symm))
  rw [Equiv.apply_symm_apply] at hv
  exact hv.symm

theorem tab_read (A : Ops F) (d : Dev nD) (c : Fin τ.nSC) (inb : ∀ a, (![0, 0] : Fin 2 → ℕ) a + S10240x128.size a ≤ S10240x128.size a)
    (hr : ∀ a, (Rect.unit (s := S10240x128) ![0, 0] S10240x128.size inb).stride a = 1) (y : S10240x128.Idx) :
    ((Memref.whole cc1_scratch8).slice (Rect.unit (s := S10240x128) ![0, 0] S10240x128.size inb) hr).view.read (Elt F) (ffsh A d c) y = A.ff d y := by
  show ffsh A d c _ = A.ff d y
  unfold ffsh
  congr 1
  apply idx2_ext
  · show 0 + 1 * (y 0).val = (y 0).val; omega
  · show 0 + 1 * (y 1).val = (y 1).val; omega

end Cert.Proof.KB

end
-- ==== Proof.KB.StoreRead.lean ====
import proofs.«204698_g79517024518204_fold_wed_m_581_46_alg».proof.Proof.KB.TripValue
import Idealize.ShloMosaic.Lib.Writes

noncomputable section

namespace Cert.Proof.KB

open Cert.Kernel Cert.Kernel.Gen
open Idealize.ShloMosaic Idealize.ShloMosaic.ValueIdx

variable {F : FTy → Type} [FloatOps F]

omit [FloatOps F] in

theorem unit_emb_ix2 (n c : ℕ) (inb : ∀ a, (![n, c] : Fin S2x128.rank → ℕ) a + S1x16.size a ≤ S2x128.size a) (l : Fin 16)
    (hn : n < 2) (hc : c + 16 ≤ 128) :
    (Rect.unit (s := S2x128) ![n, c] S1x16.size inb).emb (ix2 (0 : Fin 1) l) = ix2 (⟨n, hn⟩ : Fin 2) (⟨c + l.val, by omega⟩ : Fin 128) := by
  funext a
  apply Fin.ext
  rw [Rect.emb_apply]
  match a with
  | ⟨0, _⟩ => show n + 1 * 0 = n; omega
  | ⟨1, _⟩ => show c + 1 * l.val = c + l.val; omega

omit [FloatOps F] in

omit [FloatOps F] in

theorem block_idx (x : S1x16.Idx) : x = ix2 (0 : Fin 1) (x 1) := by
  funext a
  match a with
  | ⟨0, _⟩ =>
    apply Fin.ext
    have h : (x ⟨0, by decide⟩).val < S1x16.size ⟨0, by decide⟩ := (x ⟨0, by decide⟩).isLt
    change _ < 1 at h
    show (x ⟨0, _⟩).val = 0
    omega
  | ⟨1, _⟩ => rfl

theorem piece_ok (n c : ℕ) (inb : ∀ a, (![n, c] : Fin S2x128.rank → ℕ) a + S1x16.size a ≤ S2x128.size a) (hn : n < 2) (hc : c + 16 ≤ 128)
    (G : S2x128.Idx → F .f32) (w : S1x16.Idx → F .f32)
    (h : ∀ l : Fin 16, w (ix2 (0 : Fin 1) l) = G (ix2 (⟨n, hn⟩ : Fin 2) (⟨c + l.val, by omega⟩ : Fin 128))) :
    ∀ x : S1x16.Idx, w x = G ((Rect.unit (s := S2x128) ![n, c] S1x16.size inb).emb x) := by
  intro x
  obtain ⟨l, rfl⟩ : ∃ l : Fin 16, x = ix2 (0 : Fin 1) l := ⟨x 1, block_idx x⟩
  rw [unit_emb_ix2 n c inb l hn hc]
  exact h l

theorem read_after_stores {κ : Kind} {sp : Space} (v : View sig κ sp S2x128 .f32) (f : v.ty.Contents (Elt F)) (G : S2x128.Idx → F .f32)
    (p00 p01 p02 p03 p04 p05 p06 p07 p10 p11 p12 p13 p14 p15 p16 p17 : S1x16.Idx → F .f32)
    (h00 : ∀ l : Fin 16, p00 (ix2 (0 : Fin 1) l) = G (ix2 (0 : Fin 2) (laneCol 0 l)))
    (h01 : ∀ l : Fin 16, p01 (ix2 (0 : Fin 1) l) = G (ix2 (0 : Fin 2) (laneCol 1 l)))
    (h02 : ∀ l : Fin 16, p02 (ix2 (0 : Fin 1) l) = G (ix2 (0 : Fin 2) (laneCol 2 l)))
    (h03 : ∀ l : Fin 16, p03 (ix2 (0 : Fin 1) l) = G (ix2 (0 : Fin 2) (laneCol 3 l)))
    (h04 : ∀ l : Fin 16, p04 (ix2 (0 : Fin 1) l) = G (ix2 (0 : Fin 2) (laneCol 4 l)))
    (h05 : ∀ l : Fin 16, p05 (ix2 (0 : Fin 1) l) = G (ix2 (0 : Fin 2) (laneCol 5 l)))
    (h06 : ∀ l : Fin 16, p06 (ix2 (0 : Fin 1) l) = G (ix2 (0 : Fin 2) (laneCol 6 l)))
    (h07 : ∀ l : Fin 16, p07 (ix2 (0 : Fin 1) l) = G (ix2 (0 : Fin 2) (laneCol 7 l)))
    (h10 : ∀ l : Fin 16, p10 (ix2 (0 : Fin 1) l) = G (ix2 (1 : Fin 2) (laneCol 0 l)))
    (h11 : ∀ l : Fin 16, p11 (ix2 (0 : Fin 1) l) = G (ix2 (1 : Fin 2) (laneCol 1 l)))
    (h12 : ∀ l : Fin 16, p12 (ix2 (0 : Fin 1) l) = G (ix2 (1 : Fin 2) (laneCol 2 l)))
    (h13 : ∀ l : Fin 16, p13 (ix2 (0 : Fin 1) l) = G (ix2 (1 : Fin 2) (laneCol 3 l)))
    (h14 : ∀ l : Fin 16, p14 (ix2 (0 : Fin 1) l) = G (ix2 (1 : Fin 2) (laneCol 4 l)))
    (h15 : ∀ l : Fin 16, p15 (ix2 (0 : Fin 1) l) = G (ix2 (1 : Fin 2) (laneCol 5 l)))
    (h16 : ∀ l : Fin 16, p16 (ix2 (0 : Fin 1) l) = G (ix2 (1 : Fin 2) (laneCol 6 l)))
    (h17 : ∀ l : Fin 16, p17 (ix2 (0 : Fin 1) l) = G (ix2 (1 : Fin 2) (laneCol 7 l))) :
    v.read (Elt F) (v.writes (Elt F) f [
      ⟨Rect.unit (s := S2x128) ![1, 112] S1x16.size inb_S2x128_S1x16_1_112, p17⟩,
      ⟨Rect.unit (s := S2x128) ![1, 96] S1x16.size inb_S2x128_S1x16_1_96, p16⟩,
      ⟨Rect.unit (s := S2x128) ![1, 80] S1x16.size inb_S2x128_S1x16_1_80, p15⟩,
      ⟨Rect.unit (s := S2x128) ![1, 64] S1x16.size inb_S2x128_S1x16_1_64, p14⟩,
      ⟨Rect.unit (s := S2x128) ![1, 48] S1x16.size inb_S2x128_S1x16_1_48, p13⟩,
      ⟨Rect.unit (s := S2x128) ![1, 32] S1x16.size inb_S2x128_S1x16_1_32, p12⟩,
      ⟨Rect.unit (s := S2x128) ![1, 16] S1x16.size inb_S2x128_S1x16_1_16, p11⟩,
      ⟨Rect.unit (s := S2x128) ![1, 0] S1x16.size inb_S2x128_S1x16_1_0, p10⟩,
      ⟨Rect.unit (s := S2x128) ![0, 112] S1x16.size inb_S2x128_S1x16_0_112, p07⟩,
      ⟨Rect.unit (s := S2x128) ![0, 96] S1x16.size inb_S2x128_S1x16_0_96, p06⟩,
      ⟨Rect.unit (s := S2x128) ![0, 80] S1x16.size inb_S2x128_S1x16_0_80, p05⟩,
      ⟨Rect.unit (s := S2x128) ![0, 64] S1x16.size inb_S2x128_S1x16_0_64, p04⟩,
      ⟨Rect.unit (s := S2x128) ![0, 48] S1x16.size inb_S2x128_S1x16_0_48, p03⟩,
      ⟨Rect.unit (s := S2x128) ![0, 32] S1x16.size inb_S2x128_S1x16_0_32, p02⟩,
      ⟨Rect.unit (s := S2x128) ![0, 16] S1x16.size inb_S2x128_S1x16_0_16, p01⟩,
      ⟨Rect.unit (s := S2x128) ![0, 0] S1x16.size inb_S2x128_S1x16_0_0, p00⟩]) = G := by
  funext y
  refine View.read_writes_apply_of_pieces v f G _ ?_ y (View.cover_of_tiled (s := S2x128) _ S1x16.size rfl y)
  intro p hp
  simp only [List.mem_cons, List.not_mem_nil, or_false] at hp
  rcases hp with rfl | rfl | rfl | rfl | rfl | rfl | rfl | rfl | rfl | rfl | rfl | rfl | rfl | rfl | rfl | rfl
  · exact piece_ok 1 112 inb_S2x128_S1x16_1_112 (by omega) (by omega) G p17 h17
  · exact piece_ok 1 96 inb_S2x128_S1x16_1_96 (by omega) (by omega) G p16 h16
  · exact piece_ok 1 80 inb_S2x128_S1x16_1_80 (by omega) (by omega) G p15 h15
  · exact piece_ok 1 64 inb_S2x128_S1x16_1_64 (by omega) (by omega) G p14 h14
  · exact piece_ok 1 48 inb_S2x128_S1x16_1_48 (by omega) (by omega) G p13 h13
  · exact piece_ok 1 32 inb_S2x128_S1x16_1_32 (by omega) (by omega) G p12 h12
  · exact piece_ok 1 16 inb_S2x128_S1x16_1_16 (by omega) (by omega) G p11 h11
  · exact piece_ok 1 0 inb_S2x128_S1x16_1_0 (by omega) (by omega) G p10 h10
  · exact piece_ok 0 112 inb_S2x128_S1x16_0_112 (by omega) (by omega) G p07 h07
  · exact piece_ok 0 96 inb_S2x128_S1x16_0_96 (by omega) (by omega) G p06 h06
  · exact piece_ok 0 80 inb_S2x128_S1x16_0_80 (by omega) (by omega) G p05 h05
  · exact piece_ok 0 64 inb_S2x128_S1x16_0_64 (by omega) (by omega) G p04 h04
  · exact piece_ok 0 48 inb_S2x128_S1x16_0_48 (by omega) (by omega) G p03 h03
  · exact piece_ok 0 32 inb_S2x128_S1x16_0_32 (by omega) (by omega) G p02 h02
  · exact piece_ok 0 16 inb_S2x128_S1x16_0_16 (by omega) (by omega) G p01 h01
  · exact piece_ok 0 0 inb_S2x128_S1x16_0_0 (by omega) (by omega) G p00 h00

end Cert.Proof.KB

end
-- ==== Proof.KB.ChunkBuffer.lean ====
import proofs.«204698_g79517024518204_fold_wed_m_581_46_alg».proof.Proof.KB.StoreRead

noncomputable section

namespace Cert.Proof.KB

open Cert.Kernel Cert.Kernel.Gen
open Idealize.ShloMosaic Idealize.ShloMosaic.ValueIdx

variable {F : FTy → Type} [FloatOps F]

def glue (sel : Fin 2 → Fin 8 → (S1x16.Idx → F .f32)) : S2x128.Idx → F .f32 := fun y =>
  sel (y 0) (⟨(y 1).val / 16, by have := (y 1).isLt; change _ < 128 at this; omega⟩ : Fin 8)
    (ix2 (0 : Fin 1) (⟨(y 1).val % 16, Nat.mod_lt _ (by decide)⟩ : Fin 16))

theorem glue_lane (sel : Fin 2 → Fin 8 → (S1x16.Idx → F .f32)) (n : Fin 2) (dd : Fin 8) (l : Fin 16) :
    glue sel (ix2 n (laneCol dd l)) = sel n dd (ix2 (0 : Fin 1) l) := by
  unfold glue
  have e1 : (⟨((ix2 n (laneCol dd l) : S2x128.Idx) 1).val / 16, by
      have := ((ix2 n (laneCol dd l) : S2x128.Idx) 1).isLt; change _ < 128 at this; omega⟩ : Fin 8) = dd :=
    Fin.ext (by show (16 * dd.val + l.val) / 16 = dd.val; omega)
  have e2 : (⟨((ix2 n (laneCol dd l) : S2x128.Idx) 1).val % 16, Nat.mod_lt _ (by decide)⟩ : Fin 16) = l :=
    Fin.ext (by show (16 * dd.val + l.val) % 16 = l.val; omega)
  rw [e1, e2]

theorem read_after_stores_sel {κ : Kind} {sp : Space} (v : View sig κ sp S2x128 .f32) (f : v.ty.Contents (Elt F))
    (sel : Fin 2 → Fin 8 → (S1x16.Idx → F .f32)) :
    v.read (Elt F) (v.writes (Elt F) f [
      ⟨Rect.unit (s := S2x128) ![1, 112] S1x16.size inb_S2x128_S1x16_1_112, sel 1 7⟩,
      ⟨Rect.unit (s := S2x128) ![1, 96] S1x16.size inb_S2x128_S1x16_1_96, sel 1 6⟩,
      ⟨Rect.unit (s := S2x128) ![1, 80] S1x16.size inb_S2x128_S1x16_1_80, sel 1 5⟩,
      ⟨Rect.unit (s := S2x128) ![1, 64] S1x16.size inb_S2x128_S1x16_1_64, sel 1 4⟩,
      ⟨Rect.unit (s := S2x128) ![1, 48] S1x16.size inb_S2x128_S1x16_1_48, sel 1 3⟩,
      ⟨Rect.unit (s := S2x128) ![1, 32] S1x16.size inb_S2x128_S1x16_1_32, sel 1 2⟩,
      ⟨Rect.unit (s := S2x128) ![1, 16] S1x16.size inb_S2x128_S1x16_1_16, sel 1 1⟩,
      ⟨Rect.unit (s := S2x128) ![1, 0] S1x16.size inb_S2x128_S1x16_1_0, sel 1 0⟩,
      ⟨Rect.unit (s := S2x128) ![0, 112] S1x16.size inb_S2x128_S1x16_0_112, sel 0 7⟩,
      ⟨Rect.unit (s := S2x128) ![0, 96] S1x16.size inb_S2x128_S1x16_0_96, sel 0 6⟩,
      ⟨Rect.unit (s := S2x128) ![0, 80] S1x16.size inb_S2x128_S1x16_0_80, sel 0 5⟩,
      ⟨Rect.unit (s := S2x128) ![0, 64] S1x16.size inb_S2x128_S1x16_0_64, sel 0 4⟩,
      ⟨Rect.unit (s := S2x128) ![0, 48] S1x16.size inb_S2x128_S1x16_0_48, sel 0 3⟩,
      ⟨Rect.unit (s := S2x128) ![0, 32] S1x16.size inb_S2x128_S1x16_0_32, sel 0 2⟩,
      ⟨Rect.unit (s := S2x128) ![0, 16] S1x16.size inb_S2x128_S1x16_0_16, sel 0 1⟩,
      ⟨Rect.unit (s := S2x128) ![0, 0] S1x16.size inb_S2x128_S1x16_0_0, sel 0 0⟩]) = glue sel :=
  read_after_stores v f (glue sel) (sel 0 0) (sel 0 1) (sel 0 2) (sel 0 3) (sel 0 4) (sel 0 5) (sel 0 6) (sel 0 7) (sel 1 0) (sel 1 1) (sel 1 2) (sel 1 3) (sel 1 4) (sel 1 5) (sel 1 6) (sel 1 7)
      (fun l => (glue_lane sel 0 0 l).symm)
      (fun l => (glue_lane sel 0 1 l).symm)
      (fun l => (glue_lane sel 0 2 l).symm)
      (fun l => (glue_lane sel 0 3 l).symm)
      (fun l => (glue_lane sel 0 4 l).symm)
      (fun l => (glue_lane sel 0 5 l).symm)
      (fun l => (glue_lane sel 0 6 l).symm)
      (fun l => (glue_lane sel 0 7 l).symm)
      (fun l => (glue_lane sel 1 0 l).symm)
      (fun l => (glue_lane sel 1 1 l).symm)
      (fun l => (glue_lane sel 1 2 l).symm)
      (fun l => (glue_lane sel 1 3 l).symm)
      (fun l => (glue_lane sel 1 4 l).symm)
      (fun l => (glue_lane sel 1 5 l).symm)
      (fun l => (glue_lane sel 1 6 l).symm)
      (fun l => (glue_lane sel 1 7 l).symm)

theorem chunk_buffer_value (A : Ops F) (d : Dev nD) (w : Fin 32) (c : Fin 160) {κ : Kind} {sp : Space} (v : View sig κ sp S2x128 .f32)
    (f : v.ty.Contents (Elt F)) (sel : Fin 2 → Fin 8 → (S1x16.Idx → F .f32))
    (H : ∀ (n : Fin 2) (dd : Fin 8) (l : Fin 16), (nodeRow w c n).val < 10000 →
      sel n dd (ix2 (0 : Fin 1) l) = outVal A d (ix2 (nodeRow w c n) (laneCol dd l)))
    (y : S2x128.Idx) (hy : (nodeRow w c (y 0)).val < 10000) :
    v.read (Elt F) (v.writes (Elt F) f [
      ⟨Rect.unit (s := S2x128) ![1, 112] S1x16.size inb_S2x128_S1x16_1_112, sel 1 7⟩,
      ⟨Rect.unit (s := S2x128) ![1, 96] S1x16.size inb_S2x128_S1x16_1_96, sel 1 6⟩,
      ⟨Rect.unit (s := S2x128) ![1, 80] S1x16.size inb_S2x128_S1x16_1_80, sel 1 5⟩,
      ⟨Rect.unit (s := S2x128) ![1, 64] S1x16.size inb_S2x128_S1x16_1_64, sel 1 4⟩,
      ⟨Rect.unit (s := S2x128) ![1, 48] S1x16.size inb_S2x128_S1x16_1_48, sel 1 3⟩,
      ⟨Rect.unit (s := S2x128) ![1, 32] S1x16.size inb_S2x128_S1x16_1_32, sel 1 2⟩,
      ⟨Rect.unit (s := S2x128) ![1, 16] S1x16.size inb_S2x128_S1x16_1_16, sel 1 1⟩,
      ⟨Rect.unit (s := S2x128) ![1, 0] S1x16.size inb_S2x128_S1x16_1_0, sel 1 0⟩,
      ⟨Rect.unit (s := S2x128) ![0, 112] S1x16.size inb_S2x128_S1x16_0_112, sel 0 7⟩,
      ⟨Rect.unit (s := S2x128) ![0, 96] S1x16.size inb_S2x128_S1x16_0_96, sel 0 6⟩,
      ⟨Rect.unit (s := S2x128) ![0, 80] S1x16.size inb_S2x128_S1x16_0_80, sel 0 5⟩,
      ⟨Rect.unit (s := S2x128) ![0, 64] S1x16.size inb_S2x128_S1x16_0_64, sel 0 4⟩,
      ⟨Rect.unit (s := S2x128) ![0, 48] S1x16.size inb_S2x128_S1x16_0_48, sel 0 3⟩,
      ⟨Rect.unit (s := S2x128) ![0, 32] S1x16.size inb_S2x128_S1x16_0_32, sel 0 2⟩,
      ⟨Rect.unit (s := S2x128) ![0, 16] S1x16.size inb_S2x128_S1x16_0_16, sel 0 1⟩,
      ⟨Rect.unit (s := S2x128) ![0, 0] S1x16.size inb_S2x128_S1x16_0_0, sel 0 0⟩]) y = outVal A d (ix2 (nodeRow w c (y 0)) (y 1)) := by
  rw [read_after_stores_sel]
  unfold glue
  rw [H _ _ _ hy]
  congr 2
  apply Fin.ext
  show 16 * ((y 1).val / 16) + (y 1).val % 16 = (y 1).val
  omega

end Cert.Proof.KB

end
-- ==== Proof.KB.ChunkValue.lean ====
import proofs.«204698_g79517024518204_fold_wed_m_581_46_alg».proof.Proof.KB.Loads

noncomputable section

namespace Cert.Proof.KB

open Cert.Kernel Cert.Kernel.Gen
open Idealize.ShloMosaic Idealize.ShloMosaic.ValueIdx

variable {F : FTy → Type} [FloatOps F]

theorem trip_store_value_nat (A : Ops F) (d : Dev nD) (w : Fin 32) (c : Fin 160) (n : Fin 2) (dd : Fin 8) (l : Fin 16)
    (s w0 w1 : Vec F S1x16 .f32) (rows : Fin 32 → Vec F S1x16 .f32) (fe' : Buf (Elt F) (ewLoc d))
    (base : ℕ) (hbase : base = 320 * w.val + 2 * c.val) (colS : ℕ) (hcolS : colS = 16 * dd.val)
    (hs : s (ix2 (0 : Fin 1) l) = A.ff d (ix2 (⟨base + n.val, by omega⟩ : Fin 10240) (⟨colS + l.val, by omega⟩ : Fin 128)))
    (r : ℕ) (hr : r = c.val / 2) (col0 : ℕ) (hcol0 : col0 = (c.val % 2) * 64 + 32 * n.val) (col1 : ℕ) (hcol1 : col1 = col0 + 16)
    (hw0 : ∀ l' : Fin 16, w0 (ix2 (0 : Fin 1) l') = fe' (ix2 (⟨80 * w.val + r, by omega⟩ : Fin 2560) (⟨col0 + l'.val, by omega⟩ : Fin 128)))
    (hw1 : ∀ l' : Fin 16, w1 (ix2 (0 : Fin 1) l') = fe' (ix2 (⟨80 * w.val + r, by omega⟩ : Fin 2560) (⟨col1 + l'.val, by omega⟩ : Fin 128)))
    (hfe : ∀ j : S2560x128.Idx, (j 0).val < 2500 → fe' j = A.fe d j) (hrow : (nodeRow w c n).val < 10000)
    (nb : Fin 32 → Fin 10240)
    (hnb : ∀ k : Fin 32, (nb k).val
      = (A.fi d (ix2 (⟨80 * w.val + r, by omega⟩ : Fin 2560) (⟨(c.val % 2) * 64 + (32 * n.val + k.val), by omega⟩ : Fin 128))).toNat)
    (hrows : ∀ k : Fin 32, rows k (ix2 (0 : Fin 1) l) = A.ff d (ix2 (nb k) (⟨colS + l.val, by omega⟩ : Fin 128))) :
    foldStore (s (ix2 (0 : Fin 1) l)) (w32 w0 w1) (fun k => rows k (ix2 (0 : Fin 1) l))
      = outVal A d (ix2 (nodeRow w c n) (laneCol dd l)) := by
  subst hbase hcolS hr hcol0 hcol1
  refine trip_store_value A d w c n dd l s w0 w1 rows fe' ?_ ?_ ?_ hfe hrow ?_
  · refine hs.trans (congrArg (A.ff d) (idx2_ext _ _ ?_ ?_))
    · show 320 * w.val + 2 * c.val + n.val = 320 * w.val + 2 * c.val + n.val; rfl
    · show 16 * dd.val + l.val = 16 * dd.val + l.val; rfl
  · intro l'
    refine (hw0 l').trans (congrArg fe' (idx2_ext _ _ ?_ ?_))
    · show 80 * w.val + c.val / 2 = 80 * w.val + c.val / 2; rfl
    · show (c.val % 2) * 64 + 32 * n.val + l'.val = (c.val % 2) * 64 + 32 * n.val + l'.val; rfl
  · intro l'
    refine (hw1 l').trans (congrArg fe' (idx2_ext _ _ ?_ ?_))
    · show 80 * w.val + c.val / 2 = 80 * w.val + c.val / 2; rfl
    · show (c.val % 2) * 64 + 32 * n.val + 16 + l'.val = (c.val % 2) * 64 + 32 * n.val + (16 + l'.val); omega
  · intro k
    refine (hrows k).trans (congrArg (A.ff d) (idx2_ext _ _ ?_ ?_))
    · show (nb k).val = (nbAt A d (nodeRow w c n) k).val
      rw [nbAt_eq, hnb k]
      have hlt : (nb k).val < 10240 := (nb k).isLt
      rw [hnb k] at hlt
      have e : (⟨(c.val % 2) * 64 + (32 * n.val + k.val), by omega⟩ : Fin 128) = edgeCol c n k :=
        Fin.ext (by show (c.val % 2) * 64 + (32 * n.val + k.val) = (c.val % 2) * 64 + 32 * n.val + k.val; omega)
      have e' : (⟨80 * w.val + c.val / 2, by omega⟩ : Fin 2560) = edgeRow w c := rfl
      rw [e, e'] at hlt ⊢
      exact (Nat.mod_eq_of_lt hlt).symm
    · show 16 * dd.val + l.val = 16 * dd.val + l.val; rfl

end Cert.Proof.KB

end
-- ==== Proof.KB.ChunkStore.lean ====
import proofs.«204698_g79517024518204_fold_wed_m_581_46_alg».proof.Proof.KB.ChunkValue

noncomputable section

namespace Cert.Proof.KB

open Cert.Kernel Cert.Kernel.Gen
open Idealize.ShloMosaic Idealize.ShloMosaic.ValueIdx

variable {F : FTy → Type} [FloatOps F]

omit [FloatOps F] in
theorem trip_lt (k : Fin k1_t1_loop.trips) : k.val < 80 := lt_of_lt_of_eq k.isLt trips_eq

def chunk0 (k : Fin k1_t1_loop.trips) : Fin 160 := ⟨2 * k.val, by have h := trip_lt k; omega⟩
def chunk1 (k : Fin k1_t1_loop.trips) : Fin 160 := ⟨2 * k.val + 1, by have h := trip_lt k; omega⟩

omit [FloatOps F] in
theorem chunk0_val (k : Fin k1_t1_loop.trips) : (chunk0 k).val = 2 * k.val := rfl
omit [FloatOps F] in
theorem chunk1_val (k : Fin k1_t1_loop.trips) : (chunk1 k).val = 2 * k.val + 1 := rfl

omit [FloatOps F] in
theorem vec2_congr {a a' b b' : ℕ} (ha : a = a') (hb : b = b') : (![a, b] : Fin 2 → ℕ) = ![a', b'] := by subst ha hb; rfl

section Offsets
omit [FloatOps F]
variable (L : grid1.Coords) (k : Fin k1_t1_loop.trips)

theorem off_w_c0_0_0 : k1_off6 k 0#32 0#32 = ![(chunk0 k).val / 2, ((chunk0 k).val % 2) * 64 + 32 * (0 : Fin 2).val] := by
  rw [k1_off6_eq_0_0, chunk0_val]; exact vec2_congr (by omega) (by show 0 = _; omega)
theorem off_w_c0_0_16 : k1_off6 k 0#32 16#32 = ![(chunk0 k).val / 2, ((chunk0 k).val % 2) * 64 + 32 * (0 : Fin 2).val + 16] := by
  rw [k1_off6_eq_0_16, chunk0_val]; exact vec2_congr (by omega) (by show 16 = _; omega)
theorem off_w_c0_32_0 : k1_off6 k 32#32 0#32 = ![(chunk0 k).val / 2, ((chunk0 k).val % 2) * 64 + 32 * (1 : Fin 2).val] := by
  rw [k1_off6_eq_32_0, chunk0_val]; exact vec2_congr (by omega) (by show 32 = 2 * k.val % 2 * 64 + 32 * 1; omega)
theorem off_w_c0_32_16 : k1_off6 k 32#32 16#32 = ![(chunk0 k).val / 2, ((chunk0 k).val % 2) * 64 + 32 * (1 : Fin 2).val + 16] := by
  rw [k1_off6_eq_32_16, chunk0_val]; exact vec2_congr (by omega) (by show 48 = 2 * k.val % 2 * 64 + 32 * 1 + 16; omega)

theorem off_w_c1_0_0 : k1_off10 k 0#32 0#32 = ![(chunk1 k).val / 2, ((chunk1 k).val % 2) * 64 + 32 * (0 : Fin 2).val] := by
  rw [k1_off10_eq_0_0, chunk1_val]; exact vec2_congr (by omega) (by show 64 = (2 * k.val + 1) % 2 * 64 + 32 * 0; omega)
theorem off_w_c1_0_16 : k1_off10 k 0#32 16#32 = ![(chunk1 k).val / 2, ((chunk1 k).val % 2) * 64 + 32 * (0 : Fin 2).val + 16] := by
  rw [k1_off10_eq_0_16, chunk1_val]; exact vec2_congr (by omega) (by show 80 = (2 * k.val + 1) % 2 * 64 + 32 * 0 + 16; omega)
theorem off_w_c1_32_0 : k1_off10 k 32#32 0#32 = ![(chunk1 k).val / 2, ((chunk1 k).val % 2) * 64 + 32 * (1 : Fin 2).val] := by
  rw [k1_off10_eq_32_0, chunk1_val]; exact vec2_congr (by omega) (by show 96 = (2 * k.val + 1) % 2 * 64 + 32 * 1; omega)
theorem off_w_c1_32_16 : k1_off10 k 32#32 16#32 = ![(chunk1 k).val / 2, ((chunk1 k).val % 2) * 64 + 32 * (1 : Fin 2).val + 16] := by
  rw [k1_off10_eq_32_16, chunk1_val]; exact vec2_congr (by omega) (by show 112 = (2 * k.val + 1) % 2 * 64 + 32 * 1 + 16; omega)

theorem off_list_c1 : k1_off4 k = ![(chunk1 k).val / 2, ((chunk1 k).val % 2) * 64] := by
  rw [k1_off4_eq, chunk1_val]; exact vec2_congr (by omega) (by omega)

theorem off_list_c0_next (k' : Fin k1_t1_loop.trips) (h : k'.val = k.val + 1) : k1_off8 k = ![(chunk0 k').val / 2, ((chunk0 k').val % 2) * 64] := by
  rw [k1_off8_eq, chunk0_val, h]; exact vec2_congr (by omega) (by omega)

theorem off_list_c0_zero (k' : Fin k1_t1_loop.trips) (h : k'.val = 0) : (![0, 0] : Fin 2 → ℕ) = ![(chunk0 k').val / 2, ((chunk0 k').val % 2) * 64] := by
  rw [chunk0_val, h]

theorem off_self_c1 : k1_off5 L k = ![320 * (tileW L).val + 2 * (chunk1 k).val, 0] := by
  rw [k1_off5_eq, chunk1_val, tileW_val]; exact vec2_congr (by omega) rfl

theorem off_self_c0_next (k' : Fin k1_t1_loop.trips) (h : k'.val = k.val + 1) : k1_off9 L k = ![320 * (tileW L).val + 2 * (chunk0 k').val, 0] := by
  rw [k1_off9_eq, chunk0_val, tileW_val, h]; exact vec2_congr (by omega) rfl

theorem off_self_c0_zero (k' : Fin k1_t1_loop.trips) (h : k'.val = 0) : k1_off3 L = ![320 * (tileW L).val + 2 * (chunk0 k').val, 0] := by
  rw [k1_off3_eq, chunk0_val, tileW_val, h]; exact vec2_congr (by omega) rfl

theorem off_out_c0 : k1_off7 L k = ![320 * (tileW L).val + 2 * (chunk0 k).val, 0] := by
  rw [k1_off7_eq, chunk0_val, tileW_val]; exact vec2_congr (by omega) rfl

end Offsets

omit [FloatOps F] in
theorem inb_row (n : Fin 2) (dd : Fin 8) (j : Fin 32) (a : Fin 2) :
    (![32 * n.val + j.val, 16 * dd.val] : Fin 2 → ℕ) a + S1x16.size a ≤ S64x128.size a := by
  match a with
  | ⟨0, _⟩ => show 32 * n.val + j.val + 1 ≤ 64; omega
  | ⟨1, _⟩ => show 16 * dd.val + 16 ≤ 128; omega

end Cert.Proof.KB

end
-- ==== Proof.KB.ChunkFinal.lean ====
import proofs.«204698_g79517024518204_fold_wed_m_581_46_alg».proof.Proof.KB.ChunkOK
import proofs.«204698_g79517024518204_fold_wed_m_581_46_alg».proof.Proof.KB.ChunkBuffer
import proofs.«204698_g79517024518204_fold_wed_m_581_46_alg».proof.Proof.KB.ChunkStore

noncomputable section

namespace Cert.Proof.KB

open Cert.Kernel Cert.Kernel.Gen
open Idealize.ShloMosaic Idealize.ShloMosaic.ValueIdx

variable {F : FTy → Type} [FloatOps F]

variable (A : Ops F) (d : Dev nD) (L : grid1.Coords)

theorem chunk_of_buffer (c : Fin 160) (off : Fin 2 → ℕ) (h : ∀ a, off a + S2x128.size a ≤ S10240x128.size a)
    (hoff : off = ![320 * (tileW L).val + 2 * c.val, 0])
    {κ : Kind} {sp : Space} (v : View sig κ sp S2x128 .f32) (f : v.ty.Contents (Elt F))
    (p00 p01 p02 p03 p04 p05 p06 p07 p10 p11 p12 p13 p14 p15 p16 p17 : S1x16.Idx → F .f32)
    (h00 : ∀ l : Fin 16, (nodeRow (tileW L) c 0).val < 10000 →
      p00 (ix2 (0 : Fin 1) l) = outVal A d (ix2 (nodeRow (tileW L) c 0) (laneCol 0 l)))
    (h01 : ∀ l : Fin 16, (nodeRow (tileW L) c 0).val < 10000 →
      p01 (ix2 (0 : Fin 1) l) = outVal A d (ix2 (nodeRow (tileW L) c 0) (laneCol 1 l)))
    (h02 : ∀ l : Fin 16, (nodeRow (tileW L) c 0).val < 10000 →
      p02 (ix2 (0 : Fin 1) l) = outVal A d (ix2 (nodeRow (tileW L) c 0) (laneCol 2 l)))
    (h03 : ∀ l : Fin 16, (nodeRow (tileW L) c 0).val < 10000 →
      p03 (ix2 (0 : Fin 1) l) = outVal A d (ix2 (nodeRow (tileW L) c 0) (laneCol 3 l)))
    (h04 : ∀ l : Fin 16, (nodeRow (tileW L) c 0).val < 10000 →
      p04 (ix2 (0 : Fin 1) l) = outVal A d (ix2 (nodeRow (tileW L) c 0) (laneCol 4 l)))
    (h05 : ∀ l : Fin 16, (nodeRow (tileW L) c 0).val < 10000 →
      p05 (ix2 (0 : Fin 1) l) = outVal A d (ix2 (nodeRow (tileW L) c 0) (laneCol 5 l)))
    (h06 : ∀ l : Fin 16, (nodeRow (tileW L) c 0).val < 10000 →
      p06 (ix2 (0 : Fin 1) l) = outVal A d (ix2 (nodeRow (tileW L) c 0) (laneCol 6 l)))
    (h07 : ∀ l : Fin 16, (nodeRow (tileW L) c 0).val < 10000 →
      p07 (ix2 (0 : Fin 1) l) = outVal A d (ix2 (nodeRow (tileW L) c 0) (laneCol 7 l)))
    (h10 : ∀ l : Fin 16, (nodeRow (tileW L) c 1).val < 10000 →
      p10 (ix2 (0 : Fin 1) l) = outVal A d (ix2 (nodeRow (tileW L) c 1) (laneCol 0 l)))
    (h11 : ∀ l : Fin 16, (nodeRow (tileW L) c 1).val < 10000 →
      p11 (ix2 (0 : Fin 1) l) = outVal A d (ix2 (nodeRow (tileW L) c 1) (laneCol 1 l)))
    (h12 : ∀ l : Fin 16, (nodeRow (tileW L) c 1).val < 10000 →
      p12 (ix2 (0 : Fin 1) l) = outVal A d (ix2 (nodeRow (tileW L) c 1) (laneCol 2 l)))
    (h13 : ∀ l : Fin 16, (nodeRow (tileW L) c 1).val < 10000 →
      p13 (ix2 (0 : Fin 1) l) = outVal A d (ix2 (nodeRow (tileW L) c 1) (laneCol 3 l)))
    (h14 : ∀ l : Fin 16, (nodeRow (tileW L) c 1).val < 10000 →
      p14 (ix2 (0 : Fin 1) l) = outVal A d (ix2 (nodeRow (tileW L) c 1) (laneCol 4 l)))
    (h15 : ∀ l : Fin 16, (nodeRow (tileW L) c 1).val < 10000 →
      p15 (ix2 (0 : Fin 1) l) = outVal A d (ix2 (nodeRow (tileW L) c 1) (laneCol 5 l)))
    (h16 : ∀ l : Fin 16, (nodeRow (tileW L) c 1).val < 10000 →
      p16 (ix2 (0 : Fin 1) l) = outVal A d (ix2 (nodeRow (tileW L) c 1) (laneCol 6 l)))
    (h17 : ∀ l : Fin 16, (nodeRow (tileW L) c 1).val < 10000 →
      p17 (ix2 (0 : Fin 1) l) = outVal A d (ix2 (nodeRow (tileW L) c 1) (laneCol 7 l))) :
    ChunkOK A d off h ((ReadAs.same : ReadAs (Elt F) S2x128 .f32 S2x128 .f32).apply (v.read (Elt F) (v.writes (Elt F) f [
      ⟨Rect.unit (s := S2x128) ![1, 112] S1x16.size inb_S2x128_S1x16_1_112, p17⟩,
      ⟨Rect.unit (s := S2x128) ![1, 96] S1x16.size inb_S2x128_S1x16_1_96, p16⟩,
      ⟨Rect.unit (s := S2x128) ![1, 80] S1x16.size inb_S2x128_S1x16_1_80, p15⟩,
      ⟨Rect.unit (s := S2x128) ![1, 64] S1x16.size inb_S2x128_S1x16_1_64, p14⟩,
      ⟨Rect.unit (s := S2x128) ![1, 48] S1x16.size inb_S2x128_S1x16_1_48, p13⟩,
      ⟨Rect.unit (s := S2x128) ![1, 32] S1x16.size inb_S2x128_S1x16_1_32, p12⟩,
      ⟨Rect.unit (s := S2x128) ![1, 16] S1x16.size inb_S2x128_S1x16_1_16, p11⟩,
      ⟨Rect.unit (s := S2x128) ![1, 0] S1x16.size inb_S2x128_S1x16_1_0, p10⟩,
      ⟨Rect.unit (s := S2x128) ![0, 112] S1x16.size inb_S2x128_S1x16_0_112, p07⟩,
      ⟨Rect.unit (s := S2x128) ![0, 96] S1x16.size inb_S2x128_S1x16_0_96, p06⟩,
      ⟨Rect.unit (s := S2x128) ![0, 80] S1x16.size inb_S2x128_S1x16_0_80, p05⟩,
      ⟨Rect.unit (s := S2x128) ![0, 64] S1x16.size inb_S2x128_S1x16_0_64, p04⟩,
      ⟨Rect.unit (s := S2x128) ![0, 48] S1x16.size inb_S2x128_S1x16_0_48, p03⟩,
      ⟨Rect.unit (s := S2x128) ![0, 32] S1x16.size inb_S2x128_S1x16_0_32, p02⟩,
      ⟨Rect.unit (s := S2x128) ![0, 16] S1x16.size inb_S2x128_S1x16_0_16, p01⟩,
      ⟨Rect.unit (s := S2x128) ![0, 0] S1x16.size inb_S2x128_S1x16_0_0, p00⟩]))) := by
  subst hoff
  refine chunkOK_intro A d _ h _ (fun x hx => ?_)
  have hy : (nodeRow (tileW L) c (x 0)).val < 10000 := hx
  have H : ∀ (n : Fin 2) (dd : Fin 8) (l : Fin 16), (nodeRow (tileW L) c n).val < 10000 →
      (fun n dd => (![![p00, p01, p02, p03, p04, p05, p06, p07], ![p10, p11, p12, p13, p14, p15, p16, p17]] : Fin 2 → Fin 8 → (S1x16.Idx → F .f32)) n dd) n dd (ix2 (0 : Fin 1) l) = outVal A d (ix2 (nodeRow (tileW L) c n) (laneCol dd l)) := by
    intro n dd l hr
    match n, dd with
    | ⟨0, _⟩, ⟨0, _⟩ => exact h00 l hr
    | ⟨0, _⟩, ⟨1, _⟩ => exact h01 l hr
    | ⟨0, _⟩, ⟨2, _⟩ => exact h02 l hr
    | ⟨0, _⟩, ⟨3, _⟩ => exact h03 l hr
    | ⟨0, _⟩, ⟨4, _⟩ => exact h04 l hr
    | ⟨0, _⟩, ⟨5, _⟩ => exact h05 l hr
    | ⟨0, _⟩, ⟨6, _⟩ => exact h06 l hr
    | ⟨0, _⟩, ⟨7, _⟩ => exact h07 l hr
    | ⟨1, _⟩, ⟨0, _⟩ => exact h10 l hr
    | ⟨1, _⟩, ⟨1, _⟩ => exact h11 l hr
    | ⟨1, _⟩, ⟨2, _⟩ => exact h12 l hr
    | ⟨1, _⟩, ⟨3, _⟩ => exact h13 l hr
    | ⟨1, _⟩, ⟨4, _⟩ => exact h14 l hr
    | ⟨1, _⟩, ⟨5, _⟩ => exact h15 l hr
    | ⟨1, _⟩, ⟨6, _⟩ => exact h16 l hr
    | ⟨1, _⟩, ⟨7, _⟩ => exact h17 l hr
  refine (chunk_buffer_value A d (tileW L) c v f (fun n dd => (![![p00, p01, p02, p03, p04, p05, p06, p07], ![p10, p11, p12, p13, p14, p15, p16, p17]] : Fin 2 → Fin 8 → (S1x16.Idx → F .f32)) n dd) H x hy).trans ?_
  refine congrArg (outVal A d) ?_
  have he := emb_pair ![320 * (tileW L).val + 2 * c.val, 0] h x
  apply idx2_ext
  · rw [he.1]; rfl
  · rw [he.2]
    show (x 1).val = 0 + (x 1).val
    omega

end Cert.Proof.KB

end
-- ==== Proof.KB.ChunkStoreOn.lean ====
import proofs.«204698_g79517024518204_fold_wed_m_581_46_alg».proof.Proof.KB.ChunkStore

noncomputable section

namespace Cert.Proof.KB

open Cert.Kernel Cert.Kernel.Gen
open Idealize.ShloMosaic Idealize.ShloMosaic.ValueIdx

variable {F : FTy → Type} [FloatOps F]

omit [FloatOps F] in
theorem mem_erowSet (w : Fin 32) (j : S2560x128.Idx) : j ∈ erowSet w ↔ 80 * w.val ≤ (j 0).val ∧ (j 0).val < 80 * w.val + 80 := by
  have e : erowSet w = (erows w).set := View.set_slice_whole _ _
  rw [e, Rect.mem_set_unit]
  constructor
  · intro h
    have h0 : w.val * 80 ≤ (j 0).val ∧ (j 0).val < w.val * 80 + 80 := h 0
    omega
  · intro h a
    match a with
    | ⟨0, _⟩ => show w.val * 80 ≤ (j 0).val ∧ (j 0).val < w.val * 80 + 80; omega
    | ⟨1, _⟩ => show 0 * 128 ≤ (j 1).val ∧ (j 1).val < 0 * 128 + 128; have := (j 1).isLt; change _ < 128 at this; omega

def feAll (A : Ops F) (d : Dev nD) (L : grid1.Coords) (fe : Buf (Elt F) (ewLoc d)) : Buf (Elt F) (ewLoc d) :=
  fun j => if (j : S2560x128.Idx) ∈ erowSet (tileW L) then fe j else A.fe d j

theorem feAll_known (A : Ops F) (d : Dev nD) (L : grid1.Coords) (fe : Buf (Elt F) (ewLoc d))
    (hfe : ∀ j ∈ erowSet (tileW L), (j 0).val < 2500 → fe j = A.fe d j) :
    ∀ j : S2560x128.Idx, (j 0).val < 2500 → feAll A d L fe j = A.fe d j := by
  intro j hj
  unfold feAll
  split
  · next h => exact hfe j h hj
  · rfl

theorem ewRows_read_feAll (A : Ops F) (d : Dev nD) (L : grid1.Coords) (fe : Buf (Elt F) (ewLoc d)) :
    (ewRows L).view.read (Elt F) fe = (ewRows L).view.read (Elt F) (feAll A d L fe) := by
  funext y
  show fe _ = feAll A d L fe _
  unfold feAll
  rw [if_pos]
  rw [mem_erowSet]
  have hy := (y 0).isLt
  change _ < 80 at hy
  have h0 : ((((ewRows L).view.emb y) : S2560x128.Idx) 0).val = 80 * (tileW L).val + (y 0).val := by
    show k1_off2 L 0 + 1 * (y 0).val = _
    rw [k1_off2_eq, tileW_val]
    show 160 * (L 1).val + 80 * (L 0).val + 1 * (y 0).val = _
    omega
  omega

theorem readCov_unit_congr_fn {sg : RefSig} {κ : Kind} {sp : Space} {s : Shape} {e : EltTy} {Val : EltTy → Type} [∀ e, Nonempty (Val e)]
    (v : View sg κ sp s e) (Lp : List (View.Piece Val s e)) {off off' size : Fin s.rank → ℕ} (inb : ∀ a, off a + size a ≤ s.size a)
    (inb' : ∀ a, off' a + size a ≤ s.size a) (h : off = off') :
    v.readCov Lp (Rect.unit off size inb).toLoadRect = v.readAt Val (Rect.unit off' size inb').toLoadRect (v.writes Val v.junk Lp) := by
  subst h; rfl

theorem forall_fin32 {P : Fin 32 → Prop} (h0 : P 0) (h1 : P 1) (h2 : P 2) (h3 : P 3) (h4 : P 4) (h5 : P 5) (h6 : P 6) (h7 : P 7)
    (h8 : P 8) (h9 : P 9) (h10 : P 10) (h11 : P 11) (h12 : P 12) (h13 : P 13) (h14 : P 14) (h15 : P 15)
    (h16 : P 16) (h17 : P 17) (h18 : P 18) (h19 : P 19) (h20 : P 20) (h21 : P 21) (h22 : P 22) (h23 : P 23)
    (h24 : P 24) (h25 : P 25) (h26 : P 26) (h27 : P 27) (h28 : P 28) (h29 : P 29) (h30 : P 30) (h31 : P 31) : ∀ j, P j := by
  intro j
  fin_cases j
  exacts [h0, h1, h2, h3, h4, h5, h6, h7, h8, h9, h10, h11, h12, h13, h14, h15, h16, h17, h18, h19, h20, h21, h22, h23, h24, h25, h26, h27, h28, h29, h30, h31]

end Cert.Proof.KB

end
-- ==== Proof.KB.ValueTac.lean ====
import proofs.«204698_g79517024518204_fold_wed_m_581_46_alg».proof.Proof.KB.ChunkFinal
import proofs.«204698_g79517024518204_fold_wed_m_581_46_alg».proof.Proof.KB.ChunkStoreOn

noncomputable section

namespace Cert.Proof.KB

open Cert.Kernel Cert.Kernel.Gen
open Idealize.ShloMosaic Idealize.ShloMosaic.ValueIdx

variable {F : FTy → Type} [FloatOps F]

theorem vec32_eq {α : Type _} (r0 r1 r2 r3 r4 r5 r6 r7 r8 r9 r10 r11 r12 r13 r14 r15 r16 r17 r18 r19 r20 r21 r22 r23 r24 r25 r26 r27 r28 r29 r30 r31 : α) (f : Fin 32 → α)
    (h0 : r0 = f 0) (h1 : r1 = f 1) (h2 : r2 = f 2) (h3 : r3 = f 3) (h4 : r4 = f 4) (h5 : r5 = f 5) (h6 : r6 = f 6) (h7 : r7 = f 7) (h8 : r8 = f 8) (h9 : r9 = f 9) (h10 : r10 = f 10) (h11 : r11 = f 11) (h12 : r12 = f 12) (h13 : r13 = f 13) (h14 : r14 = f 14) (h15 : r15 = f 15) (h16 : r16 = f 16) (h17 : r17 = f 17) (h18 : r18 = f 18) (h19 : r19 = f 19) (h20 : r20 = f 20) (h21 : r21 = f 21) (h22 : r22 = f 22) (h23 : r23 = f 23) (h24 : r24 = f 24) (h25 : r25 = f 25) (h26 : r26 = f 26) (h27 : r27 = f 27) (h28 : r28 = f 28) (h29 : r29 = f 29) (h30 : r30 = f 30) (h31 : r31 = f 31) :
    ∀ j : Fin 32, (![r0, r1, r2, r3, r4, r5, r6, r7, r8, r9, r10, r11, r12, r13, r14, r15, r16, r17, r18, r19, r20, r21, r22, r23, r24, r25, r26, r27, r28, r29, r30, r31] : Fin 32 → α) j = f j :=
  forall_fin32 h0 h1 h2 h3 h4 h5 h6 h7 h8 h9 h10 h11 h12 h13 h14 h15 h16 h17 h18 h19 h20 h21 h22 h23 h24 h25 h26 h27 h28 h29 h30 h31

theorem chunk_store_value_at (A : Ops F) (d : Dev nD) (L : grid1.Coords) (c : Fin 160) (n : Fin 2) (dd : Fin 8) (l : Fin 16) (cc : Fin τ.nSC)
    {κ4 : Kind} {sp4 : Space} (v4 : View sig κ4 sp4 S2x128 .f32) (f4 : v4.ty.Contents (Elt F))
    (off8 : Fin 2 → ℕ) (inb8 : ∀ a, off8 a + S2x128.size a ≤ S10240x128.size a)
    (hr8 : ∀ a, (Rect.unit (s := S10240x128) off8 S2x128.size inb8).stride a = 1)
    (hoff8 : off8 = ![320 * (tileW L).val + 2 * c.val, 0])
    (offS : Fin 2 → ℕ) (inbS : ∀ a, offS a + S1x16.size a ≤ S2x128.size a) (hoffS : offS = ![n.val, 16 * dd.val])
    (f1 : (Memref.whole cc1_scratch1).view.ty.Contents (Elt F)) (fe' : Buf (Elt F) (ewLoc d))
    (w : Fin 32) (hw : w = tileW L) (hfe : ∀ j ∈ erowSet w, (j 0).val < 2500 → fe' j = A.fe d j)
    (offW0 : Fin 2 → ℕ) (inbW0 : ∀ a, offW0 a + S1x16.size a ≤ S80x128.size a)
    (hoffW0 : offW0 = ![c.val / 2, (c.val % 2) * 64 + 32 * n.val])
    (offW1 : Fin 2 → ℕ) (inbW1 : ∀ a, offW1 a + S1x16.size a ≤ S80x128.size a)
    (hoffW1 : offW1 = ![c.val / 2, (c.val % 2) * 64 + 32 * n.val + 16])
    {κ2 : Kind} {sp2 : Space} (v2 : View sig κ2 sp2 S64x128 .f32) (f2 : v2.ty.Contents (Elt F))
    (f0 : (Memref.whole cc1_scratch0).view.ty.Contents (Elt F))
    (offL : Fin 2 → ℕ) (inbL : ∀ a, offL a + S1x64.size a ≤ S80x128.size a)
    (hrL : ∀ a, (Rect.unit (s := S80x128) offL S1x64.size inbL).stride a = 1) (hoffL : offL = ![c.val / 2, (c.val % 2) * 64])
    (inbT : ∀ a, (![0, 0] : Fin 2 → ℕ) a + S10240x128.size a ≤ S10240x128.size a)
    (hrT : ∀ a, (Rect.unit (s := S10240x128) ![0, 0] S10240x128.size inbT).stride a = 1)
    (hn : S64.numel = 64)
    (hin : ∀ x, ((((Memref.whole cc1_scratch0).slice (Rect.unit (s := S80x128) offL S1x64.size inbL) hrL).squeeze S64 squeezes_S1x64_S64).view.read (Elt F)
      (View.write (Elt F) (Memref.whole cc1_scratch0).view f0 ((idxRows L).view.read (Elt F) (A.fi d)) Finset.univ) x).toNat < 10240)
    (c2 : v2.ty.Contents (Elt F))
    (hc2 : c2 = v2.writes (Elt F) f2 [⟨Rect.whole S64x128,
        SparseCore.gatherPayload gathers_S10240x128_S64x128
          (((Memref.whole cc1_scratch8).slice (Rect.unit (s := S10240x128) ![0, 0] S10240x128.size inbT) hrT).view.read (Elt F) (ffsh A d cc))
          (SparseCore.rows ((((Memref.whole cc1_scratch0).slice (Rect.unit (s := S80x128) offL S1x64.size inbL) hrL).squeeze S64 squeezes_S1x64_S64).view.read (Elt F)
            (View.write (Elt F) (Memref.whole cc1_scratch0).view f0 ((idxRows L).view.read (Elt F) (A.fi d)) Finset.univ)) hn hin)⟩])
    (rows : Fin 32 → Vec F S1x16 .f32)
    (hrows : ∀ j : Fin 32, rows j = v2.readAt (Elt F) (Rect.unit (s := S64x128) ![32 * n.val + j.val, 16 * dd.val] S1x16.size (inb_row n dd j)).toLoadRect c2)
    (hrow : (nodeRow (tileW L) c n).val < 10000) :
    foldStore
        ((v4.readAt (Elt F) (Rect.unit (s := S2x128) offS S1x16.size inbS).toLoadRect
          (v4.write (Elt F) f4 (((Memref.whole cc1_scratch8).slice (Rect.unit (s := S10240x128) off8 S2x128.size inb8) hr8).view.read (Elt F) (ffsh A d cc)) Finset.univ))
          (ix2 (0 : Fin 1) l))
        (w32
          ((Memref.whole cc1_scratch1).view.readAt (Elt F) (Rect.unit (s := S80x128) offW0 S1x16.size inbW0).toLoadRect
            (View.write (Elt F) (Memref.whole cc1_scratch1).view f1 ((ewRows L).view.read (Elt F) fe') Finset.univ))
          ((Memref.whole cc1_scratch1).view.readAt (Elt F) (Rect.unit (s := S80x128) offW1 S1x16.size inbW1).toLoadRect
            (View.write (Elt F) (Memref.whole cc1_scratch1).view f1 ((ewRows L).view.read (Elt F) fe') Finset.univ)))
        (fun j => rows j (ix2 (0 : Fin 1) l))
      = outVal A d (ix2 (nodeRow (tileW L) c n) (laneCol dd l)) := by
  subst hc2 hw
  rw [ewRows_read_feAll A d L fe']
  have hw := (tileW L).isLt
  have hc := c.isLt
  have hnn := n.isLt
  have hdd := dd.isLt
  refine trip_store_value_nat A d (tileW L) c n dd l _ _ _ rows (feAll A d L fe')
    (320 * (tileW L).val + 2 * c.val) rfl (16 * dd.val) rfl ?hs
    (c.val / 2) rfl ((c.val % 2) * 64 + 32 * n.val) rfl ((c.val % 2) * 64 + 32 * n.val + 16) rfl ?hw0 ?hw1 (feAll_known A d L fe' hfe) hrow
    (fun j => SparseCore.rows ((((Memref.whole cc1_scratch0).slice (Rect.unit (s := S80x128) offL S1x64.size inbL) hrL).squeeze S64 squeezes_S1x64_S64).view.read (Elt F)
      (View.write (Elt F) (Memref.whole cc1_scratch0).view f0 ((idxRows L).view.read (Elt F) (A.fi d)) Finset.univ)) hn hin ⟨32 * n.val + j.val, by have := j.isLt; omega⟩)
    ?hnb ?hrows
  case hs =>
    exact load_self v4 f4 (ffsh A d cc) off8 inb8 hr8 _ hoff8 (by omega) offS inbS n.val (16 * dd.val) hoffS hnn (by omega) l
  case hw0 =>
    intro l'
    exact load_weights d L f1 (feAll A d L fe') offW0 inbW0 (c.val / 2) _ hoffW0 (by omega) (by omega) l'
  case hw1 =>
    intro l'
    exact load_weights d L f1 (feAll A d L fe') offW1 inbW1 (c.val / 2) _ hoffW1 (by omega) (by omega) l'
  case hnb =>
    intro j
    have hj := j.isLt
    rw [rows_word]
    rw [list_word d L f0 (A.fi d) offL inbL hrL (c.val / 2) ((c.val % 2) * 64) hoffL (by omega) (by omega) ⟨32 * n.val + j.val, by omega⟩]
  case hrows =>
    intro j
    have hj := j.isLt
    rw [hrows j]
    exact (load_row v2 f2 gathers_S10240x128_S64x128 _ _ _ (inb_row n dd j) (32 * n.val + j.val) (16 * dd.val) rfl (by omega) (by omega) l).trans
      (tab_read A d cc inbT hrT _)

syntax "value_lane " term:max term:max term:max term:max term:max term:max term:max term:max term:max : tactic
macro_rules
  | `(tactic| value_lane $Val $c $v2 $hoff8 $hw0 $hw1 $hoffL $hfe $hin) => `(tactic| (
      intro l hrow
      refine Eq.trans (store_fold _ _ _ _ _ _ _ _ _ _ _ _ _ _ _ _ _ _ _ _ _ _ _ _ _ _ _ _ _ _ _ _ _ _ _ l) ?_
      refine chunk_store_value_at _ _ _ $c _ _ l _ _ _ _ _ (fun _ => rfl) $hoff8 _ _ (by rfl) _ _ _ (by first | rfl | exact Fin.ext rfl) $hfe _ _ $hw0 _ _ $hw1
        $v2 (View.junk _) _ _ _ _ $hoffL inb_S10240x128_S10240x128_0_0 (fun _ => rfl) rfl $hin ?_ ?_ _ ?_ hrow
      pick_goal 3
      · refine vec32_eq _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ <;>
          exact readCov_unit_congr_fn (Val := $Val) $v2 _ _ _ rfl
      · rfl))

syntax "value_chunkA " term:max term:max term:max term:max term:max term:max : tactic
macro_rules
  | `(tactic| value_chunkA $Val $k $hoff8 $hoffL $hfe $hin) => `(tactic| (
      unfold_stores
      refine chunk_of_buffer _ _ _ (chunk0 $k) _ _ (off_out_c0 _ $k) _ _ _ _ _ _ _ _ _ _ _ _ _ _ _ _ _ _ ?_ ?_ ?_ ?_ ?_ ?_ ?_ ?_ ?_ ?_ ?_ ?_ ?_ ?_ ?_ ?_
      iterate 8 (value_lane $Val (chunk0 $k) (Memref.whole cc1_scratch2).view $hoff8 (off_w_c0_0_0 $k) (off_w_c0_0_16 $k) $hoffL $hfe $hin)
      iterate 8 (value_lane $Val (chunk0 $k) (Memref.whole cc1_scratch2).view $hoff8 (off_w_c0_32_0 $k) (off_w_c0_32_16 $k) $hoffL $hfe $hin)))

syntax "value_chunkB " term:max term:max term:max term:max : tactic
macro_rules
  | `(tactic| value_chunkB $Val $k $hfe $hin) => `(tactic| (
      unfold_stores
      refine chunk_of_buffer _ _ _ (chunk1 $k) _ _ (off_self_c1 _ $k) _ _ _ _ _ _ _ _ _ _ _ _ _ _ _ _ _ _ ?_ ?_ ?_ ?_ ?_ ?_ ?_ ?_ ?_ ?_ ?_ ?_ ?_ ?_ ?_ ?_
      iterate 8 (value_lane $Val (chunk1 $k) (Memref.whole cc1_scratch3).view (off_self_c1 _ $k) (off_w_c1_0_0 $k) (off_w_c1_0_16 $k) (off_list_c1 $k) $hfe $hin)
      iterate 8 (value_lane $Val (chunk1 $k) (Memref.whole cc1_scratch3).view (off_self_c1 _ $k) (off_w_c1_32_0 $k) (off_w_c1_32_16 $k) (off_list_c1 $k) $hfe $hin)))

end Cert.Proof.KB

end
-- ==== Proof.KB.TileBody.lean ====
import proofs.«204698_g79517024518204_fold_wed_m_581_46_alg».proof.Proof.KB.Pay
import proofs.«204698_g79517024518204_fold_wed_m_581_46_alg».proof.Proof.KB.OutChunks
import proofs.«204698_g79517024518204_fold_wed_m_581_46_alg».proof.Proof.KB.DoneJoin
import proofs.«204698_g79517024518204_fold_wed_m_581_46_alg».proof.Proof.KB.ChunkOK
import proofs.«204698_g79517024518204_fold_wed_m_581_46_alg».proof.Proof.KB.UnfoldPrefix
import proofs.«204698_g79517024518204_fold_wed_m_581_46_alg».proof.Proof.KB.Loads
import proofs.«204698_g79517024518204_fold_wed_m_581_46_alg».proof.Proof.KB.StoreRead
import proofs.«204698_g79517024518204_fold_wed_m_581_46_alg».proof.Proof.KB.ValueTac

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "featsV" => (Memref.whole Cert.Kernel.main_v7_0_scv : Memref Cert.Kernel.sig Kind.scVector Space.hbm Cert.Kernel.S10240x128 EltTy.f32)
local notation "idxV" => (Memref.whole Cert.Kernel.main_v9_scv : Memref Cert.Kernel.sig Kind.scVector Space.hbm Cert.Kernel.S2560x128 EltTy.i32)
local notation "ewV" => (Memref.whole Cert.Kernel.main_v7_1_scv : Memref Cert.Kernel.sig Kind.scVector Space.hbm Cert.Kernel.S2560x128 EltTy.f32)
local notation "outV" => (Memref.whole Cert.Kernel.main_v10_scv : Memref Cert.Kernel.sig Kind.scVector Space.hbm Cert.Kernel.S10240x128 EltTy.f32)
local notation "shV" => (Memref.whole Cert.Kernel.cc1_scratch8 : Memref Cert.Kernel.sig Kind.scVector Space.shared Cert.Kernel.S10240x128 EltTy.f32)

variable (A : Ops F) (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev jL (L : grid1.Coords) : Fin 16 := Fin.cast bound_one (L 1)

abbrev segK (L : grid1.Coords) : Rect S10240x128 := Rect.unit (s := S10240x128) (k1_off1 L) S640x128.size (k1_off1_inb L)
abbrev erowK (L : grid1.Coords) : Rect S2560x128 := Rect.unit (s := S2560x128) (k1_off2 L) S80x128.size (k1_off2_inb L)
abbrev featsSegK (L : grid1.Coords) : Memref sig .scVector .hbm S640x128 .f32 := (featsV).slice (segK L) (fun _ => rfl)
abbrev shSegK (L : grid1.Coords) : Memref sig .scVector .shared S640x128 .f32 := (shV).slice (segK L) (fun _ => rfl)
abbrev idxRowK (L : grid1.Coords) : Memref sig .scVector .hbm S80x128 .i32 := (idxV).slice (erowK L) (fun _ => rfl)
abbrev ewRowK (L : grid1.Coords) : Memref sig .scVector .hbm S80x128 .f32 := (ewV).slice (erowK L) (fun _ => rfl)

omit [FloatOps F] in
theorem segK_eq : segK L = seg (jL L) := by
  unfold segK seg Rect.part Rect.block
  congr 1 <;> funext a
  · rw [k1_off1_eq]
    match a with
    | 0 => simp [Shape.partIx, Shape.partSize]; omega
    | 1 => simp [Shape.partIx, Shape.partSize]
  · match a with
    | 0 => simp [Shape.partSize]
    | 1 => simp [Shape.partSize]

omit [FloatOps F] in
theorem erowK_eq : erowK L = erows (wid (cL L) (jL L)) := by
  unfold erowK erows Rect.part Rect.block
  congr 1 <;> funext a
  · rw [k1_off2_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_featsSegK : (featsSegK L).view.set = segSet (jL L) := by
  show ((featsV).view.slice (segK L)).set = ((featsV).view.slice (seg (jL L))).set
  rw [segK_eq]
omit [FloatOps F] in
theorem set_shSegK : (shSegK L).view.set = segSet (jL L) := by
  show ((shV).view.slice (segK L)).set = ((featsV).view.slice (seg (jL L))).set
  rw [segK_eq]; rfl
omit [FloatOps F] in
theorem set_idxRowK : (idxRowK L).view.set = erowSet (wid (cL L) (jL L)) := by
  show ((idxV).view.slice (erowK L)).set = ((idxV).view.slice (erows (wid (cL L) (jL L)))).set
  rw [erowK_eq]
omit [FloatOps F] in
theorem set_ewRowK : (ewRowK L).view.set = erowSet (wid (cL L) (jL L)) := by
  show ((ewV).view.slice (erowK L)).set = ((idxV).view.slice (erows (wid (cL L) (jL L)))).set
  rw [erowK_eq]; rfl

omit [FloatOps F] in
theorem pts_featsSegK (q : PosShare TreeShare) (f : Buf (Elt F) (featsLoc d)) :
    ((featsSegK L).view.loc (V d (cV L) (jV L)) ↦[(featsSegK L).view.set]{q} f : sProp 𝕄) = featsLoc d ↦[segSet (jL L)]{q} f := by
  rw [set_featsSegK]
omit [FloatOps F] in
theorem pts_shSegK (q : PosShare TreeShare) (f : Buf (Elt F) (shLoc d (cV L))) :
    ((shSegK L).view.loc (V d (cV L) (jV L)) ↦[(shSegK L).view.set]{q} f : sProp 𝕄) = shLoc d (cV L) ↦[segSet (jL L)]{q} f := by
  rw [set_shSegK]; rfl
omit [FloatOps F] in
theorem pts_idxRowK (q : PosShare TreeShare) (f : Buf (Elt F) (idxLoc d)) :
    ((idxRowK L).view.loc (V d (cV L) (jV L)) ↦[(idxRowK L).view.set]{q} f : sProp 𝕄) = idxLoc d ↦[erowSet (wid (cL L) (jL L))]{q} f := by
  rw [set_idxRowK]
omit [FloatOps F] in
theorem pts_ewRowK (q : PosShare TreeShare) (f : Buf (Elt F) (ewLoc d)) :
    ((ewRowK L).view.loc (V d (cV L) (jV L)) ↦[(ewRowK L).view.set]{q} f : sProp 𝕄) = ewLoc d ↦[erowSet (wid (cL L) (jL L))]{q} f := by
  rw [set_ewRowK]

abbrev cellK (d : Dev nD) (L : grid1.Coords) (s : DmaSems sig S_) : GSem nD τ sig := (V d (cV L) (jV L), .dma s.sem)

omit [FloatOps F] in
theorem cell_mem (s : DmaSems sig S_) (hs : (SemLoc.dma s.sem : SemLoc sig).isScoped .scVector = true) :
    cellK d L s ∈ ownCells (V d (cV L) (jV L)) := (mem_ownCells (g := cellK d L s)).mpr ⟨rfl, hs⟩
omit [FloatOps F] in
theorem cell_mem_erase {T : Finset (GSem nD τ sig)} {s s' : DmaSems sig S_} (hne : (SemLoc.dma s.sem : SemLoc sig) ≠ .dma s'.sem)
    (h : cellK d L s ∈ T) : cellK d L s ∈ T.erase (cellK d L s') :=
  Finset.mem_erase.mpr ⟨fun e => hne (congrArg Prod.snd e), h⟩

def restCells (d : Dev nD) (L : grid1.Coords) : Finset (GSem nD τ sig) :=
  (((((((((ownCells (V d (cV L) (jV L))).erase (cellK d L cc1_scoped0)).erase (cellK d L cc1_scoped1)).erase (cellK d L cc1_scoped2)).erase (cellK d L cc1_scratch9)).erase
    (cellK d L cc1_scratch10)).erase (cellK d L cc1_scratch11)).erase (cellK d L cc1_scratch12)).erase (cellK d L cc1_scratch13)).erase (cellK d L cc1_scratch14)

omit [FloatOps F] in
theorem ownSems0_V :
    (ownSems0 (V d (cV L) (jV L)) : sProp 𝕄)
      = iprop(semVal (cellK d L cc1_scoped0) 0 ∗ semVal (cellK d L cc1_scoped1) 0 ∗ semVal (cellK d L cc1_scoped2) 0
          ∗ semVal (cellK d L cc1_scratch9) 0 ∗ semVal (cellK d L cc1_scratch10) 0 ∗ semVal (cellK d L cc1_scratch11) 0
          ∗ semVal (cellK d L cc1_scratch12) 0 ∗ semVal (cellK d L cc1_scratch13) 0 ∗ semVal (cellK d L cc1_scratch14) 0
          ∗ bigSep (restCells d L) fun g => semVal g 0) := by
  unfold SparseCore.Cfg.ownSems0 restCells
  rw [SparseCore.bigSep_erase' (cell_mem d L cc1_scoped0 (by decide)),
    SparseCore.bigSep_erase' (cell_mem_erase d L (by decide) (cell_mem d L cc1_scoped1 (by decide))),
    SparseCore.bigSep_erase' (cell_mem_erase d L (by decide) (cell_mem_erase d L (by decide) (cell_mem d L cc1_scoped2 (by decide)))),
    SparseCore.bigSep_erase' (cell_mem_erase d L (by decide) (cell_mem_erase d L (by decide) (cell_mem_erase d L (by decide) (cell_mem d L cc1_scratch9 (by decide))))),
    SparseCore.bigSep_erase' (cell_mem_erase d L (by decide) (cell_mem_erase d L (by decide) (cell_mem_erase d L (by decide) (cell_mem_erase d L (by decide)
      (cell_mem d L cc1_scratch10 (by decide)))))),
    SparseCore.bigSep_erase' (cell_mem_erase d L (by decide) (cell_mem_erase d L (by decide) (cell_mem_erase d L (by decide) (cell_mem_erase d L (by decide)
      (cell_mem_erase d L (by decide) (cell_mem d L cc1_scratch11 (by decide))))))),
    SparseCore.bigSep_erase' (cell_mem_erase d L (by decide) (cell_mem_erase d L (by decide) (cell_mem_erase d L (by decide) (cell_mem_erase d L (by decide)
      (cell_mem_erase d L (by decide) (cell_mem_erase d L (by decide) (cell_mem d L cc1_scratch12 (by decide)))))))),
    SparseCore.bigSep_erase' (cell_mem_erase d L (by decide) (cell_mem_erase d L (by decide) (cell_mem_erase d L (by decide) (cell_mem_erase d L (by decide)
      (cell_mem_erase d L (by decide) (cell_mem_erase d L (by decide) (cell_mem_erase d L (by decide) (cell_mem d L cc1_scratch13 (by decide))))))))),
    SparseCore.bigSep_erase' (cell_mem_erase d L (by decide) (cell_mem_erase d L (by decide) (cell_mem_erase d L (by decide) (cell_mem_erase d L (by decide)
      (cell_mem_erase d L (by decide) (cell_mem_erase d L (by decide) (cell_mem_erase d L (by decide) (cell_mem_erase d L (by decide)
      (cell_mem d L cc1_scratch14 (by decide))))))))))]

abbrev refK (L : grid1.Coords) (b : Ref sig .scVector) : DevRef τ sig := (Proc.scVector (cV L) (jV L)).devRef b

omit [FloatOps F] in
theorem ref_mem (b : Ref sig .scVector) (hb : (refK L b).owner = .proc (Proc.scVector (cV L) (jV L))) : refK L b ∈ ownRefs (τ := τ) (sig := sig) (.scVector (cV L) (jV L)) :=
  SparseCore.Cfg.mem_ownRefs_of_owner (p := Proc.scVector (cV L) (jV L)) (b := refK L b) hb
omit [FloatOps F] in
theorem ref_mem_erase {T : Finset (DevRef τ sig)} {b b' : Ref sig .scVector} (hne : b ≠ b') (h : refK L b ∈ T) : refK L b ∈ T.erase (refK L b') :=
  Finset.mem_erase.mpr ⟨fun e => hne (Proc.devRef_injective _ e), h⟩

def restRefs (L : grid1.Coords) : Finset (DevRef τ sig) :=
  ((((((((ownRefs (τ := τ) (sig := sig) (.scVector (cV L) (jV L))).erase (refK L cc1_scratch0)).erase (refK L cc1_scratch1)).erase (refK L cc1_scratch2)).erase (refK L cc1_scratch3)).erase
    (refK L cc1_scratch4)).erase (refK L cc1_scratch5)).erase (refK L cc1_scratch6)).erase (refK L cc1_scratch7)

abbrev bufK (d : Dev nD) (L : grid1.Coords) (b : Ref sig .scVector) : sProp 𝕄 := iprop(∃ f, (Memref.whole b).view.loc (V d (cV L) (jV L)) ↦{fullShare} f)

omit [FloatOps F] in
theorem ownBufs_V :
    (ownBufs (V d (cV L) (jV L)) : sProp 𝕄)
      = iprop(bufK (F := F) d L cc1_scratch0 ∗ bufK (F := F) d L cc1_scratch1 ∗ bufK (F := F) d L cc1_scratch2 ∗ bufK (F := F) d L cc1_scratch3
          ∗ bufK (F := F) d L cc1_scratch4 ∗ bufK (F := F) d L cc1_scratch5 ∗ bufK (F := F) d L cc1_scratch6 ∗ bufK (F := F) d L cc1_scratch7
          ∗ bigSep (restRefs L) fun b => iprop(∃ f, ((d, b) : Loc nD τ sig) ↦{fullShare} f)) := by
  unfold SparseCore.Cfg.ownBufs restRefs
  refine (SparseCore.bigSep_erase' (ref_mem L cc1_scratch0 rfl)).trans ?_
  rw [SparseCore.bigSep_erase' (ref_mem_erase L (by decide) (ref_mem L cc1_scratch1 rfl)),
    SparseCore.bigSep_erase' (ref_mem_erase L (by decide) (ref_mem_erase L (by decide) (ref_mem L cc1_scratch2 rfl))),
    SparseCore.bigSep_erase' (ref_mem_erase L (by decide) (ref_mem_erase L (by decide) (ref_mem_erase L (by decide) (ref_mem L cc1_scratch3 rfl)))),
    SparseCore.bigSep_erase' (ref_mem_erase L (by decide) (ref_mem_erase L (by decide) (ref_mem_erase L (by decide) (ref_mem_erase L (by decide) (ref_mem L cc1_scratch4 rfl))))),
    SparseCore.bigSep_erase' (ref_mem_erase L (by decide) (ref_mem_erase L (by decide) (ref_mem_erase L (by decide) (ref_mem_erase L (by decide) (ref_mem_erase L (by decide)
      (ref_mem L cc1_scratch5 rfl)))))),
    SparseCore.bigSep_erase' (ref_mem_erase L (by decide) (ref_mem_erase L (by decide) (ref_mem_erase L (by decide) (ref_mem_erase L (by decide) (ref_mem_erase L (by decide)
      (ref_mem_erase L (by decide) (ref_mem L cc1_scratch6 rfl))))))),
    SparseCore.bigSep_erase' (ref_mem_erase L (by decide) (ref_mem_erase L (by decide) (ref_mem_erase L (by decide) (ref_mem_erase L (by decide) (ref_mem_erase L (by decide)
      (ref_mem_erase L (by decide) (ref_mem_erase L (by decide) (ref_mem L cc1_scratch7 rfl))))))))]

omit [FloatOps F] in
theorem tb_segSet_eq (i : Fin 16) : segSet i = (seg i).set := by
  show ((View.whole (main_v7_0_scv : Ref sig .scVector)).slice (seg i)).set = _
  rw [View.set_slice]; exact Finset.map_refl
omit [FloatOps F] in
theorem tb_segs_disjoint : ∀ i ∈ (Finset.univ : Finset (Fin 16)), ∀ j ∈ (Finset.univ : Finset (Fin 16)), i ≠ j → Disjoint (segSet i) (segSet j) :=
  fun i _ j _ h => by rw [tb_segSet_eq, tb_segSet_eq]; exact Rect.part_disjoint hdiv16 h
omit [FloatOps F] in
theorem tb_segs_cover : (Finset.univ : Finset (Fin 16)).biUnion segSet = Finset.univ :=
  (Finset.biUnion_congr rfl fun i _ => tb_segSet_eq i).trans (Rect.biUnion_part hdiv16)

omit [FloatOps F] in

theorem tb_shPts_segs (c : Fin τ.nSC) (q : PosShare TreeShare) (f : Buf (Elt F) (shLoc d c)) :
    (shLoc d c ↦{q} f : sProp 𝕄) = bigSep Finset.univ fun n : Fin 16 => shLoc d c ↦[segSet n]{q} f := by
  rw [← pointsTo_biUnion Finset.univ (ℓ := shLoc d c) segSet tb_segs_disjoint, tb_segs_cover]; try rfl

theorem sh_filled (fsh : Buf (Elt F) (shLoc d (cV L))) (w : S640x128.Idx → Elt F .f32) (hw : w = (featsSegK L).view.read (Elt F) (A.ff d)) :
    ((shSegK L).view.loc (V d (cV L) (jV L)) ↦[(shSegK L).view.set]{fullShare} (shSegK L).view.writes (Elt F) fsh [⟨Rect.whole S640x128, w⟩] : sProp 𝕄)
      = shLoc d (cV L) ↦[segSet (jL L)]{fullShare} ffsh A d (cV L) := by
  subst hw
  refine Eq.trans (pointsTo_congr (g := ffsh A d (cV L)) fun i hi => ?_) (by rw [set_shSegK])
  obtain ⟨x, -, rfl⟩ := Finset.mem_map.mp hi
  rw [View.writes_singleton]
  have hx : (shSegK L).view.emb x = ((shSegK L).view.slice (Rect.whole S640x128)).emb x := by
    rw [View.emb_slice]; show _ = (shSegK L).view.emb ((Rect.whole S640x128).emb x); rw [Rect.emb_whole_apply]
  rw [hx, View.write_emb_of_mem _ _ (Finset.mem_univ _), View.read_apply, cast_cast, cast_eq, ← hx]
  rfl

theorem pays_intro : shSegPts A d (cV L) (jL L) fullShare
    ⊢ iprop(shSegPts A d (cV L) (jL L) rest16
        ∗ bigSep Finset.univ fun j : Fin (grid1.bound 1) => (bRd (F := F) A).payload (bcell d (cV L) (j.castLE hsub1)) 0 (jV L).val) := by
  refine (Transfers.pointsTo_toks_split fullShare 16).trans (sep_mono (Entails.refl _) (Entails.of_eq ?_))
  show (bigSep (Finset.univ : Finset (Fin 16)) fun j : Fin 16 => shLoc d (cV L) ↦[segSet (jL L)]{tok j} ffsh A d (cV L))
    = bigSep (Finset.univ : Finset (Fin 16)) fun j : Fin 16 => bPay A (bcell d (cV L) (Fin.castLE hsub1 (Fin.cast bound_one.symm j))) (jV L).val
  refine bigSep_congr fun j _ => ?_
  unfold bPay; dsimp only
  rw [dif_pos (jV L).isLt]; rfl

theorem pays_elim : (bigSep ((bRd (F := F) A).duties (bcell d (cV L) (jV L)) 0 \ ∅) fun n => (bRd (F := F) A).payload (bcell d (cV L) (jV L)) 0 n)
    ⊢ (shLoc d (cV L) ↦{tok (jL L)} ffsh A d (cV L) : sProp 𝕄) := by
  rw [Finset.sdiff_empty, bRd_duties₀, bigSep_image_of_injOn (fun a _ b _ h => Fin.val_injective h), tb_shPts_segs]
  refine Entails.of_eq ?_
  show (bigSep (Finset.univ : Finset (Fin 16)) fun n : Fin 16 => bPay A (bcell d (cV L) (jV L)) n.val) = _
  refine bigSep_congr fun n _ => ?_
  unfold bPay; dsimp only
  rw [dif_pos n.isLt]; rfl

def IdxOK : Prop := ∀ (d : Dev nD) (j : S2560x128.Idx), (A.fi d j).toNat < 10240

omit [FloatOps F] in
theorem pts_shV (q : PosShare TreeShare) (f : Buf (Elt F) (shLoc d (cV L))) :
    ((shV).view.loc (V d (cV L) (jV L)) ↦{q} f : sProp 𝕄) = shLoc d (cV L) ↦{q} f := rfl

def tokRest : Finset ℕ := ((((Finset.range 17).erase 13).erase 14).erase 15).erase 16

omit [FloatOps F] in

theorem toks_split {ℓ : Loc nD τ sig} (q : PosShare TreeShare) (f : Buf (Elt F) ℓ) :
    (ℓ ↦{q} f : sProp 𝕄) ⊣⊢ iprop((ℓ ↦{Transfers.shareDrop q 17} f) ∗ (ℓ ↦{Transfers.shareTokN q 13} f) ∗ (ℓ ↦{Transfers.shareTokN q 14} f)
      ∗ (ℓ ↦{Transfers.shareTokN q 15} f) ∗ (ℓ ↦{Transfers.shareTokN q 16} f) ∗ bigSep tokRest fun i => ℓ ↦{Transfers.shareTokN q i} f) := by
  have h : (ℓ ↦{q} f : sProp 𝕄) ⊣⊢ _ := Transfers.pointsTo_toks_range (ℓ := ℓ) (S := Finset.univ) (f := f) q 17
  rwa [SparseCore.bigSep_erase' (show 13 ∈ Finset.range 17 by decide), SparseCore.bigSep_erase' (show 14 ∈ (Finset.range 17).erase 13 by decide),
    SparseCore.bigSep_erase' (show 15 ∈ ((Finset.range 17).erase 13).erase 14 by decide),
    SparseCore.bigSep_erase' (show 16 ∈ (((Finset.range 17).erase 13).erase 14).erase 15 by decide)] at h

omit [FloatOps F] in

theorem halves_split {ℓ : Loc nD τ sig} (f : Buf (Elt F) ℓ) :
    (ℓ ↦{fullShare} f : sProp 𝕄) ⊣⊢ iprop((ℓ ↦{Transfers.shareDrop fullShare 1} f) ∗ (ℓ ↦{Transfers.shareTokN fullShare 0} f)) := by
  have h : (ℓ ↦{fullShare} f : sProp 𝕄) ⊣⊢ _ := Transfers.pointsTo_toks_range (ℓ := ℓ) (S := Finset.univ) (f := f) fullShare 1
  rwa [Finset.range_one, bigSep_singleton] at h

theorem idx_inb (hidx : IdxOK A) (g0 : Buf (Elt F) ((Memref.whole cc1_scratch0).view.loc (V d (cV L) (jV L))))
    (pay : S80x128.Idx → Elt F .i32) (hpay : pay = (idxRowK L).view.read (Elt F) (A.fi d))
    (off : Fin 2 → Nat) (hk : ∀ a, off a + S1x64.size a ≤ S80x128.size a) (hst : ∀ a, (Rect.unit (s := S80x128) off S1x64.size hk).stride a = 1)
    (hq : S1x64.Squeezes S64) :
    ∀ x, (View.read (Elt F) (((Memref.whole cc1_scratch0 : Memref sig .scVector .vmem S80x128 .i32).slice (Rect.unit (s := S80x128) off S1x64.size hk) hst).squeeze S64 hq).view
        (View.write (Elt F) (Memref.whole cc1_scratch0 : Memref sig .scVector .vmem S80x128 .i32).view g0 pay Finset.univ) x).toNat < 10240 := by
  subst hpay; intro x
  have e := View.write_whole_univ (Val := Elt F) (cc1_scratch0 : Ref sig .scVector) g0 ((idxRowK L).view.read (Elt F) (A.fi d))
  rw [show View.write (Elt F) (Memref.whole cc1_scratch0 : Memref sig .scVector .vmem S80x128 .i32).view g0 ((idxRowK L).view.read (Elt F) (A.fi d)) Finset.univ
      = (idxRowK L).view.read (Elt F) (A.fi d) from e]
  simp only [View.read_apply, cast_eq]
  exact hidx d _

theorem goRes_eq : goRes A d (cL L) (jL L)
    = iprop(featsSegPts A d (jL L) (hshare (cL L)) ∗ idxRowPts A d (wid (cL L) (jL L)) (hshare (cL L)) ∗ ewRowPts A d (wid (cL L) (jL L)) (hshare (cL L))
        ∗ outRowPts d (wid (cL L) (jL L)) (A.fo d) ∗ ∃ f, shLoc d (cV L) ↦[segSet (jL L)]{fullShare} f) := rfl
theorem tdRes_eq : tdRes A d (cL L) (jL L)
    = iprop(featsSegPts A d (jL L) (hshare (cL L)) ∗ idxRowPts A d (wid (cL L) (jL L)) (hshare (cL L)) ∗ ewRowPts A d (wid (cL L) (jL L)) (hshare (cL L))
        ∗ outDonePts A d (orowSet (wid (cL L) (jL L)))
        ∗ shSegPts A d (cV L) (jL L) rest16
        ∗ bigSep Finset.univ fun n : Fin 16 => shSegPts A d (cV L) n (tok (jL L))) := rfl

abbrev lstM (off : Fin 2 → Nat) (h : ∀ a, off a + S1x64.size a ≤ S80x128.size a) : Memref sig .scVector .vmem S64 .i32 :=
  ((Memref.whole cc1_scratch0 : Memref sig .scVector .vmem S80x128 .i32).slice (Rect.unit (s := S80x128) off S1x64.size h) (fun _ => rfl)).squeeze S64 squeezes_S1x64_S64
abbrev tabM : Memref sig .scVector .shared S10240x128 .f32 :=
  (shV).slice (Rect.unit (s := S10240x128) ![0, 0] S10240x128.size inb_S10240x128_S10240x128_0_0) (fun _ => rfl)
abbrev selfM (off : Fin 2 → Nat) (h : ∀ a, off a + S2x128.size a ≤ S10240x128.size a) : Memref sig .scVector .shared S2x128 .f32 :=
  (shV).slice (Rect.unit (s := S10240x128) off S2x128.size h) (fun _ => rfl)
omit [FloatOps F] in
theorem tb_trips_eq : k1_t1_loop.trips = 80 := by decide

def prevFin (t : ℕ) (h : ¬ t = 0 ∧ t ≤ 80) : Fin k1_t1_loop.trips := ⟨t - 1, by rw [tb_trips_eq]; omega⟩
omit [FloatOps F] in
theorem prevFin_succ (k : Fin k1_t1_loop.trips) (h : ¬ k.val + 1 = 0 ∧ k.val + 1 ≤ 80) : prevFin (k.val + 1) h = k := Fin.ext (by show k.val + 1 - 1 = k.val; omega)

section Loop

variable (O : CellTallies nD τ sig (HIx 1)) (W : Waits sig (HIx 1))
variable (pI : S80x128.Idx → Elt F .i32) (pE : S80x128.Idx → Elt F .f32)
variable (f0 : Buf (Elt F) ((Memref.whole cc1_scratch0).view.loc (V d (cV L) (jV L)))) (f1 : Buf (Elt F) ((Memref.whole cc1_scratch1).view.loc (V d (cV L) (jV L))))

abbrev idxvC : Buf (Elt F) ((Memref.whole cc1_scratch0).view.loc (V d (cV L) (jV L))) := View.write (Elt F) (Memref.whole cc1_scratch0).view f0 pI Finset.univ

def InbFact : Prop := ∀ (off : Fin 2 → ℕ) (hk : ∀ a, off a + S1x64.size a ≤ S80x128.size a) (hst : ∀ a, (Rect.unit (s := S80x128) off S1x64.size hk).stride a = 1)
    (hq : S1x64.Squeezes S64) (x : S64.Idx),
    (View.read (Elt F) (((Memref.whole cc1_scratch0 : Memref sig .scVector .vmem S80x128 .i32).slice (Rect.unit (s := S80x128) off S1x64.size hk) hst).squeeze S64 hq).view
      (idxvC (F := F) d L pI f0) x).toNat < 10240

variable (hinb : InbFact (F := F) d L pI f0)

def gatherG (off : Fin 2 → Nat) (h : ∀ a, off a + S1x64.size a ≤ S80x128.size a) : (Rect.whole cc1_scratch2.ty.shape).shape.Idx → Elt F cc1_scratch2.ty.elt :=
  SparseCore.gatherPayload gathers_S10240x128_S64x128 ((tabM).view.read (Elt F) (ffsh A d (cV L)))
    (SparseCore.rows ((lstM off h).view.read (Elt F) (idxvC (F := F) d L pI f0)) rfl (hinb off h (fun _ => rfl) squeezes_S1x64_S64))

def selfG (off : Fin 2 → Nat) (h : ∀ a, off a + S2x128.size a ≤ S10240x128.size a) : (Memref.whole cc1_scratch4).view.ty.Contents (Elt F) :=
  (selfM off h).view.read (Elt F) (ffsh A d (cV L))

def gatherFl (sem : DmaSems sig S_) (dst : Ref sig .scVector) (off : Fin 2 → Nat) (h : ∀ a, off a + S1x64.size a ≤ S80x128.size a) (ql qt : PosShare TreeShare)
    (fd : Buf (Elt F) ((Memref.whole dst).view.loc (V d (cV L) (jV L)))) (G : (Rect.whole dst.ty.shape).shape.Idx → Elt F dst.ty.elt) : sProp 𝕄 :=
  iprop(Transfers.Flight countersEmb (V d (cV L) (jV L)) (SemLoc.dma sem.sem) (default : HIx 1) 262144
      iprop((((Memref.whole dst).view.loc (V d (cV L) (jV L)) ↦[(Memref.whole dst).view.set]{fullShare}
              (Memref.whole dst).view.writes (Elt F) fd [⟨Rect.whole dst.ty.shape, G⟩])
          ∗ (Memref.whole cc1_scratch0).view.loc (V d (cV L) (jV L)) ↦[(lstM off h).view.set]{ql} idxvC (F := F) d L pI f0)
        ∗ (shV).view.loc (V d (cV L) (jV L)) ↦[(tabM).view.set]{qt} ffsh A d (cV L))
    ∗ ((shV).view.loc (V d (cV L) (jV L)) ↦[Finset.univ \ (tabM).view.set]{qt} ffsh A d (cV L))
    ∗ ((Memref.whole dst).view.loc (V d (cV L) (jV L)) ↦[Finset.univ \ (Memref.whole dst).view.set]{fullShare}
        (Memref.whole dst).view.writes (Elt F) fd [⟨Rect.whole dst.ty.shape, G⟩])
    ∗ ((Memref.whole cc1_scratch0).view.loc (V d (cV L) (jV L)) ↦[Finset.univ \ (lstM off h).view.set]{ql} idxvC (F := F) d L pI f0))

def selfFl (sem : DmaSems sig S_) (dst : Ref sig .scVector) (off : Fin 2 → Nat) (h : ∀ a, off a + S2x128.size a ≤ S10240x128.size a) (qt : PosShare TreeShare)
    (fd : Buf (Elt F) ((Memref.whole dst).view.loc (V d (cV L) (jV L)))) (G : (Memref.whole dst).view.ty.Contents (Elt F)) : sProp 𝕄 :=
  iprop(Transfers.Flight countersEmb (V d (cV L) (jV L)) (SemLoc.dma sem.sem) (default : HIx 1) 8192
      iprop(((Memref.whole dst).view.loc (V d (cV L) (jV L)) ↦{fullShare} View.write (Elt F) (Memref.whole dst).view fd G Finset.univ)
        ∗ (shV).view.loc (V d (cV L) (jV L)) ↦[(selfM off h).view.set]{qt} ffsh A d (cV L))
    ∗ ((shV).view.loc (V d (cV L) (jV L)) ↦[Finset.univ \ (selfM off h).view.set]{qt} ffsh A d (cV L)))

def outFl (sem : DmaSems sig S_) (src : Ref sig .scVector) (off : Fin 2 → Nat) (h : ∀ a, off a + S2x128.size a ≤ S10240x128.size a)
    (w : (Rect.whole S2x128).shape.Idx → Elt F .f32) (g : Buf (Elt F) ((Memref.whole src).view.loc (V d (cV L) (jV L)))) : sProp 𝕄 :=
  iprop(Transfers.Flight countersEmb (V d (cV L) (jV L)) (SemLoc.dma sem.sem) (default : HIx 1) 8192
      iprop(((outM off h).view.loc (V d (cV L) (jV L)) ↦[(outM off h).view.set]{fullShare} (outM off h).view.writes (Elt F) (A.fo d) [⟨Rect.whole S2x128, w⟩])
        ∗ (Memref.whole src).view.loc (V d (cV L) (jV L)) ↦[(Memref.whole src).view.set]{fullShare} g)
    ∗ ((Memref.whole src).view.loc (V d (cV L) (jV L)) ↦[Finset.univ \ (Memref.whole src).view.set]{fullShare} g))

def chunkPair (f : Buf (Elt F) (outLoc d)) (k : Fin k1_t1_loop.trips) : sProp 𝕄 :=
  iprop(((outA L k).view.loc (V d (cV L) (jV L)) ↦[(outA L k).view.set]{fullShare} f) ∗ ((outB L k).view.loc (V d (cV L) (jV L)) ↦[(outB L k).view.set]{fullShare} f))

abbrev bufE (b : Ref sig .scVector) : sProp 𝕄 := iprop(∃ f, (Memref.whole b).view.loc (V d (cV L) (jV L)) ↦{fullShare} f)

def preFl (offL : Fin 2 → Nat) (hL : ∀ a, offL a + S1x64.size a ≤ S80x128.size a) (offS : Fin 2 → Nat) (hS : ∀ a, offS a + S2x128.size a ≤ S10240x128.size a) : sProp 𝕄 :=
  iprop((∃ fd, gatherFl A d L pI f0 cc1_scratch9 cc1_scratch2 offL hL (Transfers.shareDrop fullShare 1) (Transfers.shareTokN (tok (jL L)) 13) fd (gatherG A d L pI f0 hinb offL hL))
    ∗ (∃ fd, selfFl A d L cc1_scratch11 cc1_scratch4 offS hS (Transfers.shareTokN (tok (jL L)) 15) fd (selfG A d L offS hS)))

def preIdle : sProp 𝕄 :=
  iprop(bufE (F := F) d L cc1_scratch2 ∗ ((shV).view.loc (V d (cV L) (jV L)) ↦{Transfers.shareTokN (tok (jL L)) 13} ffsh A d (cV L))
    ∗ ((Memref.whole cc1_scratch0).view.loc (V d (cV L) (jV L)) ↦{Transfers.shareDrop fullShare 1} idxvC (F := F) d L pI f0)
    ∗ semVal (cellK d L cc1_scratch9) 0
    ∗ bufE (F := F) d L cc1_scratch4 ∗ ((shV).view.loc (V d (cV L) (jV L)) ↦{Transfers.shareTokN (tok (jL L)) 15} ffsh A d (cV L))
    ∗ semVal (cellK d L cc1_scratch11) 0)
def Pstep (k : Fin k1_t1_loop.trips) : sProp 𝕄 :=
  if h2 : k1_cond2 k = 1#1 then preFl A d L pI f0 hinb (k1_off8 k) (k1_off8_inb k h2) (k1_off9 L k) (k1_off9_inb L k h2) else preIdle A d L pI f0
def Pre (t : ℕ) : sProp 𝕄 :=
  if t = 0 then preFl A d L pI f0 hinb ![0, 0] inb_S80x128_S1x64_0_0 (k1_off3 L) (k1_off3_inb L)
  else if h : ¬ t = 0 ∧ t ≤ 80 then Pstep A d L pI f0 hinb (prevFin t h) else iprop(emp)

def Wfl (k : Fin k1_t1_loop.trips) : sProp 𝕄 :=
  iprop((∃ w g, ⌜ChunkOK A d (k1_off7 L k) (k1_off7_inb L k) w⌝ ∗ outFl A d L cc1_scratch13 cc1_scratch6 (k1_off7 L k) (k1_off7_inb L k) w g)
    ∗ (∃ w g, ⌜ChunkOK A d (k1_off5 L k) (k1_off5_inb L k) w⌝ ∗ outFl A d L cc1_scratch14 cc1_scratch7 (k1_off5 L k) (k1_off5_inb L k) w g))
def Widle : sProp 𝕄 :=
  iprop(bufE (F := F) d L cc1_scratch6 ∗ semVal (cellK d L cc1_scratch13) 0 ∗ bufE (F := F) d L cc1_scratch7 ∗ semVal (cellK d L cc1_scratch14) 0)
def Wr (t : ℕ) : sProp 𝕄 :=
  if t = 0 then Widle (F := F) d L else if h : ¬ t = 0 ∧ t ≤ 80 then Wfl A d L (prevFin t h) else iprop(emp)

def inv (t : ℕ) (_ : PUnit) : sProp 𝕄 :=
  iprop(Transfers.MayWaits (V d (cV L) (jV L)) (default : HIx 1) O
    ∗ (bigSep (Finset.univ.filter fun k : Fin k1_t1_loop.trips => t ≤ k.val) (chunkPair (F := F) d L (A.fo d)))
    ∗ (bigSep (Finset.univ.filter fun k : Fin k1_t1_loop.trips => k.val < t - 1) (donePair A d L))
    ∗ bufE (F := F) d L cc1_scratch3 ∗ bufE (F := F) d L cc1_scratch5
    ∗ semVal (cellK d L cc1_scratch10) 0 ∗ semVal (cellK d L cc1_scratch12) 0
    ∗ ((Memref.whole cc1_scratch1).view.loc (V d (cV L) (jV L)) ↦{fullShare} View.write (Elt F) (Memref.whole cc1_scratch1).view f1 pE Finset.univ)
    ∗ (∃ W', ⌜∀ p ∈ W', p ∈ W ∨ p.2 = none ∨ p.2 = some (0 : Fin 1)⌝ ∗ owes (V d (cV L) (jV L)) O W')
    ∗ ((shV).view.loc (V d (cV L) (jV L)) ↦{Transfers.shareTokN (tok (jL L)) 14} ffsh A d (cV L))
    ∗ ((shV).view.loc (V d (cV L) (jV L)) ↦{Transfers.shareTokN (tok (jL L)) 16} ffsh A d (cV L))
    ∗ ((Memref.whole cc1_scratch0).view.loc (V d (cV L) (jV L)) ↦{Transfers.shareTokN fullShare 0} idxvC (F := F) d L pI f0)
    ∗ Pre A d L pI f0 hinb t ∗ Wr A d L t)

end Loop

section LoopLemmas

variable (pI : S80x128.Idx → Elt F .i32) (f0 : Buf (Elt F) ((Memref.whole cc1_scratch0).view.loc (V d (cV L) (jV L)))) (hinb : InbFact (F := F) d L pI f0)

theorem Pstep_pos (k : Fin k1_t1_loop.trips) (h2 : k1_cond2 k = 1#1) :
    Pstep A d L pI f0 hinb k = preFl A d L pI f0 hinb (k1_off8 k) (k1_off8_inb k h2) (k1_off9 L k) (k1_off9_inb L k h2) := by
  unfold Pstep; rw [dif_pos h2]
theorem Pstep_neg (k : Fin k1_t1_loop.trips) (h2 : ¬ k1_cond2 k = 1#1) : Pstep A d L pI f0 hinb k = preIdle A d L pI f0 := by
  unfold Pstep; rw [dif_neg h2]
theorem Wfl_eq (k : Fin k1_t1_loop.trips) : Wfl A d L k
    = iprop((∃ w g, ⌜ChunkOK A d (k1_off7 L k) (k1_off7_inb L k) w⌝ ∗ outFl A d L cc1_scratch13 cc1_scratch6 (k1_off7 L k) (k1_off7_inb L k) w g)
      ∗ (∃ w g, ⌜ChunkOK A d (k1_off5 L k) (k1_off5_inb L k) w⌝ ∗ outFl A d L cc1_scratch14 cc1_scratch7 (k1_off5 L k) (k1_off5_inb L k) w g)) := rfl

omit [FloatOps F] in
theorem todo_step (k : Fin k1_t1_loop.trips) (Φ : Fin k1_t1_loop.trips → sProp 𝕄) :
    bigSep (Finset.univ.filter fun j : Fin k1_t1_loop.trips => k.val ≤ j.val) Φ
      = iprop(Φ k ∗ bigSep (Finset.univ.filter fun j : Fin k1_t1_loop.trips => k.val + 1 ≤ j.val) Φ) :=
  trips_ge_step Φ k.val (tb_trips_eq ▸ k.isLt)
omit [FloatOps F] in
theorem done_step (k : Fin k1_t1_loop.trips) (hkp : ¬ k.val = 0 ∧ k.val ≤ 80) (Φ : Fin k1_t1_loop.trips → sProp 𝕄) :
    bigSep (Finset.univ.filter fun j : Fin k1_t1_loop.trips => j.val < k.val + 1 - 1) Φ
      = iprop(Φ (prevFin k.val hkp) ∗ bigSep (Finset.univ.filter fun j : Fin k1_t1_loop.trips => j.val < k.val - 1) Φ) := by
  rw [Nat.add_sub_cancel]; exact trips_lt_pred Φ k.val (Nat.pos_of_ne_zero hkp.1) (by have : k.val < 80 := tb_trips_eq ▸ k.isLt; omega)

def condW (k : Fin k1_t1_loop.trips) : BitVec 1 :=
  Scalar.cmpi .ne (Scalar.extui (Scalar.cmpi .sge (Scalar.muli 2#32 (Scf.iv 0#32 1#32 k)) 2#32)) 0#32
omit [FloatOps F] in
theorem condW_pos : ∀ k : Fin k1_t1_loop.trips, 1 ≤ k.val → condW k = 1#1 := by decide +kernel
omit [FloatOps F] in
theorem condW_zero : ∀ k : Fin k1_t1_loop.trips, k.val = 0 → ¬ condW k = 1#1 := by decide +kernel
omit [FloatOps F] in
theorem cond2_lt : ∀ k : Fin k1_t1_loop.trips, k.val < 79 → k1_cond2 k = 1#1 := by decide +kernel
omit [FloatOps F] in
theorem cond2_last : ∀ k : Fin k1_t1_loop.trips, 79 ≤ k.val → ¬ k1_cond2 k = 1#1 := by decide +kernel

end LoopLemmas
set_option maxHeartbeats 4000000 in
theorem tile_body (hF : (K (F := F)).Facts) (hidx : IdxOK A) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit A d (cV L) (jV L)
        ∗ goRes A d (cL L) (jL L)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc1__agg_sc L featsV (Memref.isWhole_whole _) idxV (Memref.isWhole_whole _) ewV (Memref.isWhole_whole _) outV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            (Memref.whole cc1_scratch4) (Memref.isWhole_whole _) (Memref.whole cc1_scratch5) (Memref.isWhole_whole _)
            (Memref.whole cc1_scratch6) (Memref.isWhole_whole _) (Memref.whole cc1_scratch7) (Memref.isWhole_whole _)
            shV (Memref.isWhole_whole _) cc1_scratch9 cc1_scratch10 cc1_scratch11 cc1_scratch12 cc1_scratch13 cc1_scratch14
            cc1_scoped0 cc1_scoped1 cc1_scoped2)
          fun _ => iprop(tdRes A d (cL L) (jL L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1__agg_sc_eq_skeleton]; unfold cc1__agg_sc_skel
  simp only [k1_part147_eq_skeleton]; unfold k1_part147_skel
  rw [(K (F := F)).scopedBufs_V hF d (cV L) (jV L), SparseCore.Cfg.scopedSems0_V (Val := Elt F) d (cV L) (jV L), ownSems0_V, ownBufs_V]
  rw [goRes_eq]; unfold bkit
  iintro ⟨#Hlv, ⟨⟨%κ, #Hinv⟩, Htoks, #Hrch, Hat, Hcred⟩, ⟨Hfeats, Hidx, ⟨%fe, %hfe, Hew⟩, Hout, %fsh, Hsh⟩,
    ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, Hbufs⟩,
    ⟨HsA, HsB, HsC, Hs9, Hs10, Hs11, Hs12, Hs13, Hs14, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hfeats' := (Entails.of_eq (pts_featsSegK (F := F) d L _ _).symm) $$ Hfeats
  ihave Hidx' := (Entails.of_eq (pts_idxRowK (F := F) d L _ _).symm) $$ Hidx
  ihave Hew' := (Entails.of_eq (pts_ewRowK (F := F) d L _ _).symm) $$ Hew
  ihave Hsh' := (Entails.of_eq (pts_shSegK (F := F) d L _ _).symm) $$ Hsh

  sl_exec

  ihave Hsh2 := (Entails.of_eq (sh_filled (F := F) A d L fsh (tile_body.sl.dma0 A d L) rfl)) $$ Hsh'
  ihave Hsp := (pays_intro (F := F) A d L) $$ Hsh2
  icases Hsp with ⟨Hrest, Hpays⟩
  rw [Prog.bind_assoc]
  iapply (SparseCore.wp_subcoreBarrier 𝒱₀ none EB (bRd (F := F) A) d (sc := cV L) (i := jV L) sc_bar0 (grid1.bound 1) hsub1 (L 1) rfl κ (fun _ => 0) (jV L).val
      (fun j => bRd_mem₀ A d _ _ _) (fun _ => rfl) (bRd_expect A d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Htab := (pays_elim (F := F) A d L) $$ Hgot

  ihave Htk := (toks_split (F := F) (ℓ := shLoc d (cV L)) (tok (jL L)) (ffsh A d (cV L))).1 $$ Htab
  icases Htk with ⟨Htd, Ht13, Ht14, Ht15, Ht16, Htr⟩
  ihave Ht13' := (Entails.of_eq (pts_shV (F := F) d L _ _).symm) $$ Ht13
  ihave Ht14' := (Entails.of_eq (pts_shV (F := F) d L _ _).symm) $$ Ht14
  ihave Ht15' := (Entails.of_eq (pts_shV (F := F) d L _ _).symm) $$ Ht15
  ihave Ht16' := (Entails.of_eq (pts_shV (F := F) d L _ _).symm) $$ Ht16

  ihave Hb0h := (halves_split (F := F) _).1 $$ Hb0
  icases Hb0h with ⟨Hb0l, Hb0r⟩
  have hinb := idx_inb (F := F) A d L hidx f0 (tile_body.sl.dma0_1 A d L) rfl
  sl_exec

  sl_for (inv A d L O W (tile_body.sl.dma0_1 A d L) (tile_body.sl.dma0_2 d L fe) f0 f1 hinb)
    $$ [Hmw2 Hout Hb3 Hb5 Hb6 Hb7 Hs10 Hs12 Hs13 Hs14 Hb1 HO Ht14' Ht16' Hb0r Hs9 Ht13' Hb2 Hb0l Hs11 Ht15']
  case region =>
    intro k _
    have hk80 : k.val < 80 := tb_trips_eq ▸ k.isLt
    have hne : ¬ k.val + 1 = 0 ∧ k.val + 1 ≤ 80 := ⟨Nat.succ_ne_zero _, hk80⟩
    rcases Nat.eq_zero_or_pos k.val with hk0 | hk1
    ·
      have hc2 : k1_cond2 k = 1#1 := cond2_lt k (by omega)
      have hcW := condW_zero k hk0
      unfold inv Pre Wr
      rw [if_pos hk0, if_pos hk0, if_neg hne.1, if_neg hne.1, dif_pos hne, dif_pos hne, prevFin_succ]
      unfold preFl Widle gatherFl selfFl
      rw [todo_step k (chunkPair (F := F) d L (A.fo d))]; unfold chunkPair
      iintro ⟨#Hmw, ⟨⟨HoA, HoB⟩, Htodo⟩, Hdone, ⟨%f3, Hb3⟩, ⟨%f5, Hb5⟩, Hs10, Hs12, Hb1, ⟨%W', %hW', HO⟩, Ht14, Ht16, Hb0r,
        ⟨⟨%fd2, Hs9, Ht13, Hb2, Hb0l⟩, ⟨%fd4, Hs11, Ht15⟩⟩, ⟨⟨%f6, Hb6⟩, Hs13, ⟨%f7, Hb7⟩, Hs14⟩⟩
      sl_exec (disch := first | exact hc2 | exact hcW)
      sl_step
      isplitr; · iexact Hmw
      isplitl [Htodo]; · iexact Htodo
      isplitl [Hdone]; · rw [show k.val + 1 - 1 = k.val - 1 by omega]; iexact Hdone
      isplitl [Hb3]; · iexists _; iexact Hb3
      isplitl [Hb5]; · iexists _; iexact Hb5
      isplitl [Hs10]; · iexact Hs10
      isplitl [Hs12]; · iexact Hs12
      isplitl [Hb1]; · iexact Hb1
      isplitl [HO]
      · iexists _; isplitr; swap; · iexact HO
        ipureintro; intro p hp
        rcases Finset.mem_insert.mp hp with hp | hp; · exact .inr (.inl (hp ▸ rfl))
        rcases Finset.mem_insert.mp hp with hp | hp; · exact .inr (.inl (hp ▸ rfl))
        rcases Finset.mem_insert.mp hp with hp | hp; · exact .inr (.inl (hp ▸ rfl))
        rcases Finset.mem_insert.mp hp with hp | hp; · exact .inr (.inl (hp ▸ rfl))
        exact hW' p hp
      isplitl [Ht14]; · iexact Ht14
      isplitl [Ht16]; · iexact Ht16
      isplitl [Hb0r]; · iexact Hb0r
      isplitl [Hs9 Ht13 Hb2 Hb0l Hs11  Ht15]
      · rw [Pstep_pos A d L _ f0 hinb k hc2]; unfold preFl gatherFl selfFl
        isplitl [Hs9 Ht13 Hb2 Hb0l]
        · iexists ((Memref.whole cc1_scratch2).view.writes (Elt F) fd2 [⟨Rect.whole cc1_scratch2.ty.shape, gatherG A d L (tile_body.sl.dma0_1 A d L) f0 hinb ![0, 0] inb_S80x128_S1x64_0_0⟩])
          isplitl [Hs9]; · iexact Hs9
          isplitl [Ht13]; · iexact Ht13
          isplitl [Hb2]; · iexact Hb2
          iexact Hb0l
        · iexists (View.write (Elt F) (Memref.whole cc1_scratch4).view fd4 (selfG A d L (k1_off3 L) (k1_off3_inb L)) Finset.univ)
          isplitl [Hs11]; · iexact Hs11
          iexact Ht15
      · rw [Wfl_eq]; unfold outFl
        isplitl [Hs13 Hb6]
        · iexists _, _; isplitr; swap
          · isplitl [Hs13]; · iexact Hs13
            iexact Hb6
          · ipureintro; value_chunkA (Elt F) k (off_self_c0_zero L k hk0) (off_list_c0_zero k hk0) hfe (hinb _ inb_S80x128_S1x64_0_0 (fun _ => rfl) _)
        · iexists _, _; isplitr; swap
          · isplitl [Hs14]; · iexact Hs14
            iexact Hb7
          · ipureintro; value_chunkB (Elt F) k hfe (hinb _ (k1_off4_inb k) (fun _ => rfl) _)
    · rcases Nat.lt_or_ge k.val 79 with h79 | h79
      ·
        have hkp : ¬ k.val = 0 ∧ k.val ≤ 80 := ⟨by omega, by omega⟩
        have hc2 : k1_cond2 k = 1#1 := cond2_lt k h79
        have hc2p : k1_cond2 (prevFin k.val hkp) = 1#1 := cond2_lt _ (show k.val - 1 < 79 by omega)
        have hcW := condW_pos k hk1
        have hk' : k.val = (prevFin k.val hkp).val + 1 := by show k.val = k.val - 1 + 1; omega
        unfold inv Pre Wr
        rw [if_neg hkp.1, if_neg hkp.1, dif_pos hkp, dif_pos hkp, if_neg hne.1, if_neg hne.1, dif_pos hne, dif_pos hne, prevFin_succ,
          Pstep_pos A d L _ f0 hinb (prevFin k.val hkp) hc2p, Wfl_eq A d L (prevFin k.val hkp)]
        unfold preFl gatherFl selfFl outFl
        rw [todo_step k (chunkPair (F := F) d L (A.fo d))]; unfold chunkPair
        iintro ⟨#Hmw, ⟨⟨HoA, HoB⟩, Htodo⟩, Hdone, ⟨%f3, Hb3⟩, ⟨%f5, Hb5⟩, Hs10, Hs12, Hb1, ⟨%W', %hW', HO⟩, Ht14, Ht16, Hb0r,
          ⟨⟨%fd2, Hs9, Ht13, Hb2, Hb0l⟩, ⟨%fd4, Hs11, Ht15⟩⟩, ⟨⟨%wA, %gA, %hA, Hs13, Hb6⟩, ⟨%wB, %gB, %hB, Hs14, Hb7⟩⟩⟩
        sl_exec (disch := first | exact hc2 | exact hcW)
        sl_step
        isplitr; · iexact Hmw
        isplitl [Htodo]; · iexact Htodo
        isplitl [Hdone Hs13_dst Hs14_dst]
        · rw [done_step k hkp (donePair A d L)]
          isplitl [Hs13_dst Hs14_dst]
          · unfold donePair
            isplitl [Hs13_dst]
            · iapply (chunk_done A d L _ _ _ hA); iexact Hs13_dst
            · iapply (chunk_done A d L _ _ _ hB); iexact Hs14_dst
          · iexact Hdone
        isplitl [Hb3]; · iexists _; iexact Hb3
        isplitl [Hb5]; · iexists _; iexact Hb5
        isplitl [Hs10]; · iexact Hs10
        isplitl [Hs12]; · iexact Hs12
        isplitl [Hb1]; · iexact Hb1
        isplitl [HO]
        · iexists _; isplitr; swap; · iexact HO
          ipureintro; intro p hp
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          exact hW' p hp
        isplitl [Ht14]; · iexact Ht14
        isplitl [Ht16]; · iexact Ht16
        isplitl [Hb0r]; · iexact Hb0r
        isplitl [Hs9 Ht13 Hb2 Hb0l Hs11  Ht15]
        · rw [Pstep_pos A d L _ f0 hinb k hc2]; unfold preFl gatherFl selfFl
          isplitl [Hs9 Ht13 Hb2 Hb0l]
          · iexists ((Memref.whole cc1_scratch2).view.writes (Elt F) fd2 [⟨Rect.whole cc1_scratch2.ty.shape, gatherG A d L (tile_body.sl.dma0_1 A d L) f0 hinb (k1_off8 (prevFin k.val hkp)) (k1_off8_inb (prevFin k.val hkp) hc2p)⟩])
            isplitl [Hs9]; · iexact Hs9
            isplitl [Ht13]; · iexact Ht13
            isplitl [Hb2]; · iexact Hb2
            iexact Hb0l
          · iexists (View.write (Elt F) (Memref.whole cc1_scratch4).view fd4 (selfG A d L (k1_off9 L (prevFin k.val hkp)) (k1_off9_inb L (prevFin k.val hkp) hc2p)) Finset.univ)
            isplitl [Hs11]; · iexact Hs11
            iexact Ht15
        · rw [Wfl_eq]; unfold outFl
          isplitl [Hs13 Hb6]
          · iexists _, _; isplitr; swap
            · isplitl [Hs13]; · iexact Hs13
              iexact Hb6
            · ipureintro; value_chunkA (Elt F) k (off_self_c0_next L _ k hk') (off_list_c0_next _ k hk') hfe (hinb _ (k1_off8_inb _ hc2p) (fun _ => rfl) _)
          · iexists _, _; isplitr; swap
            · isplitl [Hs14]; · iexact Hs14
              iexact Hb7
            · ipureintro; value_chunkB (Elt F) k hfe (hinb _ (k1_off4_inb k) (fun _ => rfl) _)
      ·
        have hkp : ¬ k.val = 0 ∧ k.val ≤ 80 := ⟨by omega, by omega⟩
        have hc2 : ¬ k1_cond2 k = 1#1 := cond2_last k h79
        have hc2p : k1_cond2 (prevFin k.val hkp) = 1#1 := cond2_lt _ (show k.val - 1 < 79 by omega)
        have hcW := condW_pos k hk1
        have hk' : k.val = (prevFin k.val hkp).val + 1 := by show k.val = k.val - 1 + 1; omega
        unfold inv Pre Wr
        rw [if_neg hkp.1, if_neg hkp.1, dif_pos hkp, dif_pos hkp, if_neg hne.1, if_neg hne.1, dif_pos hne, dif_pos hne, prevFin_succ,
          Pstep_pos A d L _ f0 hinb (prevFin k.val hkp) hc2p, Wfl_eq A d L (prevFin k.val hkp)]
        unfold preFl gatherFl selfFl outFl
        rw [todo_step k (chunkPair (F := F) d L (A.fo d))]; unfold chunkPair
        iintro ⟨#Hmw, ⟨⟨HoA, HoB⟩, Htodo⟩, Hdone, ⟨%f3, Hb3⟩, ⟨%f5, Hb5⟩, Hs10, Hs12, Hb1, ⟨%W', %hW', HO⟩, Ht14, Ht16, Hb0r,
          ⟨⟨%fd2, Hs9, Ht13, Hb2, Hb0l⟩, ⟨%fd4, Hs11, Ht15⟩⟩, ⟨⟨%wA, %gA, %hA, Hs13, Hb6⟩, ⟨%wB, %gB, %hB, Hs14, Hb7⟩⟩⟩
        sl_exec (disch := first | exact hc2 | exact hcW)
        sl_step
        isplitr; · iexact Hmw
        isplitl [Htodo]; · iexact Htodo
        isplitl [Hdone Hs13_dst Hs14_dst]
        · rw [done_step k hkp (donePair A d L)]
          isplitl [Hs13_dst Hs14_dst]
          · unfold donePair
            isplitl [Hs13_dst]
            · iapply (chunk_done A d L _ _ _ hA); iexact Hs13_dst
            · iapply (chunk_done A d L _ _ _ hB); iexact Hs14_dst
          · iexact Hdone
        isplitl [Hb3]; · iexists _; iexact Hb3
        isplitl [Hb5]; · iexists _; iexact Hb5
        isplitl [Hs10]; · iexact Hs10
        isplitl [Hs12]; · iexact Hs12
        isplitl [Hb1]; · iexact Hb1
        isplitl [HO]
        · iexists _; isplitr; swap; · iexact HO
          ipureintro; intro p hp
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          rcases Finset.mem_insert.mp hp with hp | hp; · exact .inr (.inl (hp ▸ rfl))
          exact hW' p hp
        isplitl [Ht14]; · iexact Ht14
        isplitl [Ht16]; · iexact Ht16
        isplitl [Hb0r]; · iexact Hb0r
        isplitl [Hs9 Ht13 Hb2 Hb0l Hs11 Hs11_dst Ht15]
        · rw [Pstep_neg A d L _ f0 hinb k hc2]; unfold preIdle
          isplitl [Hb2]; · iexists _; iexact Hb2
          isplitl [Ht13]; · iexact Ht13
          isplitl [Hb0l]; · iexact Hb0l
          isplitl [Hs9]; · iexact Hs9
          isplitl [Hs11_dst]; · iexists _; iexact Hs11_dst
          isplitl [Ht15]; · iexact Ht15
          iexact Hs11
        · rw [Wfl_eq]; unfold outFl
          isplitl [Hs13 Hb6]
          · iexists _, _; isplitr; swap
            · isplitl [Hs13]; · iexact Hs13
              iexact Hb6
            · ipureintro; value_chunkA (Elt F) k (off_self_c0_next L _ k hk') (off_list_c0_next _ k hk') hfe (hinb _ (k1_off8_inb _ hc2p) (fun _ => rfl) _)
          · iexists _, _; isplitr; swap
            · isplitl [Hs14]; · iexact Hs14
              iexact Hb7
            · ipureintro; value_chunkB (Elt F) k hfe (hinb _ (k1_off4_inb k) (fun _ => rfl) _)
  ·
    unfold inv Pre Wr
    rw [if_pos rfl, if_pos rfl]
    unfold preFl Widle gatherFl selfFl
    isplitr; · iexact Hmw2
    isplitl [Hout]
    · rw [trips_ge_zero]
      iapply (Entails.of_eq (show (outRowPts d (wid (cL L) (jL L)) (A.fo d) : sProp 𝕄) = bigSep Finset.univ (chunkPair (F := F) d L (A.fo d)) from
        out_chunks L d fullShare (A.fo d)))
      iexact Hout
    isplitr; · rw [show (0 : ℕ) - 1 = 0 from rfl, trips_lt_zero]; iempintro
    isplitl [Hb3]; · iexists _; iexact Hb3
    isplitl [Hb5]; · iexists _; iexact Hb5
    isplitl [Hs10]; · iexact Hs10
    isplitl [Hs12]; · iexact Hs12
    isplitl [Hb1]; · iexact Hb1
    isplitl [HO]
    · iexists _; isplitr; swap; · iexact HO
      ipureintro; intro p hp
      rcases Finset.mem_insert.mp hp with hp | hp; · exact .inr (.inr (hp ▸ rfl))
      rcases Finset.mem_insert.mp hp with hp | hp; · exact .inr (.inl (hp ▸ rfl))
      rcases Finset.mem_insert.mp hp with hp | hp; · exact .inr (.inl (hp ▸ rfl))
      rcases Finset.mem_insert.mp hp with hp | hp; · exact .inr (.inl (hp ▸ rfl))
      exact .inl hp
    isplitl [Ht14']; · iexact Ht14'
    isplitl [Ht16']; · iexact Ht16'
    isplitl [Hb0r]; · iexact Hb0r
    isplitl [Hs9 Ht13' Hb2 Hb0l Hs11 Ht15']
    · isplitl [Hs9 Ht13' Hb2 Hb0l]
      · iexists f2
        isplitl [Hs9]; · iexact Hs9
        isplitl [Ht13']; · iexact Ht13'
        isplitl [Hb2]; · iexact Hb2
        iexact Hb0l
      · iexists f4
        isplitl [Hs11]; · iexact Hs11
        iexact Ht15'
    · isplitl [Hb6]; · iexists _; iexact Hb6
      isplitl [Hs13]; · iexact Hs13
      isplitl [Hb7]; · iexists _; iexact Hb7
      iexact Hs14

  iintro %acc
  have h80 : Scf.trips k1_t1_loop.lb k1_t1_loop.ub k1_t1_loop.st = 80 := by decide
  rw [show inv A d L O W (tile_body.sl.dma0_1 A d L) (tile_body.sl.dma0_2 d L fe) f0 f1 hinb (Scf.trips k1_t1_loop.lb k1_t1_loop.ub k1_t1_loop.st) acc = inv A d L O W (tile_body.sl.dma0_1 A d L) (tile_body.sl.dma0_2 d L fe) f0 f1 hinb 80 acc from by rw [h80]]
  have hnn : ¬ (80 : ℕ) = 0 ∧ (80 : ℕ) ≤ 80 := ⟨by decide, le_rfl⟩
  have hc2l : ¬ k1_cond2 (prevFin 80 hnn) = 1#1 := cond2_last _ (show 79 ≤ 80 - 1 from le_rfl)
  unfold inv Pre Wr
  rw [if_neg hnn.1, if_neg hnn.1, dif_pos hnn, dif_pos hnn, Pstep_neg A d L _ f0 hinb _ hc2l, Wfl_eq, trips_ge_end, show (80 : ℕ) - 1 = 79 from rfl]
  unfold preIdle outFl
  iintro ⟨-, -, Hdone, ⟨%f3', Hb3⟩, ⟨%f5', Hb5⟩, Hs10, Hs12, Hb1, ⟨%W', %hW', HO⟩, Ht14, Ht16, Hb0r,
    ⟨⟨%f2', Hb2⟩, Ht13, Hb0l, Hs9, ⟨%f4', Hb4⟩, Ht15, Hs11⟩, ⟨⟨%wA, %gA, %hA, Hs13, Hb6⟩, ⟨%wB, %gB, %hB, Hs14, Hb7⟩⟩⟩
  sl_exec
  sl_step
  rw [tdRes_eq]
  isplitl [Hfeats' Hidx' Hew' Hdone Hs13_dst Hs14_dst Hrest Htd Htr Ht13 Ht14 Ht15 Ht16]
  · isplitl [Hfeats']; · iapply (Entails.of_eq (pts_featsSegK (F := F) d L _ _)); iexact Hfeats'
    isplitl [Hidx']; · iapply (Entails.of_eq (pts_idxRowK (F := F) d L _ _)); iexact Hidx'
    isplitl [Hew']
    · iexists fe; isplitr; · ipureintro; exact hfe
      iapply (Entails.of_eq (pts_ewRowK (F := F) d L _ _)); iexact Hew'
    isplitl [Hdone Hs13_dst Hs14_dst]
    · iapply (done_join A d L)
      rw [← trips_lt_end (donePair A d L), trips_lt_step (donePair A d L) 79 (by decide)]
      isplitl [Hs13_dst Hs14_dst]
      · unfold donePair
        isplitl [Hs13_dst]
        · iapply (chunk_done A d L _ _ _ hA); iexact Hs13_dst
        · iapply (chunk_done A d L _ _ _ hB); iexact Hs14_dst
      · iexact Hdone
    isplitl [Hrest]; · iexact Hrest
    iapply (Entails.of_eq (tb_shPts_segs (F := F) d (cV L) (tok (jL L)) (ffsh A d (cV L))))
    iapply (toks_split (F := F) (ℓ := shLoc d (cV L)) (tok (jL L)) (ffsh A d (cV L))).2
    isplitl [Htd]; · iexact Htd
    isplitl [Ht13]; · iapply (Entails.of_eq (pts_shV (F := F) d L _ _)); iexact Ht13
    isplitl [Ht14]; · iapply (Entails.of_eq (pts_shV (F := F) d L _ _)); iexact Ht14
    isplitl [Ht15]; · iapply (Entails.of_eq (pts_shV (F := F) d L _ _)); iexact Ht15
    isplitl [Ht16]; · iapply (Entails.of_eq (pts_shV (F := F) d L _ _)); iexact Ht16
    iexact Htr
  isplitl [Hb0l Hb0r Hb1 Hb2 Hb3 Hb4 Hb5 Hb6 Hb7 Hbufs]
  · isplitl [Hb0l Hb0r]
    · iexists _; iapply (halves_split (F := F) _).2
      isplitl [Hb0l]; · iexact Hb0l
      iexact Hb0r
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    iexact Hbufs
  isplitl [HsA HsB HsC Hs9 Hs10 Hs11 Hs12 Hs13 Hs14 Hsems]
  · isplitl [HsA]; · iexact HsA
    isplitl [HsB]; · iexact HsB
    isplitl [HsC]; · iexact HsC
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact Hsems
  iexists _; isplitr; swap; · iexact HO
  ipureintro; intro p hp
  rcases Finset.mem_insert.mp hp with hp | hp; · exact .inr (.inl (hp ▸ rfl))
  rcases Finset.mem_insert.mp hp with hp | hp; · exact .inr (.inl (hp ▸ rfl))
  exact hW' p hp

end Cert.Proof.KB

end
-- ==== Proof.KB.HostRead.lean ====
import proofs.«204698_g79517024518204_fold_wed_m_581_46_alg».proof.Proof.Gen.Kernel
import Idealize.ShloMosaic.Lib.ValueIdx
import Idealize.ShloMosaic.Lib.Pipeline.Value
import Idealize.ShloMosaic.Lib.KernelVsHost

namespace Cert.Proof.KB

open Cert.Kernel Idealize.ShloMosaic Idealize.ShloMosaic.ValueIdx

variable {α : Type}

theorem read_x (a0 : S1x10000x128.Idx → α) (h : S1x10000x128.ShapeCasts S10000x128) (n : Fin 10000) (k : Fin 128) :
    shapeCast S10000x128 a0 h (ix2 n k) = a0 (ix3 (0 : Fin 1) n k) := by
  refine shapeCast_apply a0 h _ _ ?_
  rw [Shape.rowMajor_val_three, Shape.rowMajor_val_two]
  show (0 * 10000 + n.val) * 128 + k.val = n.val * 128 + k.val
  omega

theorem read_cond (a1 : S1x1x128.Idx → α) (h : S1x1x128.ShapeCasts S1x128) (k : Fin 128) :
    shapeCast S1x128 a1 h (ix2 (0 : Fin 1) k) = a1 (ix3 (0 : Fin 1) (0 : Fin 1) k) := by
  refine shapeCast_apply a1 h _ _ ?_
  rw [Shape.rowMajor_val_three, Shape.rowMajor_val_two]
  show (0 * 1 + 0) * 128 + k.val = 0 * 128 + k.val
  omega

theorem read_g (a6 : S256.Idx → α) (h : S256.ShapeCasts S256x1) (r : Fin 256) :
    shapeCast S256x1 a6 h (ix2 r (0 : Fin 1)) = a6 (ix1 r) := by
  refine shapeCast_apply a6 h _ _ ?_
  rw [Shape.rowMajor_val_one, Shape.rowMajor_val_two]
  show r.val = r.val * 1 + 0
  omega

theorem read_b (a7 : S256.Idx → α) (h : S256.ShapeCasts S1x256) (r : Fin 256) :
    shapeCast S1x256 a7 h (ix2 (0 : Fin 1) r) = a7 (ix1 r) := by
  refine shapeCast_apply a7 h _ _ ?_
  rw [Shape.rowMajor_val_one, Shape.rowMajor_val_two]
  show r.val = 0 * 256 + r.val
  omega

theorem read_bf (a9 : S128.Idx → α) (h : S128.ShapeCasts S1x128) (o : Fin 128) :
    shapeCast S1x128 a9 h (ix2 (0 : Fin 1) o) = a9 (ix1 o) := by
  refine shapeCast_apply a9 h _ _ ?_
  rw [Shape.rowMajor_val_one, Shape.rowMajor_val_two]
  show o.val = 0 * 128 + o.val
  omega

theorem read_w (a3 : S1x320000x1.Idx → α) (h : S1x320000x1.ShapeCasts S2500x128) (r : Fin 2500) (j : Fin 128) :
    shapeCast S2500x128 a3 h (ix2 r j) = a3 (ix3 (0 : Fin 1) (⟨128 * r.val + j.val, by omega⟩ : Fin 320000) (0 : Fin 1)) := by
  refine shapeCast_apply a3 h _ _ ?_
  rw [Shape.rowMajor_val_three, Shape.rowMajor_val_two]
  show (0 * 320000 + (128 * r.val + j.val)) * 1 + 0 = r.val * 128 + j.val
  omega

theorem read_idx (a2 : S320000.Idx → α) (z : S_.Idx → α) (hp : S320000.Pads (![0] : Fin 1 → Nat) ![7680] ![0] S327680) (hz : 0 < S_.numel)
    (h : S327680.ShapeCasts S2560x128) (r : Fin 2560) (j : Fin 128) :
    shapeCast S2560x128 (pad S327680 ![0] ![7680] ![0] a2 z hp hz) h (ix2 r j)
      = if hlt : 128 * r.val + j.val < 320000 then a2 (ix1 (⟨128 * r.val + j.val, hlt⟩ : Fin 320000)) else z ix0 := by
  refine (shapeCast_apply _ h (ix2 r j) (ix1 (⟨128 * r.val + j.val, by omega⟩ : Fin 327680)) ?_).trans ?_
  · rw [Shape.rowMajor_val_one, Shape.rowMajor_val_two]
    show 128 * r.val + j.val = r.val * 128 + j.val
    omega
  · split
    · next hlt =>
      refine pad_apply_of_inside _ _ _ a2 z hp hz _ (ix1 (⟨128 * r.val + j.val, hlt⟩ : Fin 320000)) fun a => ?_
      obtain rfl : a = 0 := Subsingleton.elim _ _
      show 128 * r.val + j.val = 0 + (128 * r.val + j.val) * (0 + 1)
      omega
    · next hge =>
      refine (pad_apply_of_not_inside _ _ _ a2 z hp hz _ 0 ?_).trans (congrArg z (eq_ix0 _))
      show ¬(0 ≤ 128 * r.val + j.val ∧ (128 * r.val + j.val - 0) % 1 = 0 ∧ (128 * r.val + j.val - 0) / 1 < 320000)
      omega

theorem read_out (f : S10240x128.Idx → α) (hs : S10240x128.Slices ![0, 0] S10000x128) (h : S10000x128.ShapeCasts S1x10000x128)
    (n : Fin 10000) (o : Fin 128) :
    shapeCast S1x10000x128 (extractStridedSlice S10000x128 ![0, 0] f hs) h (ix3 (0 : Fin 1) n o)
      = f (ix2 (⟨n.val, by omega⟩ : Fin 10240) o) := by
  refine (shapeCast_apply _ h (ix3 (0 : Fin 1) n o) (ix2 n o) ?_).trans ?_
  · rw [Shape.rowMajor_val_two, Shape.rowMajor_val_three]
    show n.val * 128 + o.val = (0 * 10000 + n.val) * 128 + o.val
    omega
  · exact extractStridedSlice_apply ![0, 0] f hs (ix2 n o) (ix2 (⟨n.val, by omega⟩ : Fin 10240) o) fun a =>
      match a with
      | ⟨0, _⟩ => (Nat.zero_add _).symm
      | ⟨1, _⟩ => (Nat.zero_add _).symm

end Cert.Proof.KB
-- ==== Proof.KB.Main.lean ====
import proofs.«204698_g79517024518204_fold_wed_m_581_46_alg».proof.Proof.KB.MainDefs
import proofs.«204698_g79517024518204_fold_wed_m_581_46_alg».proof.Proof.KB.MainParts
import proofs.«204698_g79517024518204_fold_wed_m_581_46_alg».proof.Proof.KB.TileBody
import proofs.«204698_g79517024518204_fold_wed_m_581_46_alg».proof.Proof.KB.HostRead

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within after)
open Idealize.ShloMosaic.ValueIdx (ix2 ix3)

variable {F : FTy → Type} [FloatOps F]

local notation "𝕄" => MT nD τ sig (HIx 1) (Elt F) ℕ UU ℕ

variable (m : (ℓ : Loc nD τ sig) → Buf (Elt F) ℓ) (ρ : Dev nD → PrngReg)

variable (FEATS : (d : Dev nD) → Buf (Elt F) (featsLoc d))

def RegionStep : Prop :=
  ∀ (Vf : (c : Dev nD) → (b : Ref sig .tc) → Buf (Elt F) ((c.tc : Thread nD τ).loc b)) (O : Dev nD → CellTallies nD τ sig (HIx 1))
    (_ : Vf = VR m)
    (_ : ∀ (c : Dev nD) (sm : SemLoc sig), (levAts (K (F := F)).L (K (F := F)).lev : sProp 𝕄) ⊢ MayWait (c.tc : Thread nD τ) sm none (O c))
    (c : Dev nD),
    iprop(levAts (K (F := F)).L (K (F := F)).lev ∗ regPre c (Vf c) (O c))
      ⊢ wp frame (wpE (D (F := F)) 𝒱 (SparseCore.T c) none) Set.univ
          (Prog.lift (.customCall (Pipeline.entry (0 : Fin 1)) ()) : Prog (TpuEff nD τ sig (Elt F) (ΛP (F := F)) .tc) PUnit)
          fun _ => regPost FEATS c (Vf c) (O c)

def ops4 : List (HloOp τ sig (Elt F)) :=
  [StableHlo.nullary main_c (constantI S_ 32 0#32),
   StableHlo.TRef.unary (.of main_c : StableHlo.TRef sig ⟨S_, .i32⟩) main_call0.v0 id,
   StableHlo.TRef.binary (.of main_arg2 : StableHlo.TRef sig ⟨S320000, .i32⟩) main_call0.v0 main_call0.v1 (fun x v => pad S327680 ![0] ![7680] ![0] x v pads_S320000_S327680_076800 h_S_),
   StableHlo.reshape main_v8 main_v9 rfl shapeCasts_S327680_S2560x128]

def ops2 : List (HloOp τ sig (Elt F)) :=
  [StableHlo.unary main_v10 main_v11 ((extractStridedSlice S10000x128 ![0, 0] · slices_S10240x128_S10000x128_0_0) : (⟨S10240x128, .f32⟩ : BufTy).Contents (Elt F) → (⟨S10000x128, .f32⟩ : BufTy).Contents (Elt F)),
   StableHlo.reshape main_v11 main_v12 rfl shapeCasts_S10000x128_S1x10000x128]

theorem main_eq (d : Dev nD) : main (F := F) d =
    (StableHlo.seq ops7 >>= fun _ => (Prog.lift (.customCall (SparseCore.inner (Pipeline.entry 0)) ()) >>= fun _ =>
      (StableHlo.seq ops4 >>= fun _ => ((sc (F := F)).run d 0 >>= fun _ => (StableHlo.seq ops2 >>= fun _ => pure ⟨⟩))))) := rfl

omit [FloatOps F] in
theorem R26_eq : (Finset.univ.filter fun b : Ref sig .tc => ¬ b.isScoped) = R26 := by decide

theorem held_map (d : Dev nD) (R : Finset (Ref sig .tc)) (W : Valuation τ sig (Elt F)) :
    (held (SparseCore.T d) (R.map ⟨Proc.devRef .tc, Proc.devRef_injective _⟩) W : sProp 𝕄)
      = bigSep R fun b => (((SparseCore.T d).loc b) ↦{fullShare} W (dr b) : sProp 𝕄) := by
  unfold held
  rw [bigSep_map]
  rfl

theorem unscoped_held (d : Dev nD) : (unscopedBufs d (fun b => m ((SparseCore.T d).loc b)) : sProp 𝕄) = held (SparseCore.T d) S26 (V0 m d) := by
  unfold S26
  rw [held_map, unscopedBufs, R26_eq]
  rfl

omit [FloatOps F] in
theorem sub26 {A : Finset (Ref sig .tc)} (h : A ⊆ R26) : A.map ⟨Proc.devRef (τ := τ) .tc, Proc.devRef_injective _⟩ ⊆ S26 :=
  Finset.map_subset_map.mpr h

theorem h7 : ∀ op ∈ (ops7 (F := F)), op.bufs ⊆ S26 := by
  intro op hop
  simp only [ops7, List.mem_cons, List.not_mem_nil, or_false] at hop
  rcases hop with rfl | rfl | rfl | rfl | rfl | rfl | rfl
  · exact sub26 (A := {main_arg0, main_v0}) (by decide)
  · exact sub26 (A := {main_arg1, main_v1}) (by decide)
  · exact sub26 (A := {main_arg6, main_v2}) (by decide)
  · exact sub26 (A := {main_arg7, main_v3}) (by decide)
  · exact sub26 (A := {main_arg9, main_v4}) (by decide)
  · exact sub26 (A := {main_arg3, main_v5}) (by decide)
  · exact sub26 (A := {main_arg4, main_v6}) (by decide)
theorem h7f : ∀ op ∈ (ops7 (F := F)), op.fresh = ∅ := by
  intro op hop
  simp only [ops7, List.mem_cons, List.not_mem_nil, or_false] at hop
  rcases hop with rfl | rfl | rfl | rfl | rfl | rfl | rfl <;> rfl
theorem h4 : ∀ op ∈ (ops4 (F := F)), op.bufs ⊆ S26 := by
  intro op hop
  simp only [ops4, List.mem_cons, List.not_mem_nil, or_false] at hop
  rcases hop with rfl | rfl | rfl | rfl
  · exact sub26 (A := {main_c}) (by decide)
  · exact sub26 (A := {main_c, main_call0_v0}) (by decide)
  · exact sub26 (A := {main_arg2, main_call0_v0, main_v8}) (by decide)
  · exact sub26 (A := {main_v8, main_v9}) (by decide)
theorem h4f : ∀ op ∈ (ops4 (F := F)), op.fresh = ∅ := by
  intro op hop
  simp only [ops4, List.mem_cons, List.not_mem_nil, or_false] at hop
  rcases hop with rfl | rfl | rfl | rfl <;> rfl

def callRefs : Finset (Ref sig .tc) := {main_v7_0, main_v9, main_v7_1, main_v10}

omit [FloatOps F] in
theorem subMap {A B : Finset (Ref sig .tc)} (h : A ⊆ B) :
    A.map ⟨Proc.devRef (τ := τ) .tc, Proc.devRef_injective _⟩ ⊆ B.map ⟨Proc.devRef (τ := τ) .tc, Proc.devRef_injective _⟩ :=
  Finset.map_subset_map.mpr h

theorem h2 : ∀ op ∈ (ops2 (F := F)), op.bufs ⊆ (insert main_v10 (R26 \ callRefs)).map ⟨Proc.devRef (τ := τ) .tc, Proc.devRef_injective _⟩ := by
  intro op hop
  simp only [ops2, List.mem_cons, List.not_mem_nil, or_false] at hop
  rcases hop with rfl | rfl
  · exact subMap (A := {main_v10, main_v11}) (B := insert main_v10 (R26 \ callRefs)) (by decide)
  · exact subMap (A := {main_v11, main_v12}) (B := insert main_v10 (R26 \ callRefs)) (by decide)
theorem h2f : ∀ op ∈ (ops2 (F := F)), op.fresh = ∅ := by
  intro op hop
  simp only [ops2, List.mem_cons, List.not_mem_nil, or_false] at hop
  rcases hop with rfl | rfl <;> rfl

def W7 : List (Ref sig .tc) := [main_v0, main_v1, main_v2, main_v3, main_v4, main_v5, main_v6]
def W4 : List (Ref sig .tc) := [main_c, main_call0_v0, main_v8, main_v9]
def W2 : List (Ref sig .tc) := [main_v11, main_v12]

omit [FloatOps F] in
theorem wsub {W : List (Ref sig .tc)} {y : Ref sig .tc} (h : y ∈ W) :
    ({dr y} : Finset (DevRef τ sig)) ⊆ (W.map (Proc.devRef (τ := τ) .tc)).toFinset := by
  intro b hb
  rw [Finset.mem_singleton] at hb
  subst hb
  exact List.mem_toFinset.mpr (List.mem_map_of_mem h)

theorem hW7 : (ops7 (F := F)).Forall fun op => op.writes ⊆ (W7.map (Proc.devRef (τ := τ) .tc)).toFinset :=
  ⟨wsub (y := main_v0) (by decide), wsub (y := main_v1) (by decide), wsub (y := main_v2) (by decide), wsub (y := main_v3) (by decide),
    wsub (y := main_v4) (by decide), wsub (y := main_v5) (by decide), wsub (y := main_v6) (by decide)⟩
theorem hW4 : (ops4 (F := F)).Forall fun op => op.writes ⊆ (W4.map (Proc.devRef (τ := τ) .tc)).toFinset :=
  ⟨wsub (y := main_c) (by decide), wsub (y := main_call0_v0) (by decide), wsub (y := main_v8) (by decide), wsub (y := main_v9) (by decide)⟩
theorem hW2 : (ops2 (F := F)).Forall fun op => op.writes ⊆ (W2.map (Proc.devRef (τ := τ) .tc)).toFinset :=
  ⟨wsub (y := main_v11) (by decide), wsub (y := main_v12) (by decide)⟩

def V2 (d : Dev nD) (EW : Buf (Elt F) (ewLoc d)) : Valuation τ sig (Elt F) :=
  Function.update (Function.update (V1 m d) (dr main_v7_0) (FEATS d)) (dr main_v7_1) EW

def V3 (d : Dev nD) (EW : Buf (Elt F) (ewLoc d)) : Valuation τ sig (Elt F) := after ops4 (V2 m FEATS d EW)

def V4 (d : Dev nD) (EW : Buf (Elt F) (ewLoc d)) (fo : Buf (Elt F) (outLoc d)) : Valuation τ sig (Elt F) :=
  Function.update (V3 m FEATS d EW) (dr main_v10) fo
def V5 (d : Dev nD) (EW : Buf (Elt F) (ewLoc d)) (fo : Buf (Elt F) (outLoc d)) : Valuation τ sig (Elt F) := after ops2 (V4 m FEATS d EW fo)

omit [FloatOps F] in
theorem dr_ne {a b : Ref sig .tc} (h : a ≠ b) : dr a ≠ dr b := fun e => h (Proc.devRef_injective _ e)

theorem V1_keep (d : Dev nD) {r : Ref sig .tc} (hr : r ∉ W7) : V1 m d (dr r) = m ((SparseCore.T d).loc r) :=
  StableHlo.after_of_writes_sub ops7 (V0 m d) hW7 hr
theorem V2_keep (d : Dev nD) (EW : Buf (Elt F) (ewLoc d)) {r : Ref sig .tc} (h0 : r ≠ main_v7_0) (h1 : r ≠ main_v7_1) :
    V2 m FEATS d EW (dr r) = V1 m d (dr r) := by
  unfold V2
  rw [Function.update_of_ne (dr_ne h1), Function.update_of_ne (dr_ne h0)]
theorem V3_keep (d : Dev nD) (EW : Buf (Elt F) (ewLoc d)) {r : Ref sig .tc} (hr : r ∉ W4) : V3 m FEATS d EW (dr r) = V2 m FEATS d EW (dr r) :=
  StableHlo.after_of_writes_sub ops4 (V2 m FEATS d EW) hW4 hr
theorem V5_keep (d : Dev nD) (EW : Buf (Elt F) (ewLoc d)) (fo : Buf (Elt F) (outLoc d)) {r : Ref sig .tc} (hr : r ∉ W2) :
    V5 m FEATS d EW fo (dr r) = V4 m FEATS d EW fo (dr r) :=
  StableHlo.after_of_writes_sub ops2 (V4 m FEATS d EW fo) hW2 hr

theorem V3_feats (d : Dev nD) (EW : Buf (Elt F) (ewLoc d)) : V3 m FEATS d EW (dr main_v7_0) = FEATS d := by
  rw [V3_keep m FEATS d EW (by decide)]
  unfold V2
  rw [Function.update_of_ne (dr_ne (by decide)), Function.update_self]
theorem V3_ew (d : Dev nD) (EW : Buf (Elt F) (ewLoc d)) : V3 m FEATS d EW (dr main_v7_1) = EW := by
  rw [V3_keep m FEATS d EW (by decide)]
  unfold V2
  rw [Function.update_self]
theorem V3_out (d : Dev nD) (EW : Buf (Elt F) (ewLoc d)) : V3 m FEATS d EW (dr main_v10) = m (outLoc d) := by
  rw [V3_keep m FEATS d EW (by decide), V2_keep m FEATS d EW (by decide) (by decide), V1_keep m d (by decide)]
theorem V3_idx (d : Dev nD) (EW : Buf (Elt F) (ewLoc d)) : V3 m FEATS d EW (dr main_v9) = fiOf m d := by
  have ha2 : V2 m FEATS d EW (dr main_arg2) = argAt m d main_arg2 := by
    rw [V2_keep m FEATS d EW (by decide) (by decide), V1_keep m d (by decide)]
  unfold V3 ops4 fiOf
  rw [← ha2]
  rfl
theorem V5_arg (d : Dev nD) (EW : Buf (Elt F) (ewLoc d)) (fo : Buf (Elt F) (outLoc d)) (b : Ref sig .tc) (hb : b ∈ argRefs) :
    V5 m FEATS d EW fo (dr b) = argAt m d b := by
  have hb2 : b ∉ W2 := by revert b; decide
  have hb10 : b ≠ main_v10 := by revert b; decide
  have hb4 : b ∉ W4 := by revert b; decide
  have hb70 : b ≠ main_v7_0 := by revert b; decide
  have hb71 : b ≠ main_v7_1 := by revert b; decide
  have hb7 : b ∉ W7 := by revert b; decide
  rw [V5_keep m FEATS d EW fo hb2]
  unfold V4
  rw [Function.update_of_ne (dr_ne hb10), V3_keep m FEATS d EW hb4, V2_keep m FEATS d EW hb70 hb71, V1_keep m d hb7]
theorem V5_res (d : Dev nD) (EW : Buf (Elt F) (ewLoc d)) (fo : Buf (Elt F) (outLoc d)) :
    V5 m FEATS d EW fo (dr main_v12)
      = shapeCast S1x10000x128 (extractStridedSlice S10000x128 ![0, 0] fo slices_S10240x128_S10000x128_0_0) shapeCasts_S10000x128_S1x10000x128 := by
  have h10 : V4 m FEATS d EW fo (dr main_v10) = fo := by unfold V4; rw [Function.update_self]
  unfold V5 ops2
  rw [← h10]
  rfl

theorem Otc_none (d : Dev nD) (g : GSem nD τ sig) : (K (F := F)).Otc d 0 g none = 0 := by
  by_contra h
  have h1 := SparseCore.Cfg.lev_of_Otc_pos (K := K (F := F)) (d := d) (n := 0) (g := g) (ι := none) (Nat.pos_of_ne_zero h)
  have h0 : (K (F := F)).lev g none = 0 := rfl
  rw [h0] at h1
  omega

omit [FloatOps F] in
theorem bigSep_regRefs (Φ : Ref sig .tc → sProp 𝕄) : bigSep regRefs Φ = iprop(Φ main_v7_0 ∗ Φ main_v7_1 ∗ bigSep regOps Φ) := by
  unfold regRefs
  rw [SparseCore.bigSep_insert' (by decide), SparseCore.bigSep_insert' (by decide)]
omit [FloatOps F] in
theorem bigSep_callRefs (Φ : Ref sig .tc → sProp 𝕄) :
    bigSep callRefs Φ = iprop(Φ main_v7_0 ∗ Φ main_v9 ∗ Φ main_v7_1 ∗ Φ main_v10) := by
  unfold callRefs
  rw [SparseCore.bigSep_insert' (by decide), SparseCore.bigSep_insert' (by decide), SparseCore.bigSep_insert' (by decide), bigSep_singleton]

theorem held_V1 (d : Dev nD) :
    (held (d.tc : Thread nD τ) S26 (after ops7 (V0 m d)) : sProp 𝕄)
      ⊢ iprop((bigSep regRefs fun b => (((d.tc : Thread nD τ).loc b) ↦{fullShare} VR m d b : sProp 𝕄))
          ∗ bigSep (R26 \ regRefs) fun b => (((SparseCore.T d).loc b) ↦{fullShare} V1 m d (dr b) : sProp 𝕄)) := by
  show (held (SparseCore.T d) S26 (V1 m d) : sProp 𝕄) ⊢ _
  unfold S26
  rw [held_map, SparseCore.bigSep_sdiff_split' (show regRefs ⊆ R26 by decide)]
  exact Entails.refl _

theorem held_V2 (d : Dev nD) (EW : Buf (Elt F) (ewLoc d)) :
    iprop((featsLoc d ↦{fullShare} FEATS d) ∗ (ewLoc d ↦{fullShare} EW)
        ∗ (bigSep regOps fun b => (((d.tc : Thread nD τ).loc b) ↦{fullShare} VR m d b : sProp 𝕄))
        ∗ bigSep (R26 \ regRefs) fun b => (((SparseCore.T d).loc b) ↦{fullShare} V1 m d (dr b) : sProp 𝕄))
      ⊢ (held (d.tc : Thread nD τ) S26 (V2 m FEATS d EW) : sProp 𝕄) := by
  have e0 : V2 m FEATS d EW (dr main_v7_0) = FEATS d := by
    unfold V2; rw [Function.update_of_ne (dr_ne (by decide)), Function.update_self]
  have e1 : V2 m FEATS d EW (dr main_v7_1) = EW := by unfold V2; rw [Function.update_self]
  have hc1 : (bigSep regOps fun b => (((SparseCore.T d).loc b) ↦{fullShare} V2 m FEATS d EW (dr b) : sProp 𝕄))
      = bigSep regOps fun b => (((d.tc : Thread nD τ).loc b) ↦{fullShare} VR m d b : sProp 𝕄) :=
    bigSep_congr fun b hb => by
      have h0 : b ≠ main_v7_0 := by revert b; decide
      have h1 : b ≠ main_v7_1 := by revert b; decide
      rw [V2_keep m FEATS d EW h0 h1]; rfl
  have hc2 : (bigSep (R26 \ regRefs) fun b => (((SparseCore.T d).loc b) ↦{fullShare} V2 m FEATS d EW (dr b) : sProp 𝕄))
      = bigSep (R26 \ regRefs) fun b => (((SparseCore.T d).loc b) ↦{fullShare} V1 m d (dr b) : sProp 𝕄) :=
    bigSep_congr fun b hb => by
      have h0 : b ≠ main_v7_0 := by revert b; decide
      have h1 : b ≠ main_v7_1 := by revert b; decide
      rw [V2_keep m FEATS d EW h0 h1]
  show _ ⊢ (held (SparseCore.T d) S26 (V2 m FEATS d EW) : sProp 𝕄)
  unfold S26
  rw [held_map, SparseCore.bigSep_sdiff_split' (show regRefs ⊆ R26 by decide), bigSep_regRefs, hc1, hc2, e0, e1]
  iintro ⟨Hf, He, Ho, Hr⟩
  isplitl [Hf He Ho]
  · isplitl [Hf]; · iexact Hf
    isplitl [He]; · iexact He
    iexact Ho
  · iexact Hr

theorem held_V3 (d : Dev nD) (EW : Buf (Elt F) (ewLoc d)) :
    (held (d.tc : Thread nD τ) S26 (after ops4 (V2 m FEATS d EW)) : sProp 𝕄)
      ⊢ iprop((featsLoc d ↦{fullShare} FEATS d) ∗ (idxLoc d ↦{fullShare} fiOf m d) ∗ (ewLoc d ↦{fullShare} EW) ∗ (outLoc d ↦{fullShare} m (outLoc d))
          ∗ bigSep (R26 \ callRefs) fun b => (((SparseCore.T d).loc b) ↦{fullShare} V3 m FEATS d EW (dr b) : sProp 𝕄)) := by
  show (held (SparseCore.T d) S26 (V3 m FEATS d EW) : sProp 𝕄) ⊢ _
  unfold S26
  rw [held_map, SparseCore.bigSep_sdiff_split' (show callRefs ⊆ R26 by decide), bigSep_callRefs, V3_feats, V3_idx, V3_ew, V3_out]
  iintro ⟨⟨Hf, Hi, He, Ho⟩, Hr⟩
  isplitl [Hf]; · iexact Hf
  isplitl [Hi]; · iexact Hi
  isplitl [He]; · iexact He
  isplitl [Ho]; · iexact Ho
  iexact Hr

theorem held_V4 (d : Dev nD) (EW : Buf (Elt F) (ewLoc d)) (fo : Buf (Elt F) (outLoc d)) :
    iprop((outLoc d ↦{fullShare} fo) ∗ bigSep (R26 \ callRefs) fun b => (((SparseCore.T d).loc b) ↦{fullShare} V3 m FEATS d EW (dr b) : sProp 𝕄))
      ⊢ (held (d.tc : Thread nD τ) ((insert main_v10 (R26 \ callRefs)).map ⟨Proc.devRef (τ := τ) .tc, Proc.devRef_injective _⟩) (V4 m FEATS d EW fo) : sProp 𝕄) := by
  have e : V4 m FEATS d EW fo (dr main_v10) = fo := by unfold V4; rw [Function.update_self]
  have hc : (bigSep (R26 \ callRefs) fun b => (((SparseCore.T d).loc b) ↦{fullShare} V4 m FEATS d EW fo (dr b) : sProp 𝕄))
      = bigSep (R26 \ callRefs) fun b => (((SparseCore.T d).loc b) ↦{fullShare} V3 m FEATS d EW (dr b) : sProp 𝕄) :=
    bigSep_congr fun b hb => by
      have h0 : b ≠ main_v10 := by revert b; decide
      unfold V4; rw [Function.update_of_ne (dr_ne h0)]
  show _ ⊢ (held (SparseCore.T d) ((insert main_v10 (R26 \ callRefs)).map ⟨Proc.devRef (τ := τ) .tc, Proc.devRef_injective _⟩) (V4 m FEATS d EW fo) : sProp 𝕄)
  rw [held_map, SparseCore.bigSep_insert' (by decide), hc, e]

theorem held_V5 (d : Dev nD) (EW : Buf (Elt F) (ewLoc d)) (fo : Buf (Elt F) (outLoc d)) :
    (held (d.tc : Thread nD τ) ((insert main_v10 (R26 \ callRefs)).map ⟨Proc.devRef (τ := τ) .tc, Proc.devRef_injective _⟩) (after ops2 (V4 m FEATS d EW fo)) : sProp 𝕄)
      ⊢ iprop((bigSep argRefs fun b => (((SparseCore.T d).loc b) ↦{fullShare} argAt m d b : sProp 𝕄))
          ∗ ((SparseCore.T d).loc main_v12) ↦{fullShare} V5 m FEATS d EW fo (dr main_v12)) := by
  have hc : (bigSep argRefs fun b => (((SparseCore.T d).loc b) ↦{fullShare} V5 m FEATS d EW fo (dr b) : sProp 𝕄))
      = bigSep argRefs fun b => (((SparseCore.T d).loc b) ↦{fullShare} argAt m d b : sProp 𝕄) :=
    bigSep_congr fun b hb => by rw [V5_arg m FEATS d EW fo b hb]
  have h1 : (bigSep (insert main_v10 (R26 \ callRefs)) fun b => (((SparseCore.T d).loc b) ↦{fullShare} V5 m FEATS d EW fo (dr b) : sProp 𝕄))
      ⊢ bigSep (insert main_v12 argRefs) fun b => (((SparseCore.T d).loc b) ↦{fullShare} V5 m FEATS d EW fo (dr b) : sProp 𝕄) :=
    bigSep_subset (by decide)
  rw [SparseCore.bigSep_insert' (i := main_v12) (s := argRefs) (by decide), hc] at h1
  show (held (SparseCore.T d) ((insert main_v10 (R26 \ callRefs)).map ⟨Proc.devRef (τ := τ) .tc, Proc.devRef_injective _⟩) (V5 m FEATS d EW fo) : sProp 𝕄) ⊢ _
  rw [held_map]
  refine h1.trans ?_
  iintro ⟨H12, Hargs⟩
  isplitl [Hargs]; · iexact Hargs
  iexact H12

theorem ew_agrees (d : Dev nD) (EW : Buf (Elt F) (ewLoc d))
    (hEW : ∀ (r : Fin 2500) (j : Fin 128),
      EW (ix2 (⟨r.val, by omega⟩ : Fin 2560) j) = FloatOps.mulf (VR m d main_v5 (ix2 r j)) (VR m d main_v6 (ix2 r j))) :
    ∀ j : S2560x128.Idx, (j 0).val < 2500 → EW j = feOf m d j := by
  intro j hj
  unfold feOf
  rw [dif_pos hj]
  exact (congrArg EW (ValueIdx.eq_ix2 j)).trans (hEW ⟨(j 0).val, hj⟩ (j 1))

theorem tcSt_focus (d : Dev nD) :
    ((K (F := F)).tcSt EH d 0 : sProp 𝕄)
      ⊢ iprop(owesPart (F := F) d ((K (F := F)).Otc d 0) ∗ (owesPart (F := F) d ((K (F := F)).Otc d 0) -∗ (K (F := F)).tcSt EH d 0)) := by
  unfold SparseCore.Cfg.tcSt owesPart
  iintro ⟨Hown, Hrest⟩
  isplitl [Hown]; · iexact Hown
  iintro Hown
  isplitl [Hown]; · iexact Hown
  iexact Hrest

set_option backward.isDefEq.respectTransparency.types false in
theorem hmain (hreg : RegionStep m FEATS) (κ : GSem nD τ sig → ℕ) (d : Dev nD) :
    iprop((K (F := F)).ctx EH (P (opsOf m FEATS)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m FEATS d) := by
  have hmw : ∀ (c : Dev nD) (sm : SemLoc sig), (levAts (K (F := F)).L (K (F := F)).lev : sProp 𝕄)
      ⊢ MayWait (c.tc : Thread nD τ) sm none ((K (F := F)).Otc c 0) :=
    fun c sm => (K (F := F)).mayWait_none sm (Otc_none c)
  unfold SparseCore.Cfg.tcRes
  rw [unscoped_held, main_eq]
  iintro ⟨#Hctx, Hst, ⟨Hb, Hheld, -, -⟩, HG⟩
  ihave Hst := (tcSt_focus (F := F) d) $$ Hst
  icases Hst with ⟨Hown, Hst⟩

  iapply (StableHlo.wp_seq (defs := (K (F := F)).defs (D (F := F))) 𝒱 none Set.univ d S26 _ ops7 h7 h7f (V0 m d)) $$ [Hb Hheld]
  · isplitl [Hb] <;> iassumption
  iintro ⟨Hb, Hheld⟩

  ihave Hh := (held_V1 m d) $$ Hheld
  icases Hh with ⟨Hreg, Hrest⟩
  rw [wp_bind]
  iapply (wp_wand_r frame _ Set.univ)
  isplitl [Hb Hreg Hown HG]
  · iapply ((K (F := F)).wp_liftProg (D (F := F)) 𝒱 (SparseCore.T d) Set.univ none
      (Prog.lift (.customCall (Pipeline.entry (0 : Fin 1)) ()) : Prog (TpuEff nD τ sig (Elt F) (ΛP (F := F)) .tc) PUnit) _)
    iapply (hreg (VR m) (fun c => (K (F := F)).Otc c 0) rfl hmw d)
    isplitr
    · iapply ((K (F := F)).ctx_levAts κ); iexact Hctx
    unfold regPre
    isplitl [Hb]; · iexact Hb
    isplitl [Hreg]; · iexact Hreg
    isplitl [Hown]; · iexact Hown
    iexact HG
  iintro %_ Hpost
  unfold regPost
  icases Hpost with ⟨Hb, Hops, Hfeats, ⟨%EW, %hEW, Hew⟩, Hown⟩

  ihave Hheld := (held_V2 m FEATS d EW) $$ [Hfeats Hew Hops Hrest]
  · isplitl [Hfeats]; · iexact Hfeats
    isplitl [Hew]; · iexact Hew
    isplitl [Hops]; · iexact Hops
    iexact Hrest
  iapply (StableHlo.wp_seq (defs := (K (F := F)).defs (D (F := F))) 𝒱 none Set.univ d S26 _ ops4 h4 h4f (V2 m FEATS d EW)) $$ [Hb Hheld]
  · isplitl [Hb] <;> iassumption
  iintro ⟨Hb, Hheld⟩

  ihave Hh := (held_V3 m FEATS d EW) $$ Hheld
  icases Hh with ⟨Hfeats, Hidx, Hew, Hout, Hrest⟩
  rw [wp_bind]
  iapply ((K (F := F)).wp_run (D (F := F)) 𝒱 (EH := EH) (P := P (opsOf m FEATS)) κ d 0) $$ [Hown Hst Hfeats Hidx Hew Hout Hb Hrest]
  isplitr; · iexact Hctx
  isplitl [Hown Hst]
  · iapply Hst; iexact Hown
  isplitl [Hfeats Hidx Hew Hout]
  · iapply (call_handover m FEATS d EW (ew_agrees m d EW hEW))
    isplitl [Hfeats]; · iexact Hfeats
    isplitl [Hidx]; · iexact Hidx
    isplitl [Hew]; · iexact Hew
    iexact Hout
  iintro ⟨Hst, Hdn⟩
  ihave Hdn' := (call_return m FEATS d) $$ Hdn
  icases Hdn' with ⟨%fo, %hfo, Hout⟩

  ihave Hheld := (held_V4 m FEATS d EW fo) $$ [Hout Hrest]
  · isplitl [Hout] <;> iassumption
  iapply (StableHlo.wp_seq (defs := (K (F := F)).defs (D (F := F))) 𝒱 none Set.univ d
      ((insert main_v10 (R26 \ callRefs)).map ⟨Proc.devRef (τ := τ) .tc, Proc.devRef_injective _⟩) _ ops2 h2 h2f (V4 m FEATS d EW fo)) $$ [Hb Hheld]
  · isplitl [Hb] <;> iassumption
  iintro ⟨Hb, Hheld⟩
  ihave Hh := (held_V5 m FEATS d EW fo) $$ Hheld
  icases Hh with ⟨Hargs, Hres⟩
  rw [wp_pure]
  imodintro
  isplitl [Hst]; · iexact Hst
  unfold FIN
  isplitl [Hargs]; · iexact Hargs
  iexists (V5 m FEATS d EW fo (dr main_v12))
  isplitr
  · ipureintro
    intro n o
    rw [V5_res, read_out]
    exact hfo _ n.isLt
  iexact Hres

theorem hfin (d : Dev nD) (s' : Phys nD τ sig (Elt F)) : iprop(FIN m FEATS d ∗ SI s') ⊢ (⌜fq m FEATS d s'⌝ : sProp 𝕄) := by
  have h1 : iprop(FIN m FEATS d ∗ SI s') ⊢ (⌜∀ (n : Fin 10000) (o : Fin 128),
      s'.mem.mem ((SparseCore.T d).loc main_v12) (ix3 (0 : Fin 1) n o) = outVal (opsOf m FEATS) d (ix2 (⟨n.val, by omega⟩ : Fin 10240) o)⌝ : sProp 𝕄) := by
    iintro ⟨HF, HSI⟩
    unfold FIN
    icases HF with ⟨-, %f, %hf, Hv⟩
    ihave H := (SI_pointsTo_agree (st := s') (ℓ := (SparseCore.T d).loc main_v12) (I := Finset.univ) (q := fullShare) (f := f)) $$ [HSI Hv]
    · isplitl [HSI] <;> iassumption
    icases H with %h
    ipureintro
    intro n o
    rw [h _ (Finset.mem_univ _)]
    exact hf n o
  have h2 : ∀ b ∈ argRefs, iprop(FIN m FEATS d ∗ SI s') ⊢ (⌜s'.mem.mem ((SparseCore.T d).loc b) = argAt m d b⌝ : sProp 𝕄) := by
    intro b hb
    iintro ⟨HF, HSI⟩
    unfold FIN
    icases HF with ⟨Hargs, -⟩
    ihave Hb := (show (bigSep argRefs fun b : Ref sig .tc => (((SparseCore.T d).loc b) ↦{fullShare} argAt m d b : sProp 𝕄))
        ⊢ (((SparseCore.T d).loc b) ↦{fullShare} argAt m d b : sProp 𝕄) from bigSep_elim hb) $$ Hargs
    ihave H := (SI_pointsTo_agree (st := s') (ℓ := (SparseCore.T d).loc b) (I := Finset.univ) (q := fullShare) (f := argAt m d b)) $$ [HSI Hb]
    · isplitl [HSI] <;> iassumption
    icases H with %h
    ipureintro
    exact funext fun i => h i (Finset.mem_univ i)
  exact fun a ha => ⟨h1 a ha, fun b hb => h2 b hb a ha⟩

theorem hQ (s' : Phys nD τ sig (Elt F)) (h : ∀ d, fq m FEATS d s') : QC m FEATS (⟨⟩, s'.mem) := fun c =>
  ⟨(h c).1, (h c).2 _ (by decide), (h c).2 _ (by decide), (h c).2 _ (by decide), (h c).2 _ (by decide), (h c).2 _ (by decide),
    (h c).2 _ (by decide), (h c).2 _ (by decide), (h c).2 _ (by decide), (h c).2 _ (by decide), (h c).2 _ (by decide)⟩

theorem run_main [∀ e, Nonempty (Elt F e)] (hreg : RegionStep m FEATS)
    (htile : (K (F := F)).TileObl (D (F := F)) 𝒱 (P (opsOf m FEATS)) v₀ 0)
    (hvec : (K (F := F)).VecSplit (P (opsOf m FEATS)) 0)
    (hu₀ : iprop((ownU (u₀ (F := F)) : sProp 𝕄) ∗ (P (opsOf m FEATS)).oxCred ∗ (K (F := F)).freeSems0)
      ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P (opsOf m FEATS)).x q thr)) :
    θ_run (Cert.Kernel.defs (F := F)) (Cert.Kernel.threads (F := F)) ⟨m, fun _ => 0, ρ⟩ (QC m FEATS) :=
  SparseCore.Cfg.θ_run_sc (K := K (F := F)) (D := D (F := F)) (𝒱 := 𝒱) (EH := EH) (P := P (opsOf m FEATS)) facts v₀
    (fun q hq => match q with | 0 => nomatch hq)
    (fun q _ => match q with | 0 => htile)
    (fun q _ => match q with | 0 => hvec)
    m ρ main (G (F := F)) (FIN m FEATS) (u₀ (F := F)) hu₀ (hmain m ρ FEATS hreg) (fq m FEATS) (hfin m FEATS) (QC m FEATS) (hQ m FEATS)

end Cert.Proof.KB

end
-- ==== Proof.KB.Tile.lean ====
import proofs.«204698_g79517024518204_fold_wed_m_581_46_alg».proof.Proof.KB.TileBody

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "featsV" => (Memref.whole Cert.Kernel.main_v7_0_scv : Memref Cert.Kernel.sig Kind.scVector Space.hbm Cert.Kernel.S10240x128 EltTy.f32)
local notation "idxV" => (Memref.whole Cert.Kernel.main_v9_scv : Memref Cert.Kernel.sig Kind.scVector Space.hbm Cert.Kernel.S2560x128 EltTy.i32)
local notation "ewV" => (Memref.whole Cert.Kernel.main_v7_1_scv : Memref Cert.Kernel.sig Kind.scVector Space.hbm Cert.Kernel.S2560x128 EltTy.f32)
local notation "outV" => (Memref.whole Cert.Kernel.main_v10_scv : Memref Cert.Kernel.sig Kind.scVector Space.hbm Cert.Kernel.S10240x128 EltTy.f32)
local notation "shV" => (Memref.whole Cert.Kernel.cc1_scratch8 : Memref Cert.Kernel.sig Kind.scVector Space.shared Cert.Kernel.S10240x128 EltTy.f32)

variable (A : Ops F)

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__agg_sc (fun | 0 => c | 1 => s | ⟨_ + 2, h⟩ => absurd h (Nat.not_lt.2 (Nat.le_add_left _ _)))
          featsV (Memref.isWhole_whole _) idxV (Memref.isWhole_whole _) ewV (Memref.isWhole_whole _) outV (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _) (Memref.whole cc1_scratch5) (Memref.isWhole_whole _)
          (Memref.whole cc1_scratch6) (Memref.isWhole_whole _) (Memref.whole cc1_scratch7) (Memref.isWhole_whole _)
          shV (Memref.isWhole_whole _) cc1_scratch9 cc1_scratch10 cc1_scratch11 cc1_scratch12 cc1_scratch13 cc1_scratch14
          cc1_scoped0 cc1_scoped1 cc1_scoped2) ⟨⟩ c s := rfl

set_option maxRecDepth 16384 in
theorem tileObl (hF : (K (F := F)).Facts) (hidx : IdxOK A) : (K (F := F)).TileObl (D (F := F)) 𝒱 (P A) v₀ 0 := by
  intro d c i O W hO hOlev _
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A d (coordsV ⟨_, hci.1⟩ ⟨_, hci.2⟩) hF hidx O W hO hOlev

end Cert.Proof.KB

end
-- ==== Proof.KB.Split.lean ====
import proofs.«204698_g79517024518204_fold_wed_m_581_46_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "featsV" => (Memref.whole Cert.Kernel.main_v7_0_scv : Memref Cert.Kernel.sig Kind.scVector Space.hbm Cert.Kernel.S10240x128 EltTy.f32)
local notation "idxV" => (Memref.whole Cert.Kernel.main_v9_scv : Memref Cert.Kernel.sig Kind.scVector Space.hbm Cert.Kernel.S2560x128 EltTy.i32)
local notation "ewV" => (Memref.whole Cert.Kernel.main_v7_1_scv : Memref Cert.Kernel.sig Kind.scVector Space.hbm Cert.Kernel.S2560x128 EltTy.f32)
local notation "outV" => (Memref.whole Cert.Kernel.main_v10_scv : Memref Cert.Kernel.sig Kind.scVector Space.hbm Cert.Kernel.S10240x128 EltTy.f32)
local notation "shV" => (Memref.whole Cert.Kernel.cc1_scratch8 : Memref Cert.Kernel.sig Kind.scVector Space.shared Cert.Kernel.S10240x128 EltTy.f32)

omit [FloatOps F] in
theorem segSet_eq (i : Fin 16) : segSet i = (seg i).set := View.set_slice_whole _ _
omit [FloatOps F] in
theorem orowSet_eq (w : Fin 32) : orowSet w = (orows w).set := View.set_slice_whole _ _
omit [FloatOps F] in
theorem erowSet_eq (w : Fin 32) : erowSet w = (erows w).set := View.set_slice_whole _ _

omit [FloatOps F] in

theorem seg_disjoint : ∀ i ∈ (Finset.univ : Finset (Fin 16)), ∀ j ∈ (Finset.univ : Finset (Fin 16)), i ≠ j → Disjoint (segSet i) (segSet j) :=
  fun i _ j _ h => by rw [segSet_eq, segSet_eq]; exact Rect.part_disjoint hdiv16 h
omit [FloatOps F] in

theorem seg_cover : (Finset.univ : Finset (Fin 16)).biUnion segSet = Finset.univ :=
  (Finset.biUnion_congr rfl fun i _ => segSet_eq i).trans (Rect.biUnion_part hdiv16)

omit [FloatOps F] in

theorem wid_injective (c : Fin 2) : Function.Injective (wid c) := fun i j h => by
  have e := congrArg Fin.val h
  simp only [wid] at e
  exact Fin.ext (by omega)

omit [FloatOps F] in
theorem orow_disjoint (c : Fin 2) : ∀ i ∈ (Finset.univ : Finset (Fin 16)), ∀ j ∈ (Finset.univ : Finset (Fin 16)), i ≠ j →
    Disjoint (orowSet (wid c i)) (orowSet (wid c j)) :=
  fun i _ j _ h => by rw [orowSet_eq, orowSet_eq]; exact Rect.part_disjoint hdiv32 fun e => h (wid_injective c e)
omit [FloatOps F] in
theorem erow_disjoint (c : Fin 2) : ∀ i ∈ (Finset.univ : Finset (Fin 16)), ∀ j ∈ (Finset.univ : Finset (Fin 16)), i ≠ j →
    Disjoint (erowSet (wid c i)) (erowSet (wid c j)) :=
  fun i _ j _ h => by rw [erowSet_eq, erowSet_eq]; exact Rect.part_disjoint hdiv32' fun e => h (wid_injective c e)

def erowSetC (c : Fin 2) : Finset S2560x128.Idx := (Finset.univ : Finset (Fin 16)).biUnion fun i => erowSet (wid c i)

omit [FloatOps F] in
theorem erowSetC_union (c : Fin 2) : erowSetC c ∪ (Finset.univ \ erowSetC c) = Finset.univ :=
  Finset.union_sdiff_of_subset (Finset.subset_univ _)

section Join
variable {ℓ : Loc nD τ sig}

theorem known_union (I J : Finset (Idx ℓ)) (hIJ : Disjoint I J) (q : PosShare TreeShare) (G : Buf (Elt F) ℓ) (ok : Idx ℓ → Prop) :
    iprop((∃ f : Buf (Elt F) ℓ, ⌜∀ j ∈ I, ok j → f j = G j⌝ ∗ ℓ ↦[I]{q} f) ∗ (∃ f : Buf (Elt F) ℓ, ⌜∀ j ∈ J, ok j → f j = G j⌝ ∗ ℓ ↦[J]{q} f))
      ⊢ (iprop(∃ f : Buf (Elt F) ℓ, ⌜∀ j ∈ I ∪ J, ok j → f j = G j⌝ ∗ ℓ ↦[I ∪ J]{q} f) : sProp 𝕄) := by
  iintro ⟨⟨%f, %hf, Hf⟩, ⟨%g, %hg, Hg⟩⟩
  iexists J.piecewise g f
  isplitr
  · ipureintro
    intro j hj hok
    by_cases hJ : j ∈ J
    · rw [Finset.piecewise_eq_of_mem _ _ _ hJ]; exact hg j hJ hok
    · rw [Finset.piecewise_eq_of_notMem _ _ _ hJ]
      exact hf j ((Finset.mem_union.mp hj).resolve_right hJ) hok
  · iapply (pointsTo_join hIJ)
    isplitl [Hf]; · iexact Hf
    iexact Hg

theorem known_biUnion {T : Type} [DecidableEq T] (Sx : Finset T) (Kf : T → Finset (Idx ℓ)) (q : PosShare TreeShare) (G : Buf (Elt F) ℓ)
    (ok : Idx ℓ → Prop) (hd : ∀ t ∈ Sx, ∀ t' ∈ Sx, t ≠ t' → Disjoint (Kf t) (Kf t')) :
    bigSep Sx (fun t => iprop(∃ f : Buf (Elt F) ℓ, ⌜∀ j ∈ Kf t, ok j → f j = G j⌝ ∗ ℓ ↦[Kf t]{q} f))
      ⊢ (iprop(∃ f : Buf (Elt F) ℓ, ⌜∀ j ∈ Sx.biUnion Kf, ok j → f j = G j⌝ ∗ ℓ ↦[Sx.biUnion Kf]{q} f) : sProp 𝕄) := by
  refine (bigSep_exists_pi Sx (fun t (f : Buf (Elt F) ℓ) => iprop(⌜∀ j ∈ Kf t, ok j → f j = G j⌝ ∗ ℓ ↦[Kf t]{q} f))).trans ?_
  iintro ⟨%fs, H⟩
  ihave H1 := (bigSep_pure_sep Sx (fun t => ∀ j ∈ Kf t, ok j → fs t j = G j) (fun t => ℓ ↦[Kf t]{q} fs t)) $$ H
  icases H1 with ⟨%hfs, H2⟩
  ihave H3 := (pointsTo_biUnion_join Sx Kf fs G hd) $$ H2
  icases H3 with ⟨%g, %hg, Hg⟩
  iexists g
  isplitr
  · ipureintro
    intro j hj hok
    obtain ⟨t, ht, hjt⟩ := Finset.mem_biUnion.mp hj
    rw [hg t ht j hjt]; exact hfs t ht j hjt hok
  · iexact Hg

end Join

variable (A : Ops F)

theorem featsPts_segs (d : Dev nD) (q : PosShare TreeShare) :
    (featsPts A d q : sProp 𝕄) = bigSep Finset.univ fun i : Fin 16 => featsSegPts A d i q := by
  rw [← pointsTo_biUnion Finset.univ (ℓ := featsLoc d) segSet seg_disjoint, seg_cover]

theorem shPts_segs (d : Dev nD) (c : Fin τ.nSC) (q : PosShare TreeShare) (f : Buf (Elt F) (shLoc d c)) :
    (shLoc d c ↦{q} f : sProp 𝕄) = bigSep Finset.univ fun i : Fin 16 => shLoc d c ↦[segSet i]{q} f := by
  rw [← pointsTo_biUnion Finset.univ (ℓ := shLoc d c) segSet seg_disjoint, seg_cover]

theorem outPts_rows (d : Dev nD) (c : Fin 2) (f : Buf (Elt F) (outLoc d)) :
    (outLoc d ↦[orowSetC c]{fullShare} f : sProp 𝕄) = bigSep Finset.univ fun i : Fin 16 => outRowPts d (wid c i) f := by
  unfold orowSetC
  rw [pointsTo_biUnion Finset.univ (ℓ := outLoc d) (fun i => orowSet (wid c i)) (orow_disjoint c)]

theorem idxPts_rows (d : Dev nD) (c : Fin 2) (q : PosShare TreeShare) :
    (idxPts A d q : sProp 𝕄)
      = iprop((bigSep Finset.univ fun i : Fin 16 => idxRowPts A d (wid c i) q) ∗ idxLoc d ↦[Finset.univ \ erowSetC c]{q} A.fi d) := by
  have hs : (idxLoc d ↦[Finset.univ]{q} A.fi d : sProp 𝕄)
      ⊣⊢ iprop((idxLoc d ↦[erowSetC c]{q} A.fi d) ∗ idxLoc d ↦[Finset.univ \ erowSetC c]{q} A.fi d) :=
    pointsTo_split_subset (Finset.subset_univ _)
  have hb : (idxLoc d ↦[erowSetC c]{q} A.fi d : sProp 𝕄) = bigSep Finset.univ fun i : Fin 16 => idxRowPts A d (wid c i) q := by
    unfold erowSetC
    rw [pointsTo_biUnion Finset.univ (ℓ := idxLoc d) (fun i => erowSet (wid c i)) (erow_disjoint c)]
  rw [← hb]
  exact BI.equiv_iff.mp ⟨hs.1, hs.2⟩

theorem ewLoc_rows (d : Dev nD) (c : Fin 2) (q : PosShare TreeShare) (fe : Buf (Elt F) (ewLoc d)) :
    (ewLoc d ↦{q} fe : sProp 𝕄)
      = iprop((bigSep Finset.univ fun i : Fin 16 => ewLoc d ↦[erowSet (wid c i)]{q} fe) ∗ ewLoc d ↦[Finset.univ \ erowSetC c]{q} fe) := by
  have hs : (ewLoc d ↦[Finset.univ]{q} fe : sProp 𝕄)
      ⊣⊢ iprop((ewLoc d ↦[erowSetC c]{q} fe) ∗ ewLoc d ↦[Finset.univ \ erowSetC c]{q} fe) :=
    pointsTo_split_subset (Finset.subset_univ _)
  have hb : (ewLoc d ↦[erowSetC c]{q} fe : sProp 𝕄) = bigSep Finset.univ fun i : Fin 16 => ewLoc d ↦[erowSet (wid c i)]{q} fe := by
    unfold erowSetC
    rw [pointsTo_biUnion Finset.univ (ℓ := ewLoc d) (fun i => erowSet (wid c i)) (erow_disjoint c)]
  rw [← hb]
  exact BI.equiv_iff.mp ⟨hs.1, hs.2⟩

abbrev ewRest (d : Dev nD) (c : Fin 2) (q : PosShare TreeShare) : sProp 𝕄 :=
  iprop(∃ fe : Buf (Elt F) (ewLoc d), ⌜∀ j ∈ Finset.univ \ erowSetC c, (j 0).val < 2500 → fe j = A.fe d j⌝ ∗ ewLoc d ↦[Finset.univ \ erowSetC c]{q} fe)

theorem ew_fwd (d : Dev nD) (c : Fin 2) (q : PosShare TreeShare) :
    (ewPts A d q : sProp 𝕄) ⊢ iprop((bigSep Finset.univ fun i : Fin 16 => ewRowPts A d (wid c i) q) ∗ ewRest A d c q) := by
  iintro ⟨%fe, %hfe, He⟩
  ihave He' := (Entails.of_eq (ewLoc_rows d c q fe)) $$ He
  icases He' with ⟨Hr, Hrest⟩
  have hrow : ∀ i : Fin 16, (ewLoc d ↦[erowSet (wid c i)]{q} fe : sProp 𝕄) ⊢ ewRowPts A d (wid c i) q := fun i => by
    iintro H
    iexists fe
    isplitr
    · ipureintro; exact fun j _ hj => hfe j hj
    · iexact H
  isplitl [Hr]
  · iapply (SparseCore.ent (bigSep_mono (Φ := fun i : Fin 16 => (ewLoc d ↦[erowSet (wid c i)]{q} fe : sProp 𝕄))
      (Ψ := fun i : Fin 16 => ewRowPts A d (wid c i) q) fun i _ => hrow i))
    iexact Hr
  · iexists fe
    isplitr
    · ipureintro; exact fun j _ hj => hfe j hj
    · iexact Hrest

theorem ew_back (d : Dev nD) (c : Fin 2) (q : PosShare TreeShare) :
    iprop((bigSep Finset.univ fun i : Fin 16 => ewRowPts A d (wid c i) q) ∗ ewRest A d c q) ⊢ (ewPts A d q : sProp 𝕄) := by
  iintro ⟨Hr, Hrest⟩
  ihave Hr' := (known_biUnion (ℓ := ewLoc d) Finset.univ (fun i : Fin 16 => erowSet (wid c i)) q (A.fe d) (fun j => (j 0).val < 2500) (erow_disjoint c)) $$ Hr
  ihave H := (known_union (ℓ := ewLoc d) (erowSetC c) (Finset.univ \ erowSetC c) Finset.disjoint_sdiff q (A.fe d) (fun j => (j 0).val < 2500)) $$ [Hr' Hrest]
  · isplitl [Hr']; · iexact Hr'
    iexact Hrest
  rw [erowSetC_union]
  icases H with ⟨%f, %hf, Hf⟩
  iexists f
  isplitr
  · ipureintro; exact fun j hj => hf j (Finset.mem_univ j) hj
  · iexact Hf

theorem out_back (d : Dev nD) (c : Fin 2) :
    (bigSep Finset.univ fun i : Fin 16 => outDonePts A d (orowSet (wid c i))) ⊢ (outDonePts A d (orowSetC c) : sProp 𝕄) :=
  known_biUnion (ℓ := outLoc d) Finset.univ (fun i : Fin 16 => orowSet (wid c i)) fullShare (outVal A d) (fun j => (j 0).val < 10000) (orow_disjoint c)

theorem ownBufs_sh (d : Dev nD) (c : Fin τ.nSC) :
    (ownBufs (S d c) : sProp 𝕄)
      = iprop((∃ f, shLoc d c ↦{fullShare} f)
          ∗ bigSep ((ownRefs (τ := τ) (.scScalar c)).erase (shRef c)) fun b => iprop(∃ f, ((d, b) : Loc nD τ sig) ↦{fullShare} f)) := by
  unfold SparseCore.Cfg.ownBufs
  exact SparseCore.bigSep_erase' (i := shRef c) (mem_ownRefs.mpr rfl)

theorem sh_join (d : Dev nD) (c : Fin τ.nSC) :
    iprop((bigSep Finset.univ fun i : Fin 16 => shSegPts A d c i rest16)
        ∗ bigSep Finset.univ fun i : Fin 16 => bigSep Finset.univ fun n : Fin 16 => shSegPts A d c n (tok i))
      ⊢ (shLoc d c ↦{fullShare} ffsh A d c : sProp 𝕄) := by
  rw [bigSep_univ_comm (fun i n : Fin 16 => shSegPts A d c n (tok i)), ← bigSep_sep', shPts_segs]
  exact bigSep_mono fun n _ => Transfers.pointsTo_toks_join fullShare 16

theorem split_core (d : Dev nD) (c : Fin 2) :
    iprop(iprop(featsPts A d (hshare c) ∗ idxPts A d (hshare c) ∗ ewPts A d (hshare c) ∗ outLoc d ↦[orowSetC c]{fullShare} A.fo d)
        ∗ ownBufs (S d (Fin.cast nSC_eq.symm c)))
      ⊢ (|={Set.univ}=> iprop((bigSep Finset.univ fun i : Fin 16 => goRes A d c i)
          ∗ ((bigSep Finset.univ fun i : Fin 16 => tdRes A d c i)
            -∗ iprop(iprop(featsPts A d (hshare c) ∗ idxPts A d (hshare c) ∗ ewPts A d (hshare c) ∗ outDonePts A d (orowSetC c))
                ∗ ownBufs (S d (Fin.cast nSC_eq.symm c))))) : sProp 𝕄) := by
  unfold goRes tdRes
  simp only [bigSep_sep']
  rw [ownBufs_sh, featsPts_segs, idxPts_rows A d c, outPts_rows]
  iintro ⟨⟨Hf, ⟨Hi, Hir⟩, He, Ho⟩, ⟨%fsh, Hsh⟩, Hown⟩
  ihave He' := (ew_fwd A d c (hshare c)) $$ He
  icases He' with ⟨He, Her⟩
  have hseg : ∀ i : Fin 16, (shLoc d (Fin.cast nSC_eq.symm c) ↦[segSet i]{fullShare} fsh : sProp 𝕄)
      ⊢ iprop(∃ f, shLoc d (Fin.cast nSC_eq.symm c) ↦[segSet i]{fullShare} f) := fun i => by
    iintro H; iexists fsh; iexact H
  imodintro
  isplitl [Hf Hi He Ho Hsh]
  · isplitl [Hf]; · iexact Hf
    isplitl [Hi]; · iexact Hi
    isplitl [He]; · iexact He
    isplitl [Ho]; · iexact Ho
    ihave Hsh' := (Entails.of_eq (shPts_segs d (Fin.cast nSC_eq.symm c) fullShare fsh)) $$ Hsh
    iapply (SparseCore.ent (bigSep_mono (Φ := fun i : Fin 16 => (shLoc d (Fin.cast nSC_eq.symm c) ↦[segSet i]{fullShare} fsh : sProp 𝕄))
      (Ψ := fun i : Fin 16 => iprop(∃ f, shLoc d (Fin.cast nSC_eq.symm c) ↦[segSet i]{fullShare} f)) fun i _ => hseg i))
    iexact Hsh'
  iintro ⟨Hf, Hi, He, Ho, Hr, Ht⟩
  isplitl [Hf Hi Hir He Her Ho]
  · isplitl [Hf]; · iexact Hf
    isplitl [Hi Hir]
    · isplitl [Hi]; · iexact Hi
      iexact Hir
    isplitl [He Her]
    · iapply (ew_back A d c (hshare c))
      isplitl [He]; · iexact He
      iexact Her
    iapply (out_back A d c); iexact Ho
  isplitl [Hr Ht]
  · iexists ffsh A d (Fin.cast nSC_eq.symm c)
    iapply (sh_join A d (Fin.cast nSC_eq.symm c))
    isplitl [Hr]; · iexact Hr
    iexact Ht
  iexact Hown

theorem vecSplit : (K (F := F)).VecSplit (P A) 0 := fun d c => split_core A d (Fin.cast nCore_zero c)

end Cert.Proof.KB

end
-- ==== Proof.KB.LaunchElem.lean ====
import proofs.«204698_g79517024518204_fold_wed_m_581_46_alg».proof.Proof.KB.Ghost

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (A : Ops F)

omit [FloatOps F] in
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a)
      ∗ BI.own ((uEmb (nD := nD) (sig := sig) (Ix := HIx 1) (Val := Elt F) (Name := ℕ) (U := UU) (Lvl := ℕ)).toEmb ((1, (b, (p, 1))) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (p, (1 : Counters))))))
  have h2 : BI.own ((uEmb (nD := nD) (sig := sig) (Ix := HIx 1) (Val := Elt F) (Name := ℕ) (U := UU) (Lvl := ℕ)).toEmb ((1, (b, (p, 1))) : UU))
      ⊢ (iprop(BI.own (EB b) ∗ BI.own (EP p)) : sProp 𝕄) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op (p, (1 : Counters))))))
  iintro Hu
  ihave H := h1 $$ Hu
  icases H with ⟨HH, HR⟩
  ihave H2 := h2 $$ HR
  icases H2 with ⟨HB, HP⟩
  isplitl [HH]; · iexact HH
  isplitl [HB]; · iexact HB
  iexact HP

theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

theorem invs_b : iprop((bigSep bCells fun g => (semVal g 0 : sProp 𝕄)) ∗ bigSep bCells fun g => roundState EB (bRd (F := F) A) g 0)
    ⊢ |={Set.univ}=> iprop(∃ κ : GSem nD τ sig → ℕ, bigSep bCells fun g => cellInv EB (bRd (F := F) A) (κ g) g) := by
  refine (Rounds.bodies_intro EB (bRd (F := F) A) bCells).trans ((inv_alloc_family bCells (Rounds.body EB (bRd (F := F) A)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.univ_eq_empty, Finset.sum_empty, tallyAt_zero]
  | n + 1 => by rw [Fin.sum_univ_castSucc, sum_tallyAt_one g ι n, tallyAt_add]

theorem creds_b : ((P (F := F) A).oxCred : sProp 𝕄)
    ⊢ bigSep Finset.univ fun dci : DCI => cred (tallyAt (bcell₃ dci) (some 0) (grid1.bound 1)) := by
  unfold SparseCore.Cfg.Pay.oxCred
  rw [SparseCore.Cfg.bigSep_threads (fun thr : Thread nD τ => (cred ((P (F := F) A).oxFrom 0 thr) : sProp 𝕄))]
  refine sep_elim_right.trans (sep_elim_right.trans ?_)
  rw [bigSep_univ_prod, bigSep_univ_prod (fun dci : DCI => (cred (tallyAt (bcell₃ dci) (some 0) (grid1.bound 1)) : sProp 𝕄))]
  refine bigSep_mono fun d _ => ?_
  rw [bigSep_univ_prod, bigSep_univ_prod (fun ci : Fin τ.nSC × Fin τ.nSub => (cred (tallyAt (bcell₃ (d, ci)) (some 0) (grid1.bound 1)) : sProp 𝕄))]
  refine bigSep_mono fun c _ => ?_
  dsimp only
  have hox : ∀ i, (P (F := F) A).oxFrom 0 (V d c i) = oxV d c := fun i => by
    rw [show (0 : ℕ) = (0 : Fin 1).val from rfl, (P A).oxFrom_step, (P A).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in

theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid1.bound 1) => dutyTok EB (bcell dci.1 dci.2.1 (j.castLE hsub1)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) A).x q (SparseCore.T d)) = iprop(emp) :=
  bigSep_univ_of_subsingleton (0 : Fin 1)
theorem Px_S (d : Dev nD) (c : Fin τ.nSC) : (bigSep Finset.univ fun q : Fin 1 => (P (F := F) A).x q (S d c)) = iprop(emp) :=
  bigSep_univ_of_subsingleton (0 : Fin 1)
theorem Px_V (d : Dev nD) (c : Fin τ.nSC) (i : Fin τ.nSub) :
    (bigSep Finset.univ fun q : Fin 1 => (P (F := F) A).x q (V d c i)) = bkit A d c i :=
  bigSep_univ_of_subsingleton (0 : Fin 1)

omit [FloatOps F] in
theorem bigSep_emp' {I : Type} (s : Finset I) : (bigSep s fun _ => iprop(emp)) = (iprop(emp) : sProp 𝕄) := bigSep_emp_const s

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

abbrev shared : sProp 𝕄 :=
  iprop((∃ κ : GSem nD τ sig → ℕ, bigSep Finset.univ fun x : DCI => cellInv EB (bRd (F := F) A) (κ (bcell₃ x)) (bcell₃ x))
    ∗ bigSep Finset.univ fun x : DCI => reached EB (bcell₃ x) 0)

abbrev mine (dci : DCI) : sProp 𝕄 :=
  iprop(atPos EB (bcell₃ dci) 0 ∅ 0
    ∗ (bigSep Finset.univ fun j : Fin (grid1.bound 1) => dutyTok EB (bcell dci.1 dci.2.1 (j.castLE hsub1)) 0 dci.2.2.val)
    ∗ cred (tallyAt (bcell₃ dci) (some 0) (grid1.bound 1)))

theorem kit_intro (dci : DCI) : iprop(shared (F := F) A ∗ mine (F := F) dci) ⊢ (bkit (F := F) A dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid1.bound 1)))) (Φ := fun _ => iprop(emp))
      (R := bigSep Finset.univ fun x : DCI => cellInv EB (bRd (F := F) A) (κ (bcell₃ x)) (bcell₃ x)) fun j _ =>
        sep_elim_left.trans (bigSep_elim (Φ := fun x : DCI => (cellInv EB (bRd (F := F) A) (κ (bcell₃ x)) (bcell₃ x) : sProp 𝕄))
          (i := (d, c, Fin.castLE hsub1 j)) (Finset.mem_univ _))))
    isplitl; · iexact Hinv
    rw [bigSep_emp']; iempintro
  isplitl [Htok]; · iexact Htok
  isplitr
  · iapply (SparseCore.ent (bigSep_mono_frame (s := (Finset.univ : Finset (Fin (grid1.bound 1)))) (Φ := fun _ => iprop(emp))
      (R := bigSep Finset.univ fun x : DCI => (reached EB (bcell₃ x) 0 : sProp 𝕄)) fun j _ =>
        sep_elim_left.trans (bigSep_elim (Φ := fun x : DCI => (reached EB (bcell₃ x) 0 : sProp 𝕄))
          (i := (d, c, Fin.castLE hsub1 j)) (Finset.mem_univ _))))
    isplitl; · iexact Hr
    rw [bigSep_emp']; iempintro
  isplitl [Hat]; · iexact Hat
  iexact Hcred

theorem kits_deal :
    iprop(shared (F := F) A ∗ (bigSep Finset.univ fun x : DCI => atPos EB (bcell₃ x) 0 ∅ 0)
        ∗ (bigSep Finset.univ fun dci : DCI => bigSep Finset.univ fun j : Fin (grid1.bound 1) => dutyTok EB (bcell dci.1 dci.2.1 (j.castLE hsub1)) 0 dci.2.2.val)
        ∗ (bigSep Finset.univ fun dci : DCI => cred (tallyAt (bcell₃ dci) (some 0) (grid1.bound 1))))
      ⊢ (bigSep Finset.univ fun thr : Thread nD τ => bigSep Finset.univ fun q : Fin 1 => (P (F := F) A).x q thr : sProp 𝕄) := by
  rw [SparseCore.Cfg.bigSep_threads (fun thr : Thread nD τ => bigSep Finset.univ fun q : Fin 1 => (P A).x q thr)]
  simp only [Px_T, Px_S, Px_V, bigSep_emp']
  iintro ⟨#Hsh, Hat, Htok, Hcred⟩
  isplitr; · iempintro
  isplitr; · iempintro
  iapply (bigSep_mono_frame (R := shared (F := F) A) (Φ := mine (F := F)) fun dci _ => kit_intro (F := F) A dci)
  isplitr; · iexact Hsh
  unfold mine
  rw [bigSep_sep', bigSep_sep']
  isplitl [Hat]; · iexact Hat
  isplitl [Htok]; · iexact Htok
  iexact Hcred

theorem ghost_deal : (BI.own (EP (initOf (Pipeline.cells cfgs Gen.cellOf_inj) (Pipeline.launchToks cfgs Gen.cellOf_inj))) : sProp 𝕄)
    ⊢ iprop(|==> bigSep Finset.univ (G (F := F))) := by
  refine (Pipeline.fund_ghost cfgs EP Gen.cellOf_inj).trans (BI.bupd_mono ?_)
  simp only [G_eq, bigSep_sep', bigSep_univ_of_subsingleton (0 : Fin 1)]
  exact BI.Entails.refl _

theorem hu₀ : iprop(ownU (u₀ (F := F)) ∗ (P (F := F) A).oxCred ∗ (K (F := F)).freeSems0)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P A).x q thr) := by
  unfold u₀
  iintro ⟨Hu, Hcred, Hfree⟩
  ihave H := (ownU_split _ _ _) $$ Hu
  icases H with ⟨HH, HB, HP⟩
  imod (Rounds.fund EB (bRd (F := F) A) bCells bToks) $$ HB with ⟨Hst, #Hr, Hat, Htok⟩
  imod (ghost_deal (F := F)) $$ HP with HG
  ihave Hsems := (sems_b (F := F)) $$ Hfree
  imod (invs_b (F := F) A) $$ [Hsems Hst] with ⟨%κ, #Hinv⟩
  · isplitl [Hsems] <;> iassumption
  ihave Hcred' := (creds_b A) $$ Hcred
  ihave Hinv' := (Entails.of_eq (bCells_eq (F := F) fun g => cellInv EB (bRd (F := F) A) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [HG]; · iexact HG
  iapply (kits_deal A)
  isplitr
  · isplitl; · iexists κ; iexact Hinv'
    iexact Hr'
  isplitl [Hat']; · iexact Hat'
  isplitl [Htok']; · iexact Htok'
  iexact Hcred'

end Cert.Proof.KB

end
-- ==== Proof.KB.IdxFacts.lean ====
import proofs.«204698_g79517024518204_fold_wed_m_581_46_alg».proof.Proof.KB.MainDefs
import proofs.«204698_g79517024518204_fold_wed_m_581_46_alg».proof.Proof.KB.TileBody
import proofs.«204698_g79517024518204_fold_wed_m_581_46_alg».proof.Proof.KB.HostRead
import proofs.«204698_g79517024518204_fold_wed_m_581_46_alg».proof.Proof.PreFacts

noncomputable section

namespace Cert.Proof.KB

open Cert.Kernel Cert.Kernel.Gen
open Idealize.ShloMosaic
open Idealize.ShloMosaic.ValueIdx (ix0 ix1 ix2 ix3 eq_ix2)

theorem edge_row_lt (n : Fin 10000) (k : Fin 32) : (32 * n.val + k.val) / 128 < 2500 := by omega
theorem edge_pos (n : Fin 10000) (k : Fin 32) : 128 * ((32 * n.val + k.val) / 128) + (32 * n.val + k.val) % 128 = 32 * n.val + k.val :=
  Nat.div_add_mod _ _

variable {F : FTy → Type} [FloatOps F] (m : (ℓ : Loc nD τ sig) → Buf (Elt F) ℓ)

section Reads

variable (d : Dev nD)

theorem feOf_apply (q : ℕ) (hq : q < 2500) (j : Fin 128) :
    feOf m d (ix2 (⟨q, by omega⟩ : Fin 2560) j)
      = FloatOps.mulf (w3Of m d (ix2 (⟨q, hq⟩ : Fin 2500) j)) (w4Of m d (ix2 (⟨q, hq⟩ : Fin 2500) j)) := by
  unfold feOf
  exact dif_pos hq

theorem w3Of_apply (r : Fin 2500) (j : Fin 128) :
    w3Of m d (ix2 r j) = argAt m d main_arg3 (ix3 (0 : Fin 1) (⟨128 * r.val + j.val, by omega⟩ : Fin 320000) (0 : Fin 1)) := by
  unfold w3Of; exact read_w _ _ r j
theorem w4Of_apply (r : Fin 2500) (j : Fin 128) :
    w4Of m d (ix2 r j) = argAt m d main_arg4 (ix3 (0 : Fin 1) (⟨128 * r.val + j.val, by omega⟩ : Fin 320000) (0 : Fin 1)) := by
  unfold w4Of; exact read_w _ _ r j

theorem fiOf_apply (r : Fin 2560) (j : Fin 128) :
    fiOf m d (ix2 r j)
      = if hlt : 128 * r.val + j.val < 320000 then argAt m d main_arg2 (ix1 (⟨128 * r.val + j.val, hlt⟩ : Fin 320000)) else (0#32 : BitVec 32) := by
  unfold fiOf; exact read_idx _ _ _ _ _ r j

end Reads

theorem idxOK_ops (FEATS : (d : Dev nD) → Buf (Elt F) (featsLoc d))
    (hr : ∀ (d : Dev nD) (e : Fin 320000), (argAt m d main_arg2 (ix1 e)).toNat ≤ 9999) : IdxOK (opsOf m FEATS) := by
  intro d j
  obtain ⟨r, c, rfl⟩ : ∃ (r : Fin 2560) (c : Fin 128), j = ix2 r c := ⟨j 0, j 1, eq_ix2 j⟩
  show (fiOf m d (ix2 r c)).toNat < 10240
  rw [fiOf_apply]
  split
  · next hlt => have := hr d ⟨_, hlt⟩; omega
  · decide

theorem hr_of_pre [Cert.Pre_input_domain.Facts]
    (h : ∀ c : Dev nD, Cert.Pre_input_domain.fn (F := F) (argAt m c main_arg0) (argAt m c main_arg1) (argAt m c main_arg2)
      (argAt m c main_arg3) (argAt m c main_arg4) (argAt m c main_arg5) (argAt m c main_arg6) (argAt m c main_arg7)
      (argAt m c main_arg8) (argAt m c main_arg9) = (fun _ => 1#1)) :
    ∀ (d : Dev nD) (e : Fin 320000), (argAt m d main_arg2 (ix1 e)).toNat ≤ 9999 :=
  fun d e => Cert.PreFacts.idx_toNat _ _ _ _ _ _ _ _ _ _ (h d) (ix1 e)

end Cert.Proof.KB

end
-- ==== Proof.KB.FilmDefs.lean ====
import proofs.«204698_g79517024518204_fold_wed_m_581_46_alg».proof.Proof.Gen.Kernel.Skeleton

noncomputable section

namespace Cert.Kernel.Film

open Cert.Kernel Cert.Kernel.Gen

open Idealize.ShloMosaic
open Idealize.ShloMosaic.TcCoe
open Idealize.SL.Sem

variable {F : FTy → Type} [FloatOps F]

abbrev scr : Memref sig .tc .vmem S1x256 .f32 := Memref.whole cc0_scratch0

abbrev gbv (xv : Vec F S256x128 .f32) (xg : Vec F S256x1 .f32) (xc : Vec F S1x128 .f32) (xb : Vec F S1x256 .f32) : FVec F S1x256 .f32 :=
  k0_pay1 xv xg xc xb

abbrev gbLo (g : cc0_scratch0.ty.Contents (Elt F)) : Vec F S1x128 .f32 :=
  View.readAt (Elt F) (scr).view (Rect.unit (s := S1x256) ![0, 0] S1x128.size inb_S1x256_S1x128_0_0).toLoadRect g
abbrev gbHi (g : cc0_scratch0.ty.Contents (Elt F)) : Vec F S1x128 .f32 :=
  View.readAt (Elt F) (scr).view (Rect.unit (s := S1x256) ![0, 128] S1x128.size inb_S1x256_S1x128_0_128).toLoadRect g

abbrev featv (xx : Vec F S2000x128 .f32) (xW : Vec F S128x128 .f32) (xbf : Vec F S1x128 .f32) (g : cc0_scratch0.ty.Contents (Elt F)) :
    FVec F S2000x128 .f32 :=
  k0_pay3 xx xW xbf (gbLo g) (gbHi g)

abbrev ewv (xa xb : Vec F S2500x128 .f32) : FVec F S2500x128 .f32 := k0_pay2 xa xb

def t0 : Fin cfg0.N := ⟨0, by decide⟩

variable (c : Dev nD) (V : (b : Ref sig .tc) → Buf (Elt F) ((c : Thread nD τ).loc b))

def inB (w : Fin cfg0.W) (t : Fin cfg0.N) : (cfg0.win w).block.Idx → Elt F (cfg0.win w).elt :=
  (cfg0.win w).fill (cfg0.grid.coords t) (fun _ => Classical.arbitrary _)
    (((cfg0.win w).blk t).view.read (Elt F) (V (cfg0.win w).arr.view.ref))

def gbOf : FVec F S1x256 .f32 := gbv (inB c V 1 t0) (inB c V 2 t0) (inB c V 0 t0) (inB c V 3 t0)

def featBlk (t : Fin cfg0.N) : FVec F S2000x128 .f32 := featv (inB c V 4 t) (inB c V 5 t0) (inB c V 6 t0) (gbOf c V)

def ewOf : FVec F S2500x128 .f32 := ewv (inB c V 7 t0) (inB c V 8 t0)

abbrev ewRect : Rect S2560x128 := Rect.unit (s := S2560x128) ![0, 0] S2500x128.size inb_S2560x128_S2500x128_0_0

def featsAt : Nat → Buf (Elt F) ((cfg0.win 9).arr.view.loc (c : Thread nD τ))
  | 0 => V (cfg0.win 9).arr.view.ref
  | n + 1 =>
    if h : n < cfg0.N then
      ((cfg0.win 9).blk ⟨n, h⟩).view.write (Elt F) (featsAt n) ((cfg0.win 9).cut (cfg0.grid.coords ⟨n, h⟩) (featBlk c V ⟨n, h⟩)) Finset.univ
    else featsAt n

def FEATS : Buf (Elt F) ((c : Thread nD τ).loc main_v7_0) := featsAt c V cfg0.N

end Cert.Kernel.Film

end
-- ==== Proof.KB.FilmBody.lean ====
import proofs.«204698_g79517024518204_fold_wed_m_581_46_alg».proof.Proof.KB.FilmDefs
import proofs.«204698_g79517024518204_fold_wed_m_581_46_alg».proof.Proof.Gen.Kernel
import proofs.«204698_g79517024518204_fold_wed_m_581_46_alg».proof.Proof.Gen.Kernel.Skeleton
import proofs.«204698_g79517024518204_fold_wed_m_581_46_alg».proof.Proof.Gen.Kernel.Launch
import proofs.«204698_g79517024518204_fold_wed_m_581_46_alg».proof.Proof.Gen.Kernel.Points
import Idealize.ShloMosaic.Lib.Tactic
import Idealize.ShloMosaic.Lib.Pipeline.Regions

noncomputable section

namespace Cert.Kernel.Film

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

section Whole

variable {sig : RefSig} {κ : Kind} {sp : Space} {s : Shape} {e : EltTy} {Val : EltTy → Type}

theorem off00 : (![0, 0] : Fin 2 → Nat) = fun _ => 0 := by
  funext a; fin_cases a <;> rfl

theorem readAt_all {m : Memref sig κ sp s e} (h : m.IsWhole) {off : Fin s.rank → Nat} (ho : off = fun _ => 0)
    (inb : ∀ a, off a + s.size a ≤ s.size a) (f : m.view.ty.Contents Val) :
    m.view.readAt Val (Rect.unit off s.size inb).toLoadRect f = m.view.read Val f := by
  obtain ⟨b, rfl, rfl, rfl, hm⟩ := h; cases hm
  rw [Memref.readAt_unit_zero Val b ho inb f]; rfl

theorem writes_all {m : Memref sig κ sp s e} (h : m.IsWhole) {off : Fin s.rank → Nat} (ho : off = fun _ => 0)
    (inb : ∀ a, off a + s.size a ≤ s.size a) (f : m.view.ty.Contents Val) (w : s.Idx → Val e) :
    m.view.read Val (m.view.writes Val f [⟨Rect.unit off s.size inb, w⟩]) = w := by
  obtain ⟨b, rfl, rfl, rfl, hm⟩ := h; cases hm
  show (Memref.whole b).view.read Val (((Memref.whole b).access (Rect.unit off b.ty.shape.size inb)).write Val f w Finset.univ) = w
  rw [Memref.write_access_unit_zero_univ Val b ho inb f w]; rfl

end Whole

variable {F : FTy → Type} [FloatOps F]

theorem readCov_scr (w : FVec F S1x256 .f32) (B : LoadRect S1x256) :
    (scr).view.readCov [⟨Rect.unit (s := S1x256) ![0, 0] S1x256.size inb_S1x256_S1x256_0_0, w⟩] B
      = View.readAt (Elt F) (scr).view B w := by
  unfold View.readCov
  congr 1
  exact Memref.write_access_unit_zero_univ (Elt F) cc0_scratch0 off00 inb_S1x256_S1x256_0_0 _ w

theorem writes_scr (fs : cc0_scratch0.ty.Contents (Elt F)) (w : FVec F S1x256 .f32) :
    (scr).view.writes (Elt F) fs [⟨Rect.unit (s := S1x256) ![0, 0] S1x256.size inb_S1x256_S1x256_0_0, w⟩] = w :=
  Memref.write_access_unit_zero_univ (Elt F) cc0_scratch0 off00 inb_S1x256_S1x256_0_0 fs w

variable {Ix : Type} [DecidableEq Ix] {Name : Type} [DecidableEq Name] {U : Type} [URA U]

local notation "𝕄" => MT nD τ sig Ix (Elt F) Name U ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev rd1 (M : Memref sig .tc .vmem S1x128 .f32) (f : M.view.ty.Contents (Elt F)) : Vec F S1x128 .f32 :=
  View.readAt (Elt F) M.view (Rect.unit (s := S1x128) ![0, 0] S1x128.size inb_S1x128_S1x128_0_0).toLoadRect f
abbrev rd2 (M : Memref sig .tc .vmem S256x128 .f32) (f : M.view.ty.Contents (Elt F)) : Vec F S256x128 .f32 :=
  View.readAt (Elt F) M.view (Rect.unit (s := S256x128) ![0, 0] S256x128.size inb_S256x128_S256x128_0_0).toLoadRect f
abbrev rd3 (M : Memref sig .tc .vmem S256x1 .f32) (f : M.view.ty.Contents (Elt F)) : Vec F S256x1 .f32 :=
  View.readAt (Elt F) M.view (Rect.unit (s := S256x1) ![0, 0] S256x1.size inb_S256x1_S256x1_0_0).toLoadRect f
abbrev rd4 (M : Memref sig .tc .vmem S1x256 .f32) (f : M.view.ty.Contents (Elt F)) : Vec F S1x256 .f32 :=
  View.readAt (Elt F) M.view (Rect.unit (s := S1x256) ![0, 0] S1x256.size inb_S1x256_S1x256_0_0).toLoadRect f
abbrev rd5 (M : Memref sig .tc .vmem S2000x128 .f32) (f : M.view.ty.Contents (Elt F)) : Vec F S2000x128 .f32 :=
  View.readAt (Elt F) M.view (Rect.unit (s := S2000x128) ![0, 0] S2000x128.size inb_S2000x128_S2000x128_0_0).toLoadRect f
abbrev rd6 (M : Memref sig .tc .vmem S128x128 .f32) (f : M.view.ty.Contents (Elt F)) : Vec F S128x128 .f32 :=
  View.readAt (Elt F) M.view (Rect.unit (s := S128x128) ![0, 0] S128x128.size inb_S128x128_S128x128_0_0).toLoadRect f
abbrev rd8 (M : Memref sig .tc .vmem S2500x128 .f32) (f : M.view.ty.Contents (Elt F)) : Vec F S2500x128 .f32 :=
  View.readAt (Elt F) M.view (Rect.unit (s := S2500x128) ![0, 0] S2500x128.size inb_S2500x128_S2500x128_0_0).toLoadRect f

abbrev stFeat (M : Memref sig .tc .vmem S2000x128 .f32) (f : M.view.ty.Contents (Elt F)) (w : FVec F S2000x128 .f32) : M.view.ty.Contents (Elt F) :=
  M.view.writes (Elt F) f [⟨Rect.unit (s := S2000x128) ![0, 0] S2000x128.size inb_S2000x128_S2000x128_0_0, w⟩]
abbrev stEw (M : Memref sig .tc .vmem S2560x128 .f32) (f : M.view.ty.Contents (Elt F)) (w : FVec F S2500x128 .f32) : M.view.ty.Contents (Elt F) :=
  M.view.writes (Elt F) f [⟨Rect.unit (s := S2560x128) ![0, 0] S2500x128.size inb_S2560x128_S2500x128_0_0, w⟩]

theorem run0 (𝒱₀ : Variants) (c : Dev nD) (i : grid0.Coords) (hi : k0_cond1 i = 1#1)
    (M1 : Memref sig .tc .vmem S1x128 .f32) (h1 : M1.IsWhole) (M2 : Memref sig .tc .vmem S256x128 .f32) (h2 : M2.IsWhole)
    (M3 : Memref sig .tc .vmem S256x1 .f32) (h3 : M3.IsWhole) (M4 : Memref sig .tc .vmem S1x256 .f32) (h4 : M4.IsWhole)
    (M5 : Memref sig .tc .vmem S2000x128 .f32) (h5 : M5.IsWhole) (M6 : Memref sig .tc .vmem S128x128 .f32) (h6 : M6.IsWhole)
    (M7 : Memref sig .tc .vmem S1x128 .f32) (h7 : M7.IsWhole) (M8 : Memref sig .tc .vmem S2500x128 .f32) (h8 : M8.IsWhole)
    (M9 : Memref sig .tc .vmem S2500x128 .f32) (h9 : M9.IsWhole) (M10 : Memref sig .tc .vmem S2000x128 .f32) (h10 : M10.IsWhole)
    (M11 : Memref sig .tc .vmem S2560x128 .f32) (h11 : M11.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9) (f10 : Bf (F := F) c M10)
    (f11 : Bf (F := F) c M11) (fs : Bf (F := F) c (Memref.whole cc0_scratch0)) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9
        ∗ pt c M10 f10 ∗ pt c M11 f11 ∗ pt c scr fs
        ∗ (iprop(pt c M1 f1 ∗ pt c M2 f2 ∗ pt c M3 f3 ∗ pt c M4 f4 ∗ pt c M5 f5 ∗ pt c M6 f6 ∗ pt c M7 f7 ∗ pt c M8 f8 ∗ pt c M9 f9
            ∗ pt c M10 (stFeat M10 f10 (featv (rd5 M5 f5) (rd6 M6 f6) (rd1 M7 f7) (gbv (rd2 M2 f2) (rd3 M3 f3) (rd1 M1 f1) (rd4 M4 f4))))
            ∗ pt c M11 (stEw M11 f11 (ewv (rd8 M8 f8) (rd8 M9 f9)))
            ∗ pt c scr (gbv (rd2 M2 f2) (rd3 M3 f3) (rd1 M1 f1) (rd4 M4 f4))) -∗ Q ⟨⟩))
      ⊢ wp frame (wpE (defs₀ (F := F)) 𝒱₀ (c : Thread nD τ) none) Set.univ
          (cc0__film_body i M1 h1 M2 h2 M3 h3 M4 h4 M5 h5 M6 h6 M7 h7 M8 h8 M9 h9 M10 h10 M11 h11 (Memref.whole cc0_scratch0) (Memref.isWhole_whole _)) Q := by
  iintro ⟨H1, H2, H3, H4, H5, H6, H7, H8, H9, H10, H11, Hs, Hk⟩
  sl_unfold [cc0__film_body]
  sl_exec (disch := exact hi)
  sl_step
  sl_unfold_words
  rw [readCov_scr, readCov_scr, writes_scr]
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hs

theorem runS (𝒱₀ : Variants) (c : Dev nD) (i : grid0.Coords) (hi : ¬ k0_cond1 i = 1#1)
    (M1 : Memref sig .tc .vmem S1x128 .f32) (h1 : M1.IsWhole) (M2 : Memref sig .tc .vmem S256x128 .f32) (h2 : M2.IsWhole)
    (M3 : Memref sig .tc .vmem S256x1 .f32) (h3 : M3.IsWhole) (M4 : Memref sig .tc .vmem S1x256 .f32) (h4 : M4.IsWhole)
    (M5 : Memref sig .tc .vmem S2000x128 .f32) (h5 : M5.IsWhole) (M6 : Memref sig .tc .vmem S128x128 .f32) (h6 : M6.IsWhole)
    (M7 : Memref sig .tc .vmem S1x128 .f32) (h7 : M7.IsWhole) (M8 : Memref sig .tc .vmem S2500x128 .f32) (h8 : M8.IsWhole)
    (M9 : Memref sig .tc .vmem S2500x128 .f32) (h9 : M9.IsWhole) (M10 : Memref sig .tc .vmem S2000x128 .f32) (h10 : M10.IsWhole)
    (M11 : Memref sig .tc .vmem S2560x128 .f32) (h11 : M11.IsWhole)
    (f1 : Bf (F := F) c M1) (f2 : Bf (F := F) c M2) (f3 : Bf (F := F) c M3) (f4 : Bf (F := F) c M4) (f5 : Bf (F := F) c M5)
    (f6 : Bf (F := F) c M6) (f7 : Bf (F := F) c M7) (f8 : Bf (F := F) c M8) (f9 : Bf (F := F) c M9) (f10 : Bf (F := F) c M10)
    (f11 : Bf (F := F) c M11) (fs : Bf (F := F) c (Memref.whole cc0_scratch0)) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9
        ∗ pt c M10 f10 ∗ pt c M11 f11 ∗ pt c scr fs
        ∗ (iprop(pt c M1 f1 ∗ pt c M2 f2 ∗ pt c M3 f3 ∗ pt c M4 f4 ∗ pt c M5 f5 ∗ pt c M6 f6 ∗ pt c M7 f7 ∗ pt c M8 f8 ∗ pt c M9 f9
            ∗ pt c M10 (stFeat M10 f10 (featv (rd5 M5 f5) (rd6 M6 f6) (rd1 M7 f7) fs))
            ∗ pt c M11 f11 ∗ pt c scr fs) -∗ Q ⟨⟩))
      ⊢ wp frame (wpE (defs₀ (F := F)) 𝒱₀ (c : Thread nD τ) none) Set.univ
          (cc0__film_body i M1 h1 M2 h2 M3 h3 M4 h4 M5 h5 M6 h6 M7 h7 M8 h8 M9 h9 M10 h10 M11 h11 (Memref.whole cc0_scratch0) (Memref.isWhole_whole _)) Q := by
  iintro ⟨H1, H2, H3, H4, H5, H6, H7, H8, H9, H10, H11, Hs, Hk⟩
  sl_unfold [cc0__film_body]
  sl_exec (disch := exact hi)
  sl_step
  sl_unfold_words
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hs

section Data

open Idealize.ShloMosaic.Pipeline (RDat)

variable (c : Dev nD) (V : (b : Ref sig .tc) → Buf (Elt F) ((c : Thread nD τ).loc b)) (O : CellTallies nD τ sig Ix) (ι : Ix)

def rdat : RDat τ (Elt F) Ix Name U ℕ cfg0 c where
  A w := V ((cfg0.win w).arr.view.ref)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => X = featBlk c V t
    | ⟨10, _⟩ => if t.val = 0 then ∀ x, X ((ewRect).emb x) = ewOf c V x else X = Y
  Φ t := if t.val = 0 then iprop(∃ f, pt c scr f) else pt c scr (gbOf c V)
  q _ := fullShare
  owed _ := O
  recorded _ := {p | p.2 = ι}

end Data

section Finds

open Idealize.ShloMosaic.Pipeline (RDat Window)

theorem fill_uncut {G : Pipeline.Grid} (w : Window sig G) (i : G.Coords) (hm : ∀ j, w.moved i j = true) {α : Type}
    (d d' : w.block.Idx → α) (g : (w.xblock i).Idx → α) : w.fill i d g = w.fill i d' g := by
  funext j; unfold Window.fill; rw [dif_pos (hm j), dif_pos (hm j)]

theorem finds_keep {cfg : Pipeline.Cfg sig Λ₀} {c : Dev nD} (rd : RDat τ (Elt F) Ix Name U ℕ cfg c) (w : Fin cfg.W)
    (hk : ∀ t Y X, rd.after w t Y X → X = Y) (hfl : ∀ t, (cfg.win w).flush t = false)
    (hf0 : ∀ t : Fin cfg.N, t.val = 0 → (cfg.win w).fetch t = true) :
    ∀ (n : Nat) (t : Fin cfg.N), t.val = n → ∀ Y, rd.Finds w t Y → ∃ t' d, (cfg.win w).fetch t' = true ∧ Y = rd.fetched w t' d := by
  intro n
  induction n with
  | zero =>
    intro t ht Y hY
    rw [rd.finds_of_fetch (hf0 t ht)] at hY
    obtain ⟨d, rfl⟩ := hY
    exact ⟨t, d, hf0 t ht, rfl⟩
  | succ n ih =>
    intro t ht Y hY
    by_cases hf : (cfg.win w).fetch t = true
    · rw [rd.finds_of_fetch hf] at hY
      obtain ⟨d, rfl⟩ := hY
      exact ⟨t, d, hf, rfl⟩
    · have hf' : (cfg.win w).fetch t = false := Bool.eq_false_iff.mpr hf
      rw [rd.finds_of_pos hf' (by omega)] at hY
      rcases hY with h | h
      · rw [hfl] at h; exact absurd h Bool.false_ne_true
      · obtain ⟨Y', hY', ha⟩ := h
        obtain rfl := hk _ _ _ ha
        exact ih ⟨t.val - 1, Nat.lt_of_le_of_lt (Nat.sub_le _ _) t.isLt⟩ (by simp only []; omega) _ hY'

variable (c : Dev nD) (V : (b : Ref sig .tc) → Buf (Elt F) ((c : Thread nD τ).loc b)) (O : CellTallies nD τ sig Ix) (ι : Ix)

theorem finds_sync (w : Fin cfg0.W) (hk : ∀ t Y X, (rdat (Name := Name) (U := U) c V O ι).after w t Y X → X = Y)
    (hfl : ∀ t, (cfg0.win w).flush t = false) (hfe : ∀ t : Fin cfg0.N, (cfg0.win w).fetch t = true ↔ t.val % 5 = 0)
    (hm : ∀ j, (cfg0.win w).moved (cfg0.grid.coords t0) j = true)
    (t : Fin cfg0.N) (Y : (cfg0.win w).block.Idx → Elt F (cfg0.win w).elt)
    (hY : (rdat (Name := Name) (U := U) c V O ι).Finds w t Y) : Y = inB c V w t0 := by
  obtain ⟨t', d, hf, rfl⟩ := finds_keep (rdat (Name := Name) (U := U) c V O ι) w hk hfl
    (fun t ht => (hfe t).mpr (by rw [ht])) t.val t rfl Y hY
  have ht' : t' = t0 := Fin.ext (by
    have h1 := (hfe t').mp hf
    have h2 : t'.val < 5 := lt_of_lt_of_eq t'.isLt N_0
    show t'.val = 0
    omega)
  subst ht'
  exact fill_uncut (cfg0.win w) _ hm _ _ _

end Finds

section Obligation

open Idealize.ShloMosaic.Pipeline (RDat Window)

variable (c : Dev nD) (V : (b : Ref sig .tc) → Buf (Elt F) ((c : Thread nD τ).loc b)) (O : CellTallies nD τ sig Ix) (ι : Ix)

theorem owns_whole' {sp : Space} {S : Shape} {e : EltTy} (M : Memref sig .tc sp S e) (h : M.IsWhole) (q : PosShare TreeShare)
    (X : S.Idx → Elt F e) :
    (owns (c : Thread nD τ) M q X : sProp 𝕄) = iprop(∃ f, ⌜M.view.read (Elt F) f = X⌝ ∗ (M.view.loc (c : Thread nD τ) ↦{q} f)) := by
  unfold owns; rw [h.set_eq_univ]

theorem owns_of_pt {sp : Space} {S : Shape} {e : EltTy} (M : Memref sig .tc sp S e) (h : M.IsWhole) (q : PosShare TreeShare)
    (f : M.view.ty.Contents (Elt F)) (X : S.Idx → Elt F e) (hf : M.view.read (Elt F) f = X) :
    (M.view.loc (c : Thread nD τ) ↦{q} f : sProp 𝕄) ⊢ owns (c : Thread nD τ) M q X := by
  rw [owns_whole' c M h]
  iintro H; iexists f; isplitr; · ipureintro; exact hf
  iexact H

theorem Φ_zero (t : Fin (cfg0.N + 1)) (h : t.val = 0) : (rdat (Name := Name) (U := U) c V O ι).Φ t = iprop(∃ f, pt c scr f) := if_pos h
theorem Φ_pos (t : Fin (cfg0.N + 1)) (h : t.val ≠ 0) : (rdat (Name := Name) (U := U) c V O ι).Φ t = pt c scr (gbOf c V) := if_neg h

theorem cond_iff : ∀ t : Fin grid0.N, k0_cond1 (grid0.coords t) = 1#1 ↔ t.val = 0 := by decide

set_option maxHeartbeats 4000000 in

theorem body_obligation (𝒱₀ : Variants) : (rdat (Name := Name) (U := U) c V O ι).BodyObligation (defs₀ (F := F)) 𝒱₀ ι Set.univ := by
  intro t Y hY
  have e0 : Y 0 = inB c V 0 t0 := finds_sync c V O ι 0 (fun _ _ _ h => h) (fun _ => rfl) fetch0_0 (fun _ => rfl) t (Y 0) (hY 0)
  have e1 : Y 1 = inB c V 1 t0 := finds_sync c V O ι 1 (fun _ _ _ h => h) (fun _ => rfl) fetch0_1 (fun _ => rfl) t (Y 1) (hY 1)
  have e2 : Y 2 = inB c V 2 t0 := finds_sync c V O ι 2 (fun _ _ _ h => h) (fun _ => rfl) fetch0_2 (fun _ => rfl) t (Y 2) (hY 2)
  have e3 : Y 3 = inB c V 3 t0 := finds_sync c V O ι 3 (fun _ _ _ h => h) (fun _ => rfl) fetch0_3 (fun _ => rfl) t (Y 3) (hY 3)
  have e5 : Y 5 = inB c V 5 t0 := finds_sync c V O ι 5 (fun _ _ _ h => h) (fun _ => rfl) fetch0_5 (fun _ => rfl) t (Y 5) (hY 5)
  have e6 : Y 6 = inB c V 6 t0 := finds_sync c V O ι 6 (fun _ _ _ h => h) (fun _ => rfl) fetch0_6 (fun _ => rfl) t (Y 6) (hY 6)
  have e7 : Y 7 = inB c V 7 t0 := finds_sync c V O ι 7 (fun _ _ _ h => h) (fun _ => rfl) fetch0_7 (fun _ => rfl) t (Y 7) (hY 7)
  have e8 : Y 8 = inB c V 8 t0 := finds_sync c V O ι 8 (fun _ _ _ h => h) (fun _ => rfl) fetch0_8 (fun _ => rfl) t (Y 8) (hY 8)
  have e4 : Y 4 = inB c V 4 t := by
    obtain ⟨d, hd⟩ := ((rdat (Name := Name) (U := U) c V O ι).finds_of_fetch (fetch0_4 t) (Y 4)).mp (hY 4)
    rw [hd]
    exact fill_uncut (cfg0.win 4) (cfg0.grid.coords t) (fun _ => rfl) d (fun _ => Classical.arbitrary _) _
  rw [bigSep_W0, bigSep_W0]
  beta_reduce
  rw [owns_whole' c (st0_0 t) (stage_whole0 0 _) fullShare (Y 0), owns_whole' c (st0_1 t) (stage_whole0 1 _) fullShare (Y 1),
    owns_whole' c (st0_2 t) (stage_whole0 2 _) fullShare (Y 2), owns_whole' c (st0_3 t) (stage_whole0 3 _) fullShare (Y 3),
    owns_whole' c (st0_4 t) (stage_whole0 4 _) fullShare (Y 4), owns_whole' c (st0_5 t) (stage_whole0 5 _) fullShare (Y 5),
    owns_whole' c (st0_6 t) (stage_whole0 6 _) fullShare (Y 6), owns_whole' c (st0_7 t) (stage_whole0 7 _) fullShare (Y 7),
    owns_whole' c (st0_8 t) (stage_whole0 8 _) fullShare (Y 8), owns_whole' c (st0_9 t) (stage_whole0 9 _) fullShare (Y 9),
    owns_whole' c (st0_10 t) (stage_whole0 10 _) fullShare (Y 10)]
  by_cases ht : t.val = 0
  · have hi : k0_cond1 (grid0.coords t) = 1#1 := (cond_iff t).mpr ht
    rw [Φ_zero c V O ι t.castSucc ht, Φ_pos c V O ι t.succ (Nat.succ_ne_zero t.val)]

    iintro ⟨⟨%fs, Hs⟩, HO, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩
    have r0 : rd1 (st0_0 t) f0 = inB c V 0 t0 := (readAt_all (stage_whole0 0 _) off00 _ f0).trans (hf0.trans e0)
    have r1 : rd2 (st0_1 t) f1 = inB c V 1 t0 := (readAt_all (stage_whole0 1 _) off00 _ f1).trans (hf1.trans e1)
    have r2 : rd3 (st0_2 t) f2 = inB c V 2 t0 := (readAt_all (stage_whole0 2 _) off00 _ f2).trans (hf2.trans e2)
    have r3 : rd4 (st0_3 t) f3 = inB c V 3 t0 := (readAt_all (stage_whole0 3 _) off00 _ f3).trans (hf3.trans e3)
    have r4 : rd5 (st0_4 t) f4 = inB c V 4 t := (readAt_all (stage_whole0 4 _) off00 _ f4).trans (hf4.trans e4)
    have r5 : rd6 (st0_5 t) f5 = inB c V 5 t0 := (readAt_all (stage_whole0 5 _) off00 _ f5).trans (hf5.trans e5)
    have r6 : rd1 (st0_6 t) f6 = inB c V 6 t0 := (readAt_all (stage_whole0 6 _) off00 _ f6).trans (hf6.trans e6)
    have r7 : rd8 (st0_7 t) f7 = inB c V 7 t0 := (readAt_all (stage_whole0 7 _) off00 _ f7).trans (hf7.trans e7)
    have r8 : rd8 (st0_8 t) f8 = inB c V 8 t0 := (readAt_all (stage_whole0 8 _) off00 _ f8).trans (hf8.trans e8)
    have hg : gbv (rd2 (st0_1 t) f1) (rd3 (st0_2 t) f2) (rd1 (st0_0 t) f0) (rd4 (st0_3 t) f3) = gbOf c V := by
      unfold gbOf; rw [r0, r1, r2, r3]
    have h9 : (st0_9 t).view.read (Elt F) (stFeat (st0_9 t) f9 (featv (rd5 (st0_4 t) f4) (rd6 (st0_5 t) f5) (rd1 (st0_6 t) f6)
        (gbv (rd2 (st0_1 t) f1) (rd3 (st0_2 t) f2) (rd1 (st0_0 t) f0) (rd4 (st0_3 t) f3)))) = featBlk c V t :=
      (writes_all (stage_whole0 9 _) off00 _ f9 _).trans (by unfold featBlk; rw [r4, r5, r6, hg])
    have h10 : ∀ x, (st0_10 t).view.read (Elt F) (stEw (st0_10 t) f10 (ewv (rd8 (st0_7 t) f7) (rd8 (st0_8 t) f8))) ((ewRect).emb x)
        = ewOf c V x := fun x =>
      (View.read_writes_cons_emb (st0_10 t).view f10 ewRect (ewv (rd8 (st0_7 t) f7) (rd8 (st0_8 t) f8)) [] x).trans (by unfold ewOf; rw [r7, r8])
    have hs' : (pt c scr (gbv (rd2 (st0_1 t) f1) (rd3 (st0_2 t) f2) (rd1 (st0_0 t) f0) (rd4 (st0_3 t) f3)) : sProp 𝕄)
        ⊢ pt c scr (gbOf c V) := by rw [hg]
    iapply (run0 𝒱₀ c (grid0.coords t) hi (st0_0 t) (stage_whole0 0 _) (st0_1 t) (stage_whole0 1 _) (st0_2 t) (stage_whole0 2 _) (st0_3 t) (stage_whole0 3 _) (st0_4 t) (stage_whole0 4 _) (st0_5 t) (stage_whole0 5 _) (st0_6 t) (stage_whole0 6 _) (st0_7 t) (stage_whole0 7 _) (st0_8 t) (stage_whole0 8 _) (st0_9 t) (stage_whole0 9 _) (st0_10 t) (stage_whole0 10 _)
      f0 f1 f2 f3 f4 f5 f6 f7 f8 f9 f10 fs _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hs]; · iexact Hs
    iintro ⟨H0, H1, H2, H3, H4, H5, H6, H7, H8, H9, H10, Hs⟩
    isplitl [Hs]; · iapply hs'; iexact Hs
    isplitl [HO]; · iexact HO
    isplitl [H0]
    · iexists (Y 0); isplitr; · ipureintro; exact rfl
      iapply (owns_of_pt c (st0_0 t) (stage_whole0 0 _) fullShare f0 (Y 0) hf0); iexact H0
    isplitl [H1]
    · iexists (Y 1); isplitr; · ipureintro; exact rfl
      iapply (owns_of_pt c (st0_1 t) (stage_whole0 1 _) fullShare f1 (Y 1) hf1); iexact H1
    isplitl [H2]
    · iexists (Y 2); isplitr; · ipureintro; exact rfl
      iapply (owns_of_pt c (st0_2 t) (stage_whole0 2 _) fullShare f2 (Y 2) hf2); iexact H2
    isplitl [H3]
    · iexists (Y 3); isplitr; · ipureintro; exact rfl
      iapply (owns_of_pt c (st0_3 t) (stage_whole0 3 _) fullShare f3 (Y 3) hf3); iexact H3
    isplitl [H4]
    · iexists (Y 4); isplitr; · ipureintro; exact rfl
      iapply (owns_of_pt c (st0_4 t) (stage_whole0 4 _) fullShare f4 (Y 4) hf4); iexact H4
    isplitl [H5]
    · iexists (Y 5); isplitr; · ipureintro; exact rfl
      iapply (owns_of_pt c (st0_5 t) (stage_whole0 5 _) fullShare f5 (Y 5) hf5); iexact H5
    isplitl [H6]
    · iexists (Y 6); isplitr; · ipureintro; exact rfl
      iapply (owns_of_pt c (st0_6 t) (stage_whole0 6 _) fullShare f6 (Y 6) hf6); iexact H6
    isplitl [H7]
    · iexists (Y 7); isplitr; · ipureintro; exact rfl
      iapply (owns_of_pt c (st0_7 t) (stage_whole0 7 _) fullShare f7 (Y 7) hf7); iexact H7
    isplitl [H8]
    · iexists (Y 8); isplitr; · ipureintro; exact rfl
      iapply (owns_of_pt c (st0_8 t) (stage_whole0 8 _) fullShare f8 (Y 8) hf8); iexact H8
    isplitl [H9]
    · iexists (featBlk c V t); isplitr; · ipureintro; exact rfl
      iapply (owns_of_pt c (st0_9 t) (stage_whole0 9 _) fullShare _ _ h9); iexact H9
    iexists _; isplitr; swap
    · iapply (owns_of_pt c (st0_10 t) (stage_whole0 10 _) fullShare _ _ rfl); iexact H10
    · ipureintro
      show (if t.val = 0 then _ else _)
      rw [if_pos ht]; exact h10

  · have hi : ¬ k0_cond1 (grid0.coords t) = 1#1 := fun h => ht ((cond_iff t).mp h)
    rw [Φ_pos c V O ι t.castSucc ht, Φ_pos c V O ι t.succ (Nat.succ_ne_zero t.val)]

    iintro ⟨Hs, HO, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩
    have r0 : rd1 (st0_0 t) f0 = inB c V 0 t0 := (readAt_all (stage_whole0 0 _) off00 _ f0).trans (hf0.trans e0)
    have r1 : rd2 (st0_1 t) f1 = inB c V 1 t0 := (readAt_all (stage_whole0 1 _) off00 _ f1).trans (hf1.trans e1)
    have r2 : rd3 (st0_2 t) f2 = inB c V 2 t0 := (readAt_all (stage_whole0 2 _) off00 _ f2).trans (hf2.trans e2)
    have r3 : rd4 (st0_3 t) f3 = inB c V 3 t0 := (readAt_all (stage_whole0 3 _) off00 _ f3).trans (hf3.trans e3)
    have r4 : rd5 (st0_4 t) f4 = inB c V 4 t := (readAt_all (stage_whole0 4 _) off00 _ f4).trans (hf4.trans e4)
    have r5 : rd6 (st0_5 t) f5 = inB c V 5 t0 := (readAt_all (stage_whole0 5 _) off00 _ f5).trans (hf5.trans e5)
    have r6 : rd1 (st0_6 t) f6 = inB c V 6 t0 := (readAt_all (stage_whole0 6 _) off00 _ f6).trans (hf6.trans e6)
    have h9 : (st0_9 t).view.read (Elt F) (stFeat (st0_9 t) f9 (featv (rd5 (st0_4 t) f4) (rd6 (st0_5 t) f5) (rd1 (st0_6 t) f6)
        (gbOf c V))) = featBlk c V t :=
      (writes_all (stage_whole0 9 _) off00 _ f9 _).trans (by unfold featBlk; rw [r4, r5, r6])
    iapply (runS 𝒱₀ c (grid0.coords t) hi (st0_0 t) (stage_whole0 0 _) (st0_1 t) (stage_whole0 1 _) (st0_2 t) (stage_whole0 2 _) (st0_3 t) (stage_whole0 3 _) (st0_4 t) (stage_whole0 4 _) (st0_5 t) (stage_whole0 5 _) (st0_6 t) (stage_whole0 6 _) (st0_7 t) (stage_whole0 7 _) (st0_8 t) (stage_whole0 8 _) (st0_9 t) (stage_whole0 9 _) (st0_10 t) (stage_whole0 10 _)
      f0 f1 f2 f3 f4 f5 f6 f7 f8 f9 f10 (gbOf c V) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hs]; · iexact Hs
    iintro ⟨H0, H1, H2, H3, H4, H5, H6, H7, H8, H9, H10, Hs⟩
    isplitl [Hs]; · iexact Hs
    isplitl [HO]; · iexact HO
    isplitl [H0]
    · iexists (Y 0); isplitr; · ipureintro; exact rfl
      iapply (owns_of_pt c (st0_0 t) (stage_whole0 0 _) fullShare f0 (Y 0) hf0); iexact H0
    isplitl [H1]
    · iexists (Y 1); isplitr; · ipureintro; exact rfl
      iapply (owns_of_pt c (st0_1 t) (stage_whole0 1 _) fullShare f1 (Y 1) hf1); iexact H1
    isplitl [H2]
    · iexists (Y 2); isplitr; · ipureintro; exact rfl
      iapply (owns_of_pt c (st0_2 t) (stage_whole0 2 _) fullShare f2 (Y 2) hf2); iexact H2
    isplitl [H3]
    · iexists (Y 3); isplitr; · ipureintro; exact rfl
      iapply (owns_of_pt c (st0_3 t) (stage_whole0 3 _) fullShare f3 (Y 3) hf3); iexact H3
    isplitl [H4]
    · iexists (Y 4); isplitr; · ipureintro; exact rfl
      iapply (owns_of_pt c (st0_4 t) (stage_whole0 4 _) fullShare f4 (Y 4) hf4); iexact H4
    isplitl [H5]
    · iexists (Y 5); isplitr; · ipureintro; exact rfl
      iapply (owns_of_pt c (st0_5 t) (stage_whole0 5 _) fullShare f5 (Y 5) hf5); iexact H5
    isplitl [H6]
    · iexists (Y 6); isplitr; · ipureintro; exact rfl
      iapply (owns_of_pt c (st0_6 t) (stage_whole0 6 _) fullShare f6 (Y 6) hf6); iexact H6
    isplitl [H7]
    · iexists (Y 7); isplitr; · ipureintro; exact rfl
      iapply (owns_of_pt c (st0_7 t) (stage_whole0 7 _) fullShare f7 (Y 7) hf7); iexact H7
    isplitl [H8]
    · iexists (Y 8); isplitr; · ipureintro; exact rfl
      iapply (owns_of_pt c (st0_8 t) (stage_whole0 8 _) fullShare f8 (Y 8) hf8); iexact H8
    isplitl [H9]
    · iexists (featBlk c V t); isplitr; · ipureintro; exact rfl
      iapply (owns_of_pt c (st0_9 t) (stage_whole0 9 _) fullShare _ _ h9); iexact H9
    iexists (Y 10); isplitr
    · ipureintro
      show (if t.val = 0 then _ else _)
      rw [if_neg ht]
    · iapply (owns_of_pt c (st0_10 t) (stage_whole0 10 _) fullShare f10 (Y 10) hf10); iexact H10

end Obligation

section Arrays

open Idealize.ShloMosaic.Pipeline (RDat Window)

variable (c : Dev nD) (V : (b : Ref sig .tc) → Buf (Elt F) ((c : Thread nD τ).loc b)) (O : CellTallies nD τ sig Ix) (ι : Ix)

theorem arrAt9 : ∀ (n : Nat) (G : Buf (Elt F) ((cfg0.win 9).arr.view.loc (c : Thread nD τ))), (rdat (Name := Name) (U := U) c V O ι).ArrAt 9 n G → G = featsAt c V n
  | 0, G, h => h
  | n + 1, G, h => by
    simp only [RDat.ArrAt] at h
    by_cases hn : n < cfg0.N
    · rw [dif_pos hn, if_pos (flush0_9 ⟨n, hn⟩)] at h
      obtain ⟨G₀, X, hG₀, hX, rfl⟩ := h
      obtain ⟨Y, -, ha⟩ := hX
      have hXe : X = featBlk c V ⟨n, hn⟩ := ha
      subst hXe
      rw [arrAt9 n G₀ hG₀]
      show _ = featsAt c V (n + 1)
      rw [featsAt, dif_pos hn]
    · rw [dif_neg hn] at h
      rw [featsAt, dif_neg hn]
      exact arrAt9 n G h

theorem leaves10 : ∀ (n : Nat) (t : Fin cfg0.N), t.val = n → ∀ X, (rdat (Name := Name) (U := U) c V O ι).Leaves 10 t X → ∀ x, X ((ewRect).emb x) = ewOf c V x := by
  intro n
  induction n with
  | zero =>
    intro t ht X hX
    obtain ⟨Y, -, ha⟩ := hX
    have ha' : (if t.val = 0 then ∀ x, X ((ewRect).emb x) = ewOf c V x else X = Y) := ha
    rw [if_pos ht] at ha'
    exact ha'
  | succ n ih =>
    intro t ht X hX
    obtain ⟨Y, hY, ha⟩ := hX
    have ha' : (if t.val = 0 then ∀ x, X ((ewRect).emb x) = ewOf c V x else X = Y) := ha
    rw [if_neg (by omega)] at ha'
    subst ha'
    rw [(rdat (Name := Name) (U := U) c V O ι).finds_of_pos (w := 10) rfl (by omega)] at hY
    rcases hY with h | h
    · have h4 := (flush0_10 _).mp h
      have h5 : t.val < 5 := lt_of_lt_of_eq t.isLt N_0
      simp only [] at h4
      omega
    · exact ih ⟨t.val - 1, Nat.lt_of_le_of_lt (Nat.sub_le _ _) t.isLt⟩ (by simp only []; omega) _ h

theorem arrAt10_lt : ∀ (n : Nat), n ≤ 4 → ∀ (G : Buf (Elt F) ((cfg0.win 10).arr.view.loc (c : Thread nD τ))),
    (rdat (Name := Name) (U := U) c V O ι).ArrAt 10 n G → G = V (cfg0.win 10).arr.view.ref
  | 0, _, G, h => h
  | n + 1, hn, G, h => by
    simp only [RDat.ArrAt] at h
    have hN : n < cfg0.N := lt_of_lt_of_eq (by omega : n < 5) N_0.symm
    rw [dif_pos hN, if_neg (fun hf => by have h4 := (flush0_10 ⟨n, hN⟩).mp hf; simp only [] at h4; omega)] at h
    exact arrAt10_lt n (by omega) G h

theorem arrAt10 (n : Nat) (hn : n = 4) (G : Buf (Elt F) ((cfg0.win 10).arr.view.loc (c : Thread nD τ)))
    (h : (rdat (Name := Name) (U := U) c V O ι).ArrAt 10 (n + 1) G) : ∀ x, G ((ewRect).emb x) = ewOf c V x := by
  simp only [RDat.ArrAt] at h
  have hN : n < cfg0.N := lt_of_lt_of_eq (by omega : n < 5) N_0.symm
  rw [dif_pos hN, if_pos ((flush0_10 ⟨n, hN⟩).mpr (by simp only []; omega))] at h
  obtain ⟨G₀, X, -, hX, rfl⟩ := h
  have hl := leaves10 c V O ι n ⟨n, hN⟩ rfl X hX
  intro x
  have hw : ((cfg0.win 10).blk ⟨n, hN⟩).view.write (Elt F) G₀ ((cfg0.win 10).cut (cfg0.grid.coords ⟨n, hN⟩) X) Finset.univ
      = (cfg0.win 10).cut (cfg0.grid.coords ⟨n, hN⟩) X :=
    Memref.write_access_unit_zero_univ (Elt F) main_v7_1 (off := fun a => (cfg0.win 10).index ⟨n, hN⟩ a * (cfg0.win 10).size a)
      (by funext a; fin_cases a <;> rfl) _ G₀ _
  rw [hw]
  exact hl x

end Arrays

section Region

open Idealize.ShloMosaic.Pipeline (RDat)

variable (V : (c : Dev nD) → (b : Ref sig .tc) → Buf (Elt F) ((c : Thread nD τ).loc b)) (O : Dev nD → CellTallies nD τ sig Ix) (ι : Ix)

abbrev adm : (p : Fin 1) → (pcfgs (F := F) p).Adm := fun p => (cfgs p).toPCfg_adm

def rdats (_ : Fin 1) (c : Dev nD) : RDat τ (Elt F) Ix Name U ℕ cfg0 c := rdat c (V c) (O c) ι

def owesι (c : Dev nD) : sProp 𝕄 := iprop(∃ W : Waits sig Ix, ⌜∀ p ∈ W, p.2 = ι⌝ ∗ owes (c : Thread nD τ) (O c) W)

abbrev buf (c : Dev nD) (b : Ref sig .tc) (f : Buf (Elt F) ((c : Thread nD τ).loc b)) : sProp 𝕄 := ((c : Thread nD τ).loc b) ↦{fullShare} f

def filmPre (c : Dev nD) : sProp 𝕄 :=
  iprop(owesι (Name := Name) (U := U) O ι c ∗ buf c main_v1 (V c main_v1) ∗ buf c main_arg5 (V c main_arg5) ∗ buf c main_v2 (V c main_v2) ∗ buf c main_v3 (V c main_v3) ∗ buf c main_v0 (V c main_v0) ∗ buf c main_arg8 (V c main_arg8) ∗ buf c main_v4 (V c main_v4) ∗ buf c main_v5 (V c main_v5) ∗ buf c main_v6 (V c main_v6) ∗ buf c main_v7_0 (V c main_v7_0) ∗ buf c main_v7_1 (V c main_v7_1))

def filmPost (c : Dev nD) : sProp 𝕄 :=
  iprop(owesι (Name := Name) (U := U) O ι c ∗ buf c main_v1 (V c main_v1) ∗ buf c main_arg5 (V c main_arg5) ∗ buf c main_v2 (V c main_v2) ∗ buf c main_v3 (V c main_v3) ∗ buf c main_v0 (V c main_v0) ∗ buf c main_arg8 (V c main_arg8) ∗ buf c main_v4 (V c main_v4) ∗ buf c main_v5 (V c main_v5) ∗ buf c main_v6 (V c main_v6)
    ∗ buf c main_v7_0 (FEATS c (V c))
    ∗ ∃ EW : Buf (Elt F) ((c : Thread nD τ).loc main_v7_1), ⌜∀ x, EW ((ewRect).emb x) = ewOf c (V c) x⌝ ∗ buf c main_v7_1 EW)

theorem arr_pt (c : Dev nD) (w : Fin cfg0.W) (G : Buf (Elt F) ((cfg0.win w).arr.view.loc (c : Thread nD τ))) :
    ((cfg0.win w).arr.view.loc (c : Thread nD τ) ↦[(cfg0.win w).arr.view.set]{(rdat (Name := Name) (U := U) c (V c) (O c) ι).share w} G : sProp 𝕄)
      = (((c : Thread nD τ).loc (cfg0.win w).arr.view.ref) ↦{fullShare} G) := by
  rw [(arr_whole0 w).set_eq_univ, (rdat (Name := Name) (U := U) c (V c) (O c) ι).share_full (fun _ => rfl)]

variable (L : GSem nD τ sig → Finset Ix) (lv : GSem nD τ sig → Ix → ℕ)

set_option maxHeartbeats 2000000 in
set_option backward.isDefEq.respectTransparency.types false in

def reg (hmw : ∀ (c : Dev nD) (sm : SemLoc sig), (levAts L lv : sProp 𝕄) ⊢ MayWait (c : Thread nD τ) sm ι (O c)) (𝒱₀ : Variants) :
    Pipeline.RDat.RegionSeg (pcfgs (F := F)) adm (rdats (Name := Name) (U := U) V O ι) ι defs₀ 𝒱₀ L lv 0 where
  win := launch0.win.to₀
  block_pos := launch0.block_pos
  stage_whole := launch0.stage_whole
  K := PEmpty
  osem := fun k => k.elim
  ho := Pipeline.OwnSemFacts.none _
  hbody c := body_obligation c (V c) (O c) ι 𝒱₀
  hwaits c := Pipeline.RDat.cellsWaits_intro (Pipeline.pin (pcfgs (F := F)) adm) (rdats (Name := Name) (U := U) V O ι) ι 0 c fun w s t => hmw c _
  pre := filmPre (Name := Name) (U := U) V O ι
  post := filmPost (Name := Name) (U := U) V O ι
  X _ := iprop(emp)
  Y _ := iprop(emp)
  Z _ := iprop(emp)
  hentry c := by
    rw [Pipeline.RDat.arrays_eq (pcfgs (F := F)) adm (rdats (Name := Name) (U := U) V O ι) 0 c launch0.arr_whole
      (fun w => (rdat (Name := Name) (U := U) c (V c) (O c) ι).share_full (fun _ => rfl) w), bigSep_W0]
    unfold filmPre
    iintro ⟨⟨HO, H0, H1, H2, H3, H4, H5, H6, H7, H8, H9, H10⟩, -, -⟩
    imodintro
    isplitl [H0 H1 H2 H3 H4 H5 H6 H7 H8 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitr
    · unfold Pipeline.prefHeld; rw [show (Finset.univ : Finset (Fin 0)) = ∅ from rfl, BI.bigSep_empty]; iempintro
    isplitl [HO]
    · unfold owesι
      icases HO with ⟨%W, %hW, HO⟩
      iexists W; isplitr; · ipureintro; exact fun p hp => Or.inl (hW p hp)
      iexact HO
    isplitl [] <;> iempintro
  hin c := by
    show iprop(_ ∗ _ ∗ Pipeline.scopedRest spec0 c) ⊢ (rdat (Name := Name) (U := U) c (V c) (O c) ι).Φ 0
    rw [scopedRest0_eq c, Φ_zero c (V c) (O c) ι 0 rfl]
    iintro ⟨-, -, ⟨%f, H⟩⟩
    iexists f; iexact H
  hout c := by
    show (rdat (Name := Name) (U := U) c (V c) (O c) ι).Φ (Fin.last cfg0.N) ⊢ iprop(_ ∗ _ ∗ Pipeline.scopedRest spec0 c)
    rw [scopedRest0_eq c, Pipeline.ownSems0_none, Φ_pos c (V c) (O c) ι (Fin.last cfg0.N) (by rw [Fin.val_last, show cfg0.N = 5 from N_0]; decide)]
    iintro H
    isplitr; · iempintro
    isplitr; · iempintro
    iexists _; iexact H
  hexit c := by
    show iprop((rdat (Name := Name) (U := U) c (V c) (O c) ι).arraysAt cfg0.N ∗ _ ∗ _ ∗ _) ⊢ _
    unfold RDat.arraysAt filmPost
    rw [bigSep_W0]
    iintro ⟨⟨⟨%F0, %h0, H0⟩, ⟨%F1, %h1, H1⟩, ⟨%F2, %h2, H2⟩, ⟨%F3, %h3, H3⟩, ⟨%F4, %h4, H4⟩, ⟨%F5, %h5, H5⟩, ⟨%F6, %h6, H6⟩, ⟨%F7, %h7, H7⟩, ⟨%F8, %h8, H8⟩, ⟨%F9, %h9, H9⟩, ⟨%F10, %h10, H10⟩⟩, HO, -, -⟩
    have e0 : F0 = V c main_v1 := by rw [(rdat (Name := Name) (U := U) c (V c) (O c) ι).ArrAt_in 0 rfl] at h0; exact h0
    subst e0
    have e1 : F1 = V c main_arg5 := by rw [(rdat (Name := Name) (U := U) c (V c) (O c) ι).ArrAt_in 1 rfl] at h1; exact h1
    subst e1
    have e2 : F2 = V c main_v2 := by rw [(rdat (Name := Name) (U := U) c (V c) (O c) ι).ArrAt_in 2 rfl] at h2; exact h2
    subst e2
    have e3 : F3 = V c main_v3 := by rw [(rdat (Name := Name) (U := U) c (V c) (O c) ι).ArrAt_in 3 rfl] at h3; exact h3
    subst e3
    have e4 : F4 = V c main_v0 := by rw [(rdat (Name := Name) (U := U) c (V c) (O c) ι).ArrAt_in 4 rfl] at h4; exact h4
    subst e4
    have e5 : F5 = V c main_arg8 := by rw [(rdat (Name := Name) (U := U) c (V c) (O c) ι).ArrAt_in 5 rfl] at h5; exact h5
    subst e5
    have e6 : F6 = V c main_v4 := by rw [(rdat (Name := Name) (U := U) c (V c) (O c) ι).ArrAt_in 6 rfl] at h6; exact h6
    subst e6
    have e7 : F7 = V c main_v5 := by rw [(rdat (Name := Name) (U := U) c (V c) (O c) ι).ArrAt_in 7 rfl] at h7; exact h7
    subst e7
    have e8 : F8 = V c main_v6 := by rw [(rdat (Name := Name) (U := U) c (V c) (O c) ι).ArrAt_in 8 rfl] at h8; exact h8
    subst e8
    have e9 : F9 = FEATS c (V c) := arrAt9 c (V c) (O c) ι _ F9 h9
    subst e9
    have e10 : ∀ x, F10 ((ewRect).emb x) = ewOf c (V c) x :=
      arrAt10 c (V c) (O c) ι 4 rfl F10 (Eq.mp (congrArg (fun n => (rdat (Name := Name) (U := U) c (V c) (O c) ι).ArrAt 10 n F10) N_0) h10)
    ihave H0 := (Entails.of_eq (arr_pt (Name := Name) (U := U) V O ι c 0 _)) $$ H0
    ihave H1 := (Entails.of_eq (arr_pt (Name := Name) (U := U) V O ι c 1 _)) $$ H1
    ihave H2 := (Entails.of_eq (arr_pt (Name := Name) (U := U) V O ι c 2 _)) $$ H2
    ihave H3 := (Entails.of_eq (arr_pt (Name := Name) (U := U) V O ι c 3 _)) $$ H3
    ihave H4 := (Entails.of_eq (arr_pt (Name := Name) (U := U) V O ι c 4 _)) $$ H4
    ihave H5 := (Entails.of_eq (arr_pt (Name := Name) (U := U) V O ι c 5 _)) $$ H5
    ihave H6 := (Entails.of_eq (arr_pt (Name := Name) (U := U) V O ι c 6 _)) $$ H6
    ihave H7 := (Entails.of_eq (arr_pt (Name := Name) (U := U) V O ι c 7 _)) $$ H7
    ihave H8 := (Entails.of_eq (arr_pt (Name := Name) (U := U) V O ι c 8 _)) $$ H8
    ihave H9 := (Entails.of_eq (arr_pt (Name := Name) (U := U) V O ι c 9 _)) $$ H9
    ihave H10 := (Entails.of_eq (arr_pt (Name := Name) (U := U) V O ι c 10 _)) $$ H10
    imodintro
    isplitl [HO]
    · unfold owesι RDat.owesAt Pipeline.owesWithin
      icases HO with ⟨%W, %hW, HO⟩
      iexists W; isplitr
      · ipureintro
        intro p hp
        rcases hW hp with h | ⟨w, s, rfl⟩
        · exact h
        · rfl
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists F10; isplitr; · ipureintro; exact e10
    iexact H10

end Region

section Enter

open Idealize.ShloMosaic.Pipeline (RDat)

variable (V : (c : Dev nD) → (b : Ref sig .tc) → Buf (Elt F) ((c : Thread nD τ).loc b)) (O : Dev nD → CellTallies nD τ sig Ix) (ι : Ix)
  (L : GSem nD τ sig → Finset Ix) (lv : GSem nD τ sig → Ix → ℕ)

set_option backward.isDefEq.respectTransparency.types false in

theorem film_region [Infinite Name] (hmw : ∀ (c : Dev nD) (sm : SemLoc sig), (levAts L lv : sProp 𝕄) ⊢ MayWait (c : Thread nD τ) sm ι (O c))
    (EP : Emb (URounds (GSem nD τ sig) Unit) (MT nD τ sig Ix (Elt F) Name U ℕ)) [EP.LandsIn (upEmb : UEmb _ 𝕄)] (𝒱₀ : Variants) (c : Dev nD)
    (bd : Option (Variants.lift 𝒱₀).V)
    (hv : ∀ u ∈ bd, (Variants.lift 𝒱₀).lt (.inr ((Pipeline.pin (pcfgs (F := F)) adm 0).tripCount + 1)) u)
    {α : Type} (k : PUnit → Prog (TpuEff nD τ sig (Elt F) (Pipeline.Sig Λ₀ (Fin 1) fun p => (pcfgs (F := F) p).Adm) .tc) α) (Q : α → sProp 𝕄) :
    iprop((iprop(boundary (c : Thread nD τ) ∗ filmPost (Name := Name) (U := U) V O ι c)
            -∗ wp frame (wpE (Pipeline.defs (pcfgs (F := F)) defs₀) (Variants.lift 𝒱₀) (c : Thread nD τ) bd) Set.univ (k ⟨⟩) Q)
        ∗ boundary (c : Thread nD τ) ∗ filmPre (Name := Name) (U := U) V O ι c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c : Thread nD τ) bd) Set.univ
          (.op (.customCall (Pipeline.entry 0) ()) k) Q :=
  Pipeline.RDat.RegionSeg.wp (pcfgs (F := F)) adm (rdats (Name := Name) (U := U) V O ι) ι cellOf_inj EP defs₀ 𝒱₀ L lv
    (reg V O ι L lv hmw 𝒱₀) c bd hv k Q

end Enter

end Cert.Kernel.Film

end
-- ==== Proof.KB.FilmRegion.lean ====
import proofs.«204698_g79517024518204_fold_wed_m_581_46_alg».proof.Proof.KB.FilmBody
import proofs.«204698_g79517024518204_fold_wed_m_581_46_alg».proof.Proof.KB.MainDefs
import Idealize.ShloMosaic.Lib.Pipeline.Value

noncomputable section

namespace Cert.Proof.KB

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

local notation "𝕄" => MT nD τ sig (HIx 1) (Elt F) ℕ UU ℕ

theorem regRefs_chain (Φ : Ref sig .tc → sProp 𝕄) :
    bigSep regRefs Φ = iprop(Φ main_v7_0 ∗ Φ main_v7_1 ∗ Φ main_v1 ∗ Φ main_arg5 ∗ Φ main_v2 ∗ Φ main_v3 ∗ Φ main_v0 ∗ Φ main_arg8 ∗ Φ main_v4
      ∗ Φ main_v5 ∗ Φ main_v6) := by
  unfold regRefs regOps
  rw [bigSep_insert (by decide), bigSep_insert (by decide), bigSep_insert (by decide), bigSep_insert (by decide), bigSep_insert (by decide),
    bigSep_insert (by decide), bigSep_insert (by decide), bigSep_insert (by decide), bigSep_insert (by decide), bigSep_insert (by decide),
    bigSep_singleton]
  rfl

theorem regOps_chain (Φ : Ref sig .tc → sProp 𝕄) :
    bigSep regOps Φ = iprop(Φ main_v1 ∗ Φ main_arg5 ∗ Φ main_v2 ∗ Φ main_v3 ∗ Φ main_v0 ∗ Φ main_arg8 ∗ Φ main_v4 ∗ Φ main_v5 ∗ Φ main_v6) := by
  unfold regOps
  rw [bigSep_insert (by decide), bigSep_insert (by decide), bigSep_insert (by decide), bigSep_insert (by decide), bigSep_insert (by decide),
    bigSep_insert (by decide), bigSep_insert (by decide), bigSep_insert (by decide), bigSep_singleton]
  rfl

theorem ewRect_emb (r : Fin 2500) (j : Fin 128) :
    (Film.ewRect).emb (ix2 r j) = ix2 (⟨r.val, by omega⟩ : Fin 2560) j := by
  funext a
  fin_cases a <;> (apply Fin.ext; rw [Rect.emb_apply]; simp [ix2])

theorem inB_wv (c : Dev nD) (V : (b : Ref sig .tc) → Buf (Elt F) ((c : Thread nD τ).loc b)) (x : S2500x128.Idx) :
    Film.inB c V 7 Film.t0 x = V main_v5 x := by
  unfold Film.inB Pipeline.Window.fill
  rw [dif_pos (show (cfg0.win 7).moved (cfg0.grid.coords Film.t0) x = true from rfl)]
  exact congrFun (Memref.read_access_unit_zero (Elt F) main_v5 (off := fun a => (cfg0.win 7).index Film.t0 a * (cfg0.win 7).size a)
    (by funext a; fin_cases a <;> rfl) _ (V main_v5)) x

theorem inB_wp (c : Dev nD) (V : (b : Ref sig .tc) → Buf (Elt F) ((c : Thread nD τ).loc b)) (x : S2500x128.Idx) :
    Film.inB c V 8 Film.t0 x = V main_v6 x := by
  unfold Film.inB Pipeline.Window.fill
  rw [dif_pos (show (cfg0.win 8).moved (cfg0.grid.coords Film.t0) x = true from rfl)]
  exact congrFun (Memref.read_access_unit_zero (Elt F) main_v6 (off := fun a => (cfg0.win 8).index Film.t0 a * (cfg0.win 8).size a)
    (by funext a; fin_cases a <;> rfl) _ (V main_v6)) x

theorem ewOf_apply (c : Dev nD) (V : (b : Ref sig .tc) → Buf (Elt F) ((c : Thread nD τ).loc b)) (r : Fin 2500) (j : Fin 128) :
    Film.ewOf c V (ix2 r j) = FloatOps.mulf (V main_v5 (ix2 r j)) (V main_v6 (ix2 r j)) := by
  unfold Film.ewOf Film.ewv k0_pay2
  rw [shapeCast_self, shapeCast_self]
  show FloatOps.mulf (Film.inB c V 7 Film.t0 (ix2 r j)) (Film.inB c V 8 Film.t0 (ix2 r j)) = _
  rw [inB_wv, inB_wp]

variable (m : (ℓ : Loc nD τ sig) → Buf (Elt F) ℓ)

set_option maxHeartbeats 2000000 in

theorem region_step (Vf : (c : Dev nD) → (b : Ref sig .tc) → Buf (Elt F) ((c.tc : Thread nD τ).loc b)) (O : Dev nD → CellTallies nD τ sig (HIx 1))
    (hV : Vf = VR m)
    (hmw : ∀ (c : Dev nD) (sm : SemLoc sig), (levAts (K (F := F)).L (K (F := F)).lev : sProp 𝕄) ⊢ MayWait (c.tc : Thread nD τ) sm none (O c))
    (c : Dev nD) :
    iprop(levAts (K (F := F)).L (K (F := F)).lev ∗ regPre c (Vf c) (O c))
      ⊢ wp frame (wpE (D (F := F)) 𝒱 (SparseCore.T c) none) Set.univ
          (Prog.lift (.customCall (Pipeline.entry (0 : Fin 1)) ()) : Prog (TpuEff nD τ sig (Elt F) (ΛP (F := F)) .tc) PUnit)
          fun _ => regPost (fun c => Film.FEATS c (VR m c)) c (Vf c) (O c) := by
  subst hV
  unfold regPre G owesPart
  rw [regRefs_chain]
  iintro ⟨#Hlv, Hb, ⟨H70, H71, H1, H5, H2, H3, H0, H8, H4, Hv5, Hv6⟩, ⟨%W, %hW, HO⟩, Hg, Ht⟩
  have hW0 : ∀ p ∈ W, p.2 = none := fun p hp => by
    have h := hW p hp
    rcases hp2 : p.2 with _ | q
    · rfl
    · have hpos := (K (F := F)).lev_some_pos (SparseCore.T c, p.1) q
      rw [hp2] at h
      omega
  iapply (Film.film_region (Name := ℕ) (U := UU) (VR m) O none (K (F := F)).L (K (F := F)).lev hmw EP 𝒱₀ c none (fun _ h => nomatch h)
    (fun x => .ret x) _)
  isplitr [Hb H70 H71 H1 H5 H2 H3 H0 H8 H4 Hv5 Hv6 HO Hg Ht]
  · iintro ⟨Hb, Hpost⟩
    sl_step
    unfold regPost Film.filmPost Film.owesι owesPart
    icases Hpost with ⟨⟨%W', %hW', HO⟩, H1, H5, H2, H3, H0, H8, H4, Hv5, Hv6, H70, ⟨%EW, %hEW, H71⟩⟩
    rw [regOps_chain]
    isplitl [Hb]; · iexact Hb
    isplitl [H1 H5 H2 H3 H0 H8 H4 Hv5 Hv6]
    · isplitl [H1]; · iexact H1
      isplitl [H5]; · iexact H5
      isplitl [H2]; · iexact H2
      isplitl [H3]; · iexact H3
      isplitl [H0]; · iexact H0
      isplitl [H8]; · iexact H8
      isplitl [H4]; · iexact H4
      isplitl [Hv5]; · iexact Hv5
      iexact Hv6
    isplitl [H70]; · iexact H70
    isplitl [H71]
    · iexists EW; isplitr
      · ipureintro
        intro r j
        rw [← ewRect_emb r j, hEW, ewOf_apply]
      iexact H71
    iexists W'; isplitr
    · ipureintro
      intro p hp
      show (K (F := F)).lev _ p.2 ≤ _
      rw [hW' p hp]
      exact Nat.zero_le _
    iexact HO
  isplitl [Hb]; · iexact Hb
  isplitl [H70 H71 H1 H5 H2 H3 H0 H8 H4 Hv5 Hv6 HO]
  · unfold Film.filmPre Film.owesι
    isplitl [HO]
    · iexists W; isplitr; · ipureintro; exact hW0
      iexact HO
    isplitl [H1]; · iexact H1
    isplitl [H5]; · iexact H5
    isplitl [H2]; · iexact H2
    isplitl [H3]; · iexact H3
    isplitl [H0]; · iexact H0
    isplitl [H8]; · iexact H8
    isplitl [H4]; · iexact H4
    isplitl [Hv5]; · iexact Hv5
    isplitl [Hv6]; · iexact Hv6
    isplitl [H70]; · iexact H70
    iexact H71
  isplitr; · iexact Hlv
  isplitl [Hg]; · iexact Hg
  iexact Ht

end Cert.Proof.KB

end
-- ==== Proof.Assemble.lean ====
import proofs.«204698_g79517024518204_fold_wed_m_581_46_alg».proof.Defs
import proofs.«204698_g79517024518204_fold_wed_m_581_46_alg».proof.Proof.RefSide
import proofs.«204698_g79517024518204_fold_wed_m_581_46_alg».proof.Proof.KI.Main
import proofs.«204698_g79517024518204_fold_wed_m_581_46_alg».proof.Proof.KI.Tile
import proofs.«204698_g79517024518204_fold_wed_m_581_46_alg».proof.Proof.KI.Split
import proofs.«204698_g79517024518204_fold_wed_m_581_46_alg».proof.Proof.KI.LaunchElem
import proofs.«204698_g79517024518204_fold_wed_m_581_46_alg».proof.Proof.KI.KerSide
import proofs.«204698_g79517024518204_fold_wed_m_581_46_alg».proof.Proof.KI.FilmRegion
import proofs.«204698_g79517024518204_fold_wed_m_581_46_alg».proof.Proof.KI.FilmValue
import proofs.«204698_g79517024518204_fold_wed_m_581_46_alg».proof.Proof.KB.Main
import proofs.«204698_g79517024518204_fold_wed_m_581_46_alg».proof.Proof.KB.Tile
import proofs.«204698_g79517024518204_fold_wed_m_581_46_alg».proof.Proof.KB.Split
import proofs.«204698_g79517024518204_fold_wed_m_581_46_alg».proof.Proof.KB.LaunchElem
import proofs.«204698_g79517024518204_fold_wed_m_581_46_alg».proof.Proof.KB.IdxFacts
import proofs.«204698_g79517024518204_fold_wed_m_581_46_alg».proof.Proof.KB.FilmRegion
import proofs.«204698_g79517024518204_fold_wed_m_581_46_alg».proof.Proof.Gen.Kernel
import proofs.«204698_g79517024518204_fold_wed_m_581_46_alg».proof.Proof.Gen.KernelIdeal
import proofs.«204698_g79517024518204_fold_wed_m_581_46_alg».proof.Proof.Gen.ReferenceIdeal
import proofs.«204698_g79517024518204_fold_wed_m_581_46_alg».proof.Proof.Gen.Pre_input_domain

noncomputable section

namespace Cert.Proof

open Idealize.ShloMosaic Idealize.SL.Sem Idealize.ShloMosaic.ValueIdx

attribute [local instance] Cert.Kernel.Gen.facts Cert.KernelIdeal.Gen.facts Cert.ReferenceIdeal.Gen.facts Cert.Pre_input_domain.Gen.facts

abbrev featsK (m : KMem) : (d : Dev Cert.KernelIdeal.nD) → Buf (Elt Ideal) (KI.featsLoc d) :=
  fun d => Cert.KernelIdeal.Film.FEATS d (KI.VR m d)

theorem run_ki (m : KMem) (ρ : Dev Cert.KernelIdeal.nD → PrngReg) (hpre : Cert.Pre_KernelIdeal m) :
    θ_run (Cert.KernelIdeal.defs (F := Ideal)) (Cert.KernelIdeal.threads (F := Ideal)) ⟨m, fun _ => 0, ρ⟩ (KI.QC m (featsK m)) :=
  KI.run_main m ρ (featsK m) (fun Vf O hV hmw c => KI.region_step m Vf O hV hmw c)
    (KI.tileObl _ KI.facts (KI.idxOK_ops m _ (KI.hr_of_pre m hpre))) (KI.vecSplit _) (KI.hu₀ _)

theorem ker_value_K (m : KMem) (hpre : Cert.Pre_KernelIdeal m) (c : Dev Cert.KernelIdeal.nD) (n : Fin 10000) (o : Fin 128) :
    KI.outVal (KI.opsOf m (featsK m)) c (ix2 (⟨n.val, by omega⟩ : Fin 10240) o) = Cert.Spec.outK (specK m c) n o :=
  KI.ker_value m (featsK m) c (specK m c) (fun _ => rfl) (fun _ => rfl) (fun _ => rfl) (KI.hr_of_pre m hpre c)
    (fun n o => KI.feats_value m (specK m c) c (fun _ _ => rfl) (fun _ => rfl) (fun _ _ => rfl) (fun _ => rfl) (fun _ => rfl)
      (fun _ _ => rfl) (fun _ => rfl) n o) n o

theorem frame_ki : Cert.frame_KernelIdeal := fun m ρ hpre =>
  (θ_run (Cert.KernelIdeal.defs (F := Ideal)) _ _).mono (fun _ h c => (h c).2) (run_ki m ρ hpre)

theorem frame_k : Cert.frame_Kernel := fun m ρ hpre =>
  (θ_run (Cert.Kernel.defs (F := Bits)) _ _).mono (fun _ h c => (h c).2)
    (KB.run_main m ρ (fun d => Cert.Kernel.Film.FEATS d (KB.VR m d)) (fun Vf O hV hmw c => KB.region_step m Vf O hV hmw c)
      (KB.tileObl _ KB.facts (KB.idxOK_ops m _ (KB.hr_of_pre m hpre))) (KB.vecSplit _) (KB.hu₀ _))

theorem frame_ri : Cert.frame_ReferenceIdeal := fun m ρ _ =>
  (θ_run (Cert.ReferenceIdeal.defs (F := Ideal)) _ _).mono (fun _ h c => (h c).2) (Cert.ReferenceIdeal.RefRun.run m ρ)

theorem algebraic : Cert.algebraic_KernelIdeal_ReferenceIdeal := by
  intro m ρ m' ρ' hpre hag
  refine ⟨fun c => fun j => Cert.Spec.outK (specK m c) (j 1) (j 2), ?_, ?_⟩
  · refine (θ_run (Cert.KernelIdeal.defs (F := Ideal)) _ _).mono (fun r h c => ⟨?_, (h c).2⟩) (run_ki m ρ hpre)
    funext j
    obtain ⟨z, n, o, rfl⟩ : ∃ (z : Fin 1) (n : Fin 10000) (o : Fin 128), j = ix3 z n o := ⟨j 0, j 1, j 2, eq_ix3 j⟩
    obtain rfl : z = 0 := Subsingleton.elim _ _
    exact ((h c).1 n o).trans (ker_value_K m hpre c n o)
  · refine (θ_run (Cert.ReferenceIdeal.defs (F := Ideal)) _ _).mono (fun r h c => ⟨(h c).1.trans ?_, (h c).2⟩)
      (Cert.ReferenceIdeal.RefRun.run m' ρ')
    funext j
    obtain ⟨z, n, o, rfl⟩ : ∃ (z : Fin 1) (n : Fin 10000) (o : Fin 128), j = ix3 z n o := ⟨j 0, j 1, j 2, eq_ix3 j⟩
    obtain rfl : z = 0 := Subsingleton.elim _ _
    exact ref_value m m' hpre hag c n o

theorem claim_all : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
-- ==== Proof.lean ====
import proofs.«204698_g79517024518204_fold_wed_m_581_46_alg».proof.Defs
import proofs.«204698_g79517024518204_fold_wed_m_581_46_alg».proof.Proof.Assemble

noncomputable section

namespace Cert.Proof

theorem claim : Cert.Claim := claim_all

end Cert.Proof

end
